-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v71)) (v1 : (c : Dev Cert.KernelIdeal.nD) → Buf (Elt Ideal) ((c.tc : Thread Cert.KernelIdeal.nD Cert.KernelIdeal.τ).loc Cert.KernelIdeal.main_arg2)) (v2 : (c : Dev Cert.KernelIdeal.nD) → Buf (Elt Ideal) ((c.tc : Thread Cert.KernelIdeal.nD Cert.KernelIdeal.τ).loc Cert.KernelIdeal.main_arg3)) (v3 : (c : Dev Cert.KernelIdeal.nD) → Buf (Elt Ideal) ((c.tc : Thread Cert.KernelIdeal.nD Cert.KernelIdeal.τ).loc Cert.KernelIdeal.main_arg4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_arg4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg4) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S2x128x16384 : Shape := ⟨3, ![2, 128, 16384]⟩
abbrev S2x3x16384 : Shape := ⟨3, ![2, 3, 16384]⟩
abbrev S2x3x4096 : Shape := ⟨3, ![2, 3, 4096]⟩
abbrev S2x4096x16 : Shape := ⟨3, ![2, 4096, 16]⟩
abbrev S64x128 : Shape := ⟨2, ![64, 128]⟩
abbrev S64 : Shape := ⟨1, ![64]⟩
abbrev S16x3 : Shape := ⟨2, ![16, 3]⟩
abbrev S16x64x64 : Shape := ⟨3, ![16, 64, 64]⟩
abbrev S128x64 : Shape := ⟨2, ![128, 64]⟩
abbrev S128 : Shape := ⟨1, ![128]⟩
abbrev S_ : Shape := ⟨0, ![]⟩

class Facts : Prop where
  bcast_S_S2x128x16384 : S_.BroadcastsInDim S2x128x16384 (![] : Fin 0 → Fin S2x128x16384.rank)
  reducesTo_S2x128x16384_S_d0_1_2 : S2x128x16384.ReducesTo [0, 1, 2] S_
  h_S_ : 0 < S_.numel
  bcast_S_S2x3x16384 : S_.BroadcastsInDim S2x3x16384 (![] : Fin 0 → Fin S2x3x16384.rank)
  reducesTo_S2x3x16384_S_d0_1_2 : S2x3x16384.ReducesTo [0, 1, 2] S_
  bcast_S_S2x3x4096 : S_.BroadcastsInDim S2x3x4096 (![] : Fin 0 → Fin S2x3x4096.rank)
  reducesTo_S2x3x4096_S_d0_1_2 : S2x3x4096.ReducesTo [0, 1, 2] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S16x3 : S_.BroadcastsInDim S16x3 (![] : Fin 0 → Fin S16x3.rank)
  reducesTo_S16x3_S_d0_1 : S16x3.ReducesTo [0, 1] S_
  bcast_S_S16x64x64 : S_.BroadcastsInDim S16x64x64 (![] : Fin 0 → Fin S16x64x64.rank)
  reducesTo_S16x64x64_S_d0_1_2 : S16x64x64.ReducesTo [0, 1, 2] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S2x4096x16 : S_.BroadcastsInDim S2x4096x16 (![] : Fin 0 → Fin S2x4096x16.rank)
  reducesTo_S2x4096x16_S_d0_1_2 : S2x4096x16.ReducesTo [0, 1, 2] S_

variable [Facts]

def fn_part5 {F : FTy → Type} [FloatOps F] (main_arg4 : IVec S2x4096x16 32) (main_v78 : IVec S_ 1) (main_v84 : IVec S_ 1) : IVec S_ 1 :=
  let main_v85 : IVec S_ 1 := andi main_v78 main_v84
  let main_c_33 : IVec S_ 32 := constantI S_ 32 0#32
  let main_v86 : IVec S2x4096x16 32 := broadcastInDim S2x4096x16 ![] bcast_S_S2x4096x16 main_c_33
  let main_v87 : IVec S2x4096x16 1 := cmpi .sge main_arg4 main_v86
  let main_c_34 : IVec S_ 32 := constantI S_ 32 1#32
  let main_v88 : IVec S2x4096x16 32 := broadcastInDim S2x4096x16 ![] bcast_S_S2x4096x16 main_c_34
  let main_v89 : IVec S2x4096x16 1 := cmpi .sle main_arg4 main_v88
  let main_v90 : IVec S2x4096x16 1 := andi main_v87 main_v89
  let main_c_35 : IVec S_ 1 := constantI S_ 1 1#1
  let main_v91 : IVec S_ 1 := (fun x v => Host.reduce IntOp.andi x v reducesTo_S2x4096x16_S_d0_1_2 h_S_) main_v90 main_c_35
  let main_v92 : IVec S_ 1 := andi main_v85 main_v91
  main_v92

def fn_part4 {F : FTy → Type} [FloatOps F] (main_arg3 : IVec S2x4096x16 32) (main_arg4 : IVec S2x4096x16 32) (main_arg16 : FVec F S128 .f32) (main_arg17 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_c_30 : IVec S_ 32 := constantI S_ 32 0#32
  let main_v79 : IVec S2x4096x16 32 := broadcastInDim S2x4096x16 ![] bcast_S_S2x4096x16 main_c_30
  let main_v80 : IVec S2x4096x16 1 := cmpi .sge main_arg3 main_v79
  let main_c_31 : IVec S_ 32 := constantI S_ 32 16383#32
  let main_v81 : IVec S2x4096x16 32 := broadcastInDim S2x4096x16 ![] bcast_S_S2x4096x16 main_c_31
  let main_v82 : IVec S2x4096x16 1 := cmpi .sle main_arg3 main_v81
  let main_v83 : IVec S2x4096x16 1 := andi main_v80 main_v82
  let main_c_32 : IVec S_ 1 := constantI S_ 1 1#1
  let main_v84 : IVec S_ 1 := (fun x v => Host.reduce IntOp.andi x v reducesTo_S2x4096x16_S_d0_1_2 h_S_) main_v83 main_c_32
  fn_part5 (F := F) main_arg4 main_v78 main_v84

def fn_part3 {F : FTy → Type} [FloatOps F] (main_arg3 : IVec S2x4096x16 32) (main_arg4 : IVec S2x4096x16 32) (main_arg13 : FVec F S64 .f32) (main_arg14 : FVec F S128x64 .f32) (main_arg15 : FVec F S128 .f32) (main_arg16 : FVec F S128 .f32) (main_arg17 : FVec F S128 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S128x64 .f32 := Host.absf main_arg14
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg3 main_arg4 main_arg16 main_arg17 main_v63 main_v67

def fn_part2 {F : FTy → Type} [FloatOps F] (main_arg3 : IVec S2x4096x16 32) (main_arg4 : IVec S2x4096x16 32) (main_arg9 : FVec F S16x3 .f32) (main_arg10 : FVec F S16x64x64 .f32) (main_arg11 : FVec F S64 .f32) (main_arg12 : FVec F S64 .f32) (main_arg13 : FVec F S64 .f32) (main_arg14 : FVec F S128x64 .f32) (main_arg15 : FVec F S128 .f32) (main_arg16 : FVec F S128 .f32) (main_arg17 : FVec F S128 .f32) (main_v33 : IVec S_ 1) : IVec S_ 1 :=
  let main_v34 : FVec F S16x3 .f32 := Host.absf main_arg9
  let main_cst_12 : FVec F S_ .f32 := constant S_ .f32 0x7F800000#32
  let main_v35 : FVec F S16x3 .f32 := broadcastInDim S16x3 ![] bcast_S_S16x3 main_cst_12
  let main_v36 : IVec S16x3 1 := cmpf .olt main_v34 main_v35
  let main_c_13 : IVec S_ 1 := constantI S_ 1 1#1
  let main_v37 : IVec S_ 1 := (fun x v => Host.reduce IntOp.andi x v reducesTo_S16x3_S_d0_1 h_S_) main_v36 main_c_13
  let main_v38 : IVec S_ 1 := andi main_v33 main_v37
  let main_v39 : FVec F S16x64x64 .f32 := Host.absf main_arg10
  let main_cst_14 : FVec F S_ .f32 := constant S_ .f32 0x7F800000#32
  let main_v40 : FVec F S16x64x64 .f32 := broadcastInDim S16x64x64 ![] bcast_S_S16x64x64 main_cst_14
  let main_v41 : IVec S16x64x64 1 := cmpf .olt main_v39 main_v40
  let main_c_15 : IVec S_ 1 := constantI S_ 1 1#1
  let main_v42 : IVec S_ 1 := (fun x v => Host.reduce IntOp.andi x v reducesTo_S16x64x64_S_d0_1_2 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg3 main_arg4 main_arg13 main_arg14 main_arg15 main_arg16 main_arg17 main_v48 main_v49 main_v50

def fn_part1 {F : FTy → Type} [FloatOps F] (main_arg3 : IVec S2x4096x16 32) (main_arg4 : IVec S2x4096x16 32) (main_arg6 : FVec F S64 .f32) (main_arg7 : FVec F S64 .f32) (main_arg8 : FVec F S64 .f32) (main_arg9 : FVec F S16x3 .f32) (main_arg10 : FVec F S16x64x64 .f32) (main_arg11 : FVec F S64 .f32) (main_arg12 : FVec F S64 .f32) (main_arg13 : FVec F S64 .f32) (main_arg14 : FVec F S128x64 .f32) (main_arg15 : FVec F S128 .f32) (main_arg16 : FVec F S128 .f32) (main_arg17 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg3 main_arg4 main_arg9 main_arg10 main_arg11 main_arg12 main_arg13 main_arg14 main_arg15 main_arg16 main_arg17 main_v33

def fn {F : FTy → Type} [FloatOps F] (main_arg0 : FVec F S2x128x16384 .f32) (main_arg1 : FVec F S2x3x16384 .f32) (main_arg2 : FVec F S2x3x4096 .f32) (main_arg3 : IVec S2x4096x16 32) (main_arg4 : IVec S2x4096x16 32) (main_arg5 : FVec F S64x128 .f32) (main_arg6 : FVec F S64 .f32) (main_arg7 : FVec F S64 .f32) (main_arg8 : FVec F S64 .f32) (main_arg9 : FVec F S16x3 .f32) (main_arg10 : FVec F S16x64x64 .f32) (main_arg11 : FVec F S64 .f32) (main_arg12 : FVec F S64 .f32) (main_arg13 : FVec F S64 .f32) (main_arg14 : FVec F S128x64 .f32) (main_arg15 : FVec F S128 .f32) (main_arg16 : FVec F S128 .f32) (main_arg17 : FVec F S128 .f32) : IVec S_ 1 :=
  let main_v0 : FVec F S2x128x16384 .f32 := Host.absf main_arg0
  let main_cst : FVec F S_ .f32 := constant S_ .f32 0x7F800000#32
  let main_v1 : FVec F S2x128x16384 .f32 := broadcastInDim S2x128x16384 ![] bcast_S_S2x128x16384 main_cst
  let main_v2 : IVec S2x128x16384 1 := cmpf .olt main_v0 main_v1
  let main_c : IVec S_ 1 := constantI S_ 1 1#1
  let main_v3 : IVec S_ 1 := (fun x v => Host.reduce IntOp.andi x v reducesTo_S2x128x16384_S_d0_1_2 h_S_) main_v2 main_c
  let main_v4 : FVec F S2x3x16384 .f32 := Host.absf main_arg1
  let main_cst_0 : FVec F S_ .f32 := constant S_ .f32 0x7F800000#32
  let main_v5 : FVec F S2x3x16384 .f32 := broadcastInDim S2x3x16384 ![] bcast_S_S2x3x16384 main_cst_0
  let main_v6 : IVec S2x3x16384 1 := cmpf .olt main_v4 main_v5
  let main_c_1 : IVec S_ 1 := constantI S_ 1 1#1
  let main_v7 : IVec S_ 1 := (fun x v => Host.reduce IntOp.andi x v reducesTo_S2x3x16384_S_d0_1_2 h_S_) main_v6 main_c_1
  let main_v8 : IVec S_ 1 := andi main_v3 main_v7
  let main_v9 : FVec F S2x3x4096 .f32 := Host.absf main_arg2
  let main_cst_2 : FVec F S_ .f32 := constant S_ .f32 0x7F800000#32
  let main_v10 : FVec F S2x3x4096 .f32 := broadcastInDim S2x3x4096 ![] bcast_S_S2x3x4096 main_cst_2
  let main_v11 : IVec S2x3x4096 1 := cmpf .olt main_v9 main_v10
  let main_c_3 : IVec S_ 1 := constantI S_ 1 1#1
  let main_v12 : IVec S_ 1 := (fun x v => Host.reduce IntOp.andi x v reducesTo_S2x3x4096_S_d0_1_2 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg3 main_arg4 main_arg6 main_arg7 main_arg8 main_arg9 main_arg10 main_arg11 main_arg12 main_arg13 main_arg14 main_arg15 main_arg16 main_arg17 main_v13 main_v16
-- ==== Kernel.lean ====
abbrev S2x128x16384 : Shape := ⟨3, ![2, 128, 16384]⟩
abbrev S2x3x16384 : Shape := ⟨3, ![2, 3, 16384]⟩
abbrev S2x3x4096 : Shape := ⟨3, ![2, 3, 4096]⟩
abbrev S2x4096x16 : Shape := ⟨3, ![2, 4096, 16]⟩
abbrev S64x128 : Shape := ⟨2, ![64, 128]⟩
abbrev S64 : Shape := ⟨1, ![64]⟩
abbrev S16x3 : Shape := ⟨2, ![16, 3]⟩
abbrev S16x64x64 : Shape := ⟨3, ![16, 64, 64]⟩
abbrev S128x64 : Shape := ⟨2, ![128, 64]⟩
abbrev S128 : Shape := ⟨1, ![128]⟩
abbrev S2x16384x3 : Shape := ⟨3, ![2, 16384, 3]⟩
abbrev S1x64 : Shape := ⟨2, ![1, 64]⟩
abbrev S2x16384x128 : Shape := ⟨3, ![2, 16384, 128]⟩
abbrev S1x128x1024 : Shape := ⟨3, ![1, 128, 1024]⟩
abbrev S1x1024x3 : Shape := ⟨3, ![1, 1024, 3]⟩
abbrev S1x1024x128 : Shape := ⟨3, ![1, 1024, 128]⟩
abbrev S128x1024 : Shape := ⟨2, ![128, 1024]⟩
abbrev S1024x64 : Shape := ⟨2, ![1024, 64]⟩
abbrev S1024x61 : Shape := ⟨2, ![1024, 61]⟩
abbrev S1024x3 : Shape := ⟨2, ![1024, 3]⟩
abbrev S1024x128 : Shape := ⟨2, ![1024, 128]⟩
abbrev S_ : Shape := ⟨0, ![]⟩
abbrev S2 : Shape := ⟨1, ![2]⟩
abbrev S2x1x1 : Shape := ⟨3, ![2, 1, 1]⟩
abbrev S32768x128 : Shape := ⟨2, ![32768, 128]⟩
abbrev S131072x128 : Shape := ⟨2, ![131072, 128]⟩
abbrev S32x128 : Shape := ⟨2, ![32, 128]⟩
abbrev S128x128 : Shape := ⟨2, ![128, 128]⟩
abbrev S1x128 : Shape := ⟨2, ![1, 128]⟩
abbrev S2x4096x16x128 : Shape := ⟨4, ![2, 4096, 16, 128]⟩
abbrev S2x4096x3 : Shape := ⟨3, ![2, 4096, 3]⟩
abbrev S3x16 : Shape := ⟨2, ![3, 16]⟩
abbrev S2x4096x64 : Shape := ⟨3, ![2, 4096, 64]⟩
abbrev S1x512x16x128 : Shape := ⟨4, ![1, 512, 16, 128]⟩
abbrev S1x512x3 : Shape := ⟨3, ![1, 512, 3]⟩
abbrev S1x512x16 : Shape := ⟨3, ![1, 512, 16]⟩
abbrev S1x512x64 : Shape := ⟨3, ![1, 512, 64]⟩
abbrev S512x16x128 : Shape := ⟨3, ![512, 16, 128]⟩
abbrev S512x16x64 : Shape := ⟨3, ![512, 16, 64]⟩
abbrev S1x1x64 : Shape := ⟨3, ![1, 1, 64]⟩
abbrev S1x16 : Shape := ⟨2, ![1, 16]⟩
abbrev S16 : Shape := ⟨1, ![16]⟩
abbrev S1x1x16 : Shape := ⟨3, ![1, 1, 16]⟩
abbrev S512x3 : Shape := ⟨2, ![512, 3]⟩
abbrev S512x16x1 : Shape := ⟨3, ![512, 16, 1]⟩
abbrev S512x1 : Shape := ⟨2, ![512, 1]⟩
abbrev S512x1x1 : Shape := ⟨3, ![512, 1, 1]⟩
abbrev S512x16x16 : Shape := ⟨3, ![512, 16, 16]⟩
abbrev S512x16 : Shape := ⟨2, ![512, 16]⟩
abbrev S512x64 : Shape := ⟨2, ![512, 64]⟩
abbrev S512x1x64 : Shape := ⟨3, ![512, 1, 64]⟩
abbrev S1x64x64 : Shape := ⟨3, ![1, 64, 64]⟩
abbrev S64x64 : Shape := ⟨2, ![64, 64]⟩
abbrev S2x4096x128 : Shape := ⟨3, ![2, 4096, 128]⟩
abbrev S1x256x64 : Shape := ⟨3, ![1, 256, 64]⟩
abbrev S1x256x16x128 : Shape := ⟨4, ![1, 256, 16, 128]⟩
abbrev S1x256x16 : Shape := ⟨3, ![1, 256, 16]⟩
abbrev S1x256x128 : Shape := ⟨3, ![1, 256, 128]⟩
abbrev S256x64 : Shape := ⟨2, ![256, 64]⟩
abbrev S256x128 : Shape := ⟨2, ![256, 128]⟩
abbrev S256x16x128 : Shape := ⟨3, ![256, 16, 128]⟩
abbrev S256x16 : Shape := ⟨2, ![256, 16]⟩
abbrev S256x16x1 : Shape := ⟨3, ![256, 16, 1]⟩
abbrev S2x128x4096 : Shape := ⟨3, ![2, 128, 4096]⟩
abbrev S1x512x128 : Shape := ⟨3, ![1, 512, 128]⟩
abbrev S1x128x512 : Shape := ⟨3, ![1, 128, 512]⟩
abbrev S512x128 : Shape := ⟨2, ![512, 128]⟩
abbrev S128x512 : Shape := ⟨2, ![128, 512]⟩

abbrev nBuf : Table → Nat
  | .hbm => 108
  | .local .tc .vmem => 51
  | .local .scVector .vmem => 6
  | _ => 0

abbrev bufTy : (tb : Table) → Fin (nBuf tb) → BufTy
  | .hbm, ⟨0, _⟩ => ⟨S2x128x16384, .f32⟩
  | .hbm, ⟨1, _⟩ => ⟨S2x3x16384, .f32⟩
  | .hbm, ⟨2, _⟩ => ⟨S2x3x4096, .f32⟩
  | .hbm, ⟨3, _⟩ => ⟨S2x4096x16, .i32⟩
  | .hbm, ⟨4, _⟩ => ⟨S2x4096x16, .i32⟩
  | .hbm, ⟨5, _⟩ => ⟨S64x128, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S16x3, .f32⟩
  | .hbm, ⟨10, _⟩ => ⟨S16x64x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S128x64, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S2x4096x16, .f32⟩
  | .hbm, ⟨19, _⟩ => ⟨S2x16384x3, .f32⟩
  | .hbm, ⟨20, _⟩ => ⟨S1x64, .f32⟩
  | .hbm, ⟨21, _⟩ => ⟨S2x16384x128, .f32⟩
  | .hbm, ⟨22, _⟩ => ⟨S2x16384x128, .f32⟩
  | .hbm, ⟨23, _⟩ => ⟨S1x64, .f32⟩
  | .hbm, ⟨24, _⟩ => ⟨S1x64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S64, .f32⟩
  | .hbm, ⟨41, _⟩ => ⟨S64, .f32⟩
  | .hbm, ⟨42, _⟩ => ⟨S2, .i32⟩
  | .hbm, ⟨43, _⟩ => ⟨S_, .i32⟩
  | .hbm, ⟨44, _⟩ => ⟨S2, .i32⟩
  | .hbm, ⟨45, _⟩ => ⟨S2, .i32⟩
  | .hbm, ⟨46, _⟩ => ⟨S2x1x1, .i32⟩
  | .hbm, ⟨47, _⟩ => ⟨S2x4096x16, .i32⟩
  | .hbm, ⟨48, _⟩ => ⟨S2x4096x16, .i32⟩
  | .hbm, ⟨49, _⟩ => ⟨S1024x128, .i32⟩
  | .hbm, ⟨50, _⟩ => ⟨S32768x128, .f32⟩
  | .hbm, ⟨51, _⟩ => ⟨S131072x128, .f32⟩
  | .hbm, ⟨52, _⟩ => ⟨S32768x128, .f32⟩
  | .hbm, ⟨53, _⟩ => ⟨S131072x128, .f32⟩
  | .hbm, ⟨54, _⟩ => ⟨S2x4096x16x128, .f32⟩
  | .hbm, ⟨55, _⟩ => ⟨S2x4096x16x128, .f32⟩
  | .hbm, ⟨56, _⟩ => ⟨S2x4096x3, .f32⟩
  | .hbm, ⟨57, _⟩ => ⟨S3x16, .f32⟩
  | .hbm, ⟨58, _⟩ => ⟨S1x64, .f32⟩
  | .hbm, ⟨59, _⟩ => ⟨S1x64, .f32⟩
  | .hbm, ⟨60, _⟩ => ⟨S1x64, .f32⟩
  | .hbm, ⟨61, _⟩ => ⟨S2x4096x64, .f32⟩
  | .hbm, ⟨62, _⟩ => ⟨S1x64, .f32⟩
  | .hbm, ⟨63, _⟩ => ⟨S1x64, .f32⟩
  | .hbm, ⟨64, _⟩ => ⟨S64, .f32⟩
  | .hbm, ⟨65, _⟩ => ⟨S_, .f32⟩
  | .hbm, ⟨66, _⟩ => ⟨S64, .f32⟩
  | .hbm, ⟨67, _⟩ => ⟨S64, .f32⟩
  | .hbm, ⟨68, _⟩ => ⟨S64, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S64, .f32⟩
  | .hbm, ⟨73, _⟩ => ⟨S64, .f32⟩
  | .hbm, ⟨74, _⟩ => ⟨S_, .f32⟩
  | .hbm, ⟨75, _⟩ => ⟨S64, .f32⟩
  | .hbm, ⟨76, _⟩ => ⟨S64, .f32⟩
  | .hbm, ⟨77, _⟩ => ⟨S64, .f32⟩
  | .hbm, ⟨78, _⟩ => ⟨S64, .f32⟩
  | .hbm, ⟨79, _⟩ => ⟨S64, .f32⟩
  | .hbm, ⟨80, _⟩ => ⟨S64, .f32⟩
  | .hbm, ⟨81, _⟩ => ⟨S1x64, .f32⟩
  | .hbm, ⟨82, _⟩ => ⟨S1x64, .f32⟩
  | .hbm, ⟨83, _⟩ => ⟨S1x128, .f32⟩
  | .hbm, ⟨84, _⟩ => ⟨S2x4096x128, .f32⟩
  | .hbm, ⟨85, _⟩ => ⟨S2x4096x128, .f32⟩
  | .hbm, ⟨86, _⟩ => ⟨S1x128, .f32⟩
  | .hbm, ⟨87, _⟩ => ⟨S1x128, .f32⟩
  | .hbm, ⟨88, _⟩ => ⟨S128, .f32⟩
  | .hbm, ⟨89, _⟩ => ⟨S_, .f32⟩
  | .hbm, ⟨90, _⟩ => ⟨S128, .f32⟩
  | .hbm, ⟨91, _⟩ => ⟨S128, .f32⟩
  | .hbm, ⟨92, _⟩ => ⟨S128, .f32⟩
  | .hbm, ⟨93, _⟩ => ⟨S_, .f32⟩
  | .hbm, ⟨94, _⟩ => ⟨S128, .f32⟩
  | .hbm, ⟨95, _⟩ => ⟨S128, .f32⟩
  | .hbm, ⟨96, _⟩ => ⟨S128, .f32⟩
  | .hbm, ⟨97, _⟩ => ⟨S128, .f32⟩
  | .hbm, ⟨98, _⟩ => ⟨S_, .f32⟩
  | .hbm, ⟨99, _⟩ => ⟨S128, .f32⟩
  | .hbm, ⟨100, _⟩ => ⟨S128, .f32⟩
  | .hbm, ⟨101, _⟩ => ⟨S128, .f32⟩
  | .hbm, ⟨102, _⟩ => ⟨S128, .f32⟩
  | .hbm, ⟨103, _⟩ => ⟨S128, .f32⟩
  | .hbm, ⟨104, _⟩ => ⟨S128, .f32⟩
  | .hbm, ⟨105, _⟩ => ⟨S1x128, .f32⟩
  | .hbm, ⟨106, _⟩ => ⟨S1x128, .f32⟩
  | .hbm, ⟨107, _⟩ => ⟨S2x128x4096, .f32⟩
  | .local .tc .vmem, ⟨0, _⟩ => ⟨S1x128x1024, .f32⟩
  | .local .tc .vmem, ⟨1, _⟩ => ⟨S1x128x1024, .f32⟩
  | .local .tc .vmem, ⟨2, _⟩ => ⟨S1x1024x3, .f32⟩
  | .local .tc .vmem, ⟨3, _⟩ => ⟨S1x1024x3, .f32⟩
  | .local .tc .vmem, ⟨4, _⟩ => ⟨S64x128, .f32⟩
  | .local .tc .vmem, ⟨5, _⟩ => ⟨S1x64, .f32⟩
  | .local .tc .vmem, ⟨6, _⟩ => ⟨S1x1024x128, .f32⟩
  | .local .tc .vmem, ⟨7, _⟩ => ⟨S1x1024x128, .f32⟩
  | .local .tc .vmem, ⟨8, _⟩ => ⟨S1x1024x128, .f32⟩
  | .local .tc .vmem, ⟨9, _⟩ => ⟨S1x1024x128, .f32⟩
  | .local .tc .vmem, ⟨10, _⟩ => ⟨S1x64, .f32⟩
  | .local .tc .vmem, ⟨11, _⟩ => ⟨S1x64, .f32⟩
  | .local .tc .vmem, ⟨12, _⟩ => ⟨S1x512x16x128, .f32⟩
  | .local .tc .vmem, ⟨13, _⟩ => ⟨S1x512x16x128, .f32⟩
  | .local .tc .vmem, ⟨14, _⟩ => ⟨S1x512x3, .f32⟩
  | .local .tc .vmem, ⟨15, _⟩ => ⟨S1x512x3, .f32⟩
  | .local .tc .vmem, ⟨16, _⟩ => ⟨S1x512x16, .f32⟩
  | .local .tc .vmem, ⟨17, _⟩ => ⟨S1x512x16, .f32⟩
  | .local .tc .vmem, ⟨18, _⟩ => ⟨S3x16, .f32⟩
  | .local .tc .vmem, ⟨19, _⟩ => ⟨S16x64x64, .f32⟩
  | .local .tc .vmem, ⟨20, _⟩ => ⟨S1x64, .f32⟩
  | .local .tc .vmem, ⟨21, _⟩ => ⟨S1x64, .f32⟩
  | .local .tc .vmem, ⟨22, _⟩ => ⟨S1x64, .f32⟩
  | .local .tc .vmem, ⟨23, _⟩ => ⟨S1x512x64, .f32⟩
  | .local .tc .vmem, ⟨24, _⟩ => ⟨S1x512x64, .f32⟩
  | .local .tc .vmem, ⟨25, _⟩ => ⟨S1x64, .f32⟩
  | .local .tc .vmem, ⟨26, _⟩ => ⟨S1x64, .f32⟩
  | .local .tc .vmem, ⟨27, _⟩ => ⟨S1x256x64, .f32⟩
  | .local .tc .vmem, ⟨28, _⟩ => ⟨S1x256x64, .f32⟩
  | .local .tc .vmem, ⟨29, _⟩ => ⟨S1x256x16x128, .f32⟩
  | .local .tc .vmem, ⟨30, _⟩ => ⟨S1x256x16x128, .f32⟩
  | .local .tc .vmem, ⟨31, _⟩ => ⟨S1x256x16, .f32⟩
  | .local .tc .vmem, ⟨32, _⟩ => ⟨S1x256x16, .f32⟩
  | .local .tc .vmem, ⟨33, _⟩ => ⟨S128x64, .f32⟩
  | .local .tc .vmem, ⟨34, _⟩ => ⟨S1x64, .f32⟩
  | .local .tc .vmem, ⟨35, _⟩ => ⟨S1x64, .f32⟩
  | .local .tc .vmem, ⟨36, _⟩ => ⟨S1x128, .f32⟩
  | .local .tc .vmem, ⟨37, _⟩ => ⟨S1x256x128, .f32⟩
  | .local .tc .vmem, ⟨38, _⟩ => ⟨S1x256x128, .f32⟩
  | .local .tc .vmem, ⟨39, _⟩ => ⟨S1x256x128, .f32⟩
  | .local .tc .vmem, ⟨40, _⟩ => ⟨S1x256x128, .f32⟩
  | .local .tc .vmem, ⟨41, _⟩ => ⟨S1x128, .f32⟩
  | .local .tc .vmem, ⟨42, _⟩ => ⟨S1x128, .f32⟩
  | .local .tc .vmem, ⟨43, _⟩ => ⟨S1x512x128, .f32⟩
  | .local .tc .vmem, ⟨44, _⟩ => ⟨S1x512x128, .f32⟩
  | .local .tc .vmem, ⟨45, _⟩ => ⟨S1x512x128, .f32⟩
  | .local .tc .vmem, ⟨46, _⟩ => ⟨S1x512x128, .f32⟩
  | .local .tc .vmem, ⟨47, _⟩ => ⟨S1x128, .f32⟩
  | .local .tc .vmem, ⟨48, _⟩ => ⟨S1x128, .f32⟩
  | .local .tc .vmem, ⟨49, _⟩ => ⟨S1x128x512, .f32⟩
  | .local .tc .vmem, ⟨50, _⟩ => ⟨S1x128x512, .f32⟩
  | .local .scVector .vmem, ⟨0, _⟩ => ⟨S32x128, .i32⟩
  | .local .scVector .vmem, ⟨1, _⟩ => ⟨S128x128, .f32⟩
  | .local .scVector .vmem, ⟨2, _⟩ => ⟨S128x128, .f32⟩
  | .local .scVector .vmem, ⟨3, _⟩ => ⟨S32x128, .i32⟩
  | .local .scVector .vmem, ⟨4, _⟩ => ⟨S128x128, .f32⟩
  | .local .scVector .vmem, ⟨5, _⟩ => ⟨S128x128, .f32⟩
  | _, _ => ⟨S2x128x16384, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTables nBuf rfl bufTy 4 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3_0 : Ref sig .tc := ⟨.hbm, 21, rfl⟩
abbrev main_v3_1 : Ref sig .tc := ⟨.hbm, 22, rfl⟩
abbrev main_v3_2 : Ref sig .tc := ⟨.hbm, 23, rfl⟩
abbrev main_v3_3 : Ref sig .tc := ⟨.hbm, 24, rfl⟩
abbrev main_v4 : Ref sig .tc := ⟨.hbm, 25, rfl⟩
abbrev main_cst : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_1 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36_0 : Ref sig .tc := ⟨.hbm, 61, rfl⟩
abbrev main_v36_1 : Ref sig .tc := ⟨.hbm, 62, rfl⟩
abbrev main_v36_2 : Ref sig .tc := ⟨.hbm, 63, rfl⟩
abbrev main_v37 : Ref sig .tc := ⟨.hbm, 64, rfl⟩
abbrev main_cst_2 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_3 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_4 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54_0 : Ref sig .tc := ⟨.hbm, 84, rfl⟩
abbrev main_v54_1 : Ref sig .tc := ⟨.hbm, 85, rfl⟩
abbrev main_v54_2 : Ref sig .tc := ⟨.hbm, 86, rfl⟩
abbrev main_v54_3 : Ref sig .tc := ⟨.hbm, 87, rfl⟩
abbrev main_v55 : Ref sig .tc := ⟨.hbm, 88, rfl⟩
abbrev main_cst_5 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_6 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_7 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v25_scv : Ref sig .scVector := ⟨.hbm, 50, rfl⟩
abbrev main_v24_scv : Ref sig .scVector := ⟨.hbm, 49, rfl⟩
abbrev main_v26_scv : Ref sig .scVector := ⟨.hbm, 51, rfl⟩
abbrev main_v27_scv : Ref sig .scVector := ⟨.hbm, 52, rfl⟩
abbrev main_v28_scv : Ref sig .scVector := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc3_stg2_0 : Ref sig .tc := ⟨.vmem, 16, rfl⟩
abbrev cc3_stg2_1 : Ref sig .tc := ⟨.vmem, 17, rfl⟩
abbrev cc3_stg3_0 : Ref sig .tc := ⟨.vmem, 18, rfl⟩
abbrev cc3_stg4_0 : Ref sig .tc := ⟨.vmem, 19, rfl⟩
abbrev cc3_stg5_0 : Ref sig .tc := ⟨.vmem, 20, rfl⟩
abbrev cc3_stg6_0 : Ref sig .tc := ⟨.vmem, 21, rfl⟩
abbrev cc3_stg7_0 : Ref sig .tc := ⟨.vmem, 22, rfl⟩
abbrev cc3_stg8_0 : Ref sig .tc := ⟨.vmem, 23, rfl⟩
abbrev cc3_stg8_1 : Ref sig .tc := ⟨.vmem, 24, rfl⟩
abbrev cc3_stg9_0 : Ref sig .tc := ⟨.vmem, 25, rfl⟩
abbrev cc3_stg10_0 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg6_0 : Ref sig .tc := ⟨.vmem, 36, rfl⟩
abbrev cc4_stg7_0 : Ref sig .tc := ⟨.vmem, 37, rfl⟩
abbrev cc4_stg7_1 : Ref sig .tc := ⟨.vmem, 38, rfl⟩
abbrev cc4_stg8_0 : Ref sig .tc := ⟨.vmem, 39, rfl⟩
abbrev cc4_stg8_1 : Ref sig .tc := ⟨.vmem, 40, rfl⟩
abbrev cc4_stg9_0 : Ref sig .tc := ⟨.vmem, 41, rfl⟩
abbrev cc4_stg10_0 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg4_1 : Ref sig .tc := ⟨.vmem, 50, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc2_scratch0 : Ref sig .scVector := ⟨.vmem, 3, rfl⟩
abbrev cc2_scratch1 : Ref sig .scVector := ⟨.vmem, 4, rfl⟩
abbrev cc2_scratch2 : Ref sig .scVector := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem4_0 : DmaSem sig := 29
abbrev cc3_sem5_0 : DmaSem sig := 30
abbrev cc3_sem6_0 : DmaSem sig := 31
abbrev cc3_sem7_0 : DmaSem sig := 32
abbrev cc3_sem8_0 : DmaSem sig := 33
abbrev cc3_sem8_1 : DmaSem sig := 34
abbrev cc3_sem9_0 : DmaSem sig := 35
abbrev cc3_sem10_0 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem2_1 : DmaSem sig := 42
abbrev cc4_sem3_0 : DmaSem sig := 43
abbrev cc4_sem4_0 : DmaSem sig := 44
abbrev cc4_sem5_0 : DmaSem sig := 45
abbrev cc4_sem6_0 : DmaSem sig := 46
abbrev cc4_sem7_0 : DmaSem sig := 47
abbrev cc4_sem7_1 : DmaSem sig := 48
abbrev cc4_sem8_0 : DmaSem sig := 49
abbrev cc4_sem8_1 : DmaSem sig := 50
abbrev cc4_sem9_0 : DmaSem sig := 51
abbrev cc4_sem10_0 : DmaSem sig := 52
abbrev cc5_sem0_0 : DmaSem sig := 53
abbrev cc5_sem0_1 : DmaSem sig := 54
abbrev cc5_sem1_0 : DmaSem sig := 55
abbrev cc5_sem1_1 : DmaSem sig := 56
abbrev cc5_sem2_0 : DmaSem sig := 57
abbrev cc5_sem3_0 : DmaSem sig := 58
abbrev cc5_sem4_0 : DmaSem sig := 59
abbrev cc5_sem4_1 : DmaSem sig := 60
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_6_r0 : BitVec 32 := 0#32
  ![v2.toNat, 0]
@[reducible] def k1_t1_loop : Scf.Loop 32 :=
  let c0_i32_4 : BitVec 32 := 0#32
  let c16_i32 : BitVec 32 := 16#32
  let v6 : BitVec 32 := Scalar.addi c0_i32_4 c16_i32
  let c1_i32 : BitVec 32 := 1#32
  ⟨c0_i32_4, v6, c1_i32⟩
def k1_off2 (k1_t1 : Fin k1_t1_loop.trips) : Fin 2 → Nat :=
  let c2_i32_6 : BitVec 32 := 2#32
  let c0_i32_4 : BitVec 32 := 0#32
  let c1_i32 : BitVec 32 := 1#32
  let arg10 : BitVec 32 := Scf.iv c0_i32_4 c1_i32 k1_t1
  let v7 : BitVec 32 := Scalar.muli c2_i32_6 arg10
  let c1_i32_7 : BitVec 32 := 1#32
  let v8 : BitVec 32 := Scalar.addi v7 c1_i32_7
  let c0_i32_8 : BitVec 32 := 0#32
  ![v8.toNat, 0]
def k1_off3 (k1_t1 : Fin k1_t1_loop.trips) : Fin 2 → Nat :=
  let c2_i32_11 : BitVec 32 := 2#32
  let c0_i32_4 : BitVec 32 := 0#32
  let c1_i32 : BitVec 32 := 1#32
  let arg10 : BitVec 32 := Scf.iv c0_i32_4 c1_i32 k1_t1
  let v12 : BitVec 32 := Scalar.muli c2_i32_11 arg10
  let c0_i32_12 : BitVec 32 := 0#32
  ![v12.toNat, 0]
def k1_off4 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_15 : BitVec 32 := 32#32
  let v16 : BitVec 32 := Scalar.muli v1 c32_i32_15
  let c2_i32_11 : BitVec 32 := 2#32
  let c0_i32_4 : BitVec 32 := 0#32
  let c1_i32 : BitVec 32 := 1#32
  let arg10 : BitVec 32 := Scf.iv c0_i32_4 c1_i32 k1_t1
  let v12 : BitVec 32 := Scalar.muli c2_i32_11 arg10
  let v17 : BitVec 32 := Scalar.addi v16 v12
  let c128_i32 : BitVec 32 := 128#32
  let v18 : BitVec 32 := Scalar.muli v17 c128_i32
  let c0_i32_24_r1 : BitVec 32 := 0#32
  ![v18.toNat, 0]
def k1_cond1 (k1_t1 : Fin k1_t1_loop.trips) : BitVec 1 :=
  let c0_i32_4 : BitVec 32 := 0#32
  let c1_i32 : BitVec 32 := 1#32
  let arg10 : BitVec 32 := Scf.iv c0_i32_4 c1_i32 k1_t1
  let c15_i32 : BitVec 32 := 15#32
  let v19 : BitVec 1 := Scalar.cmpi .slt arg10 c15_i32
  let v20 : BitVec 32 := Scalar.extui v19
  let c0_i32_16 : BitVec 32 := 0#32
  let v21 : BitVec 1 := Scalar.cmpi .ne v20 c0_i32_16
  v21

def k1_off5 (k1_t1 : Fin k1_t1_loop.trips) : Fin 2 → Nat :=
  let c2_i32_24 : BitVec 32 := 2#32
  let c0_i32_4 : BitVec 32 := 0#32
  let c1_i32 : BitVec 32 := 1#32
  let arg10 : BitVec 32 := Scf.iv c0_i32_4 c1_i32 k1_t1
  let v30 : BitVec 32 := Scalar.muli c2_i32_24 arg10
  let c2_i32_25 : BitVec 32 := 2#32
  let v31 : BitVec 32 := Scalar.addi v30 c2_i32_25
  let c0_i32_26 : BitVec 32 := 0#32
  ![v31.toNat, 0]
def k1_off6 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_22 : BitVec 32 := 32#32
  let v27 : BitVec 32 := Scalar.muli v1 c32_i32_22
  let c2_i32_17 : BitVec 32 := 2#32
  let c0_i32_4 : BitVec 32 := 0#32
  let c1_i32 : BitVec 32 := 1#32
  let arg10 : BitVec 32 := Scf.iv c0_i32_4 c1_i32 k1_t1
  let v22 : BitVec 32 := Scalar.muli c2_i32_17 arg10
  let c1_i32_18 : BitVec 32 := 1#32
  let v23 : BitVec 32 := Scalar.addi v22 c1_i32_18
  let v28 : BitVec 32 := Scalar.addi v27 v23
  let c128_i32_23 : BitVec 32 := 128#32
  let v29 : BitVec 32 := Scalar.muli v28 c128_i32_23
  let c0_i32_24_r2 : BitVec 32 := 0#32
  ![v29.toNat, 0]
abbrev grid2 : Pipeline.Grid := ⟨2, ![2, 16], ![false, false]⟩

def k2_off1 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_6_r0 : BitVec 32 := 0#32
  ![v2.toNat, 0]
@[reducible] def k2_t1_loop : Scf.Loop 32 :=
  let c0_i32_4 : BitVec 32 := 0#32
  let c16_i32 : BitVec 32 := 16#32
  let v6 : BitVec 32 := Scalar.addi c0_i32_4 c16_i32
  let c1_i32 : BitVec 32 := 1#32
  ⟨c0_i32_4, v6, c1_i32⟩
def k2_off2 (k2_t1 : Fin k2_t1_loop.trips) : Fin 2 → Nat :=
  let c2_i32_6 : BitVec 32 := 2#32
  let c0_i32_4 : BitVec 32 := 0#32
  let c1_i32 : BitVec 32 := 1#32
  let arg10 : BitVec 32 := Scf.iv c0_i32_4 c1_i32 k2_t1
  let v7 : BitVec 32 := Scalar.muli c2_i32_6 arg10
  let c1_i32_7 : BitVec 32 := 1#32
  let v8 : BitVec 32 := Scalar.addi v7 c1_i32_7
  let c0_i32_8 : BitVec 32 := 0#32
  ![v8.toNat, 0]
def k2_off3 (k2_t1 : Fin k2_t1_loop.trips) : Fin 2 → Nat :=
  let c2_i32_11 : BitVec 32 := 2#32
  let c0_i32_4 : BitVec 32 := 0#32
  let c1_i32 : BitVec 32 := 1#32
  let arg10 : BitVec 32 := Scf.iv c0_i32_4 c1_i32 k2_t1
  let v12 : BitVec 32 := Scalar.muli c2_i32_11 arg10
  let c0_i32_12 : BitVec 32 := 0#32
  ![v12.toNat, 0]
def k2_off4 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_15 : BitVec 32 := 32#32
  let v16 : BitVec 32 := Scalar.muli v1 c32_i32_15
  let c2_i32_11 : BitVec 32 := 2#32
  let c0_i32_4 : BitVec 32 := 0#32
  let c1_i32 : BitVec 32 := 1#32
  let arg10 : BitVec 32 := Scf.iv c0_i32_4 c1_i32 k2_t1
  let v12 : BitVec 32 := Scalar.muli c2_i32_11 arg10
  let v17 : BitVec 32 := Scalar.addi v16 v12
  let c128_i32 : BitVec 32 := 128#32
  let v18 : BitVec 32 := Scalar.muli v17 c128_i32
  let c0_i32_24_r1 : BitVec 32 := 0#32
  ![v18.toNat, 0]
def k2_cond1 (k2_t1 : Fin k2_t1_loop.trips) : BitVec 1 :=
  let c0_i32_4 : BitVec 32 := 0#32
  let c1_i32 : BitVec 32 := 1#32
  let arg10 : BitVec 32 := Scf.iv c0_i32_4 c1_i32 k2_t1
  let c15_i32 : BitVec 32 := 15#32
  let v19 : BitVec 1 := Scalar.cmpi .slt arg10 c15_i32
  let v20 : BitVec 32 := Scalar.extui v19
  let c0_i32_16 : BitVec 32 := 0#32
  let v21 : BitVec 1 := Scalar.cmpi .ne v20 c0_i32_16
  v21

def k2_off5 (k2_t1 : Fin k2_t1_loop.trips) : Fin 2 → Nat :=
  let c2_i32_24 : BitVec 32 := 2#32
  let c0_i32_4 : BitVec 32 := 0#32
  let c1_i32 : BitVec 32 := 1#32
  let arg10 : BitVec 32 := Scf.iv c0_i32_4 c1_i32 k2_t1
  let v30 : BitVec 32 := Scalar.muli c2_i32_24 arg10
  let c2_i32_25 : BitVec 32 := 2#32
  let v31 : BitVec 32 := Scalar.addi v30 c2_i32_25
  let c0_i32_26 : BitVec 32 := 0#32
  ![v31.toNat, 0]
def k2_off6 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_22 : BitVec 32 := 32#32
  let v27 : BitVec 32 := Scalar.muli v1 c32_i32_22
  let c2_i32_17 : BitVec 32 := 2#32
  let c0_i32_4 : BitVec 32 := 0#32
  let c1_i32 : BitVec 32 := 1#32
  let arg10 : BitVec 32 := Scf.iv c0_i32_4 c1_i32 k2_t1
  let v22 : BitVec 32 := Scalar.muli c2_i32_17 arg10
  let c1_i32_18 : BitVec 32 := 1#32
  let v23 : BitVec 32 := Scalar.addi v22 c1_i32_18
  let v28 : BitVec 32 := Scalar.addi v27 v23
  let c128_i32_23 : BitVec 32 := 128#32
  let v29 : BitVec 32 := Scalar.muli v28 c128_i32_23
  let c0_i32_24_r2 : BitVec 32 := 0#32
  ![v29.toNat, 0]
abbrev grid3 : Pipeline.Grid := ⟨2, ![2, 8], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1x512x16x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x512x3 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x512x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 1 → Memref sig .tc .vmem S3x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S16x64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 2 → Memref sig .tc .vmem S1x512x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev stage3_9 : Fin 1 → Memref sig .tc .vmem S1x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false, false]

abbrev stage3_10 : Fin 1 → Memref sig .tc .vmem S1x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false, false]

abbrev grid4 : Pipeline.Grid := ⟨2, ![2, 16], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_8 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_9 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1x256x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x256x16x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x256x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 1 → Memref sig .tc .vmem S128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false, false]

abbrev stage4_7 : Fin 2 → Memref sig .tc .vmem S1x256x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, true]

abbrev stage4_8 : Fin 2 → Memref sig .tc .vmem S1x256x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true, true]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false, false]

abbrev stage4_10 : Fin 1 → Memref sig .tc .vmem S1x128 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false, false]

abbrev grid5 : Pipeline.Grid := ⟨2, ![2, 8], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage5_0 : Fin 2 → Memref sig .tc .vmem S1x512x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x512x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 2 → Memref sig .tc .vmem S1x128x512 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  transposes_S2x3x16384_S2x16384x3_0_2_1 : S2x3x16384.Transposes [0, 2, 1] S2x16384x3
  shapeCasts_S64_S1x64 : S64.ShapeCasts S1x64
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  concatenates_S1024x64_S1024x3_S1024x61_S1024x128_d1 : Shape.Concatenates [S1024x64, S1024x3, S1024x61] S1024x128 1
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  transposes_S128x1024_p1_0_S1024x128 : S128x1024.Transposes [1, 0] S1024x128
  reduces_S1024x64_S64 : S1024x64.Reduces [0] S64
  shapeCasts_S1x64_S64 : S1x64.ShapeCasts S64
  bcast_S_S64 : S_.BroadcastsInDim S64 (![] : Fin 0 → Fin S64.rank)
  bcast_S_S2 : S_.BroadcastsInDim S2 (![] : Fin 0 → Fin S2.rank)
  bcast_S2_S2x1x1_0 : S2.BroadcastsInDim S2x1x1 (![0] : Fin 1 → Fin S2x1x1.rank)
  bcast_S2x1x1_S2x4096x16_0_1_2 : S2x1x1.BroadcastsInDim S2x4096x16 (![0, 1, 2] : Fin 3 → Fin S2x4096x16.rank)
  shapeCasts_S2x4096x16_S1024x128 : S2x4096x16.ShapeCasts S1024x128
  shapeCasts_S2x16384x128_S32768x128 : S2x16384x128.ShapeCasts S32768x128
  inb_S32x128_S1x128_0_0 : ∀ a, (![0, 0] : Fin 2 → Nat) a + S1x128.size a ≤ S32x128.size a
  squeezes_S1x128_S128 : S1x128.Squeezes S128
  inb_S32768x128_S32768x128_0_0 : ∀ a, (![0, 0] : Fin 2 → Nat) a + S32768x128.size a ≤ S32768x128.size a
  gathers_S32768x128_S128x128 : S32768x128.Gathers 0 S128x128
  shapeCasts_S131072x128_S2x4096x16x128 : S131072x128.ShapeCasts S2x4096x16x128
  transposes_S2x3x4096_S2x4096x3_0_2_1 : S2x3x4096.Transposes [0, 2, 1] S2x4096x3
  transposes_S16x3_S3x16_1_0 : S16x3.Transposes [1, 0] S3x16
  inb_S1x512x16x128_S1x512x16x128_0_0_0_0 : ∀ a, (![0, 0, 0, 0] : Fin 4 → Nat) a + S1x512x16x128.size a ≤ S1x512x16x128.size a
  h_S1x512x16x128 : 0 < S1x512x16x128.numel
  shapeCasts_S1x512x16x128_S512x16x128 : S1x512x16x128.ShapeCasts S512x16x128
  slices_S512x16x128_o0_0_0_S512x16x64 : S512x16x128.Slices ![0, 0, 0] S512x16x64
  shapeCasts_S1x64_S1x1x64 : S1x64.ShapeCasts S1x1x64
  broadcasts_S1x1x64_S512x16x64 : S1x1x64.Broadcasts S512x16x64
  inb_S3x16_S1x16_0_0 : ∀ a, (![0, 0] : Fin 2 → Nat) a + S1x16.size a ≤ S3x16.size a
  h_S1x16 : 0 < S1x16.numel
  shapeCasts_S1x16_S16 : S1x16.ShapeCasts S16
  shapeCasts_S16_S1x1x16 : S16.ShapeCasts S1x1x16
  inb_S3x16_S1x16_1_0 : ∀ a, (![1, 0] : Fin 2 → Nat) a + S1x16.size a ≤ S3x16.size a
  inb_S3x16_S1x16_2_0 : ∀ a, (![2, 0] : Fin 2 → Nat) a + S1x16.size a ≤ S3x16.size a
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  slices_S512x16x128_o0_0_64_S512x16x1 : S512x16x128.Slices ![0, 0, 64] S512x16x1
  slices_S512x3_o0_0_S512x1 : S512x3.Slices ![0, 0] S512x1
  shapeCasts_S512x1_S512x1x1 : S512x1.ShapeCasts S512x1x1
  broadcasts_S512x1x1_S512x16x1 : S512x1x1.Broadcasts S512x16x1
  slices_S512x16x128_o0_0_65_S512x16x1 : S512x16x128.Slices ![0, 0, 65] S512x16x1
  slices_S512x3_o0_1_S512x1 : S512x3.Slices ![0, 1] S512x1
  slices_S512x16x128_o0_0_66_S512x16x1 : S512x16x128.Slices ![0, 0, 66] S512x16x1
  slices_S512x3_o0_2_S512x1 : S512x3.Slices ![0, 2] S512x1
  broadcasts_S512x16x1_S512x16x16 : S512x16x1.Broadcasts S512x16x16
  broadcasts_S1x1x16_S512x16x16 : S1x1x16.Broadcasts S512x16x16
  inb_S1x512x16_S1x512x16_0_0_0 : ∀ a, (![0, 0, 0] : Fin 3 → Nat) a + S1x512x16.size a ≤ S1x512x16.size a
  h_S1x512x16 : 0 < S1x512x16.numel
  shapeCasts_S1x512x16_S512x16 : S1x512x16.ShapeCasts S512x16
  shapeCasts_S512x16_S512x16x1 : S512x16.ShapeCasts S512x16x1
  slices_S512x16x64_o0_0_0_S512x1x64 : S512x16x64.Slices ![0, 0, 0] S512x1x64
  shapeCasts_S512x1x64_S512x64 : S512x1x64.ShapeCasts S512x64
  inb_S16x64x64_S1x64x64_0_0_0 : ∀ a, (![0, 0, 0] : Fin 3 → Nat) a + S1x64x64.size a ≤ S16x64x64.size a
  h_S1x64x64 : 0 < S1x64x64.numel
  shapeCasts_S1x64x64_S64x64 : S1x64x64.ShapeCasts S64x64
  slices_S512x16x64_o0_1_0_S512x1x64 : S512x16x64.Slices ![0, 1, 0] S512x1x64
  inb_S16x64x64_S1x64x64_1_0_0 : ∀ a, (![1, 0, 0] : Fin 3 → Nat) a + S1x64x64.size a ≤ S16x64x64.size a
  slices_S512x16x64_o0_2_0_S512x1x64 : S512x16x64.Slices ![0, 2, 0] S512x1x64
  inb_S16x64x64_S1x64x64_2_0_0 : ∀ a, (![2, 0, 0] : Fin 3 → Nat) a + S1x64x64.size a ≤ S16x64x64.size a
  slices_S512x16x64_o0_3_0_S512x1x64 : S512x16x64.Slices ![0, 3, 0] S512x1x64
  inb_S16x64x64_S1x64x64_3_0_0 : ∀ a, (![3, 0, 0] : Fin 3 → Nat) a + S1x64x64.size a ≤ S16x64x64.size a
  slices_S512x16x64_o0_4_0_S512x1x64 : S512x16x64.Slices ![0, 4, 0] S512x1x64
  inb_S16x64x64_S1x64x64_4_0_0 : ∀ a, (![4, 0, 0] : Fin 3 → Nat) a + S1x64x64.size a ≤ S16x64x64.size a
  slices_S512x16x64_o0_5_0_S512x1x64 : S512x16x64.Slices ![0, 5, 0] S512x1x64
  inb_S16x64x64_S1x64x64_5_0_0 : ∀ a, (![5, 0, 0] : Fin 3 → Nat) a + S1x64x64.size a ≤ S16x64x64.size a
  slices_S512x16x64_o0_6_0_S512x1x64 : S512x16x64.Slices ![0, 6, 0] S512x1x64
  inb_S16x64x64_S1x64x64_6_0_0 : ∀ a, (![6, 0, 0] : Fin 3 → Nat) a + S1x64x64.size a ≤ S16x64x64.size a
  slices_S512x16x64_o0_7_0_S512x1x64 : S512x16x64.Slices ![0, 7, 0] S512x1x64
  inb_S16x64x64_S1x64x64_7_0_0 : ∀ a, (![7, 0, 0] : Fin 3 → Nat) a + S1x64x64.size a ≤ S16x64x64.size a
  slices_S512x16x64_o0_8_0_S512x1x64 : S512x16x64.Slices ![0, 8, 0] S512x1x64
  inb_S16x64x64_S1x64x64_8_0_0 : ∀ a, (![8, 0, 0] : Fin 3 → Nat) a + S1x64x64.size a ≤ S16x64x64.size a
  slices_S512x16x64_o0_9_0_S512x1x64 : S512x16x64.Slices ![0, 9, 0] S512x1x64
  inb_S16x64x64_S1x64x64_9_0_0 : ∀ a, (![9, 0, 0] : Fin 3 → Nat) a + S1x64x64.size a ≤ S16x64x64.size a
  slices_S512x16x64_o0_10_0_S512x1x64 : S512x16x64.Slices ![0, 10, 0] S512x1x64
  inb_S16x64x64_S1x64x64_10_0_0 : ∀ a, (![10, 0, 0] : Fin 3 → Nat) a + S1x64x64.size a ≤ S16x64x64.size a
  slices_S512x16x64_o0_11_0_S512x1x64 : S512x16x64.Slices ![0, 11, 0] S512x1x64
  inb_S16x64x64_S1x64x64_11_0_0 : ∀ a, (![11, 0, 0] : Fin 3 → Nat) a + S1x64x64.size a ≤ S16x64x64.size a
  slices_S512x16x64_o0_12_0_S512x1x64 : S512x16x64.Slices ![0, 12, 0] S512x1x64
  inb_S16x64x64_S1x64x64_12_0_0 : ∀ a, (![12, 0, 0] : Fin 3 → Nat) a + S1x64x64.size a ≤ S16x64x64.size a
  slices_S512x16x64_o0_13_0_S512x1x64 : S512x16x64.Slices ![0, 13, 0] S512x1x64
  inb_S16x64x64_S1x64x64_13_0_0 : ∀ a, (![13, 0, 0] : Fin 3 → Nat) a + S1x64x64.size a ≤ S16x64x64.size a
  slices_S512x16x64_o0_14_0_S512x1x64 : S512x16x64.Slices ![0, 14, 0] S512x1x64
  inb_S16x64x64_S1x64x64_14_0_0 : ∀ a, (![14, 0, 0] : Fin 3 → Nat) a + S1x64x64.size a ≤ S16x64x64.size a
  slices_S512x16x64_o0_15_0_S512x1x64 : S512x16x64.Slices ![0, 15, 0] S512x1x64
  inb_S16x64x64_S1x64x64_15_0_0 : ∀ a, (![15, 0, 0] : Fin 3 → Nat) a + S1x64x64.size a ≤ S16x64x64.size a
  broadcasts_S1x64_S512x64 : S1x64.Broadcasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  reduces_S512x64_S64 : S512x64.Reduces [0] S64
  shapeCasts_S128_S1x128 : S128.ShapeCasts S1x128
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  broadcasts_S1x64_S256x64 : S1x64.Broadcasts S256x64
  inb_S128x64_S128x64_0_0 : ∀ a, (![0, 0] : Fin 2 → Nat) a + S128x64.size a ≤ S128x64.size a
  h_S128x64 : 0 < S128x64.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  inb_S1x256x16x128_S1x256x16x128_0_0_0_0 : ∀ a, (![0, 0, 0, 0] : Fin 4 → Nat) a + S1x256x16x128.size a ≤ S1x256x16x128.size a
  h_S1x256x16x128 : 0 < S1x256x16x128.numel
  shapeCasts_S1x256x16x128_S256x16x128 : S1x256x16x128.ShapeCasts S256x16x128
  inb_S1x256x16_S1x256x16_0_0_0 : ∀ a, (![0, 0, 0] : Fin 3 → Nat) a + S1x256x16.size a ≤ S1x256x16.size a
  h_S1x256x16 : 0 < S1x256x16.numel
  shapeCasts_S1x256x16_S256x16 : S1x256x16.ShapeCasts S256x16
  shapeCasts_S256x16_S256x16x1 : S256x16.ShapeCasts S256x16x1
  shapeCasts_S256x16x1_S256x16x1 : S256x16x1.ShapeCasts S256x16x1
  broadcasts_S256x16x1_S256x16x128 : S256x16x1.Broadcasts S256x16x128
  reduces_S256x16x128_S256x128 : S256x16x128.Reduces [1] S256x128
  reduces_S256x128_S128 : S256x128.Reduces [0] S128
  shapeCasts_S1x128_S128 : S1x128.ShapeCasts S128
  bcast_S_S128 : S_.BroadcastsInDim S128 (![] : Fin 0 → Fin S128.rank)
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  broadcasts_S1x128_S512x128 : S1x128.Broadcasts S512x128
  transposes_S512x128_p1_0_S128x512 : S512x128.Transposes [1, 0] S128x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S128x512_S1x128x512 : S128x512.ShapeCasts S1x128x512
  dot_S128x1024_S64x128_S1024x64_0_1_1_0_n_n_wf : DotDims.WF S128x1024 S64x128 S1024x64 [0] [1] [1] [0] [] []
  dot_S512x16x16_S512x16x64_S512x16x64_1_1_2_2_0_0_wf : DotDims.WF S512x16x16 S512x16x64 S512x16x64 [1] [1] [2] [2] [0] [0]
  dot_S512x64_S64x64_S512x64_1_0_0_1_n_n_wf : DotDims.WF S512x64 S64x64 S512x64 [1] [0] [0] [1] [] []
  dot_S256x64_S128x64_S256x128_1_1_0_0_n_n_wf : DotDims.WF S256x64 S128x64 S256x128 [1] [1] [0] [0] [] []
  hcc1_scratch3 : 12 + S_.numel ≤ 61
  hcc1_scratch4 : 13 + S_.numel ≤ 61
  hcc1_scoped0 : 14 + S_.numel ≤ 61
  hcc1_scoped1 : 15 + S_.numel ≤ 61
  hcc1_scoped2 : 16 + S_.numel ≤ 61
  hcc2_scratch3 : 17 + S_.numel ≤ 61
  hcc2_scratch4 : 18 + S_.numel ≤ 61
  hcc2_scoped0 : 19 + S_.numel ≤ 61
  hcc2_scoped1 : 20 + S_.numel ≤ 61
  hcc2_scoped2 : 21 + S_.numel ≤ 61
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S2x128x16384.size a
  hwx0_0 : ∀ i : grid0.Coords, EltTy.bits .f32 = 32 ∨ (Rect.block (s := S2x128x16384) S1x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S2x16384x3.size a
  hwx0_1 : ∀ i : grid0.Coords, EltTy.bits .f32 = 32 ∨ (Rect.block (s := S2x16384x3) S1x1024x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x128.size a ≤ S2x16384x128.size a
  hwx0_4 : ∀ i : grid0.Coords, EltTy.bits .f32 = 32 ∨ (Rect.block (s := S2x16384x128) S1x1024x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x128.size a ≤ S2x16384x128.size a
  hwx0_5 : ∀ i : grid0.Coords, EltTy.bits .f32 = 32 ∨ (Rect.block (s := S2x16384x128) S1x1024x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hcore1 : grid1.bound 0 ≤ τ.nSC
  hsub1 : grid1.bound 1 ≤ τ.nSub
  k1_off1_inb : ∀ i : grid1.Coords, ∀ a, (k1_off1 i) a + S32x128.size a ≤ S1024x128.size a
  k1_t1_ok : k1_t1_loop.OK
  k1_off2_inb : ∀ k1_t1 : Fin k1_t1_loop.trips, ∀ a, (k1_off2 k1_t1) a + S1x128.size a ≤ S32x128.size a
  k1_off3_inb : ∀ k1_t1 : Fin k1_t1_loop.trips, ∀ a, (k1_off3 k1_t1) a + S1x128.size a ≤ S32x128.size a
  k1_off4_inb : ∀ (i : grid1.Coords) (k1_t1 : Fin k1_t1_loop.trips), ∀ a, (k1_off4 i k1_t1) a + S128x128.size a ≤ S131072x128.size a
  k1_off5_inb : ∀ k1_t1 : Fin k1_t1_loop.trips, ∀ (k1_h1 : k1_cond1 k1_t1 = 1#1), ∀ a, (k1_off5 k1_t1) a + S1x128.size a ≤ S32x128.size a
  k1_off6_inb : ∀ (i : grid1.Coords) (k1_t1 : Fin k1_t1_loop.trips), ∀ a, (k1_off6 i k1_t1) a + S128x128.size a ≤ S131072x128.size a
  hcore2 : grid2.bound 0 ≤ τ.nSC
  hsub2 : grid2.bound 1 ≤ τ.nSub
  k2_off1_inb : ∀ i : grid2.Coords, ∀ a, (k2_off1 i) a + S32x128.size a ≤ S1024x128.size a
  k2_t1_ok : k2_t1_loop.OK
  k2_off2_inb : ∀ k2_t1 : Fin k2_t1_loop.trips, ∀ a, (k2_off2 k2_t1) a + S1x128.size a ≤ S32x128.size a
  k2_off3_inb : ∀ k2_t1 : Fin k2_t1_loop.trips, ∀ a, (k2_off3 k2_t1) a + S1x128.size a ≤ S32x128.size a
  k2_off4_inb : ∀ (i : grid2.Coords) (k2_t1 : Fin k2_t1_loop.trips), ∀ a, (k2_off4 i k2_t1) a + S128x128.size a ≤ S131072x128.size a
  k2_off5_inb : ∀ k2_t1 : Fin k2_t1_loop.trips, ∀ (k2_h1 : k2_cond1 k2_t1 = 1#1), ∀ a, (k2_off5 k2_t1) a + S1x128.size a ≤ S32x128.size a
  k2_off6_inb : ∀ (i : grid2.Coords) (k2_t1 : Fin k2_t1_loop.trips), ∀ a, (k2_off6 i k2_t1) a + S128x128.size a ≤ S131072x128.size a
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x16x128.size a ≤ S2x4096x16x128.size a
  hwx3_0 : ∀ i : grid3.Coords, EltTy.bits .f32 = 32 ∨ (Rect.block (s := S2x4096x16x128) S1x512x16x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x512x3.size a ≤ S2x4096x3.size a
  hwx3_1 : ∀ i : grid3.Coords, EltTy.bits .f32 = 32 ∨ (Rect.block (s := S2x4096x3) S1x512x3.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x512x16.size a ≤ S2x4096x16.size a
  hwx3_2 : ∀ i : grid3.Coords, EltTy.bits .f32 = 32 ∨ (Rect.block (s := S2x4096x16) S1x512x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S3x16.size a ≤ S3x16.size a
  hwx3_3 : ∀ i : grid3.Coords, EltTy.bits .f32 = 32 ∨ (Rect.block (s := S3x16) S3x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S16x64x64.size a ≤ S16x64x64.size a
  hwx3_4 : ∀ i : grid3.Coords, EltTy.bits .f32 = 32 ∨ (Rect.block (s := S16x64x64) S16x64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1x512x64.size a ≤ S2x4096x64.size a
  hwx3_8 : ∀ i : grid3.Coords, EltTy.bits .f32 = 32 ∨ (Rect.block (s := S2x4096x64) S1x512x64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x64.size a ≤ S1x64.size a
  hwx3_9 : ∀ i : grid3.Coords, EltTy.bits .f32 = 32 ∨ (Rect.block (s := S1x64) S1x64.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x64.size a ≤ S1x64.size a
  hwx3_10 : ∀ i : grid3.Coords, EltTy.bits .f32 = 32 ∨ (Rect.block (s := S1x64) S1x64.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x256x64.size a ≤ S2x4096x64.size a
  hwx4_0 : ∀ i : grid4.Coords, EltTy.bits .f32 = 32 ∨ (Rect.block (s := S2x4096x64) S1x256x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x256x16x128.size a ≤ S2x4096x16x128.size a
  hwx4_1 : ∀ i : grid4.Coords, EltTy.bits .f32 = 32 ∨ (Rect.block (s := S2x4096x16x128) S1x256x16x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x256x16.size a ≤ S2x4096x16.size a
  hwx4_2 : ∀ i : grid4.Coords, EltTy.bits .f32 = 32 ∨ (Rect.block (s := S2x4096x16) S1x256x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x64.size a ≤ S128x64.size a
  hwx4_3 : ∀ i : grid4.Coords, EltTy.bits .f32 = 32 ∨ (Rect.block (s := S128x64) S128x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1x256x128.size a ≤ S2x4096x128.size a
  hwx4_7 : ∀ i : grid4.Coords, EltTy.bits .f32 = 32 ∨ (Rect.block (s := S2x4096x128) S1x256x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S1x256x128.size a ≤ S2x4096x128.size a
  hwx4_8 : ∀ i : grid4.Coords, EltTy.bits .f32 = 32 ∨ (Rect.block (s := S2x4096x128) S1x256x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x128.size a ≤ S1x128.size a
  hwx4_9 : ∀ i : grid4.Coords, EltTy.bits .f32 = 32 ∨ (Rect.block (s := S1x128) S1x128.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x128.size a ≤ S1x128.size a
  hwx4_10 : ∀ i : grid4.Coords, EltTy.bits .f32 = 32 ∨ (Rect.block (s := S1x128) S1x128.size (cc4_transform_10 i) (hinb4_10 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x512x128.size a ≤ S2x4096x128.size a
  hwx5_0 : ∀ i : grid5.Coords, EltTy.bits .f32 = 32 ∨ (Rect.block (s := S2x4096x128) S1x512x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x512x128.size a ≤ S2x4096x128.size a
  hwx5_1 : ∀ i : grid5.Coords, EltTy.bits .f32 = 32 ∨ (Rect.block (s := S2x4096x128) S1x512x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1x128x512.size a ≤ S2x128x4096.size a
  hwx5_4 : ∀ i : grid5.Coords, EltTy.bits .f32 = 32 ∨ (Rect.block (s := S2x128x4096) S1x128x512.size (cc5_transform_4 i) (hinb5_4 i)).WholeWords (EltTy.packing .f32)

variable [Facts₀]

abbrev cc1_scratch3 : DmaSems sig S_ := SemArray.consecutive 12 S_ hcc1_scratch3
abbrev cc1_scratch4 : DmaSems sig S_ := SemArray.consecutive 13 S_ hcc1_scratch4
abbrev cc1_scoped0 : DmaSems sig S_ := SemArray.consecutive 14 S_ hcc1_scoped0
abbrev cc1_scoped1 : DmaSems sig S_ := SemArray.consecutive 15 S_ hcc1_scoped1
abbrev cc1_scoped2 : DmaSems sig S_ := SemArray.consecutive 16 S_ hcc1_scoped2
abbrev cc2_scratch3 : DmaSems sig S_ := SemArray.consecutive 17 S_ hcc2_scratch3
abbrev cc2_scratch4 : DmaSems sig S_ := SemArray.consecutive 18 S_ hcc2_scratch4
abbrev cc2_scoped0 : DmaSems sig S_ := SemArray.consecutive 19 S_ hcc2_scoped0
abbrev cc2_scoped1 : DmaSems sig S_ := SemArray.consecutive 20 S_ hcc2_scoped1
abbrev cc2_scoped2 : DmaSems sig S_ := SemArray.consecutive 21 S_ hcc2_scoped2
def dot_S128x1024_S64x128_S1024x64_0_1_1_0_n_n : DotDims S128x1024 S64x128 S1024x64 where
  lhsContracting := [0]
  rhsContracting := [1]
  lhsNonContracting := [1]
  rhsNonContracting := [0]
  lhsBatch := []
  rhsBatch := []
  wf := dot_S128x1024_S64x128_S1024x64_0_1_1_0_n_n_wf
def dot_S512x16x16_S512x16x64_S512x16x64_1_1_2_2_0_0 : DotDims S512x16x16 S512x16x64 S512x16x64 where
  lhsContracting := [1]
  rhsContracting := [1]
  lhsNonContracting := [2]
  rhsNonContracting := [2]
  lhsBatch := [0]
  rhsBatch := [0]
  wf := dot_S512x16x16_S512x16x64_S512x16x64_1_1_2_2_0_0_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S256x64_S128x64_S256x128_1_1_0_0_n_n : DotDims S256x64 S128x64 S256x128 where
  lhsContracting := [1]
  rhsContracting := [1]
  lhsNonContracting := [0]
  rhsNonContracting := [0]
  lhsBatch := []
  rhsBatch := []
  wf := dot_S256x64_S128x64_S256x128_1_1_0_0_n_n_wf

abbrev win0_0 : Pipeline.Window sig grid0 :=
  Pipeline.Window.ofSpec (Memref.whole main_arg0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x1024x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x1024x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_2) S1x64.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_3) S1x64.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win3_0 : Pipeline.Window sig grid3 :=
  Pipeline.Window.ofSpec (Memref.whole main_v29) S1x512x16x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S1x512x3.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v0) S1x512x16.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v32) S3x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S16x64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v33) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v34) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v35) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v36_0) S1x512x64.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v36_1) S1x64.size cc3_transform_9 reads3_9 true true 1 stage3_9 sem3_9
    hrank3 hreads3_9 hinb3_9 nbuf3_9 (Memref.isWhole_whole _) hwx3_9 hstage3_9

abbrev win3_10 : Pipeline.Window sig grid3 :=
  Pipeline.Window.ofSpec (Memref.whole main_v36_2) S1x64.size cc3_transform_10 reads3_10 true true 1 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v36_0) S1x256x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S1x256x16x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v0) S1x256x16.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg14) S128x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v51) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v52) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v53) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v54_0) S1x256x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v54_1) S1x256x128.size cc4_transform_8 reads4_8 true false 2 stage4_8 sem4_8
    hrank4 hreads4_8 hinb4_8 nbuf4_8 (Memref.isWhole_whole _) hwx4_8 hstage4_8

abbrev win4_9 : Pipeline.Window sig grid4 :=
  Pipeline.Window.ofSpec (Memref.whole main_v54_2) S1x128.size cc4_transform_9 reads4_9 true true 1 stage4_9 sem4_9
    hrank4 hreads4_9 hinb4_9 nbuf4_9 (Memref.isWhole_whole _) hwx4_9 hstage4_9

abbrev win4_10 : Pipeline.Window sig grid4 :=
  Pipeline.Window.ofSpec (Memref.whole main_v54_3) S1x128.size cc4_transform_10 reads4_10 true true 1 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

abbrev win5_0 : Pipeline.Window sig grid5 :=
  Pipeline.Window.ofSpec (Memref.whole main_v54_0) S1x512x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v54_1) S1x512x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v69) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v70) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v71) S1x128x512.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S2x128x16384 : Shape := ⟨3, ![2, 128, 16384]⟩
abbrev S2x3x16384 : Shape := ⟨3, ![2, 3, 16384]⟩
abbrev S2x3x4096 : Shape := ⟨3, ![2, 3, 4096]⟩
abbrev S2x4096x16 : Shape := ⟨3, ![2, 4096, 16]⟩
abbrev S64x128 : Shape := ⟨2, ![64, 128]⟩
abbrev S64 : Shape := ⟨1, ![64]⟩
abbrev S16x3 : Shape := ⟨2, ![16, 3]⟩
abbrev S16x64x64 : Shape := ⟨3, ![16, 64, 64]⟩
abbrev S128x64 : Shape := ⟨2, ![128, 64]⟩
abbrev S128 : Shape := ⟨1, ![128]⟩
abbrev S2x16384x64 : Shape := ⟨3, ![2, 16384, 64]⟩
abbrev S2x64x16384 : Shape := ⟨3, ![2, 64, 16384]⟩
abbrev S1x64x1 : Shape := ⟨3, ![1, 64, 1]⟩
abbrev S_ : Shape := ⟨0, ![]⟩
abbrev S2 : Shape := ⟨1, ![2]⟩
abbrev S2x1x1 : Shape := ⟨3, ![2, 1, 1]⟩
abbrev S2x4096x16x1 : Shape := ⟨4, ![2, 4096, 16, 1]⟩
abbrev S2x4096x16x2 : Shape := ⟨4, ![2, 4096, 16, 2]⟩
abbrev S2x4096x16x64 : Shape := ⟨4, ![2, 4096, 16, 64]⟩
abbrev S2x4096x16x3 : Shape := ⟨4, ![2, 4096, 16, 3]⟩
abbrev S2x4096x3 : Shape := ⟨3, ![2, 4096, 3]⟩
abbrev S2x4096x1x3 : Shape := ⟨4, ![2, 4096, 1, 3]⟩
abbrev S2x4096x16x1x3 : Shape := ⟨5, ![2, 4096, 16, 1, 3]⟩
abbrev S1x1x1x16x3 : Shape := ⟨5, ![1, 1, 1, 16, 3]⟩
abbrev S2x4096x16x16x3 : Shape := ⟨5, ![2, 4096, 16, 16, 3]⟩
abbrev S2x4096x16x16 : Shape := ⟨4, ![2, 4096, 16, 16]⟩
abbrev S2x4096x64x16 : Shape := ⟨4, ![2, 4096, 64, 16]⟩
abbrev S2x4096x64 : Shape := ⟨3, ![2, 4096, 64]⟩
abbrev S2x64x4096 : Shape := ⟨3, ![2, 64, 4096]⟩
abbrev S2x4096x128 : Shape := ⟨3, ![2, 4096, 128]⟩
abbrev S2x128x4096 : Shape := ⟨3, ![2, 128, 4096]⟩
abbrev S1x128x1 : Shape := ⟨3, ![1, 128, 1]⟩
abbrev S2x4096x16x128 : Shape := ⟨4, ![2, 4096, 16, 128]⟩

abbrev nBuf : Space → Nat
  | .hbm => 285
  | .vmem => 0
  | .smem => 0
  | _ => 0

abbrev hbmTy0_0 (i : Nat) : BufTy := match i % 128 with
  | 0 => ⟨S2x128x16384, .f32⟩
  | 1 => ⟨S2x3x16384, .f32⟩
  | 2 => ⟨S2x3x4096, .f32⟩
  | 3 => ⟨S2x4096x16, .i32⟩
  | 4 => ⟨S2x4096x16, .i32⟩
  | 5 => ⟨S64x128, .f32⟩
  | 6 => ⟨S64, .f32⟩
  | 7 => ⟨S64, .f32⟩
  | 8 => ⟨S64, .f32⟩
  | 9 => ⟨S16x3, .f32⟩
  | 10 => ⟨S16x64x64, .f32⟩
  | 11 => ⟨S64, .f32⟩
  | 12 => ⟨S64, .f32⟩
  | 13 => ⟨S64, .f32⟩
  | 14 => ⟨S128x64, .f32⟩
  | 15 => ⟨S128, .f32⟩
  | 16 => ⟨S128, .f32⟩
  | 17 => ⟨S128, .f32⟩
  | 18 => ⟨S2x16384x64, .f32⟩
  | 19 => ⟨S2x64x16384, .f32⟩
  | 20 => ⟨S1x64x1, .f32⟩
  | 21 => ⟨S2x64x16384, .f32⟩
  | 22 => ⟨S2x64x16384, .f32⟩
  | 23 => ⟨S_, .f32⟩
  | 24 => ⟨S64, .f32⟩
  | 25 => ⟨S1x64x1, .f32⟩
  | 26 => ⟨S_, .f32⟩
  | 27 => ⟨S1x64x1, .f32⟩
  | 28 => ⟨S1x64x1, .f32⟩
  | 29 => ⟨S_, .i32⟩
  | 30 => ⟨S_, .f32⟩
  | 31 => ⟨S64, .f32⟩
  | 32 => ⟨S1x64x1, .f32⟩
  | 33 => ⟨S_, .f32⟩
  | 34 => ⟨S1x64x1, .f32⟩
  | 35 => ⟨S1x64x1, .f32⟩
  | 36 => ⟨S2x64x16384, .f32⟩
  | 37 => ⟨S2x64x16384, .f32⟩
  | 38 => ⟨S2x64x16384, .f32⟩
  | 39 => ⟨S_, .f32⟩
  | 40 => ⟨S_, .f32⟩
  | 41 => ⟨S_, .f32⟩
  | 42 => ⟨S_, .f32⟩
  | 43 => ⟨S64, .f32⟩
  | 44 => ⟨S1x64x1, .f32⟩
  | 45 => ⟨S1x64x1, .f32⟩
  | 46 => ⟨S1x64x1, .f32⟩
  | 47 => ⟨S_, .f32⟩
  | 48 => ⟨S_, .i1⟩
  | 49 => ⟨S_, .f32⟩
  | 50 => ⟨S_, .f32⟩
  | 51 => ⟨S1x64x1, .f32⟩
  | 52 => ⟨S1x64x1, .f32⟩
  | 53 => ⟨S2x64x16384, .f32⟩
  | 54 => ⟨S2x64x16384, .f32⟩
  | 55 => ⟨S_, .f32⟩
  | 56 => ⟨S1x64x1, .f32⟩
  | 57 => ⟨S1x64x1, .f32⟩
  | 58 => ⟨S1x64x1, .f32⟩
  | 59 => ⟨S2x64x16384, .f32⟩
  | 60 => ⟨S2x64x16384, .f32⟩
  | 61 => ⟨S1x64x1, .f32⟩
  | 62 => ⟨S2x64x16384, .f32⟩
  | 63 => ⟨S2x64x16384, .f32⟩
  | 64 => ⟨S1x64x1, .f32⟩
  | 65 => ⟨S2x64x16384, .f32⟩
  | 66 => ⟨S2x64x16384, .f32⟩
  | 67 => ⟨S_, .f32⟩
  | 68 => ⟨S2x64x16384, .f32⟩
  | 69 => ⟨S2x64x16384, .f32⟩
  | 70 => ⟨S2, .i32⟩
  | 71 => ⟨S2x1x1, .i32⟩
  | 72 => ⟨S_, .i32⟩
  | 73 => ⟨S2x1x1, .i32⟩
  | 74 => ⟨S2x1x1, .i1⟩
  | 75 => ⟨S_, .i32⟩
  | 76 => ⟨S2x1x1, .i32⟩
  | 77 => ⟨S2x1x1, .i32⟩
  | 78 => ⟨S2x1x1, .i32⟩
  | 79 => ⟨S_, .i32⟩
  | 80 => ⟨S2x4096x16, .i32⟩
  | 81 => ⟨S2x4096x16, .i1⟩
  | 82 => ⟨S_, .i32⟩
  | 83 => ⟨S2x4096x16, .i32⟩
  | 84 => ⟨S2x4096x16, .i32⟩
  | 85 => ⟨S2x4096x16, .i32⟩
  | 86 => ⟨S2x4096x16, .i32⟩
  | 87 => ⟨S2x4096x16x1, .i32⟩
  | 88 => ⟨S2x4096x16x1, .i32⟩
  | 89 => ⟨S2x4096x16x2, .i32⟩
  | 90 => ⟨S2x4096x16x64, .f32⟩
  | 91 => ⟨S_, .i32⟩
  | 92 => ⟨S2x1x1, .i32⟩
  | 93 => ⟨S2x1x1, .i1⟩
  | 94 => ⟨S_, .i32⟩
  | 95 => ⟨S2x1x1, .i32⟩
  | 96 => ⟨S2x1x1, .i32⟩
  | 97 => ⟨S2x1x1, .i32⟩
  | 98 => ⟨S_, .i32⟩
  | 99 => ⟨S2x4096x16, .i32⟩
  | 100 => ⟨S2x4096x16, .i1⟩
  | 101 => ⟨S_, .i32⟩
  | 102 => ⟨S2x4096x16, .i32⟩
  | 103 => ⟨S2x4096x16, .i32⟩
  | 104 => ⟨S2x4096x16, .i32⟩
  | 105 => ⟨S2x4096x16, .i32⟩
  | 106 => ⟨S2x4096x16x1, .i32⟩
  | 107 => ⟨S2x4096x16x1, .i32⟩
  | 108 => ⟨S2x4096x16x2, .i32⟩
  | 109 => ⟨S2x4096x16x3, .f32⟩
  | 110 => ⟨S2x4096x3, .f32⟩
  | 111 => ⟨S2x4096x1x3, .f32⟩
  | 112 => ⟨S2x4096x16x3, .f32⟩
  | 113 => ⟨S2x4096x16x3, .f32⟩
  | 114 => ⟨S2x4096x16x1x3, .f32⟩
  | 115 => ⟨S1x1x1x16x3, .f32⟩
  | 116 => ⟨S2x4096x16x16x3, .f32⟩
  | 117 => ⟨S2x4096x16x16x3, .f32⟩
  | 118 => ⟨S2x4096x16x16x3, .f32⟩
  | 119 => ⟨S2x4096x16x16x3, .f32⟩
  | 120 => ⟨S_, .f32⟩
  | 121 => ⟨S2x4096x16x16, .f32⟩
  | 122 => ⟨S_, .f32⟩
  | 123 => ⟨S2x4096x16x16, .f32⟩
  | 124 => ⟨S2x4096x16x16, .f32⟩
  | 125 => ⟨S2x4096x16x16, .f32⟩
  | 126 => ⟨S_, .f32⟩
  | 127 => ⟨S2x4096x16x16, .f32⟩
  | _ => ⟨S2x128x16384, .f32⟩

abbrev hbmTy0_1 (i : Nat) : BufTy := match i % 128 with
  | 0 => ⟨S2x4096x16x16, .f32⟩
  | 1 => ⟨S_, .f32⟩
  | 2 => ⟨S2x4096x16x16, .f32⟩
  | 3 => ⟨S2x4096x16x16, .f32⟩
  | 4 => ⟨S_, .f32⟩
  | 5 => ⟨S2x4096x16x16, .f32⟩
  | 6 => ⟨S2x4096x16x16, .f32⟩
  | 7 => ⟨S2x4096x16x1, .i32⟩
  | 8 => ⟨S2x4096x16x1, .f32⟩
  | 9 => ⟨S2x4096x16x16, .f32⟩
  | 10 => ⟨S2x4096x16x16, .f32⟩
  | 11 => ⟨S2x4096x64x16, .f32⟩
  | 12 => ⟨S2x4096x64, .f32⟩
  | 13 => ⟨S2x64x4096, .f32⟩
  | 14 => ⟨S1x64x1, .f32⟩
  | 15 => ⟨S2x64x4096, .f32⟩
  | 16 => ⟨S2x64x4096, .f32⟩
  | 17 => ⟨S_, .f32⟩
  | 18 => ⟨S64, .f32⟩
  | 19 => ⟨S1x64x1, .f32⟩
  | 20 => ⟨S_, .f32⟩
  | 21 => ⟨S1x64x1, .f32⟩
  | 22 => ⟨S1x64x1, .f32⟩
  | 23 => ⟨S_, .i32⟩
  | 24 => ⟨S_, .f32⟩
  | 25 => ⟨S64, .f32⟩
  | 26 => ⟨S1x64x1, .f32⟩
  | 27 => ⟨S_, .f32⟩
  | 28 => ⟨S1x64x1, .f32⟩
  | 29 => ⟨S1x64x1, .f32⟩
  | 30 => ⟨S2x64x4096, .f32⟩
  | 31 => ⟨S2x64x4096, .f32⟩
  | 32 => ⟨S2x64x4096, .f32⟩
  | 33 => ⟨S_, .f32⟩
  | 34 => ⟨S_, .f32⟩
  | 35 => ⟨S_, .f32⟩
  | 36 => ⟨S_, .f32⟩
  | 37 => ⟨S64, .f32⟩
  | 38 => ⟨S1x64x1, .f32⟩
  | 39 => ⟨S1x64x1, .f32⟩
  | 40 => ⟨S1x64x1, .f32⟩
  | 41 => ⟨S_, .f32⟩
  | 42 => ⟨S_, .i1⟩
  | 43 => ⟨S_, .f32⟩
  | 44 => ⟨S_, .f32⟩
  | 45 => ⟨S1x64x1, .f32⟩
  | 46 => ⟨S1x64x1, .f32⟩
  | 47 => ⟨S2x64x4096, .f32⟩
  | 48 => ⟨S2x64x4096, .f32⟩
  | 49 => ⟨S_, .f32⟩
  | 50 => ⟨S1x64x1, .f32⟩
  | 51 => ⟨S1x64x1, .f32⟩
  | 52 => ⟨S1x64x1, .f32⟩
  | 53 => ⟨S2x64x4096, .f32⟩
  | 54 => ⟨S2x64x4096, .f32⟩
  | 55 => ⟨S1x64x1, .f32⟩
  | 56 => ⟨S2x64x4096, .f32⟩
  | 57 => ⟨S2x64x4096, .f32⟩
  | 58 => ⟨S1x64x1, .f32⟩
  | 59 => ⟨S2x64x4096, .f32⟩
  | 60 => ⟨S2x64x4096, .f32⟩
  | 61 => ⟨S_, .f32⟩
  | 62 => ⟨S2x64x4096, .f32⟩
  | 63 => ⟨S2x64x4096, .f32⟩
  | 64 => ⟨S2x4096x128, .f32⟩
  | 65 => ⟨S2x128x4096, .f32⟩
  | 66 => ⟨S1x128x1, .f32⟩
  | 67 => ⟨S2x128x4096, .f32⟩
  | 68 => ⟨S2x128x4096, .f32⟩
  | 69 => ⟨S_, .f32⟩
  | 70 => ⟨S128, .f32⟩
  | 71 => ⟨S1x128x1, .f32⟩
  | 72 => ⟨S_, .f32⟩
  | 73 => ⟨S1x128x1, .f32⟩
  | 74 => ⟨S1x128x1, .f32⟩
  | 75 => ⟨S_, .i32⟩
  | 76 => ⟨S_, .f32⟩
  | 77 => ⟨S128, .f32⟩
  | 78 => ⟨S1x128x1, .f32⟩
  | 79 => ⟨S_, .f32⟩
  | 80 => ⟨S1x128x1, .f32⟩
  | 81 => ⟨S1x128x1, .f32⟩
  | 82 => ⟨S2x128x4096, .f32⟩
  | 83 => ⟨S2x128x4096, .f32⟩
  | 84 => ⟨S2x128x4096, .f32⟩
  | 85 => ⟨S_, .f32⟩
  | 86 => ⟨S_, .f32⟩
  | 87 => ⟨S_, .f32⟩
  | 88 => ⟨S_, .f32⟩
  | 89 => ⟨S128, .f32⟩
  | 90 => ⟨S1x128x1, .f32⟩
  | 91 => ⟨S1x128x1, .f32⟩
  | 92 => ⟨S1x128x1, .f32⟩
  | 93 => ⟨S_, .f32⟩
  | 94 => ⟨S_, .i1⟩
  | 95 => ⟨S_, .f32⟩
  | 96 => ⟨S_, .f32⟩
  | 97 => ⟨S1x128x1, .f32⟩
  | 98 => ⟨S1x128x1, .f32⟩
  | 99 => ⟨S2x128x4096, .f32⟩
  | 100 => ⟨S2x128x4096, .f32⟩
  | 101 => ⟨S_, .f32⟩
  | 102 => ⟨S1x128x1, .f32⟩
  | 103 => ⟨S1x128x1, .f32⟩
  | 104 => ⟨S1x128x1, .f32⟩
  | 105 => ⟨S2x128x4096, .f32⟩
  | 106 => ⟨S2x128x4096, .f32⟩
  | 107 => ⟨S1x128x1, .f32⟩
  | 108 => ⟨S2x128x4096, .f32⟩
  | 109 => ⟨S2x128x4096, .f32⟩
  | 110 => ⟨S1x128x1, .f32⟩
  | 111 => ⟨S2x128x4096, .f32⟩
  | 112 => ⟨S2x128x4096, .f32⟩
  | 113 => ⟨S2, .i32⟩
  | 114 => ⟨S2x1x1, .i32⟩
  | 115 => ⟨S_, .i32⟩
  | 116 => ⟨S2x1x1, .i32⟩
  | 117 => ⟨S2x1x1, .i1⟩
  | 118 => ⟨S_, .i32⟩
  | 119 => ⟨S2x1x1, .i32⟩
  | 120 => ⟨S2x1x1, .i32⟩
  | 121 => ⟨S2x1x1, .i32⟩
  | 122 => ⟨S_, .i32⟩
  | 123 => ⟨S2x4096x16, .i32⟩
  | 124 => ⟨S2x4096x16, .i1⟩
  | 125 => ⟨S_, .i32⟩
  | 126 => ⟨S2x4096x16, .i32⟩
  | 127 => ⟨S2x4096x16, .i32⟩
  | _ => ⟨S2x128x16384, .f32⟩

abbrev hbmTy0_2 (i : Nat) : BufTy := match i % 128 with
  | 0 => ⟨S2x4096x16, .i32⟩
  | 1 => ⟨S2x4096x16, .i32⟩
  | 2 => ⟨S2x4096x16x1, .i32⟩
  | 3 => ⟨S2x4096x16x1, .i32⟩
  | 4 => ⟨S2x4096x16x2, .i32⟩
  | 5 => ⟨S2x4096x16x128, .f32⟩
  | 6 => ⟨S2x4096x16x1, .i32⟩
  | 7 => ⟨S_, .i32⟩
  | 8 => ⟨S2x4096x16x1, .i32⟩
  | 9 => ⟨S2x4096x16x1, .i1⟩
  | 10 => ⟨S_, .f32⟩
  | 11 => ⟨S_, .f32⟩
  | 12 => ⟨S2x4096x16x128, .i1⟩
  | 13 => ⟨S2x4096x16x128, .f32⟩
  | 14 => ⟨S2x4096x16x128, .f32⟩
  | 15 => ⟨S_, .f32⟩
  | 16 => ⟨S2x4096x128, .f32⟩
  | 17 => ⟨S_, .f32⟩
  | 18 => ⟨S2x4096x128, .f32⟩
  | 19 => ⟨S2x4096x128, .i1⟩
  | 20 => ⟨S_, .f32⟩
  | 21 => ⟨S_, .f32⟩
  | 22 => ⟨S2x4096x128, .f32⟩
  | 23 => ⟨S2x4096x128, .f32⟩
  | 24 => ⟨S2x128x4096, .f32⟩
  | 25 => ⟨S2x128x4096, .f32⟩
  | 26 => ⟨S_, .f32⟩
  | 27 => ⟨S2x128x4096, .f32⟩
  | 28 => ⟨S2x128x4096, .f32⟩
  | _ => ⟨S2x128x16384, .f32⟩

abbrev hbmTy (i : Nat) : BufTy := match i / 128 with
  | 0 => hbmTy0_0 i
  | 1 => hbmTy0_1 i
  | 2 => hbmTy0_2 i
  | _ => ⟨S2x128x16384, .f32⟩

abbrev bufTy : (tb : Table) → Fin (tcTables nBuf tb) → BufTy
  | .hbm, ⟨i, _⟩ => hbmTy i
  | _, _ => ⟨S2x128x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩
abbrev main_c : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_cst_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_cst_1 : Ref sig .tc := ⟨.hbm, 40, rfl⟩
abbrev main_call0_v8 : Ref sig .tc := ⟨.hbm, 41, rfl⟩
abbrev main_call0_cst_2 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_v12 : Ref sig .tc := ⟨.hbm, 46, rfl⟩
abbrev main_call0_cst_3 : Ref sig .tc := ⟨.hbm, 47, rfl⟩
abbrev main_call0_v13 : Ref sig .tc := ⟨.hbm, 48, rfl⟩
abbrev main_call0_cst_4 : Ref sig .tc := ⟨.hbm, 49, rfl⟩
abbrev main_call0_call0_v0 : Ref sig .tc := ⟨.hbm, 50, rfl⟩
abbrev main_call0_call0_v1 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_cst_1 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_call1_cst : Ref sig .tc := ⟨.hbm, 67, rfl⟩
abbrev main_call1_v0 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_c_2 : Ref sig .tc := ⟨.hbm, 72, rfl⟩
abbrev main_v26 : Ref sig .tc := ⟨.hbm, 73, rfl⟩
abbrev main_v27 : Ref sig .tc := ⟨.hbm, 74, rfl⟩
abbrev main_c_3 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_c_4 : Ref sig .tc := ⟨.hbm, 79, rfl⟩
abbrev main_v31 : Ref sig .tc := ⟨.hbm, 80, rfl⟩
abbrev main_v32 : Ref sig .tc := ⟨.hbm, 81, rfl⟩
abbrev main_c_5 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_c_6 : Ref sig .tc := ⟨.hbm, 91, rfl⟩
abbrev main_v41 : Ref sig .tc := ⟨.hbm, 92, rfl⟩
abbrev main_v42 : Ref sig .tc := ⟨.hbm, 93, rfl⟩
abbrev main_c_7 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_c_8 : Ref sig .tc := ⟨.hbm, 98, rfl⟩
abbrev main_v46 : Ref sig .tc := ⟨.hbm, 99, rfl⟩
abbrev main_v47 : Ref sig .tc := ⟨.hbm, 100, rfl⟩
abbrev main_c_9 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_cst_10 : Ref sig .tc := ⟨.hbm, 120, rfl⟩
abbrev main_v66 : Ref sig .tc := ⟨.hbm, 121, rfl⟩
abbrev main_cst_11 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_cst_12 : Ref sig .tc := ⟨.hbm, 126, rfl⟩
abbrev main_v70 : Ref sig .tc := ⟨.hbm, 127, rfl⟩
abbrev main_v71 : Ref sig .tc := ⟨.hbm, 128, rfl⟩
abbrev main_cst_13 : Ref sig .tc := ⟨.hbm, 129, rfl⟩
abbrev main_v72 : Ref sig .tc := ⟨.hbm, 130, rfl⟩
abbrev main_v73 : Ref sig .tc := ⟨.hbm, 131, rfl⟩
abbrev main_cst_14 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_cst_15 : Ref sig .tc := ⟨.hbm, 145, rfl⟩
abbrev main_v86 : Ref sig .tc := ⟨.hbm, 146, rfl⟩
abbrev main_v87 : Ref sig .tc := ⟨.hbm, 147, rfl⟩
abbrev main_cst_16 : Ref sig .tc := ⟨.hbm, 148, rfl⟩
abbrev main_v88 : Ref sig .tc := ⟨.hbm, 149, rfl⟩
abbrev main_v89 : Ref sig .tc := ⟨.hbm, 150, rfl⟩
abbrev main_c_17 : Ref sig .tc := ⟨.hbm, 151, rfl⟩
abbrev main_call2_cst : Ref sig .tc := ⟨.hbm, 152, rfl⟩
abbrev main_call2_v0 : Ref sig .tc := ⟨.hbm, 153, rfl⟩
abbrev main_call2_v1 : Ref sig .tc := ⟨.hbm, 154, rfl⟩
abbrev main_call2_cst_0 : Ref sig .tc := ⟨.hbm, 155, rfl⟩
abbrev main_call2_v2 : Ref sig .tc := ⟨.hbm, 156, rfl⟩
abbrev main_call2_v3 : Ref sig .tc := ⟨.hbm, 157, rfl⟩
abbrev main_call2_v4 : Ref sig .tc := ⟨.hbm, 158, rfl⟩
abbrev main_call2_v5 : Ref sig .tc := ⟨.hbm, 159, rfl⟩
abbrev main_call2_v6 : Ref sig .tc := ⟨.hbm, 160, rfl⟩
abbrev main_call2_v7 : Ref sig .tc := ⟨.hbm, 161, rfl⟩
abbrev main_call2_cst_1 : Ref sig .tc := ⟨.hbm, 162, rfl⟩
abbrev main_call2_v8 : Ref sig .tc := ⟨.hbm, 163, rfl⟩
abbrev main_call2_cst_2 : Ref sig .tc := ⟨.hbm, 164, rfl⟩
abbrev main_call2_v9 : Ref sig .tc := ⟨.hbm, 165, rfl⟩
abbrev main_call2_v10 : Ref sig .tc := ⟨.hbm, 166, rfl⟩
abbrev main_call2_v11 : Ref sig .tc := ⟨.hbm, 167, rfl⟩
abbrev main_call2_v12 : Ref sig .tc := ⟨.hbm, 168, rfl⟩
abbrev main_call2_cst_3 : Ref sig .tc := ⟨.hbm, 169, rfl⟩
abbrev main_call2_v13 : Ref sig .tc := ⟨.hbm, 170, rfl⟩
abbrev main_call2_cst_4 : Ref sig .tc := ⟨.hbm, 171, rfl⟩
abbrev main_call2_call0_v0 : Ref sig .tc := ⟨.hbm, 172, rfl⟩
abbrev main_call2_call0_v1 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_cst_18 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_call3_cst : Ref sig .tc := ⟨.hbm, 189, rfl⟩
abbrev main_call3_v0 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_cst_19 : Ref sig .tc := ⟨.hbm, 197, rfl⟩
abbrev main_v110 : Ref sig .tc := ⟨.hbm, 198, rfl⟩
abbrev main_v111 : Ref sig .tc := ⟨.hbm, 199, rfl⟩
abbrev main_cst_20 : Ref sig .tc := ⟨.hbm, 200, rfl⟩
abbrev main_v112 : Ref sig .tc := ⟨.hbm, 201, rfl⟩
abbrev main_v113 : Ref sig .tc := ⟨.hbm, 202, rfl⟩
abbrev main_c_21 : Ref sig .tc := ⟨.hbm, 203, rfl⟩
abbrev main_call4_cst : Ref sig .tc := ⟨.hbm, 204, rfl⟩
abbrev main_call4_v0 : Ref sig .tc := ⟨.hbm, 205, rfl⟩
abbrev main_call4_v1 : Ref sig .tc := ⟨.hbm, 206, rfl⟩
abbrev main_call4_cst_0 : Ref sig .tc := ⟨.hbm, 207, rfl⟩
abbrev main_call4_v2 : Ref sig .tc := ⟨.hbm, 208, rfl⟩
abbrev main_call4_v3 : Ref sig .tc := ⟨.hbm, 209, rfl⟩
abbrev main_call4_v4 : Ref sig .tc := ⟨.hbm, 210, rfl⟩
abbrev main_call4_v5 : Ref sig .tc := ⟨.hbm, 211, rfl⟩
abbrev main_call4_v6 : Ref sig .tc := ⟨.hbm, 212, rfl⟩
abbrev main_call4_v7 : Ref sig .tc := ⟨.hbm, 213, rfl⟩
abbrev main_call4_cst_1 : Ref sig .tc := ⟨.hbm, 214, rfl⟩
abbrev main_call4_v8 : Ref sig .tc := ⟨.hbm, 215, rfl⟩
abbrev main_call4_cst_2 : Ref sig .tc := ⟨.hbm, 216, rfl⟩
abbrev main_call4_v9 : Ref sig .tc := ⟨.hbm, 217, rfl⟩
abbrev main_call4_v10 : Ref sig .tc := ⟨.hbm, 218, rfl⟩
abbrev main_call4_v11 : Ref sig .tc := ⟨.hbm, 219, rfl⟩
abbrev main_call4_v12 : Ref sig .tc := ⟨.hbm, 220, rfl⟩
abbrev main_call4_cst_3 : Ref sig .tc := ⟨.hbm, 221, rfl⟩
abbrev main_call4_v13 : Ref sig .tc := ⟨.hbm, 222, rfl⟩
abbrev main_call4_cst_4 : Ref sig .tc := ⟨.hbm, 223, rfl⟩
abbrev main_call4_call0_v0 : Ref sig .tc := ⟨.hbm, 224, rfl⟩
abbrev main_call4_call0_v1 : Ref sig .tc := ⟨.hbm, 225, rfl⟩
abbrev main_v114 : Ref sig .tc := ⟨.hbm, 226, rfl⟩
abbrev main_v115 : Ref sig .tc := ⟨.hbm, 227, rfl⟩
abbrev main_v116 : Ref sig .tc := ⟨.hbm, 228, rfl⟩
abbrev main_cst_22 : Ref sig .tc := ⟨.hbm, 229, rfl⟩
abbrev main_v117 : Ref sig .tc := ⟨.hbm, 230, rfl⟩
abbrev main_v118 : Ref sig .tc := ⟨.hbm, 231, rfl⟩
abbrev main_v119 : Ref sig .tc := ⟨.hbm, 232, rfl⟩
abbrev main_v120 : Ref sig .tc := ⟨.hbm, 233, rfl⟩
abbrev main_v121 : Ref sig .tc := ⟨.hbm, 234, rfl⟩
abbrev main_v122 : Ref sig .tc := ⟨.hbm, 235, rfl⟩
abbrev main_v123 : Ref sig .tc := ⟨.hbm, 236, rfl⟩
abbrev main_v124 : Ref sig .tc := ⟨.hbm, 237, rfl⟩
abbrev main_v125 : Ref sig .tc := ⟨.hbm, 238, rfl⟩
abbrev main_v126 : Ref sig .tc := ⟨.hbm, 239, rfl⟩
abbrev main_v127 : Ref sig .tc := ⟨.hbm, 240, rfl⟩
abbrev main_v128 : Ref sig .tc := ⟨.hbm, 241, rfl⟩
abbrev main_v129 : Ref sig .tc := ⟨.hbm, 242, rfl⟩
abbrev main_c_23 : Ref sig .tc := ⟨.hbm, 243, rfl⟩
abbrev main_v130 : Ref sig .tc := ⟨.hbm, 244, rfl⟩
abbrev main_v131 : Ref sig .tc := ⟨.hbm, 245, rfl⟩
abbrev main_c_24 : Ref sig .tc := ⟨.hbm, 246, rfl⟩
abbrev main_v132 : Ref sig .tc := ⟨.hbm, 247, rfl⟩
abbrev main_v133 : Ref sig .tc := ⟨.hbm, 248, rfl⟩
abbrev main_v134 : Ref sig .tc := ⟨.hbm, 249, rfl⟩
abbrev main_c_25 : Ref sig .tc := ⟨.hbm, 250, rfl⟩
abbrev main_v135 : Ref sig .tc := ⟨.hbm, 251, rfl⟩
abbrev main_v136 : Ref sig .tc := ⟨.hbm, 252, rfl⟩
abbrev main_c_26 : Ref sig .tc := ⟨.hbm, 253, rfl⟩
abbrev main_v137 : Ref sig .tc := ⟨.hbm, 254, rfl⟩
abbrev main_v138 : Ref sig .tc := ⟨.hbm, 255, rfl⟩
abbrev main_v139 : Ref sig .tc := ⟨.hbm, 256, rfl⟩
abbrev main_v140 : Ref sig .tc := ⟨.hbm, 257, rfl⟩
abbrev main_v141 : Ref sig .tc := ⟨.hbm, 258, rfl⟩
abbrev main_v142 : Ref sig .tc := ⟨.hbm, 259, rfl⟩
abbrev main_v143 : Ref sig .tc := ⟨.hbm, 260, rfl⟩
abbrev main_v144 : Ref sig .tc := ⟨.hbm, 261, rfl⟩
abbrev main_v145 : Ref sig .tc := ⟨.hbm, 262, rfl⟩
abbrev main_c_27 : Ref sig .tc := ⟨.hbm, 263, rfl⟩
abbrev main_v146 : Ref sig .tc := ⟨.hbm, 264, rfl⟩
abbrev main_v147 : Ref sig .tc := ⟨.hbm, 265, rfl⟩
abbrev main_cst_28 : Ref sig .tc := ⟨.hbm, 266, rfl⟩
abbrev main_call5_v0 : Ref sig .tc := ⟨.hbm, 267, rfl⟩
abbrev main_call5_v1 : Ref sig .tc := ⟨.hbm, 268, rfl⟩
abbrev main_call5_v2 : Ref sig .tc := ⟨.hbm, 269, rfl⟩
abbrev main_v148 : Ref sig .tc := ⟨.hbm, 270, rfl⟩
abbrev main_cst_29 : Ref sig .tc := ⟨.hbm, 271, rfl⟩
abbrev main_v149 : Ref sig .tc := ⟨.hbm, 272, rfl⟩
abbrev main_cst_30 : Ref sig .tc := ⟨.hbm, 273, rfl⟩
abbrev main_v150 : Ref sig .tc := ⟨.hbm, 274, rfl⟩
abbrev main_v151 : Ref sig .tc := ⟨.hbm, 275, rfl⟩
abbrev main_cst_31 : Ref sig .tc := ⟨.hbm, 276, rfl⟩
abbrev main_call6_v0 : Ref sig .tc := ⟨.hbm, 277, rfl⟩
abbrev main_call6_v1 : Ref sig .tc := ⟨.hbm, 278, rfl⟩
abbrev main_v152 : Ref sig .tc := ⟨.hbm, 279, rfl⟩
abbrev main_v153 : Ref sig .tc := ⟨.hbm, 280, rfl⟩
abbrev main_v154 : Ref sig .tc := ⟨.hbm, 281, rfl⟩
abbrev main_call7_cst : Ref sig .tc := ⟨.hbm, 282, rfl⟩
abbrev main_call7_v0 : Ref sig .tc := ⟨.hbm, 283, rfl⟩
abbrev main_v155 : Ref sig .tc := ⟨.hbm, 284, rfl⟩

abbrev nD : Nat := 1
abbrev τ : Topo := Topo.v7x

variable {F : FTy → Type} [FloatOps F]

class Facts₀ : Prop where
  transposes_S2x16384x64_S2x64x16384_0_2_1 : S2x16384x64.Transposes [0, 2, 1] S2x64x16384
  bcast_S64_S1x64x1_1 : S64.BroadcastsInDim S1x64x1 (![1] : Fin 1 → Fin S1x64x1.rank)
  bcast_S1x64x1_S2x64x16384_0_1_2 : S1x64x1.BroadcastsInDim S2x64x16384 (![0, 1, 2] : Fin 3 → Fin S2x64x16384.rank)
  reducesTo_S2x64x16384_S64_d0_2 : S2x64x16384.ReducesTo [0, 2] S64
  h_S_ : 0 < S_.numel
  bcast_S_S1x64x1 : S_.BroadcastsInDim S1x64x1 (![] : Fin 0 → Fin S1x64x1.rank)
  bcast_S_S2x64x16384 : S_.BroadcastsInDim S2x64x16384 (![] : Fin 0 → Fin S2x64x16384.rank)
  bcast_S2_S2x1x1_0 : S2.BroadcastsInDim S2x1x1 (![0] : Fin 1 → Fin S2x1x1.rank)
  bcast_S_S2x1x1 : S_.BroadcastsInDim S2x1x1 (![] : Fin 0 → Fin S2x1x1.rank)
  bcast_S_S2x4096x16 : S_.BroadcastsInDim S2x4096x16 (![] : Fin 0 → Fin S2x4096x16.rank)
  bcast_S2x1x1_S2x4096x16_0_1_2 : S2x1x1.BroadcastsInDim S2x4096x16 (![0, 1, 2] : Fin 3 → Fin S2x4096x16.rank)
  bcast_S2x4096x16_S2x4096x16x1_0_1_2 : S2x4096x16.BroadcastsInDim S2x4096x16x1 (![0, 1, 2] : Fin 3 → Fin S2x4096x16x1.rank)
  concatenates_S2x4096x16x1_S2x4096x16x1_S2x4096x16x2_d3 : Shape.Concatenates [S2x4096x16x1, S2x4096x16x1] S2x4096x16x2 3
  transposes_S2x3x4096_S2x4096x3_0_2_1 : S2x3x4096.Transposes [0, 2, 1] S2x4096x3
  bcast_S2x4096x3_S2x4096x1x3_0_1_3 : S2x4096x3.BroadcastsInDim S2x4096x1x3 (![0, 1, 3] : Fin 3 → Fin S2x4096x1x3.rank)
  bcast_S2x4096x1x3_S2x4096x16x3_0_1_2_3 : S2x4096x1x3.BroadcastsInDim S2x4096x16x3 (![0, 1, 2, 3] : Fin 4 → Fin S2x4096x16x3.rank)
  bcast_S2x4096x16x3_S2x4096x16x1x3_0_1_2_4 : S2x4096x16x3.BroadcastsInDim S2x4096x16x1x3 (![0, 1, 2, 4] : Fin 4 → Fin S2x4096x16x1x3.rank)
  bcast_S16x3_S1x1x1x16x3_3_4 : S16x3.BroadcastsInDim S1x1x1x16x3 (![3, 4] : Fin 2 → Fin S1x1x1x16x3.rank)
  bcast_S2x4096x16x1x3_S2x4096x16x16x3_0_1_2_3_4 : S2x4096x16x1x3.BroadcastsInDim S2x4096x16x16x3 (![0, 1, 2, 3, 4] : Fin 5 → Fin S2x4096x16x16x3.rank)
  bcast_S1x1x1x16x3_S2x4096x16x16x3_0_1_2_3_4 : S1x1x1x16x3.BroadcastsInDim S2x4096x16x16x3 (![0, 1, 2, 3, 4] : Fin 5 → Fin S2x4096x16x16x3.rank)
  reducesTo_S2x4096x16x16x3_S2x4096x16x16_d4 : S2x4096x16x16x3.ReducesTo [4] S2x4096x16x16
  bcast_S_S2x4096x16x16 : S_.BroadcastsInDim S2x4096x16x16 (![] : Fin 0 → Fin S2x4096x16x16.rank)
  bcast_S2x4096x16x1_S2x4096x16x16_0_1_2_3 : S2x4096x16x1.BroadcastsInDim S2x4096x16x16 (![0, 1, 2, 3] : Fin 4 → Fin S2x4096x16x16.rank)
  transposes_S2x4096x64_S2x64x4096_0_2_1 : S2x4096x64.Transposes [0, 2, 1] S2x64x4096
  bcast_S1x64x1_S2x64x4096_0_1_2 : S1x64x1.BroadcastsInDim S2x64x4096 (![0, 1, 2] : Fin 3 → Fin S2x64x4096.rank)
  reducesTo_S2x64x4096_S64_d0_2 : S2x64x4096.ReducesTo [0, 2] S64
  bcast_S_S2x64x4096 : S_.BroadcastsInDim S2x64x4096 (![] : Fin 0 → Fin S2x64x4096.rank)
  transposes_S2x4096x128_S2x128x4096_0_2_1 : S2x4096x128.Transposes [0, 2, 1] S2x128x4096
  bcast_S128_S1x128x1_1 : S128.BroadcastsInDim S1x128x1 (![1] : Fin 1 → Fin S1x128x1.rank)
  bcast_S1x128x1_S2x128x4096_0_1_2 : S1x128x1.BroadcastsInDim S2x128x4096 (![0, 1, 2] : Fin 3 → Fin S2x128x4096.rank)
  reducesTo_S2x128x4096_S128_d0_2 : S2x128x4096.ReducesTo [0, 2] S128
  bcast_S_S1x128x1 : S_.BroadcastsInDim S1x128x1 (![] : Fin 0 → Fin S1x128x1.rank)
  bcast_S_S2x4096x16x1 : S_.BroadcastsInDim S2x4096x16x1 (![] : Fin 0 → Fin S2x4096x16x1.rank)
  bcast_S2x4096x16x1_S2x4096x16x128_0_1_2_3 : S2x4096x16x1.BroadcastsInDim S2x4096x16x128 (![0, 1, 2, 3] : Fin 4 → Fin S2x4096x16x128.rank)
  bcast_S_S2x4096x16x128 : S_.BroadcastsInDim S2x4096x16x128 (![] : Fin 0 → Fin S2x4096x16x128.rank)
  reducesTo_S2x4096x16x128_S2x4096x128_d2 : S2x4096x16x128.ReducesTo [2] S2x4096x128
  bcast_S_S2x4096x128 : S_.BroadcastsInDim S2x4096x128 (![] : Fin 0 → Fin S2x4096x128.rank)
  bcast_S_S2x128x4096 : S_.BroadcastsInDim S2x128x4096 (![] : Fin 0 → Fin S2x128x4096.rank)
  dot_S2x128x16384_S64x128_S2x16384x64_1_1_02_0_n_n_wf : DotDims.WF S2x128x16384 S64x128 S2x16384x64 [1] [1] [0, 2] [0] [] []
  gather_S2x64x16384_S2x4096x16x2_S2x4096x16x64_3_02_n_n_02_3_1641_wf : GatherDims.WF S2x64x16384 S2x4096x16x2 S2x4096x16x64 [3] [0, 2] [] [0, 2] [] 3 ![1, 64, 1]
  gather_S2x3x16384_S2x4096x16x2_S2x4096x16x3_3_02_n_n_02_3_131_wf : GatherDims.WF S2x3x16384 S2x4096x16x2 S2x4096x16x3 [3] [0, 2] [] [0, 2] [] 3 ![1, 3, 1]
  dot_S2x4096x16x64_S2x4096x16x16_S2x4096x64x16_2_2_3_3_01_01_wf : DotDims.WF S2x4096x16x64 S2x4096x16x16 S2x4096x64x16 [2] [2] [3] [3] [0, 1] [0, 1]
  dot_S2x4096x64x16_S16x64x64_S2x4096x64_23_10_01_2_n_n_wf : DotDims.WF S2x4096x64x16 S16x64x64 S2x4096x64 [2, 3] [1, 0] [0, 1] [2] [] []
  dot_S2x64x4096_S128x64_S2x4096x128_1_1_02_0_n_n_wf : DotDims.WF S2x64x4096 S128x64 S2x4096x128 [1] [1] [0, 2] [0] [] []
  gather_S2x128x16384_S2x4096x16x2_S2x4096x16x128_3_02_n_n_02_3_11281_wf : GatherDims.WF S2x128x16384 S2x4096x16x2 S2x4096x16x128 [3] [0, 2] [] [0, 2] [] 3 ![1, 128, 1]

variable [Facts₀]

def dot_S2x128x16384_S64x128_S2x16384x64_1_1_02_0_n_n : DotDims S2x128x16384 S64x128 S2x16384x64 where
  lhsContracting := [1]
  rhsContracting := [1]
  lhsNonContracting := [0, 2]
  rhsNonContracting := [0]
  lhsBatch := []
  rhsBatch := []
  wf := dot_S2x128x16384_S64x128_S2x16384x64_1_1_02_0_n_n_wf
def gather_S2x64x16384_S2x4096x16x2_S2x4096x16x64_3_02_n_n_02_3_1641 : GatherDims S2x64x16384 S2x4096x16x2 S2x4096x16x64 where
  offsetDims := [3]
  collapsedSliceDims := [0, 2]
  operandBatchingDims := []
  startIndicesBatchingDims := []
  startIndexMap := [0, 2]
  indexVectorDim := 3
  sliceSizes := ![1, 64, 1]
  wf := gather_S2x64x16384_S2x4096x16x2_S2x4096x16x64_3_02_n_n_02_3_1641_wf
def gather_S2x3x16384_S2x4096x16x2_S2x4096x16x3_3_02_n_n_02_3_131 : GatherDims S2x3x16384 S2x4096x16x2 S2x4096x16x3 where
  offsetDims := [3]
  collapsedSliceDims := [0, 2]
  operandBatchingDims := []
  startIndicesBatchingDims := []
  startIndexMap := [0, 2]
  indexVectorDim := 3
  sliceSizes := ![1, 3, 1]
  wf := gather_S2x3x16384_S2x4096x16x2_S2x4096x16x3_3_02_n_n_02_3_131_wf
def dot_S2x4096x16x64_S2x4096x16x16_S2x4096x64x16_2_2_3_3_01_01 : DotDims S2x4096x16x64 S2x4096x16x16 S2x4096x64x16 where
  lhsContracting := [2]
  rhsContracting := [2]
  lhsNonContracting := [3]
  rhsNonContracting := [3]
  lhsBatch := [0, 1]
  rhsBatch := [0, 1]
  wf := dot_S2x4096x16x64_S2x4096x16x16_S2x4096x64x16_2_2_3_3_01_01_wf
def dot_S2x4096x64x16_S16x64x64_S2x4096x64_23_10_01_2_n_n : DotDims S2x4096x64x16 S16x64x64 S2x4096x64 where
  lhsContracting := [2, 3]
  rhsContracting := [1, 0]
  lhsNonContracting := [0, 1]
  rhsNonContracting := [2]
  lhsBatch := []
  rhsBatch := []
  wf := dot_S2x4096x64x16_S16x64x64_S2x4096x64_23_10_01_2_n_n_wf
def dot_S2x64x4096_S128x64_S2x4096x128_1_1_02_0_n_n : DotDims S2x64x4096 S128x64 S2x4096x128 where
  lhsContracting := [1]
  rhsContracting := [1]
  lhsNonContracting := [0, 2]
  rhsNonContracting := [0]
  lhsBatch := []
  rhsBatch := []
  wf := dot_S2x64x4096_S128x64_S2x4096x128_1_1_02_0_n_n_wf
def gather_S2x128x16384_S2x4096x16x2_S2x4096x16x128_3_02_n_n_02_3_11281 : GatherDims S2x128x16384 S2x4096x16x2 S2x4096x16x128 where
  offsetDims := [3]
  collapsedSliceDims := [0, 2]
  operandBatchingDims := []
  startIndicesBatchingDims := []
  startIndexMap := [0, 2]
  indexVectorDim := 3
  sliceSizes := ![1, 128, 1]
  wf := gather_S2x128x16384_S2x4096x16x2_S2x4096x16x128_3_02_n_n_02_3_11281_wf

class Facts : Prop extends Facts₀ where

variable [Facts]
-- ==== Proof.R0.Data.lean ====
import proofs.«214766_g21345987461187_cont_8to1_720_22_alg».proof.Proof.Gen.KernelIdeal.Launch
import proofs.«214766_g21345987461187_cont_8to1_720_22_alg».proof.Proof.Gen.KernelIdeal.Skeleton
import proofs.«214766_g21345987461187_cont_8to1_720_22_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] {Ix : Type} [DecidableEq Ix] {Name : Type} [DecidableEq Name]
  {U : Type} [URA U] {Lvl : Type} [Preorder Lvl]

local notation "𝕄" => MT nD τ sig Ix (Elt F) Name U Lvl

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def yTile (x : Vec F S1x128x1024 .f32) (w0 : Vec F S64x128 .f32) (b0 : Vec F S1x64 .f32) : FVec F S1024x64 .f32 :=
  k0_pay3 x w0 b0

def y0tTile (x : Vec F S1x128x1024 .f32) (pt : Vec F S1x1024x3 .f32) (w0 : Vec F S64x128 .f32) (b0 : Vec F S1x64 .f32) :
    Vec F S1x1024x128 .f32 :=
  k0_pay4 x w0 b0 pt

def xtTile (x : Vec F S1x128x1024 .f32) : Vec F S1x1024x128 .f32 :=
  k0_pay5 x

def s1Step (x : Vec F S1x128x1024 .f32) (w0 : Vec F S64x128 .f32) (b0 : Vec F S1x64 .f32) (acc : Vec F S1x64 .f32) :
    Vec F S1x64 .f32 :=
  k0_pay8 x w0 b0 acc

def s2Step (x : Vec F S1x128x1024 .f32) (w0 : Vec F S64x128 .f32) (b0 : Vec F S1x64 .f32) (acc : Vec F S1x64 .f32) :
    Vec F S1x64 .f32 :=
  k0_pay1 (k0_pay3 x w0 b0) acc

def sZero1 : Vec F S1x64 .f32 := k0_pay6 (F := F)
def sZero2 : Vec F S1x64 .f32 := k0_pay7 (F := F)

abbrev isFirst (i : grid0.Coords) : Prop :=
  (Scalar.cmpi .ne (Scalar.extui (Scalar.andi (Scalar.cmpi .eq (BitVec.ofNat 32 (i 0).val) 0#32)
    (Scalar.cmpi .eq (BitVec.ofNat 32 (i 1).val) 0#32))) 0#32) = 1#1

theorem isFirst_iff : ∀ t : Fin cfg0.N, isFirst (grid0.coords t) ↔ t.val = 0 :=
  (by decide +kernel : ∀ t : Fin grid0.N, isFirst (grid0.coords t) ↔ t.val = 0)

def s1At (c : Dev nD) : (n : ℕ) → n < cfg0.N → Vec F S1x64 .f32
  | 0, hn => s1Step (iblk V c 0 ⟨0, hn⟩) (iblk V c 2 ⟨0, hn⟩) (iblk V c 3 ⟨0, hn⟩) sZero1
  | n + 1, hn => s1Step (iblk V c 0 ⟨n + 1, hn⟩) (iblk V c 2 ⟨n + 1, hn⟩) (iblk V c 3 ⟨n + 1, hn⟩)
      (s1At c n (Nat.lt_of_succ_lt hn))

def s2At (c : Dev nD) : (n : ℕ) → n < cfg0.N → Vec F S1x64 .f32
  | 0, hn => s2Step (iblk V c 0 ⟨0, hn⟩) (iblk V c 2 ⟨0, hn⟩) (iblk V c 3 ⟨0, hn⟩) sZero2
  | n + 1, hn => s2Step (iblk V c 0 ⟨n + 1, hn⟩) (iblk V c 2 ⟨n + 1, hn⟩) (iblk V c 3 ⟨n + 1, hn⟩)
      (s2At c n (Nat.lt_of_succ_lt hn))

theorem s1At_first (c : Dev nD) (t : Fin cfg0.N) (h0 : t.val = 0) :
    s1At V c t.val t.isLt = s1Step (iblk V c 0 t) (iblk V c 2 t) (iblk V c 3 t) sZero1 := by
  obtain ⟨n, hn⟩ := t
  cases n with
  | zero => rfl
  | succ n => exact absurd h0 (Nat.succ_ne_zero n)

theorem s1At_later (c : Dev nD) (t : Fin cfg0.N) (h0 : t.val ≠ 0) :
    s1At V c t.val t.isLt = s1Step (iblk V c 0 t) (iblk V c 2 t) (iblk V c 3 t)
      (s1At V c (t.val - 1) (Nat.lt_of_le_of_lt (Nat.sub_le _ _) t.isLt)) := by
  obtain ⟨n, hn⟩ := t
  cases n with
  | zero => exact absurd rfl h0
  | succ n => rfl

theorem s2At_first (c : Dev nD) (t : Fin cfg0.N) (h0 : t.val = 0) :
    s2At V c t.val t.isLt = s2Step (iblk V c 0 t) (iblk V c 2 t) (iblk V c 3 t) sZero2 := by
  obtain ⟨n, hn⟩ := t
  cases n with
  | zero => rfl
  | succ n => exact absurd h0 (Nat.succ_ne_zero n)

theorem s2At_later (c : Dev nD) (t : Fin cfg0.N) (h0 : t.val ≠ 0) :
    s2At V c t.val t.isLt = s2Step (iblk V c 0 t) (iblk V c 2 t) (iblk V c 3 t)
      (s2At V c (t.val - 1) (Nat.lt_of_le_of_lt (Nat.sub_le _ _) t.isLt)) := by
  obtain ⟨n, hn⟩ := t
  cases n with
  | zero => exact absurd rfl h0
  | succ n => rfl

def dat (O : CellTallies nD τ sig Ix) (Rc : Set (SemLoc sig × Ix)) (Ψ : Dev nD → sProp 𝕄) (c : Dev nD) :
    Dat τ (Elt F) Ix Name U Lvl cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => y0tTile (iblk V c 0 t) (iblk V c 1 t) (iblk V c 2 t) (iblk V c 3 t)
    | ⟨5, _⟩ => xtTile (iblk V c 0 t)
    | ⟨6, _⟩ => s1At V c t.val t.isLt
    | ⟨7, _⟩ => s2At V c t.val t.isLt
  Φ _ := Ψ c
  q _ := fullShare
  owed _ := O
  recorded _ := Rc

variable (O : CellTallies nD τ sig Ix) (Rc : Set (SemLoc sig × Ix))
  (Ψ : Dev nD → sProp (MT nD τ sig Ix (Elt F) Name U Lvl))

theorem A_eq (c : Dev nD) (w : Fin cfg0.W) : (dat V O Rc Ψ c).A w = V c (Pipeline.arrRef spec0 w) := by
  dsimp only [dat]

theorem owed_eq (c : Dev nD) (t : Fin (cfg0.N + 1)) : (dat V O Rc Ψ c).owed t = O := by dsimp only [dat]
theorem Φ_eq (c : Dev nD) (t : Fin (cfg0.N + 1)) : (dat V O Rc Ψ c).Φ t = Ψ c := by dsimp only [dat]
theorem recorded_eq (c : Dev nD) (t : Fin (cfg0.N + 1)) : (dat V O Rc Ψ c).recorded t = Rc := by dsimp only [dat]

theorem after_0 (c : Dev nD) (t : Fin cfg0.N) : (dat V O Rc Ψ c).after 0 t = iblk V c 0 t := by dsimp only [dat]
theorem after_1 (c : Dev nD) (t : Fin cfg0.N) : (dat V O Rc Ψ c).after 1 t = iblk V c 1 t := by dsimp only [dat]
theorem after_2 (c : Dev nD) (t : Fin cfg0.N) : (dat V O Rc Ψ c).after 2 t = iblk V c 2 t := by dsimp only [dat]
theorem after_3 (c : Dev nD) (t : Fin cfg0.N) : (dat V O Rc Ψ c).after 3 t = iblk V c 3 t := by dsimp only [dat]
theorem after_4 (c : Dev nD) (t : Fin cfg0.N) :
    (dat V O Rc Ψ c).after 4 t = y0tTile (iblk V c 0 t) (iblk V c 1 t) (iblk V c 2 t) (iblk V c 3 t) := by dsimp only [dat]
theorem after_5 (c : Dev nD) (t : Fin cfg0.N) : (dat V O Rc Ψ c).after 5 t = xtTile (iblk V c 0 t) := by dsimp only [dat]
theorem after_6 (c : Dev nD) (t : Fin cfg0.N) : (dat V O Rc Ψ c).after 6 t = s1At V c t.val t.isLt := by dsimp only [dat]
theorem after_7 (c : Dev nD) (t : Fin cfg0.N) : (dat V O Rc Ψ c).after 7 t = s2At V c t.val t.isLt := by dsimp only [dat]

theorem before_0 (c : Dev nD) (t : Fin cfg0.N) (d) : (dat V O Rc Ψ c).before 0 t d = iblk V c 0 t :=
  ((dat V O Rc Ψ c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V O Rc Ψ c).before 1 t d = iblk V c 1 t :=
  ((dat V O Rc Ψ c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V O Rc Ψ c).before 2 t d = iblk V c 2 t :=
  ((dat V O Rc Ψ c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V O Rc Ψ c).before 3 t d = iblk V c 3 t :=
  ((dat V O Rc Ψ c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

theorem before_6 (c : Dev nD) (t : Fin cfg0.N) (h0 : t.val ≠ 0) (d) :
    (dat V O Rc Ψ c).before 6 t d = s1At V c (t.val - 1) (Nat.lt_of_le_of_lt (Nat.sub_le _ _) t.isLt) := by
  have hN : t.val < 32 := lt_of_lt_of_eq t.isLt (show cfg0.N = 32 from N_0)
  rw [Dat.before_out_kept _ 6 rfl t h0 (Bool.eq_false_iff.mpr fun h => by
      have := (flush0_6 _).mp h; dsimp only at this; omega) (fun _ => rfl) (fun _ _ => rfl)]
  dsimp only [dat]
theorem before_7 (c : Dev nD) (t : Fin cfg0.N) (h0 : t.val ≠ 0) (d) :
    (dat V O Rc Ψ c).before 7 t d = s2At V c (t.val - 1) (Nat.lt_of_le_of_lt (Nat.sub_le _ _) t.isLt) := by
  have hN : t.val < 32 := lt_of_lt_of_eq t.isLt (show cfg0.N = 32 from N_0)
  rw [Dat.before_out_kept _ 7 rfl t h0 (Bool.eq_false_iff.mpr fun h => by
      have := (flush0_7 _).mp h; dsimp only at this; omega) (fun _ => rfl) (fun _ _ => rfl)]
  dsimp only [dat]

end Cert.KernelIdeal.R0

end
-- ==== Proof.R3.Base.lean ====
import proofs.«214766_g21345987461187_cont_8to1_720_22_alg».proof.Proof.Gen.KernelIdeal.Launch
import proofs.«214766_g21345987461187_cont_8to1_720_22_alg».proof.Proof.Gen.KernelIdeal.Skeleton
import proofs.«214766_g21345987461187_cont_8to1_720_22_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R3

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

section
variable (V : (c : Dev nD) → (b : Ref sig .tc) → Buf (Elt F) ((c : Thread nD τ).loc b))

def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before_0_of {c : Dev nD} (dat : Dat τ (Elt F) Ix Name U Lvl cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Ix Name U Lvl cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Ix Name U Lvl cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Ix Name U Lvl cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Ix Name U Lvl cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_5_of {c : Dev nD} (dat : Dat τ (Elt F) Ix Name U Lvl cfg3 c) (hA : dat.A 5 = V c (Pipeline.arrRef spec3 5))
    (hafter : ∀ t, dat.after 5 t = iblk V c 5 t) (t : Fin cfg3.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_6_of {c : Dev nD} (dat : Dat τ (Elt F) Ix Name U Lvl cfg3 c) (hA : dat.A 6 = V c (Pipeline.arrRef spec3 6))
    (hafter : ∀ t, dat.after 6 t = iblk V c 6 t) (t : Fin cfg3.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before_7_of {c : Dev nD} (dat : Dat τ (Elt F) Ix Name U Lvl cfg3 c) (hA : dat.A 7 = V c (Pipeline.arrRef spec3 7))
    (hafter : ∀ t, dat.after 7 t = iblk V c 7 t) (t : Fin cfg3.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

end

abbrev cond (i : grid3.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond : ∀ t : Fin cfg3.N, cond (grid3.coords t) ↔ t.val % 16 = 0 :=
  (by decide +kernel : ∀ t : Fin grid3.N, cond (grid3.coords t) ↔ t.val % 16 = 0)

abbrev ms0 (t : Fin cfg3.N) : Memref sig .tc .vmem S1x512x16x128 .f32 := win3_0.stage (cfg3.slots t 0)
abbrev hs0 (t : Fin cfg3.N) : (ms0 t).IsWhole := hstage3_0 ((cfg3.slots t 0).cast nbuf3_0)
abbrev ms1 (t : Fin cfg3.N) : Memref sig .tc .vmem S1x512x3 .f32 := win3_1.stage (cfg3.slots t 1)
abbrev hs1 (t : Fin cfg3.N) : (ms1 t).IsWhole := hstage3_1 ((cfg3.slots t 1).cast nbuf3_1)
abbrev ms2 (t : Fin cfg3.N) : Memref sig .tc .vmem S1x512x16 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S3x16 .f32 := win3_3.stage (cfg3.slots t 3)
abbrev hs3 (t : Fin cfg3.N) : (ms3 t).IsWhole := hstage3_3 ((cfg3.slots t 3).cast nbuf3_3)
abbrev ms4 (t : Fin cfg3.N) : Memref sig .tc .vmem S16x64x64 .f32 := win3_4.stage (cfg3.slots t 4)
abbrev hs4 (t : Fin cfg3.N) : (ms4 t).IsWhole := hstage3_4 ((cfg3.slots t 4).cast nbuf3_4)
abbrev ms5 (t : Fin cfg3.N) : Memref sig .tc .vmem S1x64 .f32 := win3_5.stage (cfg3.slots t 5)
abbrev hs5 (t : Fin cfg3.N) : (ms5 t).IsWhole := hstage3_5 ((cfg3.slots t 5).cast nbuf3_5)
abbrev ms6 (t : Fin cfg3.N) : Memref sig .tc .vmem S1x64 .f32 := win3_6.stage (cfg3.slots t 6)
abbrev hs6 (t : Fin cfg3.N) : (ms6 t).IsWhole := hstage3_6 ((cfg3.slots t 6).cast nbuf3_6)
abbrev ms7 (t : Fin cfg3.N) : Memref sig .tc .vmem S1x64 .f32 := win3_7.stage (cfg3.slots t 7)
abbrev hs7 (t : Fin cfg3.N) : (ms7 t).IsWhole := hstage3_7 ((cfg3.slots t 7).cast nbuf3_7)
abbrev ms8 (t : Fin cfg3.N) : Memref sig .tc .vmem S1x512x64 .f32 := win3_8.stage (cfg3.slots t 8)
abbrev hs8 (t : Fin cfg3.N) : (ms8 t).IsWhole := hstage3_8 ((cfg3.slots t 8).cast nbuf3_8)
abbrev ms9 (t : Fin cfg3.N) : Memref sig .tc .vmem S1x64 .f32 := win3_9.stage (cfg3.slots t 9)
abbrev hs9 (t : Fin cfg3.N) : (ms9 t).IsWhole := hstage3_9 ((cfg3.slots t 9).cast nbuf3_9)
abbrev ms10 (t : Fin cfg3.N) : Memref sig .tc .vmem S1x64 .f32 := win3_10.stage (cfg3.slots t 10)
abbrev hs10 (t : Fin cfg3.N) : (ms10 t).IsWhole := hstage3_10 ((cfg3.slots t 10).cast nbuf3_10)

abbrev VO8 : View sig .tc .vmem S1x512x64 .f32 := (Memref.whole cc3_stg8_0 : Memref sig .tc .vmem S1x512x64 .f32).view
abbrev VO9 : View sig .tc .vmem S1x64 .f32 := (Memref.whole cc3_stg9_0 : Memref sig .tc .vmem S1x64 .f32).view
abbrev VO10 : View sig .tc .vmem S1x64 .f32 := (Memref.whole cc3_stg10_0 : Memref sig .tc .vmem S1x64 .f32).view

end Cert.KernelIdeal.R3

end
-- ==== Proof.R3.RunA.lean ====
import proofs.«214766_g21345987461187_cont_8to1_720_22_alg».proof.Proof.R3.Base

set_option maxRecDepth 16384

noncomputable section

namespace Cert.KernelIdeal.R3

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
noncomputable def kernelRun_A (c : Dev nD) (i : grid3.Coords) (arg2 : Memref sig .tc .vmem S1x512x16x128 .f32) (harg2 : arg2.IsWhole) (arg3 : Memref sig .tc .vmem S1x512x3 .f32) (harg3 : arg3.IsWhole) (arg4 : Memref sig .tc .vmem S1x512x16 .f32) (harg4 : arg4.IsWhole) (arg5 : Memref sig .tc .vmem S3x16 .f32) (harg5 : arg5.IsWhole) (arg6 : Memref sig .tc .vmem S16x64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x512x64 .f32) (harg10 : arg10.IsWhole) (arg11 : Memref sig .tc .vmem S1x64 .f32) (harg11 : arg11.IsWhole) (arg12 : Memref sig .tc .vmem S1x64 .f32) (harg12 : arg12.IsWhole) (hc0 : cond i)
    (x0 : Vec F S1x512x16x128 .f32) (x1 : Vec F S1x512x3 .f32) (x2 : Vec F S1x512x16 .f32) (x3 : Vec F S3x16 .f32) (x4 : Vec F S16x64x64 .f32) (x5 : Vec F S1x64 .f32) (x6 : Vec F S1x64 .f32) (x7 : Vec F S1x64 .f32) :
    Σ' (L8 : List (View.Piece (Elt F) S1x512x64 .f32)), Σ' (L9 : List (View.Piece (Elt F) S1x64 .f32)), { L10 : List (View.Piece (Elt F) S1x64 .f32) //
      ∀ {Ix : Type} [DecidableEq Ix] {Name : Type} [DecidableEq Name] {U : Type} [URA U] {Lvl : Type} [Preorder Lvl]
          (E : Set Name) (K : PUnit → sProp (MT nD τ sig Ix (Elt F) Name U Lvl)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10)) -∗ K ⟨⟩))
          ⊢ wp frame (wpE (defs₀ (F := F)) Variants.none c none) E (cc3__k2_body i arg2 harg2 arg3 harg3 arg4 harg4 arg5 harg5 arg6 harg6 arg7 harg7 arg8 harg8 arg9 harg9 arg10 harg10 arg11 harg11 arg12 harg12) K } := by
  refine ⟨?_, ?_, ?_, fun {Ix} _ {Name} _ {U} _ {Lvl} _ E K => ?run⟩
  case run =>
    simp only [cc3__k2_body_eq_skeleton]; unfold cc3__k2_body_skel
    simp only [k3_part1_eq_skeleton, k3_part2_eq_skeleton, k3_part3_eq_skeleton, k3_part4_eq_skeleton, k3_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    iexists _; iexact H10

end Cert.KernelIdeal.R3

end
-- ==== Proof.R3.RunB.lean ====
import proofs.«214766_g21345987461187_cont_8to1_720_22_alg».proof.Proof.R3.Base

set_option maxRecDepth 16384

noncomputable section

namespace Cert.KernelIdeal.R3

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
noncomputable def kernelRun_B (c : Dev nD) (i : grid3.Coords) (arg2 : Memref sig .tc .vmem S1x512x16x128 .f32) (harg2 : arg2.IsWhole) (arg3 : Memref sig .tc .vmem S1x512x3 .f32) (harg3 : arg3.IsWhole) (arg4 : Memref sig .tc .vmem S1x512x16 .f32) (harg4 : arg4.IsWhole) (arg5 : Memref sig .tc .vmem S3x16 .f32) (harg5 : arg5.IsWhole) (arg6 : Memref sig .tc .vmem S16x64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x512x64 .f32) (harg10 : arg10.IsWhole) (arg11 : Memref sig .tc .vmem S1x64 .f32) (harg11 : arg11.IsWhole) (arg12 : Memref sig .tc .vmem S1x64 .f32) (harg12 : arg12.IsWhole) (hc0 : ¬cond i)
    (x0 : Vec F S1x512x16x128 .f32) (x1 : Vec F S1x512x3 .f32) (x2 : Vec F S1x512x16 .f32) (x3 : Vec F S3x16 .f32) (x4 : Vec F S16x64x64 .f32) (x5 : Vec F S1x64 .f32) (x6 : Vec F S1x64 .f32) (x7 : Vec F S1x64 .f32) (xo9 : Vec F S1x64 .f32) (xo10 : Vec F S1x64 .f32) :
    Σ' (L8 : List (View.Piece (Elt F) S1x512x64 .f32)), Σ' (L9 : List (View.Piece (Elt F) S1x64 .f32)), { L10 : List (View.Piece (Elt F) S1x64 .f32) //
      ∀ {Ix : Type} [DecidableEq Ix] {Name : Type} [DecidableEq Name] {U : Type} [URA U] {Lvl : Type} [Preorder Lvl]
          (E : Set Name) (K : PUnit → sProp (MT nD τ sig Ix (Elt F) Name U Lvl)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xo9 ∗ owns (c : Thread nD τ) arg12 fullShare xo10
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10)) -∗ K ⟨⟩))
          ⊢ wp frame (wpE (defs₀ (F := F)) Variants.none c none) E (cc3__k2_body i arg2 harg2 arg3 harg3 arg4 harg4 arg5 harg5 arg6 harg6 arg7 harg7 arg8 harg8 arg9 harg9 arg10 harg10 arg11 harg11 arg12 harg12) K } := by
  refine ⟨?_, ?_, ?_, fun {Ix} _ {Name} _ {U} _ {Lvl} _ E K => ?run⟩
  case run =>
    simp only [cc3__k2_body_eq_skeleton]; unfold cc3__k2_body_skel
    simp only [k3_part1_eq_skeleton, k3_part2_eq_skeleton, k3_part3_eq_skeleton, k3_part4_eq_skeleton, k3_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    iexists _; iexact H10

end Cert.KernelIdeal.R3

end
-- ==== Proof.R3.Data.lean ====
import proofs.«214766_g21345987461187_cont_8to1_720_22_alg».proof.Proof.R3.RunA
import proofs.«214766_g21345987461187_cont_8to1_720_22_alg».proof.Proof.R3.RunB

set_option maxRecDepth 16384

noncomputable section

namespace Cert.KernelIdeal.R3

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

section
variable (c : Dev nD) (i : grid3.Coords) (arg2 : Memref sig .tc .vmem S1x512x16x128 .f32) (harg2 : arg2.IsWhole) (arg3 : Memref sig .tc .vmem S1x512x3 .f32) (harg3 : arg3.IsWhole) (arg4 : Memref sig .tc .vmem S1x512x16 .f32) (harg4 : arg4.IsWhole) (arg5 : Memref sig .tc .vmem S3x16 .f32) (harg5 : arg5.IsWhole) (arg6 : Memref sig .tc .vmem S16x64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x512x64 .f32) (harg10 : arg10.IsWhole) (arg11 : Memref sig .tc .vmem S1x64 .f32) (harg11 : arg11.IsWhole) (arg12 : Memref sig .tc .vmem S1x64 .f32) (harg12 : arg12.IsWhole)

section
variable (hc0 : cond i) (x0 : Vec F S1x512x16x128 .f32) (x1 : Vec F S1x512x3 .f32) (x2 : Vec F S1x512x16 .f32) (x3 : Vec F S3x16 .f32) (x4 : Vec F S16x64x64 .f32) (x5 : Vec F S1x64 .f32) (x6 : Vec F S1x64 .f32) (x7 : Vec F S1x64 .f32)

theorem coverA8 (y : S1x512x64.Idx) :
    ∃ pc ∈ (kernelRun_A c i arg2 harg2 arg3 harg3 arg4 harg4 arg5 harg5 arg6 harg6 arg7 harg7 arg8 harg8 arg9 harg9 arg10 harg10 arg11 harg11 arg12 harg12 hc0 x0 x1 x2 x3 x4 x5 x6 x7).1, y ∈ pc.1.set :=
  View.cover_of_tiledL (kernelRun_A c i arg2 harg2 arg3 harg3 arg4 harg4 arg5 harg5 arg6 harg6 arg7 harg7 arg8 harg8 arg9 harg9 arg10 harg10 arg11 harg11 arg12 harg12 hc0 x0 x1 x2 x3 x4 x5 x6 x7).1 S1x512x64.size (by sl_kernel_rfl) y

def outA8 : Vec F S1x512x64 .f32 :=
  VO8.read (Elt F) (VO8.writes (Elt F) VO8.junk (kernelRun_A c i arg2 harg2 arg3 harg3 arg4 harg4 arg5 harg5 arg6 harg6 arg7 harg7 arg8 harg8 arg9 harg9 arg10 harg10 arg11 harg11 arg12 harg12 hc0 x0 x1 x2 x3 x4 x5 x6 x7).1)

theorem coverA9 (y : S1x64.Idx) :
    ∃ pc ∈ (kernelRun_A c i arg2 harg2 arg3 harg3 arg4 harg4 arg5 harg5 arg6 harg6 arg7 harg7 arg8 harg8 arg9 harg9 arg10 harg10 arg11 harg11 arg12 harg12 hc0 x0 x1 x2 x3 x4 x5 x6 x7).2.1, y ∈ pc.1.set :=
  View.cover_of_tiledL (kernelRun_A c i arg2 harg2 arg3 harg3 arg4 harg4 arg5 harg5 arg6 harg6 arg7 harg7 arg8 harg8 arg9 harg9 arg10 harg10 arg11 harg11 arg12 harg12 hc0 x0 x1 x2 x3 x4 x5 x6 x7).2.1 S1x64.size (by sl_kernel_rfl) y

def outA9 : Vec F S1x64 .f32 :=
  VO9.read (Elt F) (VO9.writes (Elt F) VO9.junk (kernelRun_A c i arg2 harg2 arg3 harg3 arg4 harg4 arg5 harg5 arg6 harg6 arg7 harg7 arg8 harg8 arg9 harg9 arg10 harg10 arg11 harg11 arg12 harg12 hc0 x0 x1 x2 x3 x4 x5 x6 x7).2.1)

theorem coverA10 (y : S1x64.Idx) :
    ∃ pc ∈ (kernelRun_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1, y ∈ pc.1.set :=
  View.cover_of_tiledL (kernelRun_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1 S1x64.size (by sl_kernel_rfl) y

def outA10 : Vec F S1x64 .f32 :=
  VO10.read (Elt F) (VO10.writes (Elt F) VO10.junk (kernelRun_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1)

end

section
variable (hc0 : ¬cond i) (x0 : Vec F S1x512x16x128 .f32) (x1 : Vec F S1x512x3 .f32) (x2 : Vec F S1x512x16 .f32) (x3 : Vec F S3x16 .f32) (x4 : Vec F S16x64x64 .f32) (x5 : Vec F S1x64 .f32) (x6 : Vec F S1x64 .f32) (x7 : Vec F S1x64 .f32) (xo9 xo10 : Vec F S1x64 .f32)

theorem coverB8 (y : S1x512x64.Idx) :
    ∃ pc ∈ (kernelRun_B c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10).1, y ∈ pc.1.set :=
  View.cover_of_tiledL (kernelRun_B c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10).1 S1x512x64.size (by sl_kernel_rfl) y

def outB8 : Vec F S1x512x64 .f32 :=
  VO8.read (Elt F) (VO8.writes (Elt F) VO8.junk (kernelRun_B c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10).1)

theorem coverB9 (y : S1x64.Idx) :
    ∃ pc ∈ (kernelRun_B c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10).2.1, y ∈ pc.1.set :=
  View.cover_of_tiledL (kernelRun_B c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10).2.1 S1x64.size (by sl_kernel_rfl) y

def outB9 : Vec F S1x64 .f32 :=
  VO9.read (Elt F) (VO9.writes (Elt F) VO9.junk (kernelRun_B c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10).2.1)

theorem coverB10 (y : S1x64.Idx) :
    ∃ pc ∈ (kernelRun_B c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10).2.2.1, y ∈ pc.1.set :=
  View.cover_of_tiledL (kernelRun_B c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10).2.2.1 S1x64.size (by sl_kernel_rfl) y

def outB10 : Vec F S1x64 .f32 :=
  VO10.read (Elt F) (VO10.writes (Elt F) VO10.junk (kernelRun_B c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10).2.2.1)

end

end

section
variable (V : (c : Dev nD) → (b : Ref sig .tc) → Buf (Elt F) ((c : Thread nD τ).loc b))

def outsAt (c : Dev nD) : (n : ℕ) → n < cfg3.N → Vec F S1x512x64 .f32 × Vec F S1x64 .f32 × Vec F S1x64 .f32
  | 0, hn => (outA8 c (grid3.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) (ms10 ⟨0, hn⟩) (hs10 ⟨0, hn⟩) ((hcond ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩),
        outA9 c (grid3.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) (ms10 ⟨0, hn⟩) (hs10 ⟨0, hn⟩) ((hcond ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩),
        outA10 c (grid3.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) (ms10 ⟨0, hn⟩) (hs10 ⟨0, hn⟩) ((hcond ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩))
  | n + 1, hn =>
    if h0 : (n + 1) % 16 = 0 then
      (outA8 c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) ((hcond ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩),
        outA9 c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) ((hcond ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩),
        outA10 c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) ((hcond ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩))
    else
      (outB8 c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (fun h => h0 ((hcond ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt c n (Nat.lt_of_succ_lt hn)).2.1 (outsAt c n (Nat.lt_of_succ_lt hn)).2.2,
        outB9 c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (fun h => h0 ((hcond ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt c n (Nat.lt_of_succ_lt hn)).2.1 (outsAt c n (Nat.lt_of_succ_lt hn)).2.2,
        outB10 c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (fun h => h0 ((hcond ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt c n (Nat.lt_of_succ_lt hn)).2.1 (outsAt c n (Nat.lt_of_succ_lt hn)).2.2)

theorem outsAt_A (c : Dev nD) (t : Fin cfg3.N) (h0 : t.val % 16 = 0) :
    outsAt V c t.val t.isLt = (outA8 c (grid3.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ((hcond t).mpr h0) (iblk V c 0 t) (iblk V c 1 t) (iblk V c 2 t) (iblk V c 3 t) (iblk V c 4 t) (iblk V c 5 t) (iblk V c 6 t) (iblk V c 7 t),
        outA9 c (grid3.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ((hcond t).mpr h0) (iblk V c 0 t) (iblk V c 1 t) (iblk V c 2 t) (iblk V c 3 t) (iblk V c 4 t) (iblk V c 5 t) (iblk V c 6 t) (iblk V c 7 t),
        outA10 c (grid3.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ((hcond t).mpr h0) (iblk V c 0 t) (iblk V c 1 t) (iblk V c 2 t) (iblk V c 3 t) (iblk V c 4 t) (iblk V c 5 t) (iblk V c 6 t) (iblk V c 7 t)) := by
  obtain ⟨n, hn⟩ := t
  cases n with
  | zero => exact rfl
  | succ n => exact (dif_pos h0).trans rfl

theorem outsAt_B (c : Dev nD) (t : Fin cfg3.N) (h0 : ¬t.val % 16 = 0) :
    outsAt V c t.val t.isLt = (outB8 c (grid3.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (fun h => h0 ((hcond t).mp h)) (iblk V c 0 t) (iblk V c 1 t) (iblk V c 2 t) (iblk V c 3 t) (iblk V c 4 t) (iblk V c 5 t) (iblk V c 6 t) (iblk V c 7 t) (outsAt V c (t.val - 1) (Nat.lt_of_le_of_lt (Nat.sub_le _ _) t.isLt)).2.1 (outsAt V c (t.val - 1) (Nat.lt_of_le_of_lt (Nat.sub_le _ _) t.isLt)).2.2,
        outB9 c (grid3.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (fun h => h0 ((hcond t).mp h)) (iblk V c 0 t) (iblk V c 1 t) (iblk V c 2 t) (iblk V c 3 t) (iblk V c 4 t) (iblk V c 5 t) (iblk V c 6 t) (iblk V c 7 t) (outsAt V c (t.val - 1) (Nat.lt_of_le_of_lt (Nat.sub_le _ _) t.isLt)).2.1 (outsAt V c (t.val - 1) (Nat.lt_of_le_of_lt (Nat.sub_le _ _) t.isLt)).2.2,
        outB10 c (grid3.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (fun h => h0 ((hcond t).mp h)) (iblk V c 0 t) (iblk V c 1 t) (iblk V c 2 t) (iblk V c 3 t) (iblk V c 4 t) (iblk V c 5 t) (iblk V c 6 t) (iblk V c 7 t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

def dat (Rc : Set (SemLoc sig × Ix)) (Ψ : Dev nD → sProp 𝕄) (c : Dev nD) : Dat τ (Elt F) Ix Name U Lvl cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (outsAt V c t.val t.isLt).1
    | ⟨9, _⟩ => (outsAt V c t.val t.isLt).2.1
    | ⟨10, _⟩ => (outsAt V c t.val t.isLt).2.2
  Φ _ := Ψ c
  q _ := fullShare
  owed _ := 0
  recorded _ := Rc

theorem A_eq (Rc : Set (SemLoc sig × Ix)) (Ψ : Dev nD → sProp 𝕄) (c : Dev nD) (w : Fin cfg3.W) : (dat V Rc Ψ c).A w = V c (Pipeline.arrRef spec3 w) := by
  dsimp only [dat]

theorem after_0 (Rc : Set (SemLoc sig × Ix)) (Ψ : Dev nD → sProp 𝕄) (c : Dev nD) (t : Fin cfg3.N) : (dat V Rc Ψ c).after 0 t = iblk V c 0 t := by dsimp only [dat]
theorem after_1 (Rc : Set (SemLoc sig × Ix)) (Ψ : Dev nD → sProp 𝕄) (c : Dev nD) (t : Fin cfg3.N) : (dat V Rc Ψ c).after 1 t = iblk V c 1 t := by dsimp only [dat]
theorem after_2 (Rc : Set (SemLoc sig × Ix)) (Ψ : Dev nD → sProp 𝕄) (c : Dev nD) (t : Fin cfg3.N) : (dat V Rc Ψ c).after 2 t = iblk V c 2 t := by dsimp only [dat]
theorem after_3 (Rc : Set (SemLoc sig × Ix)) (Ψ : Dev nD → sProp 𝕄) (c : Dev nD) (t : Fin cfg3.N) : (dat V Rc Ψ c).after 3 t = iblk V c 3 t := by dsimp only [dat]
theorem after_4 (Rc : Set (SemLoc sig × Ix)) (Ψ : Dev nD → sProp 𝕄) (c : Dev nD) (t : Fin cfg3.N) : (dat V Rc Ψ c).after 4 t = iblk V c 4 t := by dsimp only [dat]
theorem after_5 (Rc : Set (SemLoc sig × Ix)) (Ψ : Dev nD → sProp 𝕄) (c : Dev nD) (t : Fin cfg3.N) : (dat V Rc Ψ c).after 5 t = iblk V c 5 t := by dsimp only [dat]
theorem after_6 (Rc : Set (SemLoc sig × Ix)) (Ψ : Dev nD → sProp 𝕄) (c : Dev nD) (t : Fin cfg3.N) : (dat V Rc Ψ c).after 6 t = iblk V c 6 t := by dsimp only [dat]
theorem after_7 (Rc : Set (SemLoc sig × Ix)) (Ψ : Dev nD → sProp 𝕄) (c : Dev nD) (t : Fin cfg3.N) : (dat V Rc Ψ c).after 7 t = iblk V c 7 t := by dsimp only [dat]
theorem after_8 (Rc : Set (SemLoc sig × Ix)) (Ψ : Dev nD → sProp 𝕄) (c : Dev nD) (t : Fin cfg3.N) : (dat V Rc Ψ c).after 8 t = (outsAt V c t.val t.isLt).1 := by dsimp only [dat]
theorem after_9 (Rc : Set (SemLoc sig × Ix)) (Ψ : Dev nD → sProp 𝕄) (c : Dev nD) (t : Fin cfg3.N) : (dat V Rc Ψ c).after 9 t = (outsAt V c t.val t.isLt).2.1 := by dsimp only [dat]
theorem after_10 (Rc : Set (SemLoc sig × Ix)) (Ψ : Dev nD → sProp 𝕄) (c : Dev nD) (t : Fin cfg3.N) : (dat V Rc Ψ c).after 10 t = (outsAt V c t.val t.isLt).2.2 := by dsimp only [dat]

theorem before_0 (Rc : Set (SemLoc sig × Ix)) (Ψ : Dev nD → sProp 𝕄) (c : Dev nD) (t : Fin cfg3.N) (d) : (dat V Rc Ψ c).before 0 t d = iblk V c 0 t :=
  before_0_of V (dat V Rc Ψ c) (A_eq V Rc Ψ c 0) (after_0 V Rc Ψ c) t d
theorem before_1 (Rc : Set (SemLoc sig × Ix)) (Ψ : Dev nD → sProp 𝕄) (c : Dev nD) (t : Fin cfg3.N) (d) : (dat V Rc Ψ c).before 1 t d = iblk V c 1 t :=
  before_1_of V (dat V Rc Ψ c) (A_eq V Rc Ψ c 1) (after_1 V Rc Ψ c) t d
theorem before_2 (Rc : Set (SemLoc sig × Ix)) (Ψ : Dev nD → sProp 𝕄) (c : Dev nD) (t : Fin cfg3.N) (d) : (dat V Rc Ψ c).before 2 t d = iblk V c 2 t :=
  before_2_of V (dat V Rc Ψ c) (A_eq V Rc Ψ c 2) (after_2 V Rc Ψ c) t d
theorem before_3 (Rc : Set (SemLoc sig × Ix)) (Ψ : Dev nD → sProp 𝕄) (c : Dev nD) (t : Fin cfg3.N) (d) : (dat V Rc Ψ c).before 3 t d = iblk V c 3 t :=
  before_3_of V (dat V Rc Ψ c) (A_eq V Rc Ψ c 3) (after_3 V Rc Ψ c) t d
theorem before_4 (Rc : Set (SemLoc sig × Ix)) (Ψ : Dev nD → sProp 𝕄) (c : Dev nD) (t : Fin cfg3.N) (d) : (dat V Rc Ψ c).before 4 t d = iblk V c 4 t :=
  before_4_of V (dat V Rc Ψ c) (A_eq V Rc Ψ c 4) (after_4 V Rc Ψ c) t d
theorem before_5 (Rc : Set (SemLoc sig × Ix)) (Ψ : Dev nD → sProp 𝕄) (c : Dev nD) (t : Fin cfg3.N) (d) : (dat V Rc Ψ c).before 5 t d = iblk V c 5 t :=
  before_5_of V (dat V Rc Ψ c) (A_eq V Rc Ψ c 5) (after_5 V Rc Ψ c) t d
theorem before_6 (Rc : Set (SemLoc sig × Ix)) (Ψ : Dev nD → sProp 𝕄) (c : Dev nD) (t : Fin cfg3.N) (d) : (dat V Rc Ψ c).before 6 t d = iblk V c 6 t :=
  before_6_of V (dat V Rc Ψ c) (A_eq V Rc Ψ c 6) (after_6 V Rc Ψ c) t d
theorem before_7 (Rc : Set (SemLoc sig × Ix)) (Ψ : Dev nD → sProp 𝕄) (c : Dev nD) (t : Fin cfg3.N) (d) : (dat V Rc Ψ c).before 7 t d = iblk V c 7 t :=
  before_7_of V (dat V Rc Ψ c) (A_eq V Rc Ψ c 7) (after_7 V Rc Ψ c) t d

theorem before_9_B (Rc : Set (SemLoc sig × Ix)) (Ψ : Dev nD → sProp 𝕄) (c : Dev nD) (t : Fin cfg3.N) (h0 : ¬t.val % 16 = 0) (d) :
    (dat V Rc Ψ c).before 9 t d = (outsAt V c (t.val - 1) (Nat.lt_of_le_of_lt (Nat.sub_le _ _) t.isLt)).2.1 := by
  have hN : t.val < 16 := lt_of_lt_of_eq t.isLt (show cfg3.N = 16 from N_3)
  rw [Dat.before_out_kept _ 9 rfl t (by omega) (Bool.eq_false_iff.mpr fun h => by have := (flush3_9 _).mp h; dsimp only at this; omega)
    (fun _ => rfl) (fun _ _ => rfl)]
  dsimp only [dat]

theorem before_10_B (Rc : Set (SemLoc sig × Ix)) (Ψ : Dev nD → sProp 𝕄) (c : Dev nD) (t : Fin cfg3.N) (h0 : ¬t.val % 16 = 0) (d) :
    (dat V Rc Ψ c).before 10 t d = (outsAt V c (t.val - 1) (Nat.lt_of_le_of_lt (Nat.sub_le _ _) t.isLt)).2.2 := by
  have hN : t.val < 16 := lt_of_lt_of_eq t.isLt (show cfg3.N = 16 from N_3)
  rw [Dat.before_out_kept _ 10 rfl t (by omega) (Bool.eq_false_iff.mpr fun h => by have := (flush3_10 _).mp h; dsimp only at this; omega)
    (fun _ => rfl) (fun _ _ => rfl)]
  dsimp only [dat]

end

end Cert.KernelIdeal.R3

end
-- ==== Proof.R4.Data.lean ====
import proofs.«214766_g21345987461187_cont_8to1_720_22_alg».proof.Proof.Gen.KernelIdeal.Launch
import proofs.«214766_g21345987461187_cont_8to1_720_22_alg».proof.Proof.Gen.KernelIdeal.Skeleton
import proofs.«214766_g21345987461187_cont_8to1_720_22_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.R4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (V : (c : Dev nD) → (b : Ref sig .tc) → Buf (Elt F) ((c : Thread nD τ).loc b))

def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev blk0 (c : Dev nD) (t : Fin cfg4.N) : Vec F S1x256x64 .f32 := iblk V c 0 t
abbrev blk1 (c : Dev nD) (t : Fin cfg4.N) : Vec F S1x256x16x128 .f32 := iblk V c 1 t
abbrev blk2 (c : Dev nD) (t : Fin cfg4.N) : Vec F S1x256x16 .f32 := iblk V c 2 t
abbrev blk3 (c : Dev nD) (t : Fin cfg4.N) : Vec F S128x64 .f32 := iblk V c 3 t
abbrev blk4 (c : Dev nD) (t : Fin cfg4.N) : Vec F S1x64 .f32 := iblk V c 4 t
abbrev blk5 (c : Dev nD) (t : Fin cfg4.N) : Vec F S1x64 .f32 := iblk V c 5 t
abbrev blk6 (c : Dev nD) (t : Fin cfg4.N) : Vec F S1x128 .f32 := iblk V c 6 t

def conv (x0 : Vec F S1x256x64 .f32) (x3 : Vec F S128x64 .f32) (x4 x5 : Vec F S1x64 .f32) (x6 : Vec F S1x128 .f32) :
    FVec F S256x128 .f32 := k4_pay6 x0 x4 x5 x3 x6

def out7 (x0 : Vec F S1x256x64 .f32) (x3 : Vec F S128x64 .f32) (x4 x5 : Vec F S1x64 .f32) (x6 : Vec F S1x128 .f32) :
    Vec F S1x256x128 .f32 := k4_pay7 x0 x4 x5 x3 x6

def out8 (x1 : Vec F S1x256x16x128 .f32) (x2 : Vec F S1x256x16 .f32) : Vec F S1x256x128 .f32 := k4_pay1 (k4_pay8 x1 x2)

def sum1First (y : FVec F S256x128 .f32) : Vec F S1x128 .f32 := k4_pay4 y (k4_pay2 (F := F))
def sum1Next (y : FVec F S256x128 .f32) (xo : Vec F S1x128 .f32) : Vec F S1x128 .f32 := k4_pay4 y xo
def sum2First (y : FVec F S256x128 .f32) : Vec F S1x128 .f32 := k4_pay5 y (k4_pay3 (F := F))
def sum2Next (y : FVec F S256x128 .f32) (xo : Vec F S1x128 .f32) : Vec F S1x128 .f32 := k4_pay5 y xo

def convAt (c : Dev nD) (t : Fin cfg4.N) : FVec F S256x128 .f32 :=
  conv (blk0 V c t) (blk3 V c t) (blk4 V c t) (blk5 V c t) (blk6 V c t)

def sum1At (c : Dev nD) : (n : ℕ) → n < cfg4.N → Vec F S1x128 .f32
  | 0, hn => sum1First (convAt V c ⟨0, hn⟩)
  | n + 1, hn => sum1Next (convAt V c ⟨n + 1, hn⟩) (sum1At c n (Nat.lt_of_succ_lt hn))

def sum2At (c : Dev nD) : (n : ℕ) → n < cfg4.N → Vec F S1x128 .f32
  | 0, hn => sum2First (convAt V c ⟨0, hn⟩)
  | n + 1, hn => sum2Next (convAt V c ⟨n + 1, hn⟩) (sum2At c n (Nat.lt_of_succ_lt hn))

theorem sum1At_zero (c : Dev nD) (t : Fin cfg4.N) (h0 : t.val = 0) :
    sum1At V c t.val t.isLt = sum1First (convAt V c t) := by
  obtain ⟨n, hn⟩ := t
  cases n with
  | zero => rfl
  | succ n => exact absurd h0 (Nat.succ_ne_zero n)

theorem sum1At_pos (c : Dev nD) (t : Fin cfg4.N) (h0 : t.val ≠ 0) :
    sum1At V c t.val t.isLt = sum1Next (convAt V c t) (sum1At V c (t.val - 1) (Nat.lt_of_le_of_lt (Nat.sub_le _ _) t.isLt)) := by
  obtain ⟨n, hn⟩ := t
  cases n with
  | zero => exact absurd rfl h0
  | succ n => rfl

theorem sum2At_zero (c : Dev nD) (t : Fin cfg4.N) (h0 : t.val = 0) :
    sum2At V c t.val t.isLt = sum2First (convAt V c t) := by
  obtain ⟨n, hn⟩ := t
  cases n with
  | zero => rfl
  | succ n => exact absurd h0 (Nat.succ_ne_zero n)

theorem sum2At_pos (c : Dev nD) (t : Fin cfg4.N) (h0 : t.val ≠ 0) :
    sum2At V c t.val t.isLt = sum2Next (convAt V c t) (sum2At V c (t.val - 1) (Nat.lt_of_le_of_lt (Nat.sub_le _ _) t.isLt)) := by
  obtain ⟨n, hn⟩ := t
  cases n with
  | zero => exact absurd rfl h0
  | succ n => rfl

variable (Rc : Set (SemLoc sig × Ix)) (Ψ : Dev nD → sProp (MT nD τ sig Ix (Elt F) Name U Lvl))

def dat (c : Dev nD) : Dat τ (Elt F) Ix Name U Lvl cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => out7 (blk0 V c t) (blk3 V c t) (blk4 V c t) (blk5 V c t) (blk6 V c t)
    | ⟨8, _⟩ => out8 (blk1 V c t) (blk2 V c t)
    | ⟨9, _⟩ => sum1At V c t.val t.isLt
    | ⟨10, _⟩ => sum2At V c t.val t.isLt
  Φ _ := Ψ c
  q _ := fullShare
  owed _ := 0
  recorded _ := Rc

theorem A_eq (c : Dev nD) (w : Fin cfg4.W) : (dat V Rc Ψ c).A w = V c (Pipeline.arrRef spec4 w) := by
  dsimp only [dat]

theorem owed_eq (c : Dev nD) (t : Fin (cfg4.N + 1)) : (dat V Rc Ψ c).owed t = 0 := by dsimp only [dat]
theorem Φ_eq (c : Dev nD) (t : Fin (cfg4.N + 1)) : (dat V Rc Ψ c).Φ t = Ψ c := by dsimp only [dat]

theorem after_0 (c : Dev nD) (t : Fin cfg4.N) : (dat V Rc Ψ c).after 0 t = iblk V c 0 t := by dsimp only [dat]
theorem after_1 (c : Dev nD) (t : Fin cfg4.N) : (dat V Rc Ψ c).after 1 t = iblk V c 1 t := by dsimp only [dat]
theorem after_2 (c : Dev nD) (t : Fin cfg4.N) : (dat V Rc Ψ c).after 2 t = iblk V c 2 t := by dsimp only [dat]
theorem after_3 (c : Dev nD) (t : Fin cfg4.N) : (dat V Rc Ψ c).after 3 t = iblk V c 3 t := by dsimp only [dat]
theorem after_4 (c : Dev nD) (t : Fin cfg4.N) : (dat V Rc Ψ c).after 4 t = iblk V c 4 t := by dsimp only [dat]
theorem after_5 (c : Dev nD) (t : Fin cfg4.N) : (dat V Rc Ψ c).after 5 t = iblk V c 5 t := by dsimp only [dat]
theorem after_6 (c : Dev nD) (t : Fin cfg4.N) : (dat V Rc Ψ c).after 6 t = iblk V c 6 t := by dsimp only [dat]
theorem after_7 (c : Dev nD) (t : Fin cfg4.N) :
    (dat V Rc Ψ c).after 7 t = out7 (blk0 V c t) (blk3 V c t) (blk4 V c t) (blk5 V c t) (blk6 V c t) := by dsimp only [dat]
theorem after_8 (c : Dev nD) (t : Fin cfg4.N) : (dat V Rc Ψ c).after 8 t = out8 (blk1 V c t) (blk2 V c t) := by dsimp only [dat]
theorem after_9 (c : Dev nD) (t : Fin cfg4.N) : (dat V Rc Ψ c).after 9 t = sum1At V c t.val t.isLt := by dsimp only [dat]
theorem after_10 (c : Dev nD) (t : Fin cfg4.N) : (dat V Rc Ψ c).after 10 t = sum2At V c t.val t.isLt := by dsimp only [dat]

theorem recorded_eq (c : Dev nD) (t : Fin (cfg4.N + 1)) : (dat V Rc Ψ c).recorded t = Rc := by dsimp only [dat]

theorem before_0 (c : Dev nD) (t : Fin cfg4.N) (d) : (dat V Rc Ψ c).before 0 t d = iblk V c 0 t :=
  ((dat V Rc Ψ c).before_in_eq_fetched 0 rfl (fun _ => rfl) (fun _ _ _ => rfl)
    (fun t => by rw [after_0]; unfold Dat.blockOf iblk; rw [A_eq]) t d).trans
    (by unfold Dat.fetched Dat.blockOf iblk; rw [A_eq]; rfl)
theorem before_1 (c : Dev nD) (t : Fin cfg4.N) (d) : (dat V Rc Ψ c).before 1 t d = iblk V c 1 t :=
  ((dat V Rc Ψ c).before_in_eq_fetched 1 rfl (fun _ => rfl) (fun _ _ _ => rfl)
    (fun t => by rw [after_1]; unfold Dat.blockOf iblk; rw [A_eq]) t d).trans
    (by unfold Dat.fetched Dat.blockOf iblk; rw [A_eq]; rfl)
theorem before_2 (c : Dev nD) (t : Fin cfg4.N) (d) : (dat V Rc Ψ c).before 2 t d = iblk V c 2 t :=
  ((dat V Rc Ψ c).before_in_eq_fetched 2 rfl (fun _ => rfl) (fun _ _ _ => rfl)
    (fun t => by rw [after_2]; unfold Dat.blockOf iblk; rw [A_eq]) t d).trans
    (by unfold Dat.fetched Dat.blockOf iblk; rw [A_eq]; rfl)
theorem before_3 (c : Dev nD) (t : Fin cfg4.N) (d) : (dat V Rc Ψ c).before 3 t d = iblk V c 3 t :=
  ((dat V Rc Ψ c).before_in_eq_fetched 3 rfl (fun _ => rfl) (fun _ _ _ => rfl)
    (fun t => by rw [after_3]; unfold Dat.blockOf iblk; rw [A_eq]) t d).trans
    (by unfold Dat.fetched Dat.blockOf iblk; rw [A_eq]; rfl)
theorem before_4 (c : Dev nD) (t : Fin cfg4.N) (d) : (dat V Rc Ψ c).before 4 t d = iblk V c 4 t :=
  ((dat V Rc Ψ c).before_in_eq_fetched 4 rfl (fun _ => rfl) (fun _ _ _ => rfl)
    (fun t => by rw [after_4]; unfold Dat.blockOf iblk; rw [A_eq]) t d).trans
    (by unfold Dat.fetched Dat.blockOf iblk; rw [A_eq]; rfl)
theorem before_5 (c : Dev nD) (t : Fin cfg4.N) (d) : (dat V Rc Ψ c).before 5 t d = iblk V c 5 t :=
  ((dat V Rc Ψ c).before_in_eq_fetched 5 rfl (fun _ => rfl) (fun _ _ _ => rfl)
    (fun t => by rw [after_5]; unfold Dat.blockOf iblk; rw [A_eq]) t d).trans
    (by unfold Dat.fetched Dat.blockOf iblk; rw [A_eq]; rfl)
theorem before_6 (c : Dev nD) (t : Fin cfg4.N) (d) : (dat V Rc Ψ c).before 6 t d = iblk V c 6 t :=
  ((dat V Rc Ψ c).before_in_eq_fetched 6 rfl (fun _ => rfl) (fun _ _ _ => rfl)
    (fun t => by rw [after_6]; unfold Dat.blockOf iblk; rw [A_eq]) t d).trans
    (by unfold Dat.fetched Dat.blockOf iblk; rw [A_eq]; rfl)

theorem before_9_pos (c : Dev nD) (t : Fin cfg4.N) (h0 : t.val ≠ 0) (d) :
    (dat V Rc Ψ c).before 9 t d = sum1At V c (t.val - 1) (Nat.lt_of_le_of_lt (Nat.sub_le _ _) t.isLt) := by
  have hN : t.val < 32 := lt_of_lt_of_eq t.isLt (show cfg4.N = 32 from N_4)
  rw [Dat.before_out_kept _ 9 rfl t h0 (Bool.eq_false_iff.mpr fun h => by have := (flush4_9 _).mp h; dsimp only at this; omega)
    (fun _ => rfl) (fun _ _ => rfl)]
  dsimp only [dat]

theorem before_10_pos (c : Dev nD) (t : Fin cfg4.N) (h0 : t.val ≠ 0) (d) :
    (dat V Rc Ψ c).before 10 t d = sum2At V c (t.val - 1) (Nat.lt_of_le_of_lt (Nat.sub_le _ _) t.isLt) := by
  have hN : t.val < 32 := lt_of_lt_of_eq t.isLt (show cfg4.N = 32 from N_4)
  rw [Dat.before_out_kept _ 10 rfl t h0 (Bool.eq_false_iff.mpr fun h => by have := (flush4_10 _).mp h; dsimp only at this; omega)
    (fun _ => rfl) (fun _ _ => rfl)]
  dsimp only [dat]

end Cert.KernelIdeal.R4

end
-- ==== Proof.R5.Data.lean ====
import proofs.«214766_g21345987461187_cont_8to1_720_22_alg».proof.Proof.Gen.KernelIdeal.Launch
import proofs.«214766_g21345987461187_cont_8to1_720_22_alg».proof.Proof.Gen.KernelIdeal.Skeleton
import proofs.«214766_g21345987461187_cont_8to1_720_22_alg».proof.Proof.Gen.KernelIdeal.Points
import Idealize.ShloMosaic.Lib.Pipeline.FrameBody
import Idealize.ShloMosaic.Lib.Tactic

set_option maxRecDepth 16384

noncomputable section

namespace Cert.KernelIdeal.R5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

abbrev rIn : Rect S1x512x128 := Rect.unit (s := S1x512x128) ![0, 0, 0] S1x512x128.size inb_S1x512x128_S1x512x128_0_0_0
abbrev rRow : Rect S1x128 := Rect.unit (s := S1x128) ![0, 0] S1x128.size inb_S1x128_S1x128_0_0
abbrev rOut : Rect S1x128x512 := Rect.unit (s := S1x128x512) ![0, 0, 0] S1x128x512.size inb_S1x128x512_S1x128x512_0_0_0

def outBlk (y x : Vec F S1x512x128 .f32) (a b : Vec F S1x128 .f32) : Vec F S1x128x512 .f32 :=
  View.canon [⟨rOut, k5_pay1 (View.ld y rIn) (View.ld a rRow) (View.ld b rRow) (View.ld x rIn)⟩]

theorem cover_out (p : Vec F S1x128x512 .f32) (y : S1x128x512.Idx) :
    ∃ pc ∈ ([⟨rOut, p⟩] : List (View.Piece (Elt F) S1x128x512 .f32)), y ∈ pc.1.set :=
  View.cover_of_tiled [⟨rOut, p⟩] S1x128x512.size (by rfl) y

section Region

variable (V : (c : Dev nD) → (b : Ref sig .tc) → Buf (Elt F) ((c : Thread nD τ).loc b))
variable (Rc : Set (SemLoc sig × Ix))
variable (Ψ : Dev nD → sProp (MT nD τ sig Ix (Elt F) Name U Lvl))

def iblk (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

def dat (c : Dev nD) : Dat τ (Elt F) Ix Name U Lvl cfg5 c where
  A w := V c (Pipeline.arrRef spec5 w)
  after w t := match w with
    | ⟨0, _⟩ => iblk V c 0 t
    | ⟨1, _⟩ => iblk V c 1 t
    | ⟨2, _⟩ => iblk V c 2 t
    | ⟨3, _⟩ => iblk V c 3 t
    | ⟨4, _⟩ => outBlk (iblk V c 0 t) (iblk V c 1 t) (iblk V c 2 t) (iblk V c 3 t)
  Φ _ := Ψ c
  q _ := fullShare
  owed _ := 0
  recorded _ := Rc

theorem A_eq (c : Dev nD) (w : Fin cfg5.W) : (dat V Rc Ψ c).A w = V c (Pipeline.arrRef spec5 w) := by
  dsimp only [dat]

theorem after_0 (c : Dev nD) (t : Fin cfg5.N) : (dat V Rc Ψ c).after 0 t = iblk V c 0 t := by dsimp only [dat]
theorem after_1 (c : Dev nD) (t : Fin cfg5.N) : (dat V Rc Ψ c).after 1 t = iblk V c 1 t := by dsimp only [dat]
theorem after_2 (c : Dev nD) (t : Fin cfg5.N) : (dat V Rc Ψ c).after 2 t = iblk V c 2 t := by dsimp only [dat]
theorem after_3 (c : Dev nD) (t : Fin cfg5.N) : (dat V Rc Ψ c).after 3 t = iblk V c 3 t := by dsimp only [dat]
theorem after_4 (c : Dev nD) (t : Fin cfg5.N) :
    (dat V Rc Ψ c).after 4 t = outBlk (iblk V c 0 t) (iblk V c 1 t) (iblk V c 2 t) (iblk V c 3 t) := by dsimp only [dat]

theorem before_0 (c : Dev nD) (t : Fin cfg5.N) (d : (cfg5.win 0).block.Idx → Elt F (cfg5.win 0).elt) :
    (dat V Rc Ψ c).before 0 t d = iblk V c 0 t :=
  ((dat V Rc Ψ c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg5.N) (d : (cfg5.win 1).block.Idx → Elt F (cfg5.win 1).elt) :
    (dat V Rc Ψ c).before 1 t d = iblk V c 1 t :=
  ((dat V Rc Ψ c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg5.N) (d : (cfg5.win 2).block.Idx → Elt F (cfg5.win 2).elt) :
    (dat V Rc Ψ c).before 2 t d = iblk V c 2 t :=
  ((dat V Rc Ψ c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg5.N) (d : (cfg5.win 3).block.Idx → Elt F (cfg5.win 3).elt) :
    (dat V Rc Ψ c).before 3 t d = iblk V c 3 t :=
  ((dat V Rc Ψ c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

end Region

end Cert.KernelIdeal.R5

end
-- ==== Proof.Sc.Setup.lean ====
import proofs.«214766_g21345987461187_cont_8to1_720_22_alg».proof.KernelIdeal
import proofs.«214766_g21345987461187_cont_8to1_720_22_alg».proof.Proof.Gen.KernelIdeal
import Idealize.ShloMosaic.Lib.SparseCore.Launch
import Idealize.ShloMosaic.Lib.Pipeline.Kit
import Idealize.ShloMosaic.Lib.Tactic

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 4) fun p => (pcfgs (F := F) p).Adm
abbrev K : SparseCore.Cfg τ sig (ΛP (F := F)) 2 := sc (F := F)
theorem nCore_eq (q : Fin 2) : (K (F := F)).nCore q = 2 := by fin_cases q <;> rfl
theorem nSub_eq (q : Fin 2) : (K (F := F)).nSub q = 16 := by fin_cases q <;> rfl
theorem kind_eq (q : Fin 2) : (K (F := F)).kind q = .scVector := by fin_cases q <;> rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL
def EP : Emb UP (MT nD τ sig (HIx 2) (Elt F) ℕ UU ℕ) :=
  (Emb.inl : Emb UP (UP × Counters)).trans (embR (A := UH) (B := UP × Counters))

instance EP_landsIn : (EP : Emb UP 𝕄).LandsIn (upEmb : UEmb _ 𝕄) := by unfold EP; infer_instance

theorem ownU_split3 (a : UH) (b : UP) (c : Counters) :
    (ownU ((a, (b, c)) : UU) : sProp 𝕄) ⊢ iprop(BI.own (EH a) ∗ BI.own (EP b)) := by
  iintro Hu
  ihave H := (ownU_pair (A := UH) (B := UP × Counters) a (b, c)) $$ Hu
  icases H with ⟨HH, HR⟩
  ihave H2 := (own_pair_emb (embR (A := UH) (B := UP × Counters)) b c) $$ HR
  icases H2 with ⟨HP, -⟩
  isplitl [HH]; · iexact HH
  iexact HP

example : CountersIn UU := inferInstance

end Cert.KernelIdeal.Sc

end
-- ==== Proof.Launch.Steps.lean ====
import proofs.«214766_g21345987461187_cont_8to1_720_22_alg».proof.Proof.Sc.Setup
import proofs.«214766_g21345987461187_cont_8to1_720_22_alg».proof.Proof.Gen.KernelIdeal.Launch
import Idealize.ShloMosaic.Lib.Pipeline.Regions
import Idealize.ShloMosaic.Lib.StableHlo.Run

noncomputable section

namespace Cert.KernelIdeal.Launch

open Cert.KernelIdeal Cert.KernelIdeal.Gen Cert.KernelIdeal.Sc

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

abbrev adm : (p : Fin 4) → (pcfgs (F := F) p).Adm := fun p => (cfgs p).toPCfg_adm

variable (pdats : (p : Fin 4) → (c : Dev nD) → Pipeline.Dat τ (Elt F) (HIx 2) ℕ UU ℕ (Pipeline.pin (pcfgs (F := F)) adm p) c)

set_option backward.isDefEq.respectTransparency.types false in
theorem region_step [∀ e, Nonempty (Elt F e)] {p : Fin 4}
    (R : Pipeline.RegionSeg (pcfgs (F := F)) adm pdats (none : HIx 2) defs₀ 𝒱₀ (K (F := F)).L (K (F := F)).lev p) (d : Dev nD) (Φ : PUnit → sProp 𝕄) :
    iprop((iprop(boundary (T d) ∗ R.post d) -∗ Φ ⟨⟩) ∗ boundary (T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ
          (Prog.lift (.customCall (SparseCore.inner (Pipeline.entry p)) ())) Φ := by
  have h : iprop((iprop(boundary (T d) ∗ R.post d) -∗ Φ ⟨⟩) ∗ boundary (T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE (D (F := F)) 𝒱 (T d) none) Set.univ (Prog.lift (.customCall (Pipeline.entry p) ())) Φ := by
    iintro ⟨Hk, Hb, Hpre, Hla, Hg, Ht⟩
    iapply (Pipeline.RegionSeg.wp (pcfgs (F := F)) adm pdats (none : HIx 2) cellOf_inj EP defs₀ 𝒱₀ (K (F := F)).L (K (F := F)).lev R d none
        (fun _ h => nomatch h) (fun _ => .ret ⟨⟩) Φ) $$ [Hk Hb Hpre Hla Hg Ht]
    isplitl [Hk]
    · iintro H
      rw [wp_ret]; imodintro
      iapply Hk; iexact H
    isplitl [Hb]; · iexact Hb
    isplitl [Hpre]; · iexact Hpre
    isplitl [Hla]; · iexact Hla
    isplitl [Hg]; · iexact Hg
    iexact Ht
  exact h.trans ((K (F := F)).wp_liftProg (D (F := F)) 𝒱 (T d) Set.univ none (Prog.lift (.customCall (Pipeline.entry p) ())) Φ)

end Cert.KernelIdeal.Launch

end
-- ==== Proof.Launch.Reg.lean ====
import proofs.«214766_g21345987461187_cont_8to1_720_22_alg».proof.Proof.Launch.Steps
import Idealize.ShloMosaic.Lib.Pipeline.Frame
import Idealize.ShloMosaic.Lib.Pipeline.RegionsLoop
import Idealize.ShloMosaic.Lib.Pipeline.FrameSuffix

noncomputable section

namespace Cert.KernelIdeal.Launch

open Cert.KernelIdeal Cert.KernelIdeal.Gen Cert.KernelIdeal.Sc

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (pdats : (p : Fin 4) → (c : Dev nD) → Pipeline.Dat τ (Elt F) (HIx 2) ℕ UU ℕ (Pipeline.pin (pcfgs (F := F)) adm p) c)

abbrev recB (b : ℕ) (d : Dev nD) : Set (SemLoc sig × HIx 2) := {p | (K (F := F)).lev (T d, p.1) p.2 ≤ b}

abbrev Rd (b : ℕ) (O : CellTallies nD τ sig (HIx 2)) (d : Dev nD) : sProp 𝕄 :=
  iprop((∃ r, prngReg d r) ∗ ∃ W, ⌜(K (F := F)).WBelow (T d) W b⌝ ∗ owes (T d) O W)

theorem wbelow_of_sub {cfg : Pipeline.Cfg sig Λ₀} (b : ℕ) (d : Dev nD) (W : Waits sig (HIx 2))
    (h : (↑W : Set (SemLoc sig × HIx 2)) ⊆ recB (F := F) b d ∪ cfg.waitPairs (none : HIx 2)) : (K (F := F)).WBelow (T d) W b := by
  intro p hp
  rcases h hp with h | ⟨w, s, rfl⟩
  · exact h
  · exact Nat.zero_le _

set_option backward.isDefEq.respectTransparency.types false in
def reg [∀ e, Nonempty (Elt F e)] (p : Fin 4) (L : Pipeline.LaunchFacts (nD := nD) (τ := τ) cfgs p) (b : ℕ) (O : Dev nD → CellTallies nD τ sig (HIx 2)) (hO : ∀ c g, O c g none = 0)
    (Win Wout : Dev nD → Valuation τ sig (Elt F))
    (hA : ∀ c w, (pdats p c).A w = Win c (Pipeline.arrRef (cfgs p).spec w))
    (hq : ∀ c w, (pdats p c).share w = fullShare)
    (howed : ∀ c t, (pdats p c).owed t = O c)
    (hrec : ∀ c t, (pdats p c).recorded t = recB (F := F) b c)
    (hΦ : ∀ c t, (pdats p c).Φ t = Pipeline.scopedRest (cfgs p).spec c)
    (hbody : ∀ c, Pipeline.BodyObligation (pdats p c) (defs₀ (F := F)) 𝒱₀ (none : HIx 2) Set.univ)
    (hF : ∀ c w, (pdats p c).arrAt w (cfgs p).N = Wout c (Pipeline.arrRef (cfgs p).spec w))
    (hrest : ∀ c (r : Ref sig .tc), r ∉ Finset.univ.image (Pipeline.arrRef (cfgs p).spec) → Wout c r = Win c r) :
    Pipeline.RegionSeg (pcfgs (F := F)) adm pdats (none : HIx 2) defs₀ 𝒱₀ (K (F := F)).L (K (F := F)).lev p where
  win := L.win.to₀
  block_pos := L.block_pos
  stage_whole := L.stage_whole
  K := PEmpty
  osem k := k.elim
  ho := Pipeline.OwnSemFacts.none _
  hbody c := (hbody c).loose
  hwaits c := Pipeline.cellsWaits_intro (Pipeline.pin (pcfgs (F := F)) adm) pdats (none : HIx 2) p c fun w s t => by
    rw [howed c t]; exact (K (F := F)).mayWait_none _ (hO c)
  pre c := iprop(StableHlo.held (T c) (Pipeline.ucRefs τ sig) (Win c) ∗ Rd b (O c) c)
  post c := iprop(StableHlo.held (T c) (Pipeline.ucRefs τ sig) (Wout c) ∗ Rd b (O c) c)
  X c := iprop(emp)
  Y c := iprop(emp)
  Z c := iprop(Pipeline.unscopedRest (Ix := HIx 2) (Name := ℕ) (U := UU) (Lvl := ℕ) (cfgs p).spec c (fun r => Win c r) ∗ ∃ r, prngReg c r)
  hentry c := by
    rw [Pipeline.ownSems0_none]
    have hsplit := Pipeline.arrays_of_unscopedBufs (p := p) (pcfgs (F := F)) adm pdats L.win L.arr_whole c
      (hq c) (fun r => Win c r) (hA c)
    rw [Pipeline.unscopedBufs_held] at hsplit
    iintro ⟨⟨Hub, Hp, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      iexists W; isplitr
      · ipureintro; intro x hx; left; rw [hrec c 0]; exact hW x hx
      iexact HO
    isplitr; · iempintro
    isplitl [Hrest]; · iexact Hrest
    iexact Hp
  hin c := by
    rw [hΦ c 0]
    iintro ⟨-, -, Hr⟩
    iexact Hr
  hout c := by
    rw [Pipeline.ownSems0_none, hΦ c (Fin.last _)]
    iintro Hr
    isplitr; · iempintro
    isplitr; · iempintro
    iexact Hr
  hexit c := by
    have hjoin := Pipeline.unscopedBufs_of_arrays (p := p) (pcfgs (F := F)) adm (Ix := HIx 2) (Name := ℕ) (U := UU) (Lvl := ℕ)
      L.win L.arr_whole c pdats (hq c)
      (fun r => Win c r) (fun r => Wout c r) ((pdats p c).arrAt · (cfgs p).N) (hF c) (hrest c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    rw [howed c (Fin.last _)]
    icases HO with ⟨%W, %hW, HO⟩; iexists W; isplitr
    · ipureintro
      refine wbelow_of_sub (F := F) (cfg := Pipeline.pin (pcfgs (F := F)) adm p) b c W ?_
      have := hW; unfold Pipeline.Dat.bound at this; rw [hrec c (Fin.last _)] at this; exact this
    iexact HO

end Cert.KernelIdeal.Launch

end
-- ==== Proof.Sc.Pay.lean ====
import proofs.«214766_g21345987461187_cont_8to1_720_22_alg».proof.Proof.Sc.Setup
import Idealize.ShloMosaic.Lib.SparseCore.Launch
import Idealize.ShloMosaic.Lib.SparseCore.Stream
import Idealize.ShloMosaic.Lib.Pipeline.Kit
import Idealize.ShloMosaic.Lib.Tactic

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

def ix2 {n m : ℕ} (i : Fin n) (j : Fin m) : (⟨2, ![n, m]⟩ : Shape).Idx :=
  fun | 0 => i | 1 => j | ⟨_ + 2, h⟩ => absurd h (Nat.not_lt.2 (Nat.le_add_left _ _))

@[simp] theorem ix2_zero {n m : ℕ} (i : Fin n) (j : Fin m) : ix2 i j 0 = i := rfl
@[simp] theorem ix2_one {n m : ℕ} (i : Fin n) (j : Fin m) : ix2 i j 1 = j := rfl

def gatherRows (Tc : S32768x128.Idx → Elt F .f32) (Ic : S1024x128.Idx → Elt F .i32) : S131072x128.Idx → Elt F .f32 :=
  fun x => Tc (ix2 (n := 32768) (m := 128)
    ⟨(Ic (ix2 (n := 1024) (m := 128) ⟨(x 0).val / 128, Nat.div_lt_of_lt_mul (x 0).isLt⟩ ⟨(x 0).val % 128, Nat.mod_lt _ (by decide)⟩)).toNat % 32768,
      Nat.mod_lt _ (by decide)⟩ (x 1))

theorem hdivI : 32 ∣ S1024x128.size 0 := ⟨32, rfl⟩
theorem hdivO : 1024 ∣ S131072x128.size 0 := ⟨128, rfl⟩
abbrev idxRect (w : Fin 32) : Rect S1024x128 := Rect.part (s := S1024x128) (a₀ := 0) hdivI w
abbrev outRect (b : Fin 1024) : Rect S131072x128 := Rect.part (s := S131072x128) (a₀ := 0) hdivO b
abbrev idxBlk (w : Fin 32) : Finset S1024x128.Idx := (idxRect w).set
abbrev outBlk (b : Fin 1024) : Finset S131072x128.Idx := (outRect b).set

def widOf (c : Fin 2) (s : Fin 16) : Fin 32 := ⟨2 * s.val + c.val, by omega⟩
def blkOf (w : Fin 32) (j : Fin 32) : Fin 1024 := ⟨32 * w.val + j.val, by omega⟩

abbrev qCore (c : Fin 2) : PosShare TreeShare := Transfers.shareTok fullShare 2 c
abbrev qTile (c : Fin 2) (s : Fin 16) : PosShare TreeShare := Transfers.shareTok (qCore c) 16 s
abbrev qKeep : PosShare TreeShare := Transfers.shareDrop fullShare 2

abbrev iLoc (d : Dev nD) : Loc nD τ sig := (SparseCore.T d).loc main_v24
abbrev tLoc1 (d : Dev nD) : Loc nD τ sig := (SparseCore.T d).loc main_v25
abbrev oLoc1 (d : Dev nD) : Loc nD τ sig := (SparseCore.T d).loc main_v26
abbrev tLoc2 (d : Dev nD) : Loc nD τ sig := (SparseCore.T d).loc main_v27
abbrev oLoc2 (d : Dev nD) : Loc nD τ sig := (SparseCore.T d).loc main_v28

section Call1

variable (Tc : S32768x128.Idx → Elt F .f32) (Ic : S1024x128.Idx → Elt F .i32) (d : Dev nD)

def tileIn1 (c : Fin 2) (s : Fin 16) : sProp 𝕄 :=
  iprop((tLoc1 d ↦{qTile c s} Tc) ∗ (iLoc d ↦[idxBlk (widOf c s)]{fullShare} Ic)
    ∗ bigSep Finset.univ fun j : Fin 32 => iprop(∃ f, oLoc1 d ↦[outBlk (blkOf (widOf c s) j)]{fullShare} f))
def tileOut1 (c : Fin 2) (s : Fin 16) : sProp 𝕄 :=
  iprop((tLoc1 d ↦{qTile c s} Tc) ∗ (iLoc d ↦[idxBlk (widOf c s)]{fullShare} Ic)
    ∗ bigSep Finset.univ fun j : Fin 32 => oLoc1 d ↦[outBlk (blkOf (widOf c s) j)]{fullShare} gatherRows Tc Ic)
def coreIn1 (c : Fin 2) : sProp 𝕄 :=
  iprop((tLoc1 d ↦{qCore c} Tc) ∗ bigSep Finset.univ fun s : Fin 16 => iprop((iLoc d ↦[idxBlk (widOf c s)]{fullShare} Ic)
    ∗ bigSep Finset.univ fun j : Fin 32 => iprop(∃ f, oLoc1 d ↦[outBlk (blkOf (widOf c s) j)]{fullShare} f)))
def coreOut1 (c : Fin 2) : sProp 𝕄 :=
  iprop((tLoc1 d ↦{qCore c} Tc) ∗ bigSep Finset.univ fun s : Fin 16 => iprop((iLoc d ↦[idxBlk (widOf c s)]{fullShare} Ic)
    ∗ bigSep Finset.univ fun j : Fin 32 => oLoc1 d ↦[outBlk (blkOf (widOf c s) j)]{fullShare} gatherRows Tc Ic))

instance tileIn1_storable (c : Fin 2) (s : Fin 16) : BI.Storable (upEmb : UEmb _ 𝕄) (tileIn1 Tc Ic d c s) := by unfold tileIn1; infer_instance
instance tileOut1_storable (c : Fin 2) (s : Fin 16) : BI.Storable (upEmb : UEmb _ 𝕄) (tileOut1 Tc Ic d c s) := by unfold tileOut1; infer_instance
instance coreIn1_storable (c : Fin 2) : BI.Storable (upEmb : UEmb _ 𝕄) (coreIn1 Tc Ic d c) := by unfold coreIn1; infer_instance
instance coreOut1_storable (c : Fin 2) : BI.Storable (upEmb : UEmb _ 𝕄) (coreOut1 Tc Ic d c) := by unfold coreOut1; infer_instance

end Call1

section Call2

variable (Tc : S32768x128.Idx → Elt F .f32) (Ic : S1024x128.Idx → Elt F .i32) (d : Dev nD)

def tileIn2 (c : Fin 2) (s : Fin 16) : sProp 𝕄 :=
  iprop((tLoc2 d ↦{qTile c s} Tc) ∗ (iLoc d ↦[idxBlk (widOf c s)]{fullShare} Ic)
    ∗ bigSep Finset.univ fun j : Fin 32 => iprop(∃ f, oLoc2 d ↦[outBlk (blkOf (widOf c s) j)]{fullShare} f))
def tileOut2 (c : Fin 2) (s : Fin 16) : sProp 𝕄 :=
  iprop((tLoc2 d ↦{qTile c s} Tc) ∗ (iLoc d ↦[idxBlk (widOf c s)]{fullShare} Ic)
    ∗ bigSep Finset.univ fun j : Fin 32 => oLoc2 d ↦[outBlk (blkOf (widOf c s) j)]{fullShare} gatherRows Tc Ic)
def coreIn2 (c : Fin 2) : sProp 𝕄 :=
  iprop((tLoc2 d ↦{qCore c} Tc) ∗ bigSep Finset.univ fun s : Fin 16 => iprop((iLoc d ↦[idxBlk (widOf c s)]{fullShare} Ic)
    ∗ bigSep Finset.univ fun j : Fin 32 => iprop(∃ f, oLoc2 d ↦[outBlk (blkOf (widOf c s) j)]{fullShare} f)))
def coreOut2 (c : Fin 2) : sProp 𝕄 :=
  iprop((tLoc2 d ↦{qCore c} Tc) ∗ bigSep Finset.univ fun s : Fin 16 => iprop((iLoc d ↦[idxBlk (widOf c s)]{fullShare} Ic)
    ∗ bigSep Finset.univ fun j : Fin 32 => oLoc2 d ↦[outBlk (blkOf (widOf c s) j)]{fullShare} gatherRows Tc Ic))

instance tileIn2_storable (c : Fin 2) (s : Fin 16) : BI.Storable (upEmb : UEmb _ 𝕄) (tileIn2 Tc Ic d c s) := by unfold tileIn2; infer_instance
instance tileOut2_storable (c : Fin 2) (s : Fin 16) : BI.Storable (upEmb : UEmb _ 𝕄) (tileOut2 Tc Ic d c s) := by unfold tileOut2; infer_instance
instance coreIn2_storable (c : Fin 2) : BI.Storable (upEmb : UEmb _ 𝕄) (coreIn2 Tc Ic d c) := by unfold coreIn2; infer_instance
instance coreOut2_storable (c : Fin 2) : BI.Storable (upEmb : UEmb _ 𝕄) (coreOut2 Tc Ic d c) := by unfold coreOut2; infer_instance

end Call2

def P (T1 T2 : Dev nD → S32768x128.Idx → Elt F .f32) (Ic : Dev nD → S1024x128.Idx → Elt F .i32) :
    (K (F := F)).Pay (nD := nD) (Val := Elt F) (Name := ℕ) (U := UU) where
  st := fun q d c => match q with
    | 0 => coreIn1 (T1 d) (Ic d) d (Fin.cast (nCore_eq 0) c)
    | 1 => coreIn2 (T2 d) (Ic d) d (Fin.cast (nCore_eq 1) c)
  dn := fun q d c => match q with
    | 0 => coreOut1 (T1 d) (Ic d) d (Fin.cast (nCore_eq 0) c)
    | 1 => coreOut2 (T2 d) (Ic d) d (Fin.cast (nCore_eq 1) c)
  go := fun q d c i => match q with
    | 0 => tileIn1 (T1 d) (Ic d) d (Fin.cast (nCore_eq 0) c) (Fin.cast (nSub_eq 0) i)
    | 1 => tileIn2 (T2 d) (Ic d) d (Fin.cast (nCore_eq 1) c) (Fin.cast (nSub_eq 1) i)
  td := fun q d c i => match q with
    | 0 => tileOut1 (T1 d) (Ic d) d (Fin.cast (nCore_eq 0) c) (Fin.cast (nSub_eq 0) i)
    | 1 => tileOut2 (T2 d) (Ic d) d (Fin.cast (nCore_eq 1) c) (Fin.cast (nSub_eq 1) i)
  x := fun _ _ => iprop(emp)

variable (T1 T2 : Dev nD → S32768x128.Idx → Elt F .f32) (Ic : Dev nD → S1024x128.Idx → Elt F .i32)

instance P_storable : (P (F := F) T1 T2 Ic).IsStorable where
  st q d c := match q with
    | 0 => (inferInstance : BI.Storable (upEmb : UEmb _ 𝕄) (coreIn1 (T1 d) (Ic d) d (Fin.cast (nCore_eq 0) c)))
    | 1 => (inferInstance : BI.Storable (upEmb : UEmb _ 𝕄) (coreIn2 (T2 d) (Ic d) d (Fin.cast (nCore_eq 1) c)))
  dn q d c := match q with
    | 0 => (inferInstance : BI.Storable (upEmb : UEmb _ 𝕄) (coreOut1 (T1 d) (Ic d) d (Fin.cast (nCore_eq 0) c)))
    | 1 => (inferInstance : BI.Storable (upEmb : UEmb _ 𝕄) (coreOut2 (T2 d) (Ic d) d (Fin.cast (nCore_eq 1) c)))
  go q d c i := match q with
    | 0 => (inferInstance : BI.Storable (upEmb : UEmb _ 𝕄) (tileIn1 (T1 d) (Ic d) d (Fin.cast (nCore_eq 0) c) (Fin.cast (nSub_eq 0) i)))
    | 1 => (inferInstance : BI.Storable (upEmb : UEmb _ 𝕄) (tileIn2 (T2 d) (Ic d) d (Fin.cast (nCore_eq 1) c) (Fin.cast (nSub_eq 1) i)))
  td q d c i := match q with
    | 0 => (inferInstance : BI.Storable (upEmb : UEmb _ 𝕄) (tileOut1 (T1 d) (Ic d) d (Fin.cast (nCore_eq 0) c) (Fin.cast (nSub_eq 0) i)))
    | 1 => (inferInstance : BI.Storable (upEmb : UEmb _ 𝕄) (tileOut2 (T2 d) (Ic d) d (Fin.cast (nCore_eq 1) c) (Fin.cast (nSub_eq 1) i)))

omit T1 T2 Ic in
theorem bigSep_emp' {I : Type} (s : Finset I) : (bigSep s fun _ => iprop(emp)) = (iprop(emp) : sProp 𝕄) := bigSep_emp_const s

theorem Px_emp : (bigSep Finset.univ fun thr : Thread nD τ => bigSep Finset.univ fun q : Fin 2 => (P (F := F) T1 T2 Ic).x q thr) = (iprop(emp) : sProp 𝕄) := by
  show (bigSep Finset.univ fun _ : Thread nD τ => bigSep Finset.univ fun _ : Fin 2 => (iprop(emp) : sProp 𝕄)) = iprop(emp)
  rw [bigSep_congr fun _ _ => bigSep_emp' _, bigSep_emp']

end Cert.KernelIdeal.Sc

end
-- ==== Proof.MainChain.lean ====
import proofs.«214766_g21345987461187_cont_8to1_720_22_alg».proof.KernelIdeal
import proofs.«214766_g21345987461187_cont_8to1_720_22_alg».proof.Proof.Gen.KernelIdeal
import Idealize.ShloMosaic.Lib.Pipeline.Regions
import Idealize.ShloMosaic.Lib.StableHlo.Run

set_option maxHeartbeats 40000000
set_option maxRecDepth 16384

noncomputable section

namespace Cert.KernelIdeal.Hand

open Idealize.ShloMosaic Idealize.ShloMosaic.TcCoe Idealize.SL.Sem Cert.KernelIdeal Cert.KernelIdeal.Facts₀ Cert.KernelIdeal.Facts

variable {F : FTy → Type} [FloatOps F]

abbrev hostOps0 : List (HloOp τ sig (Elt F)) :=
  [ StableHlo.unary main_arg4 main_v0 (sitofp .f32),
    StableHlo.unary main_arg1 main_v1 (transpose S2x16384x3 [0, 2, 1] · transposes_S2x3x16384_S2x16384x3_0_2_1),
    StableHlo.reshape main_arg6 main_v2 rfl shapeCasts_S64_S1x64 ]
theorem hostOps0_sub : (hostOps0 : List (HloOp τ sig (Elt F))).Forall fun op => op.bufs ⊆ StableHlo.tcRefs τ sig :=
  ⟨StableHlo.unary_bufs_sub .., StableHlo.unary_bufs_sub .., StableHlo.reshape_bufs_sub ..⟩
theorem hostOps0_fresh : (hostOps0 : List (HloOp τ sig (Elt F))).Forall fun op => op.fresh = ∅ := by
  simp only [List.Forall]; repeat' constructor

abbrev hostOps1 : List (HloOp τ sig (Elt F)) :=
  [ StableHlo.reshape main_v3_2 main_v4 rfl shapeCasts_S1x64_S64,
    StableHlo.nullary main_cst (constant S_ .f32 0x47000000#32),
    StableHlo.unary main_cst main_v5 (broadcastInDim S64 ![] bcast_S_S64),
    StableHlo.binary main_v4 main_v5 main_v6 Host.divf,
    StableHlo.reshape main_v3_3 main_v7 rfl shapeCasts_S1x64_S64,
    StableHlo.nullary main_cst_0 (constant S_ .f32 0x47000000#32),
    StableHlo.unary main_cst_0 main_v8 (broadcastInDim S64 ![] bcast_S_S64),
    StableHlo.binary main_v7 main_v8 main_v9 Host.divf,
    StableHlo.binary main_v6 main_v6 main_v10 mulf,
    StableHlo.binary main_v9 main_v10 main_v11 subf,
    StableHlo.nullary main_cst_1 (constant S_ .f32 0x3727C5AC#32),
    StableHlo.unary main_cst_1 main_v12 (broadcastInDim S64 ![] bcast_S_S64),
    StableHlo.binary main_v11 main_v12 main_v13 addf,
    StableHlo.unary main_v13 main_v14 Host.rsqrt,
    StableHlo.binary main_arg7 main_v14 main_v15 mulf,
    StableHlo.binary main_v6 main_v15 main_v16 mulf,
    StableHlo.binary main_arg8 main_v16 main_v17 subf,
    StableHlo.nullary main_v18 (iotaInDim S2 32 0),
    StableHlo.nullary main_c (constantI S_ 32 16384#32),
    StableHlo.unary main_c main_v19 (broadcastInDim S2 ![] bcast_S_S2),
    StableHlo.binary main_v18 main_v19 main_v20 muli,
    StableHlo.unary main_v20 main_v21 (broadcastInDim S2x1x1 ![0] bcast_S2_S2x1x1_0),
    StableHlo.unary main_v21 main_v22 (broadcastInDim S2x4096x16 ![0, 1, 2] bcast_S2x1x1_S2x4096x16_0_1_2),
    StableHlo.binary main_arg3 main_v22 main_v23 addi,
    StableHlo.reshape main_v23 main_v24 rfl shapeCasts_S2x4096x16_S1024x128,
    StableHlo.reshape main_v3_1 main_v25 rfl shapeCasts_S2x16384x128_S32768x128 ]
theorem hostOps1_sub : (hostOps1 : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub .., StableHlo.reshape_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.reshape_bufs_sub .., StableHlo.reshape_bufs_sub ..⟩
theorem hostOps1_fresh : (hostOps1 : List (HloOp τ sig (Elt F))).Forall fun op => op.fresh = ∅ := by
  simp only [List.Forall]; repeat' constructor

abbrev hostOps2 : List (HloOp τ sig (Elt F)) :=
  [ StableHlo.reshape main_v3_0 main_v27 rfl shapeCasts_S2x16384x128_S32768x128 ]
theorem hostOps2_sub : (hostOps2 : List (HloOp τ sig (Elt F))).Forall fun op => op.bufs ⊆ StableHlo.tcRefs τ sig :=
  StableHlo.reshape_bufs_sub ..
theorem hostOps2_fresh : (hostOps2 : List (HloOp τ sig (Elt F))).Forall fun op => op.fresh = ∅ := by
  simp only [List.Forall]; repeat' constructor

abbrev hostOps3 : List (HloOp τ sig (Elt F)) :=
  [ StableHlo.reshape main_v28 main_v29 rfl shapeCasts_S131072x128_S2x4096x16x128,
    StableHlo.reshape main_v26 main_v30 rfl shapeCasts_S131072x128_S2x4096x16x128,
    StableHlo.unary main_arg2 main_v31 (transpose S2x4096x3 [0, 2, 1] · transposes_S2x3x4096_S2x4096x3_0_2_1),
    StableHlo.unary main_arg9 main_v32 (transpose S3x16 [1, 0] · transposes_S16x3_S3x16_1_0),
    StableHlo.reshape main_v15 main_v33 rfl shapeCasts_S64_S1x64,
    StableHlo.reshape main_v17 main_v34 rfl shapeCasts_S64_S1x64,
    StableHlo.reshape main_arg11 main_v35 rfl shapeCasts_S64_S1x64 ]
theorem hostOps3_sub : (hostOps3 : List (HloOp τ sig (Elt F))).Forall fun op => op.bufs ⊆ StableHlo.tcRefs τ sig :=
  ⟨StableHlo.reshape_bufs_sub .., StableHlo.reshape_bufs_sub .., StableHlo.unary_bufs_sub .., StableHlo.unary_bufs_sub .., StableHlo.reshape_bufs_sub .., StableHlo.reshape_bufs_sub .., StableHlo.reshape_bufs_sub ..⟩
theorem hostOps3_fresh : (hostOps3 : List (HloOp τ sig (Elt F))).Forall fun op => op.fresh = ∅ := by
  simp only [List.Forall]; repeat' constructor

abbrev hostOps4 : List (HloOp τ sig (Elt F)) :=
  [ StableHlo.reshape main_v36_1 main_v37 rfl shapeCasts_S1x64_S64,
    StableHlo.nullary main_cst_2 (constant S_ .f32 0x46000000#32),
    StableHlo.unary main_cst_2 main_v38 (broadcastInDim S64 ![] bcast_S_S64),
    StableHlo.binary main_v37 main_v38 main_v39 Host.divf,
    StableHlo.reshape main_v36_2 main_v40 rfl shapeCasts_S1x64_S64,
    StableHlo.nullary main_cst_3 (constant S_ .f32 0x46000000#32),
    StableHlo.unary main_cst_3 main_v41 (broadcastInDim S64 ![] bcast_S_S64),
    StableHlo.binary main_v40 main_v41 main_v42 Host.divf,
    StableHlo.binary main_v39 main_v39 main_v43 mulf,
    StableHlo.binary main_v42 main_v43 main_v44 subf,
    StableHlo.nullary main_cst_4 (constant S_ .f32 0x3727C5AC#32),
    StableHlo.unary main_cst_4 main_v45 (broadcastInDim S64 ![] bcast_S_S64),
    StableHlo.binary main_v44 main_v45 main_v46 addf,
    StableHlo.unary main_v46 main_v47 Host.rsqrt,
    StableHlo.binary main_arg12 main_v47 main_v48 mulf,
    StableHlo.binary main_v39 main_v48 main_v49 mulf,
    StableHlo.binary main_arg13 main_v49 main_v50 subf,
    StableHlo.reshape main_v48 main_v51 rfl shapeCasts_S64_S1x64,
    StableHlo.reshape main_v50 main_v52 rfl shapeCasts_S64_S1x64 ]
theorem hostOps4_sub : (hostOps4 : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub .., StableHlo.reshape_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.binary_bufs_sub .., StableHlo.reshape_bufs_sub .., StableHlo.reshape_bufs_sub ..⟩
theorem hostOps4_fresh : (hostOps4 : List (HloOp τ sig (Elt F))).Forall fun op => op.fresh = ∅ := by
  simp only [List.Forall]; repeat' constructor

abbrev hostOps5 : List (HloOp τ sig (Elt F)) :=
  [ StableHlo.reshape main_arg15 main_v53 rfl shapeCasts_S128_S1x128 ]
theorem hostOps5_sub : (hostOps5 : List (HloOp τ sig (Elt F))).Forall fun op => op.bufs ⊆ StableHlo.tcRefs τ sig :=
  StableHlo.reshape_bufs_sub ..
theorem hostOps5_fresh : (hostOps5 : List (HloOp τ sig (Elt F))).Forall fun op => op.fresh = ∅ := by
  simp only [List.Forall]; repeat' constructor

abbrev hostOps6 : List (HloOp τ sig (Elt F)) :=
  [ StableHlo.reshape main_v54_2 main_v55 rfl shapeCasts_S1x128_S128,
    StableHlo.nullary main_cst_5 (constant S_ .f32 0x46000000#32),
    StableHlo.unary main_cst_5 main_v56 (broadcastInDim S128 ![] bcast_S_S128),
    StableHlo.binary main_v55 main_v56 main_v57 Host.divf,
    StableHlo.reshape main_v54_3 main_v58 rfl shapeCasts_S1x128_S128,
    StableHlo.nullary main_cst_6 (constant S_ .f32 0x46000000#32),
    StableHlo.unary main_cst_6 main_v59 (broadcastInDim S128 ![] bcast_S_S128),
    StableHlo.binary main_v58 main_v59 main_v60 Host.divf,
    StableHlo.binary main_v57 main_v57 main_v61 mulf,
    StableHlo.binary main_v60 main_v61 main_v62 subf,
    StableHlo.nullary main_cst_7 (constant S_ .f32 0x3727C5AC#32),
    StableHlo.unary main_cst_7 main_v63 (broadcastInDim S128 ![] bcast_S_S128),
    StableHlo.binary main_v62 main_v63 main_v64 addf,
    StableHlo.unary main_v64 main_v65 Host.rsqrt,
    StableHlo.binary main_arg16 main_v65 main_v66 mulf,
    StableHlo.binary main_v57 main_v66 main_v67 mulf,
    StableHlo.binary main_arg17 main_v67 main_v68 subf,
    StableHlo.reshape main_v66 main_v69 rfl shapeCasts_S128_S1x128,
    StableHlo.reshape main_v68 main_v70 rfl shapeCasts_S128_S1x128 ]
theorem hostOps6_sub : (hostOps6 : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub .., StableHlo.reshape_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.binary_bufs_sub .., StableHlo.reshape_bufs_sub .., StableHlo.reshape_bufs_sub ..⟩
theorem hostOps6_fresh : (hostOps6 : List (HloOp τ sig (Elt F))).Forall fun op => op.fresh = ∅ := by
  simp only [List.Forall]; repeat' constructor

theorem main_part0_chain (d : Dev nD) : main_part0 (F := F) d = Pipeline.chainK ([StableHlo.seq (hostOps0 (F := F)),
    Prog.lift (.customCall (SparseCore.inner (Pipeline.entry 0)) ()),
    StableHlo.seq (hostOps1 (F := F)),
    (sc (F := F)).run d 0,
    StableHlo.seq (hostOps2 (F := F)),
    (sc (F := F)).run d 1,
    StableHlo.seq (hostOps3 (F := F)),
    Prog.lift (.customCall (SparseCore.inner (Pipeline.entry 1)) ())] : List (Prog (TpuEff nD τ sig (Elt F) (SparseCore.Sig (Pipeline.Sig Λ₀ (Fin 4) fun p => (pcfgs (F := F) p).Adm) 2) .tc) PUnit))
    (StableHlo.seq (hostOps4 (F := F))) := by chain_rfl

theorem main_part1_chain (d : Dev nD) : main_part1 (F := F) d = Pipeline.chain ([StableHlo.seq (hostOps5 (F := F)),
    Prog.lift (.customCall (SparseCore.inner (Pipeline.entry 2)) ()),
    StableHlo.seq (hostOps6 (F := F)),
    Prog.lift (.customCall (SparseCore.inner (Pipeline.entry 3)) ())] : List (Prog (TpuEff nD τ sig (Elt F) (SparseCore.Sig (Pipeline.Sig Λ₀ (Fin 4) fun p => (pcfgs (F := F) p).Adm) 2) .tc) PUnit)) := by chain_rfl

end Cert.KernelIdeal.Hand

end
-- ==== Proof.Launch.Fold.lean ====
import proofs.«214766_g21345987461187_cont_8to1_720_22_alg».proof.Proof.R0.Data
import proofs.«214766_g21345987461187_cont_8to1_720_22_alg».proof.Proof.R3.Data
import proofs.«214766_g21345987461187_cont_8to1_720_22_alg».proof.Proof.R4.Data
import proofs.«214766_g21345987461187_cont_8to1_720_22_alg».proof.Proof.R5.Data
import proofs.«214766_g21345987461187_cont_8to1_720_22_alg».proof.Proof.Launch.Reg
import proofs.«214766_g21345987461187_cont_8to1_720_22_alg».proof.Proof.Sc.Pay
import proofs.«214766_g21345987461187_cont_8to1_720_22_alg».proof.Proof.MainChain

noncomputable section

namespace Cert.KernelIdeal.Launch

open Cert.KernelIdeal Cert.KernelIdeal.Gen Cert.KernelIdeal.Sc Cert.KernelIdeal.Hand

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

variable (m : (ℓ : Loc nD τ sig) → Buf (Elt F) ℓ)

abbrev Vof (W : Dev nD → Valuation τ sig (Elt F)) : (c : Dev nD) → (b : Ref sig .tc) → Buf (Elt F) ((c : Thread nD τ).loc b) :=
  fun c b => W c b

abbrev Ψ0 (c : Dev nD) : sProp (MT nD τ sig (HIx 2) (Elt F) ℕ UU ℕ) := Pipeline.scopedRest spec0 c
abbrev Ψ3 (c : Dev nD) : sProp (MT nD τ sig (HIx 2) (Elt F) ℕ UU ℕ) := Pipeline.scopedRest spec3 c
abbrev Ψ4 (c : Dev nD) : sProp (MT nD τ sig (HIx 2) (Elt F) ℕ UU ℕ) := Pipeline.scopedRest spec4 c
abbrev Ψ5 (c : Dev nD) : sProp (MT nD τ sig (HIx 2) (Elt F) ℕ UU ℕ) := Pipeline.scopedRest spec5 c

abbrev W0 (d : Dev nD) : Valuation τ sig (Elt F) := fun b => m (d, b)
abbrev W1 (d : Dev nD) : Valuation τ sig (Elt F) := StableHlo.after hostOps0 (W0 m d)
def dat0 (c : Dev nD) : Dat τ (Elt F) (HIx 2) ℕ UU ℕ cfg0 c :=
  R0.dat (Vof (W1 m)) ((K (F := F)).Otc c 0) (recB (F := F) (8 * 0) c) Ψ0 c
def W2 (d : Dev nD) : Valuation τ sig (Elt F) := Pipeline.withArrays spec0 d (W1 m d) fun w => (dat0 m d).arrAt w cfg0.N
abbrev W3 (d : Dev nD) : Valuation τ sig (Elt F) := StableHlo.after hostOps1 (W2 m d)
def T1 (d : Dev nD) : S32768x128.Idx → Elt F .f32 := W3 m d main_v25
def Ic (d : Dev nD) : S1024x128.Idx → Elt F .i32 := W3 m d main_v24
def W4 (d : Dev nD) : Valuation τ sig (Elt F) := Function.update (W3 m d) (Proc.devRef .tc main_v26) (gatherRows (T1 m d) (Ic m d))
abbrev W5 (d : Dev nD) : Valuation τ sig (Elt F) := StableHlo.after hostOps2 (W4 m d)
def T2 (d : Dev nD) : S32768x128.Idx → Elt F .f32 := W5 m d main_v27
def W6 (d : Dev nD) : Valuation τ sig (Elt F) := Function.update (W5 m d) (Proc.devRef .tc main_v28) (gatherRows (T2 m d) (Ic m d))
abbrev W7 (d : Dev nD) : Valuation τ sig (Elt F) := StableHlo.after hostOps3 (W6 m d)
def dat3 (c : Dev nD) : Dat τ (Elt F) (HIx 2) ℕ UU ℕ cfg3 c := R3.dat (Vof (W7 m)) (recB (F := F) (8 * 2) c) Ψ3 c
def W8 (d : Dev nD) : Valuation τ sig (Elt F) := Pipeline.withArrays spec3 d (W7 m d) fun w => (dat3 m d).arrAt w cfg3.N
abbrev W9 (d : Dev nD) : Valuation τ sig (Elt F) := StableHlo.after hostOps4 (W8 m d)
abbrev W10 (d : Dev nD) : Valuation τ sig (Elt F) := StableHlo.after hostOps5 (W9 m d)
def dat4 (c : Dev nD) : Dat τ (Elt F) (HIx 2) ℕ UU ℕ cfg4 c := R4.dat (Vof (W10 m)) (recB (F := F) (8 * 2) c) Ψ4 c
def W11 (d : Dev nD) : Valuation τ sig (Elt F) := Pipeline.withArrays spec4 d (W10 m d) fun w => (dat4 m d).arrAt w cfg4.N
abbrev W12 (d : Dev nD) : Valuation τ sig (Elt F) := StableHlo.after hostOps6 (W11 m d)
def dat5 (c : Dev nD) : Dat τ (Elt F) (HIx 2) ℕ UU ℕ cfg5 c := R5.dat (Vof (W12 m)) (recB (F := F) (8 * 2) c) Ψ5 c
def W13 (d : Dev nD) : Valuation τ sig (Elt F) := Pipeline.withArrays spec5 d (W12 m d) fun w => (dat5 m d).arrAt w cfg5.N

def pdats : (p : Fin 4) → (c : Dev nD) → Dat τ (Elt F) (HIx 2) ℕ UU ℕ (Pipeline.pin (pcfgs (F := F)) adm p) c
  | ⟨0, _⟩ => fun c => dat0 m c
  | ⟨1, _⟩ => fun c => dat3 m c
  | ⟨2, _⟩ => fun c => dat4 m c
  | ⟨3, _⟩ => fun c => dat5 m c

end Cert.KernelIdeal.Launch

end
-- ==== Proof.Launch.Held.lean ====
import Idealize.ShloMosaic.Lib.StableHlo.Run

noncomputable section

namespace Cert.Launch.Held

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}

theorem held_take (c : Thread nD τ) (S : Finset (DevRef τ sig)) (V : Valuation τ sig Val) {b : DevRef τ sig} (hb : b ∈ S) :
    (StableHlo.held c S V : sProp (MT nD τ sig Ix Val Name U Lvl))
      = iprop(((c.1, b) ↦{fullShare} V b) ∗ StableHlo.held c (S.erase b) V) := by
  unfold StableHlo.held
  exact BI.bigSep_erase hb

theorem held_take3 (c : Thread nD τ) (S : Finset (DevRef τ sig)) (V : Valuation τ sig Val) {a b e : DevRef τ sig}
    (ha : a ∈ S) (hb : b ∈ S.erase a) (he : e ∈ (S.erase a).erase b) :
    (StableHlo.held c S V : sProp (MT nD τ sig Ix Val Name U Lvl))
      = iprop(((c.1, a) ↦{fullShare} V a) ∗ ((c.1, b) ↦{fullShare} V b) ∗ ((c.1, e) ↦{fullShare} V e)
          ∗ StableHlo.held c (((S.erase a).erase b).erase e) V) := by
  rw [held_take c S V ha, held_take c (S.erase a) V hb, held_take c ((S.erase a).erase b) V he]

theorem held_put3 (c : Thread nD τ) (S : Finset (DevRef τ sig)) (V : Valuation τ sig Val) {a b e : DevRef τ sig}
    (ha : a ∈ S) (hb : b ∈ S.erase a) (he : e ∈ (S.erase a).erase b) (f : e.ty.Contents Val) :
    (iprop(((c.1, a) ↦{fullShare} V a) ∗ ((c.1, b) ↦{fullShare} V b) ∗ ((c.1, e) ↦{fullShare} f)
          ∗ StableHlo.held c (((S.erase a).erase b).erase e) V) : sProp (MT nD τ sig Ix Val Name U Lvl))
      = StableHlo.held c S (Function.update V e f) := by
  have hea : a ≠ e := fun h => (Finset.ne_of_mem_erase (Finset.mem_of_mem_erase he)) h.symm
  have heb : b ≠ e := fun h => (Finset.ne_of_mem_erase he) h.symm
  rw [held_take3 c S (Function.update V e f) ha hb he, Function.update_self, Function.update_of_ne hea, Function.update_of_ne heb]
  congr 3
  unfold StableHlo.held
  exact BI.bigSep_congr fun b' hb' => by rw [Function.update_of_ne (Finset.ne_of_mem_erase hb')]

end Cert.Launch.Held

end
-- ==== Proof.Sc.Split.lean ====
import proofs.«214766_g21345987461187_cont_8to1_720_22_alg».proof.Proof.Sc.Pay
import Idealize.ShloMosaic.Lib.SparseCore.Launch
import Idealize.ShloMosaic.Lib.SparseCore.Stream
import Idealize.ShloMosaic.Lib.Pipeline.Kit
import Idealize.ShloMosaic.Lib.Tactic

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

def widEquiv : Fin 2 × Fin 16 ≃ Fin 32 where
  toFun p := widOf p.1 p.2
  invFun w := (⟨w.val % 2, Nat.mod_lt _ (by decide)⟩, ⟨w.val / 2, by omega⟩)
  left_inv := fun ⟨c, s⟩ => by
    refine Prod.ext (Fin.ext ?_) (Fin.ext ?_)
    · show (2 * s.val + c.val) % 2 = c.val; omega
    · show (2 * s.val + c.val) / 2 = s.val; omega
  right_inv := fun w => Fin.ext (by show 2 * (w.val / 2) + w.val % 2 = w.val; omega)

def blkEquiv : Fin 32 × Fin 32 ≃ Fin 1024 where
  toFun p := blkOf p.1 p.2
  invFun b := (⟨b.val / 32, by omega⟩, ⟨b.val % 32, Nat.mod_lt _ (by decide)⟩)
  left_inv := fun ⟨w, j⟩ => by
    refine Prod.ext (Fin.ext ?_) (Fin.ext ?_)
    · show (32 * w.val + j.val) / 32 = w.val; omega
    · show (32 * w.val + j.val) % 32 = j.val; omega
  right_inv := fun b => Fin.ext (by show 32 * (b.val / 32) + b.val % 32 = b.val; omega)

theorem idx_disjoint : ∀ w ∈ (Finset.univ : Finset (Fin 32)), ∀ w' ∈ (Finset.univ : Finset (Fin 32)), w ≠ w' → Disjoint (idxBlk w) (idxBlk w') :=
  fun _ _ _ _ h => Rect.part_disjoint hdivI h
theorem idx_cover : (Finset.univ : Finset (Fin 32)).biUnion idxBlk = Finset.univ := Rect.biUnion_part hdivI
theorem out_disjoint : ∀ b ∈ (Finset.univ : Finset (Fin 1024)), ∀ b' ∈ (Finset.univ : Finset (Fin 1024)), b ≠ b' → Disjoint (outBlk b) (outBlk b') :=
  fun _ _ _ _ h => Rect.part_disjoint hdivO h
theorem out_cover : (Finset.univ : Finset (Fin 1024)).biUnion outBlk = Finset.univ := Rect.biUnion_part hdivO

theorem idx_rows (d : Dev nD) (f : Buf (Elt F) (iLoc d)) :
    (iLoc d ↦{fullShare} f : sProp 𝕄)
      = bigSep Finset.univ fun c : Fin 2 => bigSep Finset.univ fun s : Fin 16 => iLoc d ↦[idxBlk (widOf c s)]{fullShare} f := by
  have h : (iLoc d ↦{fullShare} f : sProp 𝕄) = bigSep Finset.univ fun w : Fin 32 => iLoc d ↦[idxBlk w]{fullShare} f := by
    rw [← pointsTo_biUnion Finset.univ (ℓ := iLoc d) idxBlk idx_disjoint, idx_cover]; try rfl
  rw [h, bigSep_univ_equiv widEquiv (fun w : Fin 32 => (iLoc d ↦[idxBlk w]{fullShare} f : sProp 𝕄)),
    bigSep_univ_prod (fun p : Fin 2 × Fin 16 => (iLoc d ↦[idxBlk (widEquiv p)]{fullShare} f : sProp 𝕄))]
  rfl

theorem out1_blocks (d : Dev nD) (f : Buf (Elt F) (oLoc1 d)) :
    (oLoc1 d ↦{fullShare} f : sProp 𝕄)
      = bigSep Finset.univ fun c : Fin 2 => bigSep Finset.univ fun s : Fin 16 => bigSep Finset.univ fun j : Fin 32 =>
          oLoc1 d ↦[outBlk (blkOf (widOf c s) j)]{fullShare} f := by
  have h : (oLoc1 d ↦{fullShare} f : sProp 𝕄) = bigSep Finset.univ fun b : Fin 1024 => oLoc1 d ↦[outBlk b]{fullShare} f := by
    rw [← pointsTo_biUnion Finset.univ (ℓ := oLoc1 d) outBlk out_disjoint, out_cover]; try rfl
  rw [h, bigSep_univ_equiv blkEquiv (fun b : Fin 1024 => (oLoc1 d ↦[outBlk b]{fullShare} f : sProp 𝕄)),
    bigSep_univ_prod (fun p : Fin 32 × Fin 32 => (oLoc1 d ↦[outBlk (blkEquiv p)]{fullShare} f : sProp 𝕄)),
    bigSep_univ_equiv widEquiv (fun w : Fin 32 => bigSep Finset.univ fun j : Fin 32 => (oLoc1 d ↦[outBlk (blkEquiv (w, j))]{fullShare} f : sProp 𝕄)),
    bigSep_univ_prod (fun p : Fin 2 × Fin 16 => bigSep Finset.univ fun j : Fin 32 => (oLoc1 d ↦[outBlk (blkEquiv (widEquiv p, j))]{fullShare} f : sProp 𝕄))]
  rfl

theorem out1_exists (d : Dev nD) (f : Buf (Elt F) (oLoc1 d)) :
    (bigSep Finset.univ fun c : Fin 2 => bigSep Finset.univ fun s : Fin 16 => bigSep Finset.univ fun j : Fin 32 =>
        (oLoc1 d ↦[outBlk (blkOf (widOf c s) j)]{fullShare} f : sProp 𝕄))
      ⊢ bigSep Finset.univ fun c : Fin 2 => bigSep Finset.univ fun s : Fin 16 => bigSep Finset.univ fun j : Fin 32 =>
          (iprop(∃ g, oLoc1 d ↦[outBlk (blkOf (widOf c s) j)]{fullShare} g) : sProp 𝕄) :=
  bigSep_mono fun c _ => bigSep_mono fun s _ => bigSep_mono fun j _ =>
    exists_intro (Φ := fun g => (oLoc1 d ↦[outBlk (blkOf (widOf c s) j)]{fullShare} g : sProp 𝕄)) f

theorem bigSep_cores1 (Φ : Fin 2 → sProp 𝕄) :
    (bigSep Finset.univ fun c : Fin ((K (F := F)).nCore 0) => Φ (Fin.cast (nCore_eq 0) c)) = bigSep Finset.univ Φ :=
  bigSep_congr fun _ _ => congrArg Φ (Fin.ext rfl)
theorem bigSep_tiles1 (Φ : Fin 16 → sProp 𝕄) :
    (bigSep Finset.univ fun i : Fin ((K (F := F)).nSub 0) => Φ (Fin.cast (nSub_eq 0) i)) = bigSep Finset.univ Φ :=
  bigSep_congr fun _ _ => congrArg Φ (Fin.ext rfl)

section
variable (T1 T2 : Dev nD → S32768x128.Idx → Elt F .f32) (Ic : Dev nD → S1024x128.Idx → Elt F .i32)

theorem vsplit1 : (K (F := F)).VecSplit' (P T1 T2 Ic) 0 := by
  intro d c
  show coreIn1 (T1 d) (Ic d) d (Fin.cast (nCore_eq 0) c) ⊢ |={Set.univ}=> iprop(
      (bigSep Finset.univ fun i : Fin ((K (F := F)).nSub 0) => tileIn1 (T1 d) (Ic d) d (Fin.cast (nCore_eq 0) c) (Fin.cast (nSub_eq 0) i))
      ∗ ((bigSep Finset.univ fun i : Fin ((K (F := F)).nSub 0) => tileOut1 (T1 d) (Ic d) d (Fin.cast (nCore_eq 0) c) (Fin.cast (nSub_eq 0) i))
          -∗ coreOut1 (T1 d) (Ic d) d (Fin.cast (nCore_eq 0) c)))
  generalize Fin.cast (nCore_eq 0) c = c'
  rw [bigSep_tiles1 (F := F) (fun s => tileIn1 (T1 d) (Ic d) d c' s), bigSep_tiles1 (F := F) (fun s => tileOut1 (T1 d) (Ic d) d c' s)]
  unfold coreIn1 coreOut1 tileIn1 tileOut1
  simp only [bigSep_sep']
  iintro ⟨HT, HI, HO⟩
  ihave HT' := (Transfers.pointsTo_toks_split (qCore c') 16) $$ HT
  icases HT' with ⟨Hrem, Htoks⟩
  imodintro
  isplitl [Htoks HI HO]
  · isplitl [Htoks]; · iexact Htoks
    isplitl [HI]; · iexact HI
    iexact HO
  iintro ⟨Ht, Hi, Ho⟩
  isplitl [Hrem Ht]
  · iapply (Transfers.pointsTo_toks_join (qCore c') 16)
    isplitl [Hrem]; · iexact Hrem
    iexact Ht
  isplitl [Hi]; · iexact Hi
  iexact Ho

theorem st_intro1 (d : Dev nD) :
    iprop((tLoc1 d ↦{fullShare} T1 d) ∗ (iLoc d ↦{fullShare} Ic d) ∗ (∃ f, oLoc1 d ↦{fullShare} f))
      ⊢ (iprop((tLoc1 d ↦{qKeep} T1 d) ∗ bigSep Finset.univ fun c : Fin ((K (F := F)).nCore 0) => (P T1 T2 Ic).st 0 d c) : sProp 𝕄) := by
  rw [show (bigSep Finset.univ fun c : Fin ((K (F := F)).nCore 0) => (P T1 T2 Ic).st 0 d c)
        = (bigSep Finset.univ fun c : Fin 2 => coreIn1 (T1 d) (Ic d) d c : sProp 𝕄)
      from bigSep_cores1 (F := F) (fun c => coreIn1 (T1 d) (Ic d) d c)]
  unfold coreIn1
  simp only [bigSep_sep']
  iintro ⟨HT, HI, %f, HO⟩
  ihave HT' := (Transfers.pointsTo_toks_split fullShare 2) $$ HT
  icases HT' with ⟨Hkeep, Htoks⟩
  isplitl [Hkeep]; · iexact Hkeep
  isplitl [Htoks]; · iexact Htoks
  isplitl [HI]
  · ihave HI' := (Entails.of_eq (idx_rows d (Ic d))) $$ HI
    iexact HI'
  · ihave HO' := (Entails.of_eq (out1_blocks d f)) $$ HO
    iapply (out1_exists d f)
    iexact HO'

theorem dn_elim1 (d : Dev nD) :
    (iprop((tLoc1 d ↦{qKeep} T1 d) ∗ bigSep Finset.univ fun c : Fin ((K (F := F)).nCore 0) => (P T1 T2 Ic).dn 0 d c) : sProp 𝕄)
      ⊢ iprop((tLoc1 d ↦{fullShare} T1 d) ∗ (iLoc d ↦{fullShare} Ic d) ∗ (oLoc1 d ↦{fullShare} gatherRows (T1 d) (Ic d))) := by
  rw [show (bigSep Finset.univ fun c : Fin ((K (F := F)).nCore 0) => (P T1 T2 Ic).dn 0 d c)
        = (bigSep Finset.univ fun c : Fin 2 => coreOut1 (T1 d) (Ic d) d c : sProp 𝕄)
      from bigSep_cores1 (F := F) (fun c => coreOut1 (T1 d) (Ic d) d c)]
  unfold coreOut1
  simp only [bigSep_sep']
  iintro ⟨Hkeep, Htoks, HI, HO⟩
  isplitl [Hkeep Htoks]
  · iapply (Transfers.pointsTo_toks_join fullShare 2)
    isplitl [Hkeep]; · iexact Hkeep
    iexact Htoks
  isplitl [HI]
  · iapply (Entails.of_eq (idx_rows d (Ic d)).symm); iexact HI
  · iapply (Entails.of_eq (out1_blocks d (gatherRows (T1 d) (Ic d))).symm); iexact HO

end

theorem out2_blocks (d : Dev nD) (f : Buf (Elt F) (oLoc2 d)) :
    (oLoc2 d ↦{fullShare} f : sProp 𝕄)
      = bigSep Finset.univ fun c : Fin 2 => bigSep Finset.univ fun s : Fin 16 => bigSep Finset.univ fun j : Fin 32 =>
          oLoc2 d ↦[outBlk (blkOf (widOf c s) j)]{fullShare} f := by
  have h : (oLoc2 d ↦{fullShare} f : sProp 𝕄) = bigSep Finset.univ fun b : Fin 1024 => oLoc2 d ↦[outBlk b]{fullShare} f := by
    rw [← pointsTo_biUnion Finset.univ (ℓ := oLoc2 d) outBlk out_disjoint, out_cover]; try rfl
  rw [h, bigSep_univ_equiv blkEquiv (fun b : Fin 1024 => (oLoc2 d ↦[outBlk b]{fullShare} f : sProp 𝕄)),
    bigSep_univ_prod (fun p : Fin 32 × Fin 32 => (oLoc2 d ↦[outBlk (blkEquiv p)]{fullShare} f : sProp 𝕄)),
    bigSep_univ_equiv widEquiv (fun w : Fin 32 => bigSep Finset.univ fun j : Fin 32 => (oLoc2 d ↦[outBlk (blkEquiv (w, j))]{fullShare} f : sProp 𝕄)),
    bigSep_univ_prod (fun p : Fin 2 × Fin 16 => bigSep Finset.univ fun j : Fin 32 => (oLoc2 d ↦[outBlk (blkEquiv (widEquiv p, j))]{fullShare} f : sProp 𝕄))]
  rfl

theorem out2_exists (d : Dev nD) (f : Buf (Elt F) (oLoc2 d)) :
    (bigSep Finset.univ fun c : Fin 2 => bigSep Finset.univ fun s : Fin 16 => bigSep Finset.univ fun j : Fin 32 =>
        (oLoc2 d ↦[outBlk (blkOf (widOf c s) j)]{fullShare} f : sProp 𝕄))
      ⊢ bigSep Finset.univ fun c : Fin 2 => bigSep Finset.univ fun s : Fin 16 => bigSep Finset.univ fun j : Fin 32 =>
          (iprop(∃ g, oLoc2 d ↦[outBlk (blkOf (widOf c s) j)]{fullShare} g) : sProp 𝕄) :=
  bigSep_mono fun c _ => bigSep_mono fun s _ => bigSep_mono fun j _ =>
    exists_intro (Φ := fun g => (oLoc2 d ↦[outBlk (blkOf (widOf c s) j)]{fullShare} g : sProp 𝕄)) f

theorem bigSep_cores2 (Φ : Fin 2 → sProp 𝕄) :
    (bigSep Finset.univ fun c : Fin ((K (F := F)).nCore 1) => Φ (Fin.cast (nCore_eq 1) c)) = bigSep Finset.univ Φ :=
  bigSep_congr fun _ _ => congrArg Φ (Fin.ext rfl)
theorem bigSep_tiles2 (Φ : Fin 16 → sProp 𝕄) :
    (bigSep Finset.univ fun i : Fin ((K (F := F)).nSub 1) => Φ (Fin.cast (nSub_eq 1) i)) = bigSep Finset.univ Φ :=
  bigSep_congr fun _ _ => congrArg Φ (Fin.ext rfl)

section
variable (T1 T2 : Dev nD → S32768x128.Idx → Elt F .f32) (Ic : Dev nD → S1024x128.Idx → Elt F .i32)

theorem vsplit2 : (K (F := F)).VecSplit' (P T1 T2 Ic) 1 := by
  intro d c
  show coreIn2 (T2 d) (Ic d) d (Fin.cast (nCore_eq 1) c) ⊢ |={Set.univ}=> iprop(
      (bigSep Finset.univ fun i : Fin ((K (F := F)).nSub 1) => tileIn2 (T2 d) (Ic d) d (Fin.cast (nCore_eq 1) c) (Fin.cast (nSub_eq 1) i))
      ∗ ((bigSep Finset.univ fun i : Fin ((K (F := F)).nSub 1) => tileOut2 (T2 d) (Ic d) d (Fin.cast (nCore_eq 1) c) (Fin.cast (nSub_eq 1) i))
          -∗ coreOut2 (T2 d) (Ic d) d (Fin.cast (nCore_eq 1) c)))
  generalize Fin.cast (nCore_eq 1) c = c'
  rw [bigSep_tiles2 (F := F) (fun s => tileIn2 (T2 d) (Ic d) d c' s), bigSep_tiles2 (F := F) (fun s => tileOut2 (T2 d) (Ic d) d c' s)]
  unfold coreIn2 coreOut2 tileIn2 tileOut2
  simp only [bigSep_sep']
  iintro ⟨HT, HI, HO⟩
  ihave HT' := (Transfers.pointsTo_toks_split (qCore c') 16) $$ HT
  icases HT' with ⟨Hrem, Htoks⟩
  imodintro
  isplitl [Htoks HI HO]
  · isplitl [Htoks]; · iexact Htoks
    isplitl [HI]; · iexact HI
    iexact HO
  iintro ⟨Ht, Hi, Ho⟩
  isplitl [Hrem Ht]
  · iapply (Transfers.pointsTo_toks_join (qCore c') 16)
    isplitl [Hrem]; · iexact Hrem
    iexact Ht
  isplitl [Hi]; · iexact Hi
  iexact Ho

theorem st_intro2 (d : Dev nD) :
    iprop((tLoc2 d ↦{fullShare} T2 d) ∗ (iLoc d ↦{fullShare} Ic d) ∗ (∃ f, oLoc2 d ↦{fullShare} f))
      ⊢ (iprop((tLoc2 d ↦{qKeep} T2 d) ∗ bigSep Finset.univ fun c : Fin ((K (F := F)).nCore 1) => (P T1 T2 Ic).st 1 d c) : sProp 𝕄) := by
  rw [show (bigSep Finset.univ fun c : Fin ((K (F := F)).nCore 1) => (P T1 T2 Ic).st 1 d c)
        = (bigSep Finset.univ fun c : Fin 2 => coreIn2 (T2 d) (Ic d) d c : sProp 𝕄)
      from bigSep_cores2 (F := F) (fun c => coreIn2 (T2 d) (Ic d) d c)]
  unfold coreIn2
  simp only [bigSep_sep']
  iintro ⟨HT, HI, %f, HO⟩
  ihave HT' := (Transfers.pointsTo_toks_split fullShare 2) $$ HT
  icases HT' with ⟨Hkeep, Htoks⟩
  isplitl [Hkeep]; · iexact Hkeep
  isplitl [Htoks]; · iexact Htoks
  isplitl [HI]
  · ihave HI' := (Entails.of_eq (idx_rows d (Ic d))) $$ HI
    iexact HI'
  · ihave HO' := (Entails.of_eq (out2_blocks d f)) $$ HO
    iapply (out2_exists d f)
    iexact HO'

theorem dn_elim2 (d : Dev nD) :
    (iprop((tLoc2 d ↦{qKeep} T2 d) ∗ bigSep Finset.univ fun c : Fin ((K (F := F)).nCore 1) => (P T1 T2 Ic).dn 1 d c) : sProp 𝕄)
      ⊢ iprop((tLoc2 d ↦{fullShare} T2 d) ∗ (iLoc d ↦{fullShare} Ic d) ∗ (oLoc2 d ↦{fullShare} gatherRows (T2 d) (Ic d))) := by
  rw [show (bigSep Finset.univ fun c : Fin ((K (F := F)).nCore 1) => (P T1 T2 Ic).dn 1 d c)
        = (bigSep Finset.univ fun c : Fin 2 => coreOut2 (T2 d) (Ic d) d c : sProp 𝕄)
      from bigSep_cores2 (F := F) (fun c => coreOut2 (T2 d) (Ic d) d c)]
  unfold coreOut2
  simp only [bigSep_sep']
  iintro ⟨Hkeep, Htoks, HI, HO⟩
  isplitl [Hkeep Htoks]
  · iapply (Transfers.pointsTo_toks_join fullShare 2)
    isplitl [Hkeep]; · iexact Hkeep
    iexact Htoks
  isplitl [HI]
  · iapply (Entails.of_eq (idx_rows d (Ic d)).symm); iexact HI
  · iapply (Entails.of_eq (out2_blocks d (gatherRows (T2 d) (Ic d))).symm); iexact HO

end

section
variable (T1 T2 : Dev nD → S32768x128.Idx → Elt F .f32) (Ic : Dev nD → S1024x128.Idx → Elt F .i32)

theorem vsplit (q : Fin 2) : (K (F := F)).VecSplit' (P T1 T2 Ic) q := by
  fin_cases q
  · exact vsplit1 T1 T2 Ic
  · exact vsplit2 T1 T2 Ic

end

end Cert.KernelIdeal.Sc

end
-- ==== Proof.Launch.Main.lean ====
import proofs.«214766_g21345987461187_cont_8to1_720_22_alg».proof.Proof.Launch.Fold
import proofs.«214766_g21345987461187_cont_8to1_720_22_alg».proof.Proof.Launch.Reg
import proofs.«214766_g21345987461187_cont_8to1_720_22_alg».proof.Proof.Launch.Held
import proofs.«214766_g21345987461187_cont_8to1_720_22_alg».proof.Proof.Sc.Split

noncomputable section

namespace Cert.KernelIdeal.Launch

open Cert.KernelIdeal Cert.KernelIdeal.Gen Cert.KernelIdeal.Sc Cert.KernelIdeal.Hand Cert.Launch

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (g : Dev nD → PrngReg)

theorem Otc_none (d : Dev nD) (n : ℕ) (gs : GSem nD τ sig) : (K (F := F)).Otc d n gs none = 0 := by
  by_contra h
  have := (K (F := F)).lev_of_Otc_pos (Nat.pos_of_ne_zero h)
  simp at this

abbrev SS : Finset (DevRef τ sig) := Pipeline.ucRefs τ sig

theorem mem_SS (b : Ref sig .tc) (h : ¬ (Proc.devRef .tc b : DevRef τ sig).isScoped) : Proc.devRef .tc b ∈ (SS : Finset (DevRef τ sig)) :=
  Finset.mem_filter.mpr ⟨StableHlo.devRef_mem_tcRefs b, h⟩

abbrev PP : (K (F := F)).Pay (nD := nD) (Val := Elt F) (Name := ℕ) (U := UU) := P (T1 m) (T2 m) (Ic m)

theorem W2_arr (c : Dev nD) (w : Fin cfg0.W) :
    W2 m c (Proc.devRef .tc (Pipeline.arrRef spec0 w)) = (dat0 m c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

set_option backward.isDefEq.respectTransparency.types false in
def rg0 [∀ e, Nonempty (Elt F e)] (hb0 : ∀ c, Pipeline.BodyObligation (dat0 m c) (defs₀ (F := F)) 𝒱₀ (none : HIx 2) Set.univ) :
    Pipeline.RegionSeg (pcfgs (F := F)) adm (pdats m) (none : HIx 2) defs₀ 𝒱₀ (K (F := F)).L (K (F := F)).lev 0 :=
  reg (pdats m) 0 launch0 (8 * 0) (fun c => (K (F := F)).Otc c 0) (fun c gs => Otc_none c 0 gs) (W1 m) (W2 m)
    (fun c w => R0.A_eq _ _ _ _ c w) (fun c => (pdats m 0 c).share_full fun _ => rfl) (fun c t => rfl) (fun c t => rfl) (fun c t => rfl)
    hb0 (fun c w => (W2_arr m c w).symm)
    (fun c r hr => W2_of_ne m c r fun w e => hr (Finset.mem_image.mpr ⟨w, Finset.mem_univ _, e⟩))

theorem rg0_pre [∀ e, Nonempty (Elt F e)] (hb0 : ∀ c, Pipeline.BodyObligation (dat0 m c) (defs₀ (F := F)) 𝒱₀ (none : HIx 2) Set.univ) (d : Dev nD) :
    (rg0 m hb0).pre d = iprop(StableHlo.held (T d) SS (W1 m d) ∗ Rd (8 * 0) ((fun c => (K (F := F)).Otc c 0) d) d) := rfl
theorem rg0_post [∀ e, Nonempty (Elt F e)] (hb0 : ∀ c, Pipeline.BodyObligation (dat0 m c) (defs₀ (F := F)) 𝒱₀ (none : HIx 2) Set.univ) (d : Dev nD) :
    (rg0 m hb0).post d = iprop(StableHlo.held (T d) SS (W2 m d) ∗ Rd (8 * 0) ((fun c => (K (F := F)).Otc c 0) d) d) := rfl

theorem W8_arr (c : Dev nD) (w : Fin cfg3.W) :
    W8 m c (Proc.devRef .tc (Pipeline.arrRef spec3 w)) = (dat3 m c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb

set_option backward.isDefEq.respectTransparency.types false in
def rg3 [∀ e, Nonempty (Elt F e)] (hb3 : ∀ c, Pipeline.BodyObligation (dat3 m c) (defs₀ (F := F)) 𝒱₀ (none : HIx 2) Set.univ) :
    Pipeline.RegionSeg (pcfgs (F := F)) adm (pdats m) (none : HIx 2) defs₀ 𝒱₀ (K (F := F)).L (K (F := F)).lev 1 :=
  reg (pdats m) 1 launch3 (8 * 2) (fun c => (K (F := F)).Otc c 2) (fun c gs => Otc_none c 2 gs) (W7 m) (W8 m)
    (fun c w => R3.A_eq _ _ _ c w) (fun c => (pdats m 1 c).share_full fun _ => rfl) (fun c t => ((K (F := F)).Otc_end c (le_refl 2)).symm) (fun c t => rfl) (fun c t => rfl)
    hb3 (fun c w => (W8_arr m c w).symm)
    (fun c r hr => W8_of_ne m c r fun w e => hr (Finset.mem_image.mpr ⟨w, Finset.mem_univ _, e⟩))

theorem rg3_pre [∀ e, Nonempty (Elt F e)] (hb3 : ∀ c, Pipeline.BodyObligation (dat3 m c) (defs₀ (F := F)) 𝒱₀ (none : HIx 2) Set.univ) (d : Dev nD) :
    (rg3 m hb3).pre d = iprop(StableHlo.held (T d) SS (W7 m d) ∗ Rd (8 * 2) ((fun c => (K (F := F)).Otc c 2) d) d) := rfl
theorem rg3_post [∀ e, Nonempty (Elt F e)] (hb3 : ∀ c, Pipeline.BodyObligation (dat3 m c) (defs₀ (F := F)) 𝒱₀ (none : HIx 2) Set.univ) (d : Dev nD) :
    (rg3 m hb3).post d = iprop(StableHlo.held (T d) SS (W8 m d) ∗ Rd (8 * 2) ((fun c => (K (F := F)).Otc c 2) d) d) := rfl

theorem W11_arr (c : Dev nD) (w : Fin cfg4.W) :
    W11 m c (Proc.devRef .tc (Pipeline.arrRef spec4 w)) = (dat4 m c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m c (Proc.devRef .tc b) = W10 m c (Proc.devRef .tc b) := by
  unfold W11; exact Pipeline.withArrays_of_ne spec4 c _ _ b hb

set_option backward.isDefEq.respectTransparency.types false in
def rg4 [∀ e, Nonempty (Elt F e)] (hb4 : ∀ c, Pipeline.BodyObligation (dat4 m c) (defs₀ (F := F)) 𝒱₀ (none : HIx 2) Set.univ) :
    Pipeline.RegionSeg (pcfgs (F := F)) adm (pdats m) (none : HIx 2) defs₀ 𝒱₀ (K (F := F)).L (K (F := F)).lev 2 :=
  reg (pdats m) 2 launch4 (8 * 2) (fun c => (K (F := F)).Otc c 2) (fun c gs => Otc_none c 2 gs) (W10 m) (W11 m)
    (fun c w => R4.A_eq _ _ _ c w) (fun c => (pdats m 2 c).share_full fun _ => rfl) (fun c t => ((K (F := F)).Otc_end c (le_refl 2)).symm) (fun c t => rfl) (fun c t => rfl)
    hb4 (fun c w => (W11_arr m c w).symm)
    (fun c r hr => W11_of_ne m c r fun w e => hr (Finset.mem_image.mpr ⟨w, Finset.mem_univ _, e⟩))

theorem rg4_pre [∀ e, Nonempty (Elt F e)] (hb4 : ∀ c, Pipeline.BodyObligation (dat4 m c) (defs₀ (F := F)) 𝒱₀ (none : HIx 2) Set.univ) (d : Dev nD) :
    (rg4 m hb4).pre d = iprop(StableHlo.held (T d) SS (W10 m d) ∗ Rd (8 * 2) ((fun c => (K (F := F)).Otc c 2) d) d) := rfl
theorem rg4_post [∀ e, Nonempty (Elt F e)] (hb4 : ∀ c, Pipeline.BodyObligation (dat4 m c) (defs₀ (F := F)) 𝒱₀ (none : HIx 2) Set.univ) (d : Dev nD) :
    (rg4 m hb4).post d = iprop(StableHlo.held (T d) SS (W11 m d) ∗ Rd (8 * 2) ((fun c => (K (F := F)).Otc c 2) d) d) := rfl

theorem W13_arr (c : Dev nD) (w : Fin cfg5.W) :
    W13 m c (Proc.devRef .tc (Pipeline.arrRef spec5 w)) = (dat5 m c).arrAt w cfg5.N := by
  unfold W13; exact Pipeline.withArrays_arr spec5 launch5.win.arr_inj c _ _ w
theorem W13_of_ne (c : Dev nD) (b : Ref sig .tc) (hb : ∀ w, Pipeline.arrRef spec5 w ≠ b) :
    W13 m c (Proc.devRef .tc b) = W12 m c (Proc.devRef .tc b) := by
  unfold W13; exact Pipeline.withArrays_of_ne spec5 c _ _ b hb

set_option backward.isDefEq.respectTransparency.types false in
def rg5 [∀ e, Nonempty (Elt F e)] (hb5 : ∀ c, Pipeline.BodyObligation (dat5 m c) (defs₀ (F := F)) 𝒱₀ (none : HIx 2) Set.univ) :
    Pipeline.RegionSeg (pcfgs (F := F)) adm (pdats m) (none : HIx 2) defs₀ 𝒱₀ (K (F := F)).L (K (F := F)).lev 3 :=
  reg (pdats m) 3 launch5 (8 * 2) (fun c => (K (F := F)).Otc c 2) (fun c gs => Otc_none c 2 gs) (W12 m) (W13 m)
    (fun c w => R5.A_eq _ _ _ c w) (fun c => (pdats m 3 c).share_full fun _ => rfl) (fun c t => ((K (F := F)).Otc_end c (le_refl 2)).symm) (fun c t => rfl) (fun c t => rfl)
    hb5 (fun c w => (W13_arr m c w).symm)
    (fun c r hr => W13_of_ne m c r fun w e => hr (Finset.mem_image.mpr ⟨w, Finset.mem_univ _, e⟩))

theorem rg5_pre [∀ e, Nonempty (Elt F e)] (hb5 : ∀ c, Pipeline.BodyObligation (dat5 m c) (defs₀ (F := F)) 𝒱₀ (none : HIx 2) Set.univ) (d : Dev nD) :
    (rg5 m hb5).pre d = iprop(StableHlo.held (T d) SS (W12 m d) ∗ Rd (8 * 2) ((fun c => (K (F := F)).Otc c 2) d) d) := rfl
theorem rg5_post [∀ e, Nonempty (Elt F e)] (hb5 : ∀ c, Pipeline.BodyObligation (dat5 m c) (defs₀ (F := F)) 𝒱₀ (none : HIx 2) Set.univ) (d : Dev nD) :
    (rg5 m hb5).post d = iprop(StableHlo.held (T d) SS (W13 m d) ∗ Rd (8 * 2) ((fun c => (K (F := F)).Otc c 2) d) d) := rfl

theorem h25 : (Proc.devRef .tc main_v25 : DevRef τ sig) ∈ SS := mem_SS main_v25 (by decide)
theorem h24_1 : (Proc.devRef .tc main_v24 : DevRef τ sig) ∈ SS.erase (Proc.devRef .tc main_v25) :=
  Finset.mem_erase.mpr ⟨StableHlo.devRef_ne_of_ne (by decide), mem_SS main_v24 (by decide)⟩
theorem h26 : (Proc.devRef .tc main_v26 : DevRef τ sig) ∈ (SS.erase (Proc.devRef .tc main_v25)).erase (Proc.devRef .tc main_v24) :=
  Finset.mem_erase.mpr ⟨StableHlo.devRef_ne_of_ne (by decide), Finset.mem_erase.mpr ⟨StableHlo.devRef_ne_of_ne (by decide), mem_SS main_v26 (by decide)⟩⟩

set_option backward.isDefEq.respectTransparency.types false in
theorem sc1_open (d : Dev nD) : (StableHlo.held (T d) SS (W3 m d) : sProp 𝕄)
    ⊢ iprop((tLoc1 d ↦{fullShare} T1 m d) ∗ (iLoc d ↦{fullShare} Ic m d) ∗ (∃ f, oLoc1 d ↦{fullShare} f)
        ∗ StableHlo.held (T d) (((SS.erase (Proc.devRef .tc main_v25)).erase (Proc.devRef .tc main_v24)).erase (Proc.devRef .tc main_v26)) (W3 m d)) := by
  rw [Held.held_take3 (T d) SS (W3 m d) h25 h24_1 h26]
  iintro ⟨Ht, Hi, Ho, Hr⟩
  isplitl [Ht]; · iexact Ht
  isplitl [Hi]; · iexact Hi
  isplitl [Ho]; · iexists _; iexact Ho
  iexact Hr

set_option backward.isDefEq.respectTransparency.types false in
theorem sc1_close (d : Dev nD) : (iprop((tLoc1 d ↦{fullShare} T1 m d) ∗ (iLoc d ↦{fullShare} Ic m d) ∗ (oLoc1 d ↦{fullShare} gatherRows (T1 m d) (Ic m d))
        ∗ StableHlo.held (T d) (((SS.erase (Proc.devRef .tc main_v25)).erase (Proc.devRef .tc main_v24)).erase (Proc.devRef .tc main_v26)) (W3 m d)) : sProp 𝕄)
    ⊢ StableHlo.held (T d) SS (W4 m d) := by
  unfold W4
  exact Entails.of_eq (Held.held_put3 (T d) SS (W3 m d) h25 h24_1 h26 (gatherRows (T1 m d) (Ic m d)))

theorem h27 : (Proc.devRef .tc main_v27 : DevRef τ sig) ∈ SS := mem_SS main_v27 (by decide)
theorem h24_2 : (Proc.devRef .tc main_v24 : DevRef τ sig) ∈ SS.erase (Proc.devRef .tc main_v27) :=
  Finset.mem_erase.mpr ⟨StableHlo.devRef_ne_of_ne (by decide), mem_SS main_v24 (by decide)⟩
theorem h28 : (Proc.devRef .tc main_v28 : DevRef τ sig) ∈ (SS.erase (Proc.devRef .tc main_v27)).erase (Proc.devRef .tc main_v24) :=
  Finset.mem_erase.mpr ⟨StableHlo.devRef_ne_of_ne (by decide), Finset.mem_erase.mpr ⟨StableHlo.devRef_ne_of_ne (by decide), mem_SS main_v28 (by decide)⟩⟩

set_option backward.isDefEq.respectTransparency.types false in
theorem sc2_open (d : Dev nD) : (StableHlo.held (T d) SS (W5 m d) : sProp 𝕄)
    ⊢ iprop((tLoc2 d ↦{fullShare} T2 m d) ∗ (iLoc d ↦{fullShare} Ic m d) ∗ (∃ f, oLoc2 d ↦{fullShare} f)
        ∗ StableHlo.held (T d) (((SS.erase (Proc.devRef .tc main_v27)).erase (Proc.devRef .tc main_v24)).erase (Proc.devRef .tc main_v28)) (W5 m d)) := by
  rw [Held.held_take3 (T d) SS (W5 m d) h27 h24_2 h28]
  iintro ⟨Ht, Hi, Ho, Hr⟩
  isplitl [Ht]; · iexact Ht
  isplitl [Hi]; · iexact Hi
  isplitl [Ho]; · iexists _; iexact Ho
  iexact Hr

set_option backward.isDefEq.respectTransparency.types false in
theorem sc2_close (d : Dev nD) : (iprop((tLoc2 d ↦{fullShare} T2 m d) ∗ (iLoc d ↦{fullShare} Ic m d) ∗ (oLoc2 d ↦{fullShare} gatherRows (T2 m d) (Ic m d))
        ∗ StableHlo.held (T d) (((SS.erase (Proc.devRef .tc main_v27)).erase (Proc.devRef .tc main_v24)).erase (Proc.devRef .tc main_v28)) (W5 m d)) : sProp 𝕄)
    ⊢ StableHlo.held (T d) SS (W6 m d) := by
  unfold W6
  exact Entails.of_eq (Held.held_put3 (T d) SS (W5 m d) h27 h24_2 h28 (gatherRows (T2 m d) (Ic m d)))

def G (d : Dev nD) : sProp 𝕄 :=
  bigSep Finset.univ fun p : Fin 4 => iprop(Pipeline.cellsGhost (Pipeline.pin (pcfgs (F := F)) adm) EP p d ∗ Pipeline.toksInit (Pipeline.pin (pcfgs (F := F)) adm) EP p d)

theorem G_eq (d : Dev nD) : G (F := F) d = iprop(
    (Pipeline.cellsGhost (Pipeline.pin (pcfgs (F := F)) adm) EP 0 d ∗ Pipeline.toksInit (Pipeline.pin (pcfgs (F := F)) adm) EP 0 d)
    ∗ (Pipeline.cellsGhost (Pipeline.pin (pcfgs (F := F)) adm) EP 1 d ∗ Pipeline.toksInit (Pipeline.pin (pcfgs (F := F)) adm) EP 1 d)
    ∗ (Pipeline.cellsGhost (Pipeline.pin (pcfgs (F := F)) adm) EP 2 d ∗ Pipeline.toksInit (Pipeline.pin (pcfgs (F := F)) adm) EP 2 d)
    ∗ (Pipeline.cellsGhost (Pipeline.pin (pcfgs (F := F)) adm) EP 3 d ∗ Pipeline.toksInit (Pipeline.pin (pcfgs (F := F)) adm) EP 3 d)) := by
  unfold G
  exact bigSep_univ_eq_bigSepL [(0 : Fin 4), 1, 2, 3] (by decide) (by decide) _

set_option backward.isDefEq.respectTransparency.types false in
set_option maxHeartbeats 2000000 in
theorem unscoped_W0 (d : Dev nD) : (unscopedBufs d (fun b => m ((SparseCore.T d).loc b)) : sProp 𝕄) = StableHlo.held (SparseCore.T d) SS (W0 m d) :=
  Pipeline.unscopedBufs_held d (W0 m d)

def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_eq (d : Dev nD) (n : ℕ) : (K (F := F)).tcSt EH d n
    = iprop((∃ W, ⌜(K (F := F)).WBelow (T d) W (8 * n)⌝ ∗ owes (T d) ((K (F := F)).Otc d n) W) ∗ tcRest (F := F) d n) := rfl
theorem tcSt_fold (d : Dev nD) (n : ℕ) :
    iprop((∃ W, ⌜(K (F := F)).WBelow (T d) W (8 * n)⌝ ∗ owes (T d) ((K (F := F)).Otc d n) W) ∗ tcRest (F := F) d n) ⊢ (K (F := F)).tcSt EH d n :=
  Entails.of_eq (tcSt_eq d n).symm
theorem tcSt_open (d : Dev nD) (n : ℕ) :
    (K (F := F)).tcSt EH d n ⊢ iprop((∃ W, ⌜(K (F := F)).WBelow (T d) W (8 * n)⌝ ∗ owes (T d) ((K (F := F)).Otc d n) W) ∗ tcRest (F := F) d n) :=
  Entails.of_eq (tcSt_eq d n)

theorem tcSt_open' (d : Dev nD) (q : Fin 2) (n : ℕ) (hn : q.val + 1 = n) :
    (K (F := F)).tcSt EH d (q.val + 1) ⊢ iprop((∃ W, ⌜(K (F := F)).WBelow (T d) W (8 * n)⌝ ∗ owes (T d) ((K (F := F)).Otc d n) W) ∗ tcRest (F := F) d n) := by
  subst hn; exact tcSt_open d _

abbrev FIN (d : Dev nD) : sProp 𝕄 := StableHlo.held (T d) SS (W13 m d)

variable [∀ e, Nonempty (Elt F e)]
variable (hb0 : ∀ c, Pipeline.BodyObligation (dat0 m c) (defs₀ (F := F)) 𝒱₀ (none : HIx 2) Set.univ)
  (hb3 : ∀ c, Pipeline.BodyObligation (dat3 m c) (defs₀ (F := F)) 𝒱₀ (none : HIx 2) Set.univ)
  (hb4 : ∀ c, Pipeline.BodyObligation (dat4 m c) (defs₀ (F := F)) 𝒱₀ (none : HIx 2) Set.univ)
  (hb5 : ∀ c, Pipeline.BodyObligation (dat5 m c) (defs₀ (F := F)) 𝒱₀ (none : HIx 2) Set.univ)

include hb0 hb3 hb4 hb5 in
set_option backward.isDefEq.respectTransparency.types false in
set_option maxHeartbeats 8000000 in
theorem hmain (κ : GSem nD τ sig → ℕ) (d : Dev nD) :
    iprop((K (F := F)).ctx EH (PP m) κ ∗ (K (F := F)).tcSt EH d 0 ∗ (K (F := F)).tcRes m g d ∗ G (F := F) d)
      ⊢ wp frame (wpE ((K (F := F)).defs (D (F := F))) 𝒱 (T d) none) Set.univ (main (F := F) d)
          fun _ => iprop((K (F := F)).tcSt EH d 2 ∗ FIN m d) := by
  unfold SparseCore.Cfg.tcRes
  rw [tcSt_eq (F := F) d 0, tcSt_eq (F := F) d 2, unscoped_W0 m d, G_eq]
  simp only [main, main_part0_chain, main_part1_chain, Pipeline.chainK, Pipeline.chain, bind_assoc]
  iintro ⟨#Hctx, ⟨HO, Htc⟩, ⟨Hb, Hh, Hsems, Hp0⟩, ⟨⟨Hg0, Ht0⟩, ⟨Hg1, Ht1⟩, ⟨Hg2, Ht2⟩, ⟨Hg3, Ht3⟩⟩⟩
  ihave #Hla := ((K (F := F)).ctx_levAts κ) $$ Hctx
  ihave Hp := (show (prngReg d (g d) : sProp 𝕄) ⊢ iprop(∃ r, prngReg d r) from by iintro H; iexists _; iexact H) $$ Hp0
  iapply (StableHlo.wp_seq (defs := (K (F := F)).defs (D (F := F))) 𝒱 none Set.univ d SS _ hostOps0
      (fun op h => Pipeline.sub_ucRefs op ((List.forall_iff_forall_mem.mp hostOps0_sub) op h))
      (fun op h => (List.forall_iff_forall_mem.mp hostOps0_fresh) op h) (W0 m d)) $$ [Hb Hh]
  · isplitl [Hb] <;> iassumption
  iintro ⟨Hb, Hh⟩
  rw [wp_bind]
  iapply (region_step (pdats m) (rg0 m hb0) d _)
  isplitr [Hb Hh HO Hp Hg0 Ht0]
  swap
  · isplitl [Hb]; · iexact Hb
    isplitl [Hh HO Hp]
    · rw [rg0_pre]
      isplitl [Hh]; · iexact Hh
      isplitl [Hp]; · iexact Hp
      iexact HO
    isplitr; · iexact Hla
    isplitl [Hg0] <;> iassumption
  iintro ⟨Hb, Hpost⟩
  ihave Hpost' := (Entails.of_eq (rg0_post m hb0 d)) $$ Hpost
  icases Hpost' with ⟨Hh, Hp, HO⟩
  iapply (StableHlo.wp_seq (defs := (K (F := F)).defs (D (F := F))) 𝒱 none Set.univ d SS _ hostOps1
      (fun op h => Pipeline.sub_ucRefs op ((List.forall_iff_forall_mem.mp hostOps1_sub) op h))
      (fun op h => (List.forall_iff_forall_mem.mp hostOps1_fresh) op h) (W2 m d)) $$ [Hb Hh]
  · isplitl [Hb] <;> iassumption
  iintro ⟨Hb, Hh⟩
  rw [wp_bind]
  ihave H := (sc1_open m d) $$ Hh
  icases H with ⟨Ht, Hi, Ho, Hrest⟩
  ihave H := (st_intro1 (T1 m) (T2 m) (Ic m) d) $$ [Ht Hi Ho]
  · isplitl [Ht]; · iexact Ht
    isplitl [Hi] <;> iassumption
  icases H with ⟨Hkeep, Hst1⟩
  iapply ((K (F := F)).wp_run (D (F := F)) 𝒱 (EH := EH) (P := PP m) κ d 0)
  isplitr; · iexact Hctx
  isplitl [HO Htc]
  · iapply (tcSt_fold (F := F) d 0)
    isplitl [HO] <;> iassumption
  isplitl [Hst1]; · iexact Hst1
  iintro ⟨Hst, Hdn⟩
  ihave Hst' := (tcSt_open' (F := F) d 0 1 rfl) $$ Hst
  icases Hst' with ⟨HO, Htc⟩
  ihave H := (dn_elim1 (T1 m) (T2 m) (Ic m) d) $$ [Hkeep Hdn]
  · isplitl [Hkeep] <;> iassumption
  icases H with ⟨Ht, Hi, Ho⟩
  ihave Hh := (sc1_close m d) $$ [Ht Hi Ho Hrest]
  · isplitl [Ht]; · iexact Ht
    isplitl [Hi]; · iexact Hi
    isplitl [Ho] <;> iassumption
  iapply (StableHlo.wp_seq (defs := (K (F := F)).defs (D (F := F))) 𝒱 none Set.univ d SS _ hostOps2
      (fun op h => Pipeline.sub_ucRefs op ((List.forall_iff_forall_mem.mp hostOps2_sub) op h))
      (fun op h => (List.forall_iff_forall_mem.mp hostOps2_fresh) op h) (W4 m d)) $$ [Hb Hh]
  · isplitl [Hb] <;> iassumption
  iintro ⟨Hb, Hh⟩
  rw [wp_bind]
  ihave H := (sc2_open m d) $$ Hh
  icases H with ⟨Ht, Hi, Ho, Hrest⟩
  ihave H := (st_intro2 (T1 m) (T2 m) (Ic m) d) $$ [Ht Hi Ho]
  · isplitl [Ht]; · iexact Ht
    isplitl [Hi] <;> iassumption
  icases H with ⟨Hkeep, Hst1⟩
  iapply ((K (F := F)).wp_run (D (F := F)) 𝒱 (EH := EH) (P := PP m) κ d 1)
  isplitr; · iexact Hctx
  isplitl [HO Htc]
  · iapply (tcSt_fold (F := F) d 1)
    isplitl [HO] <;> iassumption
  isplitl [Hst1]; · iexact Hst1
  iintro ⟨Hst, Hdn⟩
  ihave Hst' := (tcSt_open' (F := F) d 1 2 rfl) $$ Hst
  icases Hst' with ⟨HO, Htc⟩
  ihave H := (dn_elim2 (T1 m) (T2 m) (Ic m) d) $$ [Hkeep Hdn]
  · isplitl [Hkeep] <;> iassumption
  icases H with ⟨Ht, Hi, Ho⟩
  ihave Hh := (sc2_close m d) $$ [Ht Hi Ho Hrest]
  · isplitl [Ht]; · iexact Ht
    isplitl [Hi]; · iexact Hi
    isplitl [Ho] <;> iassumption
  iapply (StableHlo.wp_seq (defs := (K (F := F)).defs (D (F := F))) 𝒱 none Set.univ d SS _ hostOps3
      (fun op h => Pipeline.sub_ucRefs op ((List.forall_iff_forall_mem.mp hostOps3_sub) op h))
      (fun op h => (List.forall_iff_forall_mem.mp hostOps3_fresh) op h) (W6 m d)) $$ [Hb Hh]
  · isplitl [Hb] <;> iassumption
  iintro ⟨Hb, Hh⟩
  rw [wp_bind]
  iapply (region_step (pdats m) (rg3 m hb3) d _)
  isplitr [Hb Hh HO Hp Hg1 Ht1]
  swap
  · isplitl [Hb]; · iexact Hb
    isplitl [Hh HO Hp]
    · rw [rg3_pre]
      isplitl [Hh]; · iexact Hh
      isplitl [Hp]; · iexact Hp
      iexact HO
    isplitr; · iexact Hla
    isplitl [Hg1] <;> iassumption
  iintro ⟨Hb, Hpost⟩
  ihave Hpost' := (Entails.of_eq (rg3_post m hb3 d)) $$ Hpost
  icases Hpost' with ⟨Hh, Hp, HO⟩
  iapply (StableHlo.wp_seq (defs := (K (F := F)).defs (D (F := F))) 𝒱 none Set.univ d SS _ hostOps4
      (fun op h => Pipeline.sub_ucRefs op ((List.forall_iff_forall_mem.mp hostOps4_sub) op h))
      (fun op h => (List.forall_iff_forall_mem.mp hostOps4_fresh) op h) (W8 m d)) $$ [Hb Hh]
  · isplitl [Hb] <;> iassumption
  iintro ⟨Hb, Hh⟩
  iapply (StableHlo.wp_seq (defs := (K (F := F)).defs (D (F := F))) 𝒱 none Set.univ d SS _ hostOps5
      (fun op h => Pipeline.sub_ucRefs op ((List.forall_iff_forall_mem.mp hostOps5_sub) op h))
      (fun op h => (List.forall_iff_forall_mem.mp hostOps5_fresh) op h) (W9 m d)) $$ [Hb Hh]
  · isplitl [Hb] <;> iassumption
  iintro ⟨Hb, Hh⟩
  rw [wp_bind]
  iapply (region_step (pdats m) (rg4 m hb4) d _)
  isplitr [Hb Hh HO Hp Hg2 Ht2]
  swap
  · isplitl [Hb]; · iexact Hb
    isplitl [Hh HO Hp]
    · rw [rg4_pre]
      isplitl [Hh]; · iexact Hh
      isplitl [Hp]; · iexact Hp
      iexact HO
    isplitr; · iexact Hla
    isplitl [Hg2] <;> iassumption
  iintro ⟨Hb, Hpost⟩
  ihave Hpost' := (Entails.of_eq (rg4_post m hb4 d)) $$ Hpost
  icases Hpost' with ⟨Hh, Hp, HO⟩
  iapply (StableHlo.wp_seq (defs := (K (F := F)).defs (D (F := F))) 𝒱 none Set.univ d SS _ hostOps6
      (fun op h => Pipeline.sub_ucRefs op ((List.forall_iff_forall_mem.mp hostOps6_sub) op h))
      (fun op h => (List.forall_iff_forall_mem.mp hostOps6_fresh) op h) (W11 m d)) $$ [Hb Hh]
  · isplitl [Hb] <;> iassumption
  iintro ⟨Hb, Hh⟩
  rw [wp_bind]
  iapply (region_step (pdats m) (rg5 m hb5) d _)
  isplitr [Hb Hh HO Hp Hg3 Ht3]
  swap
  · isplitl [Hb]; · iexact Hb
    isplitl [Hh HO Hp]
    · rw [rg5_pre]
      isplitl [Hh]; · iexact Hh
      isplitl [Hp]; · iexact Hp
      iexact HO
    isplitr; · iexact Hla
    isplitl [Hg3] <;> iassumption
  iintro ⟨Hb, Hpost⟩
  ihave Hpost' := (Entails.of_eq (rg5_post m hb5 d)) $$ Hpost
  icases Hpost' with ⟨Hh, Hp, HO⟩
  rw [wp_pure]
  imodintro
  isplitl [HO Htc]
  · isplitl [HO] <;> iassumption
  iexact Hh

end Cert.KernelIdeal.Launch

end
-- ==== Proof.Sc.Tile.lean ====
import proofs.«214766_g21345987461187_cont_8to1_720_22_alg».proof.Proof.Sc.Pay
import proofs.«214766_g21345987461187_cont_8to1_720_22_alg».proof.Proof.Sc.Split
import proofs.«214766_g21345987461187_cont_8to1_720_22_alg».proof.Proof.Gen.KernelIdeal.Skeleton
import Idealize.ShloMosaic.Lib.SparseCore.Launch
import Idealize.ShloMosaic.Lib.SparseCore.Stream
import Idealize.ShloMosaic.Lib.Pipeline.Kit
import Idealize.ShloMosaic.Lib.Tactic

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

def rowSetN (r : ℕ) : Finset S32x128.Idx := Finset.univ.filter fun x => (x 0).val = r

def IsRow (Tc : S32768x128.Idx → Elt F .f32) (fI : S32x128.Idx → Elt F .i32) (r : ℕ) (g : S128x128.Idx → Elt F .f32) : Prop :=
  ∀ x : S128x128.Idx, g x = Tc (ix2 (n := 32768) (m := 128)
    ⟨(fI (ix2 (n := 32) (m := 128) ⟨r % 32, Nat.mod_lt _ (by decide)⟩ (x 0))).toNat % 32768, Nat.mod_lt _ (by decide)⟩ (x 1))

abbrev hA : PosShare TreeShare := (fullShare : PosShare TreeShare).left
abbrev hB : PosShare TreeShare := (fullShare : PosShare TreeShare).right

theorem writes_whole_fn {κ : Kind} (b : Ref sig κ) (f : b.ty.Contents (Elt F)) (w : b.ty.shape.Idx → Elt F b.ty.elt) :
    (View.whole b).writes (Elt F) f [⟨Rect.whole b.ty.shape, w⟩] = w :=
  View.read_writes_whole (View.whole b) f w

theorem waits_insert {W W' : Waits sig (HIx 2)} (h : ∀ p ∈ W', p ∈ W ∨ p.2 = none) (sm : SemLoc sig) :
    ∀ p ∈ insert (sm, (default : HIx 2)) W', p ∈ W ∨ p.2 = none := by
  intro p hp
  rcases Finset.mem_insert.mp hp with hp | hp
  · exact .inr (hp ▸ rfl)
  · exact h p hp

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

section Call1

local notation "tW" => (Memref.whole Cert.KernelIdeal.main_v25_scv : Memref Cert.KernelIdeal.sig Kind.scVector Space.hbm Cert.KernelIdeal.S32768x128 EltTy.f32)
local notation "iW" => (Memref.whole Cert.KernelIdeal.main_v24_scv : Memref Cert.KernelIdeal.sig Kind.scVector Space.hbm Cert.KernelIdeal.S1024x128 EltTy.i32)
local notation "oW" => (Memref.whole Cert.KernelIdeal.main_v26_scv : Memref Cert.KernelIdeal.sig Kind.scVector Space.hbm Cert.KernelIdeal.S131072x128 EltTy.f32)
local notation "s0W" => (Memref.whole Cert.KernelIdeal.cc1_scratch0 : Memref Cert.KernelIdeal.sig Kind.scVector Space.vmem Cert.KernelIdeal.S32x128 EltTy.i32)
local notation "s1W" => (Memref.whole Cert.KernelIdeal.cc1_scratch1 : Memref Cert.KernelIdeal.sig Kind.scVector Space.vmem Cert.KernelIdeal.S128x128 EltTy.f32)
local notation "s2W" => (Memref.whole Cert.KernelIdeal.cc1_scratch2 : Memref Cert.KernelIdeal.sig Kind.scVector Space.vmem Cert.KernelIdeal.S128x128 EltTy.f32)

abbrev cV1 (L : grid1.Coords) : Fin τ.nSC := (L 0).castLE hcore1
abbrev jV1 (L : grid1.Coords) : Fin τ.nSub := (L 1).castLE hsub1
abbrev thr1 (d : Dev nD) (L : grid1.Coords) : Thread nD τ := V d (cV1 L) (jV1 L)
theorem bound1_0 : grid1.bound 0 = 2 := rfl
theorem bound1_1 : grid1.bound 1 = 16 := rfl
abbrev cL1 (L : grid1.Coords) : Fin 2 := Fin.cast bound1_0 (L 0)
abbrev sL1 (L : grid1.Coords) : Fin 16 := Fin.cast bound1_1 (L 1)
abbrev wL1 (L : grid1.Coords) : Fin 32 := widOf (cL1 L) (sL1 L)
theorem trips1_le : k1_t1_loop.trips ≤ 16 := k1_t1_abs.2.1

abbrev s0Loc1 (d : Dev nD) (L : grid1.Coords) : Loc nD τ sig := (thr1 d L).loc cc1_scratch0
abbrev s1Loc1 (d : Dev nD) (L : grid1.Coords) : Loc nD τ sig := (thr1 d L).loc cc1_scratch1
abbrev s2Loc1 (d : Dev nD) (L : grid1.Coords) : Loc nD τ sig := (thr1 d L).loc cc1_scratch2

abbrev iSl1 (L : grid1.Coords) : Memref sig .scVector .hbm S32x128 .i32 :=
  (iW).slice (Rect.unit (s := S1024x128) (k1_off1 L) S32x128.size (k1_off1_inb L)) (fun _ => rfl)
abbrev oSlA1 (L : grid1.Coords) (k : Fin k1_t1_loop.trips) : Memref sig .scVector .hbm S128x128 .f32 :=
  (oW).slice (Rect.unit (s := S131072x128) (k1_off4 L k) S128x128.size (k1_off4_inb L k)) (fun _ => rfl)
abbrev oSlB1 (L : grid1.Coords) (k : Fin k1_t1_loop.trips) : Memref sig .scVector .hbm S128x128 .f32 :=
  (oW).slice (Rect.unit (s := S131072x128) (k1_off6 L k) S128x128.size (k1_off6_inb L k)) (fun _ => rfl)
abbrev tSl1 : Memref sig .scVector .hbm S32768x128 .f32 :=
  (tW).slice (Rect.unit (s := S32768x128) ![0, 0] S32768x128.size inb_S32768x128_S32768x128_0_0) (fun _ => rfl)
theorem rectI1_eq (L : grid1.Coords) : Rect.unit (s := S1024x128) (k1_off1 L) S32x128.size (k1_off1_inb L) = idxRect (wL1 L) := by
  unfold idxRect Rect.part Rect.block
  congr 1 <;> funext a
  · rw [k1_off1_eq]
    match a with
    | 0 => simp [Shape.partIx, Shape.partSize, widOf]; omega
    | 1 => simp [Shape.partIx, Shape.partSize]
  · match a with
    | 0 => simp [Shape.partSize]
    | 1 => simp [Shape.partSize]
theorem set_iSl1 (L : grid1.Coords) : (iSl1 L).view.set = idxBlk (wL1 L) := by
  show ((View.whole main_v24_scv).slice (Rect.unit (s := S1024x128) (k1_off1 L) S32x128.size (k1_off1_inb L))).set = (idxRect (wL1 L)).set
  rw [View.set_slice, rectI1_eq]; exact Finset.map_refl

def jA1 (k : Fin k1_t1_loop.trips) : Fin 32 := ⟨2 * k.val, by have := trips1_le; omega⟩
def jB1 (k : Fin k1_t1_loop.trips) : Fin 32 := ⟨2 * k.val + 1, by have := trips1_le; omega⟩
theorem rectA1_eq (L : grid1.Coords) (k : Fin k1_t1_loop.trips) :
    Rect.unit (s := S131072x128) (k1_off4 L k) S128x128.size (k1_off4_inb L k) = outRect (blkOf (wL1 L) (jA1 k)) := by
  unfold outRect Rect.part Rect.block
  congr 1 <;> funext a
  · rw [k1_off4_eq]
    match a with
    | 0 => simp [Shape.partIx, Shape.partSize, widOf, blkOf, jA1]; omega
    | 1 => simp [Shape.partIx, Shape.partSize]
  · match a with
    | 0 => simp [Shape.partSize]
    | 1 => simp [Shape.partSize]
theorem rectB1_eq (L : grid1.Coords) (k : Fin k1_t1_loop.trips) :
    Rect.unit (s := S131072x128) (k1_off6 L k) S128x128.size (k1_off6_inb L k) = outRect (blkOf (wL1 L) (jB1 k)) := by
  unfold outRect Rect.part Rect.block
  congr 1 <;> funext a
  · rw [k1_off6_eq]
    match a with
    | 0 => simp [Shape.partIx, Shape.partSize, widOf, blkOf, jB1]; omega
    | 1 => simp [Shape.partIx, Shape.partSize]
  · match a with
    | 0 => simp [Shape.partSize]
    | 1 => simp [Shape.partSize]
theorem set_oSlA1 (L : grid1.Coords) (k : Fin k1_t1_loop.trips) : (oSlA1 L k).view.set = outBlk (blkOf (wL1 L) (jA1 k)) := by
  show ((View.whole main_v26_scv).slice (Rect.unit (s := S131072x128) (k1_off4 L k) S128x128.size (k1_off4_inb L k))).set = (outRect _).set
  rw [View.set_slice, rectA1_eq]; exact Finset.map_refl
theorem set_oSlB1 (L : grid1.Coords) (k : Fin k1_t1_loop.trips) : (oSlB1 L k).view.set = outBlk (blkOf (wL1 L) (jB1 k)) := by
  show ((View.whole main_v26_scv).slice (Rect.unit (s := S131072x128) (k1_off6 L k) S128x128.size (k1_off6_inb L k))).set = (outRect _).set
  rw [View.set_slice, rectB1_eq]; exact Finset.map_refl
section Pts
variable (d : Dev nD) (L : grid1.Coords)
theorem pts_t1 (q : PosShare TreeShare) (f : Buf (Elt F) (tLoc1 d)) : (((tW).view.loc (thr1 d L) ↦{q} f : sProp 𝕄)) = tLoc1 d ↦{q} f := by
  simp only [Memref.view_whole, View.set_whole]
theorem pts_s0_1 (q : PosShare TreeShare) (f : Buf (Elt F) (s0Loc1 d L)) : (((s0W).view.loc (thr1 d L) ↦{q} f : sProp 𝕄)) = s0Loc1 d L ↦{q} f := rfl
theorem pts_s1_1 (f : Buf (Elt F) (s1Loc1 d L)) : (((s1W).view.loc (thr1 d L) ↦{fullShare} f : sProp 𝕄)) = s1Loc1 d L ↦{fullShare} f := rfl
theorem pts_s2_1 (f : Buf (Elt F) (s2Loc1 d L)) : (((s2W).view.loc (thr1 d L) ↦{fullShare} f : sProp 𝕄)) = s2Loc1 d L ↦{fullShare} f := rfl
theorem pts_i1 (f : Buf (Elt F) (iLoc d)) :
    (((iSl1 L).view.loc (thr1 d L) ↦[(iSl1 L).view.set]{fullShare} f : sProp 𝕄)) = iLoc d ↦[idxBlk (wL1 L)]{fullShare} f := by rw [set_iSl1]
theorem pts_oA1 (k : Fin k1_t1_loop.trips) (f : Buf (Elt F) (oLoc1 d)) :
    (((oSlA1 L k).view.loc (thr1 d L) ↦[(oSlA1 L k).view.set]{fullShare} f : sProp 𝕄)) = oLoc1 d ↦[outBlk (blkOf (wL1 L) (jA1 k))]{fullShare} f := by rw [set_oSlA1]
theorem pts_oB1 (k : Fin k1_t1_loop.trips) (f : Buf (Elt F) (oLoc1 d)) :
    (((oSlB1 L k).view.loc (thr1 d L) ↦[(oSlB1 L k).view.set]{fullShare} f : sProp 𝕄)) = oLoc1 d ↦[outBlk (blkOf (wL1 L) (jB1 k))]{fullShare} f := by rw [set_oSlB1]
end Pts

section Inv1
variable [FloatOps F] (d : Dev nD) (L : grid1.Coords)
variable (Tc : S32768x128.Idx → Elt F .f32) (Ic : S1024x128.Idx → Elt F .i32)

def fIof1 (L : grid1.Coords) (Ic : S1024x128.Idx → Elt F .i32) : S32x128.Idx → Elt F .i32 := fun y => Ic ((iSl1 L).view.emb y)

def DAx1 (fI : S32x128.Idx → Elt F .i32) (r : ℕ) : sProp 𝕄 :=
  iprop(∃ g : S128x128.Idx → Elt F .f32, ⌜IsRow Tc fI r g⌝ ∗ (s1Loc1 d L ↦{fullShare} g) ∗ (s0Loc1 d L ↦[rowSetN r]{hA} fI))
end Inv1

section Val1
variable (d : Dev nD) (L : grid1.Coords)
variable (Tc : S32768x128.Idx → Elt F .f32) (Ic : S1024x128.Idx → Elt F .i32)

theorem fI_after1 (f0 : Buf (Elt F) (s0Loc1 d L)) :
    View.write (Elt F) (s0W).view f0 (ReadAs.same.apply ((iSl1 L).view.read (Elt F) Ic)) Finset.univ = fIof1 L Ic := by
  refine (View.write_whole_univ cc1_scratch0 f0 _).trans ?_
  funext y
  exact (View.read_apply _ _).trans (cast_eq _ _)

theorem hin1 (hidx : ∀ x, (Ic x).toNat < 32768) (row : Fin 2 → ℕ) (hk : ∀ a, row a + S1x128.size a ≤ S32x128.size a)
    (hs : ∀ a, (Rect.unit (s := S32x128) row S1x128.size hk).stride a = 1) (x : S128.Idx) :
    (View.read (Elt F) (((s0W).slice (Rect.unit (s := S32x128) row S1x128.size hk) hs).squeeze S128 squeezes_S1x128_S128).view (fIof1 L Ic) x).toNat
      < S32768x128.size (gathers_S32768x128_S128x128).axis := by
  have e : View.read (Elt F) (((s0W).slice (Rect.unit (s := S32x128) row S1x128.size hk) hs).squeeze S128 squeezes_S1x128_S128).view (fIof1 L Ic) x
      = fIof1 L Ic ((((s0W).slice (Rect.unit (s := S32x128) row S1x128.size hk) hs).squeeze S128 squeezes_S1x128_S128).view.emb x) :=
    (View.read_apply _ _).trans (cast_eq _ _)
  rw [e]
  exact hidx _

theorem offs_emb1 (r : ℕ) (hr : r < 32) (h : ∀ a, (![r, 0] : Fin 2 → ℕ) a + S1x128.size a ≤ S32x128.size a)
    (hs : ∀ a, (Rect.unit (s := S32x128) ![r, 0] S1x128.size h).stride a = 1) (z : S128.Idx) :
    (((s0W).slice (Rect.unit (s := S32x128) ![r, 0] S1x128.size h) hs).squeeze S128 squeezes_S1x128_S128).view.emb z
      = ix2 (n := 32) (m := 128) ⟨r, hr⟩ (z 0) := by
  show (Rect.unit (s := S32x128) ![r, 0] S1x128.size h).emb (Shape.reshapeEquiv squeezes_S1x128_S128.numel_eq z) = _
  have e : Shape.reshapeEquiv squeezes_S1x128_S128.numel_eq z = (ix2 (n := 1) (m := 128) 0 (z 0) : S1x128.Idx) :=
    Shape.reshapeEquiv_eq_of_rowMajor _ (by
      rw [Shape.rowMajor_val_two, Shape.rowMajor_val_one]
      show (0 : ℕ) * 128 + (z 0).val = (z 0).val
      omega)
  rw [e]
  funext a
  fin_cases a
  · apply Fin.ext
    show (![r, 0] : Fin 2 → ℕ) 0 + 1 * (0 : ℕ) = r
    simp
  · apply Fin.ext
    show (![r, 0] : Fin 2 → ℕ) 1 + 1 * (z 0).val = (z 0).val
    simp

theorem offs_set1 (r : ℕ) (hr : r < 32) (h : ∀ a, (![r, 0] : Fin 2 → ℕ) a + S1x128.size a ≤ S32x128.size a)
    (hs : ∀ a, (Rect.unit (s := S32x128) ![r, 0] S1x128.size h).stride a = 1) :
    (((s0W).slice (Rect.unit (s := S32x128) ![r, 0] S1x128.size h) hs).squeeze S128 squeezes_S1x128_S128).view.set = rowSetN r := by
  show (((View.whole cc1_scratch0).slice (Rect.unit (s := S32x128) ![r, 0] S1x128.size h)).reshape S128 squeezes_S1x128_S128.numel_eq).set = _
  rw [View.set_reshape, View.set_slice]
  refine Finset.map_refl.trans ?_
  ext i
  simp only [Rect.mem_set_unit, rowSetN, Finset.mem_filter, Finset.mem_univ, true_and]
  constructor
  · intro hi; have := hi 0; simp at this; omega
  · intro hi a
    have hlt := (i a).isLt
    fin_cases a
    · simp; omega
    · simp; exact hlt

theorem tSl_read1 (y : S32768x128.Idx) : (tSl1).view.read (Elt F) Tc y = Tc y := by
  rw [(View.read_apply _ _).trans (cast_eq _ _)]
  congr 1
  funext a
  apply Fin.ext
  show ((Rect.unit (s := S32768x128) ![0, 0] S32768x128.size inb_S32768x128_S32768x128_0_0).emb y a).val = (y a).val
  rw [Rect.emb_apply]
  fin_cases a <;> simp

theorem isRow_payload1 (fI : S32x128.Idx → Elt F .i32) (r : ℕ) (hr : r < 32) (off : Fin 2 → ℕ) (e : off = ![r, 0])
    (h : ∀ a, off a + S1x128.size a ≤ S32x128.size a) (hs : ∀ a, (Rect.unit (s := S32x128) off S1x128.size h).stride a = 1)
    (hn : S128.numel = S128x128.size (gathers_S32768x128_S128x128).axis')
    (hin' : ∀ x, (View.read (Elt F) (((s0W).slice (Rect.unit (s := S32x128) off S1x128.size h) hs).squeeze S128 squeezes_S1x128_S128).view fI x).toNat
      < S32768x128.size (gathers_S32768x128_S128x128).axis) :
    IsRow Tc fI r (SparseCore.gatherPayload gathers_S32768x128_S128x128 ((tSl1).view.read (Elt F) Tc)
      (SparseCore.rows (View.read (Elt F) (((s0W).slice (Rect.unit (s := S32x128) off S1x128.size h) hs).squeeze S128 squeezes_S1x128_S128).view fI) hn hin')) := by
  subst e
  intro x
  have hz : (S128.rowMajor.symm ((x (gathers_S32768x128_S128x128).axis').cast hn.symm)) 0 = x 0 := by
    apply Fin.ext
    rw [← Shape.rowMajor_val_one (d := ![128]) (S128.rowMajor.symm ((x (gathers_S32768x128_S128x128).axis').cast hn.symm))]
    show ((S128.rowMajor (S128.rowMajor.symm ((x (gathers_S32768x128_S128x128).axis').cast hn.symm))) : ℕ) = _
    rw [Equiv.apply_symm_apply]
    rfl
  have hword : View.read (Elt F) (((s0W).slice (Rect.unit (s := S32x128) ![r, 0] S1x128.size h) hs).squeeze S128 squeezes_S1x128_S128).view fI
        (S128.rowMajor.symm ((x (gathers_S32768x128_S128x128).axis').cast hn.symm))
      = fI (ix2 (n := 32) (m := 128) ⟨r, hr⟩ (x 0)) := by
    rw [(View.read_apply _ _).trans (cast_eq _ _), offs_emb1 r hr, hz]
  have hlt : (fI (ix2 (n := 32) (m := 128) ⟨r, hr⟩ (x 0))).toNat < 32768 := hword ▸ hin' _
  have er : (⟨r % 32, Nat.mod_lt _ (by decide)⟩ : Fin 32) = ⟨r, hr⟩ := Fin.ext (Nat.mod_eq_of_lt hr)
  have e2 : fI (ix2 (n := 32) (m := 128) ⟨r % 32, Nat.mod_lt _ (by decide)⟩ (x 0)) = fI (ix2 (n := 32) (m := 128) ⟨r, hr⟩ (x 0)) :=
    congrArg (fun t : Fin 32 => fI (ix2 (n := 32) (m := 128) t (x 0))) er
  unfold SparseCore.gatherPayload
  rw [tSl_read1]
  congr 1
  funext a
  fin_cases a
  · apply Fin.ext
    have h0 : Shape.Gathers.idx gathers_S32768x128_S128x128
        (SparseCore.rows (View.read (Elt F) (((s0W).slice (Rect.unit (s := S32x128) ![r, 0] S1x128.size h) hs).squeeze S128 squeezes_S1x128_S128).view fI) hn hin') x
        (gathers_S32768x128_S128x128).axis = _ := Shape.Gathers.idx_axis _ _ _
    show (Shape.Gathers.idx gathers_S32768x128_S128x128 _ x (gathers_S32768x128_S128x128).axis).val
      = (fI (ix2 (n := 32) (m := 128) ⟨r % 32, Nat.mod_lt _ (by decide)⟩ (x 0))).toNat % 32768
    rw [h0, e2, Nat.mod_eq_of_lt hlt]
    show (View.read (Elt F) (((s0W).slice (Rect.unit (s := S32x128) ![r, 0] S1x128.size h) hs).squeeze S128 squeezes_S1x128_S128).view fI
        (S128.rowMajor.symm ((x (gathers_S32768x128_S128x128).axis').cast hn.symm))).toNat = (fI (ix2 (n := 32) (m := 128) ⟨r, hr⟩ (x 0))).toNat
    rw [hword]
  · apply Fin.ext
    exact Shape.Gathers.idx_of_ne gathers_S32768x128_S128x128 _ x 1 (by decide)

end Val1

section ValB1
variable (d : Dev nD) (L : grid1.Coords)
variable (Tc : S32768x128.Idx → Elt F .f32) (Ic : S1024x128.Idx → Elt F .i32)

theorem isRow_A1 (fI : S32x128.Idx → Elt F .i32) (g : Buf (Elt F) (s1Loc1 d L)) (r : ℕ) (hr : r < 32) (off : Fin 2 → ℕ) (e : off = ![r, 0])
    (h : ∀ a, off a + S1x128.size a ≤ S32x128.size a) (hs : ∀ a, (Rect.unit (s := S32x128) off S1x128.size h).stride a = 1)
    (hn : S128.numel = S128x128.size (gathers_S32768x128_S128x128).axis')
    (hin' : ∀ x, (View.read (Elt F) (((s0W).slice (Rect.unit (s := S32x128) off S1x128.size h) hs).squeeze S128 squeezes_S1x128_S128).view fI x).toNat
      < S32768x128.size (gathers_S32768x128_S128x128).axis) :
    IsRow Tc fI r ((s1W).view.writes (Elt F) g [⟨Rect.whole cc1_scratch1.ty.shape, SparseCore.gatherPayload gathers_S32768x128_S128x128 ((tSl1).view.read (Elt F) Tc)
      (SparseCore.rows (View.read (Elt F) (((s0W).slice (Rect.unit (s := S32x128) off S1x128.size h) hs).squeeze S128 squeezes_S1x128_S128).view fI) hn hin')⟩]) := by
  have := writes_whole_fn (F := F) cc1_scratch1 g (SparseCore.gatherPayload gathers_S32768x128_S128x128 ((tSl1).view.read (Elt F) Tc)
      (SparseCore.rows (View.read (Elt F) (((s0W).slice (Rect.unit (s := S32x128) off S1x128.size h) hs).squeeze S128 squeezes_S1x128_S128).view fI) hn hin'))
  show IsRow Tc fI r ((View.whole cc1_scratch1).writes (Elt F) g [⟨Rect.whole cc1_scratch1.ty.shape, _⟩])
  rw [this]
  exact isRow_payload1 Tc fI r hr off e h hs hn hin'
theorem isRow_B1 (fI : S32x128.Idx → Elt F .i32) (g : Buf (Elt F) (s2Loc1 d L)) (r : ℕ) (hr : r < 32) (off : Fin 2 → ℕ) (e : off = ![r, 0])
    (h : ∀ a, off a + S1x128.size a ≤ S32x128.size a) (hs : ∀ a, (Rect.unit (s := S32x128) off S1x128.size h).stride a = 1)
    (hn : S128.numel = S128x128.size (gathers_S32768x128_S128x128).axis')
    (hin' : ∀ x, (View.read (Elt F) (((s0W).slice (Rect.unit (s := S32x128) off S1x128.size h) hs).squeeze S128 squeezes_S1x128_S128).view fI x).toNat
      < S32768x128.size (gathers_S32768x128_S128x128).axis) :
    IsRow Tc fI r ((s2W).view.writes (Elt F) g [⟨Rect.whole cc1_scratch2.ty.shape, SparseCore.gatherPayload gathers_S32768x128_S128x128 ((tSl1).view.read (Elt F) Tc)
      (SparseCore.rows (View.read (Elt F) (((s0W).slice (Rect.unit (s := S32x128) off S1x128.size h) hs).squeeze S128 squeezes_S1x128_S128).view fI) hn hin')⟩]) := by
  have := writes_whole_fn (F := F) cc1_scratch2 g (SparseCore.gatherPayload gathers_S32768x128_S128x128 ((tSl1).view.read (Elt F) Tc)
      (SparseCore.rows (View.read (Elt F) (((s0W).slice (Rect.unit (s := S32x128) off S1x128.size h) hs).squeeze S128 squeezes_S1x128_S128).view fI) hn hin'))
  show IsRow Tc fI r ((View.whole cc1_scratch2).writes (Elt F) g [⟨Rect.whole cc1_scratch2.ty.shape, _⟩])
  rw [this]
  exact isRow_payload1 Tc fI r hr off e h hs hn hin'

theorem fIof_apply1 (r : Fin 32) (c : Fin 128) :
    fIof1 L Ic (ix2 (n := 32) (m := 128) r c) = Ic (ix2 (n := 1024) (m := 128) ⟨32 * (wL1 L).val + r.val, by omega⟩ c) := by
  unfold fIof1
  congr 1
  funext a
  apply Fin.ext
  show ((Rect.unit (s := S1024x128) (k1_off1 L) S32x128.size (k1_off1_inb L)).emb (ix2 (n := 32) (m := 128) r c) a).val = _
  rw [Rect.emb_apply, Rect.off_unit, Rect.stride_unit]
  have hoff := congrFun (k1_off1_eq L) a
  have hwv : (wL1 L).val = 2 * (L 1).val + (L 0).val := rfl
  fin_cases a
  · show k1_off1 L 0 + 1 * r.val = 32 * (wL1 L).val + r.val
    rw [show k1_off1 L 0 = 64 * (L 1).val + 32 * (L 0).val from hoff, hwv]
    omega
  · show k1_off1 L 1 + 1 * c.val = c.val
    rw [show k1_off1 L 1 = 0 from hoff]
    omega

theorem blk_val1 (fo : Buf (Elt F) (oLoc1 d)) (w : S128x128.Idx → Elt F .f32) (r : Fin 32) (hw : IsRow Tc (fIof1 L Ic) r.val w)
    (off : Fin 2 → ℕ) (e : off = ![128 * (32 * (wL1 L).val + r.val), 0]) (hinb : ∀ a, off a + S128x128.size a ≤ S131072x128.size a) :
    ∀ i ∈ ((oW).slice (Rect.unit (s := S131072x128) off S128x128.size hinb) (fun _ => rfl)).view.set,
      ((oW).slice (Rect.unit (s := S131072x128) off S128x128.size hinb) (fun _ => rfl)).view.writes (Elt F) fo [⟨Rect.whole S128x128, w⟩] i
        = gatherRows Tc Ic i := by
  subst e
  have key : ∀ x : S128x128.Idx,
      ((oW).slice (Rect.unit (s := S131072x128) ![128 * (32 * (wL1 L).val + r.val), 0] S128x128.size hinb) (fun _ => rfl)).view.writes (Elt F) fo [⟨Rect.whole S128x128, w⟩]
          (((oW).slice (Rect.unit (s := S131072x128) ![128 * (32 * (wL1 L).val + r.val), 0] S128x128.size hinb) (fun _ => rfl)).view.emb x)
        = gatherRows Tc Ic (((oW).slice (Rect.unit (s := S131072x128) ![128 * (32 * (wL1 L).val + r.val), 0] S128x128.size hinb) (fun _ => rfl)).view.emb x) := by
    intro x
    have hrd := congrFun (View.read_writes_whole ((oW).slice (Rect.unit (s := S131072x128) ![128 * (32 * (wL1 L).val + r.val), 0] S128x128.size hinb) (fun _ => rfl)).view fo w) x
    rw [(View.read_apply _ _).trans (cast_eq _ _)] at hrd
    refine Eq.trans hrd ?_
    rw [hw x]
    have h0 : ((((oW).slice (Rect.unit (s := S131072x128) ![128 * (32 * (wL1 L).val + r.val), 0] S128x128.size hinb) (fun _ => rfl)).view.emb x) 0).val
        = 128 * (32 * (wL1 L).val + r.val) + (x 0).val := by
      show ((Rect.unit (s := S131072x128) ![128 * (32 * (wL1 L).val + r.val), 0] S128x128.size hinb).emb x 0).val = _
      rw [Rect.emb_apply, Rect.off_unit, Rect.stride_unit]; simp
    have h1 : ((((oW).slice (Rect.unit (s := S131072x128) ![128 * (32 * (wL1 L).val + r.val), 0] S128x128.size hinb) (fun _ => rfl)).view.emb x) 1).val = (x 1).val := by
      show ((Rect.unit (s := S131072x128) ![128 * (32 * (wL1 L).val + r.val), 0] S128x128.size hinb).emb x 1).val = _
      rw [Rect.emb_apply, Rect.off_unit, Rect.stride_unit]; simp
    have hx0 := (x 0).isLt
    have er : (⟨r.val % 32, Nat.mod_lt _ (by decide)⟩ : Fin 32) = r := Fin.ext (Nat.mod_eq_of_lt r.isLt)
    have e2 : fIof1 L Ic (ix2 (n := 32) (m := 128) ⟨r.val % 32, Nat.mod_lt _ (by decide)⟩ (x 0)) = fIof1 L Ic (ix2 (n := 32) (m := 128) r (x 0)) :=
      congrArg (fun t : Fin 32 => fIof1 L Ic (ix2 (n := 32) (m := 128) t (x 0))) er
    unfold gatherRows
    congr 1
    funext a
    fin_cases a
    · apply Fin.ext
      show (fIof1 L Ic (ix2 (n := 32) (m := 128) ⟨r.val % 32, Nat.mod_lt _ (by decide)⟩ (x 0))).toNat % 32768 = (Ic (ix2 (n := 1024) (m := 128) _ _)).toNat % 32768
      have hf := fIof_apply1 L Ic r (x 0)
      rw [e2, hf]
      congr 3
      funext b
      fin_cases b
      · apply Fin.ext
        show 32 * (wL1 L).val + r.val = _ / 128
        rw [h0]
        have hx0' : (x 0).val < 128 := (x 0).isLt
        clear hx0 e2 er
        omega
      · apply Fin.ext
        show (x 0).val = _ % 128
        rw [h0]
        have hx0' : (x 0).val < 128 := (x 0).isLt
        clear hx0 e2 er
        omega
    · apply Fin.ext
      exact h1.symm
  intro i hi
  obtain ⟨x, -, rfl⟩ := Finset.mem_map.mp hi
  exact key x

end ValB1

section Res1
variable (d : Dev nD) (L : grid1.Coords)

abbrev cellA1 : GSem nD τ sig := (thr1 d L, SemLoc.dma cc1_scratch3.sem)
abbrev cellB1 : GSem nD τ sig := (thr1 d L, SemLoc.dma cc1_scratch4.sem)
abbrev cell0_1 : GSem nD τ sig := (thr1 d L, SemLoc.dma cc1_scoped0.sem)
abbrev cell1_1 : GSem nD τ sig := (thr1 d L, SemLoc.dma cc1_scoped1.sem)
abbrev cell2_1 : GSem nD τ sig := (thr1 d L, SemLoc.dma cc1_scoped2.sem)

theorem cell_mem1 (sm : DmaSem sig) (h : (SemLoc.dma sm : SemLoc sig).isScoped .scVector = true) :
    ((thr1 d L, SemLoc.dma sm) : GSem nD τ sig) ∈ ownCells (sig := sig) (thr1 d L) :=
  (mem_ownCells (g := (thr1 d L, SemLoc.dma sm))).mpr ⟨rfl, h⟩
theorem cell_ne1 {sm sm' : DmaSem sig} (h : (SemLoc.dma sm : SemLoc sig) ≠ SemLoc.dma sm') :
    ((thr1 d L, SemLoc.dma sm) : GSem nD τ sig) ≠ (thr1 d L, SemLoc.dma sm') :=
  fun e => h (Prod.mk.inj e).2

theorem ownSems0_V1 :
    (ownSems0 (thr1 d L) : sProp 𝕄)
      = iprop(semVal (cellA1 d L) 0 ∗ semVal (cellB1 d L) 0 ∗ semVal (cell0_1 d L) 0 ∗ semVal (cell1_1 d L) 0 ∗ semVal (cell2_1 d L) 0
          ∗ bigSep ((((((ownCells (thr1 d L)).erase (cellA1 d L)).erase (cellB1 d L)).erase (cell0_1 d L)).erase (cell1_1 d L)).erase (cell2_1 d L))
              fun g => semVal g 0) := by
  unfold SparseCore.Cfg.ownSems0
  have mA := cell_mem1 d L cc1_scratch3.sem (by decide)
  have mB := cell_mem1 d L cc1_scratch4.sem (by decide)
  have m0 := cell_mem1 d L cc1_scoped0.sem (by decide)
  have m1 := cell_mem1 d L cc1_scoped1.sem (by decide)
  have m2 := cell_mem1 d L cc1_scoped2.sem (by decide)
  have nBA := cell_ne1 d L (sm := cc1_scratch4.sem) (sm' := cc1_scratch3.sem) (by decide)
  have n0A := cell_ne1 d L (sm := cc1_scoped0.sem) (sm' := cc1_scratch3.sem) (by decide)
  have n0B := cell_ne1 d L (sm := cc1_scoped0.sem) (sm' := cc1_scratch4.sem) (by decide)
  have n1A := cell_ne1 d L (sm := cc1_scoped1.sem) (sm' := cc1_scratch3.sem) (by decide)
  have n1B := cell_ne1 d L (sm := cc1_scoped1.sem) (sm' := cc1_scratch4.sem) (by decide)
  have n10 := cell_ne1 d L (sm := cc1_scoped1.sem) (sm' := cc1_scoped0.sem) (by decide)
  have n2A := cell_ne1 d L (sm := cc1_scoped2.sem) (sm' := cc1_scratch3.sem) (by decide)
  have n2B := cell_ne1 d L (sm := cc1_scoped2.sem) (sm' := cc1_scratch4.sem) (by decide)
  have n20 := cell_ne1 d L (sm := cc1_scoped2.sem) (sm' := cc1_scoped0.sem) (by decide)
  have n21 := cell_ne1 d L (sm := cc1_scoped2.sem) (sm' := cc1_scoped1.sem) (by decide)
  rw [SparseCore.bigSep_erase' mA,
    SparseCore.bigSep_erase' (Finset.mem_erase.mpr ⟨nBA, mB⟩),
    SparseCore.bigSep_erase' (Finset.mem_erase.mpr ⟨n0B, Finset.mem_erase.mpr ⟨n0A, m0⟩⟩),
    SparseCore.bigSep_erase' (Finset.mem_erase.mpr ⟨n10, Finset.mem_erase.mpr ⟨n1B, Finset.mem_erase.mpr ⟨n1A, m1⟩⟩⟩),
    SparseCore.bigSep_erase' (Finset.mem_erase.mpr ⟨n21, Finset.mem_erase.mpr ⟨n20, Finset.mem_erase.mpr ⟨n2B, Finset.mem_erase.mpr ⟨n2A, m2⟩⟩⟩⟩)]

theorem ref_mem1 (b : Ref sig .scVector) (h : ((Proc.scVector (cV1 L) (jV1 L)).devRef b).owner = .proc (Proc.scVector (cV1 L) (jV1 L))) :
    (Proc.scVector (cV1 L) (jV1 L)).devRef b ∈ ownRefs (τ := τ) (sig := sig) (.scVector (cV1 L) (jV1 L)) :=
  SparseCore.Cfg.mem_ownRefs_of_owner (p := Proc.scVector (cV1 L) (jV1 L)) h
theorem ref_ne1 {b b' : Ref sig .scVector} (h : b ≠ b') :
    (Proc.scVector (cV1 L) (jV1 L)).devRef b ≠ (Proc.scVector (cV1 L) (jV1 L)).devRef b' :=
  fun e => h (Proc.devRef_injective _ e)

theorem ownBufs_V1 :
    (ownBufs (thr1 d L) : sProp 𝕄)
      = iprop((∃ f, s0Loc1 d L ↦{fullShare} f) ∗ (∃ f, s1Loc1 d L ↦{fullShare} f) ∗ (∃ f, s2Loc1 d L ↦{fullShare} f)
          ∗ bigSep ((((ownRefs (τ := τ) (.scVector (cV1 L) (jV1 L))).erase ((Proc.scVector (cV1 L) (jV1 L)).devRef cc1_scratch0)).erase
              ((Proc.scVector (cV1 L) (jV1 L)).devRef cc1_scratch1)).erase ((Proc.scVector (cV1 L) (jV1 L)).devRef cc1_scratch2))
              fun b => iprop(∃ f, ((d, b) : Loc nD τ sig) ↦{fullShare} f)) := by
  unfold SparseCore.Cfg.ownBufs
  refine (SparseCore.bigSep_erase' (ref_mem1 L cc1_scratch0 rfl)).trans ?_
  rw [SparseCore.bigSep_erase' (Finset.mem_erase.mpr ⟨ref_ne1 L (by decide), ref_mem1 L cc1_scratch1 rfl⟩),
    SparseCore.bigSep_erase' (Finset.mem_erase.mpr ⟨ref_ne1 L (by decide), Finset.mem_erase.mpr ⟨ref_ne1 L (by decide), ref_mem1 L cc1_scratch2 rfl⟩⟩)]

end Res1

section Out1
variable (d : Dev nD) (L : grid1.Coords)
variable (Tc : S32768x128.Idx → Elt F .f32) (Ic : S1024x128.Idx → Elt F .i32)

def outPt1 (k : ℕ) (j : Fin 32) : sProp 𝕄 :=
  if j.val < 2 * k then (oLoc1 d ↦[outBlk (blkOf (wL1 L) j)]{fullShare} gatherRows Tc Ic)
  else iprop(∃ f, oLoc1 d ↦[outBlk (blkOf (wL1 L) j)]{fullShare} f)

theorem jB_ne_jA1 (k : Fin k1_t1_loop.trips) : jB1 k ≠ jA1 k := fun e => by
  have := congrArg Fin.val e; simp [jA1, jB1] at this

theorem out_split1 (k : Fin k1_t1_loop.trips) :
    (bigSep Finset.univ fun j : Fin 32 => outPt1 d L Tc Ic k.val j)
      = (iprop((∃ f, oLoc1 d ↦[outBlk (blkOf (wL1 L) (jA1 k))]{fullShare} f) ∗ (∃ f, oLoc1 d ↦[outBlk (blkOf (wL1 L) (jB1 k))]{fullShare} f)
          ∗ bigSep (((Finset.univ : Finset (Fin 32)).erase (jA1 k)).erase (jB1 k)) fun j => outPt1 d L Tc Ic k.val j) : sProp 𝕄) := by
  rw [SparseCore.bigSep_erase' (Finset.mem_univ (jA1 k)),
    SparseCore.bigSep_erase' (Finset.mem_erase.mpr ⟨jB_ne_jA1 k, Finset.mem_univ (jB1 k)⟩)]
  have hA : outPt1 d L Tc Ic k.val (jA1 k) = iprop(∃ f, oLoc1 d ↦[outBlk (blkOf (wL1 L) (jA1 k))]{fullShare} f) :=
    if_neg (by simp [jA1])
  have hB : outPt1 d L Tc Ic k.val (jB1 k) = iprop(∃ f, oLoc1 d ↦[outBlk (blkOf (wL1 L) (jB1 k))]{fullShare} f) :=
    if_neg (by simp [jB1])
  rw [hA, hB]

theorem out_join1 (k : Fin k1_t1_loop.trips) :
    (iprop((oLoc1 d ↦[outBlk (blkOf (wL1 L) (jA1 k))]{fullShare} gatherRows Tc Ic) ∗ (oLoc1 d ↦[outBlk (blkOf (wL1 L) (jB1 k))]{fullShare} gatherRows Tc Ic)
          ∗ bigSep (((Finset.univ : Finset (Fin 32)).erase (jA1 k)).erase (jB1 k)) fun j => outPt1 d L Tc Ic k.val j) : sProp 𝕄)
      = bigSep Finset.univ fun j : Fin 32 => outPt1 d L Tc Ic (k.val + 1) j := by
  rw [SparseCore.bigSep_erase' (s := (Finset.univ : Finset (Fin 32))) (Finset.mem_univ (jA1 k)),
    SparseCore.bigSep_erase' (Finset.mem_erase.mpr ⟨jB_ne_jA1 k, Finset.mem_univ (jB1 k)⟩)]
  have hA : outPt1 d L Tc Ic (k.val + 1) (jA1 k) = (oLoc1 d ↦[outBlk (blkOf (wL1 L) (jA1 k))]{fullShare} gatherRows Tc Ic) :=
    if_pos (by simp [jA1] <;> omega)
  have hB : outPt1 d L Tc Ic (k.val + 1) (jB1 k) = (oLoc1 d ↦[outBlk (blkOf (wL1 L) (jB1 k))]{fullShare} gatherRows Tc Ic) :=
    if_pos (by simp [jB1] <;> omega)
  rw [hA, hB]
  congr 2
  refine bigSep_congr fun j hj => ?_
  have h1 : j ≠ jB1 k := (Finset.mem_erase.mp hj).1
  have h2 : j ≠ jA1 k := (Finset.mem_erase.mp (Finset.mem_erase.mp hj).2).1
  have h1' : j.val ≠ 2 * k.val + 1 := fun e => h1 (Fin.ext e)
  have h2' : j.val ≠ 2 * k.val := fun e => h2 (Fin.ext e)
  unfold outPt1
  by_cases hlt : j.val < 2 * k.val
  · rw [if_pos hlt, if_pos (by omega)]
  · rw [if_neg hlt, if_neg (by omega)]

theorem out_first1 :
    (bigSep Finset.univ fun j : Fin 32 => iprop(∃ f, oLoc1 d ↦[outBlk (blkOf (wL1 L) j)]{fullShare} f) : sProp 𝕄)
      = bigSep Finset.univ fun j : Fin 32 => outPt1 d L Tc Ic 0 j :=
  bigSep_congr fun j _ => (if_neg (by omega)).symm
theorem out_last1 :
    (bigSep Finset.univ fun j : Fin 32 => outPt1 d L Tc Ic 16 j : sProp 𝕄)
      = bigSep Finset.univ fun j : Fin 32 => oLoc1 d ↦[outBlk (blkOf (wL1 L) j)]{fullShare} gatherRows Tc Ic :=
  bigSep_congr fun j _ => if_pos (by have := j.isLt; omega)

theorem cond_iff1 : ∀ k : Fin k1_t1_loop.trips, k1_cond1 k = 1#1 ↔ k.val < 15 := by decide
theorem trips_eq1 : k1_t1_loop.trips = 16 := by decide

end Out1

section Body1
variable [FloatOps F] (d : Dev nD) (L : grid1.Coords)
variable (Tc : S32768x128.Idx → Elt F .f32) (Ic : S1024x128.Idx → Elt F .i32)

omit [FloatOps F] in
theorem pts_s1set1 (q : PosShare TreeShare) (f : Buf (Elt F) (s1Loc1 d L)) :
    (((s1W).view.loc (thr1 d L) ↦[(s1W).view.set]{q} f : sProp 𝕄)) = s1Loc1 d L ↦{q} f := by
  simp only [Memref.view_whole, View.set_whole]
omit [FloatOps F] in
theorem pts_offs1 (r : ℕ) (hr : r < 32) (off : Fin 2 → ℕ) (e : off = ![r, 0]) (h : ∀ a, off a + S1x128.size a ≤ S32x128.size a)
    (hs : ∀ a, (Rect.unit (s := S32x128) off S1x128.size h).stride a = 1) (q : PosShare TreeShare) (f : Buf (Elt F) (s0Loc1 d L)) :
    (((s0W).view.loc (thr1 d L) ↦[(((s0W).slice (Rect.unit (s := S32x128) off S1x128.size h) hs).squeeze S128 squeezes_S1x128_S128).view.set]{q} f : sProp 𝕄))
      = s0Loc1 d L ↦[rowSetN r]{q} f := by
  subst e; rw [offs_set1 r hr h hs]
omit [FloatOps F] in
theorem rest_offs1 (r : ℕ) (hr : r < 32) (off : Fin 2 → ℕ) (e : off = ![r, 0]) (h : ∀ a, off a + S1x128.size a ≤ S32x128.size a)
    (hs : ∀ a, (Rect.unit (s := S32x128) off S1x128.size h).stride a = 1) (q : PosShare TreeShare) (f : Buf (Elt F) (s0Loc1 d L)) :
    (((s0W).view.loc (thr1 d L) ↦[Finset.univ \ (((s0W).slice (Rect.unit (s := S32x128) off S1x128.size h) hs).squeeze S128 squeezes_S1x128_S128).view.set]{q} f : sProp 𝕄))
      = s0Loc1 d L ↦[Finset.univ \ rowSetN r]{q} f := by
  subst e; rw [offs_set1 r hr h hs]

omit [FloatOps F] in
theorem flight_conv1 (qT : PosShare TreeShare) (fI : S32x128.Idx → Elt F .i32) (g : S128x128.Idx → Elt F .f32) (r : ℕ) (hr : r < 32)
    (hg : IsRow Tc fI r g)
    (off : Fin 2 → ℕ) (e : off = ![r, 0]) (h : ∀ a, off a + S1x128.size a ≤ S32x128.size a)
    (hs : ∀ a, (Rect.unit (s := S32x128) off S1x128.size h).stride a = 1) :
    (iprop((((s1W).view.loc (thr1 d L) ↦[(s1W).view.set]{fullShare} g)
            ∗ ((s0W).view.loc (thr1 d L) ↦[(((s0W).slice (Rect.unit (s := S32x128) off S1x128.size h) hs).squeeze S128 squeezes_S1x128_S128).view.set]{hA} fI))
          ∗ ((tW).view.loc (thr1 d L) ↦[(tSl1).view.set]{qT.left} Tc)) : sProp 𝕄)
      ⊢ iprop(DAx1 d L Tc fI r ∗ ((tW).view.loc (thr1 d L) ↦[(tSl1).view.set]{qT.left} Tc)) := by
  iintro ⟨⟨Hd, Ho⟩, Ht⟩
  isplitr [Ht]
  · unfold DAx1
    iexists g
    isplitr
    · ipureintro; exact hg
    isplitl [Hd]
    · iapply (Entails.of_eq (pts_s1set1 (F := F) d L _ _)); iexact Hd
    · iapply (Entails.of_eq (pts_offs1 (F := F) d L r hr off e h hs _ _)); iexact Ho
  · iexact Ht

def flA1 (qT : PosShare TreeShare) (k : ℕ) : sProp 𝕄 :=
  iprop(Transfers.Flight countersEmb (thr1 d L) (SemLoc.dma cc1_scratch3.sem) (default : HIx 2) 524288
          iprop(DAx1 d L Tc (fIof1 L Ic) (2 * k) ∗ ((tW).view.loc (thr1 d L) ↦[(tSl1).view.set]{qT.left} Tc))
        ∗ ((tW).view.loc (thr1 d L) ↦[Finset.univ \ (tSl1).view.set]{qT.left} Tc)
        ∗ (s0Loc1 d L ↦[Finset.univ \ rowSetN (2 * k)]{hA} (fIof1 L Ic)))
def noFl1 (qT : PosShare TreeShare) : sProp 𝕄 :=
  iprop(((tW).view.loc (thr1 d L) ↦{qT.left} Tc) ∗ ((s0W).view.loc (thr1 d L) ↦{hA} (fIof1 L Ic))
    ∗ (∃ g, (s1W).view.loc (thr1 d L) ↦{fullShare} g) ∗ semVal (thr1 d L, SemLoc.dma cc1_scratch3.sem) 0)
def inv1 (qT : PosShare TreeShare) (O : CellTallies nD τ sig (HIx 2)) (W : Waits sig (HIx 2)) (k : ℕ) (_ : PUnit) : sProp 𝕄 :=
  iprop(Transfers.MayWaits (thr1 d L) (none : HIx 2) O
    ∗ ((tW).view.loc (thr1 d L) ↦{qT.right} Tc) ∗ ((s0W).view.loc (thr1 d L) ↦{hB} (fIof1 L Ic))
    ∗ (if k < 16 then flA1 d L Tc Ic qT k else noFl1 d L Tc Ic qT)
    ∗ (∃ g, (s2W).view.loc (thr1 d L) ↦{fullShare} g)
    ∗ semVal (thr1 d L, SemLoc.dma cc1_scratch4.sem) 0
    ∗ semVal (thr1 d L, SemLoc.dma cc1_scoped1.sem) 0 ∗ semVal (thr1 d L, SemLoc.dma cc1_scoped2.sem) 0
    ∗ (bigSep Finset.univ fun j : Fin 32 => outPt1 d L Tc Ic k j)
    ∗ ∃ W', ⌜∀ p ∈ W', p ∈ W ∨ p.2 = none⌝ ∗ owes (thr1 d L) O W')

end Body1

section Main1
variable [FloatOps F] (d : Dev nD) (L : grid1.Coords)
variable (Tc : S32768x128.Idx → Elt F .f32) (Ic : S1024x128.Idx → Elt F .i32)

omit [FloatOps F] in
theorem off5_eq1 (k : Fin k1_t1_loop.trips) : k1_off5 k = ![2 * (k.val + 1), 0] :=
  (k1_off5_eq k).trans (congrArg (fun t : ℕ => (![t, 0] : Fin 2 → ℕ)) (by omega))
omit [FloatOps F] in
theorem offA_eq1 (k : Fin k1_t1_loop.trips) : k1_off4 L k = ![128 * (32 * (wL1 L).val + (jA1 k).val), 0] :=
  (k1_off4_eq L k).trans (congrArg (fun t : ℕ => (![t, 0] : Fin 2 → ℕ)) (by
    show _ = 128 * (32 * (2 * (L 1).val + (L 0).val) + 2 * k.val); omega))
omit [FloatOps F] in
theorem offB_eq1 (k : Fin k1_t1_loop.trips) : k1_off6 L k = ![128 * (32 * (wL1 L).val + (jB1 k).val), 0] :=
  (k1_off6_eq L k).trans (congrArg (fun t : ℕ => (![t, 0] : Fin 2 → ℕ)) (by
    show _ = 128 * (32 * (2 * (L 1).val + (L 0).val) + (2 * k.val + 1)); omega))

set_option maxHeartbeats 4000000 in
theorem tile_body1 (hF : (K (F := F)).Facts) (hidx : ∀ x, (Ic x).toNat < 32768)
    (O : CellTallies nD τ sig (HIx 2)) (W : Waits sig (HIx 2)) (hO : ∀ g, O g none = 0) :
    iprop(levAts (K (F := F)).L (K (F := F)).lev ∗ emp ∗ tileIn1 Tc Ic d (cL1 L) (sL1 L)
        ∗ scopedBufs (thr1 d L) ∗ scopedSems0 (thr1 d L) ∗ owes (thr1 d L) O W)
      ⊢ wp frame (wpE (defs₀ (F := F)) 𝒱₀ (thr1 d L) none) Set.univ
          (cc1_gather L tW (Memref.isWhole_whole _) iW (Memref.isWhole_whole _) oW (Memref.isWhole_whole _)
            s0W (Memref.isWhole_whole _) s1W (Memref.isWhole_whole _) s2W (Memref.isWhole_whole _) cc1_scratch3 cc1_scratch4 cc1_scoped0 cc1_scoped1 cc1_scoped2)
          fun _ => iprop(tileOut1 Tc Ic d (cL1 L) (sL1 L) ∗ scopedBufs (thr1 d L) ∗ scopedSems0 (thr1 d L)
            ∗ ∃ W', ⌜∀ p ∈ W', p ∈ W ∨ p.2 = none⌝ ∗ owes (thr1 d L) O W') := by
  have hin := hin1 (F := F) L Ic hidx
  simp only [cc1_gather_eq_skeleton]; unfold cc1_gather_skel
  rw [(K (F := F)).scopedBufs_V hF d (cV1 L) (jV1 L), SparseCore.Cfg.scopedSems0_V (Val := Elt F) d (cV1 L) (jV1 L), ownSems0_V1, ownBufs_V1]
  unfold tileIn1
  iintro ⟨#Hlv, -, ⟨Ht, Hi, Hout⟩, ⟨⟨%f0, Hs0⟩, ⟨%f1, Hs1⟩, ⟨%f2, Hs2⟩, Hbufs⟩, ⟨HsA, HsB, Hc0, Hc1, Hc2, Hsems⟩, HO⟩
  ihave Hmw := ((K (F := F)).mayWaits_none (thr := thr1 d L) hO) $$ Hlv
  ihave Ht2 := (pointsTo_share (PosShare.mem_left_op_right (qTile (cL1 L) (sL1 L)))).1 $$ Ht
  icases Ht2 with ⟨HtA, HtB⟩
  ihave HtA' := (Entails.of_eq (pts_t1 (F := F) d L _ _).symm) $$ HtA
  ihave Hi' := (Entails.of_eq (pts_i1 (F := F) d L _).symm) $$ Hi
  ihave Hs0' := (Entails.of_eq (pts_s0_1 (F := F) d L _ _).symm) $$ Hs0
  ihave Hs1' := (Entails.of_eq (pts_s1_1 (F := F) d L _).symm) $$ Hs1
  ihave Hs2' := (Entails.of_eq (pts_s2_1 (F := F) d L _).symm) $$ Hs2
  sl_exec
  generalize hfI : View.write (Elt F) (s0W).view f0 _ Finset.univ = fI
  have hfI' : fI = fIof1 L Ic := hfI.symm.trans (fI_after1 d L Ic f0)
  subst hfI'
  ihave Ho2 := (pointsTo_share (PosShare.mem_left_op_right (fullShare : PosShare TreeShare))).1 $$ Hs0'
  icases Ho2 with ⟨HoA, HoB⟩
  ihave HoB0 := (Entails.of_eq (pts_s0_1 (F := F) d L _ _)) $$ HoB
  sl_exec
  ihave HtB' := (Entails.of_eq (pts_t1 (F := F) d L _ _).symm) $$ HtB
  ihave HoB' := (Entails.of_eq (pts_s0_1 (F := F) d L _ _).symm) $$ HoB0
  generalize hp0 : (s1W).view.writes (Elt F) f1 [_] = g0
  have hg0 : IsRow Tc (fIof1 L Ic) 0 g0 := by
    rw [← hp0]
    exact isRow_A1 d L Tc (fIof1 L Ic) f1 0 (by decide) ![0, 0] rfl inb_S32x128_S1x128_0_0 (fun _ => rfl) rfl (hin _ _ _)
  ihave FlA := (Transfers.Flight_mono countersEmb (thr1 d L)
    (flight_conv1 (F := F) d L Tc (qTile (cL1 L) (sL1 L)) (fIof1 L Ic) g0 0 (by decide) hg0 ![0, 0] rfl _ _)) $$ HsA
  ihave HoAr := (Entails.of_eq (rest_offs1 (F := F) d L 0 (by decide) ![0, 0] rfl _ _ _ _)) $$ HoA
  sl_for (inv1 d L Tc Ic (qTile (cL1 L) (sL1 L)) O W) $$ [Hmw HtB' HoB' FlA HtA' HoAr Hs2' HsB Hc1 Hc2 Hout HO]
  case region =>
    intro k _
    have hk16 : k.val < 16 := Nat.lt_of_lt_of_le k.isLt trips1_le
    unfold inv1
    rw [if_pos hk16]
    unfold flA1
    iintro ⟨Hmw, HtB, HoB, ⟨FlA, HtAr, HoAr⟩, ⟨%g2, Hs2⟩, HsB, Hc1, Hc2, Hout, %W', %hW', HO⟩
    ihave Hout2 := (Entails.of_eq (out_split1 d L Tc Ic k)) $$ Hout
    icases Hout2 with ⟨⟨%foA, HoutA⟩, ⟨%foB, HoutB⟩, Hrest⟩
    ihave HoutA' := (Entails.of_eq (pts_oA1 (F := F) d L k _).symm) $$ HoutA
    ihave HoutB' := (Entails.of_eq (pts_oB1 (F := F) d L k _).symm) $$ HoutB
    by_cases hc : k1_cond1 k = 1#1
    · have hk15 : k.val < 15 := (cond_iff1 k).mp hc
      sl_exec
      unfold DAx1
      icases FlA_dst with ⟨%g6, %h6, Hs1, HoAp⟩
      ihave HoA := (pointsTo_split_subset (ℓ := s0Loc1 d L) (I := rowSetN (2 * k.val)) (S := Finset.univ) (Finset.subset_univ _)).2 $$ [HoAp HoAr]
      · isplitl [HoAp] <;> iassumption
      ihave HoA' := (Entails.of_eq (pts_s0_1 (F := F) d L _ _).symm) $$ HoA
      ihave Hs1' := (Entails.of_eq (pts_s1_1 (F := F) d L _).symm) $$ Hs1
      sl_exec
      sl_step
      generalize hpA : (s1W).view.writes (Elt F) g6 [_] = g6n
      have hg6n : IsRow Tc (fIof1 L Ic) (2 * (k.val + 1)) g6n := by
        rw [← hpA]
        exact isRow_A1 d L Tc (fIof1 L Ic) g6 (2 * (k.val + 1)) (by omega) (k1_off5 k) (off5_eq1 k) (k1_off5_inb k hc) (fun _ => rfl) rfl (hin _ _ _)
      generalize hcA : (oSlA1 L k).view.writes (Elt F) foA [_] = cA
      have hcA' : ∀ i ∈ (oSlA1 L k).view.set, cA i = gatherRows Tc Ic i := by
        rw [← hcA]
        exact blk_val1 d L Tc Ic foA _ (jA1 k) (fun x => h6 x) (k1_off4 L k) (offA_eq1 L k) (k1_off4_inb L k)
      generalize hcB : (oSlB1 L k).view.writes (Elt F) foB [_] = cB
      have hcB' : ∀ i ∈ (oSlB1 L k).view.set, cB i = gatherRows Tc Ic i := by
        rw [← hcB]
        exact blk_val1 d L Tc Ic foB _ (jB1 k)
          (isRow_B1 d L Tc (fIof1 L Ic) g2 (2 * k.val + 1) (by omega) (k1_off2 k) (k1_off2_eq k) (k1_off2_inb k) (fun _ => rfl) rfl (hin _ _ _))
          (k1_off6 L k) (offB_eq1 L k) (k1_off6_inb L k)
      rw [if_pos (show k.val + 1 < 16 by omega)]
      isplitl [Hmw]; · iexact Hmw
      isplitl [HtB]; · iexact HtB
      isplitl [HoB]; · iexact HoB
      isplitl [FlA HtAr HoA']
      · isplitl [FlA]
        · iapply (Transfers.Flight_mono countersEmb (thr1 d L)
            (flight_conv1 (F := F) d L Tc (qTile (cL1 L) (sL1 L)) (fIof1 L Ic) g6n (2 * (k.val + 1)) (by omega) hg6n (k1_off5 k) (off5_eq1 k) _ _))
          iexact FlA
        isplitl [HtAr]; · iexact HtAr
        iapply (Entails.of_eq (rest_offs1 (F := F) d L (2 * (k.val + 1)) (by omega) (k1_off5 k) (off5_eq1 k) _ _ _ _)); iexact HoA'
      isplitl [Hs2]; · iexists _; iexact Hs2
      isplitl [HsB]; · iexact HsB
      isplitl [Hc1]; · iexact Hc1
      isplitl [Hc2]; · iexact Hc2
      isplitl [HoutA' HoutB' Hrest]
      · iapply (Entails.of_eq (out_join1 d L Tc Ic k))
        isplitl [HoutA']
        · iapply (Entails.of_eq ((pointsTo_congr hcA').trans (pts_oA1 (F := F) d L k _))); iexact HoutA'
        isplitl [HoutB']
        · iapply (Entails.of_eq ((pointsTo_congr hcB').trans (pts_oB1 (F := F) d L k _))); iexact HoutB'
        iexact Hrest
      iexists _; isplitr
      rotate_left
      · iexact HO
      · ipureintro; exact waits_insert (waits_insert (waits_insert (waits_insert hW' _) _) _) _
    · have hk15 : k.val = 15 := by have := (cond_iff1 k).not.mp hc; omega
      sl_exec
      unfold DAx1
      icases FlA_dst with ⟨%g6, %h6, Hs1, HoAp⟩
      ihave HoA := (pointsTo_split_subset (ℓ := s0Loc1 d L) (I := rowSetN (2 * k.val)) (S := Finset.univ) (Finset.subset_univ _)).2 $$ [HoAp HoAr]
      · isplitl [HoAp] <;> iassumption
      ihave HoA' := (Entails.of_eq (pts_s0_1 (F := F) d L _ _).symm) $$ HoA
      ihave Hs1' := (Entails.of_eq (pts_s1_1 (F := F) d L _).symm) $$ Hs1
      sl_exec
      sl_step
      generalize hcA : (oSlA1 L k).view.writes (Elt F) foA [_] = cA
      have hcA' : ∀ i ∈ (oSlA1 L k).view.set, cA i = gatherRows Tc Ic i := by
        rw [← hcA]
        exact blk_val1 d L Tc Ic foA _ (jA1 k) (fun x => h6 x) (k1_off4 L k) (offA_eq1 L k) (k1_off4_inb L k)
      generalize hcB : (oSlB1 L k).view.writes (Elt F) foB [_] = cB
      have hcB' : ∀ i ∈ (oSlB1 L k).view.set, cB i = gatherRows Tc Ic i := by
        rw [← hcB]
        exact blk_val1 d L Tc Ic foB _ (jB1 k)
          (isRow_B1 d L Tc (fIof1 L Ic) g2 (2 * k.val + 1) (by omega) (k1_off2 k) (k1_off2_eq k) (k1_off2_inb k) (fun _ => rfl) rfl (hin _ _ _))
          (k1_off6 L k) (offB_eq1 L k) (k1_off6_inb L k)
      rw [if_neg (show ¬ k.val + 1 < 16 by omega)]
      unfold noFl1
      isplitl [Hmw]; · iexact Hmw
      isplitl [HtB]; · iexact HtB
      isplitl [HoB]; · iexact HoB
      isplitl [FlA HtAr HoA' Hs1']
      · isplitl [HtAr]; · iexact HtAr
        isplitl [HoA']; · iexact HoA'
        isplitl [Hs1']; · iexists _; iexact Hs1'
        iexact FlA
      isplitl [Hs2]; · iexists _; iexact Hs2
      isplitl [HsB]; · iexact HsB
      isplitl [Hc1]; · iexact Hc1
      isplitl [Hc2]; · iexact Hc2
      isplitl [HoutA' HoutB' Hrest]
      · iapply (Entails.of_eq (out_join1 d L Tc Ic k))
        isplitl [HoutA']
        · iapply (Entails.of_eq ((pointsTo_congr hcA').trans (pts_oA1 (F := F) d L k _))); iexact HoutA'
        isplitl [HoutB']
        · iapply (Entails.of_eq ((pointsTo_congr hcB').trans (pts_oB1 (F := F) d L k _))); iexact HoutB'
        iexact Hrest
      iexists _; isplitr
      rotate_left
      · iexact HO
      · ipureintro; exact waits_insert (waits_insert (waits_insert (waits_insert hW' _) _) _) _
  · unfold inv1
    rw [if_pos (show (0 : ℕ) < 16 by decide)]
    unfold flA1
    isplitl [Hmw]; · iexact Hmw
    isplitl [HtB']; · iexact HtB'
    isplitl [HoB']; · iexact HoB'
    isplitl [FlA HtA' HoAr]
    · isplitl [FlA]; · iexact FlA
      isplitl [HtA']; · iexact HtA'
      iexact HoAr
    isplitl [Hs2']; · iexists _; iexact Hs2'
    isplitl [HsB]; · iexact HsB
    isplitl [Hc1]; · iexact Hc1
    isplitl [Hc2]; · iexact Hc2
    isplitl [Hout]; · iapply (Entails.of_eq (out_first1 d L Tc Ic)); iexact Hout
    iexists _; isplitr
    rotate_left
    · iexact HO
    · ipureintro; exact waits_insert (fun p hp => .inl hp) _
  iintro %_ HI
  unfold inv1
  have h16 : ¬ (k1_t1_loop.trips < 16) := by rw [trips_eq1]; omega
  rw [if_neg h16]
  unfold noFl1
  icases HI with ⟨-, HtB, HoB, ⟨HtA, HoA, ⟨%g1, Hs1⟩, HsA⟩, ⟨%g2, Hs2⟩, HsB, Hc1, Hc2, Hout, %W', %hW', HO⟩
  sl_exec
  sl_step
  unfold tileOut1
  isplitl [HtA HtB Hi' Hout]
  · isplitl [HtA HtB]
    · iapply (pointsTo_share (PosShare.mem_left_op_right (qTile (cL1 L) (sL1 L)))).2
      isplitl [HtA]
      · iapply (Entails.of_eq (pts_t1 (F := F) d L _ _)); iexact HtA
      · iapply (Entails.of_eq (pts_t1 (F := F) d L _ _)); iexact HtB
    isplitl [Hi']; · iapply (Entails.of_eq (pts_i1 (F := F) d L _)); iexact Hi'
    iapply (Entails.of_eq (out_last1 d L Tc Ic))
    rw [← trips_eq1]; iexact Hout
  isplitl [Hs1 Hs2 HoA HoB Hbufs]
  · isplitl [HoA HoB]
    · iexists _
      iapply (pointsTo_share (PosShare.mem_left_op_right (fullShare : PosShare TreeShare))).2
      isplitl [HoA]
      · iapply (Entails.of_eq (pts_s0_1 (F := F) d L _ _)); iexact HoA
      · iapply (Entails.of_eq (pts_s0_1 (F := F) d L _ _)); iexact HoB
    isplitl [Hs1]; · iexists _; iapply (Entails.of_eq (pts_s1_1 (F := F) d L _)); iexact Hs1
    isplitl [Hs2]; · iexists _; iapply (Entails.of_eq (pts_s2_1 (F := F) d L _)); iexact Hs2
    iexact Hbufs
  isplitl [HsA HsB Hc0 Hc1 Hc2 Hsems]
  · isplitl [HsA]; · iexact HsA
    isplitl [HsB]; · iexact HsB
    isplitl [Hc0]; · iexact Hc0
    isplitl [Hc1]; · iexact Hc1
    isplitl [Hc2]; · iexact Hc2
    iexact Hsems
  iexists W'; isplitr
  · ipureintro; exact hW'
  · iexact HO

end Main1

section Obl1
variable [FloatOps F]
variable (T1 T2 : Dev nD → S32768x128.Idx → Elt F .f32) (Ic : Dev nD → S1024x128.Idx → Elt F .i32)

def coordsV1 (c : Fin (grid1.bound 0)) (s : Fin (grid1.bound 1)) : grid1.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 1 ()
      = SparseCore.onTile hcore1 hsub1 (fun c s => cc1_gather (coordsV1 c s)
          tW (Memref.isWhole_whole _) iW (Memref.isWhole_whole _) oW (Memref.isWhole_whole _)
          s0W (Memref.isWhole_whole _) s1W (Memref.isWhole_whole _) s2W (Memref.isWhole_whole _) cc1_scratch3 cc1_scratch4 cc1_scoped0 cc1_scoped1 cc1_scoped2) ⟨⟩ c s := rfl

theorem tile1 (hidx : ∀ d x, (Ic d x).toNat < 32768) : (K (F := F)).TileObl (D (F := F)) 𝒱 (P T1 T2 Ic) v₀ 0 := by
  intro d c i O W hO _ _
  simp only [show (P T1 T2 Ic).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector1]; simp only [SparseCore.onTile, hc, and_self, ↓reduceDIte]
  exact (tile_body1 d (coordsV1 ⟨_, hc.1⟩ ⟨_, hc.2⟩) (T1 d) (Ic d) facts (hidx d) O W hO).trans (wp_mono frame _ _ fun _ => obl_post)

end Obl1

end Call1

end Cert.KernelIdeal.Sc

end
-- ==== Proof.Sc.Tile2.lean ====
import proofs.«214766_g21345987461187_cont_8to1_720_22_alg».proof.Proof.Sc.Tile
import proofs.«214766_g21345987461187_cont_8to1_720_22_alg».proof.Proof.Gen.KernelIdeal.Skeleton
import Idealize.ShloMosaic.Lib.SparseCore.Launch
import Idealize.ShloMosaic.Lib.SparseCore.Stream
import Idealize.ShloMosaic.Lib.Pipeline.Kit
import Idealize.ShloMosaic.Lib.Tactic

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

section Call2

local notation "tW" => (Memref.whole Cert.KernelIdeal.main_v27_scv : Memref Cert.KernelIdeal.sig Kind.scVector Space.hbm Cert.KernelIdeal.S32768x128 EltTy.f32)
local notation "iW" => (Memref.whole Cert.KernelIdeal.main_v24_scv : Memref Cert.KernelIdeal.sig Kind.scVector Space.hbm Cert.KernelIdeal.S1024x128 EltTy.i32)
local notation "oW" => (Memref.whole Cert.KernelIdeal.main_v28_scv : Memref Cert.KernelIdeal.sig Kind.scVector Space.hbm Cert.KernelIdeal.S131072x128 EltTy.f32)
local notation "s0W" => (Memref.whole Cert.KernelIdeal.cc2_scratch0 : Memref Cert.KernelIdeal.sig Kind.scVector Space.vmem Cert.KernelIdeal.S32x128 EltTy.i32)
local notation "s1W" => (Memref.whole Cert.KernelIdeal.cc2_scratch1 : Memref Cert.KernelIdeal.sig Kind.scVector Space.vmem Cert.KernelIdeal.S128x128 EltTy.f32)
local notation "s2W" => (Memref.whole Cert.KernelIdeal.cc2_scratch2 : Memref Cert.KernelIdeal.sig Kind.scVector Space.vmem Cert.KernelIdeal.S128x128 EltTy.f32)

abbrev cV2 (L : grid2.Coords) : Fin τ.nSC := (L 0).castLE hcore2
abbrev jV2 (L : grid2.Coords) : Fin τ.nSub := (L 1).castLE hsub2
abbrev thr2 (d : Dev nD) (L : grid2.Coords) : Thread nD τ := V d (cV2 L) (jV2 L)
theorem bound2_0 : grid2.bound 0 = 2 := rfl
theorem bound2_1 : grid2.bound 1 = 16 := rfl
abbrev cL2 (L : grid2.Coords) : Fin 2 := Fin.cast bound2_0 (L 0)
abbrev sL2 (L : grid2.Coords) : Fin 16 := Fin.cast bound2_1 (L 1)
abbrev wL2 (L : grid2.Coords) : Fin 32 := widOf (cL2 L) (sL2 L)
theorem trips2_le : k2_t1_loop.trips ≤ 16 := k2_t1_abs.2.1

abbrev s0Loc2 (d : Dev nD) (L : grid2.Coords) : Loc nD τ sig := (thr2 d L).loc cc2_scratch0
abbrev s1Loc2 (d : Dev nD) (L : grid2.Coords) : Loc nD τ sig := (thr2 d L).loc cc2_scratch1
abbrev s2Loc2 (d : Dev nD) (L : grid2.Coords) : Loc nD τ sig := (thr2 d L).loc cc2_scratch2

abbrev iSl2 (L : grid2.Coords) : Memref sig .scVector .hbm S32x128 .i32 :=
  (iW).slice (Rect.unit (s := S1024x128) (k2_off1 L) S32x128.size (k2_off1_inb L)) (fun _ => rfl)
abbrev oSlA2 (L : grid2.Coords) (k : Fin k2_t1_loop.trips) : Memref sig .scVector .hbm S128x128 .f32 :=
  (oW).slice (Rect.unit (s := S131072x128) (k2_off4 L k) S128x128.size (k2_off4_inb L k)) (fun _ => rfl)
abbrev oSlB2 (L : grid2.Coords) (k : Fin k2_t1_loop.trips) : Memref sig .scVector .hbm S128x128 .f32 :=
  (oW).slice (Rect.unit (s := S131072x128) (k2_off6 L k) S128x128.size (k2_off6_inb L k)) (fun _ => rfl)
abbrev tSl2 : Memref sig .scVector .hbm S32768x128 .f32 :=
  (tW).slice (Rect.unit (s := S32768x128) ![0, 0] S32768x128.size inb_S32768x128_S32768x128_0_0) (fun _ => rfl)
theorem rectI2_eq (L : grid2.Coords) : Rect.unit (s := S1024x128) (k2_off1 L) S32x128.size (k2_off1_inb L) = idxRect (wL2 L) := by
  unfold idxRect Rect.part Rect.block
  congr 1 <;> funext a
  · rw [k2_off1_eq]
    match a with
    | 0 => simp [Shape.partIx, Shape.partSize, widOf]; omega
    | 1 => simp [Shape.partIx, Shape.partSize]
  · match a with
    | 0 => simp [Shape.partSize]
    | 1 => simp [Shape.partSize]
theorem set_iSl2 (L : grid2.Coords) : (iSl2 L).view.set = idxBlk (wL2 L) := by
  show ((View.whole main_v24_scv).slice (Rect.unit (s := S1024x128) (k2_off1 L) S32x128.size (k2_off1_inb L))).set = (idxRect (wL2 L)).set
  rw [View.set_slice, rectI2_eq]; exact Finset.map_refl

def jA2 (k : Fin k2_t1_loop.trips) : Fin 32 := ⟨2 * k.val, by have := trips2_le; omega⟩
def jB2 (k : Fin k2_t1_loop.trips) : Fin 32 := ⟨2 * k.val + 1, by have := trips2_le; omega⟩
theorem rectA2_eq (L : grid2.Coords) (k : Fin k2_t1_loop.trips) :
    Rect.unit (s := S131072x128) (k2_off4 L k) S128x128.size (k2_off4_inb L k) = outRect (blkOf (wL2 L) (jA2 k)) := by
  unfold outRect Rect.part Rect.block
  congr 1 <;> funext a
  · rw [k2_off4_eq]
    match a with
    | 0 => simp [Shape.partIx, Shape.partSize, widOf, blkOf, jA2]; omega
    | 1 => simp [Shape.partIx, Shape.partSize]
  · match a with
    | 0 => simp [Shape.partSize]
    | 1 => simp [Shape.partSize]
theorem rectB2_eq (L : grid2.Coords) (k : Fin k2_t1_loop.trips) :
    Rect.unit (s := S131072x128) (k2_off6 L k) S128x128.size (k2_off6_inb L k) = outRect (blkOf (wL2 L) (jB2 k)) := by
  unfold outRect Rect.part Rect.block
  congr 1 <;> funext a
  · rw [k2_off6_eq]
    match a with
    | 0 => simp [Shape.partIx, Shape.partSize, widOf, blkOf, jB2]; omega
    | 1 => simp [Shape.partIx, Shape.partSize]
  · match a with
    | 0 => simp [Shape.partSize]
    | 1 => simp [Shape.partSize]
theorem set_oSlA2 (L : grid2.Coords) (k : Fin k2_t1_loop.trips) : (oSlA2 L k).view.set = outBlk (blkOf (wL2 L) (jA2 k)) := by
  show ((View.whole main_v28_scv).slice (Rect.unit (s := S131072x128) (k2_off4 L k) S128x128.size (k2_off4_inb L k))).set = (outRect _).set
  rw [View.set_slice, rectA2_eq]; exact Finset.map_refl
theorem set_oSlB2 (L : grid2.Coords) (k : Fin k2_t1_loop.trips) : (oSlB2 L k).view.set = outBlk (blkOf (wL2 L) (jB2 k)) := by
  show ((View.whole main_v28_scv).slice (Rect.unit (s := S131072x128) (k2_off6 L k) S128x128.size (k2_off6_inb L k))).set = (outRect _).set
  rw [View.set_slice, rectB2_eq]; exact Finset.map_refl
section Pts
variable (d : Dev nD) (L : grid2.Coords)
theorem pts_t2 (q : PosShare TreeShare) (f : Buf (Elt F) (tLoc2 d)) : (((tW).view.loc (thr2 d L) ↦{q} f : sProp 𝕄)) = tLoc2 d ↦{q} f := by
  simp only [Memref.view_whole, View.set_whole]
theorem pts_s0_2 (q : PosShare TreeShare) (f : Buf (Elt F) (s0Loc2 d L)) : (((s0W).view.loc (thr2 d L) ↦{q} f : sProp 𝕄)) = s0Loc2 d L ↦{q} f := rfl
theorem pts_s1_2 (f : Buf (Elt F) (s1Loc2 d L)) : (((s1W).view.loc (thr2 d L) ↦{fullShare} f : sProp 𝕄)) = s1Loc2 d L ↦{fullShare} f := rfl
theorem pts_s2_2 (f : Buf (Elt F) (s2Loc2 d L)) : (((s2W).view.loc (thr2 d L) ↦{fullShare} f : sProp 𝕄)) = s2Loc2 d L ↦{fullShare} f := rfl
theorem pts_i2 (f : Buf (Elt F) (iLoc d)) :
    (((iSl2 L).view.loc (thr2 d L) ↦[(iSl2 L).view.set]{fullShare} f : sProp 𝕄)) = iLoc d ↦[idxBlk (wL2 L)]{fullShare} f := by rw [set_iSl2]
theorem pts_oA2 (k : Fin k2_t1_loop.trips) (f : Buf (Elt F) (oLoc2 d)) :
    (((oSlA2 L k).view.loc (thr2 d L) ↦[(oSlA2 L k).view.set]{fullShare} f : sProp 𝕄)) = oLoc2 d ↦[outBlk (blkOf (wL2 L) (jA2 k))]{fullShare} f := by rw [set_oSlA2]
theorem pts_oB2 (k : Fin k2_t1_loop.trips) (f : Buf (Elt F) (oLoc2 d)) :
    (((oSlB2 L k).view.loc (thr2 d L) ↦[(oSlB2 L k).view.set]{fullShare} f : sProp 𝕄)) = oLoc2 d ↦[outBlk (blkOf (wL2 L) (jB2 k))]{fullShare} f := by rw [set_oSlB2]
end Pts

section Inv2
variable [FloatOps F] (d : Dev nD) (L : grid2.Coords)
variable (Tc : S32768x128.Idx → Elt F .f32) (Ic : S1024x128.Idx → Elt F .i32)

def fIof2 (L : grid2.Coords) (Ic : S1024x128.Idx → Elt F .i32) : S32x128.Idx → Elt F .i32 := fun y => Ic ((iSl2 L).view.emb y)

def DAx2 (fI : S32x128.Idx → Elt F .i32) (r : ℕ) : sProp 𝕄 :=
  iprop(∃ g : S128x128.Idx → Elt F .f32, ⌜IsRow Tc fI r g⌝ ∗ (s1Loc2 d L ↦{fullShare} g) ∗ (s0Loc2 d L ↦[rowSetN r]{hA} fI))
end Inv2

section Val2
variable (d : Dev nD) (L : grid2.Coords)
variable (Tc : S32768x128.Idx → Elt F .f32) (Ic : S1024x128.Idx → Elt F .i32)

theorem fI_after2 (f0 : Buf (Elt F) (s0Loc2 d L)) :
    View.write (Elt F) (s0W).view f0 (ReadAs.same.apply ((iSl2 L).view.read (Elt F) Ic)) Finset.univ = fIof2 L Ic := by
  refine (View.write_whole_univ cc2_scratch0 f0 _).trans ?_
  funext y
  exact (View.read_apply _ _).trans (cast_eq _ _)

theorem hin2 (hidx : ∀ x, (Ic x).toNat < 32768) (row : Fin 2 → ℕ) (hk : ∀ a, row a + S1x128.size a ≤ S32x128.size a)
    (hs : ∀ a, (Rect.unit (s := S32x128) row S1x128.size hk).stride a = 1) (x : S128.Idx) :
    (View.read (Elt F) (((s0W).slice (Rect.unit (s := S32x128) row S1x128.size hk) hs).squeeze S128 squeezes_S1x128_S128).view (fIof2 L Ic) x).toNat
      < S32768x128.size (gathers_S32768x128_S128x128).axis := by
  have e : View.read (Elt F) (((s0W).slice (Rect.unit (s := S32x128) row S1x128.size hk) hs).squeeze S128 squeezes_S1x128_S128).view (fIof2 L Ic) x
      = fIof2 L Ic ((((s0W).slice (Rect.unit (s := S32x128) row S1x128.size hk) hs).squeeze S128 squeezes_S1x128_S128).view.emb x) :=
    (View.read_apply _ _).trans (cast_eq _ _)
  rw [e]
  exact hidx _

theorem offs_emb2 (r : ℕ) (hr : r < 32) (h : ∀ a, (![r, 0] : Fin 2 → ℕ) a + S1x128.size a ≤ S32x128.size a)
    (hs : ∀ a, (Rect.unit (s := S32x128) ![r, 0] S1x128.size h).stride a = 1) (z : S128.Idx) :
    (((s0W).slice (Rect.unit (s := S32x128) ![r, 0] S1x128.size h) hs).squeeze S128 squeezes_S1x128_S128).view.emb z
      = ix2 (n := 32) (m := 128) ⟨r, hr⟩ (z 0) := by
  show (Rect.unit (s := S32x128) ![r, 0] S1x128.size h).emb (Shape.reshapeEquiv squeezes_S1x128_S128.numel_eq z) = _
  have e : Shape.reshapeEquiv squeezes_S1x128_S128.numel_eq z = (ix2 (n := 1) (m := 128) 0 (z 0) : S1x128.Idx) :=
    Shape.reshapeEquiv_eq_of_rowMajor _ (by
      rw [Shape.rowMajor_val_two, Shape.rowMajor_val_one]
      show (0 : ℕ) * 128 + (z 0).val = (z 0).val
      omega)
  rw [e]
  funext a
  fin_cases a
  · apply Fin.ext
    show (![r, 0] : Fin 2 → ℕ) 0 + 1 * (0 : ℕ) = r
    simp
  · apply Fin.ext
    show (![r, 0] : Fin 2 → ℕ) 1 + 1 * (z 0).val = (z 0).val
    simp

theorem offs_set2 (r : ℕ) (hr : r < 32) (h : ∀ a, (![r, 0] : Fin 2 → ℕ) a + S1x128.size a ≤ S32x128.size a)
    (hs : ∀ a, (Rect.unit (s := S32x128) ![r, 0] S1x128.size h).stride a = 1) :
    (((s0W).slice (Rect.unit (s := S32x128) ![r, 0] S1x128.size h) hs).squeeze S128 squeezes_S1x128_S128).view.set = rowSetN r := by
  show (((View.whole cc2_scratch0).slice (Rect.unit (s := S32x128) ![r, 0] S1x128.size h)).reshape S128 squeezes_S1x128_S128.numel_eq).set = _
  rw [View.set_reshape, View.set_slice]
  refine Finset.map_refl.trans ?_
  ext i
  simp only [Rect.mem_set_unit, rowSetN, Finset.mem_filter, Finset.mem_univ, true_and]
  constructor
  · intro hi; have := hi 0; simp at this; omega
  · intro hi a
    have hlt := (i a).isLt
    fin_cases a
    · simp; omega
    · simp; exact hlt

theorem tSl_read2 (y : S32768x128.Idx) : (tSl2).view.read (Elt F) Tc y = Tc y := by
  rw [(View.read_apply _ _).trans (cast_eq _ _)]
  congr 1
  funext a
  apply Fin.ext
  show ((Rect.unit (s := S32768x128) ![0, 0] S32768x128.size inb_S32768x128_S32768x128_0_0).emb y a).val = (y a).val
  rw [Rect.emb_apply]
  fin_cases a <;> simp

theorem isRow_payload2 (fI : S32x128.Idx → Elt F .i32) (r : ℕ) (hr : r < 32) (off : Fin 2 → ℕ) (e : off = ![r, 0])
    (h : ∀ a, off a + S1x128.size a ≤ S32x128.size a) (hs : ∀ a, (Rect.unit (s := S32x128) off S1x128.size h).stride a = 1)
    (hn : S128.numel = S128x128.size (gathers_S32768x128_S128x128).axis')
    (hin' : ∀ x, (View.read (Elt F) (((s0W).slice (Rect.unit (s := S32x128) off S1x128.size h) hs).squeeze S128 squeezes_S1x128_S128).view fI x).toNat
      < S32768x128.size (gathers_S32768x128_S128x128).axis) :
    IsRow Tc fI r (SparseCore.gatherPayload gathers_S32768x128_S128x128 ((tSl2).view.read (Elt F) Tc)
      (SparseCore.rows (View.read (Elt F) (((s0W).slice (Rect.unit (s := S32x128) off S1x128.size h) hs).squeeze S128 squeezes_S1x128_S128).view fI) hn hin')) := by
  subst e
  intro x
  have hz : (S128.rowMajor.symm ((x (gathers_S32768x128_S128x128).axis').cast hn.symm)) 0 = x 0 := by
    apply Fin.ext
    rw [← Shape.rowMajor_val_one (d := ![128]) (S128.rowMajor.symm ((x (gathers_S32768x128_S128x128).axis').cast hn.symm))]
    show ((S128.rowMajor (S128.rowMajor.symm ((x (gathers_S32768x128_S128x128).axis').cast hn.symm))) : ℕ) = _
    rw [Equiv.apply_symm_apply]
    rfl
  have hword : View.read (Elt F) (((s0W).slice (Rect.unit (s := S32x128) ![r, 0] S1x128.size h) hs).squeeze S128 squeezes_S1x128_S128).view fI
        (S128.rowMajor.symm ((x (gathers_S32768x128_S128x128).axis').cast hn.symm))
      = fI (ix2 (n := 32) (m := 128) ⟨r, hr⟩ (x 0)) := by
    rw [(View.read_apply _ _).trans (cast_eq _ _), offs_emb2 r hr, hz]
  have hlt : (fI (ix2 (n := 32) (m := 128) ⟨r, hr⟩ (x 0))).toNat < 32768 := hword ▸ hin' _
  have er : (⟨r % 32, Nat.mod_lt _ (by decide)⟩ : Fin 32) = ⟨r, hr⟩ := Fin.ext (Nat.mod_eq_of_lt hr)
  have e2 : fI (ix2 (n := 32) (m := 128) ⟨r % 32, Nat.mod_lt _ (by decide)⟩ (x 0)) = fI (ix2 (n := 32) (m := 128) ⟨r, hr⟩ (x 0)) :=
    congrArg (fun t : Fin 32 => fI (ix2 (n := 32) (m := 128) t (x 0))) er
  unfold SparseCore.gatherPayload
  rw [tSl_read2]
  congr 1
  funext a
  fin_cases a
  · apply Fin.ext
    have h0 : Shape.Gathers.idx gathers_S32768x128_S128x128
        (SparseCore.rows (View.read (Elt F) (((s0W).slice (Rect.unit (s := S32x128) ![r, 0] S1x128.size h) hs).squeeze S128 squeezes_S1x128_S128).view fI) hn hin') x
        (gathers_S32768x128_S128x128).axis = _ := Shape.Gathers.idx_axis _ _ _
    show (Shape.Gathers.idx gathers_S32768x128_S128x128 _ x (gathers_S32768x128_S128x128).axis).val
      = (fI (ix2 (n := 32) (m := 128) ⟨r % 32, Nat.mod_lt _ (by decide)⟩ (x 0))).toNat % 32768
    rw [h0, e2, Nat.mod_eq_of_lt hlt]
    show (View.read (Elt F) (((s0W).slice (Rect.unit (s := S32x128) ![r, 0] S1x128.size h) hs).squeeze S128 squeezes_S1x128_S128).view fI
        (S128.rowMajor.symm ((x (gathers_S32768x128_S128x128).axis').cast hn.symm))).toNat = (fI (ix2 (n := 32) (m := 128) ⟨r, hr⟩ (x 0))).toNat
    rw [hword]
  · apply Fin.ext
    exact Shape.Gathers.idx_of_ne gathers_S32768x128_S128x128 _ x 1 (by decide)

end Val2

section ValB2
variable (d : Dev nD) (L : grid2.Coords)
variable (Tc : S32768x128.Idx → Elt F .f32) (Ic : S1024x128.Idx → Elt F .i32)

theorem isRow_A2 (fI : S32x128.Idx → Elt F .i32) (g : Buf (Elt F) (s1Loc2 d L)) (r : ℕ) (hr : r < 32) (off : Fin 2 → ℕ) (e : off = ![r, 0])
    (h : ∀ a, off a + S1x128.size a ≤ S32x128.size a) (hs : ∀ a, (Rect.unit (s := S32x128) off S1x128.size h).stride a = 1)
    (hn : S128.numel = S128x128.size (gathers_S32768x128_S128x128).axis')
    (hin' : ∀ x, (View.read (Elt F) (((s0W).slice (Rect.unit (s := S32x128) off S1x128.size h) hs).squeeze S128 squeezes_S1x128_S128).view fI x).toNat
      < S32768x128.size (gathers_S32768x128_S128x128).axis) :
    IsRow Tc fI r ((s1W).view.writes (Elt F) g [⟨Rect.whole cc2_scratch1.ty.shape, SparseCore.gatherPayload gathers_S32768x128_S128x128 ((tSl2).view.read (Elt F) Tc)
      (SparseCore.rows (View.read (Elt F) (((s0W).slice (Rect.unit (s := S32x128) off S1x128.size h) hs).squeeze S128 squeezes_S1x128_S128).view fI) hn hin')⟩]) := by
  have := writes_whole_fn (F := F) cc2_scratch1 g (SparseCore.gatherPayload gathers_S32768x128_S128x128 ((tSl2).view.read (Elt F) Tc)
      (SparseCore.rows (View.read (Elt F) (((s0W).slice (Rect.unit (s := S32x128) off S1x128.size h) hs).squeeze S128 squeezes_S1x128_S128).view fI) hn hin'))
  show IsRow Tc fI r ((View.whole cc2_scratch1).writes (Elt F) g [⟨Rect.whole cc2_scratch1.ty.shape, _⟩])
  rw [this]
  exact isRow_payload2 Tc fI r hr off e h hs hn hin'
theorem isRow_B2 (fI : S32x128.Idx → Elt F .i32) (g : Buf (Elt F) (s2Loc2 d L)) (r : ℕ) (hr : r < 32) (off : Fin 2 → ℕ) (e : off = ![r, 0])
    (h : ∀ a, off a + S1x128.size a ≤ S32x128.size a) (hs : ∀ a, (Rect.unit (s := S32x128) off S1x128.size h).stride a = 1)
    (hn : S128.numel = S128x128.size (gathers_S32768x128_S128x128).axis')
    (hin' : ∀ x, (View.read (Elt F) (((s0W).slice (Rect.unit (s := S32x128) off S1x128.size h) hs).squeeze S128 squeezes_S1x128_S128).view fI x).toNat
      < S32768x128.size (gathers_S32768x128_S128x128).axis) :
    IsRow Tc fI r ((s2W).view.writes (Elt F) g [⟨Rect.whole cc2_scratch2.ty.shape, SparseCore.gatherPayload gathers_S32768x128_S128x128 ((tSl2).view.read (Elt F) Tc)
      (SparseCore.rows (View.read (Elt F) (((s0W).slice (Rect.unit (s := S32x128) off S1x128.size h) hs).squeeze S128 squeezes_S1x128_S128).view fI) hn hin')⟩]) := by
  have := writes_whole_fn (F := F) cc2_scratch2 g (SparseCore.gatherPayload gathers_S32768x128_S128x128 ((tSl2).view.read (Elt F) Tc)
      (SparseCore.rows (View.read (Elt F) (((s0W).slice (Rect.unit (s := S32x128) off S1x128.size h) hs).squeeze S128 squeezes_S1x128_S128).view fI) hn hin'))
  show IsRow Tc fI r ((View.whole cc2_scratch2).writes (Elt F) g [⟨Rect.whole cc2_scratch2.ty.shape, _⟩])
  rw [this]
  exact isRow_payload2 Tc fI r hr off e h hs hn hin'

theorem fIof_apply2 (r : Fin 32) (c : Fin 128) :
    fIof2 L Ic (ix2 (n := 32) (m := 128) r c) = Ic (ix2 (n := 1024) (m := 128) ⟨32 * (wL2 L).val + r.val, by omega⟩ c) := by
  unfold fIof2
  congr 1
  funext a
  apply Fin.ext
  show ((Rect.unit (s := S1024x128) (k2_off1 L) S32x128.size (k2_off1_inb L)).emb (ix2 (n := 32) (m := 128) r c) a).val = _
  rw [Rect.emb_apply, Rect.off_unit, Rect.stride_unit]
  have hoff := congrFun (k2_off1_eq L) a
  have hwv : (wL2 L).val = 2 * (L 1).val + (L 0).val := rfl
  fin_cases a
  · show k2_off1 L 0 + 1 * r.val = 32 * (wL2 L).val + r.val
    rw [show k2_off1 L 0 = 64 * (L 1).val + 32 * (L 0).val from hoff, hwv]
    omega
  · show k2_off1 L 1 + 1 * c.val = c.val
    rw [show k2_off1 L 1 = 0 from hoff]
    omega

theorem blk_val2 (fo : Buf (Elt F) (oLoc2 d)) (w : S128x128.Idx → Elt F .f32) (r : Fin 32) (hw : IsRow Tc (fIof2 L Ic) r.val w)
    (off : Fin 2 → ℕ) (e : off = ![128 * (32 * (wL2 L).val + r.val), 0]) (hinb : ∀ a, off a + S128x128.size a ≤ S131072x128.size a) :
    ∀ i ∈ ((oW).slice (Rect.unit (s := S131072x128) off S128x128.size hinb) (fun _ => rfl)).view.set,
      ((oW).slice (Rect.unit (s := S131072x128) off S128x128.size hinb) (fun _ => rfl)).view.writes (Elt F) fo [⟨Rect.whole S128x128, w⟩] i
        = gatherRows Tc Ic i := by
  subst e
  have key : ∀ x : S128x128.Idx,
      ((oW).slice (Rect.unit (s := S131072x128) ![128 * (32 * (wL2 L).val + r.val), 0] S128x128.size hinb) (fun _ => rfl)).view.writes (Elt F) fo [⟨Rect.whole S128x128, w⟩]
          (((oW).slice (Rect.unit (s := S131072x128) ![128 * (32 * (wL2 L).val + r.val), 0] S128x128.size hinb) (fun _ => rfl)).view.emb x)
        = gatherRows Tc Ic (((oW).slice (Rect.unit (s := S131072x128) ![128 * (32 * (wL2 L).val + r.val), 0] S128x128.size hinb) (fun _ => rfl)).view.emb x) := by
    intro x
    have hrd := congrFun (View.read_writes_whole ((oW).slice (Rect.unit (s := S131072x128) ![128 * (32 * (wL2 L).val + r.val), 0] S128x128.size hinb) (fun _ => rfl)).view fo w) x
    rw [(View.read_apply _ _).trans (cast_eq _ _)] at hrd
    refine Eq.trans hrd ?_
    rw [hw x]
    have h0 : ((((oW).slice (Rect.unit (s := S131072x128) ![128 * (32 * (wL2 L).val + r.val), 0] S128x128.size hinb) (fun _ => rfl)).view.emb x) 0).val
        = 128 * (32 * (wL2 L).val + r.val) + (x 0).val := by
      show ((Rect.unit (s := S131072x128) ![128 * (32 * (wL2 L).val + r.val), 0] S128x128.size hinb).emb x 0).val = _
      rw [Rect.emb_apply, Rect.off_unit, Rect.stride_unit]; simp
    have h1 : ((((oW).slice (Rect.unit (s := S131072x128) ![128 * (32 * (wL2 L).val + r.val), 0] S128x128.size hinb) (fun _ => rfl)).view.emb x) 1).val = (x 1).val := by
      show ((Rect.unit (s := S131072x128) ![128 * (32 * (wL2 L).val + r.val), 0] S128x128.size hinb).emb x 1).val = _
      rw [Rect.emb_apply, Rect.off_unit, Rect.stride_unit]; simp
    have hx0 := (x 0).isLt
    have er : (⟨r.val % 32, Nat.mod_lt _ (by decide)⟩ : Fin 32) = r := Fin.ext (Nat.mod_eq_of_lt r.isLt)
    have e2 : fIof2 L Ic (ix2 (n := 32) (m := 128) ⟨r.val % 32, Nat.mod_lt _ (by decide)⟩ (x 0)) = fIof2 L Ic (ix2 (n := 32) (m := 128) r (x 0)) :=
      congrArg (fun t : Fin 32 => fIof2 L Ic (ix2 (n := 32) (m := 128) t (x 0))) er
    unfold gatherRows
    congr 1
    funext a
    fin_cases a
    · apply Fin.ext
      show (fIof2 L Ic (ix2 (n := 32) (m := 128) ⟨r.val % 32, Nat.mod_lt _ (by decide)⟩ (x 0))).toNat % 32768 = (Ic (ix2 (n := 1024) (m := 128) _ _)).toNat % 32768
      have hf := fIof_apply2 L Ic r (x 0)
      rw [e2, hf]
      congr 3
      funext b
      fin_cases b
      · apply Fin.ext
        show 32 * (wL2 L).val + r.val = _ / 128
        rw [h0]
        have hx0' : (x 0).val < 128 := (x 0).isLt
        clear hx0 e2 er
        omega
      · apply Fin.ext
        show (x 0).val = _ % 128
        rw [h0]
        have hx0' : (x 0).val < 128 := (x 0).isLt
        clear hx0 e2 er
        omega
    · apply Fin.ext
      exact h1.symm
  intro i hi
  obtain ⟨x, -, rfl⟩ := Finset.mem_map.mp hi
  exact key x

end ValB2

section Res2
variable (d : Dev nD) (L : grid2.Coords)

abbrev cellA2 : GSem nD τ sig := (thr2 d L, SemLoc.dma cc2_scratch3.sem)
abbrev cellB2 : GSem nD τ sig := (thr2 d L, SemLoc.dma cc2_scratch4.sem)
abbrev cell0_2 : GSem nD τ sig := (thr2 d L, SemLoc.dma cc2_scoped0.sem)
abbrev cell1_2 : GSem nD τ sig := (thr2 d L, SemLoc.dma cc2_scoped1.sem)
abbrev cell2_2 : GSem nD τ sig := (thr2 d L, SemLoc.dma cc2_scoped2.sem)

theorem cell_mem2 (sm : DmaSem sig) (h : (SemLoc.dma sm : SemLoc sig).isScoped .scVector = true) :
    ((thr2 d L, SemLoc.dma sm) : GSem nD τ sig) ∈ ownCells (sig := sig) (thr2 d L) :=
  (mem_ownCells (g := (thr2 d L, SemLoc.dma sm))).mpr ⟨rfl, h⟩
theorem cell_ne2 {sm sm' : DmaSem sig} (h : (SemLoc.dma sm : SemLoc sig) ≠ SemLoc.dma sm') :
    ((thr2 d L, SemLoc.dma sm) : GSem nD τ sig) ≠ (thr2 d L, SemLoc.dma sm') :=
  fun e => h (Prod.mk.inj e).2

theorem ownSems0_V2 :
    (ownSems0 (thr2 d L) : sProp 𝕄)
      = iprop(semVal (cellA2 d L) 0 ∗ semVal (cellB2 d L) 0 ∗ semVal (cell0_2 d L) 0 ∗ semVal (cell1_2 d L) 0 ∗ semVal (cell2_2 d L) 0
          ∗ bigSep ((((((ownCells (thr2 d L)).erase (cellA2 d L)).erase (cellB2 d L)).erase (cell0_2 d L)).erase (cell1_2 d L)).erase (cell2_2 d L))
              fun g => semVal g 0) := by
  unfold SparseCore.Cfg.ownSems0
  have mA := cell_mem2 d L cc2_scratch3.sem (by decide)
  have mB := cell_mem2 d L cc2_scratch4.sem (by decide)
  have m0 := cell_mem2 d L cc2_scoped0.sem (by decide)
  have m1 := cell_mem2 d L cc2_scoped1.sem (by decide)
  have m2 := cell_mem2 d L cc2_scoped2.sem (by decide)
  have nBA := cell_ne2 d L (sm := cc2_scratch4.sem) (sm' := cc2_scratch3.sem) (by decide)
  have n0A := cell_ne2 d L (sm := cc2_scoped0.sem) (sm' := cc2_scratch3.sem) (by decide)
  have n0B := cell_ne2 d L (sm := cc2_scoped0.sem) (sm' := cc2_scratch4.sem) (by decide)
  have n1A := cell_ne2 d L (sm := cc2_scoped1.sem) (sm' := cc2_scratch3.sem) (by decide)
  have n1B := cell_ne2 d L (sm := cc2_scoped1.sem) (sm' := cc2_scratch4.sem) (by decide)
  have n10 := cell_ne2 d L (sm := cc2_scoped1.sem) (sm' := cc2_scoped0.sem) (by decide)
  have n2A := cell_ne2 d L (sm := cc2_scoped2.sem) (sm' := cc2_scratch3.sem) (by decide)
  have n2B := cell_ne2 d L (sm := cc2_scoped2.sem) (sm' := cc2_scratch4.sem) (by decide)
  have n20 := cell_ne2 d L (sm := cc2_scoped2.sem) (sm' := cc2_scoped0.sem) (by decide)
  have n21 := cell_ne2 d L (sm := cc2_scoped2.sem) (sm' := cc2_scoped1.sem) (by decide)
  rw [SparseCore.bigSep_erase' mA,
    SparseCore.bigSep_erase' (Finset.mem_erase.mpr ⟨nBA, mB⟩),
    SparseCore.bigSep_erase' (Finset.mem_erase.mpr ⟨n0B, Finset.mem_erase.mpr ⟨n0A, m0⟩⟩),
    SparseCore.bigSep_erase' (Finset.mem_erase.mpr ⟨n10, Finset.mem_erase.mpr ⟨n1B, Finset.mem_erase.mpr ⟨n1A, m1⟩⟩⟩),
    SparseCore.bigSep_erase' (Finset.mem_erase.mpr ⟨n21, Finset.mem_erase.mpr ⟨n20, Finset.mem_erase.mpr ⟨n2B, Finset.mem_erase.mpr ⟨n2A, m2⟩⟩⟩⟩)]

theorem ref_mem2 (b : Ref sig .scVector) (h : ((Proc.scVector (cV2 L) (jV2 L)).devRef b).owner = .proc (Proc.scVector (cV2 L) (jV2 L))) :
    (Proc.scVector (cV2 L) (jV2 L)).devRef b ∈ ownRefs (τ := τ) (sig := sig) (.scVector (cV2 L) (jV2 L)) :=
  SparseCore.Cfg.mem_ownRefs_of_owner (p := Proc.scVector (cV2 L) (jV2 L)) h
theorem ref_ne2 {b b' : Ref sig .scVector} (h : b ≠ b') :
    (Proc.scVector (cV2 L) (jV2 L)).devRef b ≠ (Proc.scVector (cV2 L) (jV2 L)).devRef b' :=
  fun e => h (Proc.devRef_injective _ e)

theorem ownBufs_V2 :
    (ownBufs (thr2 d L) : sProp 𝕄)
      = iprop((∃ f, s0Loc2 d L ↦{fullShare} f) ∗ (∃ f, s1Loc2 d L ↦{fullShare} f) ∗ (∃ f, s2Loc2 d L ↦{fullShare} f)
          ∗ bigSep ((((ownRefs (τ := τ) (.scVector (cV2 L) (jV2 L))).erase ((Proc.scVector (cV2 L) (jV2 L)).devRef cc2_scratch0)).erase
              ((Proc.scVector (cV2 L) (jV2 L)).devRef cc2_scratch1)).erase ((Proc.scVector (cV2 L) (jV2 L)).devRef cc2_scratch2))
              fun b => iprop(∃ f, ((d, b) : Loc nD τ sig) ↦{fullShare} f)) := by
  unfold SparseCore.Cfg.ownBufs
  refine (SparseCore.bigSep_erase' (ref_mem2 L cc2_scratch0 rfl)).trans ?_
  rw [SparseCore.bigSep_erase' (Finset.mem_erase.mpr ⟨ref_ne2 L (by decide), ref_mem2 L cc2_scratch1 rfl⟩),
    SparseCore.bigSep_erase' (Finset.mem_erase.mpr ⟨ref_ne2 L (by decide), Finset.mem_erase.mpr ⟨ref_ne2 L (by decide), ref_mem2 L cc2_scratch2 rfl⟩⟩)]

end Res2

section Out2
variable (d : Dev nD) (L : grid2.Coords)
variable (Tc : S32768x128.Idx → Elt F .f32) (Ic : S1024x128.Idx → Elt F .i32)

def outPt2 (k : ℕ) (j : Fin 32) : sProp 𝕄 :=
  if j.val < 2 * k then (oLoc2 d ↦[outBlk (blkOf (wL2 L) j)]{fullShare} gatherRows Tc Ic)
  else iprop(∃ f, oLoc2 d ↦[outBlk (blkOf (wL2 L) j)]{fullShare} f)

theorem jB_ne_jA2 (k : Fin k2_t1_loop.trips) : jB2 k ≠ jA2 k := fun e => by
  have := congrArg Fin.val e; simp [jA2, jB2] at this

theorem out_split2 (k : Fin k2_t1_loop.trips) :
    (bigSep Finset.univ fun j : Fin 32 => outPt2 d L Tc Ic k.val j)
      = (iprop((∃ f, oLoc2 d ↦[outBlk (blkOf (wL2 L) (jA2 k))]{fullShare} f) ∗ (∃ f, oLoc2 d ↦[outBlk (blkOf (wL2 L) (jB2 k))]{fullShare} f)
          ∗ bigSep (((Finset.univ : Finset (Fin 32)).erase (jA2 k)).erase (jB2 k)) fun j => outPt2 d L Tc Ic k.val j) : sProp 𝕄) := by
  rw [SparseCore.bigSep_erase' (Finset.mem_univ (jA2 k)),
    SparseCore.bigSep_erase' (Finset.mem_erase.mpr ⟨jB_ne_jA2 k, Finset.mem_univ (jB2 k)⟩)]
  have hA : outPt2 d L Tc Ic k.val (jA2 k) = iprop(∃ f, oLoc2 d ↦[outBlk (blkOf (wL2 L) (jA2 k))]{fullShare} f) :=
    if_neg (by simp [jA2])
  have hB : outPt2 d L Tc Ic k.val (jB2 k) = iprop(∃ f, oLoc2 d ↦[outBlk (blkOf (wL2 L) (jB2 k))]{fullShare} f) :=
    if_neg (by simp [jB2])
  rw [hA, hB]

theorem out_join2 (k : Fin k2_t1_loop.trips) :
    (iprop((oLoc2 d ↦[outBlk (blkOf (wL2 L) (jA2 k))]{fullShare} gatherRows Tc Ic) ∗ (oLoc2 d ↦[outBlk (blkOf (wL2 L) (jB2 k))]{fullShare} gatherRows Tc Ic)
          ∗ bigSep (((Finset.univ : Finset (Fin 32)).erase (jA2 k)).erase (jB2 k)) fun j => outPt2 d L Tc Ic k.val j) : sProp 𝕄)
      = bigSep Finset.univ fun j : Fin 32 => outPt2 d L Tc Ic (k.val + 1) j := by
  rw [SparseCore.bigSep_erase' (s := (Finset.univ : Finset (Fin 32))) (Finset.mem_univ (jA2 k)),
    SparseCore.bigSep_erase' (Finset.mem_erase.mpr ⟨jB_ne_jA2 k, Finset.mem_univ (jB2 k)⟩)]
  have hA : outPt2 d L Tc Ic (k.val + 1) (jA2 k) = (oLoc2 d ↦[outBlk (blkOf (wL2 L) (jA2 k))]{fullShare} gatherRows Tc Ic) :=
    if_pos (by simp [jA2] <;> omega)
  have hB : outPt2 d L Tc Ic (k.val + 1) (jB2 k) = (oLoc2 d ↦[outBlk (blkOf (wL2 L) (jB2 k))]{fullShare} gatherRows Tc Ic) :=
    if_pos (by simp [jB2] <;> omega)
  rw [hA, hB]
  congr 2
  refine bigSep_congr fun j hj => ?_
  have h1 : j ≠ jB2 k := (Finset.mem_erase.mp hj).1
  have h2 : j ≠ jA2 k := (Finset.mem_erase.mp (Finset.mem_erase.mp hj).2).1
  have h1' : j.val ≠ 2 * k.val + 1 := fun e => h1 (Fin.ext e)
  have h2' : j.val ≠ 2 * k.val := fun e => h2 (Fin.ext e)
  unfold outPt2
  by_cases hlt : j.val < 2 * k.val
  · rw [if_pos hlt, if_pos (by omega)]
  · rw [if_neg hlt, if_neg (by omega)]

theorem out_first2 :
    (bigSep Finset.univ fun j : Fin 32 => iprop(∃ f, oLoc2 d ↦[outBlk (blkOf (wL2 L) j)]{fullShare} f) : sProp 𝕄)
      = bigSep Finset.univ fun j : Fin 32 => outPt2 d L Tc Ic 0 j :=
  bigSep_congr fun j _ => (if_neg (by omega)).symm
theorem out_last2 :
    (bigSep Finset.univ fun j : Fin 32 => outPt2 d L Tc Ic 16 j : sProp 𝕄)
      = bigSep Finset.univ fun j : Fin 32 => oLoc2 d ↦[outBlk (blkOf (wL2 L) j)]{fullShare} gatherRows Tc Ic :=
  bigSep_congr fun j _ => if_pos (by have := j.isLt; omega)

theorem cond_iff2 : ∀ k : Fin k2_t1_loop.trips, k2_cond1 k = 1#1 ↔ k.val < 15 := by decide
theorem trips_eq2 : k2_t1_loop.trips = 16 := by decide

end Out2

section Body2
variable [FloatOps F] (d : Dev nD) (L : grid2.Coords)
variable (Tc : S32768x128.Idx → Elt F .f32) (Ic : S1024x128.Idx → Elt F .i32)

omit [FloatOps F] in
theorem pts_s1set2 (q : PosShare TreeShare) (f : Buf (Elt F) (s1Loc2 d L)) :
    (((s1W).view.loc (thr2 d L) ↦[(s1W).view.set]{q} f : sProp 𝕄)) = s1Loc2 d L ↦{q} f := by
  simp only [Memref.view_whole, View.set_whole]
omit [FloatOps F] in
theorem pts_offs2 (r : ℕ) (hr : r < 32) (off : Fin 2 → ℕ) (e : off = ![r, 0]) (h : ∀ a, off a + S1x128.size a ≤ S32x128.size a)
    (hs : ∀ a, (Rect.unit (s := S32x128) off S1x128.size h).stride a = 1) (q : PosShare TreeShare) (f : Buf (Elt F) (s0Loc2 d L)) :
    (((s0W).view.loc (thr2 d L) ↦[(((s0W).slice (Rect.unit (s := S32x128) off S1x128.size h) hs).squeeze S128 squeezes_S1x128_S128).view.set]{q} f : sProp 𝕄))
      = s0Loc2 d L ↦[rowSetN r]{q} f := by
  subst e; rw [offs_set2 r hr h hs]
omit [FloatOps F] in
theorem rest_offs2 (r : ℕ) (hr : r < 32) (off : Fin 2 → ℕ) (e : off = ![r, 0]) (h : ∀ a, off a + S1x128.size a ≤ S32x128.size a)
    (hs : ∀ a, (Rect.unit (s := S32x128) off S1x128.size h).stride a = 1) (q : PosShare TreeShare) (f : Buf (Elt F) (s0Loc2 d L)) :
    (((s0W).view.loc (thr2 d L) ↦[Finset.univ \ (((s0W).slice (Rect.unit (s := S32x128) off S1x128.size h) hs).squeeze S128 squeezes_S1x128_S128).view.set]{q} f : sProp 𝕄))
      = s0Loc2 d L ↦[Finset.univ \ rowSetN r]{q} f := by
  subst e; rw [offs_set2 r hr h hs]

omit [FloatOps F] in
theorem flight_conv2 (qT : PosShare TreeShare) (fI : S32x128.Idx → Elt F .i32) (g : S128x128.Idx → Elt F .f32) (r : ℕ) (hr : r < 32)
    (hg : IsRow Tc fI r g)
    (off : Fin 2 → ℕ) (e : off = ![r, 0]) (h : ∀ a, off a + S1x128.size a ≤ S32x128.size a)
    (hs : ∀ a, (Rect.unit (s := S32x128) off S1x128.size h).stride a = 1) :
    (iprop((((s1W).view.loc (thr2 d L) ↦[(s1W).view.set]{fullShare} g)
            ∗ ((s0W).view.loc (thr2 d L) ↦[(((s0W).slice (Rect.unit (s := S32x128) off S1x128.size h) hs).squeeze S128 squeezes_S1x128_S128).view.set]{hA} fI))
          ∗ ((tW).view.loc (thr2 d L) ↦[(tSl2).view.set]{qT.left} Tc)) : sProp 𝕄)
      ⊢ iprop(DAx2 d L Tc fI r ∗ ((tW).view.loc (thr2 d L) ↦[(tSl2).view.set]{qT.left} Tc)) := by
  iintro ⟨⟨Hd, Ho⟩, Ht⟩
  isplitr [Ht]
  · unfold DAx2
    iexists g
    isplitr
    · ipureintro; exact hg
    isplitl [Hd]
    · iapply (Entails.of_eq (pts_s1set2 (F := F) d L _ _)); iexact Hd
    · iapply (Entails.of_eq (pts_offs2 (F := F) d L r hr off e h hs _ _)); iexact Ho
  · iexact Ht

def flA2 (qT : PosShare TreeShare) (k : ℕ) : sProp 𝕄 :=
  iprop(Transfers.Flight countersEmb (thr2 d L) (SemLoc.dma cc2_scratch3.sem) (default : HIx 2) 524288
          iprop(DAx2 d L Tc (fIof2 L Ic) (2 * k) ∗ ((tW).view.loc (thr2 d L) ↦[(tSl2).view.set]{qT.left} Tc))
        ∗ ((tW).view.loc (thr2 d L) ↦[Finset.univ \ (tSl2).view.set]{qT.left} Tc)
        ∗ (s0Loc2 d L ↦[Finset.univ \ rowSetN (2 * k)]{hA} (fIof2 L Ic)))
def noFl2 (qT : PosShare TreeShare) : sProp 𝕄 :=
  iprop(((tW).view.loc (thr2 d L) ↦{qT.left} Tc) ∗ ((s0W).view.loc (thr2 d L) ↦{hA} (fIof2 L Ic))
    ∗ (∃ g, (s1W).view.loc (thr2 d L) ↦{fullShare} g) ∗ semVal (thr2 d L, SemLoc.dma cc2_scratch3.sem) 0)
def inv2 (qT : PosShare TreeShare) (O : CellTallies nD τ sig (HIx 2)) (W : Waits sig (HIx 2)) (k : ℕ) (_ : PUnit) : sProp 𝕄 :=
  iprop(Transfers.MayWaits (thr2 d L) (none : HIx 2) O
    ∗ ((tW).view.loc (thr2 d L) ↦{qT.right} Tc) ∗ ((s0W).view.loc (thr2 d L) ↦{hB} (fIof2 L Ic))
    ∗ (if k < 16 then flA2 d L Tc Ic qT k else noFl2 d L Tc Ic qT)
    ∗ (∃ g, (s2W).view.loc (thr2 d L) ↦{fullShare} g)
    ∗ semVal (thr2 d L, SemLoc.dma cc2_scratch4.sem) 0
    ∗ semVal (thr2 d L, SemLoc.dma cc2_scoped1.sem) 0 ∗ semVal (thr2 d L, SemLoc.dma cc2_scoped2.sem) 0
    ∗ (bigSep Finset.univ fun j : Fin 32 => outPt2 d L Tc Ic k j)
    ∗ ∃ W', ⌜∀ p ∈ W', p ∈ W ∨ p.2 = none⌝ ∗ owes (thr2 d L) O W')

end Body2

section Main2
variable [FloatOps F] (d : Dev nD) (L : grid2.Coords)
variable (Tc : S32768x128.Idx → Elt F .f32) (Ic : S1024x128.Idx → Elt F .i32)

omit [FloatOps F] in
theorem off5_eq2 (k : Fin k2_t1_loop.trips) : k2_off5 k = ![2 * (k.val + 1), 0] :=
  (k2_off5_eq k).trans (congrArg (fun t : ℕ => (![t, 0] : Fin 2 → ℕ)) (by omega))
omit [FloatOps F] in
theorem offA_eq2 (k : Fin k2_t1_loop.trips) : k2_off4 L k = ![128 * (32 * (wL2 L).val + (jA2 k).val), 0] :=
  (k2_off4_eq L k).trans (congrArg (fun t : ℕ => (![t, 0] : Fin 2 → ℕ)) (by
    show _ = 128 * (32 * (2 * (L 1).val + (L 0).val) + 2 * k.val); omega))
omit [FloatOps F] in
theorem offB_eq2 (k : Fin k2_t1_loop.trips) : k2_off6 L k = ![128 * (32 * (wL2 L).val + (jB2 k).val), 0] :=
  (k2_off6_eq L k).trans (congrArg (fun t : ℕ => (![t, 0] : Fin 2 → ℕ)) (by
    show _ = 128 * (32 * (2 * (L 1).val + (L 0).val) + (2 * k.val + 1)); omega))

set_option maxHeartbeats 4000000 in
theorem tile_body2 (hF : (K (F := F)).Facts) (hidx : ∀ x, (Ic x).toNat < 32768)
    (O : CellTallies nD τ sig (HIx 2)) (W : Waits sig (HIx 2)) (hO : ∀ g, O g none = 0) :
    iprop(levAts (K (F := F)).L (K (F := F)).lev ∗ emp ∗ tileIn2 Tc Ic d (cL2 L) (sL2 L)
        ∗ scopedBufs (thr2 d L) ∗ scopedSems0 (thr2 d L) ∗ owes (thr2 d L) O W)
      ⊢ wp frame (wpE (defs₀ (F := F)) 𝒱₀ (thr2 d L) none) Set.univ
          (cc2_gather L tW (Memref.isWhole_whole _) iW (Memref.isWhole_whole _) oW (Memref.isWhole_whole _)
            s0W (Memref.isWhole_whole _) s1W (Memref.isWhole_whole _) s2W (Memref.isWhole_whole _) cc2_scratch3 cc2_scratch4 cc2_scoped0 cc2_scoped1 cc2_scoped2)
          fun _ => iprop(tileOut2 Tc Ic d (cL2 L) (sL2 L) ∗ scopedBufs (thr2 d L) ∗ scopedSems0 (thr2 d L)
            ∗ ∃ W', ⌜∀ p ∈ W', p ∈ W ∨ p.2 = none⌝ ∗ owes (thr2 d L) O W') := by
  have hin := hin2 (F := F) L Ic hidx
  simp only [cc2_gather_eq_skeleton]; unfold cc2_gather_skel
  rw [(K (F := F)).scopedBufs_V hF d (cV2 L) (jV2 L), SparseCore.Cfg.scopedSems0_V (Val := Elt F) d (cV2 L) (jV2 L), ownSems0_V2, ownBufs_V2]
  unfold tileIn2
  iintro ⟨#Hlv, -, ⟨Ht, Hi, Hout⟩, ⟨⟨%f0, Hs0⟩, ⟨%f1, Hs1⟩, ⟨%f2, Hs2⟩, Hbufs⟩, ⟨HsA, HsB, Hc0, Hc1, Hc2, Hsems⟩, HO⟩
  ihave Hmw := ((K (F := F)).mayWaits_none (thr := thr2 d L) hO) $$ Hlv
  ihave Ht2 := (pointsTo_share (PosShare.mem_left_op_right (qTile (cL2 L) (sL2 L)))).1 $$ Ht
  icases Ht2 with ⟨HtA, HtB⟩
  ihave HtA' := (Entails.of_eq (pts_t2 (F := F) d L _ _).symm) $$ HtA
  ihave Hi' := (Entails.of_eq (pts_i2 (F := F) d L _).symm) $$ Hi
  ihave Hs0' := (Entails.of_eq (pts_s0_2 (F := F) d L _ _).symm) $$ Hs0
  ihave Hs1' := (Entails.of_eq (pts_s1_2 (F := F) d L _).symm) $$ Hs1
  ihave Hs2' := (Entails.of_eq (pts_s2_2 (F := F) d L _).symm) $$ Hs2
  sl_exec
  generalize hfI : View.write (Elt F) (s0W).view f0 _ Finset.univ = fI
  have hfI' : fI = fIof2 L Ic := hfI.symm.trans (fI_after2 d L Ic f0)
  subst hfI'
  ihave Ho2 := (pointsTo_share (PosShare.mem_left_op_right (fullShare : PosShare TreeShare))).1 $$ Hs0'
  icases Ho2 with ⟨HoA, HoB⟩
  ihave HoB0 := (Entails.of_eq (pts_s0_2 (F := F) d L _ _)) $$ HoB
  sl_exec
  ihave HtB' := (Entails.of_eq (pts_t2 (F := F) d L _ _).symm) $$ HtB
  ihave HoB' := (Entails.of_eq (pts_s0_2 (F := F) d L _ _).symm) $$ HoB0
  generalize hp0 : (s1W).view.writes (Elt F) f1 [_] = g0
  have hg0 : IsRow Tc (fIof2 L Ic) 0 g0 := by
    rw [← hp0]
    exact isRow_A2 d L Tc (fIof2 L Ic) f1 0 (by decide) ![0, 0] rfl inb_S32x128_S1x128_0_0 (fun _ => rfl) rfl (hin _ _ _)
  ihave FlA := (Transfers.Flight_mono countersEmb (thr2 d L)
    (flight_conv2 (F := F) d L Tc (qTile (cL2 L) (sL2 L)) (fIof2 L Ic) g0 0 (by decide) hg0 ![0, 0] rfl _ _)) $$ HsA
  ihave HoAr := (Entails.of_eq (rest_offs2 (F := F) d L 0 (by decide) ![0, 0] rfl _ _ _ _)) $$ HoA
  sl_for (inv2 d L Tc Ic (qTile (cL2 L) (sL2 L)) O W) $$ [Hmw HtB' HoB' FlA HtA' HoAr Hs2' HsB Hc1 Hc2 Hout HO]
  case region =>
    intro k _
    have hk16 : k.val < 16 := Nat.lt_of_lt_of_le k.isLt trips2_le
    unfold inv2
    rw [if_pos hk16]
    unfold flA2
    iintro ⟨Hmw, HtB, HoB, ⟨FlA, HtAr, HoAr⟩, ⟨%g2, Hs2⟩, HsB, Hc1, Hc2, Hout, %W', %hW', HO⟩
    ihave Hout2 := (Entails.of_eq (out_split2 d L Tc Ic k)) $$ Hout
    icases Hout2 with ⟨⟨%foA, HoutA⟩, ⟨%foB, HoutB⟩, Hrest⟩
    ihave HoutA' := (Entails.of_eq (pts_oA2 (F := F) d L k _).symm) $$ HoutA
    ihave HoutB' := (Entails.of_eq (pts_oB2 (F := F) d L k _).symm) $$ HoutB
    by_cases hc : k2_cond1 k = 1#1
    · have hk15 : k.val < 15 := (cond_iff2 k).mp hc
      sl_exec
      unfold DAx2
      icases FlA_dst with ⟨%g6, %h6, Hs1, HoAp⟩
      ihave HoA := (pointsTo_split_subset (ℓ := s0Loc2 d L) (I := rowSetN (2 * k.val)) (S := Finset.univ) (Finset.subset_univ _)).2 $$ [HoAp HoAr]
      · isplitl [HoAp] <;> iassumption
      ihave HoA' := (Entails.of_eq (pts_s0_2 (F := F) d L _ _).symm) $$ HoA
      ihave Hs1' := (Entails.of_eq (pts_s1_2 (F := F) d L _).symm) $$ Hs1
      sl_exec
      sl_step
      generalize hpA : (s1W).view.writes (Elt F) g6 [_] = g6n
      have hg6n : IsRow Tc (fIof2 L Ic) (2 * (k.val + 1)) g6n := by
        rw [← hpA]
        exact isRow_A2 d L Tc (fIof2 L Ic) g6 (2 * (k.val + 1)) (by omega) (k2_off5 k) (off5_eq2 k) (k2_off5_inb k hc) (fun _ => rfl) rfl (hin _ _ _)
      generalize hcA : (oSlA2 L k).view.writes (Elt F) foA [_] = cA
      have hcA' : ∀ i ∈ (oSlA2 L k).view.set, cA i = gatherRows Tc Ic i := by
        rw [← hcA]
        exact blk_val2 d L Tc Ic foA _ (jA2 k) (fun x => h6 x) (k2_off4 L k) (offA_eq2 L k) (k2_off4_inb L k)
      generalize hcB : (oSlB2 L k).view.writes (Elt F) foB [_] = cB
      have hcB' : ∀ i ∈ (oSlB2 L k).view.set, cB i = gatherRows Tc Ic i := by
        rw [← hcB]
        exact blk_val2 d L Tc Ic foB _ (jB2 k)
          (isRow_B2 d L Tc (fIof2 L Ic) g2 (2 * k.val + 1) (by omega) (k2_off2 k) (k2_off2_eq k) (k2_off2_inb k) (fun _ => rfl) rfl (hin _ _ _))
          (k2_off6 L k) (offB_eq2 L k) (k2_off6_inb L k)
      rw [if_pos (show k.val + 1 < 16 by omega)]
      isplitl [Hmw]; · iexact Hmw
      isplitl [HtB]; · iexact HtB
      isplitl [HoB]; · iexact HoB
      isplitl [FlA HtAr HoA']
      · isplitl [FlA]
        · iapply (Transfers.Flight_mono countersEmb (thr2 d L)
            (flight_conv2 (F := F) d L Tc (qTile (cL2 L) (sL2 L)) (fIof2 L Ic) g6n (2 * (k.val + 1)) (by omega) hg6n (k2_off5 k) (off5_eq2 k) _ _))
          iexact FlA
        isplitl [HtAr]; · iexact HtAr
        iapply (Entails.of_eq (rest_offs2 (F := F) d L (2 * (k.val + 1)) (by omega) (k2_off5 k) (off5_eq2 k) _ _ _ _)); iexact HoA'
      isplitl [Hs2]; · iexists _; iexact Hs2
      isplitl [HsB]; · iexact HsB
      isplitl [Hc1]; · iexact Hc1
      isplitl [Hc2]; · iexact Hc2
      isplitl [HoutA' HoutB' Hrest]
      · iapply (Entails.of_eq (out_join2 d L Tc Ic k))
        isplitl [HoutA']
        · iapply (Entails.of_eq ((pointsTo_congr hcA').trans (pts_oA2 (F := F) d L k _))); iexact HoutA'
        isplitl [HoutB']
        · iapply (Entails.of_eq ((pointsTo_congr hcB').trans (pts_oB2 (F := F) d L k _))); iexact HoutB'
        iexact Hrest
      iexists _; isplitr
      rotate_left
      · iexact HO
      · ipureintro; exact waits_insert (waits_insert (waits_insert (waits_insert hW' _) _) _) _
    · have hk15 : k.val = 15 := by have := (cond_iff2 k).not.mp hc; omega
      sl_exec
      unfold DAx2
      icases FlA_dst with ⟨%g6, %h6, Hs1, HoAp⟩
      ihave HoA := (pointsTo_split_subset (ℓ := s0Loc2 d L) (I := rowSetN (2 * k.val)) (S := Finset.univ) (Finset.subset_univ _)).2 $$ [HoAp HoAr]
      · isplitl [HoAp] <;> iassumption
      ihave HoA' := (Entails.of_eq (pts_s0_2 (F := F) d L _ _).symm) $$ HoA
      ihave Hs1' := (Entails.of_eq (pts_s1_2 (F := F) d L _).symm) $$ Hs1
      sl_exec
      sl_step
      generalize hcA : (oSlA2 L k).view.writes (Elt F) foA [_] = cA
      have hcA' : ∀ i ∈ (oSlA2 L k).view.set, cA i = gatherRows Tc Ic i := by
        rw [← hcA]
        exact blk_val2 d L Tc Ic foA _ (jA2 k) (fun x => h6 x) (k2_off4 L k) (offA_eq2 L k) (k2_off4_inb L k)
      generalize hcB : (oSlB2 L k).view.writes (Elt F) foB [_] = cB
      have hcB' : ∀ i ∈ (oSlB2 L k).view.set, cB i = gatherRows Tc Ic i := by
        rw [← hcB]
        exact blk_val2 d L Tc Ic foB _ (jB2 k)
          (isRow_B2 d L Tc (fIof2 L Ic) g2 (2 * k.val + 1) (by omega) (k2_off2 k) (k2_off2_eq k) (k2_off2_inb k) (fun _ => rfl) rfl (hin _ _ _))
          (k2_off6 L k) (offB_eq2 L k) (k2_off6_inb L k)
      rw [if_neg (show ¬ k.val + 1 < 16 by omega)]
      unfold noFl2
      isplitl [Hmw]; · iexact Hmw
      isplitl [HtB]; · iexact HtB
      isplitl [HoB]; · iexact HoB
      isplitl [FlA HtAr HoA' Hs1']
      · isplitl [HtAr]; · iexact HtAr
        isplitl [HoA']; · iexact HoA'
        isplitl [Hs1']; · iexists _; iexact Hs1'
        iexact FlA
      isplitl [Hs2]; · iexists _; iexact Hs2
      isplitl [HsB]; · iexact HsB
      isplitl [Hc1]; · iexact Hc1
      isplitl [Hc2]; · iexact Hc2
      isplitl [HoutA' HoutB' Hrest]
      · iapply (Entails.of_eq (out_join2 d L Tc Ic k))
        isplitl [HoutA']
        · iapply (Entails.of_eq ((pointsTo_congr hcA').trans (pts_oA2 (F := F) d L k _))); iexact HoutA'
        isplitl [HoutB']
        · iapply (Entails.of_eq ((pointsTo_congr hcB').trans (pts_oB2 (F := F) d L k _))); iexact HoutB'
        iexact Hrest
      iexists _; isplitr
      rotate_left
      · iexact HO
      · ipureintro; exact waits_insert (waits_insert (waits_insert (waits_insert hW' _) _) _) _
  · unfold inv2
    rw [if_pos (show (0 : ℕ) < 16 by decide)]
    unfold flA2
    isplitl [Hmw]; · iexact Hmw
    isplitl [HtB']; · iexact HtB'
    isplitl [HoB']; · iexact HoB'
    isplitl [FlA HtA' HoAr]
    · isplitl [FlA]; · iexact FlA
      isplitl [HtA']; · iexact HtA'
      iexact HoAr
    isplitl [Hs2']; · iexists _; iexact Hs2'
    isplitl [HsB]; · iexact HsB
    isplitl [Hc1]; · iexact Hc1
    isplitl [Hc2]; · iexact Hc2
    isplitl [Hout]; · iapply (Entails.of_eq (out_first2 d L Tc Ic)); iexact Hout
    iexists _; isplitr
    rotate_left
    · iexact HO
    · ipureintro; exact waits_insert (fun p hp => .inl hp) _
  iintro %_ HI
  unfold inv2
  have h16 : ¬ (k2_t1_loop.trips < 16) := by rw [trips_eq2]; omega
  rw [if_neg h16]
  unfold noFl2
  icases HI with ⟨-, HtB, HoB, ⟨HtA, HoA, ⟨%g1, Hs1⟩, HsA⟩, ⟨%g2, Hs2⟩, HsB, Hc1, Hc2, Hout, %W', %hW', HO⟩
  sl_exec
  sl_step
  unfold tileOut2
  isplitl [HtA HtB Hi' Hout]
  · isplitl [HtA HtB]
    · iapply (pointsTo_share (PosShare.mem_left_op_right (qTile (cL2 L) (sL2 L)))).2
      isplitl [HtA]
      · iapply (Entails.of_eq (pts_t2 (F := F) d L _ _)); iexact HtA
      · iapply (Entails.of_eq (pts_t2 (F := F) d L _ _)); iexact HtB
    isplitl [Hi']; · iapply (Entails.of_eq (pts_i2 (F := F) d L _)); iexact Hi'
    iapply (Entails.of_eq (out_last2 d L Tc Ic))
    rw [← trips_eq2]; iexact Hout
  isplitl [Hs1 Hs2 HoA HoB Hbufs]
  · isplitl [HoA HoB]
    · iexists _
      iapply (pointsTo_share (PosShare.mem_left_op_right (fullShare : PosShare TreeShare))).2
      isplitl [HoA]
      · iapply (Entails.of_eq (pts_s0_2 (F := F) d L _ _)); iexact HoA
      · iapply (Entails.of_eq (pts_s0_2 (F := F) d L _ _)); iexact HoB
    isplitl [Hs1]; · iexists _; iapply (Entails.of_eq (pts_s1_2 (F := F) d L _)); iexact Hs1
    isplitl [Hs2]; · iexists _; iapply (Entails.of_eq (pts_s2_2 (F := F) d L _)); iexact Hs2
    iexact Hbufs
  isplitl [HsA HsB Hc0 Hc1 Hc2 Hsems]
  · isplitl [HsA]; · iexact HsA
    isplitl [HsB]; · iexact HsB
    isplitl [Hc0]; · iexact Hc0
    isplitl [Hc1]; · iexact Hc1
    isplitl [Hc2]; · iexact Hc2
    iexact Hsems
  iexists W'; isplitr
  · ipureintro; exact hW'
  · iexact HO

end Main2

section Obl2
variable [FloatOps F]
variable (T1 T2 : Dev nD → S32768x128.Idx → Elt F .f32) (Ic : Dev nD → S1024x128.Idx → Elt F .i32)

def coordsV2 (c : Fin (grid2.bound 0)) (s : Fin (grid2.bound 1)) : grid2.Coords :=
  fun | 0 => c | 1 => s | ⟨_ + 2, h⟩ => absurd h (Nat.not_lt.2 (Nat.le_add_left _ _))

theorem defs₀_vector2 (c : Fin τ.nSC) (s : Fin τ.nSub) :
    defs₀ (F := F) (.scVector c s) 2 ()
      = SparseCore.onTile hcore2 hsub2 (fun c s => cc2_gather (coordsV2 c s)
          tW (Memref.isWhole_whole _) iW (Memref.isWhole_whole _) oW (Memref.isWhole_whole _)
          s0W (Memref.isWhole_whole _) s1W (Memref.isWhole_whole _) s2W (Memref.isWhole_whole _) cc2_scratch3 cc2_scratch4 cc2_scoped0 cc2_scoped1 cc2_scoped2) ⟨⟩ c s := rfl

theorem tile2 (hidx : ∀ d x, (Ic d x).toNat < 32768) : (K (F := F)).TileObl (D (F := F)) 𝒱 (P T1 T2 Ic) v₀ 1 := by
  intro d c i O W hO _ _
  simp only [show (P T1 T2 Ic).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vector2]; simp only [SparseCore.onTile, hc, and_self, ↓reduceDIte]
  exact (tile_body2 d (coordsV2 ⟨_, hc.1⟩ ⟨_, hc.2⟩) (T2 d) (Ic d) facts (hidx d) O W hO).trans (wp_mono frame _ _ fun _ => obl_post)

end Obl2

end Call2

end Cert.KernelIdeal.Sc

end
-- ==== Proof.Launch.Run.lean ====
import proofs.«214766_g21345987461187_cont_8to1_720_22_alg».proof.Proof.Launch.Main
import proofs.«214766_g21345987461187_cont_8to1_720_22_alg».proof.Proof.Sc.Tile
import proofs.«214766_g21345987461187_cont_8to1_720_22_alg».proof.Proof.Sc.Tile2

noncomputable section

namespace Cert.KernelIdeal.Launch

open Cert.KernelIdeal Cert.KernelIdeal.Gen Cert.KernelIdeal.Sc Cert.KernelIdeal.Hand Cert.Launch

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (g : Dev nD → PrngReg)

def u₀ : UU :=
  (initOf (K (F := F)).hsCells (K (F := F)).hsToks,
    (initOf (Pipeline.cells (nD := nD) (τ := τ) (Pipeline.pin (pcfgs (F := F)) adm) cellOf_inj) (Pipeline.launchToks (nD := nD) (τ := τ) (Pipeline.pin (pcfgs (F := F)) adm) cellOf_inj), 1))

set_option backward.isDefEq.respectTransparency.types false in
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (PP m).x q thr) := by
  unfold u₀
  iintro Hu
  ihave H := (ownU_split3 _ _ _) $$ Hu
  icases H with ⟨HH, HP⟩
  imod (Pipeline.fund_ghost (Pipeline.pin (pcfgs (F := F)) adm) EP cellOf_inj) $$ HP with ⟨Hc, Ht⟩
  imodintro
  isplitl [HH]; · iexact HH
  isplitl [Hc Ht]
  · simp only [G, bigSep_sep']
    isplitl [Hc] <;> iassumption
  · rw [Px_emp]; iempintro

def fq (d : Dev nD) (s' : Phys nD τ sig (Elt F)) : Prop :=
  ∀ b ∈ (SS : Finset (DevRef τ sig)), s'.mem.mem ((d, b) : Loc nD τ sig) = W13 m d b

theorem hfin (d : Dev nD) (s' : Phys nD τ sig (Elt F)) : iprop(FIN m d ∗ SI s') ⊢ (⌜fq m d s'⌝ : sProp 𝕄) :=
  (show iprop(FIN m d ∗ SI s') ⊢ (iprop(⌜∀ b ∈ (SS : Finset (DevRef τ sig)), s'.mem.mem ((d, b) : Loc nD τ sig) = W13 m d b⌝ ∗ SI s') : sProp 𝕄) from
    pointsTo_read_all (SS : Finset (DevRef τ sig)) (fun b => ((d, b) : Loc nD τ sig)) (W13 m d) s').trans (by
      iintro ⟨%h, -⟩; ipureintro; exact h)

def QC : PUnit × MemSt nD τ sig (Elt F) → Prop := fun r => ∀ c : Dev nD, ∀ b ∈ (SS : Finset (DevRef τ sig)), r.2.mem ((c, b) : Loc nD τ sig) = W13 m c b

variable [∀ e, Nonempty (Elt F e)]

set_option backward.isDefEq.respectTransparency.types false in
theorem run_main
    (hb0 : ∀ c, Pipeline.BodyObligation (dat0 m c) (defs₀ (F := F)) 𝒱₀ (none : HIx 2) Set.univ)
    (hb3 : ∀ c, Pipeline.BodyObligation (dat3 m c) (defs₀ (F := F)) 𝒱₀ (none : HIx 2) Set.univ)
    (hb4 : ∀ c, Pipeline.BodyObligation (dat4 m c) (defs₀ (F := F)) 𝒱₀ (none : HIx 2) Set.univ)
    (hb5 : ∀ c, Pipeline.BodyObligation (dat5 m c) (defs₀ (F := F)) 𝒱₀ (none : HIx 2) Set.univ)
    (hidx : ∀ d x, (Ic m d x).toNat < 32768) :
    θ_run (Cert.KernelIdeal.defs (F := F)) (Cert.KernelIdeal.threads (F := F)) ⟨m, fun _ => 0, g⟩ (QC m) :=
  SparseCore.Cfg.θ_run_sc (K := K (F := F)) (D := D (F := F)) (𝒱 := 𝒱) (EH := EH) (P := PP m) facts v₀
    (fun q hq => absurd hq (by rw [kind_eq q]; decide))
    (fun q _ => match q with | 0 => tile1 (T1 m) (T2 m) (Ic m) hidx | 1 => tile2 (T1 m) (T2 m) (Ic m) hidx)
    (fun q _ => SparseCore.Cfg.VecSplit.of_plain (vsplit (T1 m) (T2 m) (Ic m) q))
    m g main (fun d => G (F := F) d) (FIN m) (u₀ (F := F)) (sep_elim_left.trans (hu₀ m)) (hmain m g hb0 hb3 hb4 hb5) (fq m) (hfin m) (QC m)
    (fun _ h => h)

end Cert.KernelIdeal.Launch

end
-- ==== Proof.Launch.Writes.lean ====
import proofs.«214766_g21345987461187_cont_8to1_720_22_alg».proof.Proof.MainChain

namespace Cert.KernelIdeal.Hand

open Idealize.ShloMosaic Cert.KernelIdeal

/-- What host stretch 0 of @main writes: 3 references, one per operation. -/
abbrev writes0 : List (Ref sig .tc) :=
  [main_v0, main_v1, main_v2]

/-- What host stretch 1 of @main writes: 26 references, one per operation. -/
abbrev writes1 : List (Ref sig .tc) :=
  [main_v4, main_cst, main_v5, main_v6, main_v7, main_cst_0, main_v8, main_v9, main_v10, main_v11, main_cst_1, main_v12, main_v13, main_v14, main_v15, main_v16, main_v17, main_v18, main_c, main_v19, main_v20, main_v21, main_v22, main_v23, main_v24, main_v25]

/-- What host stretch 2 of @main writes: 1 references, one per operation. -/
abbrev writes2 : List (Ref sig .tc) :=
  [main_v27]

/-- What host stretch 3 of @main writes: 7 references, one per operation. -/
abbrev writes3 : List (Ref sig .tc) :=
  [main_v29, main_v30, main_v31, main_v32, main_v33, main_v34, main_v35]

/-- What host stretch 4 of @main writes: 19 references, one per operation. -/
abbrev writes4 : List (Ref sig .tc) :=
  [main_v37, main_cst_2, main_v38, main_v39, main_v40, main_cst_3, main_v41, main_v42, main_v43, main_v44, main_cst_4, main_v45, main_v46, main_v47, main_v48, main_v49, main_v50, main_v51, main_v52]

/-- What host stretch 5 of @main writes: 1 references, one per operation. -/
abbrev writes5 : List (Ref sig .tc) :=
  [main_v53]

/-- What host stretch 6 of @main writes: 19 references, one per operation. -/
abbrev writes6 : List (Ref sig .tc) :=
  [main_v55, main_cst_5, main_v56, main_v57, main_v58, main_cst_6, main_v59, main_v60, main_v61, main_v62, main_cst_7, main_v63, main_v64, main_v65, main_v66, main_v67, main_v68, main_v69, main_v70]

end Cert.KernelIdeal.Hand
-- ==== Proof.Launch.Kept.lean ====
import proofs.«214766_g21345987461187_cont_8to1_720_22_alg».proof.Proof.Launch.Fold
import proofs.«214766_g21345987461187_cont_8to1_720_22_alg».proof.Proof.Launch.Writes
import Idealize.ShloMosaic.Lib.Pipeline.FrameSuffix
import Idealize.ShloMosaic.Lib.StableHlo.Run

set_option maxRecDepth 16384

noncomputable section

namespace Cert.KernelIdeal.Launch

open Cert.KernelIdeal Cert.KernelIdeal.Gen Cert.KernelIdeal.Sc Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]

theorem writes_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

theorem hostOps0_writes : (hostOps0 (F := F)).Forall fun op => op.writes ⊆ (writes0.map (Proc.devRef (τ := τ) .tc)).toFinset := by
  simp only [hostOps0, List.Forall, StableHlo.nullary_writes, StableHlo.unary_writes, StableHlo.binary_writes, StableHlo.reshape_writes]
  repeat' apply And.intro
  all_goals exact writes_sub (by decide)
theorem hostOps1_writes : (hostOps1 (F := F)).Forall fun op => op.writes ⊆ (writes1.map (Proc.devRef (τ := τ) .tc)).toFinset := by
  simp only [hostOps1, List.Forall, StableHlo.nullary_writes, StableHlo.unary_writes, StableHlo.binary_writes, StableHlo.reshape_writes]
  repeat' apply And.intro
  all_goals exact writes_sub (by decide)
theorem hostOps2_writes : (hostOps2 (F := F)).Forall fun op => op.writes ⊆ (writes2.map (Proc.devRef (τ := τ) .tc)).toFinset := by
  simp only [hostOps2, List.Forall, StableHlo.nullary_writes, StableHlo.unary_writes, StableHlo.binary_writes, StableHlo.reshape_writes]
  repeat' apply And.intro
  all_goals exact writes_sub (by decide)
theorem hostOps3_writes : (hostOps3 (F := F)).Forall fun op => op.writes ⊆ (writes3.map (Proc.devRef (τ := τ) .tc)).toFinset := by
  simp only [hostOps3, List.Forall, StableHlo.nullary_writes, StableHlo.unary_writes, StableHlo.binary_writes, StableHlo.reshape_writes]
  repeat' apply And.intro
  all_goals exact writes_sub (by decide)
theorem hostOps4_writes : (hostOps4 (F := F)).Forall fun op => op.writes ⊆ (writes4.map (Proc.devRef (τ := τ) .tc)).toFinset := by
  simp only [hostOps4, List.Forall, StableHlo.nullary_writes, StableHlo.unary_writes, StableHlo.binary_writes, StableHlo.reshape_writes]
  repeat' apply And.intro
  all_goals exact writes_sub (by decide)
theorem hostOps5_writes : (hostOps5 (F := F)).Forall fun op => op.writes ⊆ (writes5.map (Proc.devRef (τ := τ) .tc)).toFinset := by
  simp only [hostOps5, List.Forall, StableHlo.nullary_writes, StableHlo.unary_writes, StableHlo.binary_writes, StableHlo.reshape_writes]
  repeat' apply And.intro
  all_goals exact writes_sub (by decide)
theorem hostOps6_writes : (hostOps6 (F := F)).Forall fun op => op.writes ⊆ (writes6.map (Proc.devRef (τ := τ) .tc)).toFinset := by
  simp only [hostOps6, List.Forall, StableHlo.nullary_writes, StableHlo.unary_writes, StableHlo.binary_writes, StableHlo.reshape_writes]
  repeat' apply And.intro
  all_goals exact writes_sub (by decide)

section Region

variable {Ix : Type} [DecidableEq Ix] {Name : Type} [DecidableEq Name] {U : Type} [URA U] {Lvl : Type}

theorem region_kept {cfg : Pipeline.Cfg sig Λ₀} {c : Dev nD} (dat : Dat τ (Elt F) Ix Name U Lvl cfg c)
    (hinj : Function.Injective (Pipeline.arrRef cfg.spec)) (V : Valuation τ sig (Elt F))
    (hA : ∀ w, dat.A w = V (Proc.devRef .tc (Pipeline.arrRef cfg.spec w)))
    (r : Ref sig .tc) (hr : ∀ w, Pipeline.arrRef cfg.spec w = r → (cfg.win w).isOut = false) :
    Pipeline.withArrays cfg.spec c V (fun w => dat.arrAt w cfg.N) (Proc.devRef .tc r) = V (Proc.devRef .tc r) := by
  by_cases h : ∃ w, Pipeline.arrRef cfg.spec w = r
  · obtain ⟨w, rfl⟩ := h
    rw [Pipeline.withArrays_arr _ hinj, dat.arrAt_in w (hr w rfl), hA]
  · exact Pipeline.withArrays_of_ne _ c V _ r (fun w e => h ⟨w, e⟩)

end Region

variable (m : (ℓ : Loc nD τ sig) → Buf (Elt F) ℓ)

section Steps
variable (d : Dev nD) (r : Ref sig .tc)

theorem keep1 (h : r ∉ writes0) : W1 m d (Proc.devRef .tc r) = W0 m d (Proc.devRef .tc r) :=
  StableHlo.after_of_writes_sub hostOps0 (W0 m d) hostOps0_writes h
theorem keep2 (hr : ∀ w, Pipeline.arrRef spec0 w = r → (cfg0.win w).isOut = false) :
    W2 m d (Proc.devRef .tc r) = W1 m d (Proc.devRef .tc r) :=
  region_kept (dat0 m d) launch0.win.arr_inj (W1 m d) (fun w => R0.A_eq (Vof (W1 m)) _ _ Ψ0 d w) r hr
theorem keep3 (h : r ∉ writes1) : W3 m d (Proc.devRef .tc r) = W2 m d (Proc.devRef .tc r) :=
  StableHlo.after_of_writes_sub hostOps1 (W2 m d) hostOps1_writes h
theorem keep4 (h : r ≠ main_v26) : W4 m d (Proc.devRef .tc r) = W3 m d (Proc.devRef .tc r) :=
  Function.update_of_ne (StableHlo.devRef_ne_of_ne h) _ _
theorem keep5 (h : r ∉ writes2) : W5 m d (Proc.devRef .tc r) = W4 m d (Proc.devRef .tc r) :=
  StableHlo.after_of_writes_sub hostOps2 (W4 m d) hostOps2_writes h
theorem keep6 (h : r ≠ main_v28) : W6 m d (Proc.devRef .tc r) = W5 m d (Proc.devRef .tc r) :=
  Function.update_of_ne (StableHlo.devRef_ne_of_ne h) _ _
theorem keep7 (h : r ∉ writes3) : W7 m d (Proc.devRef .tc r) = W6 m d (Proc.devRef .tc r) :=
  StableHlo.after_of_writes_sub hostOps3 (W6 m d) hostOps3_writes h
theorem keep8 (hr : ∀ w, Pipeline.arrRef spec3 w = r → (cfg3.win w).isOut = false) :
    W8 m d (Proc.devRef .tc r) = W7 m d (Proc.devRef .tc r) :=
  region_kept (dat3 m d) launch3.win.arr_inj (W7 m d) (fun w => R3.A_eq (Vof (W7 m)) _ Ψ3 d w) r hr
theorem keep9 (h : r ∉ writes4) : W9 m d (Proc.devRef .tc r) = W8 m d (Proc.devRef .tc r) :=
  StableHlo.after_of_writes_sub hostOps4 (W8 m d) hostOps4_writes h
theorem keep10 (h : r ∉ writes5) : W10 m d (Proc.devRef .tc r) = W9 m d (Proc.devRef .tc r) :=
  StableHlo.after_of_writes_sub hostOps5 (W9 m d) hostOps5_writes h
theorem keep11 (hr : ∀ w, Pipeline.arrRef spec4 w = r → (cfg4.win w).isOut = false) :
    W11 m d (Proc.devRef .tc r) = W10 m d (Proc.devRef .tc r) :=
  region_kept (dat4 m d) launch4.win.arr_inj (W10 m d) (fun w => R4.A_eq (Vof (W10 m)) _ Ψ4 d w) r hr
theorem keep12 (h : r ∉ writes6) : W12 m d (Proc.devRef .tc r) = W11 m d (Proc.devRef .tc r) :=
  StableHlo.after_of_writes_sub hostOps6 (W11 m d) hostOps6_writes h
theorem keep13 (hr : ∀ w, Pipeline.arrRef spec5 w = r → (cfg5.win w).isOut = false) :
    W13 m d (Proc.devRef .tc r) = W12 m d (Proc.devRef .tc r) :=
  region_kept (dat5 m d) launch5.win.arr_inj (W12 m d) (fun w => R5.A_eq (Vof (W12 m)) _ Ψ5 d w) r hr

end Steps

theorem W2_arr (d : Dev nD) (w : Fin cfg0.W) :
    W2 m d (Proc.devRef .tc (Pipeline.arrRef spec0 w)) = (dat0 m d).arrAt w cfg0.N := by
  unfold W2; exact Pipeline.withArrays_arr spec0 launch0.win.arr_inj d _ _ w
theorem W8_arr (d : Dev nD) (w : Fin cfg3.W) :
    W8 m d (Proc.devRef .tc (Pipeline.arrRef spec3 w)) = (dat3 m d).arrAt w cfg3.N := by
  unfold W8; exact Pipeline.withArrays_arr spec3 launch3.win.arr_inj d _ _ w
theorem W11_arr (d : Dev nD) (w : Fin cfg4.W) :
    W11 m d (Proc.devRef .tc (Pipeline.arrRef spec4 w)) = (dat4 m d).arrAt w cfg4.N := by
  unfold W11; exact Pipeline.withArrays_arr spec4 launch4.win.arr_inj d _ _ w
theorem W13_arr (d : Dev nD) (w : Fin cfg5.W) :
    W13 m d (Proc.devRef .tc (Pipeline.arrRef spec5 w)) = (dat5 m d).arrAt w cfg5.N := by
  unfold W13; exact Pipeline.withArrays_arr spec5 launch5.win.arr_inj d _ _ w
theorem W4_out (d : Dev nD) : W4 m d (Proc.devRef .tc main_v26) = gatherRows (T1 m d) (Ic m d) := by
  unfold W4; exact Function.update_self _ _ _
theorem W6_out (d : Dev nD) : W6 m d (Proc.devRef .tc main_v28) = gatherRows (T2 m d) (Ic m d) := by
  unfold W6; exact Function.update_self _ _ _

theorem kept (d : Dev nD) (r : Ref sig .tc)
    (h0 : r ∉ writes0) (h1 : r ∉ writes1) (h2 : r ∉ writes2) (h3 : r ∉ writes3) (h4 : r ∉ writes4)
    (h5 : r ∉ writes5) (h6 : r ∉ writes6) (hg1 : r ≠ main_v26) (hg2 : r ≠ main_v28)
    (hr0 : ∀ w, Pipeline.arrRef spec0 w = r → (cfg0.win w).isOut = false)
    (hr3 : ∀ w, Pipeline.arrRef spec3 w = r → (cfg3.win w).isOut = false)
    (hr4 : ∀ w, Pipeline.arrRef spec4 w = r → (cfg4.win w).isOut = false)
    (hr5 : ∀ w, Pipeline.arrRef spec5 w = r → (cfg5.win w).isOut = false) :
    W13 m d (Proc.devRef .tc r) = m ((d : Thread nD τ).loc r) :=
  calc W13 m d (Proc.devRef .tc r)
    _ = W12 m d (Proc.devRef .tc r) := keep13 m d r hr5
    _ = W11 m d (Proc.devRef .tc r) := keep12 m d r h6
    _ = W10 m d (Proc.devRef .tc r) := keep11 m d r hr4
    _ = W9 m d (Proc.devRef .tc r) := keep10 m d r h5
    _ = W8 m d (Proc.devRef .tc r) := keep9 m d r h4
    _ = W7 m d (Proc.devRef .tc r) := keep8 m d r hr3
    _ = W6 m d (Proc.devRef .tc r) := keep7 m d r h3
    _ = W5 m d (Proc.devRef .tc r) := keep6 m d r hg2
    _ = W4 m d (Proc.devRef .tc r) := keep5 m d r h2
    _ = W3 m d (Proc.devRef .tc r) := keep4 m d r hg1
    _ = W2 m d (Proc.devRef .tc r) := keep3 m d r h1
    _ = W1 m d (Proc.devRef .tc r) := keep2 m d r hr0
    _ = W0 m d (Proc.devRef .tc r) := keep1 m d r h0
    _ = m ((d : Thread nD τ).loc r) := rfl

theorem W13_main_arg0 (d : Dev nD) : W13 m d (Proc.devRef .tc main_arg0) = m ((d : Thread nD τ).loc main_arg0) :=
  kept m d main_arg0 (by decide) (by decide) (by decide) (by decide) (by decide) (by decide) (by decide) (by decide) (by decide)
    (by decide) (by decide) (by decide) (by decide)
theorem W13_main_arg1 (d : Dev nD) : W13 m d (Proc.devRef .tc main_arg1) = m ((d : Thread nD τ).loc main_arg1) :=
  kept m d main_arg1 (by decide) (by decide) (by decide) (by decide) (by decide) (by decide) (by decide) (by decide) (by decide)
    (by decide) (by decide) (by decide) (by decide)
theorem W13_main_arg2 (d : Dev nD) : W13 m d (Proc.devRef .tc main_arg2) = m ((d : Thread nD τ).loc main_arg2) :=
  kept m d main_arg2 (by decide) (by decide) (by decide) (by decide) (by decide) (by decide) (by decide) (by decide) (by decide)
    (by decide) (by decide) (by decide) (by decide)
theorem W13_main_arg3 (d : Dev nD) : W13 m d (Proc.devRef .tc main_arg3) = m ((d : Thread nD τ).loc main_arg3) :=
  kept m d main_arg3 (by decide) (by decide) (by decide) (by decide) (by decide) (by decide) (by decide) (by decide) (by decide)
    (by decide) (by decide) (by decide) (by decide)
theorem W13_main_arg4 (d : Dev nD) : W13 m d (Proc.devRef .tc main_arg4) = m ((d : Thread nD τ).loc main_arg4) :=
  kept m d main_arg4 (by decide) (by decide) (by decide) (by decide) (by decide) (by decide) (by decide) (by decide) (by decide)
    (by decide) (by decide) (by decide) (by decide)
theorem W13_main_arg5 (d : Dev nD) : W13 m d (Proc.devRef .tc main_arg5) = m ((d : Thread nD τ).loc main_arg5) :=
  kept m d main_arg5 (by decide) (by decide) (by decide) (by decide) (by decide) (by decide) (by decide) (by decide) (by decide)
    (by decide) (by decide) (by decide) (by decide)
theorem W13_main_arg6 (d : Dev nD) : W13 m d (Proc.devRef .tc main_arg6) = m ((d : Thread nD τ).loc main_arg6) :=
  kept m d main_arg6 (by decide) (by decide) (by decide) (by decide) (by decide) (by decide) (by decide) (by decide) (by decide)
    (by decide) (by decide) (by decide) (by decide)
theorem W13_main_arg7 (d : Dev nD) : W13 m d (Proc.devRef .tc main_arg7) = m ((d : Thread nD τ).loc main_arg7) :=
  kept m d main_arg7 (by decide) (by decide) (by decide) (by decide) (by decide) (by decide) (by decide) (by decide) (by decide)
    (by decide) (by decide) (by decide) (by decide)
theorem W13_main_arg8 (d : Dev nD) : W13 m d (Proc.devRef .tc main_arg8) = m ((d : Thread nD τ).loc main_arg8) :=
  kept m d main_arg8 (by decide) (by decide) (by decide) (by decide) (by decide) (by decide) (by decide) (by decide) (by decide)
    (by decide) (by decide) (by decide) (by decide)
theorem W13_main_arg9 (d : Dev nD) : W13 m d (Proc.devRef .tc main_arg9) = m ((d : Thread nD τ).loc main_arg9) :=
  kept m d main_arg9 (by decide) (by decide) (by decide) (by decide) (by decide) (by decide) (by decide) (by decide) (by decide)
    (by decide) (by decide) (by decide) (by decide)
theorem W13_main_arg10 (d : Dev nD) : W13 m d (Proc.devRef .tc main_arg10) = m ((d : Thread nD τ).loc main_arg10) :=
  kept m d main_arg10 (by decide) (by decide) (by decide) (by decide) (by decide) (by decide) (by decide) (by decide) (by decide)
    (by decide) (by decide) (by decide) (by decide)
theorem W13_main_arg11 (d : Dev nD) : W13 m d (Proc.devRef .tc main_arg11) = m ((d : Thread nD τ).loc main_arg11) :=
  kept m d main_arg11 (by decide) (by decide) (by decide) (by decide) (by decide) (by decide) (by decide) (by decide) (by decide)
    (by decide) (by decide) (by decide) (by decide)
theorem W13_main_arg12 (d : Dev nD) : W13 m d (Proc.devRef .tc main_arg12) = m ((d : Thread nD τ).loc main_arg12) :=
  kept m d main_arg12 (by decide) (by decide) (by decide) (by decide) (by decide) (by decide) (by decide) (by decide) (by decide)
    (by decide) (by decide) (by decide) (by decide)
theorem W13_main_arg13 (d : Dev nD) : W13 m d (Proc.devRef .tc main_arg13) = m ((d : Thread nD τ).loc main_arg13) :=
  kept m d main_arg13 (by decide) (by decide) (by decide) (by decide) (by decide) (by decide) (by decide) (by decide) (by decide)
    (by decide) (by decide) (by decide) (by decide)
theorem W13_main_arg14 (d : Dev nD) : W13 m d (Proc.devRef .tc main_arg14) = m ((d : Thread nD τ).loc main_arg14) :=
  kept m d main_arg14 (by decide) (by decide) (by decide) (by decide) (by decide) (by decide) (by decide) (by decide) (by decide)
    (by decide) (by decide) (by decide) (by decide)
theorem W13_main_arg15 (d : Dev nD) : W13 m d (Proc.devRef .tc main_arg15) = m ((d : Thread nD τ).loc main_arg15) :=
  kept m d main_arg15 (by decide) (by decide) (by decide) (by decide) (by decide) (by decide) (by decide) (by decide) (by decide)
    (by decide) (by decide) (by decide) (by decide)
theorem W13_main_arg16 (d : Dev nD) : W13 m d (Proc.devRef .tc main_arg16) = m ((d : Thread nD τ).loc main_arg16) :=
  kept m d main_arg16 (by decide) (by decide) (by decide) (by decide) (by decide) (by decide) (by decide) (by decide) (by decide)
    (by decide) (by decide) (by decide) (by decide)
theorem W13_main_arg17 (d : Dev nD) : W13 m d (Proc.devRef .tc main_arg17) = m ((d : Thread nD τ).loc main_arg17) :=
  kept m d main_arg17 (by decide) (by decide) (by decide) (by decide) (by decide) (by decide) (by decide) (by decide) (by decide)
    (by decide) (by decide) (by decide) (by decide)

end Cert.KernelIdeal.Launch

end
-- ==== Proof.Spec.lean ====
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev A1 (a : Nat) : Type := (⟨1, ![a]⟩ : Shape).Idx → EReal
abbrev A2 (a b : Nat) : Type := (⟨2, ![a, b]⟩ : Shape).Idx → EReal
abbrev A3 (a b c : Nat) : Type := (⟨3, ![a, b, c]⟩ : Shape).Idx → EReal
abbrev A4 (a b c d : Nat) : Type := (⟨4, ![a, b, c, d]⟩ : Shape).Idx → EReal
abbrev I2 (a b : Nat) : Type := (⟨2, ![a, b]⟩ : Shape).Idx → BitVec 32
abbrev I3 (a b c : Nat) : Type := (⟨3, ![a, b, c]⟩ : Shape).Idx → BitVec 32

abbrev zeroW : EReal := Ideal.ofBits .f32 0x00000000#32
abbrev oneW : EReal := Ideal.ofBits .f32 0x3F800000#32
abbrev epsW : EReal := Ideal.ofBits .f32 0x3727C5AC#32
abbrev tinyW : EReal := Ideal.ofBits .f32 0x2B8CBCCC#32
abbrev cnt0W : EReal := Ideal.ofBits .f32 0x47000000#32
abbrev cnt1W : EReal := Ideal.ofBits .f32 0x46000000#32
abbrev negBigW : EReal := Ideal.ofBits .f32 0xCE6E6B28#32
abbrev negInfW : EReal := Ideal.ofBits .f32 0xFF800000#32

def post (pos : A3 2 3 16384) : A3 2 16384 3 := fun i => pos (ix3 (i 0) (i 2) (i 1))
def sptOf (sp : A3 2 3 4096) : A3 2 4096 3 := fun i => sp (ix3 (i 0) (i 2) (i 1))
def kptOf (KP : A2 16 3) : A2 3 16 := fun i => KP (ix2 (i 1) (i 0))
def row (C : Nat) (v : A1 C) : A2 1 C := fun i => v (ix1 (i 1))
def maskF (mask : I3 2 4096 16) : A3 2 4096 16 := fun i => (((mask i).toInt : ℝ) : EReal)

def flatRows (T : A3 2 16384 128) : A2 32768 128 := fun i =>
  let r : Fin 32768 := i 0
  T (ix3 (⟨r.val / 16384, by omega⟩ : Fin 2) (⟨r.val % 16384, by omega⟩ : Fin 16384) (i 1))

def unflat (G : A2 131072 128) : A4 2 4096 16 128 := fun i =>
  let b : Fin 2 := i 0
  let s : Fin 4096 := i 1
  let k : Fin 16 := i 2
  G (ix2 (⟨(b.val * 4096 + s.val) * 16 + k.val, by omega⟩ : Fin 131072) (i 3))

def y0 (x : A3 2 128 16384) (W0 : A2 64 128) (b0r : A2 1 64) : A3 2 16384 64 := fun i =>
  (∑ c : Fin 128, x (ix3 (i 0) c (i 1)) * W0 (ix2 (i 2) c)) + b0r (ix2 0 (i 2))

def y0t (x : A3 2 128 16384) (pt : A3 2 16384 3) (W0 : A2 64 128) (b0r : A2 1 64) : A3 2 16384 128 := fun i =>
  let j : Fin 128 := i 2
  if h : j.val < 64 then y0 x W0 b0r (ix3 (i 0) (i 1) (⟨j.val, h⟩ : Fin 64))
  else if h2 : j.val < 67 then pt (ix3 (i 0) (i 1) (⟨j.val - 64, by omega⟩ : Fin 3))
  else zeroW

def xt (x : A3 2 128 16384) : A3 2 16384 128 := fun i => x (ix3 (i 0) (i 2) (i 1))

def colSum (L C : Nat) (y : A3 2 L C) : A2 1 C := fun i =>
  ∑ b : Fin 2, ∑ n : Fin L, y (ix3 b n (i 1))
def colSumSq (L C : Nat) (y : A3 2 L C) : A2 1 C := fun i =>
  ∑ b : Fin 2, ∑ n : Fin L, y (ix3 b n (i 1)) * y (ix3 b n (i 1))

def scaleOf (s1 s2 cnt g : EReal) : EReal :=
  g * Ideal.rsqrt ((Ideal.div s2 cnt - Ideal.div s1 cnt * Ideal.div s1 cnt) + epsW)
def shiftOf (s1 cnt a be : EReal) : EReal := be - Ideal.div s1 cnt * a

def bnA (C : Nat) (s1 s2 : A2 1 C) (cnt : EReal) (g : A1 C) : A2 1 C := fun i =>
  scaleOf (s1 (ix2 0 (i 1))) (s2 (ix2 0 (i 1))) cnt (g (ix1 (i 1)))
def bnC (C : Nat) (s1 : A2 1 C) (cnt : EReal) (a : A2 1 C) (be : A1 C) : A2 1 C := fun i =>
  shiftOf (s1 (ix2 0 (i 1))) cnt (a (ix2 0 (i 1))) (be (ix1 (i 1)))

def rowOf (w : BitVec 32) : Fin 32768 := ⟨w.toNat % 32768, Nat.mod_lt _ (by norm_num)⟩
def colOf (w : BitVec 32) : Fin 16384 := ⟨w.toNat % 16384, Nat.mod_lt _ (by norm_num)⟩

def idxFlat (nbr : I3 2 4096 16) : I2 1024 128 := fun i =>
  let q : Fin 1024 := i 0
  let l : Fin 128 := i 1
  let r : Nat := q.val * 128 + l.val
  let b : Fin 2 := ⟨r / 65536, by omega⟩
  nbr (ix3 b (⟨(r / 16) % 4096, by omega⟩ : Fin 4096) (⟨r % 16, by omega⟩ : Fin 16)) + BitVec.ofNat 32 b.val * 16384#32

def gatherRows (T : A2 32768 128) (I : I2 1024 128) : A2 131072 128 := fun i =>
  let r : Fin 131072 := i 0
  T (ix2 (rowOf (I (ix2 (⟨r.val / 128, by omega⟩ : Fin 1024) (⟨r.val % 128, by omega⟩ : Fin 128)))) (i 1))

def pcF (gf : A4 2 4096 16 128) (a0 c0 : A2 1 64) (b : Fin 2) (s : Fin 4096) (k : Fin 16) (c : Fin 64) : EReal :=
  max (gf (ix4 b s k (⟨c.val, by omega⟩ : Fin 128)) * a0 (ix2 0 c) + c0 (ix2 0 c)) zeroW

def pcRel (gf : A4 2 4096 16 128) (spt : A3 2 4096 3) (b : Fin 2) (s : Fin 4096) (k : Fin 16) (t : Fin 3) : EReal :=
  gf (ix4 b s k (⟨64 + t.val, by omega⟩ : Fin 128)) - spt (ix3 b s t)

def pcW (gf : A4 2 4096 16 128) (spt : A3 2 4096 3) (maskf : A3 2 4096 16) (KPt : A2 3 16)
    (b : Fin 2) (s : Fin 4096) (k : Fin 16) (p : Fin 16) : EReal :=
  let dx := pcRel gf spt b s k 0 - KPt (ix2 0 p)
  let dy := pcRel gf spt b s k 1 - KPt (ix2 1 p)
  let dz := pcRel gf spt b s k 2 - KPt (ix2 2 p)
  max (oneW - Ideal.div (Ideal.sqrt (((dx * dx + dy * dy) + dz * dz) + tinyW)) oneW) zeroW * maskf (ix3 b s k)

def pointConv (gf : A4 2 4096 16 128) (spt : A3 2 4096 3) (maskf : A3 2 4096 16) (KPt : A2 3 16)
    (Wk : A3 16 64 64) (a0 c0 bkr : A2 1 64) : A3 2 4096 64 := fun i =>
  (∑ p : Fin 16, ∑ c : Fin 64,
      (∑ k : Fin 16, pcW gf spt maskf KPt (i 0) (i 1) k p * pcF gf a0 c0 (i 0) (i 1) k c) * Wk (ix3 p c (i 2)))
    + bkr (ix2 0 (i 2))

def conv2 (y1 : A3 2 4096 64) (a1 c1 : A2 1 64) (W2 : A2 128 64) (b2r : A2 1 128) : A3 2 4096 128 := fun i =>
  (∑ c : Fin 64, max (y1 (ix3 (i 0) (i 1) c) * a1 (ix2 0 c) + c1 (ix2 0 c)) zeroW * W2 (ix2 (i 2) c))
    + b2r (ix2 0 (i 2))

def pool (xg : A4 2 4096 16 128) (maskf : A3 2 4096 16) : A3 2 4096 128 := fun i =>
  let m : EReal := (Finset.univ : Finset (Fin 16)).fold max negInfW
    (fun k => if zeroW < maskf (ix3 (i 0) (i 1) k) then xg (ix4 (i 0) (i 1) k (i 2)) else negBigW)
  if m ≤ negBigW then zeroW else m

def finalOut (y2 xs : A3 2 4096 128) (a2 c2 : A2 1 128) : A3 2 128 4096 := fun i =>
  max ((y2 (ix3 (i 0) (i 2) (i 1)) * a2 (ix2 0 (i 1)) + c2 (ix2 0 (i 1))) + xs (ix3 (i 0) (i 2) (i 1))) zeroW

def kerOut (x : A3 2 128 16384) (pos : A3 2 3 16384) (sp : A3 2 3 4096) (nbr mask : I3 2 4096 16)
    (W0 : A2 64 128) (b0 g0 be0 : A1 64) (KP : A2 16 3) (Wk : A3 16 64 64) (bk g1 be1 : A1 64)
    (W2 : A2 128 64) (b2 g2 be2 : A1 128) : A3 2 128 4096 :=
  let maskf := maskF mask
  let yy0 := y0 x W0 (row 64 b0)
  let s1_0 := colSum 16384 64 yy0
  let s2_0 := colSumSq 16384 64 yy0
  let a0 := bnA 64 s1_0 s2_0 cnt0W g0
  let c0 := bnC 64 s1_0 cnt0W a0 be0
  let idx := idxFlat nbr
  let gx := gatherRows (flatRows (xt x)) idx
  let gf := gatherRows (flatRows (y0t x (post pos) W0 (row 64 b0))) idx
  let yy1 := pointConv (unflat gf) (sptOf sp) maskf (kptOf KP) Wk a0 c0 (row 64 bk)
  let s1_1 := colSum 4096 64 yy1
  let s2_1 := colSumSq 4096 64 yy1
  let a1 := bnA 64 s1_1 s2_1 cnt1W g1
  let c1 := bnC 64 s1_1 cnt1W a1 be1
  let yy2 := conv2 yy1 a1 c1 W2 (row 128 b2)
  let xs := pool (unflat gx) maskf
  let s1_2 := colSum 4096 128 yy2
  let s2_2 := colSumSq 4096 128 yy2
  let a2 := bnA 128 s1_2 s2_2 cnt1W g2
  let c2 := bnC 128 s1_2 cnt1W a2 be2
  finalOut yy2 xs a2 c2

def refConv (C O L : Nat) (x : A3 2 C L) (W : A2 O C) (bias : A1 O) : A3 2 O L := fun i =>
  (∑ c : Fin C, x (ix3 (i 0) c (i 2)) * W (ix2 (i 1) c)) + bias (ix1 (i 1))

def refMean (C L : Nat) (cnt : EReal) (y : A3 2 C L) (o : Fin C) : EReal :=
  Ideal.div (∑ b : Fin 2, ∑ n : Fin L, y (ix3 b o n)) cnt
def refVar (C L : Nat) (cnt : EReal) (y : A3 2 C L) (o : Fin C) : EReal :=
  Ideal.div (∑ b : Fin 2, ∑ n : Fin L,
    (y (ix3 b o n) - refMean C L cnt y o) * (y (ix3 b o n) - refMean C L cnt y o)) cnt
def refBN (C L : Nat) (cnt : EReal) (y : A3 2 C L) (g be : A1 C) : A3 2 C L := fun i =>
  Ideal.div (y i - refMean C L cnt y (i 1)) (Ideal.sqrt (refVar C L cnt y (i 1) + epsW)) * g (ix1 (i 1)) + be (ix1 (i 1))
def refRelu (C L : Nat) (y : A3 2 C L) : A3 2 C L := fun i => max (y i) zeroW

def refGather (C : Nat) (h : A3 2 C 16384) (nbr : I3 2 4096 16) : A4 2 4096 16 C := fun i =>
  h (ix3 (i 0) (i 3) (colOf (nbr (ix3 (i 0) (i 1) (i 2)))))

def refW (npos : A4 2 4096 16 3) (sp : A3 2 3 4096) (mask : I3 2 4096 16) (KP : A2 16 3)
    (b : Fin 2) (s : Fin 4096) (k : Fin 16) (p : Fin 16) : EReal :=
  max (oneW - Ideal.div (Ideal.sqrt ((∑ t : Fin 3,
      ((npos (ix4 b s k t) - sp (ix3 b t s)) - KP (ix2 p t)) * ((npos (ix4 b s k t) - sp (ix3 b t s)) - KP (ix2 p t))) + tinyW)) oneW) zeroW
    * maskF mask (ix3 b s k)

def refPointConv (h : A3 2 64 16384) (pos : A3 2 3 16384) (sp : A3 2 3 4096) (nbr mask : I3 2 4096 16)
    (KP : A2 16 3) (Wk : A3 16 64 64) (bk : A1 64) : A3 2 64 4096 := fun i =>
  (∑ c : Fin 64, ∑ p : Fin 16,
      (∑ k : Fin 16, refGather 64 h nbr (ix4 (i 0) (i 2) k c) * refW (refGather 3 pos nbr) sp mask KP (i 0) (i 2) k p)
        * Wk (ix3 p c (i 1)))
    + bk (ix1 (i 1))

def refPool (x : A3 2 128 16384) (nbr mask : I3 2 4096 16) : A3 2 128 4096 := fun i =>
  let m : EReal := (Finset.univ : Finset (Fin 16)).fold max negInfW
    (fun k => if 0 < (mask (ix3 (i 0) (i 2) k)).toInt then refGather 128 x nbr (ix4 (i 0) (i 2) k (i 1)) else negBigW)
  if m ≤ negBigW then zeroW else m

def refOut (x : A3 2 128 16384) (pos : A3 2 3 16384) (sp : A3 2 3 4096) (nbr mask : I3 2 4096 16)
    (W0 : A2 64 128) (b0 g0 be0 : A1 64) (KP : A2 16 3) (Wk : A3 16 64 64) (bk g1 be1 : A1 64)
    (W2 : A2 128 64) (b2 g2 be2 : A1 128) : A3 2 128 4096 :=
  let h0 := refRelu 64 16384 (refBN 64 16384 cnt0W (refConv 128 64 16384 x W0 b0) g0 be0)
  let h1 := refRelu 64 4096 (refBN 64 4096 cnt1W (refPointConv h0 pos sp nbr mask KP Wk bk) g1 be1)
  let h2 := refBN 128 4096 cnt1W (refConv 64 128 4096 h1 W2 b2) g2 be2
  let xs := refPool x nbr mask
  fun i => max (h2 i + xs i) zeroW

end Cert.Spec
-- ==== Proof.SpecAt.lean ====
import proofs.«214766_g21345987461187_cont_8to1_720_22_alg».proof.Proof.Spec

noncomputable section

open scoped BigOperators

namespace Cert.Spec

open Idealize.ShloMosaic Idealize.ShloMosaic.ValueIdx

theorem post_at (pos : A3 2 3 16384) (b : Fin 2) (n : Fin 16384) (t : Fin 3) :
    post pos (ix3 b n t) = pos (ix3 b t n) := rfl
theorem sptOf_at (sp : A3 2 3 4096) (b : Fin 2) (s : Fin 4096) (t : Fin 3) :
    sptOf sp (ix3 b s t) = sp (ix3 b t s) := rfl
theorem kptOf_at (KP : A2 16 3) (t : Fin 3) (p : Fin 16) : kptOf KP (ix2 t p) = KP (ix2 p t) := rfl
theorem row_at (C : Nat) (v : A1 C) (z : Fin 1) (o : Fin C) : row C v (ix2 z o) = v (ix1 o) := rfl
theorem maskF_at (mask : I3 2 4096 16) (i : (⟨3, ![2, 4096, 16]⟩ : Shape).Idx) :
    maskF mask i = (((mask i).toInt : ℝ) : EReal) := rfl

theorem flatRows_at (T : A3 2 16384 128) (r : Fin 32768) (j : Fin 128) :
    flatRows T (ix2 r j)
      = T (ix3 (⟨r.val / 16384, by omega⟩ : Fin 2) (⟨r.val % 16384, by omega⟩ : Fin 16384) j) := rfl
theorem unflat_at (G : A2 131072 128) (b : Fin 2) (s : Fin 4096) (k : Fin 16) (j : Fin 128) :
    unflat G (ix4 b s k j) = G (ix2 (⟨(b.val * 4096 + s.val) * 16 + k.val, by omega⟩ : Fin 131072) j) := rfl

theorem y0t_at_lo (x : A3 2 128 16384) (pt : A3 2 16384 3) (W0 : A2 64 128) (b0r : A2 1 64)
    (b : Fin 2) (n : Fin 16384) (o : Fin 64) :
    y0t x pt W0 b0r (ix3 b n (⟨o.val, by omega⟩ : Fin 128)) = y0 x W0 b0r (ix3 b n o) := by
  show (if h : o.val < 64 then _ else _) = _
  rw [dif_pos o.isLt]
theorem y0t_at_pos (x : A3 2 128 16384) (pt : A3 2 16384 3) (W0 : A2 64 128) (b0r : A2 1 64)
    (b : Fin 2) (n : Fin 16384) (t : Fin 3) :
    y0t x pt W0 b0r (ix3 b n (⟨64 + t.val, by omega⟩ : Fin 128)) = pt (ix3 b n t) := by
  show (if h : 64 + t.val < 64 then _ else if h2 : 64 + t.val < 67 then _ else _) = _
  rw [dif_neg (by omega), dif_pos (by omega)]
  exact congrArg (fun u : Fin 3 => pt (ix3 b n u)) (Fin.ext (by show 64 + t.val - 64 = t.val; omega))
theorem xt_at (x : A3 2 128 16384) (b : Fin 2) (n : Fin 16384) (c : Fin 128) :
    xt x (ix3 b n c) = x (ix3 b c n) := rfl

theorem colSum_at (L C : Nat) (y : A3 2 L C) (z : Fin 1) (o : Fin C) :
    colSum L C y (ix2 z o) = ∑ b : Fin 2, ∑ n : Fin L, y (ix3 b n o) := rfl
theorem colSumSq_at (L C : Nat) (y : A3 2 L C) (z : Fin 1) (o : Fin C) :
    colSumSq L C y (ix2 z o) = ∑ b : Fin 2, ∑ n : Fin L, y (ix3 b n o) * y (ix3 b n o) := rfl
theorem bnA_at (C : Nat) (s1 s2 : A2 1 C) (cnt : EReal) (g : A1 C) (z : Fin 1) (o : Fin C) :
    bnA C s1 s2 cnt g (ix2 z o) = scaleOf (s1 (ix2 0 o)) (s2 (ix2 0 o)) cnt (g (ix1 o)) := rfl
theorem bnC_at (C : Nat) (s1 : A2 1 C) (cnt : EReal) (a : A2 1 C) (be : A1 C) (z : Fin 1) (o : Fin C) :
    bnC C s1 cnt a be (ix2 z o) = shiftOf (s1 (ix2 0 o)) cnt (a (ix2 0 o)) (be (ix1 o)) := rfl

theorem idxFlat_at (nbr : I3 2 4096 16) (q : Fin 1024) (l : Fin 128) :
    idxFlat nbr (ix2 q l)
      = nbr (ix3 (⟨(q.val * 128 + l.val) / 65536, by omega⟩ : Fin 2)
            (⟨((q.val * 128 + l.val) / 16) % 4096, by omega⟩ : Fin 4096)
            (⟨(q.val * 128 + l.val) % 16, by omega⟩ : Fin 16))
          + BitVec.ofNat 32 ((q.val * 128 + l.val) / 65536) * 16384#32 := rfl
theorem gatherRows_at (T : A2 32768 128) (I : I2 1024 128) (r : Fin 131072) (j : Fin 128) :
    gatherRows T I (ix2 r j)
      = T (ix2 (rowOf (I (ix2 (⟨r.val / 128, by omega⟩ : Fin 1024) (⟨r.val % 128, by omega⟩ : Fin 128)))) j) := rfl

theorem pointConv_at (gf : A4 2 4096 16 128) (spt : A3 2 4096 3) (maskf : A3 2 4096 16) (KPt : A2 3 16)
    (Wk : A3 16 64 64) (a0 c0 bkr : A2 1 64) (b : Fin 2) (s : Fin 4096) (d : Fin 64) :
    pointConv gf spt maskf KPt Wk a0 c0 bkr (ix3 b s d)
      = (∑ p : Fin 16, ∑ c : Fin 64,
          (∑ k : Fin 16, pcW gf spt maskf KPt b s k p * pcF gf a0 c0 b s k c) * Wk (ix3 p c d))
        + bkr (ix2 0 d) := rfl
theorem conv2_at (y1 : A3 2 4096 64) (a1 c1 : A2 1 64) (W2 : A2 128 64) (b2r : A2 1 128)
    (b : Fin 2) (s : Fin 4096) (o : Fin 128) :
    conv2 y1 a1 c1 W2 b2r (ix3 b s o)
      = (∑ c : Fin 64, max (y1 (ix3 b s c) * a1 (ix2 0 c) + c1 (ix2 0 c)) zeroW * W2 (ix2 o c)) + b2r (ix2 0 o) := rfl
theorem pool_at (xg : A4 2 4096 16 128) (maskf : A3 2 4096 16) (b : Fin 2) (s : Fin 4096) (c : Fin 128) :
    pool xg maskf (ix3 b s c)
      = if (Finset.univ : Finset (Fin 16)).fold max negInfW
            (fun k => if zeroW < maskf (ix3 b s k) then xg (ix4 b s k c) else negBigW) ≤ negBigW then zeroW
        else (Finset.univ : Finset (Fin 16)).fold max negInfW
            (fun k => if zeroW < maskf (ix3 b s k) then xg (ix4 b s k c) else negBigW) := rfl
theorem finalOut_at (y2 xs : A3 2 4096 128) (a2 c2 : A2 1 128) (b : Fin 2) (o : Fin 128) (s : Fin 4096) :
    finalOut y2 xs a2 c2 (ix3 b o s)
      = max ((y2 (ix3 b s o) * a2 (ix2 0 o) + c2 (ix2 0 o)) + xs (ix3 b s o)) zeroW := rfl

theorem refConv_at (C O L : Nat) (x : A3 2 C L) (W : A2 O C) (bias : A1 O) (b : Fin 2) (o : Fin O) (n : Fin L) :
    refConv C O L x W bias (ix3 b o n) = (∑ c : Fin C, x (ix3 b c n) * W (ix2 o c)) + bias (ix1 o) := rfl
theorem refBN_at (C L : Nat) (cnt : EReal) (y : A3 2 C L) (g be : A1 C) (b : Fin 2) (o : Fin C) (n : Fin L) :
    refBN C L cnt y g be (ix3 b o n)
      = Ideal.div (y (ix3 b o n) - refMean C L cnt y o) (Ideal.sqrt (refVar C L cnt y o + epsW)) * g (ix1 o)
        + be (ix1 o) := rfl
theorem refRelu_at (C L : Nat) (y : A3 2 C L) (i : (⟨3, ![2, C, L]⟩ : Shape).Idx) :
    refRelu C L y i = max (y i) zeroW := rfl
theorem refGather_at (C : Nat) (h : A3 2 C 16384) (nbr : I3 2 4096 16) (b : Fin 2) (s : Fin 4096) (k : Fin 16)
    (c : Fin C) : refGather C h nbr (ix4 b s k c) = h (ix3 b c (colOf (nbr (ix3 b s k)))) := rfl
theorem refPointConv_at (h : A3 2 64 16384) (pos : A3 2 3 16384) (sp : A3 2 3 4096) (nbr mask : I3 2 4096 16)
    (KP : A2 16 3) (Wk : A3 16 64 64) (bk : A1 64) (b : Fin 2) (d : Fin 64) (s : Fin 4096) :
    refPointConv h pos sp nbr mask KP Wk bk (ix3 b d s)
      = (∑ c : Fin 64, ∑ p : Fin 16,
          (∑ k : Fin 16, refGather 64 h nbr (ix4 b s k c) * refW (refGather 3 pos nbr) sp mask KP b s k p)
            * Wk (ix3 p c d))
        + bk (ix1 d) := rfl
theorem refPool_at (x : A3 2 128 16384) (nbr mask : I3 2 4096 16) (b : Fin 2) (c : Fin 128) (s : Fin 4096) :
    refPool x nbr mask (ix3 b c s)
      = if (Finset.univ : Finset (Fin 16)).fold max negInfW
            (fun k => if 0 < (mask (ix3 b s k)).toInt then refGather 128 x nbr (ix4 b s k c) else negBigW) ≤ negBigW
        then zeroW
        else (Finset.univ : Finset (Fin 16)).fold max negInfW
            (fun k => if 0 < (mask (ix3 b s k)).toInt then refGather 128 x nbr (ix4 b s k c) else negBigW) := rfl

end Cert.Spec
-- ==== Proof.LibBatchNormReal.lean ====
import Idealize.ShloMosaic.PureOps.Ideal
import Idealize.ShloMosaic.PureOps.Ideal.Laws
import Mathlib.Data.EReal.Operations
import Mathlib.Data.EReal.Inv
import Mathlib.Analysis.Real.Sqrt
import Mathlib.Algebra.BigOperators.Fin
import Mathlib.Algebra.BigOperators.Group.Finset.Basic
import Mathlib.Algebra.BigOperators.Ring.Finset
import Mathlib.Algebra.Order.BigOperators.Group.Finset
import Mathlib.Data.Finset.Fold
import Mathlib.Data.Fintype.Basic
import Mathlib.Logic.Equiv.Fin.Basic
import Mathlib.Tactic.Ring
import Mathlib.Tactic.FieldSimp

namespace Cert.Lib

open Idealize.ShloMosaic
open scoped BigOperators

theorem coe_finset_sum {ι : Type*} (s : Finset ι) (x : ι → ℝ) :
    ((∑ i ∈ s, x i : ℝ) : EReal) = ∑ i ∈ s, (x i : EReal) := by
  classical
  induction s using Finset.induction_on with
  | empty => simp
  | insert a s ha ih => rw [Finset.sum_insert ha, Finset.sum_insert ha, EReal.coe_add, ih]

theorem coe_sum {ι : Type*} [Fintype ι] (x : ι → ℝ) :
    ((∑ i, x i : ℝ) : EReal) = ∑ i, (x i : EReal) :=
  coe_finset_sum Finset.univ x

theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy
  exact ⟨a - b, (EReal.coe_sub a b).symm⟩

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

theorem coe_max (a b : ℝ) : ((max a b : ℝ) : EReal) = max (a : EReal) (b : EReal) :=
  EReal.coe_strictMono.monotone.map_max

theorem real_max {x y : EReal} (hx : ∃ r : ℝ, x = (r : EReal)) (hy : ∃ r : ℝ, y = (r : EReal)) :
    ∃ r : ℝ, max x y = (r : EReal) := by
  obtain ⟨a, rfl⟩ := hx; obtain ⟨b, rfl⟩ := hy
  exact ⟨max a b, (coe_max a b).symm⟩

theorem real_finset_sum {ι : Type*} (s : Finset ι) (X : ι → EReal) (hX : ∀ i ∈ s, ∃ r : ℝ, X i = (r : EReal)) :
    ∃ r : ℝ, ∑ i ∈ s, X i = (r : EReal) := by
  classical
  induction s using Finset.induction_on with
  | empty => exact ⟨0, by simp⟩
  | insert a s ha ih =>
    rw [Finset.sum_insert ha]
    exact real_add (hX a (Finset.mem_insert_self a s)) (ih fun i hi => hX i (Finset.mem_insert_of_mem hi))

theorem real_sum {ι : Type*} [Fintype ι] (X : ι → EReal) (hX : ∀ i, ∃ r : ℝ, X i = (r : EReal)) :
    ∃ r : ℝ, ∑ i, X i = (r : EReal) :=
  real_finset_sum Finset.univ X fun i _ => hX i

theorem div_coe_coe (a : ℝ) {N : ℝ} (h0 : N ≠ 0) : Ideal.div (a : EReal) (N : EReal) = ((a / N : ℝ) : EReal) := by
  rw [Ideal.div_coe h0, ← EReal.coe_mul, mul_one_div]

theorem real_div {x : EReal} (hx : ∃ r : ℝ, x = (r : EReal)) {N : ℝ} (h0 : N ≠ 0) :
    ∃ r : ℝ, Ideal.div x (N : EReal) = (r : EReal) := by
  obtain ⟨a, rfl⟩ := hx
  exact ⟨a / N, div_coe_coe a h0⟩

theorem rsqrt_coe_of_pos {r : ℝ} (h : 0 < r) :
    Ideal.rsqrt (r : EReal) = (((Real.sqrt r)⁻¹ : ℝ) : EReal) ∧ 0 < (Real.sqrt r)⁻¹ := by
  refine ⟨?_, inv_pos.mpr (Real.sqrt_pos.mpr h)⟩
  rw [Ideal.rsqrt_coe, if_neg (not_lt.mpr h.le), if_neg h.ne']

section Variance

variable {ι : Type*} [Fintype ι]

theorem real_variance (x : ι → ℝ) (N : ℝ) (hN : (Fintype.card ι : ℝ) = N) (h0 : N ≠ 0) :
    (∑ i, x i * x i) / N - (∑ i, x i) / N * ((∑ i, x i) / N)
      = (∑ i, (x i - (∑ j, x j) / N) * (x i - (∑ j, x j) / N)) / N := by
  have hexp : ∀ i, (x i - (∑ j, x j) / N) * (x i - (∑ j, x j) / N)
      = x i * x i - 2 * ((∑ j, x j) / N) * x i + (∑ j, x j) / N * ((∑ j, x j) / N) := fun i => by ring
  simp only [hexp, Finset.sum_add_distrib, Finset.sum_sub_distrib, ← Finset.mul_sum, Finset.sum_const,
    Finset.card_univ, nsmul_eq_mul, hN]
  field_simp
  ring

theorem real_variance_nonneg (x : ι → ℝ) (N : ℝ) (hN : (Fintype.card ι : ℝ) = N) (μ : ℝ) :
    0 ≤ (∑ i, (x i - μ) * (x i - μ)) / N :=
  div_nonneg (Finset.sum_nonneg fun i _ => mul_self_nonneg _) (hN ▸ Nat.cast_nonneg _)

theorem div_sum_coe (x : ι → ℝ) {N : ℝ} (h0 : N ≠ 0) :
    Ideal.div (∑ i, (x i : EReal)) (N : EReal) = (((∑ i, x i) / N : ℝ) : EReal) := by
  rw [← coe_sum, div_coe_coe _ h0]

theorem variance_identity (x : ι → ℝ) (N : ℝ) (hN : (Fintype.card ι : ℝ) = N) (h0 : N ≠ 0) :
    Ideal.div (∑ i, (x i : EReal) * (x i : EReal)) (N : EReal)
        - Ideal.div (∑ i, (x i : EReal)) (N : EReal) * Ideal.div (∑ i, (x i : EReal)) (N : EReal)
      = Ideal.div (∑ i, ((x i : EReal) - Ideal.div (∑ j, (x j : EReal)) (N : EReal))
          * ((x i : EReal) - Ideal.div (∑ j, (x j : EReal)) (N : EReal))) (N : EReal) := by
  rw [div_sum_coe x h0]
  have h1 : ∀ i, (x i : EReal) * (x i : EReal) = ((x i * x i : ℝ) : EReal) := fun i => (EReal.coe_mul _ _).symm
  have h2 : ∀ i, ((x i : EReal) - (((∑ j, x j) / N : ℝ) : EReal)) * ((x i : EReal) - (((∑ j, x j) / N : ℝ) : EReal))
      = (((x i - (∑ j, x j) / N) * (x i - (∑ j, x j) / N) : ℝ) : EReal) := fun i => by
    rw [← EReal.coe_sub, ← EReal.coe_mul]
  simp only [h1, h2]
  rw [div_sum_coe _ h0, div_sum_coe _ h0, ← EReal.coe_mul, ← EReal.coe_sub, real_variance x N hN h0]

theorem variance_real_nonneg (x : ι → ℝ) (N : ℝ) (hN : (Fintype.card ι : ℝ) = N) (h0 : N ≠ 0) :
    ∃ v : ℝ, 0 ≤ v ∧
      Ideal.div (∑ i, (x i : EReal) * (x i : EReal)) (N : EReal)
        - Ideal.div (∑ i, (x i : EReal)) (N : EReal) * Ideal.div (∑ i, (x i : EReal)) (N : EReal) = (v : EReal) := by
  refine ⟨(∑ i, (x i - (∑ j, x j) / N) * (x i - (∑ j, x j) / N)) / N, real_variance_nonneg x N hN _, ?_⟩
  rw [div_sum_coe x h0]
  have h1 : ∀ i, (x i : EReal) * (x i : EReal) = ((x i * x i : ℝ) : EReal) := fun i => (EReal.coe_mul _ _).symm
  simp only [h1]
  rw [div_sum_coe _ h0, ← EReal.coe_mul, ← EReal.coe_sub, real_variance x N hN h0]

theorem variance_identity_of_real (X : ι → EReal) (hX : ∀ i, ∃ r : ℝ, X i = (r : EReal)) (N : ℝ)
    (hN : (Fintype.card ι : ℝ) = N) (h0 : N ≠ 0) :
    Ideal.div (∑ i, X i * X i) (N : EReal) - Ideal.div (∑ i, X i) (N : EReal) * Ideal.div (∑ i, X i) (N : EReal)
      = Ideal.div (∑ i, (X i - Ideal.div (∑ j, X j) (N : EReal)) * (X i - Ideal.div (∑ j, X j) (N : EReal))) (N : EReal) := by
  choose x hx using hX
  obtain rfl : X = fun i => (x i : EReal) := funext hx
  exact variance_identity x N hN h0

end Variance

theorem affine_fold (x μ r g b : ℝ) :
    ((x : EReal) - (μ : EReal)) * (r : EReal) * (g : EReal) + (b : EReal)
      = (x : EReal) * ((g : EReal) * (r : EReal)) + ((b : EReal) - (μ : EReal) * ((g : EReal) * (r : EReal))) := by
  rw [← EReal.coe_sub, ← EReal.coe_mul, ← EReal.coe_mul, ← EReal.coe_add, ← EReal.coe_mul, ← EReal.coe_mul,
    ← EReal.coe_mul, ← EReal.coe_sub, ← EReal.coe_add]
  congr 1
  ring

theorem affine_fold_of_real {X M R G B : EReal} (hX : ∃ r : ℝ, X = (r : EReal)) (hM : ∃ r : ℝ, M = (r : EReal))
    (hR : ∃ r : ℝ, R = (r : EReal)) (hG : ∃ r : ℝ, G = (r : EReal)) (hB : ∃ r : ℝ, B = (r : EReal)) :
    (X - M) * R * G + B = X * (G * R) + (B - M * (G * R)) := by
  obtain ⟨x, rfl⟩ := hX; obtain ⟨m, rfl⟩ := hM; obtain ⟨r, rfl⟩ := hR; obtain ⟨g, rfl⟩ := hG; obtain ⟨b, rfl⟩ := hB
  exact affine_fold x m r g b

end Cert.Lib
-- ==== Proof.LibBridgeStages.lean ====
import proofs.«214766_g21345987461187_cont_8to1_720_22_alg».proof.Proof.LibBatchNormReal
import Mathlib.Data.Fintype.BigOperators
import Mathlib.Data.Fintype.Prod
import Mathlib.Data.Fintype.Card
import Mathlib.Data.Nat.Cast.Basic
import Mathlib.Tactic.NormNum

namespace Cert.Lib

open Idealize.ShloMosaic
open scoped BigOperators

section Stats

variable {M N : ℕ}

theorem stats_bridge (h : Fin M → Fin N → EReal) (hh : ∀ m n, ∃ r : ℝ, h m n = (r : EReal)) (Nr : ℝ)
    (hNr : (M : ℝ) * (N : ℝ) = Nr) (h0 : Nr ≠ 0) :
    Ideal.div (∑ m, ∑ n, h m n * h m n) (Nr : EReal)
        - Ideal.div (∑ m, ∑ n, h m n) (Nr : EReal) * Ideal.div (∑ m, ∑ n, h m n) (Nr : EReal)
      = Ideal.div (∑ m, ∑ n, (h m n - Ideal.div (∑ m', ∑ n', h m' n') (Nr : EReal))
          * (h m n - Ideal.div (∑ m', ∑ n', h m' n') (Nr : EReal))) (Nr : EReal) := by
  have hc : (Fintype.card (Fin M × Fin N) : ℝ) = Nr := by
    rw [Fintype.card_prod, Fintype.card_fin, Fintype.card_fin, Nat.cast_mul, hNr]
  have key := variance_identity_of_real (ι := Fin M × Fin N) (fun p => h p.1 p.2) (fun p => hh p.1 p.2) Nr hc h0
  simpa only [Fintype.sum_prod_type] using key

theorem stats_mean_real (h : Fin M → Fin N → EReal) (hh : ∀ m n, ∃ r : ℝ, h m n = (r : EReal)) (Nr : ℝ) (h0 : Nr ≠ 0) :
    ∃ μ : ℝ, Ideal.div (∑ m, ∑ n, h m n) (Nr : EReal) = (μ : EReal) :=
  real_div (real_sum _ fun m => real_sum _ fun n => hh m n) h0

theorem stats_var_real (h : Fin M → Fin N → EReal) (hh : ∀ m n, ∃ r : ℝ, h m n = (r : EReal)) (Nr : ℝ)
    (hNr : (M : ℝ) * (N : ℝ) = Nr) (h0 : Nr ≠ 0) :
    ∃ v : ℝ, 0 ≤ v ∧
      Ideal.div (∑ m, ∑ n, h m n * h m n) (Nr : EReal)
          - Ideal.div (∑ m, ∑ n, h m n) (Nr : EReal) * Ideal.div (∑ m, ∑ n, h m n) (Nr : EReal) = (v : EReal) ∧
      Ideal.div (∑ m, ∑ n, (h m n - Ideal.div (∑ m', ∑ n', h m' n') (Nr : EReal))
          * (h m n - Ideal.div (∑ m', ∑ n', h m' n') (Nr : EReal))) (Nr : EReal) = (v : EReal) := by
  have hc : (Fintype.card (Fin M × Fin N) : ℝ) = Nr := by
    rw [Fintype.card_prod, Fintype.card_fin, Fintype.card_fin, Nat.cast_mul, hNr]
  choose x hx using hh
  obtain rfl : h = fun m n => (x m n : EReal) := funext fun m => funext fun n => hx m n
  obtain ⟨v, hv, hk⟩ := variance_real_nonneg (ι := Fin M × Fin N) (fun p => x p.1 p.2) Nr hc h0
  have hk' : Ideal.div (∑ m, ∑ n, (x m n : EReal) * (x m n : EReal)) (Nr : EReal)
      - Ideal.div (∑ m, ∑ n, (x m n : EReal)) (Nr : EReal) * Ideal.div (∑ m, ∑ n, (x m n : EReal)) (Nr : EReal) = (v : EReal) := by
    simpa only [Fintype.sum_prod_type] using hk
  exact ⟨v, hv, hk', (stats_bridge _ (fun m n => ⟨x m n, rfl⟩) Nr hNr h0).symm.trans hk'⟩

end Stats

end Cert.Lib
-- ==== Proof.LibConsts.lean ====
import Idealize.ShloMosaic.PureOps.Ideal
import Idealize.ShloMosaic.PureOps.Ideal.Laws
import Mathlib.Tactic.NormNum
import Mathlib.Tactic.Positivity

namespace Cert.Lib

open Idealize.ShloMosaic

theorem ofBits_f32_eps_pos : ∃ ε : ℝ, 0 < ε ∧ Ideal.ofBits .f32 0x3727C5AC#32 = (ε : EReal) := by
  refine ⟨10995116 * (2 : ℝ) ^ (-40 : ℤ), by positivity, ?_⟩
  simp [Ideal.ofBits, Ideal.ieee, -EReal.coe_mul] <;> norm_num

end Cert.Lib
-- ==== Proof.MathBase.lean ====
import proofs.«214766_g21345987461187_cont_8to1_720_22_alg».proof.Proof.SpecAt
import proofs.«214766_g21345987461187_cont_8to1_720_22_alg».proof.Proof.LibBatchNormReal
import proofs.«214766_g21345987461187_cont_8to1_720_22_alg».proof.Proof.LibBridgeStages
import proofs.«214766_g21345987461187_cont_8to1_720_22_alg».proof.Proof.LibConsts
import Mathlib.Tactic.NormNum
import Mathlib.Tactic.Positivity

noncomputable section

open scoped BigOperators

namespace Cert.Spec

open Idealize.ShloMosaic Idealize.ShloMosaic.ValueIdx Cert.Lib

abbrev IsReal (x : EReal) : Prop := ∃ r : ℝ, x = (r : EReal)

theorem zeroW_eq : zeroW = 0 := Ideal.ofBits_zero_f32
theorem oneW_eq : oneW = ((1 : ℝ) : EReal) := by
  simp [Ideal.ofBits, Ideal.ieee, -EReal.coe_mul] <;> norm_num
theorem cnt0W_eq : cnt0W = ((32768 : ℝ) : EReal) := by
  simp [Ideal.ofBits, Ideal.ieee, -EReal.coe_mul] <;> norm_num
theorem cnt1W_eq : cnt1W = ((8192 : ℝ) : EReal) := by
  simp [Ideal.ofBits, Ideal.ieee, -EReal.coe_mul] <;> norm_num
theorem epsW_pos : ∃ ε : ℝ, 0 < ε ∧ epsW = (ε : EReal) := ofBits_f32_eps_pos
theorem tinyW_pos : ∃ τ : ℝ, 0 < τ ∧ tinyW = (τ : EReal) := by
  refine ⟨9223372 * (2 : ℝ) ^ (-63 : ℤ), by positivity, ?_⟩
  simp [Ideal.ofBits, Ideal.ieee, -EReal.coe_mul] <;> norm_num
theorem zeroW_real : IsReal zeroW := ⟨0, zeroW_eq⟩

theorem sqrt_coe_of_pos {p : ℝ} (hp : 0 < p) : Ideal.sqrt (p : EReal) = ((Real.sqrt p : ℝ) : EReal) := by
  rw [Ideal.sqrt_coe, if_neg (not_lt.mpr hp.le)]

theorem div_sqrt_eq_mul_rsqrt (X : EReal) {p : ℝ} (hp : 0 < p) :
    Ideal.div X (Ideal.sqrt (p : EReal)) = X * Ideal.rsqrt (p : EReal) := by
  rw [sqrt_coe_of_pos hp, Ideal.div_coe (Real.sqrt_pos.mpr hp).ne', (rsqrt_coe_of_pos hp).1, one_div]

theorem div_oneW (X : EReal) : Ideal.div X oneW = X := by
  rw [oneW_eq, Ideal.div_coe one_ne_zero, one_div, inv_one, EReal.coe_one, mul_one]

section Channel

variable {L : ℕ} (h : Fin 2 → Fin L → EReal) (hh : ∀ b n, IsReal (h b n)) (N : ℝ)
  (hN : ((2 : ℕ) : ℝ) * (L : ℝ) = N) (h0 : N ≠ 0)

include hh hN h0

theorem bn_channel {g be X : EReal} (hg : IsReal g) (hbe : IsReal be) (hX : IsReal X) :
    X * scaleOf (∑ b, ∑ n, h b n) (∑ b, ∑ n, h b n * h b n) (N : EReal) g
        + shiftOf (∑ b, ∑ n, h b n) (N : EReal)
            (scaleOf (∑ b, ∑ n, h b n) (∑ b, ∑ n, h b n * h b n) (N : EReal) g) be
      = Ideal.div (X - Ideal.div (∑ b, ∑ n, h b n) (N : EReal))
            (Ideal.sqrt (Ideal.div (∑ b, ∑ n, (h b n - Ideal.div (∑ b', ∑ n', h b' n') (N : EReal))
                * (h b n - Ideal.div (∑ b', ∑ n', h b' n') (N : EReal))) (N : EReal) + epsW)) * g
          + be := by
  obtain ⟨v, hv, hk, hr⟩ := stats_var_real h hh N hN h0
  obtain ⟨ε, hε, he⟩ := epsW_pos
  have hm : IsReal (Ideal.div (∑ b, ∑ n, h b n) (N : EReal)) := stats_mean_real h hh N h0
  have hp : 0 < v + ε := add_pos_of_nonneg_of_pos hv hε
  unfold scaleOf shiftOf
  rw [hk, hr, he, ← EReal.coe_add, div_sqrt_eq_mul_rsqrt _ hp]
  exact (affine_fold_of_real hX hm ⟨_, (rsqrt_coe_of_pos hp).1⟩ hg hbe).symm

theorem bn_channel_real {g be X : EReal} (hg : IsReal g) (hbe : IsReal be) (hX : IsReal X) :
    IsReal (X * scaleOf (∑ b, ∑ n, h b n) (∑ b, ∑ n, h b n * h b n) (N : EReal) g
        + shiftOf (∑ b, ∑ n, h b n) (N : EReal)
            (scaleOf (∑ b, ∑ n, h b n) (∑ b, ∑ n, h b n * h b n) (N : EReal) g) be) := by
  obtain ⟨v, hv, hk, _⟩ := stats_var_real h hh N hN h0
  obtain ⟨ε, hε, he⟩ := epsW_pos
  have hm : IsReal (Ideal.div (∑ b, ∑ n, h b n) (N : EReal)) := stats_mean_real h hh N h0
  have hp : 0 < v + ε := add_pos_of_nonneg_of_pos hv hε
  unfold scaleOf shiftOf
  rw [hk, he, ← EReal.coe_add]
  have hs : IsReal (Ideal.rsqrt ((v + ε : ℝ) : EReal)) := ⟨_, (rsqrt_coe_of_pos hp).1⟩
  exact real_add (real_mul hX (real_mul hg hs)) (real_sub hbe (real_mul hm (real_mul hg hs)))

end Channel

section Arrays

variable (L C : ℕ) (N : ℝ) (hN : ((2 : ℕ) : ℝ) * (L : ℝ) = N) (h0 : N ≠ 0)
  (y : A3 2 L C) (yr : A3 2 C L) (hyr : ∀ b n o, yr (ix3 b o n) = y (ix3 b n o))
  (hy : ∀ i, IsReal (y i)) (g be : A1 C) (hg : ∀ i, IsReal (g i)) (hbe : ∀ i, IsReal (be i))

include hN h0 hyr hy hg hbe

theorem bn_array (b : Fin 2) (n : Fin L) (o : Fin C) :
    y (ix3 b n o) * bnA C (colSum L C y) (colSumSq L C y) (N : EReal) g (ix2 0 o)
        + bnC C (colSum L C y) (N : EReal) (bnA C (colSum L C y) (colSumSq L C y) (N : EReal) g) be (ix2 0 o)
      = refBN C L (N : EReal) yr g be (ix3 b o n) := by
  rw [bnA_at, bnC_at, bnA_at, colSum_at, colSumSq_at, refBN_at]
  unfold refVar refMean
  simp only [hyr]
  exact bn_channel (fun b n => y (ix3 b n o)) (fun b n => hy _) N hN h0 (hg _) (hbe _) (hy _)

theorem bn_array_real (b : Fin 2) (n : Fin L) (o : Fin C) :
    IsReal (y (ix3 b n o) * bnA C (colSum L C y) (colSumSq L C y) (N : EReal) g (ix2 0 o)
        + bnC C (colSum L C y) (N : EReal) (bnA C (colSum L C y) (colSumSq L C y) (N : EReal) g) be (ix2 0 o)) := by
  rw [bnA_at, bnC_at, bnA_at, colSum_at, colSumSq_at]
  exact bn_channel_real (fun b n => y (ix3 b n o)) (fun b n => hy _) N hN h0 (hg _) (hbe _) (hy _)

end Arrays

end Cert.Spec
-- ==== Proof.MathGather.lean ====
import proofs.«214766_g21345987461187_cont_8to1_720_22_alg».proof.Proof.SpecAt

noncomputable section

open scoped BigOperators

namespace Cert.Spec

open Idealize.ShloMosaic Idealize.ShloMosaic.ValueIdx

theorem ix3_congr {n0 n1 n2 : Nat} {a a' : Fin n0} {b b' : Fin n1} {c c' : Fin n2}
    (ha : a = a') (hb : b = b') (hc : c = c') : ix3 a b c = ix3 a' b' c' := by
  subst ha hb hc; rfl

theorem idxFlat_row (nbr : I3 2 4096 16) (b : Fin 2) (s : Fin 4096) (k : Fin 16) :
    idxFlat nbr (ix2 (⟨((b.val * 4096 + s.val) * 16 + k.val) / 128, by omega⟩ : Fin 1024)
        (⟨((b.val * 4096 + s.val) * 16 + k.val) % 128, by omega⟩ : Fin 128))
      = nbr (ix3 b s k) + BitVec.ofNat 32 b.val * 16384#32 := by
  have hb := b.isLt
  have hs := s.isLt
  have hk := k.isLt
  rw [idxFlat_at]
  dsimp only
  have e1 : (((b.val * 4096 + s.val) * 16 + k.val) / 128 * 128 + ((b.val * 4096 + s.val) * 16 + k.val) % 128) / 65536
      = b.val := by omega
  have e2 : ((((b.val * 4096 + s.val) * 16 + k.val) / 128 * 128 + ((b.val * 4096 + s.val) * 16 + k.val) % 128) / 16) % 4096
      = s.val := by omega
  have e3 : (((b.val * 4096 + s.val) * 16 + k.val) / 128 * 128 + ((b.val * 4096 + s.val) * 16 + k.val) % 128) % 16
      = k.val := by omega
  simp only [e1, e2, e3, Fin.eta]

theorem rowOf_flat (w : BitVec 32) (b : Fin 2) (h : w.toNat < 16384) :
    (rowOf (w + BitVec.ofNat 32 b.val * 16384#32)).val = b.val * 16384 + w.toNat := by
  have hb := b.isLt
  unfold rowOf
  simp only [BitVec.toNat_add, BitVec.toNat_mul, BitVec.toNat_ofNat]
  omega

theorem gather_at (T : A3 2 16384 128) (nbr : I3 2 4096 16) (b : Fin 2) (s : Fin 4096) (k : Fin 16) (j : Fin 128)
    (h : (nbr (ix3 b s k)).toNat < 16384) :
    unflat (gatherRows (flatRows T) (idxFlat nbr)) (ix4 b s k j) = T (ix3 b (colOf (nbr (ix3 b s k))) j) := by
  have hb := b.isLt
  have hv := rowOf_flat (nbr (ix3 b s k)) b h
  rw [unflat_at, gatherRows_at]
  dsimp only
  rw [idxFlat_row, flatRows_at]
  refine congrArg T (ix3_congr (Fin.ext ?_) (Fin.ext ?_) rfl)
  · dsimp only; omega
  · show _ % 16384 = (nbr (ix3 b s k)).toNat % 16384
    omega

end Cert.Spec
-- ==== Proof.PreFacts.lean ====
import proofs.«214766_g21345987461187_cont_8to1_720_22_alg».proof.Pre_input_domain
import Idealize.ShloMosaic.Lib.ReduceAll
import Idealize.ShloMosaic.Lib.StableHlo.Predicate
import proofs.«214766_g21345987461187_cont_8to1_720_22_alg».proof.Proof.MathBase
import proofs.«214766_g21345987461187_cont_8to1_720_22_alg».proof.Proof.MathGather

noncomputable section

namespace Cert.KernelIdeal.PreFacts

open Idealize.ShloMosaic Idealize.ShloMosaic.ValueIdx Cert.Pre_input_domain

instance : Subsingleton S_.Idx := ⟨fun _ _ => funext fun d => d.elim0⟩

variable [Facts]

theorem bcast_const {F : FTy → Type} [FloatOps F] {t : Shape} (hb : S_.BroadcastsInDim t ![]) (w : BitVec 32) (j : t.Idx) :
    broadcastInDim t ![] hb (constant (F := F) S_ .f32 w) j = FloatOps.ofBits .f32 w :=
  StableHlo.Predicate.bcast_scalar hb Facts.h_S_ _ j

theorem bcast_constI {t : Shape} (hb : S_.BroadcastsInDim t ![]) (w : BitVec 32) (j : t.Idx) :
    broadcastInDim t ![] hb (constantI S_ 32 w) j = w :=
  StableHlo.Predicate.bcast_scalar hb Facts.h_S_ _ j

theorem ofBits_inf : Ideal.ofBits .f32 0x7F800000#32 = ⊤ := by simp [Ideal.ofBits, Ideal.ieee]

theorem real_of_abs_lt_top (z : EReal) (h : max z (-z) < ⊤) : Cert.Spec.IsReal z := by
  obtain ⟨h1, h2⟩ := max_lt_iff.1 h
  induction z using EReal.rec with
  | bot => exact absurd h2 (by simp)
  | top => exact absurd h1 (lt_irrefl _)
  | coe r => exact ⟨r, rfl⟩

theorem real_of_leaf {t : Shape} {axes : List (Fin t.rank)} (a : FVec Ideal t .f32) (hb : S_.BroadcastsInDim t ![])
    (hr : t.ReducesTo axes S_)
    (e : Host.reduce IntOp.andi
          (cmpf .olt (Host.absf a) (broadcastInDim t ![] hb (constant (F := Ideal) S_ .f32 0x7F800000#32)))
          (constantI S_ 1 1#1) hr Facts.h_S_ ix0 = 1#1)
    (i : t.Idx) : Cert.Spec.IsReal (a i) := by
  have hi := Host.reduce_andi_all _ _ hr Facts.h_S_ ix0 e i
  have hi2 : Ideal.cmp .olt (max (a i) (-(a i)))
      (broadcastInDim t ![] hb (constant (F := Ideal) S_ .f32 0x7F800000#32) i) = 1#1 := hi
  rw [bcast_const hb, Ideal.ofBits_def, ofBits_inf] at hi2
  simp only [Ideal.cmp, StableHlo.Predicate.ofBool_eq_one_iff, decide_eq_true_eq] at hi2
  exact real_of_abs_lt_top _ hi2

theorem range_of_leaf {t : Shape} {axes : List (Fin t.rank)} (a : IVec t 32) (lo hi : BitVec 32)
    (hb : S_.BroadcastsInDim t ![]) (hr : t.ReducesTo axes S_)
    (e : Host.reduce IntOp.andi
          (fun i => IntOp.andi (IntOp.cmpi .sge (a i) (broadcastInDim t ![] hb (constantI S_ 32 lo) i))
            (IntOp.cmpi .sle (a i) (broadcastInDim t ![] hb (constantI S_ 32 hi) i)))
          (constantI S_ 1 1#1) hr Facts.h_S_ ix0 = 1#1)
    (i : t.Idx) : lo.toInt ≤ (a i).toInt ∧ (a i).toInt ≤ hi.toInt := by
  have hi' := Host.reduce_andi_all _ _ hr Facts.h_S_ ix0 e i
  obtain ⟨h1, h2⟩ := IntOp.andi_eq_one.1 hi'
  rw [bcast_constI hb] at h1 h2
  exact ⟨IntOp.cmpi_sge.1 h1, IntOp.cmpi_sle.1 h2⟩

theorem nbr_range {F : FTy → Type} [FloatOps F] (a0 : FVec F S2x128x16384 .f32) (a1 : FVec F S2x3x16384 .f32) (a2 : FVec F S2x3x4096 .f32)
    (a3 a4 : IVec S2x4096x16 32) (a5 : FVec F S64x128 .f32) (a6 a7 a8 : FVec F S64 .f32) (a9 : FVec F S16x3 .f32)
    (a10 : FVec F S16x64x64 .f32) (a11 a12 a13 : FVec F S64 .f32) (a14 : FVec F S128x64 .f32)
    (a15 a16 a17 : FVec F S128 .f32)
    (h : fn (F := F) a0 a1 a2 a3 a4 a5 a6 a7 a8 a9 a10 a11 a12 a13 a14 a15 a16 a17 = fun _ => 1#1) :
    ∀ i, 0 ≤ (a3 i).toInt ∧ (a3 i).toInt ≤ 16383 := by
  have h0 := congrFun h ix0
  dsimp only [fn, fn_part1, fn_part2, fn_part3, fn_part4, fn_part5, Idealize.ShloMosaic.andi, Idealize.ShloMosaic.cmpi] at h0
  simp only [IntOp.andi_eq_one] at h0
  obtain ⟨⟨_, hn⟩, _⟩ := h0
  intro i
  have hr := range_of_leaf a3 0#32 16383#32 Facts.bcast_S_S2x4096x16 Facts.reducesTo_S2x4096x16_S_d0_1_2 hn i
  have e0 : (0#32 : BitVec 32).toInt = 0 := by decide
  have e1 : (16383#32 : BitVec 32).toInt = 16383 := by decide
  rw [e0, e1] at hr
  exact hr

theorem toNat_lt_of_range (w : BitVec 32) (h0 : 0 ≤ w.toInt) (h1 : w.toInt ≤ 16383) : w.toNat < 16384 := by
  have hw := w.isLt
  rw [BitVec.toInt_eq_toNat_cond] at h0 h1
  split_ifs at h0 h1 <;> omega

theorem nbr_toNat {F : FTy → Type} [FloatOps F] (a0 : FVec F S2x128x16384 .f32) (a1 : FVec F S2x3x16384 .f32) (a2 : FVec F S2x3x4096 .f32)
    (a3 a4 : IVec S2x4096x16 32) (a5 : FVec F S64x128 .f32) (a6 a7 a8 : FVec F S64 .f32) (a9 : FVec F S16x3 .f32)
    (a10 : FVec F S16x64x64 .f32) (a11 a12 a13 : FVec F S64 .f32) (a14 : FVec F S128x64 .f32)
    (a15 a16 a17 : FVec F S128 .f32)
    (h : fn (F := F) a0 a1 a2 a3 a4 a5 a6 a7 a8 a9 a10 a11 a12 a13 a14 a15 a16 a17 = fun _ => 1#1) :
    ∀ i, (a3 i).toNat < 16384 := fun i =>
  toNat_lt_of_range _ (nbr_range a0 a1 a2 a3 a4 a5 a6 a7 a8 a9 a10 a11 a12 a13 a14 a15 a16 a17 h i).1 (nbr_range a0 a1 a2 a3 a4 a5 a6 a7 a8 a9 a10 a11 a12 a13 a14 a15 a16 a17 h i).2

theorem idxFlat_lt (nbr : IVec S2x4096x16 32) (hn : ∀ i, (nbr i).toNat < 16384)
    (x : (⟨2, ![1024, 128]⟩ : Shape).Idx) : (Cert.Spec.idxFlat nbr x).toNat < 32768 := by
  obtain ⟨q, l, rfl⟩ : ∃ (q : Fin 1024) (l : Fin 128), x = ix2 q l := ⟨x 0, x 1, eq_ix2 x⟩
  have hq := q.isLt
  have hl := l.isLt
  rw [Cert.Spec.idxFlat_at]
  have hb : (q.val * 128 + l.val) / 65536 < 2 := by omega
  have hw := hn (ix3 (⟨(q.val * 128 + l.val) / 65536, by omega⟩ : Fin 2)
    (⟨((q.val * 128 + l.val) / 16) % 4096, by omega⟩ : Fin 4096) (⟨(q.val * 128 + l.val) % 16, by omega⟩ : Fin 16))
  simp only [BitVec.toNat_add, BitVec.toNat_mul, BitVec.toNat_ofNat]
  omega

theorem idxFlat_lt_of_pre {F : FTy → Type} [FloatOps F] (a0 : FVec F S2x128x16384 .f32) (a1 : FVec F S2x3x16384 .f32) (a2 : FVec F S2x3x4096 .f32)
    (a3 a4 : IVec S2x4096x16 32) (a5 : FVec F S64x128 .f32) (a6 a7 a8 : FVec F S64 .f32) (a9 : FVec F S16x3 .f32)
    (a10 : FVec F S16x64x64 .f32) (a11 a12 a13 : FVec F S64 .f32) (a14 : FVec F S128x64 .f32)
    (a15 a16 a17 : FVec F S128 .f32)
    (h : fn (F := F) a0 a1 a2 a3 a4 a5 a6 a7 a8 a9 a10 a11 a12 a13 a14 a15 a16 a17 = fun _ => 1#1) (x : (⟨2, ![1024, 128]⟩ : Shape).Idx) :
    (Cert.Spec.idxFlat a3 x).toNat < 32768 :=
  idxFlat_lt a3 (nbr_toNat a0 a1 a2 a3 a4 a5 a6 a7 a8 a9 a10 a11 a12 a13 a14 a15 a16 a17 h) x

theorem finite_of_pre (a0 : FVec Ideal S2x128x16384 .f32) (a1 : FVec Ideal S2x3x16384 .f32) (a2 : FVec Ideal S2x3x4096 .f32)
    (a3 a4 : IVec S2x4096x16 32) (a5 : FVec Ideal S64x128 .f32) (a6 a7 a8 : FVec Ideal S64 .f32) (a9 : FVec Ideal S16x3 .f32)
    (a10 : FVec Ideal S16x64x64 .f32) (a11 a12 a13 : FVec Ideal S64 .f32) (a14 : FVec Ideal S128x64 .f32)
    (a15 a16 a17 : FVec Ideal S128 .f32)
    (h : fn (F := Ideal) a0 a1 a2 a3 a4 a5 a6 a7 a8 a9 a10 a11 a12 a13 a14 a15 a16 a17 = fun _ => 1#1) :
    (∀ i, Cert.Spec.IsReal (a0 i)) ∧ (∀ i, Cert.Spec.IsReal (a1 i)) ∧ (∀ i, Cert.Spec.IsReal (a2 i))
      ∧ (∀ i, Cert.Spec.IsReal (a5 i)) ∧ (∀ i, Cert.Spec.IsReal (a6 i)) ∧ (∀ i, Cert.Spec.IsReal (a7 i))
      ∧ (∀ i, Cert.Spec.IsReal (a8 i)) ∧ (∀ i, Cert.Spec.IsReal (a9 i)) ∧ (∀ i, Cert.Spec.IsReal (a10 i))
      ∧ (∀ i, Cert.Spec.IsReal (a11 i)) ∧ (∀ i, Cert.Spec.IsReal (a12 i)) ∧ (∀ i, Cert.Spec.IsReal (a13 i))
      ∧ (∀ i, Cert.Spec.IsReal (a14 i)) ∧ (∀ i, Cert.Spec.IsReal (a15 i)) ∧ (∀ i, Cert.Spec.IsReal (a16 i))
      ∧ (∀ i, Cert.Spec.IsReal (a17 i)) := by
  have h0 := congrFun h ix0
  dsimp only [fn, fn_part1, fn_part2, fn_part3, fn_part4, fn_part5, Idealize.ShloMosaic.andi] at h0
  simp only [IntOp.andi_eq_one] at h0
  obtain ⟨⟨⟨⟨⟨⟨⟨⟨⟨⟨⟨⟨⟨⟨⟨⟨⟨e0, e1⟩, e2⟩, e5⟩, e6⟩, e7⟩, e8⟩, e9⟩, e10⟩, e11⟩, e12⟩, e13⟩, e14⟩, e15⟩, e16⟩, e17⟩, _⟩, _⟩ := h0
  exact ⟨real_of_leaf a0 _ _ e0, real_of_leaf a1 _ _ e1, real_of_leaf a2 _ _ e2, real_of_leaf a5 _ _ e5,
    real_of_leaf a6 _ _ e6, real_of_leaf a7 _ _ e7, real_of_leaf a8 _ _ e8, real_of_leaf a9 _ _ e9,
    real_of_leaf a10 _ _ e10, real_of_leaf a11 _ _ e11, real_of_leaf a12 _ _ e12, real_of_leaf a13 _ _ e13,
    real_of_leaf a14 _ _ e14, real_of_leaf a15 _ _ e15, real_of_leaf a16 _ _ e16, real_of_leaf a17 _ _ e17⟩

end Cert.KernelIdeal.PreFacts
-- ==== Proof.Launch.Hidx.lean ====
import proofs.«214766_g21345987461187_cont_8to1_720_22_alg».proof.Proof.Launch.Fold
import proofs.«214766_g21345987461187_cont_8to1_720_22_alg».proof.Proof.Launch.Kept
import proofs.«214766_g21345987461187_cont_8to1_720_22_alg».proof.Proof.PreFacts
import Idealize.ShloMosaic.Lib.Pipeline.Value
import Idealize.ShloMosaic.Lib.IdealHost

set_option maxRecDepth 16384

noncomputable section

namespace Cert.KernelIdeal.Launch

open Cert.KernelIdeal Cert.KernelIdeal.Hand

open Idealize.ShloMosaic Idealize.ShloMosaic.TcCoe Idealize.ShloMosaic.ValueIdx
open Idealize.SL.Sem

variable {F : FTy → Type} [FloatOps F]

section Matrix

open Cert.KernelIdeal.Facts₀ Cert.KernelIdeal.Facts

theorem batchOffset_apply (b : Fin 2) (s : Fin 4096) (k : Fin 16) :
    broadcastInDim S2x4096x16 ![0, 1, 2] bcast_S2x1x1_S2x4096x16_0_1_2
        (broadcastInDim S2x1x1 ![0] bcast_S2_S2x1x1_0
          (muli (iotaInDim S2 32 0) (broadcastInDim S2 ![] bcast_S_S2 (constantI S_ 32 16384#32)))) (ix3 b s k)
      = BitVec.ofNat 32 b.val * 16384#32 := by
  refine (broadcastInDim_apply _ _ _ _ (ix3 b (0 : Fin 1) (0 : Fin 1))
    (fun a => by match a with | ⟨0, _⟩ => rfl | ⟨1, _⟩ => rfl | ⟨2, _⟩ => rfl)).trans ?_
  refine (broadcastInDim_apply _ _ _ _ (ix1 b) (fun a => by match a with | ⟨0, _⟩ => rfl)).trans ?_
  show IntOp.muli (iotaInDim S2 32 0 (ix1 b)) (broadcastInDim S2 ![] bcast_S_S2 (constantI S_ 32 16384#32) (ix1 b)) = _
  rw [broadcastInDim_scalar_apply]
  rfl

set_option maxHeartbeats 4000000 in
theorem ops1_v24 (V : Valuation τ sig (Elt F)) :
    StableHlo.after (hostOps1 (F := F)) V (Proc.devRef .tc main_v24)
      = Cert.Spec.idxFlat (V (Proc.devRef .tc main_arg3)) := by
  have e : StableHlo.after (hostOps1 (F := F)) V (Proc.devRef .tc main_v24)
      = shapeCast S1024x128
          (addi (V (Proc.devRef .tc main_arg3))
            (broadcastInDim S2x4096x16 ![0, 1, 2] bcast_S2x1x1_S2x4096x16_0_1_2
              (broadcastInDim S2x1x1 ![0] bcast_S2_S2x1x1_0
                (muli (iotaInDim S2 32 0) (broadcastInDim S2 ![] bcast_S_S2 (constantI S_ 32 16384#32))))))
          shapeCasts_S2x4096x16_S1024x128 := by
    after_results <;> rfl
  rw [e]
  funext x
  obtain ⟨q, l, rfl⟩ : ∃ (q : Fin 1024) (l : Fin 128), x = ix2 q l := ⟨x 0, x 1, eq_ix2 x⟩
  have hq := q.isLt
  have hl := l.isLt
  rw [Cert.Spec.idxFlat_at]
  refine (shapeCast_apply _ _ (ix2 q l)
    (ix3 (⟨(q.val * 128 + l.val) / 65536, by omega⟩ : Fin 2) (⟨((q.val * 128 + l.val) / 16) % 4096, by omega⟩ : Fin 4096)
      (⟨(q.val * 128 + l.val) % 16, by omega⟩ : Fin 16)) ?_).trans ?_
  · rw [Shape.rowMajor_val_three, Shape.rowMajor_val_two]
    show ((q.val * 128 + l.val) / 65536 * 4096 + ((q.val * 128 + l.val) / 16) % 4096) * 16 + (q.val * 128 + l.val) % 16
      = q.val * 128 + l.val
    omega
  · show IntOp.addi _ _ = _
    rw [batchOffset_apply]
    rfl

end Matrix

open Cert.KernelIdeal.Gen

variable (m : (ℓ : Loc nD τ sig) → Buf (Elt F) ℓ)

theorem W2_main_arg3 (d : Dev nD) : W2 m d (Proc.devRef .tc main_arg3) = m ((d : Thread nD τ).loc main_arg3) :=
  calc W2 m d (Proc.devRef .tc main_arg3)
    _ = W1 m d (Proc.devRef .tc main_arg3) :=
        region_kept (dat0 m d) launch0.win.arr_inj (W1 m d) (fun w => R0.A_eq (Vof (W1 m)) _ _ Ψ0 d w) main_arg3 (by decide)
    _ = W0 m d (Proc.devRef .tc main_arg3) :=
        StableHlo.after_of_writes_sub hostOps0 (W0 m d) hostOps0_writes (by decide)
    _ = m ((d : Thread nD τ).loc main_arg3) := rfl

theorem Ic_eq (d : Dev nD) : Ic m d = Cert.Spec.idxFlat (m ((d : Thread nD τ).loc main_arg3)) := by
  unfold Ic
  show StableHlo.after (hostOps1 (F := F)) (W2 m d) (Proc.devRef .tc main_v24) = _
  rw [ops1_v24, W2_main_arg3]

abbrev PreAt [Cert.Pre_input_domain.Facts] : Prop :=
  ∀ c : Dev nD, (Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))) = (fun _ => 1#1)

theorem hidx_of_pre [Cert.Pre_input_domain.Facts] (hpre : PreAt m) :
    ∀ d x, (Ic m d x).toNat < 32768 := by
  intro d x
  rw [Ic_eq]
  exact PreFacts.idxFlat_lt_of_pre _ _ _ _ _ _ _ _ _ _ _ _ _ _ _ _ _ _ (hpre d) x

end Cert.KernelIdeal.Launch

end
-- ==== Proof.R0.Run.lean ====
import proofs.«214766_g21345987461187_cont_8to1_720_22_alg».proof.Proof.R0.Data
import Idealize.ShloMosaic.Lib.Pipeline.Value

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] {Ix : Type} [DecidableEq Ix] {Name : Type} [DecidableEq Name]
  {U : Type} [URA U] {Lvl : Type} [Preorder Lvl]

local notation "𝕄" => MT nD τ sig Ix (Elt F) Name U Lvl

theorem hz3 : (![0, 0, 0] : Fin 3 → Nat) = fun _ => 0 := by funext a; fin_cases a <;> rfl
theorem hz2 : (![0, 0] : Fin 2 → Nat) = fun _ => 0 := by funext a; fin_cases a <;> rfl

set_option maxHeartbeats 1000000 in
theorem sound_first (c : Dev nD) (E : Set Name) (i : grid0.Coords)
    (arg2 : Memref sig .tc .vmem S1x128x1024 .f32) (harg2 : arg2.IsWhole) (arg3 : Memref sig .tc .vmem S1x1024x3 .f32) (harg3 : arg3.IsWhole)
    (arg4 : Memref sig .tc .vmem S64x128 .f32) (harg4 : arg4.IsWhole) (arg5 : Memref sig .tc .vmem S1x64 .f32) (harg5 : arg5.IsWhole)
    (arg6 : Memref sig .tc .vmem S1x1024x128 .f32) (harg6 : arg6.IsWhole) (arg7 : Memref sig .tc .vmem S1x1024x128 .f32) (harg7 : arg7.IsWhole)
    (arg8 : Memref sig .tc .vmem S1x64 .f32) (harg8 : arg8.IsWhole) (arg9 : Memref sig .tc .vmem S1x64 .f32) (harg9 : arg9.IsWhole)
    (hc : isFirst i)
    (x : Vec F S1x128x1024 .f32) (pt : Vec F S1x1024x3 .f32) (w0 : Vec F S64x128 .f32) (b0 : Vec F S1x64 .f32)
    (K : PUnit → sProp 𝕄) :
    iprop(owns (c : Thread nD τ) arg2 fullShare x ∗ owns (c : Thread nD τ) arg3 fullShare pt
        ∗ owns (c : Thread nD τ) arg4 fullShare w0 ∗ owns (c : Thread nD τ) arg5 fullShare b0
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg2 fullShare x ∗ owns (c : Thread nD τ) arg3 fullShare pt
            ∗ owns (c : Thread nD τ) arg4 fullShare w0 ∗ owns (c : Thread nD τ) arg5 fullShare b0
            ∗ owns (c : Thread nD τ) arg6 fullShare (y0tTile x pt w0 b0) ∗ owns (c : Thread nD τ) arg7 fullShare (xtTile x)
            ∗ owns (c : Thread nD τ) arg8 fullShare (s1Step x w0 b0 sZero1)
            ∗ owns (c : Thread nD τ) arg9 fullShare (s2Step x w0 b0 sZero2)) -∗ K ⟨⟩))
      ⊢ wp frame (wpE (defs₀ (F := F)) Variants.none c none) E (cc0__k1_body i arg2 harg2 arg3 harg3 arg4 harg4 arg5 harg5 arg6 harg6 arg7 harg7 arg8 harg8 arg9 harg9) K := by
  simp only [cc0__k1_body_eq_skeleton]; unfold cc0__k1_body_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf2 hf3 hf4 hf5
  sl_exec (disch := first | exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_eq_canon _ _ _ (fun y => ⟨_, List.mem_cons.mpr (Or.inl rfl), View.mem_set_unit_zero hz3 inb_S1x1024x128_S1x1024x128_0_0_0 y⟩),
      View.canon_unit_zero hz3]
    simp only [View.readAt_eq_ld, View.ld_unit_zero (S := S1x128x1024) hz3, View.ld_unit_zero (S := S1x1024x3) hz3,
      View.ld_unit_zero (S := S64x128) hz2, View.ld_unit_zero (S := S1x64) hz2, View.readCov_unit_zero (S := S1x64) _ hz2]
    rfl
  isplitl [H7]
  · iexists _; isplitr
    swap; · iexact H7
    ipureintro
    rw [View.read_writes_eq_canon _ _ _ (fun y => ⟨_, List.mem_cons.mpr (Or.inl rfl), View.mem_set_unit_zero hz3 inb_S1x1024x128_S1x1024x128_0_0_0 y⟩),
      View.canon_unit_zero hz3]
    simp only [View.readAt_eq_ld, View.ld_unit_zero (S := S1x128x1024) hz3, View.ld_unit_zero (S := S1x1024x3) hz3,
      View.ld_unit_zero (S := S64x128) hz2, View.ld_unit_zero (S := S1x64) hz2, View.readCov_unit_zero (S := S1x64) _ hz2]
    rfl
  isplitl [H8]
  · iexists _; isplitr
    swap; · iexact H8
    ipureintro
    sl_unfold_words
    rw [View.read_writes_eq_canon _ _ _ (fun y => ⟨_, List.mem_cons.mpr (Or.inl rfl), View.mem_set_unit_zero hz2 inb_S1x64_S1x64_0_0 y⟩),
      View.canon_cons_unit_zero hz2]
    simp only [View.readAt_eq_ld, View.ld_unit_zero (S := S1x128x1024) hz3, View.ld_unit_zero (S := S1x1024x3) hz3,
      View.ld_unit_zero (S := S64x128) hz2, View.ld_unit_zero (S := S1x64) hz2, View.readCov_unit_zero (S := S1x64) _ hz2]
    rfl
  · iexists _; isplitr
    swap; · iexact H9
    ipureintro
    sl_unfold_words
    rw [View.read_writes_eq_canon _ _ _ (fun y => ⟨_, List.mem_cons.mpr (Or.inl rfl), View.mem_set_unit_zero hz2 inb_S1x64_S1x64_0_0 y⟩),
      View.canon_cons_unit_zero hz2]
    simp only [View.readAt_eq_ld, View.ld_unit_zero (S := S1x128x1024) hz3, View.ld_unit_zero (S := S1x1024x3) hz3,
      View.ld_unit_zero (S := S64x128) hz2, View.ld_unit_zero (S := S1x64) hz2, View.readCov_unit_zero (S := S1x64) _ hz2]
    rfl

set_option maxHeartbeats 1000000 in
theorem sound_later (c : Dev nD) (E : Set Name) (i : grid0.Coords)
    (arg2 : Memref sig .tc .vmem S1x128x1024 .f32) (harg2 : arg2.IsWhole) (arg3 : Memref sig .tc .vmem S1x1024x3 .f32) (harg3 : arg3.IsWhole)
    (arg4 : Memref sig .tc .vmem S64x128 .f32) (harg4 : arg4.IsWhole) (arg5 : Memref sig .tc .vmem S1x64 .f32) (harg5 : arg5.IsWhole)
    (arg6 : Memref sig .tc .vmem S1x1024x128 .f32) (harg6 : arg6.IsWhole) (arg7 : Memref sig .tc .vmem S1x1024x128 .f32) (harg7 : arg7.IsWhole)
    (arg8 : Memref sig .tc .vmem S1x64 .f32) (harg8 : arg8.IsWhole) (arg9 : Memref sig .tc .vmem S1x64 .f32) (harg9 : arg9.IsWhole)
    (hc : ¬isFirst i)
    (x : Vec F S1x128x1024 .f32) (pt : Vec F S1x1024x3 .f32) (w0 : Vec F S64x128 .f32) (b0 : Vec F S1x64 .f32)
    (a1 a2 : Vec F S1x64 .f32) (K : PUnit → sProp 𝕄) :
    iprop(owns (c : Thread nD τ) arg2 fullShare x ∗ owns (c : Thread nD τ) arg3 fullShare pt
        ∗ owns (c : Thread nD τ) arg4 fullShare w0 ∗ owns (c : Thread nD τ) arg5 fullShare b0
        ∗ (∃ d, owns (c : Thread nD τ) arg6 fullShare d) ∗ (∃ d, owns (c : Thread nD τ) arg7 fullShare d)
        ∗ owns (c : Thread nD τ) arg8 fullShare a1 ∗ owns (c : Thread nD τ) arg9 fullShare a2
        ∗ (iprop(owns (c : Thread nD τ) arg2 fullShare x ∗ owns (c : Thread nD τ) arg3 fullShare pt
            ∗ owns (c : Thread nD τ) arg4 fullShare w0 ∗ owns (c : Thread nD τ) arg5 fullShare b0
            ∗ owns (c : Thread nD τ) arg6 fullShare (y0tTile x pt w0 b0) ∗ owns (c : Thread nD τ) arg7 fullShare (xtTile x)
            ∗ owns (c : Thread nD τ) arg8 fullShare (s1Step x w0 b0 a1)
            ∗ owns (c : Thread nD τ) arg9 fullShare (s2Step x w0 b0 a2)) -∗ K ⟨⟩))
      ⊢ wp frame (wpE (defs₀ (F := F)) Variants.none c none) E (cc0__k1_body i arg2 harg2 arg3 harg3 arg4 harg4 arg5 harg5 arg6 harg6 arg7 harg7 arg8 harg8 arg9 harg9) K := by
  simp only [cc0__k1_body_eq_skeleton]; unfold cc0__k1_body_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  subst hf2 hf3 hf4 hf5 hf8 hf9
  sl_exec (disch := first | exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_eq_canon _ _ _ (fun y => ⟨_, List.mem_cons.mpr (Or.inl rfl), View.mem_set_unit_zero hz3 inb_S1x1024x128_S1x1024x128_0_0_0 y⟩),
      View.canon_unit_zero hz3]
    simp only [View.readAt_eq_ld, View.ld_unit_zero (S := S1x128x1024) hz3, View.ld_unit_zero (S := S1x1024x3) hz3,
      View.ld_unit_zero (S := S64x128) hz2, View.ld_unit_zero (S := S1x64) hz2, View.readCov_unit_zero (S := S1x64) _ hz2]
    rfl
  isplitl [H7]
  · iexists _; isplitr
    swap; · iexact H7
    ipureintro
    rw [View.read_writes_eq_canon _ _ _ (fun y => ⟨_, List.mem_cons.mpr (Or.inl rfl), View.mem_set_unit_zero hz3 inb_S1x1024x128_S1x1024x128_0_0_0 y⟩),
      View.canon_unit_zero hz3]
    simp only [View.readAt_eq_ld, View.ld_unit_zero (S := S1x128x1024) hz3, View.ld_unit_zero (S := S1x1024x3) hz3,
      View.ld_unit_zero (S := S64x128) hz2, View.ld_unit_zero (S := S1x64) hz2, View.readCov_unit_zero (S := S1x64) _ hz2]
    rfl
  isplitl [H8]
  · iexists _; isplitr
    swap; · iexact H8
    ipureintro
    sl_unfold_words
    rw [View.read_writes_eq_canon _ _ _ (fun y => ⟨_, List.mem_cons.mpr (Or.inl rfl), View.mem_set_unit_zero hz2 inb_S1x64_S1x64_0_0 y⟩),
      View.canon_unit_zero hz2]
    simp only [View.readAt_eq_ld, View.ld_unit_zero (S := S1x128x1024) hz3, View.ld_unit_zero (S := S1x1024x3) hz3,
      View.ld_unit_zero (S := S64x128) hz2, View.ld_unit_zero (S := S1x64) hz2, View.readCov_unit_zero (S := S1x64) _ hz2]
    rfl
  · iexists _; isplitr
    swap; · iexact H9
    ipureintro
    sl_unfold_words
    rw [View.read_writes_eq_canon _ _ _ (fun y => ⟨_, List.mem_cons.mpr (Or.inl rfl), View.mem_set_unit_zero hz2 inb_S1x64_S1x64_0_0 y⟩),
      View.canon_unit_zero hz2]
    simp only [View.readAt_eq_ld, View.ld_unit_zero (S := S1x128x1024) hz3, View.ld_unit_zero (S := S1x1024x3) hz3,
      View.ld_unit_zero (S := S64x128) hz2, View.ld_unit_zero (S := S1x64) hz2, View.readCov_unit_zero (S := S1x64) _ hz2]
    rfl

end Cert.KernelIdeal.R0

end
-- ==== Proof.R0.Body.lean ====
import proofs.«214766_g21345987461187_cont_8to1_720_22_alg».proof.Proof.R0.Run

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] {Ix : Type} [DecidableEq Ix] {Name : Type} [DecidableEq Name]
  {U : Type} [URA U] {Lvl : Type} [Preorder Lvl]

local notation "𝕄" => MT nD τ sig Ix (Elt F) Name U Lvl

variable (V : (c : Dev nD) → (b : Ref sig .tc) → Buf (Elt F) ((c : Thread nD τ).loc b))
  (O : CellTallies nD τ sig Ix) (Rc : Set (SemLoc sig × Ix))
  (Ψ : Dev nD → sProp (MT nD τ sig Ix (Elt F) Name U Lvl))

def bodyPre (ι : Ix) (c : Dev nD) (t : Fin cfg0.N) : sProp 𝕄 :=
  iprop((dat V O Rc Ψ c).Φ t.castSucc ∗ (dat V O Rc Ψ c).owesAt ι t.castSucc
    ∗ (∃ d, owns (c : Thread nD τ) (st0_0 t) fullShare ((dat V O Rc Ψ c).before 0 t d))
    ∗ (∃ d, owns (c : Thread nD τ) (st0_1 t) fullShare ((dat V O Rc Ψ c).before 1 t d))
    ∗ (∃ d, owns (c : Thread nD τ) (st0_2 t) fullShare ((dat V O Rc Ψ c).before 2 t d))
    ∗ (∃ d, owns (c : Thread nD τ) (st0_3 t) fullShare ((dat V O Rc Ψ c).before 3 t d))
    ∗ (∃ d, owns (c : Thread nD τ) (st0_4 t) fullShare ((dat V O Rc Ψ c).before 4 t d))
    ∗ (∃ d, owns (c : Thread nD τ) (st0_5 t) fullShare ((dat V O Rc Ψ c).before 5 t d))
    ∗ (∃ d, owns (c : Thread nD τ) (st0_6 t) fullShare ((dat V O Rc Ψ c).before 6 t d))
    ∗ (∃ d, owns (c : Thread nD τ) (st0_7 t) fullShare ((dat V O Rc Ψ c).before 7 t d)))

def bodyPost (ι : Ix) (c : Dev nD) (t : Fin cfg0.N) : sProp 𝕄 :=
  iprop((dat V O Rc Ψ c).Φ t.succ ∗ (dat V O Rc Ψ c).owesAt ι t.succ
    ∗ owns (c : Thread nD τ) (st0_0 t) fullShare ((dat V O Rc Ψ c).after 0 t)
    ∗ owns (c : Thread nD τ) (st0_1 t) fullShare ((dat V O Rc Ψ c).after 1 t)
    ∗ owns (c : Thread nD τ) (st0_2 t) fullShare ((dat V O Rc Ψ c).after 2 t)
    ∗ owns (c : Thread nD τ) (st0_3 t) fullShare ((dat V O Rc Ψ c).after 3 t)
    ∗ owns (c : Thread nD τ) (st0_4 t) fullShare ((dat V O Rc Ψ c).after 4 t)
    ∗ owns (c : Thread nD τ) (st0_5 t) fullShare ((dat V O Rc Ψ c).after 5 t)
    ∗ owns (c : Thread nD τ) (st0_6 t) fullShare ((dat V O Rc Ψ c).after 6 t)
    ∗ owns (c : Thread nD τ) (st0_7 t) fullShare ((dat V O Rc Ψ c).after 7 t))

set_option maxHeartbeats 1000000 in
theorem sound_body (ι : Ix) (c : Dev nD) (t : Fin cfg0.N) :
    bodyPre V O Rc Ψ ι c t ⊢ wp frame (wpE (defs₀ (F := F)) Variants.none c none) Set.univ (bodyAt0 t)
      (fun _ => bodyPost V O Rc Ψ ι c t) := by
  unfold bodyPre bodyPost bodyAt0
  simp only [before_0, before_1, before_2, before_3]
  rw [show (dat V O Rc Ψ c).Φ t.succ = (dat V O Rc Ψ c).Φ t.castSucc from rfl,
    show (dat V O Rc Ψ c).owesAt ι t.succ = (dat V O Rc Ψ c).owesAt ι t.castSucc from rfl,
    after_0, after_1, after_2, after_3, after_4, after_5, after_6, after_7]
  by_cases h0 : t.val = 0
  · rw [s1At_first V c t h0, s2At_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_first c Set.univ (grid0.coords t) _ _ _ _ _ _ _ _ _ _ _ _ _ _ _ _ ((isFirst_iff t).mpr h0)
      (iblk V c 0 t) (iblk V c 1 t) (iblk V c 2 t) (iblk V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [s1At_later V c t h0, s2At_later V c t h0]
    simp only [before_6 V O Rc Ψ c t h0, before_7 V O Rc Ψ c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_later c Set.univ (grid0.coords t) _ _ _ _ _ _ _ _ _ _ _ _ _ _ _ _ (fun h => h0 ((isFirst_iff t).mp h))
      (iblk V c 0 t) (iblk V c 1 t) (iblk V c 2 t) (iblk V c 3 t) _ _ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligation (ι : Ix) (c : Dev nD) :
    BodyObligation (dat V O Rc Ψ c) (defs₀ (F := F)) Variants.none ι Set.univ := fun t => by
  rw [bigSep_W0, bigSep_W0]
  exact sound_body V O Rc Ψ ι c t

end Cert.KernelIdeal.R0

end
-- ==== Proof.R3.Body.lean ====
import proofs.«214766_g21345987461187_cont_8to1_720_22_alg».proof.Proof.R3.Data

set_option maxRecDepth 16384

noncomputable section

namespace Cert.KernelIdeal.R3

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

section
variable (V : (c : Dev nD) → (b : Ref sig .tc) → Buf (Elt F) ((c : Thread nD τ).loc b))

def bodyPre (Rc : Set (SemLoc sig × Ix)) (Ψ : Dev nD → sProp 𝕄) (ι : Ix) (c : Dev nD) (t : Fin cfg3.N) : sProp 𝕄 :=
  iprop((dat V Rc Ψ c).Φ t.castSucc ∗ (dat V Rc Ψ c).owesAt ι t.castSucc
    ∗ (∃ d, owns (c : Thread nD τ) (ms0 t) fullShare ((dat V Rc Ψ c).before 0 t d))
    ∗ (∃ d, owns (c : Thread nD τ) (ms1 t) fullShare ((dat V Rc Ψ c).before 1 t d))
    ∗ (∃ d, owns (c : Thread nD τ) (ms2 t) fullShare ((dat V Rc Ψ c).before 2 t d))
    ∗ (∃ d, owns (c : Thread nD τ) (ms3 t) fullShare ((dat V Rc Ψ c).before 3 t d))
    ∗ (∃ d, owns (c : Thread nD τ) (ms4 t) fullShare ((dat V Rc Ψ c).before 4 t d))
    ∗ (∃ d, owns (c : Thread nD τ) (ms5 t) fullShare ((dat V Rc Ψ c).before 5 t d))
    ∗ (∃ d, owns (c : Thread nD τ) (ms6 t) fullShare ((dat V Rc Ψ c).before 6 t d))
    ∗ (∃ d, owns (c : Thread nD τ) (ms7 t) fullShare ((dat V Rc Ψ c).before 7 t d))
    ∗ (∃ d, owns (c : Thread nD τ) (ms8 t) fullShare ((dat V Rc Ψ c).before 8 t d))
    ∗ (∃ d, owns (c : Thread nD τ) (ms9 t) fullShare ((dat V Rc Ψ c).before 9 t d))
    ∗ (∃ d, owns (c : Thread nD τ) (ms10 t) fullShare ((dat V Rc Ψ c).before 10 t d)))

def bodyPost (Rc : Set (SemLoc sig × Ix)) (Ψ : Dev nD → sProp 𝕄) (ι : Ix) (c : Dev nD) (t : Fin cfg3.N) : sProp 𝕄 :=
  iprop((dat V Rc Ψ c).Φ t.succ ∗ (dat V Rc Ψ c).owesAt ι t.succ
    ∗ owns (c : Thread nD τ) (ms0 t) fullShare ((dat V Rc Ψ c).after 0 t)
    ∗ owns (c : Thread nD τ) (ms1 t) fullShare ((dat V Rc Ψ c).after 1 t)
    ∗ owns (c : Thread nD τ) (ms2 t) fullShare ((dat V Rc Ψ c).after 2 t)
    ∗ owns (c : Thread nD τ) (ms3 t) fullShare ((dat V Rc Ψ c).after 3 t)
    ∗ owns (c : Thread nD τ) (ms4 t) fullShare ((dat V Rc Ψ c).after 4 t)
    ∗ owns (c : Thread nD τ) (ms5 t) fullShare ((dat V Rc Ψ c).after 5 t)
    ∗ owns (c : Thread nD τ) (ms6 t) fullShare ((dat V Rc Ψ c).after 6 t)
    ∗ owns (c : Thread nD τ) (ms7 t) fullShare ((dat V Rc Ψ c).after 7 t)
    ∗ owns (c : Thread nD τ) (ms8 t) fullShare ((dat V Rc Ψ c).after 8 t)
    ∗ owns (c : Thread nD τ) (ms9 t) fullShare ((dat V Rc Ψ c).after 9 t)
    ∗ owns (c : Thread nD τ) (ms10 t) fullShare ((dat V Rc Ψ c).after 10 t))

set_option maxHeartbeats 1600000 in
theorem sound_body (Rc : Set (SemLoc sig × Ix)) (Ψ : Dev nD → sProp 𝕄) (ι : Ix) (c : Dev nD) (t : Fin cfg3.N) :
    bodyPre V Rc Ψ ι c t ⊢ wp frame (wpE (defs₀ (F := F)) Variants.none c none) Set.univ (bodyAt3 t) (fun _ => bodyPost V Rc Ψ ι c t) := by
  unfold bodyPre bodyPost bodyAt3
  simp only [before_0, before_1, before_2, before_3, before_4, before_5, before_6, before_7]
  rw [show (dat V Rc Ψ c).Φ t.succ = (dat V Rc Ψ c).Φ t.castSucc from rfl,
    show (dat V Rc Ψ c).owesAt ι t.succ = (dat V Rc Ψ c).owesAt ι t.castSucc from rfl,
    after_0, after_1, after_2, after_3, after_4, after_5, after_6, after_7, after_8, after_9, after_10]
  have hN : t.val < 16 := lt_of_lt_of_eq t.isLt (show cfg3.N = 16 from N_3)
  by_cases h0 : t.val % 16 = 0
  · rw [outsAt_A V c t h0]
    dsimp only
    unfold outA8 outA9 outA10
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun_A c (grid3.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ((hcond t).mpr h0) (iblk V c 0 t) (iblk V c 1 t) (iblk V c 2 t) (iblk V c 3 t) (iblk V c 4 t) (iblk V c 5 t) (iblk V c 6 t) (iblk V c 7 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iintro ⟨H0, H1, H2, H3, H4, H5, H6, H7, ⟨%e8, H8⟩, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (coverA8 c _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (coverA9 c _ _ _ _ _ _ _ _ _ _ _ _ _ _ _ _ _ _ _ _ _ _ _ _ _ _ _ _ _ _ _ _)
    unfold owns; iexists _; isplitr
    swap; · iexact H10
    ipureintro; exact View.read_writes_of_cover _ _ _ _ _ (coverA10 c _ _ _ _ _ _ _ _ _ _ _ _ _ _ _ _ _ _ _ _ _ _ _ _ _ _ _ _ _ _ _ _)
  · rw [outsAt_B V c t h0]
    dsimp only
    simp only [before_9_B V Rc Ψ c t h0, before_10_B V Rc Ψ c t h0]
    unfold outB8 outB9 outB10
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun_B c (grid3.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (fun h => h0 ((hcond t).mp h)) (iblk V c 0 t) (iblk V c 1 t) (iblk V c 2 t) (iblk V c 3 t) (iblk V c 4 t) (iblk V c 5 t) (iblk V c 6 t) (iblk V c 7 t) (outsAt V c (t.val - 1) (Nat.lt_of_le_of_lt (Nat.sub_le _ _) t.isLt)).2.1 (outsAt V c (t.val - 1) (Nat.lt_of_le_of_lt (Nat.sub_le _ _) t.isLt)).2.2).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    iintro ⟨H0, H1, H2, H3, H4, H5, H6, H7, ⟨%e8, H8⟩, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (coverB8 c _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (coverB9 c _ _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (coverB10 c _ _ _ _ _ _ _ _ _ _ _ _ _ _ _ _ _ _ _ _ _ _ _ _ _ _ _ _ _ _ _ _ _ _)

theorem body_obligation (Rc : Set (SemLoc sig × Ix)) (Ψ : Dev nD → sProp 𝕄) (ι : Ix) (c : Dev nD) :
    BodyObligation (dat (F := F) V Rc Ψ c) (defs₀ (F := F)) Variants.none ι Set.univ := fun t => by
  rw [bigSep_W3, bigSep_W3]
  exact sound_body V Rc Ψ ι c t

end

end Cert.KernelIdeal.R3

end
-- ==== Proof.R4.Body.lean ====
import proofs.«214766_g21345987461187_cont_8to1_720_22_alg».proof.Proof.R4.Data

set_option maxRecDepth 16384

noncomputable section

namespace Cert.KernelIdeal.R4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (V : (c : Dev nD) → (b : Ref sig .tc) → Buf (Elt F) ((c : Thread nD τ).loc b))

abbrev isFirst (i : grid4.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

theorem isFirst_iff : ∀ t : Fin cfg4.N, isFirst (grid4.coords t) ↔ t.val = 0 :=
  (by decide +kernel : ∀ t : Fin grid4.N, isFirst (grid4.coords t) ↔ t.val = 0)

theorem off2 : (![0, 0] : Fin 2 → ℕ) = fun _ => 0 := by decide
theorem off3 : (![0, 0, 0] : Fin 3 → ℕ) = fun _ => 0 := by decide
theorem off4 : (![0, 0, 0, 0] : Fin 4 → ℕ) = fun _ => 0 := by decide

set_option maxHeartbeats 4000000 in
theorem run_first (c : Dev nD) (E : Set Name) (i : grid4.Coords) (hc : isFirst i)
    (arg2 : Memref sig .tc .vmem S1x256x64 .f32) (harg2 : arg2.IsWhole) (arg3 : Memref sig .tc .vmem S1x256x16x128 .f32) (harg3 : arg3.IsWhole) (arg4 : Memref sig .tc .vmem S1x256x16 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x128 .f32) (harg8 : arg8.IsWhole) (arg9 : Memref sig .tc .vmem S1x256x128 .f32) (harg9 : arg9.IsWhole) (arg10 : Memref sig .tc .vmem S1x256x128 .f32) (harg10 : arg10.IsWhole) (arg11 : Memref sig .tc .vmem S1x128 .f32) (harg11 : arg11.IsWhole) (arg12 : Memref sig .tc .vmem S1x128 .f32) (harg12 : arg12.IsWhole)
    (x0 : Vec F S1x256x64 .f32) (x1 : Vec F S1x256x16x128 .f32) (x2 : Vec F S1x256x16 .f32) (x3 : Vec F S128x64 .f32) (x4 x5 : Vec F S1x64 .f32) (x6 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out7 x0 x3 x4 x5 x6) ∗ owns (c : Thread nD τ) arg10 fullShare (out8 x1 x2) ∗ owns (c : Thread nD τ) arg11 fullShare (sum1First (conv x0 x3 x4 x5 x6)) ∗ owns (c : Thread nD τ) arg12 fullShare (sum2First (conv x0 x3 x4 x5 x6))) -∗ K ⟨⟩))
      ⊢ wp frame (wpE (defs₀ (F := F)) Variants.none c none) E (cc4__k3_body i arg2 harg2 arg3 harg3 arg4 harg4 arg5 harg5 arg6 harg6 arg7 harg7 arg8 harg8 arg9 harg9 arg10 harg10 arg11 harg11 arg12 harg12) K := by
  simp only [cc4__k3_body_eq_skeleton]; unfold cc4__k3_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf0 hf1 hf2 hf3 hf4 hf5 hf6
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (fun y => ⟨_, List.mem_singleton.mpr rfl, View.mem_set_unit_zero off3 inb_S1x256x128_S1x256x128_0_0_0 y⟩), View.canon_unit_zero (S := S1x256x128) off3]
    unfold out7
    simp only [View.readAt_eq_ld, View.ld_unit_zero (S := S1x256x64) off3, View.ld_unit_zero (S := S1x256x16x128) off4, View.ld_unit_zero (S := S1x256x16) off3, View.ld_unit_zero (S := S128x64) off2, View.ld_unit_zero (S := S1x64) off2, View.ld_unit_zero (S := S1x128) off2]
  isplitl [H8]
  · iexists _; isplitr
    swap; · iexact H8
    ipureintro
    sl_unfold_words
    rw [View.read_writes_eq_canon _ _ _ (fun y => ⟨_, List.mem_singleton.mpr rfl, View.mem_set_unit_zero off3 inb_S1x256x128_S1x256x128_0_0_0 y⟩), View.canon_unit_zero (S := S1x256x128) off3]
    unfold out8
    simp only [View.readAt_eq_ld, View.ld_unit_zero (S := S1x256x64) off3, View.ld_unit_zero (S := S1x256x16x128) off4, View.ld_unit_zero (S := S1x256x16) off3, View.ld_unit_zero (S := S128x64) off2, View.ld_unit_zero (S := S1x64) off2, View.ld_unit_zero (S := S1x128) off2]
  isplitl [H9]
  · iexists _; isplitr
    swap; · iexact H9
    ipureintro
    sl_unfold_words
    rw [View.read_writes_eq_canon _ _ _ (fun y => ⟨_, List.mem_cons.mpr (Or.inl rfl), View.mem_set_unit_zero off2 inb_S1x128_S1x128_0_0 y⟩), View.canon_cons_unit_zero (S := S1x128) off2,
    View.readCov_unit_zero (S := S1x128) _ off2]
    unfold sum1First conv
    simp only [View.readAt_eq_ld, View.ld_unit_zero (S := S1x256x64) off3, View.ld_unit_zero (S := S1x256x16x128) off4, View.ld_unit_zero (S := S1x256x16) off3, View.ld_unit_zero (S := S128x64) off2, View.ld_unit_zero (S := S1x64) off2, View.ld_unit_zero (S := S1x128) off2]
  iexists _; isplitr
  swap; · iexact H10
  ipureintro
  sl_unfold_words
  rw [View.read_writes_eq_canon _ _ _ (fun y => ⟨_, List.mem_cons.mpr (Or.inl rfl), View.mem_set_unit_zero off2 inb_S1x128_S1x128_0_0 y⟩), View.canon_cons_unit_zero (S := S1x128) off2,
  View.readCov_unit_zero (S := S1x128) _ off2]
  unfold sum2First conv
  simp only [View.readAt_eq_ld, View.ld_unit_zero (S := S1x256x64) off3, View.ld_unit_zero (S := S1x256x16x128) off4, View.ld_unit_zero (S := S1x256x16) off3, View.ld_unit_zero (S := S128x64) off2, View.ld_unit_zero (S := S1x64) off2, View.ld_unit_zero (S := S1x128) off2]

set_option maxHeartbeats 4000000 in
theorem run_next (c : Dev nD) (E : Set Name) (i : grid4.Coords) (hc : ¬isFirst i)
    (arg2 : Memref sig .tc .vmem S1x256x64 .f32) (harg2 : arg2.IsWhole) (arg3 : Memref sig .tc .vmem S1x256x16x128 .f32) (harg3 : arg3.IsWhole) (arg4 : Memref sig .tc .vmem S1x256x16 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x128 .f32) (harg8 : arg8.IsWhole) (arg9 : Memref sig .tc .vmem S1x256x128 .f32) (harg9 : arg9.IsWhole) (arg10 : Memref sig .tc .vmem S1x256x128 .f32) (harg10 : arg10.IsWhole) (arg11 : Memref sig .tc .vmem S1x128 .f32) (harg11 : arg11.IsWhole) (arg12 : Memref sig .tc .vmem S1x128 .f32) (harg12 : arg12.IsWhole)
    (x0 : Vec F S1x256x64 .f32) (x1 : Vec F S1x256x16x128 .f32) (x2 : Vec F S1x256x16 .f32) (x3 : Vec F S128x64 .f32) (x4 x5 : Vec F S1x64 .f32) (x6 : Vec F S1x128 .f32) (xo1 xo2 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ owns (c : Thread nD τ) arg11 fullShare xo1 ∗ owns (c : Thread nD τ) arg12 fullShare xo2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out7 x0 x3 x4 x5 x6) ∗ owns (c : Thread nD τ) arg10 fullShare (out8 x1 x2) ∗ owns (c : Thread nD τ) arg11 fullShare (sum1Next (conv x0 x3 x4 x5 x6) xo1) ∗ owns (c : Thread nD τ) arg12 fullShare (sum2Next (conv x0 x3 x4 x5 x6) xo2)) -∗ K ⟨⟩))
      ⊢ wp frame (wpE (defs₀ (F := F)) Variants.none c none) E (cc4__k3_body i arg2 harg2 arg3 harg3 arg4 harg4 arg5 harg5 arg6 harg6 arg7 harg7 arg8 harg8 arg9 harg9 arg10 harg10 arg11 harg11 arg12 harg12) K := by
  simp only [cc4__k3_body_eq_skeleton]; unfold cc4__k3_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, Hk⟩
  subst hf0 hf1 hf2 hf3 hf4 hf5 hf6 hf9 hf10
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (fun y => ⟨_, List.mem_singleton.mpr rfl, View.mem_set_unit_zero off3 inb_S1x256x128_S1x256x128_0_0_0 y⟩), View.canon_unit_zero (S := S1x256x128) off3]
    unfold out7
    simp only [View.readAt_eq_ld, View.ld_unit_zero (S := S1x256x64) off3, View.ld_unit_zero (S := S1x256x16x128) off4, View.ld_unit_zero (S := S1x256x16) off3, View.ld_unit_zero (S := S128x64) off2, View.ld_unit_zero (S := S1x64) off2, View.ld_unit_zero (S := S1x128) off2]
  isplitl [H8]
  · iexists _; isplitr
    swap; · iexact H8
    ipureintro
    sl_unfold_words
    rw [View.read_writes_eq_canon _ _ _ (fun y => ⟨_, List.mem_singleton.mpr rfl, View.mem_set_unit_zero off3 inb_S1x256x128_S1x256x128_0_0_0 y⟩), View.canon_unit_zero (S := S1x256x128) off3]
    unfold out8
    simp only [View.readAt_eq_ld, View.ld_unit_zero (S := S1x256x64) off3, View.ld_unit_zero (S := S1x256x16x128) off4, View.ld_unit_zero (S := S1x256x16) off3, View.ld_unit_zero (S := S128x64) off2, View.ld_unit_zero (S := S1x64) off2, View.ld_unit_zero (S := S1x128) off2]
  isplitl [H9]
  · iexists _; isplitr
    swap; · iexact H9
    ipureintro
    sl_unfold_words
    rw [View.read_writes_eq_canon _ _ _ (fun y => ⟨_, List.mem_singleton.mpr rfl, View.mem_set_unit_zero off2 inb_S1x128_S1x128_0_0 y⟩), View.canon_unit_zero (S := S1x128) off2]
    unfold sum1Next conv
    simp only [View.readAt_eq_ld, View.ld_unit_zero (S := S1x256x64) off3, View.ld_unit_zero (S := S1x256x16x128) off4, View.ld_unit_zero (S := S1x256x16) off3, View.ld_unit_zero (S := S128x64) off2, View.ld_unit_zero (S := S1x64) off2, View.ld_unit_zero (S := S1x128) off2]
  iexists _; isplitr
  swap; · iexact H10
  ipureintro
  sl_unfold_words
  rw [View.read_writes_eq_canon _ _ _ (fun y => ⟨_, List.mem_singleton.mpr rfl, View.mem_set_unit_zero off2 inb_S1x128_S1x128_0_0 y⟩), View.canon_unit_zero (S := S1x128) off2]
  unfold sum2Next conv
  simp only [View.readAt_eq_ld, View.ld_unit_zero (S := S1x256x64) off3, View.ld_unit_zero (S := S1x256x16x128) off4, View.ld_unit_zero (S := S1x256x16) off3, View.ld_unit_zero (S := S128x64) off2, View.ld_unit_zero (S := S1x64) off2, View.ld_unit_zero (S := S1x128) off2]

variable (Rc : Set (SemLoc sig × Ix)) (Ψ : Dev nD → sProp (MT nD τ sig Ix (Elt F) Name U Lvl))

def bodyPre (ι : Ix) (c : Dev nD) (t : Fin cfg4.N) : sProp 𝕄 :=
  iprop((dat V Rc Ψ c).Φ t.castSucc ∗ (dat V Rc Ψ c).owesAt ι t.castSucc
    ∗ (∃ d, owns (c : Thread nD τ) (st4_0 t) fullShare ((dat V Rc Ψ c).before 0 t d))
    ∗ (∃ d, owns (c : Thread nD τ) (st4_1 t) fullShare ((dat V Rc Ψ c).before 1 t d))
    ∗ (∃ d, owns (c : Thread nD τ) (st4_2 t) fullShare ((dat V Rc Ψ c).before 2 t d))
    ∗ (∃ d, owns (c : Thread nD τ) (st4_3 t) fullShare ((dat V Rc Ψ c).before 3 t d))
    ∗ (∃ d, owns (c : Thread nD τ) (st4_4 t) fullShare ((dat V Rc Ψ c).before 4 t d))
    ∗ (∃ d, owns (c : Thread nD τ) (st4_5 t) fullShare ((dat V Rc Ψ c).before 5 t d))
    ∗ (∃ d, owns (c : Thread nD τ) (st4_6 t) fullShare ((dat V Rc Ψ c).before 6 t d))
    ∗ (∃ d, owns (c : Thread nD τ) (st4_7 t) fullShare ((dat V Rc Ψ c).before 7 t d))
    ∗ (∃ d, owns (c : Thread nD τ) (st4_8 t) fullShare ((dat V Rc Ψ c).before 8 t d))
    ∗ (∃ d, owns (c : Thread nD τ) (st4_9 t) fullShare ((dat V Rc Ψ c).before 9 t d))
    ∗ (∃ d, owns (c : Thread nD τ) (st4_10 t) fullShare ((dat V Rc Ψ c).before 10 t d)))

def bodyPost (ι : Ix) (c : Dev nD) (t : Fin cfg4.N) : sProp 𝕄 :=
  iprop((dat V Rc Ψ c).Φ t.succ ∗ (dat V Rc Ψ c).owesAt ι t.succ
    ∗ owns (c : Thread nD τ) (st4_0 t) fullShare ((dat V Rc Ψ c).after 0 t)
    ∗ owns (c : Thread nD τ) (st4_1 t) fullShare ((dat V Rc Ψ c).after 1 t)
    ∗ owns (c : Thread nD τ) (st4_2 t) fullShare ((dat V Rc Ψ c).after 2 t)
    ∗ owns (c : Thread nD τ) (st4_3 t) fullShare ((dat V Rc Ψ c).after 3 t)
    ∗ owns (c : Thread nD τ) (st4_4 t) fullShare ((dat V Rc Ψ c).after 4 t)
    ∗ owns (c : Thread nD τ) (st4_5 t) fullShare ((dat V Rc Ψ c).after 5 t)
    ∗ owns (c : Thread nD τ) (st4_6 t) fullShare ((dat V Rc Ψ c).after 6 t)
    ∗ owns (c : Thread nD τ) (st4_7 t) fullShare ((dat V Rc Ψ c).after 7 t)
    ∗ owns (c : Thread nD τ) (st4_8 t) fullShare ((dat V Rc Ψ c).after 8 t)
    ∗ owns (c : Thread nD τ) (st4_9 t) fullShare ((dat V Rc Ψ c).after 9 t)
    ∗ owns (c : Thread nD τ) (st4_10 t) fullShare ((dat V Rc Ψ c).after 10 t))

set_option maxHeartbeats 2000000 in
theorem sound_body (ι : Ix) (c : Dev nD) (t : Fin cfg4.N) :
    bodyPre V Rc Ψ ι c t ⊢ wp frame (wpE (defs₀ (F := F)) Variants.none c none) Set.univ (bodyAt4 t) (fun _ => bodyPost V Rc Ψ ι c t) := by
  unfold bodyPre bodyPost bodyAt4
  simp only [before_0, before_1, before_2, before_3, before_4, before_5, before_6]
  rw [show (dat V Rc Ψ c).Φ t.succ = (dat V Rc Ψ c).Φ t.castSucc from rfl,
    show (dat V Rc Ψ c).owesAt ι t.succ = (dat V Rc Ψ c).owesAt ι t.castSucc from rfl,
    after_0, after_1, after_2, after_3, after_4, after_5, after_6, after_7, after_8, after_9, after_10]
  by_cases h0 : t.val = 0
  · rw [sum1At_zero V c t h0, sum2At_zero V c t h0]
    unfold convAt
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_first c Set.univ (grid4.coords t) ((isFirst_iff t).mpr h0) _ _ _ _ _ _ _ _ _ _ _ _ _ _ _ _ _ _ _ _ _ _ (blk0 V c t) (blk1 V c t) (blk2 V c t) (blk3 V c t) (blk4 V c t) (blk5 V c t) (blk6 V c t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [sum1At_pos V c t h0, sum2At_pos V c t h0]
    simp only [before_9_pos V Rc Ψ c t h0, before_10_pos V Rc Ψ c t h0]
    unfold convAt
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_next c Set.univ (grid4.coords t) (fun h => h0 ((isFirst_iff t).mp h)) _ _ _ _ _ _ _ _ _ _ _ _ _ _ _ _ _ _ _ _ _ _ (blk0 V c t) (blk1 V c t) (blk2 V c t) (blk3 V c t) (blk4 V c t) (blk5 V c t) (blk6 V c t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [H10]; · iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem body_obligation (ι : Ix) (c : Dev nD) :
    BodyObligation (dat (F := F) V Rc Ψ c) (defs₀ (F := F)) Variants.none ι Set.univ := fun t => by
  rw [bigSep_W4, bigSep_W4]
  exact sound_body V Rc Ψ ι c t

end Cert.KernelIdeal.R4

end
-- ==== Proof.R5.Body.lean ====
import proofs.«214766_g21345987461187_cont_8to1_720_22_alg».proof.Proof.R5.Data

set_option maxRecDepth 16384

noncomputable section

namespace Cert.KernelIdeal.R5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

set_option maxHeartbeats 1000000 in
theorem sound_kernel (c : Dev nD) (E : Set Name) (i : grid5.Coords)
    (arg2 : Memref sig .tc .vmem S1x512x128 .f32) (harg2 : arg2.IsWhole)
    (arg3 : Memref sig .tc .vmem S1x512x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x128x512 .f32) (harg6 : arg6.IsWhole)
    (y x : Vec F S1x512x128 .f32) (a b : Vec F S1x128 .f32) (K : PUnit → sProp 𝕄) :
    iprop(owns (c : Thread nD τ) arg2 fullShare y ∗ owns (c : Thread nD τ) arg3 fullShare x
        ∗ owns (c : Thread nD τ) arg4 fullShare a ∗ owns (c : Thread nD τ) arg5 fullShare b
        ∗ (∃ d, owns (c : Thread nD τ) arg6 fullShare d)
        ∗ (iprop(owns (c : Thread nD τ) arg2 fullShare y ∗ owns (c : Thread nD τ) arg3 fullShare x
            ∗ owns (c : Thread nD τ) arg4 fullShare a ∗ owns (c : Thread nD τ) arg5 fullShare b
            ∗ owns (c : Thread nD τ) arg6 fullShare (outBlk y x a b)) -∗ K ⟨⟩))
      ⊢ wp frame (wpE (defs₀ (F := F)) Variants.none c none) E
          (cc5__k4_body i arg2 harg2 arg3 harg3 arg4 harg4 arg5 harg5 arg6 harg6) K := by
  simp only [cc5__k4_body_eq_skeleton]; unfold cc5__k4_body_skel
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

section Region

variable (V : (c : Dev nD) → (b : Ref sig .tc) → Buf (Elt F) ((c : Thread nD τ).loc b))
variable (Rc : Set (SemLoc sig × Ix))
variable (Ψ : Dev nD → sProp (MT nD τ sig Ix (Elt F) Name U Lvl))

def bodyPre (ι : Ix) (c : Dev nD) (t : Fin cfg5.N) : sProp 𝕄 :=
  iprop((dat V Rc Ψ c).Φ t.castSucc ∗ (dat V Rc Ψ c).owesAt ι t.castSucc
    ∗ (∃ d, owns (c : Thread nD τ) (st5_0 t) fullShare ((dat V Rc Ψ c).before 0 t d))
    ∗ (∃ d, owns (c : Thread nD τ) (st5_1 t) fullShare ((dat V Rc Ψ c).before 1 t d))
    ∗ (∃ d, owns (c : Thread nD τ) (st5_2 t) fullShare ((dat V Rc Ψ c).before 2 t d))
    ∗ (∃ d, owns (c : Thread nD τ) (st5_3 t) fullShare ((dat V Rc Ψ c).before 3 t d))
    ∗ (∃ d, owns (c : Thread nD τ) (st5_4 t) fullShare ((dat V Rc Ψ c).before 4 t d)))

def bodyPost (ι : Ix) (c : Dev nD) (t : Fin cfg5.N) : sProp 𝕄 :=
  iprop((dat V Rc Ψ c).Φ t.succ ∗ (dat V Rc Ψ c).owesAt ι t.succ
    ∗ owns (c : Thread nD τ) (st5_0 t) fullShare ((dat V Rc Ψ c).after 0 t)
    ∗ owns (c : Thread nD τ) (st5_1 t) fullShare ((dat V Rc Ψ c).after 1 t)
    ∗ owns (c : Thread nD τ) (st5_2 t) fullShare ((dat V Rc Ψ c).after 2 t)
    ∗ owns (c : Thread nD τ) (st5_3 t) fullShare ((dat V Rc Ψ c).after 3 t)
    ∗ owns (c : Thread nD τ) (st5_4 t) fullShare ((dat V Rc Ψ c).after 4 t))

theorem sound_body (ι : Ix) (c : Dev nD) (t : Fin cfg5.N) :
    bodyPre V Rc Ψ ι c t ⊢ wp frame (wpE (defs₀ (F := F)) Variants.none c none) Set.univ (bodyAt5 t)
      (fun _ => bodyPost V Rc Ψ ι c t) := by
  unfold bodyPre bodyPost bodyAt5
  simp only [before_0, before_1, before_2, before_3]
  rw [show (dat V Rc Ψ c).Φ t.succ = (dat V Rc Ψ c).Φ t.castSucc from rfl,
    show (dat V Rc Ψ c).owesAt ι t.succ = (dat V Rc Ψ c).owesAt ι t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (ι : Ix) (c : Dev nD) :
    BodyObligation (dat V Rc Ψ c) (defs₀ (F := F)) Variants.none ι Set.univ := fun t => by
  rw [bigSep_W5, bigSep_W5]
  exact sound_body V Rc Ψ ι c t

end Region

end Cert.KernelIdeal.R5

end
-- ==== Proof.Launch.Frame.lean ====
import proofs.«214766_g21345987461187_cont_8to1_720_22_alg».proof.Proof.Launch.Run
import proofs.«214766_g21345987461187_cont_8to1_720_22_alg».proof.Proof.Launch.Kept
import proofs.«214766_g21345987461187_cont_8to1_720_22_alg».proof.Proof.Launch.Hidx
import proofs.«214766_g21345987461187_cont_8to1_720_22_alg».proof.Proof.R0.Body
import proofs.«214766_g21345987461187_cont_8to1_720_22_alg».proof.Proof.R3.Body
import proofs.«214766_g21345987461187_cont_8to1_720_22_alg».proof.Proof.R4.Body
import proofs.«214766_g21345987461187_cont_8to1_720_22_alg».proof.Proof.R5.Body

noncomputable section

namespace Cert.KernelIdeal.Launch

open Cert.KernelIdeal Cert.KernelIdeal.Gen Cert.KernelIdeal.Sc Cert.KernelIdeal.Hand Cert.Launch

open Idealize.ShloMosaic Idealize.ShloMosaic.TcCoe
open Idealize.ShloMosaic.SparseCore (S V T)
open Idealize.ShloMosaic.SparseCore.Cfg (HIx Pay)
open Idealize.SL Idealize.SL.Sem

variable {F : FTy → Type} [FloatOps F] [∀ e, Nonempty (Elt F e)] [Cert.Pre_input_domain.Facts]

variable (m : (ℓ : Loc nD τ sig) → Buf (Elt F) ℓ) (g : Dev nD → PrngReg)

abbrev KeptAt (m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)
  ∧ m' ((c.tc : Thread nD τ).loc main_arg6) = m ((c.tc : Thread nD τ).loc main_arg6)
  ∧ m' ((c.tc : Thread nD τ).loc main_arg7) = m ((c.tc : Thread nD τ).loc main_arg7)
  ∧ m' ((c.tc : Thread nD τ).loc main_arg8) = m ((c.tc : Thread nD τ).loc main_arg8)
  ∧ m' ((c.tc : Thread nD τ).loc main_arg9) = m ((c.tc : Thread nD τ).loc main_arg9)
  ∧ m' ((c.tc : Thread nD τ).loc main_arg10) = m ((c.tc : Thread nD τ).loc main_arg10)
  ∧ m' ((c.tc : Thread nD τ).loc main_arg11) = m ((c.tc : Thread nD τ).loc main_arg11)
  ∧ m' ((c.tc : Thread nD τ).loc main_arg12) = m ((c.tc : Thread nD τ).loc main_arg12)
  ∧ m' ((c.tc : Thread nD τ).loc main_arg13) = m ((c.tc : Thread nD τ).loc main_arg13)
  ∧ m' ((c.tc : Thread nD τ).loc main_arg14) = m ((c.tc : Thread nD τ).loc main_arg14)
  ∧ m' ((c.tc : Thread nD τ).loc main_arg15) = m ((c.tc : Thread nD τ).loc main_arg15)
  ∧ m' ((c.tc : Thread nD τ).loc main_arg16) = m ((c.tc : Thread nD τ).loc main_arg16)
  ∧ m' ((c.tc : Thread nD τ).loc main_arg17) = m ((c.tc : Thread nD τ).loc main_arg17)

set_option backward.isDefEq.respectTransparency.types false in
theorem run_of_pre (hpre : PreAt m) :
    θ_run (Cert.KernelIdeal.defs (F := F)) (Cert.KernelIdeal.threads (F := F)) ⟨m, fun _ => 0, g⟩ (QC m) :=
  run_main m g (fun c => R0.body_obligation _ _ _ _ (none : HIx 2) c) (fun c => R3.body_obligation _ _ _ (none : HIx 2) c)
    (fun c => R4.body_obligation _ _ _ (none : HIx 2) c) (fun c => R5.body_obligation _ _ _ (none : HIx 2) c) (hidx_of_pre m hpre)

set_option backward.isDefEq.respectTransparency.types false in
set_option maxHeartbeats 4000000 in
theorem run_vals (hpre : PreAt m) :
    θ_run (Cert.KernelIdeal.defs (F := F)) (Cert.KernelIdeal.threads (F := F)) ⟨m, fun _ => 0, g⟩ (fun r => ∀ c : Dev nD,
      r.2.mem ((c.tc : Thread nD τ).loc main_v71) = W13 m c (Proc.devRef .tc main_v71)
      ∧ KeptAt m r.2.mem c) :=
  (θ_run _ _ _).mono (fun r h c => ⟨h c _ (mem_SS main_v71 (by decide)),
      (h c _ (mem_SS main_arg0 (by decide))).trans (W13_main_arg0 m c),
      (h c _ (mem_SS main_arg1 (by decide))).trans (W13_main_arg1 m c),
      (h c _ (mem_SS main_arg2 (by decide))).trans (W13_main_arg2 m c),
      (h c _ (mem_SS main_arg3 (by decide))).trans (W13_main_arg3 m c),
      (h c _ (mem_SS main_arg4 (by decide))).trans (W13_main_arg4 m c),
      (h c _ (mem_SS main_arg5 (by decide))).trans (W13_main_arg5 m c),
      (h c _ (mem_SS main_arg6 (by decide))).trans (W13_main_arg6 m c),
      (h c _ (mem_SS main_arg7 (by decide))).trans (W13_main_arg7 m c),
      (h c _ (mem_SS main_arg8 (by decide))).trans (W13_main_arg8 m c),
      (h c _ (mem_SS main_arg9 (by decide))).trans (W13_main_arg9 m c),
      (h c _ (mem_SS main_arg10 (by decide))).trans (W13_main_arg10 m c),
      (h c _ (mem_SS main_arg11 (by decide))).trans (W13_main_arg11 m c),
      (h c _ (mem_SS main_arg12 (by decide))).trans (W13_main_arg12 m c),
      (h c _ (mem_SS main_arg13 (by decide))).trans (W13_main_arg13 m c),
      (h c _ (mem_SS main_arg14 (by decide))).trans (W13_main_arg14 m c),
      (h c _ (mem_SS main_arg15 (by decide))).trans (W13_main_arg15 m c),
      (h c _ (mem_SS main_arg16 (by decide))).trans (W13_main_arg16 m c),
      (h c _ (mem_SS main_arg17 (by decide))).trans (W13_main_arg17 m c)⟩) (run_of_pre m g hpre)

end Cert.KernelIdeal.Launch

namespace Cert.KernelIdeal.Launch

open Cert.KernelIdeal Cert.KernelIdeal.Gen
open Idealize.ShloMosaic Idealize.ShloMosaic.TcCoe Idealize.SL Idealize.SL.Sem

def FrameAt (F : FTy → Type) [FloatOps F] [∀ e, Nonempty (Elt F e)] [Cert.Pre_input_domain.Facts] : Prop :=
  ∀ (m : (ℓ : Loc nD τ sig) → Buf (Elt F) ℓ) (g : Dev nD → PrngReg),
    PreAt m →
    θ_run (Cert.KernelIdeal.defs (F := F)) (Cert.KernelIdeal.threads (F := F)) ⟨m, fun _ => 0, g⟩ (fun r => ∀ c : Dev nD,
      KeptAt m r.2.mem c)

-- each frame is the run with the results dropped
theorem frameAt {F : FTy → Type} [FloatOps F] [∀ e, Nonempty (Elt F e)] [Cert.Pre_input_domain.Facts] : FrameAt F :=
  fun m g hpre => (θ_run _ _ _).mono (fun _ h c => (h c).2) (run_vals m g hpre)

end Cert.KernelIdeal.Launch

end
-- ==== Proof.RefRun.Stages.lean ====
import proofs.«214766_g21345987461187_cont_8to1_720_22_alg».proof.Proof.Gen.ReferenceIdeal

noncomputable section

namespace Cert.ReferenceIdeal.RefRun

open Cert.ReferenceIdeal Cert.ReferenceIdeal.Gen Idealize.ShloMosaic

variable {F : FTy → Type} [FloatOps F]

def conv0 (x : FVec F S2x128x16384 .f32) (w : FVec F S64x128 .f32) (b : FVec F S64 .f32) : FVec F S2x64x16384 .f32 :=
  addf
    (transpose S2x64x16384 [0, 2, 1] (Host.dotGeneral dot_S2x128x16384_S64x128_S2x16384x64_1_1_02_0_n_n none x w)
      transposes_S2x16384x64_S2x64x16384_0_2_1)
    (broadcastInDim S2x64x16384 ![0, 1, 2] bcast_S1x64x1_S2x64x16384_0_1_2 (broadcastInDim S1x64x1 ![1] bcast_S64_S1x64x1_1 b))

def mean0 (y : FVec F S2x64x16384 .f32) : FVec F S1x64x1 .f32 :=
  Host.divf
    (broadcastInDim S1x64x1 ![1] bcast_S64_S1x64x1_1
      (Host.reduceAdd y (constant S_ .f32 0x00000000#32) reducesTo_S2x64x16384_S64_d0_2 h_S_))
    (broadcastInDim S1x64x1 ![] bcast_S_S1x64x1 (constant S_ .f32 0x47000000#32))

def cnt0 : FVec F S_ .f32 :=
  subf (constant S_ .f32 0x47000000#32) (sitofp .f32 (constantI S_ 32 0#32))

def var0 (y : FVec F S2x64x16384 .f32) : FVec F S1x64x1 .f32 :=
  select (broadcastInDim S1x64x1 ![] bcast_S_S1x64x1 (cmpf .ogt (cnt0 (F := F)) (constant S_ .f32 0x00000000#32)))
    (Host.divf
      (broadcastInDim S1x64x1 ![1] bcast_S64_S1x64x1_1
        (Host.reduceAdd
          (mulf (subf y (broadcastInDim S2x64x16384 ![0, 1, 2] bcast_S1x64x1_S2x64x16384_0_1_2 (mean0 y)))
            (subf y (broadcastInDim S2x64x16384 ![0, 1, 2] bcast_S1x64x1_S2x64x16384_0_1_2 (mean0 y))))
          (constant S_ .f32 0x00000000#32) reducesTo_S2x64x16384_S64_d0_2 h_S_))
      (broadcastInDim S1x64x1 ![] bcast_S_S1x64x1 cnt0))
    (broadcastInDim S1x64x1 ![] bcast_S_S1x64x1 (constant S_ .f32 0x7FC00000#32))

def bn0 (y : FVec F S2x64x16384 .f32) (g be : FVec F S64 .f32) : FVec F S2x64x16384 .f32 :=
  addf
    (mulf
      (Host.divf (subf y (broadcastInDim S2x64x16384 ![0, 1, 2] bcast_S1x64x1_S2x64x16384_0_1_2 (mean0 y)))
        (broadcastInDim S2x64x16384 ![0, 1, 2] bcast_S1x64x1_S2x64x16384_0_1_2
          (Host.sqrt (addf (var0 y) (broadcastInDim S1x64x1 ![] bcast_S_S1x64x1 (constant S_ .f32 0x3727C5AC#32))))))
      (broadcastInDim S2x64x16384 ![0, 1, 2] bcast_S1x64x1_S2x64x16384_0_1_2 (broadcastInDim S1x64x1 ![1] bcast_S64_S1x64x1_1 g)))
    (broadcastInDim S2x64x16384 ![0, 1, 2] bcast_S1x64x1_S2x64x16384_0_1_2 (broadcastInDim S1x64x1 ![1] bcast_S64_S1x64x1_1 be))

def relu0 (z : FVec F S2x64x16384 .f32) : FVec F S2x64x16384 .f32 :=
  maximumf z (broadcastInDim S2x64x16384 ![] bcast_S_S2x64x16384 (constant S_ .f32 0x00000000#32))

def batchIdx : IVec S2x1x1 32 :=
  select
    (cmpi .slt (broadcastInDim S2x1x1 ![0] bcast_S2_S2x1x1_0 (iotaInDim S2 32 0))
      (broadcastInDim S2x1x1 ![] bcast_S_S2x1x1 (constantI S_ 32 0#32)))
    (addi (broadcastInDim S2x1x1 ![0] bcast_S2_S2x1x1_0 (iotaInDim S2 32 0))
      (broadcastInDim S2x1x1 ![] bcast_S_S2x1x1 (constantI S_ 32 2#32)))
    (broadcastInDim S2x1x1 ![0] bcast_S2_S2x1x1_0 (iotaInDim S2 32 0))

def wrapNbr (nbr : IVec S2x4096x16 32) : IVec S2x4096x16 32 :=
  select (cmpi .slt nbr (broadcastInDim S2x4096x16 ![] bcast_S_S2x4096x16 (constantI S_ 32 0#32)))
    (addi nbr (broadcastInDim S2x4096x16 ![] bcast_S_S2x4096x16 (constantI S_ 32 16384#32)))
    nbr

def nbrIdx (nbr : IVec S2x4096x16 32) : IVec S2x4096x16x2 32 :=
  concatenate S2x4096x16x2 3
    [⟨S2x4096x16x1, broadcastInDim S2x4096x16x1 ![0, 1, 2] bcast_S2x4096x16_S2x4096x16x1_0_1_2
        (broadcastInDim S2x4096x16 ![0, 1, 2] bcast_S2x1x1_S2x4096x16_0_1_2 batchIdx)⟩,
      ⟨S2x4096x16x1, broadcastInDim S2x4096x16x1 ![0, 1, 2] bcast_S2x4096x16_S2x4096x16x1_0_1_2 (wrapNbr nbr)⟩]
    concatenates_S2x4096x16x1_S2x4096x16x1_S2x4096x16x2_d3

def gatherF (f : FVec F S2x64x16384 .f32) (ix : IVec S2x4096x16x2 32) : FVec F S2x4096x16x64 .f32 :=
  Host.gather gather_S2x64x16384_S2x4096x16x2_S2x4096x16x64_3_02_n_n_02_3_1641 f ix

def gatherP (pos : FVec F S2x3x16384 .f32) (ix : IVec S2x4096x16x2 32) : FVec F S2x4096x16x3 .f32 :=
  Host.gather gather_S2x3x16384_S2x4096x16x2_S2x4096x16x3_3_02_n_n_02_3_131 pos ix

def relPos (np : FVec F S2x4096x16x3 .f32) (sp : FVec F S2x3x4096 .f32) : FVec F S2x4096x16x3 .f32 :=
  subf np
    (broadcastInDim S2x4096x16x3 ![0, 1, 2, 3] bcast_S2x4096x1x3_S2x4096x16x3_0_1_2_3
      (broadcastInDim S2x4096x1x3 ![0, 1, 3] bcast_S2x4096x3_S2x4096x1x3_0_1_3
        (transpose S2x4096x3 [0, 2, 1] sp transposes_S2x3x4096_S2x4096x3_0_2_1)))

def sqDist (rel : FVec F S2x4096x16x3 .f32) (kp : FVec F S16x3 .f32) : FVec F S2x4096x16x16 .f32 :=
  Host.reduceAdd
    (mulf
      (subf
        (broadcastInDim S2x4096x16x16x3 ![0, 1, 2, 3, 4] bcast_S2x4096x16x1x3_S2x4096x16x16x3_0_1_2_3_4
          (broadcastInDim S2x4096x16x1x3 ![0, 1, 2, 4] bcast_S2x4096x16x3_S2x4096x16x1x3_0_1_2_4 rel))
        (broadcastInDim S2x4096x16x16x3 ![0, 1, 2, 3, 4] bcast_S1x1x1x16x3_S2x4096x16x16x3_0_1_2_3_4
          (broadcastInDim S1x1x1x16x3 ![3, 4] bcast_S16x3_S1x1x1x16x3_3_4 kp)))
      (subf
        (broadcastInDim S2x4096x16x16x3 ![0, 1, 2, 3, 4] bcast_S2x4096x16x1x3_S2x4096x16x16x3_0_1_2_3_4
          (broadcastInDim S2x4096x16x1x3 ![0, 1, 2, 4] bcast_S2x4096x16x3_S2x4096x16x1x3_0_1_2_4 rel))
        (broadcastInDim S2x4096x16x16x3 ![0, 1, 2, 3, 4] bcast_S1x1x1x16x3_S2x4096x16x16x3_0_1_2_3_4
          (broadcastInDim S1x1x1x16x3 ![3, 4] bcast_S16x3_S1x1x1x16x3_3_4 kp))))
    (constant S_ .f32 0x00000000#32) reducesTo_S2x4096x16x16x3_S2x4096x16x16_d4 h_S_

def kpWeights (sq : FVec F S2x4096x16x16 .f32) (mask : IVec S2x4096x16 32) : FVec F S2x4096x16x16 .f32 :=
  mulf
    (maximumf
      (subf (broadcastInDim S2x4096x16x16 ![] bcast_S_S2x4096x16x16 (constant S_ .f32 0x3F800000#32))
        (Host.divf
          (Host.sqrt (addf sq (broadcastInDim S2x4096x16x16 ![] bcast_S_S2x4096x16x16 (constant S_ .f32 0x2B8CBCCC#32))))
          (broadcastInDim S2x4096x16x16 ![] bcast_S_S2x4096x16x16 (constant S_ .f32 0x3F800000#32))))
      (broadcastInDim S2x4096x16x16 ![] bcast_S_S2x4096x16x16 (constant S_ .f32 0x00000000#32)))
    (broadcastInDim S2x4096x16x16 ![0, 1, 2, 3] bcast_S2x4096x16x1_S2x4096x16x16_0_1_2_3
      (sitofp .f32 (broadcastInDim S2x4096x16x1 ![0, 1, 2] bcast_S2x4096x16_S2x4096x16x1_0_1_2 mask)))

def pointConv (nf : FVec F S2x4096x16x64 .f32) (w : FVec F S2x4096x16x16 .f32) (wk : FVec F S16x64x64 .f32)
    (bk : FVec F S64 .f32) : FVec F S2x64x4096 .f32 :=
  addf
    (transpose S2x64x4096 [0, 2, 1]
      (Host.dotGeneral dot_S2x4096x64x16_S16x64x64_S2x4096x64_23_10_01_2_n_n none
        (Host.dotGeneral dot_S2x4096x16x64_S2x4096x16x16_S2x4096x64x16_2_2_3_3_01_01 none nf w) wk)
      transposes_S2x4096x64_S2x64x4096_0_2_1)
    (broadcastInDim S2x64x4096 ![0, 1, 2] bcast_S1x64x1_S2x64x4096_0_1_2 (broadcastInDim S1x64x1 ![1] bcast_S64_S1x64x1_1 bk))

def mean1 (y : FVec F S2x64x4096 .f32) : FVec F S1x64x1 .f32 :=
  Host.divf
    (broadcastInDim S1x64x1 ![1] bcast_S64_S1x64x1_1
      (Host.reduceAdd y (constant S_ .f32 0x00000000#32) reducesTo_S2x64x4096_S64_d0_2 h_S_))
    (broadcastInDim S1x64x1 ![] bcast_S_S1x64x1 (constant S_ .f32 0x46000000#32))

def cnt1 : FVec F S_ .f32 :=
  subf (constant S_ .f32 0x46000000#32) (sitofp .f32 (constantI S_ 32 0#32))

def var1 (y : FVec F S2x64x4096 .f32) : FVec F S1x64x1 .f32 :=
  select (broadcastInDim S1x64x1 ![] bcast_S_S1x64x1 (cmpf .ogt (cnt1 (F := F)) (constant S_ .f32 0x00000000#32)))
    (Host.divf
      (broadcastInDim S1x64x1 ![1] bcast_S64_S1x64x1_1
        (Host.reduceAdd
          (mulf (subf y (broadcastInDim S2x64x4096 ![0, 1, 2] bcast_S1x64x1_S2x64x4096_0_1_2 (mean1 y)))
            (subf y (broadcastInDim S2x64x4096 ![0, 1, 2] bcast_S1x64x1_S2x64x4096_0_1_2 (mean1 y))))
          (constant S_ .f32 0x00000000#32) reducesTo_S2x64x4096_S64_d0_2 h_S_))
      (broadcastInDim S1x64x1 ![] bcast_S_S1x64x1 cnt1))
    (broadcastInDim S1x64x1 ![] bcast_S_S1x64x1 (constant S_ .f32 0x7FC00000#32))

def bn1 (y : FVec F S2x64x4096 .f32) (g be : FVec F S64 .f32) : FVec F S2x64x4096 .f32 :=
  addf
    (mulf
      (Host.divf (subf y (broadcastInDim S2x64x4096 ![0, 1, 2] bcast_S1x64x1_S2x64x4096_0_1_2 (mean1 y)))
        (broadcastInDim S2x64x4096 ![0, 1, 2] bcast_S1x64x1_S2x64x4096_0_1_2
          (Host.sqrt (addf (var1 y) (broadcastInDim S1x64x1 ![] bcast_S_S1x64x1 (constant S_ .f32 0x3727C5AC#32))))))
      (broadcastInDim S2x64x4096 ![0, 1, 2] bcast_S1x64x1_S2x64x4096_0_1_2 (broadcastInDim S1x64x1 ![1] bcast_S64_S1x64x1_1 g)))
    (broadcastInDim S2x64x4096 ![0, 1, 2] bcast_S1x64x1_S2x64x4096_0_1_2 (broadcastInDim S1x64x1 ![1] bcast_S64_S1x64x1_1 be))

def relu1 (z : FVec F S2x64x4096 .f32) : FVec F S2x64x4096 .f32 :=
  maximumf z (broadcastInDim S2x64x4096 ![] bcast_S_S2x64x4096 (constant S_ .f32 0x00000000#32))

def conv2 (f : FVec F S2x64x4096 .f32) (w : FVec F S128x64 .f32) (b : FVec F S128 .f32) : FVec F S2x128x4096 .f32 :=
  addf
    (transpose S2x128x4096 [0, 2, 1] (Host.dotGeneral dot_S2x64x4096_S128x64_S2x4096x128_1_1_02_0_n_n none f w)
      transposes_S2x4096x128_S2x128x4096_0_2_1)
    (broadcastInDim S2x128x4096 ![0, 1, 2] bcast_S1x128x1_S2x128x4096_0_1_2 (broadcastInDim S1x128x1 ![1] bcast_S128_S1x128x1_1 b))

def mean2 (y : FVec F S2x128x4096 .f32) : FVec F S1x128x1 .f32 :=
  Host.divf
    (broadcastInDim S1x128x1 ![1] bcast_S128_S1x128x1_1
      (Host.reduceAdd y (constant S_ .f32 0x00000000#32) reducesTo_S2x128x4096_S128_d0_2 h_S_))
    (broadcastInDim S1x128x1 ![] bcast_S_S1x128x1 (constant S_ .f32 0x46000000#32))

def var2 (y : FVec F S2x128x4096 .f32) : FVec F S1x128x1 .f32 :=
  select (broadcastInDim S1x128x1 ![] bcast_S_S1x128x1 (cmpf .ogt (cnt1 (F := F)) (constant S_ .f32 0x00000000#32)))
    (Host.divf
      (broadcastInDim S1x128x1 ![1] bcast_S128_S1x128x1_1
        (Host.reduceAdd
          (mulf (subf y (broadcastInDim S2x128x4096 ![0, 1, 2] bcast_S1x128x1_S2x128x4096_0_1_2 (mean2 y)))
            (subf y (broadcastInDim S2x128x4096 ![0, 1, 2] bcast_S1x128x1_S2x128x4096_0_1_2 (mean2 y))))
          (constant S_ .f32 0x00000000#32) reducesTo_S2x128x4096_S128_d0_2 h_S_))
      (broadcastInDim S1x128x1 ![] bcast_S_S1x128x1 cnt1))
    (broadcastInDim S1x128x1 ![] bcast_S_S1x128x1 (constant S_ .f32 0x7FC00000#32))

def bn2 (y : FVec F S2x128x4096 .f32) (g be : FVec F S128 .f32) : FVec F S2x128x4096 .f32 :=
  addf
    (mulf
      (Host.divf (subf y (broadcastInDim S2x128x4096 ![0, 1, 2] bcast_S1x128x1_S2x128x4096_0_1_2 (mean2 y)))
        (broadcastInDim S2x128x4096 ![0, 1, 2] bcast_S1x128x1_S2x128x4096_0_1_2
          (Host.sqrt (addf (var2 y) (broadcastInDim S1x128x1 ![] bcast_S_S1x128x1 (constant S_ .f32 0x3727C5AC#32))))))
      (broadcastInDim S2x128x4096 ![0, 1, 2] bcast_S1x128x1_S2x128x4096_0_1_2 (broadcastInDim S1x128x1 ![1] bcast_S128_S1x128x1_1 g)))
    (broadcastInDim S2x128x4096 ![0, 1, 2] bcast_S1x128x1_S2x128x4096_0_1_2 (broadcastInDim S1x128x1 ![1] bcast_S128_S1x128x1_1 be))

def gatherX (x : FVec F S2x128x16384 .f32) (ix : IVec S2x4096x16x2 32) : FVec F S2x4096x16x128 .f32 :=
  Host.gather gather_S2x128x16384_S2x4096x16x2_S2x4096x16x128_3_02_n_n_02_3_11281 x ix

def maskFill (mask : IVec S2x4096x16 32) (nx : FVec F S2x4096x16x128 .f32) : FVec F S2x4096x16x128 .f32 :=
  select
    (broadcastInDim S2x4096x16x128 ![0, 1, 2, 3] bcast_S2x4096x16x1_S2x4096x16x128_0_1_2_3
      (cmpi .sgt (broadcastInDim S2x4096x16x1 ![0, 1, 2] bcast_S2x4096x16_S2x4096x16x1_0_1_2 mask)
        (broadcastInDim S2x4096x16x1 ![] bcast_S_S2x4096x16x1 (constantI S_ 32 0#32))))
    nx
    (broadcastInDim S2x4096x16x128 ![] bcast_S_S2x4096x16x128 (constant S_ .f32 0xCE6E6B28#32))

def pool (mx : FVec F S2x4096x16x128 .f32) : FVec F S2x128x4096 .f32 :=
  transpose S2x128x4096 [0, 2, 1]
    (select
      (cmpf .ole (Host.reduce FloatOps.maximumf mx (constant S_ .f32 0xFF800000#32) reducesTo_S2x4096x16x128_S2x4096x128_d2 h_S_)
        (broadcastInDim S2x4096x128 ![] bcast_S_S2x4096x128 (constant S_ .f32 0xCE6E6B28#32)))
      (broadcastInDim S2x4096x128 ![] bcast_S_S2x4096x128 (constant S_ .f32 0x00000000#32))
      (Host.reduce FloatOps.maximumf mx (constant S_ .f32 0xFF800000#32) reducesTo_S2x4096x16x128_S2x4096x128_d2 h_S_))
    transposes_S2x4096x128_S2x128x4096_0_2_1

def outStage (z xs : FVec F S2x128x4096 .f32) : FVec F S2x128x4096 .f32 :=
  maximumf (addf z xs) (broadcastInDim S2x128x4096 ![] bcast_S_S2x128x4096 (constant S_ .f32 0x00000000#32))

def refOut (a0 : FVec F S2x128x16384 .f32) (a1 : FVec F S2x3x16384 .f32) (a2 : FVec F S2x3x4096 .f32)
    (a3 a4 : IVec S2x4096x16 32) (a5 : FVec F S64x128 .f32) (a6 a7 a8 : FVec F S64 .f32) (a9 : FVec F S16x3 .f32)
    (a10 : FVec F S16x64x64 .f32) (a11 a12 a13 : FVec F S64 .f32) (a14 : FVec F S128x64 .f32)
    (a15 a16 a17 : FVec F S128 .f32) : FVec F S2x128x4096 .f32 :=
  outStage
    (bn2
      (conv2
        (relu1
          (bn1
            (pointConv (gatherF (relu0 (bn0 (conv0 a0 a5 a6) a7 a8)) (nbrIdx a3))
              (kpWeights (sqDist (relPos (gatherP a1 (nbrIdx a3)) a2) a9) a4) a10 a11)
            a12 a13))
        a14 a15)
      a16 a17)
    (pool (maskFill a4 (gatherX a0 (nbrIdx a3))))

theorem writes_mem {W : List (Ref sig .tc)} {y : Ref sig .tc} (h : y ∈ W) :
    ({Proc.devRef (τ := τ) .tc y} : Finset (DevRef τ sig)) ⊆ (W.map (Proc.devRef (τ := τ) .tc)).toFinset := by
  simp only [Finset.singleton_subset_iff, List.mem_toFinset]; exact List.mem_map_of_mem h

theorem forall_app {α : Type} {p : α → Prop} {l₁ l₂ : List α} (h₁ : l₁.Forall p) (h₂ : l₂.Forall p) : (l₁ ++ l₂).Forall p :=
  List.forall_append.mpr ⟨h₁, h₂⟩

end Cert.ReferenceIdeal.RefRun

end
-- ==== Proof.RefRun.Part0.lean ====
import proofs.«214766_g21345987461187_cont_8to1_720_22_alg».proof.Proof.RefRun.Stages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev W0 : List (HloOp τ sig (Elt F)) :=
  [ binary main_arg0 main_arg5 main_v0 (fun l r => Host.dotGeneral dot_S2x128x16384_S64x128_S2x16384x64_1_1_02_0_n_n none l r),
    unary main_v0 main_v1 (transpose S2x64x16384 [0, 2, 1] · transposes_S2x16384x64_S2x64x16384_0_2_1),
    unary main_arg6 main_v2 (broadcastInDim S1x64x1 ![1] bcast_S64_S1x64x1_1),
    unary main_v2 main_v3 (broadcastInDim S2x64x16384 ![0, 1, 2] bcast_S1x64x1_S2x64x16384_0_1_2),
    binary main_v1 main_v3 main_v4 addf ]

abbrev W0_W : List (Ref sig .tc) := [main_v0, main_v1, main_v2, main_v3, main_v4]

theorem W0_sub : (W0 : List (HloOp τ sig (Elt F))).Forall fun op => op.bufs ⊆ tcRefs τ sig :=
  ⟨binary_bufs_sub .., unary_bufs_sub .., unary_bufs_sub .., unary_bufs_sub .., binary_bufs_sub ..⟩

theorem W0_fresh : (W0 : List (HloOp τ sig (Elt F))).Forall fun op => op.fresh = ∅ :=
  ⟨rfl, rfl, rfl, rfl, rfl⟩

theorem W0_writes : (W0 : List (HloOp τ sig (Elt F))).Forall fun op =>
    op.writes ⊆ (W0_W.map (Proc.devRef (τ := τ) .tc)).toFinset :=
  ⟨writes_mem (by decide), writes_mem (by decide), writes_mem (by decide), writes_mem (by decide), writes_mem (by decide)⟩

theorem W0_keep (V : Valuation τ sig (Elt F)) (r : Ref sig .tc) (h : r ∉ W0_W) :
    after W0 V (no_index (Proc.devRef .tc r)) = V (Proc.devRef .tc r) :=
  after_of_writes_sub W0 V W0_writes h

theorem W0_v4 (V : Valuation τ sig (Elt F)) :
    after W0 V (no_index (Proc.devRef .tc main_v4))
      = conv0 (V (Proc.devRef .tc main_arg0)) (V (Proc.devRef .tc main_arg5)) (V (Proc.devRef .tc main_arg6)) := by
  simp only [W0]
  after_results_simp
  all_goals rfl

abbrev W1 : List (HloOp τ sig (Elt F)) :=
  [ nullary main_cst (constant S_ .f32 0x00000000#32),
    binary main_v4 main_cst main_v5 (fun x v => Host.reduceAdd x v reducesTo_S2x64x16384_S64_d0_2 h_S_),
    unary main_v5 main_v6 (broadcastInDim S1x64x1 ![1] bcast_S64_S1x64x1_1),
    nullary main_cst_0 (constant S_ .f32 0x47000000#32),
    unary main_cst_0 main_v7 (broadcastInDim S1x64x1 ![] bcast_S_S1x64x1),
    binary main_v6 main_v7 main_v8 Host.divf,
    nullary main_c (constantI S_ 32 0#32),
    nullary main_call0_cst (constant S_ .f32 0x00000000#32),
    binary main_v4 main_call0_cst main_call0_v0 (fun x v => Host.reduceAdd x v reducesTo_S2x64x16384_S64_d0_2 h_S_),
    unary main_call0_v0 main_call0_v1 (broadcastInDim S1x64x1 ![1] bcast_S64_S1x64x1_1),
    nullary main_call0_cst_0 (constant S_ .f32 0x47000000#32),
    unary main_call0_cst_0 main_call0_v2 (broadcastInDim S1x64x1 ![] bcast_S_S1x64x1),
    binary main_call0_v1 main_call0_v2 main_call0_v3 Host.divf,
    unary main_call0_v3 main_call0_v4 (broadcastInDim S2x64x16384 ![0, 1, 2] bcast_S1x64x1_S2x64x16384_0_1_2),
    binary main_v4 main_call0_v4 main_call0_v5 subf,
    binary main_call0_v5 main_call0_v5 main_call0_v6 mulf,
    unary main_c main_call0_v7 (sitofp .f32),
    nullary main_call0_cst_1 (constant S_ .f32 0x47000000#32),
    binary main_call0_cst_1 main_call0_v7 main_call0_v8 subf,
    nullary main_call0_cst_2 (constant S_ .f32 0x00000000#32),
    binary main_call0_v6 main_call0_cst_2 main_call0_v9 (fun x v => Host.reduceAdd x v reducesTo_S2x64x16384_S64_d0_2 h_S_),
    unary main_call0_v9 main_call0_v10 (broadcastInDim S1x64x1 ![1] bcast_S64_S1x64x1_1),
    unary main_call0_v8 main_call0_v11 (broadcastInDim S1x64x1 ![] bcast_S_S1x64x1),
    binary main_call0_v10 main_call0_v11 main_call0_v12 Host.divf,
    nullary main_call0_cst_3 (constant S_ .f32 0x00000000#32),
    binary main_call0_v8 main_call0_cst_3 main_call0_v13 (cmpf .ogt),
    nullary main_call0_cst_4 (constant S_ .f32 0x7FC00000#32),
    unary main_call0_cst_4 main_call0_call0_v0 id,
    unary main_call0_call0_v0 main_call0_call0_v1 (broadcastInDim S1x64x1 ![] bcast_S_S1x64x1),
    ternary main_call0_v13 main_call0_v12 main_call0_call0_v1 main_v9 (fun p a b => select (broadcastInDim S1x64x1 ![] bcast_S_S1x64x1 p) a b),
    unary main_v8 main_v10 (broadcastInDim S2x64x16384 ![0, 1, 2] bcast_S1x64x1_S2x64x16384_0_1_2),
    binary main_v4 main_v10 main_v11 subf,
    nullary main_cst_1 (constant S_ .f32 0x3727C5AC#32),
    unary main_cst_1 main_v12 (broadcastInDim S1x64x1 ![] bcast_S_S1x64x1),
    binary main_v9 main_v12 main_v13 addf,
    unary main_v13 main_v14 Host.sqrt,
    unary main_v14 main_v15 (broadcastInDim S2x64x16384 ![0, 1, 2] bcast_S1x64x1_S2x64x16384_0_1_2),
    binary main_v11 main_v15 main_v16 Host.divf,
    unary main_arg7 main_v17 (broadcastInDim S1x64x1 ![1] bcast_S64_S1x64x1_1),
    unary main_v17 main_v18 (broadcastInDim S2x64x16384 ![0, 1, 2] bcast_S1x64x1_S2x64x16384_0_1_2),
    binary main_v16 main_v18 main_v19 mulf,
    unary main_arg8 main_v20 (broadcastInDim S1x64x1 ![1] bcast_S64_S1x64x1_1),
    unary main_v20 main_v21 (broadcastInDim S2x64x16384 ![0, 1, 2] bcast_S1x64x1_S2x64x16384_0_1_2),
    binary main_v19 main_v21 main_v22 addf,
    nullary main_call1_cst (constant S_ .f32 0x00000000#32),
    unary main_call1_cst main_call1_v0 (broadcastInDim S2x64x16384 ![] bcast_S_S2x64x16384),
    binary main_v22 main_call1_v0 main_v23 maximumf ]

abbrev W1_W : List (Ref sig .tc) := [main_cst, main_v5, main_v6, main_cst_0, main_v7, main_v8, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v9, main_v10, main_v11, main_cst_1, main_v12, main_v13, main_v14, main_v15, main_v16, main_v17, main_v18, main_v19, main_v20, main_v21, main_v22, main_call1_cst, main_call1_v0, main_v23]

theorem W1_sub : (W1 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem W1_fresh : (W1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem W1_writes : (W1 : List (HloOp τ sig (Elt F))).Forall fun op =>
    op.writes ⊆ (W1_W.map (Proc.devRef (τ := τ) .tc)).toFinset :=
  ⟨writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide)⟩

theorem W1_keep (V : Valuation τ sig (Elt F)) (r : Ref sig .tc) (h : r ∉ W1_W) :
    after W1 V (no_index (Proc.devRef .tc r)) = V (Proc.devRef .tc r) :=
  after_of_writes_sub W1 V W1_writes h

set_option maxRecDepth 8192 in
set_option maxHeartbeats 4000000 in
theorem W1_v23 (V : Valuation τ sig (Elt F)) :
    after W1 V (no_index (Proc.devRef .tc main_v23))
      = relu0 (bn0 (V (Proc.devRef .tc main_v4)) (V (Proc.devRef .tc main_arg7)) (V (Proc.devRef .tc main_arg8))) := by
  simp only [W1]
  after_results_simp
  all_goals rfl

abbrev W2 : List (HloOp τ sig (Elt F)) :=
  [ nullary main_v24 (iotaInDim S2 32 0),
    unary main_v24 main_v25 (broadcastInDim S2x1x1 ![0] bcast_S2_S2x1x1_0),
    nullary main_c_2 (constantI S_ 32 0#32),
    unary main_c_2 main_v26 (broadcastInDim S2x1x1 ![] bcast_S_S2x1x1),
    binary main_v25 main_v26 main_v27 (cmpi .slt),
    nullary main_c_3 (constantI S_ 32 2#32),
    unary main_c_3 main_v28 (broadcastInDim S2x1x1 ![] bcast_S_S2x1x1),
    binary main_v25 main_v28 main_v29 addi,
    ternary main_v27 main_v29 main_v25 main_v30 select,
    nullary main_c_4 (constantI S_ 32 0#32),
    unary main_c_4 main_v31 (broadcastInDim S2x4096x16 ![] bcast_S_S2x4096x16),
    binary main_arg3 main_v31 main_v32 (cmpi .slt),
    nullary main_c_5 (constantI S_ 32 16384#32),
    unary main_c_5 main_v33 (broadcastInDim S2x4096x16 ![] bcast_S_S2x4096x16),
    binary main_arg3 main_v33 main_v34 addi,
    ternary main_v32 main_v34 main_arg3 main_v35 select,
    unary main_v30 main_v36 (broadcastInDim S2x4096x16 ![0, 1, 2] bcast_S2x1x1_S2x4096x16_0_1_2),
    unary main_v36 main_v37 (broadcastInDim S2x4096x16x1 ![0, 1, 2] bcast_S2x4096x16_S2x4096x16x1_0_1_2),
    unary main_v35 main_v38 (broadcastInDim S2x4096x16x1 ![0, 1, 2] bcast_S2x4096x16_S2x4096x16x1_0_1_2),
    binary main_v37 main_v38 main_v39 (fun a b => concatenate S2x4096x16x2 3 [⟨S2x4096x16x1, a⟩, ⟨S2x4096x16x1, b⟩] concatenates_S2x4096x16x1_S2x4096x16x1_S2x4096x16x2_d3),
    binary main_v23 main_v39 main_v40 (fun x i => Host.gather gather_S2x64x16384_S2x4096x16x2_S2x4096x16x64_3_02_n_n_02_3_1641 x i) ]

abbrev W2_W : List (Ref sig .tc) := [main_v24, main_v25, main_c_2, main_v26, main_v27, main_c_3, main_v28, main_v29, main_v30, main_c_4, main_v31, main_v32, main_c_5, main_v33, main_v34, main_v35, main_v36, main_v37, main_v38, main_v39, main_v40]

theorem W2_sub : (W2 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub ..⟩

theorem W2_fresh : (W2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

theorem W2_writes : (W2 : List (HloOp τ sig (Elt F))).Forall fun op =>
    op.writes ⊆ (W2_W.map (Proc.devRef (τ := τ) .tc)).toFinset :=
  ⟨writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide)⟩

theorem W2_keep (V : Valuation τ sig (Elt F)) (r : Ref sig .tc) (h : r ∉ W2_W) :
    after W2 V (no_index (Proc.devRef .tc r)) = V (Proc.devRef .tc r) :=
  after_of_writes_sub W2 V W2_writes h

theorem W2_v25 (V : Valuation τ sig (Elt F)) :
    after W2 V (no_index (Proc.devRef .tc main_v25))
      = broadcastInDim S2x1x1 ![0] bcast_S2_S2x1x1_0 (iotaInDim S2 32 0) := by
  simp only [W2]
  after_results_simp
  all_goals rfl

theorem W2_v40 (V : Valuation τ sig (Elt F)) :
    after W2 V (no_index (Proc.devRef .tc main_v40))
      = gatherF (V (Proc.devRef .tc main_v23)) (nbrIdx (V (Proc.devRef .tc main_arg3))) := by
  simp only [W2]
  after_results_simp
  all_goals rfl

abbrev W3 : List (HloOp τ sig (Elt F)) :=
  [ nullary main_c_6 (constantI S_ 32 0#32),
    unary main_c_6 main_v41 (broadcastInDim S2x1x1 ![] bcast_S_S2x1x1),
    binary main_v25 main_v41 main_v42 (cmpi .slt),
    nullary main_c_7 (constantI S_ 32 2#32),
    unary main_c_7 main_v43 (broadcastInDim S2x1x1 ![] bcast_S_S2x1x1),
    binary main_v25 main_v43 main_v44 addi,
    ternary main_v42 main_v44 main_v25 main_v45 select,
    nullary main_c_8 (constantI S_ 32 0#32),
    unary main_c_8 main_v46 (broadcastInDim S2x4096x16 ![] bcast_S_S2x4096x16),
    binary main_arg3 main_v46 main_v47 (cmpi .slt),
    nullary main_c_9 (constantI S_ 32 16384#32) ]

abbrev W3_W : List (Ref sig .tc) := [main_c_6, main_v41, main_v42, main_c_7, main_v43, main_v44, main_v45, main_c_8, main_v46, main_v47, main_c_9]

theorem W3_sub : (W3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub ..⟩

theorem W3_fresh : (W3 : List (HloOp τ sig (Elt F))).Forall fun op => op.fresh = ∅ :=
  ⟨rfl, rfl, rfl, rfl, rfl, rfl, rfl, rfl, rfl, rfl, rfl⟩

theorem W3_writes : (W3 : List (HloOp τ sig (Elt F))).Forall fun op =>
    op.writes ⊆ (W3_W.map (Proc.devRef (τ := τ) .tc)).toFinset :=
  ⟨writes_mem (by decide), writes_mem (by decide), writes_mem (by decide), writes_mem (by decide), writes_mem (by decide), writes_mem (by decide), writes_mem (by decide), writes_mem (by decide), writes_mem (by decide), writes_mem (by decide), writes_mem (by decide)⟩

theorem W3_keep (V : Valuation τ sig (Elt F)) (r : Ref sig .tc) (h : r ∉ W3_W) :
    after W3 V (no_index (Proc.devRef .tc r)) = V (Proc.devRef .tc r) :=
  after_of_writes_sub W3 V W3_writes h

theorem W3_v45 (V : Valuation τ sig (Elt F)) :
    after W3 V (no_index (Proc.devRef .tc main_v45))
      = select (cmpi .slt (V (Proc.devRef .tc main_v25)) (broadcastInDim S2x1x1 ![] bcast_S_S2x1x1 (constantI S_ 32 0#32)))
          (addi (V (Proc.devRef .tc main_v25)) (broadcastInDim S2x1x1 ![] bcast_S_S2x1x1 (constantI S_ 32 2#32))) (V (Proc.devRef .tc main_v25)) := by
  simp only [W3]
  after_results_simp
  all_goals rfl

theorem W3_v47 (V : Valuation τ sig (Elt F)) :
    after W3 V (no_index (Proc.devRef .tc main_v47))
      = cmpi .slt (V (Proc.devRef .tc main_arg3)) (broadcastInDim S2x4096x16 ![] bcast_S_S2x4096x16 (constantI S_ 32 0#32)) := by
  simp only [W3]
  after_results_simp
  all_goals rfl

theorem W3_c_9 (V : Valuation τ sig (Elt F)) :
    after W3 V (no_index (Proc.devRef .tc main_c_9))
      = constantI S_ 32 16384#32 := by
  simp only [W3]
  after_results_simp
  all_goals rfl

def part0 : List (HloOp τ sig (Elt F)) := W0 ++ (W1 ++ (W2 ++ (W3)))

theorem part0_sub : (part0 : List (HloOp τ sig (Elt F))).Forall fun op => op.bufs ⊆ tcRefs τ sig :=
  forall_app W0_sub (forall_app W1_sub (forall_app W2_sub (W3_sub)))

theorem part0_fresh : (part0 : List (HloOp τ sig (Elt F))).Forall fun op => op.fresh = ∅ :=
  forall_app W0_fresh (forall_app W1_fresh (forall_app W2_fresh (W3_fresh)))

set_option maxRecDepth 8192 in
set_option maxHeartbeats 4000000 in
theorem main_part0_eq (c : Dev nD) : main_part0 (F := F) c = seq part0 := by
  simp only [main_part0, fn_var.body, fn_where.body, fn_relu.body, seq, bind_assoc, pure_bind]
  rfl

end Cert.ReferenceIdeal.RefRun

end
-- ==== Proof.RefRun.Part1.lean ====
import proofs.«214766_g21345987461187_cont_8to1_720_22_alg».proof.Proof.RefRun.Stages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev W4 : List (HloOp τ sig (Elt F)) :=
  [ unary main_c_9 main_v48 (broadcastInDim S2x4096x16 ![] bcast_S_S2x4096x16),
    binary main_arg3 main_v48 main_v49 addi,
    ternary main_v47 main_v49 main_arg3 main_v50 select,
    unary main_v45 main_v51 (broadcastInDim S2x4096x16 ![0, 1, 2] bcast_S2x1x1_S2x4096x16_0_1_2),
    unary main_v51 main_v52 (broadcastInDim S2x4096x16x1 ![0, 1, 2] bcast_S2x4096x16_S2x4096x16x1_0_1_2),
    unary main_v50 main_v53 (broadcastInDim S2x4096x16x1 ![0, 1, 2] bcast_S2x4096x16_S2x4096x16x1_0_1_2),
    binary main_v52 main_v53 main_v54 (fun a b => concatenate S2x4096x16x2 3 [⟨S2x4096x16x1, a⟩, ⟨S2x4096x16x1, b⟩] concatenates_S2x4096x16x1_S2x4096x16x1_S2x4096x16x2_d3),
    binary main_arg1 main_v54 main_v55 (fun x i => Host.gather gather_S2x3x16384_S2x4096x16x2_S2x4096x16x3_3_02_n_n_02_3_131 x i) ]

abbrev W4_W : List (Ref sig .tc) := [main_v48, main_v49, main_v50, main_v51, main_v52, main_v53, main_v54, main_v55]

theorem W4_sub : (W4 : List (HloOp τ sig (Elt F))).Forall fun op => op.bufs ⊆ tcRefs τ sig :=
  ⟨unary_bufs_sub .., binary_bufs_sub .., ternary_bufs_sub .., unary_bufs_sub .., unary_bufs_sub .., unary_bufs_sub .., binary_bufs_sub .., binary_bufs_sub ..⟩

theorem W4_fresh : (W4 : List (HloOp τ sig (Elt F))).Forall fun op => op.fresh = ∅ :=
  ⟨rfl, rfl, rfl, rfl, rfl, rfl, rfl, rfl⟩

theorem W4_writes : (W4 : List (HloOp τ sig (Elt F))).Forall fun op =>
    op.writes ⊆ (W4_W.map (Proc.devRef (τ := τ) .tc)).toFinset :=
  ⟨writes_mem (by decide), writes_mem (by decide), writes_mem (by decide), writes_mem (by decide), writes_mem (by decide), writes_mem (by decide), writes_mem (by decide), writes_mem (by decide)⟩

theorem W4_keep (V : Valuation τ sig (Elt F)) (r : Ref sig .tc) (h : r ∉ W4_W) :
    after W4 V (no_index (Proc.devRef .tc r)) = V (Proc.devRef .tc r) :=
  after_of_writes_sub W4 V W4_writes h

theorem W4_v55 (V : Valuation τ sig (Elt F)) :
    after W4 V (no_index (Proc.devRef .tc main_v55))
      = gatherP (V (Proc.devRef .tc main_arg1))
          (concatenate S2x4096x16x2 3
            [⟨S2x4096x16x1, broadcastInDim S2x4096x16x1 ![0, 1, 2] bcast_S2x4096x16_S2x4096x16x1_0_1_2
                (broadcastInDim S2x4096x16 ![0, 1, 2] bcast_S2x1x1_S2x4096x16_0_1_2 (V (Proc.devRef .tc main_v45)))⟩,
              ⟨S2x4096x16x1, broadcastInDim S2x4096x16x1 ![0, 1, 2] bcast_S2x4096x16_S2x4096x16x1_0_1_2
                (select (V (Proc.devRef .tc main_v47)) (addi (V (Proc.devRef .tc main_arg3)) (broadcastInDim S2x4096x16 ![] bcast_S_S2x4096x16 (V (Proc.devRef .tc main_c_9)))) (V (Proc.devRef .tc main_arg3)))⟩]
            concatenates_S2x4096x16x1_S2x4096x16x1_S2x4096x16x2_d3) := by
  simp only [W4]
  after_results_simp
  all_goals rfl

abbrev W5 : List (HloOp τ sig (Elt F)) :=
  [ unary main_arg2 main_v56 (transpose S2x4096x3 [0, 2, 1] · transposes_S2x3x4096_S2x4096x3_0_2_1),
    unary main_v56 main_v57 (broadcastInDim S2x4096x1x3 ![0, 1, 3] bcast_S2x4096x3_S2x4096x1x3_0_1_3),
    unary main_v57 main_v58 (broadcastInDim S2x4096x16x3 ![0, 1, 2, 3] bcast_S2x4096x1x3_S2x4096x16x3_0_1_2_3),
    binary main_v55 main_v58 main_v59 subf,
    unary main_v59 main_v60 (broadcastInDim S2x4096x16x1x3 ![0, 1, 2, 4] bcast_S2x4096x16x3_S2x4096x16x1x3_0_1_2_4),
    unary main_arg9 main_v61 (broadcastInDim S1x1x1x16x3 ![3, 4] bcast_S16x3_S1x1x1x16x3_3_4),
    unary main_v60 main_v62 (broadcastInDim S2x4096x16x16x3 ![0, 1, 2, 3, 4] bcast_S2x4096x16x1x3_S2x4096x16x16x3_0_1_2_3_4),
    unary main_v61 main_v63 (broadcastInDim S2x4096x16x16x3 ![0, 1, 2, 3, 4] bcast_S1x1x1x16x3_S2x4096x16x16x3_0_1_2_3_4),
    binary main_v62 main_v63 main_v64 subf,
    binary main_v64 main_v64 main_v65 mulf,
    nullary main_cst_10 (constant S_ .f32 0x00000000#32),
    binary main_v65 main_cst_10 main_v66 (fun x v => Host.reduceAdd x v reducesTo_S2x4096x16x16x3_S2x4096x16x16_d4 h_S_),
    nullary main_cst_11 (constant S_ .f32 0x2B8CBCCC#32),
    unary main_cst_11 main_v67 (broadcastInDim S2x4096x16x16 ![] bcast_S_S2x4096x16x16),
    binary main_v66 main_v67 main_v68 addf,
    unary main_v68 main_v69 Host.sqrt,
    nullary main_cst_12 (constant S_ .f32 0x3F800000#32),
    unary main_cst_12 main_v70 (broadcastInDim S2x4096x16x16 ![] bcast_S_S2x4096x16x16),
    binary main_v69 main_v70 main_v71 Host.divf,
    nullary main_cst_13 (constant S_ .f32 0x3F800000#32),
    unary main_cst_13 main_v72 (broadcastInDim S2x4096x16x16 ![] bcast_S_S2x4096x16x16),
    binary main_v72 main_v71 main_v73 subf,
    nullary main_cst_14 (constant S_ .f32 0x00000000#32),
    unary main_cst_14 main_v74 (broadcastInDim S2x4096x16x16 ![] bcast_S_S2x4096x16x16),
    binary main_v73 main_v74 main_v75 maximumf,
    unary main_arg4 main_v76 (broadcastInDim S2x4096x16x1 ![0, 1, 2] bcast_S2x4096x16_S2x4096x16x1_0_1_2),
    unary main_v76 main_v77 (sitofp .f32),
    unary main_v77 main_v78 (broadcastInDim S2x4096x16x16 ![0, 1, 2, 3] bcast_S2x4096x16x1_S2x4096x16x16_0_1_2_3),
    binary main_v75 main_v78 main_v79 mulf ]

abbrev W5_W : List (Ref sig .tc) := [main_v56, main_v57, main_v58, main_v59, main_v60, main_v61, main_v62, main_v63, main_v64, main_v65, main_cst_10, main_v66, main_cst_11, main_v67, main_v68, main_v69, main_cst_12, main_v70, main_v71, main_cst_13, main_v72, main_v73, main_cst_14, main_v74, main_v75, main_v76, main_v77, main_v78, main_v79]

theorem W5_sub : (W5 : List (HloOp τ sig (Elt F))).Forall fun op => op.bufs ⊆ tcRefs τ sig :=
  ⟨unary_bufs_sub .., unary_bufs_sub .., unary_bufs_sub .., binary_bufs_sub .., unary_bufs_sub .., unary_bufs_sub .., unary_bufs_sub .., unary_bufs_sub .., binary_bufs_sub .., binary_bufs_sub .., nullary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., binary_bufs_sub ..⟩

theorem W5_fresh : (W5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

theorem W5_writes : (W5 : List (HloOp τ sig (Elt F))).Forall fun op =>
    op.writes ⊆ (W5_W.map (Proc.devRef (τ := τ) .tc)).toFinset :=
  ⟨writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide)⟩

theorem W5_keep (V : Valuation τ sig (Elt F)) (r : Ref sig .tc) (h : r ∉ W5_W) :
    after W5 V (no_index (Proc.devRef .tc r)) = V (Proc.devRef .tc r) :=
  after_of_writes_sub W5 V W5_writes h

theorem W5_v79 (V : Valuation τ sig (Elt F)) :
    after W5 V (no_index (Proc.devRef .tc main_v79))
      = kpWeights (sqDist (relPos (V (Proc.devRef .tc main_v55)) (V (Proc.devRef .tc main_arg2))) (V (Proc.devRef .tc main_arg9))) (V (Proc.devRef .tc main_arg4)) := by
  simp only [W5]
  after_results_simp
  all_goals rfl

abbrev W6 : List (HloOp τ sig (Elt F)) :=
  [ binary main_v40 main_v79 main_v80 (fun l r => Host.dotGeneral dot_S2x4096x16x64_S2x4096x16x16_S2x4096x64x16_2_2_3_3_01_01 none l r),
    binary main_v80 main_arg10 main_v81 (fun l r => Host.dotGeneral dot_S2x4096x64x16_S16x64x64_S2x4096x64_23_10_01_2_n_n none l r),
    unary main_v81 main_v82 (transpose S2x64x4096 [0, 2, 1] · transposes_S2x4096x64_S2x64x4096_0_2_1),
    unary main_arg11 main_v83 (broadcastInDim S1x64x1 ![1] bcast_S64_S1x64x1_1),
    unary main_v83 main_v84 (broadcastInDim S2x64x4096 ![0, 1, 2] bcast_S1x64x1_S2x64x4096_0_1_2),
    binary main_v82 main_v84 main_v85 addf ]

abbrev W6_W : List (Ref sig .tc) := [main_v80, main_v81, main_v82, main_v83, main_v84, main_v85]

theorem W6_sub : (W6 : List (HloOp τ sig (Elt F))).Forall fun op => op.bufs ⊆ tcRefs τ sig :=
  ⟨binary_bufs_sub .., binary_bufs_sub .., unary_bufs_sub .., unary_bufs_sub .., unary_bufs_sub .., binary_bufs_sub ..⟩

theorem W6_fresh : (W6 : List (HloOp τ sig (Elt F))).Forall fun op => op.fresh = ∅ :=
  ⟨rfl, rfl, rfl, rfl, rfl, rfl⟩

theorem W6_writes : (W6 : List (HloOp τ sig (Elt F))).Forall fun op =>
    op.writes ⊆ (W6_W.map (Proc.devRef (τ := τ) .tc)).toFinset :=
  ⟨writes_mem (by decide), writes_mem (by decide), writes_mem (by decide), writes_mem (by decide), writes_mem (by decide), writes_mem (by decide)⟩

theorem W6_keep (V : Valuation τ sig (Elt F)) (r : Ref sig .tc) (h : r ∉ W6_W) :
    after W6 V (no_index (Proc.devRef .tc r)) = V (Proc.devRef .tc r) :=
  after_of_writes_sub W6 V W6_writes h

theorem W6_v85 (V : Valuation τ sig (Elt F)) :
    after W6 V (no_index (Proc.devRef .tc main_v85))
      = pointConv (V (Proc.devRef .tc main_v40)) (V (Proc.devRef .tc main_v79)) (V (Proc.devRef .tc main_arg10)) (V (Proc.devRef .tc main_arg11)) := by
  simp only [W6]
  after_results_simp
  all_goals rfl

abbrev W7 : List (HloOp τ sig (Elt F)) :=
  [ nullary main_cst_15 (constant S_ .f32 0x00000000#32),
    binary main_v85 main_cst_15 main_v86 (fun x v => Host.reduceAdd x v reducesTo_S2x64x4096_S64_d0_2 h_S_),
    unary main_v86 main_v87 (broadcastInDim S1x64x1 ![1] bcast_S64_S1x64x1_1),
    nullary main_cst_16 (constant S_ .f32 0x46000000#32),
    unary main_cst_16 main_v88 (broadcastInDim S1x64x1 ![] bcast_S_S1x64x1),
    binary main_v87 main_v88 main_v89 Host.divf,
    nullary main_c_17 (constantI S_ 32 0#32),
    nullary main_call2_cst (constant S_ .f32 0x00000000#32),
    binary main_v85 main_call2_cst main_call2_v0 (fun x v => Host.reduceAdd x v reducesTo_S2x64x4096_S64_d0_2 h_S_),
    unary main_call2_v0 main_call2_v1 (broadcastInDim S1x64x1 ![1] bcast_S64_S1x64x1_1),
    nullary main_call2_cst_0 (constant S_ .f32 0x46000000#32),
    unary main_call2_cst_0 main_call2_v2 (broadcastInDim S1x64x1 ![] bcast_S_S1x64x1),
    binary main_call2_v1 main_call2_v2 main_call2_v3 Host.divf,
    unary main_call2_v3 main_call2_v4 (broadcastInDim S2x64x4096 ![0, 1, 2] bcast_S1x64x1_S2x64x4096_0_1_2),
    binary main_v85 main_call2_v4 main_call2_v5 subf,
    binary main_call2_v5 main_call2_v5 main_call2_v6 mulf,
    unary main_c_17 main_call2_v7 (sitofp .f32),
    nullary main_call2_cst_1 (constant S_ .f32 0x46000000#32),
    binary main_call2_cst_1 main_call2_v7 main_call2_v8 subf,
    nullary main_call2_cst_2 (constant S_ .f32 0x00000000#32),
    binary main_call2_v6 main_call2_cst_2 main_call2_v9 (fun x v => Host.reduceAdd x v reducesTo_S2x64x4096_S64_d0_2 h_S_),
    unary main_call2_v9 main_call2_v10 (broadcastInDim S1x64x1 ![1] bcast_S64_S1x64x1_1),
    unary main_call2_v8 main_call2_v11 (broadcastInDim S1x64x1 ![] bcast_S_S1x64x1),
    binary main_call2_v10 main_call2_v11 main_call2_v12 Host.divf,
    nullary main_call2_cst_3 (constant S_ .f32 0x00000000#32),
    binary main_call2_v8 main_call2_cst_3 main_call2_v13 (cmpf .ogt),
    nullary main_call2_cst_4 (constant S_ .f32 0x7FC00000#32),
    unary main_call2_cst_4 main_call2_call0_v0 id,
    unary main_call2_call0_v0 main_call2_call0_v1 (broadcastInDim S1x64x1 ![] bcast_S_S1x64x1),
    ternary main_call2_v13 main_call2_v12 main_call2_call0_v1 main_v90 (fun p a b => select (broadcastInDim S1x64x1 ![] bcast_S_S1x64x1 p) a b),
    unary main_v89 main_v91 (broadcastInDim S2x64x4096 ![0, 1, 2] bcast_S1x64x1_S2x64x4096_0_1_2),
    binary main_v85 main_v91 main_v92 subf,
    nullary main_cst_18 (constant S_ .f32 0x3727C5AC#32),
    unary main_cst_18 main_v93 (broadcastInDim S1x64x1 ![] bcast_S_S1x64x1),
    binary main_v90 main_v93 main_v94 addf,
    unary main_v94 main_v95 Host.sqrt,
    unary main_v95 main_v96 (broadcastInDim S2x64x4096 ![0, 1, 2] bcast_S1x64x1_S2x64x4096_0_1_2),
    binary main_v92 main_v96 main_v97 Host.divf,
    unary main_arg12 main_v98 (broadcastInDim S1x64x1 ![1] bcast_S64_S1x64x1_1) ]

abbrev W7_W : List (Ref sig .tc) := [main_cst_15, main_v86, main_v87, main_cst_16, main_v88, main_v89, main_c_17, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v90, main_v91, main_v92, main_cst_18, main_v93, main_v94, main_v95, main_v96, main_v97, main_v98]

theorem W7_sub : (W7 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub ..⟩

theorem W7_fresh : (W7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem W7_writes : (W7 : List (HloOp τ sig (Elt F))).Forall fun op =>
    op.writes ⊆ (W7_W.map (Proc.devRef (τ := τ) .tc)).toFinset :=
  ⟨writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide)⟩

theorem W7_keep (V : Valuation τ sig (Elt F)) (r : Ref sig .tc) (h : r ∉ W7_W) :
    after W7 V (no_index (Proc.devRef .tc r)) = V (Proc.devRef .tc r) :=
  after_of_writes_sub W7 V W7_writes h

set_option maxRecDepth 8192 in
set_option maxHeartbeats 4000000 in
theorem W7_v97 (V : Valuation τ sig (Elt F)) :
    after W7 V (no_index (Proc.devRef .tc main_v97))
      = Host.divf (subf (V (Proc.devRef .tc main_v85)) (broadcastInDim S2x64x4096 ![0, 1, 2] bcast_S1x64x1_S2x64x4096_0_1_2 (mean1 (V (Proc.devRef .tc main_v85)))))
          (broadcastInDim S2x64x4096 ![0, 1, 2] bcast_S1x64x1_S2x64x4096_0_1_2 (Host.sqrt (addf (var1 (V (Proc.devRef .tc main_v85))) (broadcastInDim S1x64x1 ![] bcast_S_S1x64x1 (constant S_ .f32 0x3727C5AC#32))))) := by
  simp only [W7]
  after_results_simp
  all_goals rfl

set_option maxRecDepth 8192 in
set_option maxHeartbeats 4000000 in
theorem W7_v98 (V : Valuation τ sig (Elt F)) :
    after W7 V (no_index (Proc.devRef .tc main_v98))
      = broadcastInDim S1x64x1 ![1] bcast_S64_S1x64x1_1 (V (Proc.devRef .tc main_arg12)) := by
  simp only [W7]
  after_results_simp
  all_goals rfl

def part1 : List (HloOp τ sig (Elt F)) := W4 ++ (W5 ++ (W6 ++ (W7)))

theorem part1_sub : (part1 : List (HloOp τ sig (Elt F))).Forall fun op => op.bufs ⊆ tcRefs τ sig :=
  forall_app W4_sub (forall_app W5_sub (forall_app W6_sub (W7_sub)))

theorem part1_fresh : (part1 : List (HloOp τ sig (Elt F))).Forall fun op => op.fresh = ∅ :=
  forall_app W4_fresh (forall_app W5_fresh (forall_app W6_fresh (W7_fresh)))

set_option maxRecDepth 8192 in
set_option maxHeartbeats 4000000 in
theorem main_part1_eq (c : Dev nD) : main_part1 (F := F) c = seq part1 := by
  simp only [main_part1, fn_var_0.body, fn_where.body, seq, bind_assoc, pure_bind]
  rfl

end Cert.ReferenceIdeal.RefRun

end
-- ==== Proof.RefRun.Part2.lean ====
import proofs.«214766_g21345987461187_cont_8to1_720_22_alg».proof.Proof.RefRun.Stages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev W8 : List (HloOp τ sig (Elt F)) :=
  [ unary main_v98 main_v99 (broadcastInDim S2x64x4096 ![0, 1, 2] bcast_S1x64x1_S2x64x4096_0_1_2),
    binary main_v97 main_v99 main_v100 mulf,
    unary main_arg13 main_v101 (broadcastInDim S1x64x1 ![1] bcast_S64_S1x64x1_1),
    unary main_v101 main_v102 (broadcastInDim S2x64x4096 ![0, 1, 2] bcast_S1x64x1_S2x64x4096_0_1_2),
    binary main_v100 main_v102 main_v103 addf,
    nullary main_call3_cst (constant S_ .f32 0x00000000#32),
    unary main_call3_cst main_call3_v0 (broadcastInDim S2x64x4096 ![] bcast_S_S2x64x4096),
    binary main_v103 main_call3_v0 main_v104 maximumf ]

abbrev W8_W : List (Ref sig .tc) := [main_v99, main_v100, main_v101, main_v102, main_v103, main_call3_cst, main_call3_v0, main_v104]

theorem W8_sub : (W8 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub ..⟩

theorem W8_fresh : (W8 : List (HloOp τ sig (Elt F))).Forall fun op => op.fresh = ∅ :=
  ⟨rfl, rfl, rfl, rfl, rfl, rfl, rfl, rfl⟩

theorem W8_writes : (W8 : List (HloOp τ sig (Elt F))).Forall fun op =>
    op.writes ⊆ (W8_W.map (Proc.devRef (τ := τ) .tc)).toFinset :=
  ⟨writes_mem (by decide), writes_mem (by decide), writes_mem (by decide), writes_mem (by decide), writes_mem (by decide), writes_mem (by decide), writes_mem (by decide), writes_mem (by decide)⟩

theorem W8_keep (V : Valuation τ sig (Elt F)) (r : Ref sig .tc) (h : r ∉ W8_W) :
    after W8 V (no_index (Proc.devRef .tc r)) = V (Proc.devRef .tc r) :=
  after_of_writes_sub W8 V W8_writes h

theorem W8_v104 (V : Valuation τ sig (Elt F)) :
    after W8 V (no_index (Proc.devRef .tc main_v104))
      = relu1 (addf (mulf (V (Proc.devRef .tc main_v97)) (broadcastInDim S2x64x4096 ![0, 1, 2] bcast_S1x64x1_S2x64x4096_0_1_2 (V (Proc.devRef .tc main_v98))))
          (broadcastInDim S2x64x4096 ![0, 1, 2] bcast_S1x64x1_S2x64x4096_0_1_2 (broadcastInDim S1x64x1 ![1] bcast_S64_S1x64x1_1 (V (Proc.devRef .tc main_arg13))))) := by
  simp only [W8]
  after_results_simp
  all_goals rfl

abbrev W9 : List (HloOp τ sig (Elt F)) :=
  [ binary main_v104 main_arg14 main_v105 (fun l r => Host.dotGeneral dot_S2x64x4096_S128x64_S2x4096x128_1_1_02_0_n_n none l r),
    unary main_v105 main_v106 (transpose S2x128x4096 [0, 2, 1] · transposes_S2x4096x128_S2x128x4096_0_2_1),
    unary main_arg15 main_v107 (broadcastInDim S1x128x1 ![1] bcast_S128_S1x128x1_1),
    unary main_v107 main_v108 (broadcastInDim S2x128x4096 ![0, 1, 2] bcast_S1x128x1_S2x128x4096_0_1_2),
    binary main_v106 main_v108 main_v109 addf ]

abbrev W9_W : List (Ref sig .tc) := [main_v105, main_v106, main_v107, main_v108, main_v109]

theorem W9_sub : (W9 : List (HloOp τ sig (Elt F))).Forall fun op => op.bufs ⊆ tcRefs τ sig :=
  ⟨binary_bufs_sub .., unary_bufs_sub .., unary_bufs_sub .., unary_bufs_sub .., binary_bufs_sub ..⟩

theorem W9_fresh : (W9 : List (HloOp τ sig (Elt F))).Forall fun op => op.fresh = ∅ :=
  ⟨rfl, rfl, rfl, rfl, rfl⟩

theorem W9_writes : (W9 : List (HloOp τ sig (Elt F))).Forall fun op =>
    op.writes ⊆ (W9_W.map (Proc.devRef (τ := τ) .tc)).toFinset :=
  ⟨writes_mem (by decide), writes_mem (by decide), writes_mem (by decide), writes_mem (by decide), writes_mem (by decide)⟩

theorem W9_keep (V : Valuation τ sig (Elt F)) (r : Ref sig .tc) (h : r ∉ W9_W) :
    after W9 V (no_index (Proc.devRef .tc r)) = V (Proc.devRef .tc r) :=
  after_of_writes_sub W9 V W9_writes h

theorem W9_v109 (V : Valuation τ sig (Elt F)) :
    after W9 V (no_index (Proc.devRef .tc main_v109))
      = conv2 (V (Proc.devRef .tc main_v104)) (V (Proc.devRef .tc main_arg14)) (V (Proc.devRef .tc main_arg15)) := by
  simp only [W9]
  after_results_simp
  all_goals rfl

abbrev W10 : List (HloOp τ sig (Elt F)) :=
  [ nullary main_cst_19 (constant S_ .f32 0x00000000#32),
    binary main_v109 main_cst_19 main_v110 (fun x v => Host.reduceAdd x v reducesTo_S2x128x4096_S128_d0_2 h_S_),
    unary main_v110 main_v111 (broadcastInDim S1x128x1 ![1] bcast_S128_S1x128x1_1),
    nullary main_cst_20 (constant S_ .f32 0x46000000#32),
    unary main_cst_20 main_v112 (broadcastInDim S1x128x1 ![] bcast_S_S1x128x1),
    binary main_v111 main_v112 main_v113 Host.divf,
    nullary main_c_21 (constantI S_ 32 0#32),
    nullary main_call4_cst (constant S_ .f32 0x00000000#32),
    binary main_v109 main_call4_cst main_call4_v0 (fun x v => Host.reduceAdd x v reducesTo_S2x128x4096_S128_d0_2 h_S_),
    unary main_call4_v0 main_call4_v1 (broadcastInDim S1x128x1 ![1] bcast_S128_S1x128x1_1),
    nullary main_call4_cst_0 (constant S_ .f32 0x46000000#32),
    unary main_call4_cst_0 main_call4_v2 (broadcastInDim S1x128x1 ![] bcast_S_S1x128x1),
    binary main_call4_v1 main_call4_v2 main_call4_v3 Host.divf,
    unary main_call4_v3 main_call4_v4 (broadcastInDim S2x128x4096 ![0, 1, 2] bcast_S1x128x1_S2x128x4096_0_1_2),
    binary main_v109 main_call4_v4 main_call4_v5 subf,
    binary main_call4_v5 main_call4_v5 main_call4_v6 mulf,
    unary main_c_21 main_call4_v7 (sitofp .f32),
    nullary main_call4_cst_1 (constant S_ .f32 0x46000000#32),
    binary main_call4_cst_1 main_call4_v7 main_call4_v8 subf,
    nullary main_call4_cst_2 (constant S_ .f32 0x00000000#32),
    binary main_call4_v6 main_call4_cst_2 main_call4_v9 (fun x v => Host.reduceAdd x v reducesTo_S2x128x4096_S128_d0_2 h_S_),
    unary main_call4_v9 main_call4_v10 (broadcastInDim S1x128x1 ![1] bcast_S128_S1x128x1_1),
    unary main_call4_v8 main_call4_v11 (broadcastInDim S1x128x1 ![] bcast_S_S1x128x1),
    binary main_call4_v10 main_call4_v11 main_call4_v12 Host.divf,
    nullary main_call4_cst_3 (constant S_ .f32 0x00000000#32),
    binary main_call4_v8 main_call4_cst_3 main_call4_v13 (cmpf .ogt),
    nullary main_call4_cst_4 (constant S_ .f32 0x7FC00000#32),
    unary main_call4_cst_4 main_call4_call0_v0 id,
    unary main_call4_call0_v0 main_call4_call0_v1 (broadcastInDim S1x128x1 ![] bcast_S_S1x128x1),
    ternary main_call4_v13 main_call4_v12 main_call4_call0_v1 main_v114 (fun p a b => select (broadcastInDim S1x128x1 ![] bcast_S_S1x128x1 p) a b),
    unary main_v113 main_v115 (broadcastInDim S2x128x4096 ![0, 1, 2] bcast_S1x128x1_S2x128x4096_0_1_2),
    binary main_v109 main_v115 main_v116 subf,
    nullary main_cst_22 (constant S_ .f32 0x3727C5AC#32),
    unary main_cst_22 main_v117 (broadcastInDim S1x128x1 ![] bcast_S_S1x128x1),
    binary main_v114 main_v117 main_v118 addf,
    unary main_v118 main_v119 Host.sqrt,
    unary main_v119 main_v120 (broadcastInDim S2x128x4096 ![0, 1, 2] bcast_S1x128x1_S2x128x4096_0_1_2),
    binary main_v116 main_v120 main_v121 Host.divf,
    unary main_arg16 main_v122 (broadcastInDim S1x128x1 ![1] bcast_S128_S1x128x1_1),
    unary main_v122 main_v123 (broadcastInDim S2x128x4096 ![0, 1, 2] bcast_S1x128x1_S2x128x4096_0_1_2),
    binary main_v121 main_v123 main_v124 mulf,
    unary main_arg17 main_v125 (broadcastInDim S1x128x1 ![1] bcast_S128_S1x128x1_1),
    unary main_v125 main_v126 (broadcastInDim S2x128x4096 ![0, 1, 2] bcast_S1x128x1_S2x128x4096_0_1_2),
    binary main_v124 main_v126 main_v127 addf ]

abbrev W10_W : List (Ref sig .tc) := [main_cst_19, main_v110, main_v111, main_cst_20, main_v112, main_v113, main_c_21, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v114, main_v115, main_v116, main_cst_22, main_v117, main_v118, main_v119, main_v120, main_v121, main_v122, main_v123, main_v124, main_v125, main_v126, main_v127]

theorem W10_sub : (W10 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem W10_fresh : (W10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem W10_writes : (W10 : List (HloOp τ sig (Elt F))).Forall fun op =>
    op.writes ⊆ (W10_W.map (Proc.devRef (τ := τ) .tc)).toFinset :=
  ⟨writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide)⟩

theorem W10_keep (V : Valuation τ sig (Elt F)) (r : Ref sig .tc) (h : r ∉ W10_W) :
    after W10 V (no_index (Proc.devRef .tc r)) = V (Proc.devRef .tc r) :=
  after_of_writes_sub W10 V W10_writes h

set_option maxRecDepth 8192 in
set_option maxHeartbeats 4000000 in
theorem W10_v127 (V : Valuation τ sig (Elt F)) :
    after W10 V (no_index (Proc.devRef .tc main_v127))
      = bn2 (V (Proc.devRef .tc main_v109)) (V (Proc.devRef .tc main_arg16)) (V (Proc.devRef .tc main_arg17)) := by
  simp only [W10]
  after_results_simp
  all_goals rfl

abbrev W11 : List (HloOp τ sig (Elt F)) :=
  [ nullary main_v128 (iotaInDim S2 32 0),
    unary main_v128 main_v129 (broadcastInDim S2x1x1 ![0] bcast_S2_S2x1x1_0),
    nullary main_c_23 (constantI S_ 32 0#32),
    unary main_c_23 main_v130 (broadcastInDim S2x1x1 ![] bcast_S_S2x1x1),
    binary main_v129 main_v130 main_v131 (cmpi .slt),
    nullary main_c_24 (constantI S_ 32 2#32),
    unary main_c_24 main_v132 (broadcastInDim S2x1x1 ![] bcast_S_S2x1x1),
    binary main_v129 main_v132 main_v133 addi,
    ternary main_v131 main_v133 main_v129 main_v134 select,
    nullary main_c_25 (constantI S_ 32 0#32),
    unary main_c_25 main_v135 (broadcastInDim S2x4096x16 ![] bcast_S_S2x4096x16),
    binary main_arg3 main_v135 main_v136 (cmpi .slt),
    nullary main_c_26 (constantI S_ 32 16384#32),
    unary main_c_26 main_v137 (broadcastInDim S2x4096x16 ![] bcast_S_S2x4096x16),
    binary main_arg3 main_v137 main_v138 addi,
    ternary main_v136 main_v138 main_arg3 main_v139 select,
    unary main_v134 main_v140 (broadcastInDim S2x4096x16 ![0, 1, 2] bcast_S2x1x1_S2x4096x16_0_1_2),
    unary main_v140 main_v141 (broadcastInDim S2x4096x16x1 ![0, 1, 2] bcast_S2x4096x16_S2x4096x16x1_0_1_2),
    unary main_v139 main_v142 (broadcastInDim S2x4096x16x1 ![0, 1, 2] bcast_S2x4096x16_S2x4096x16x1_0_1_2),
    binary main_v141 main_v142 main_v143 (fun a b => concatenate S2x4096x16x2 3 [⟨S2x4096x16x1, a⟩, ⟨S2x4096x16x1, b⟩] concatenates_S2x4096x16x1_S2x4096x16x1_S2x4096x16x2_d3),
    binary main_arg0 main_v143 main_v144 (fun x i => Host.gather gather_S2x128x16384_S2x4096x16x2_S2x4096x16x128_3_02_n_n_02_3_11281 x i) ]

abbrev W11_W : List (Ref sig .tc) := [main_v128, main_v129, main_c_23, main_v130, main_v131, main_c_24, main_v132, main_v133, main_v134, main_c_25, main_v135, main_v136, main_c_26, main_v137, main_v138, main_v139, main_v140, main_v141, main_v142, main_v143, main_v144]

theorem W11_sub : (W11 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub ..⟩

theorem W11_fresh : (W11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

theorem W11_writes : (W11 : List (HloOp τ sig (Elt F))).Forall fun op =>
    op.writes ⊆ (W11_W.map (Proc.devRef (τ := τ) .tc)).toFinset :=
  ⟨writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide)⟩

theorem W11_keep (V : Valuation τ sig (Elt F)) (r : Ref sig .tc) (h : r ∉ W11_W) :
    after W11 V (no_index (Proc.devRef .tc r)) = V (Proc.devRef .tc r) :=
  after_of_writes_sub W11 V W11_writes h

theorem W11_v144 (V : Valuation τ sig (Elt F)) :
    after W11 V (no_index (Proc.devRef .tc main_v144))
      = gatherX (V (Proc.devRef .tc main_arg0)) (nbrIdx (V (Proc.devRef .tc main_arg3))) := by
  simp only [W11]
  after_results_simp
  all_goals rfl

abbrev W12 : List (HloOp τ sig (Elt F)) :=
  [ unary main_arg4 main_v145 (broadcastInDim S2x4096x16x1 ![0, 1, 2] bcast_S2x4096x16_S2x4096x16x1_0_1_2),
    nullary main_c_27 (constantI S_ 32 0#32),
    unary main_c_27 main_v146 (broadcastInDim S2x4096x16x1 ![] bcast_S_S2x4096x16x1),
    binary main_v145 main_v146 main_v147 (cmpi .sgt),
    nullary main_cst_28 (constant S_ .f32 0xCE6E6B28#32),
    unary main_cst_28 main_call5_v0 id,
    unary main_v147 main_call5_v1 (broadcastInDim S2x4096x16x128 ![0, 1, 2, 3] bcast_S2x4096x16x1_S2x4096x16x128_0_1_2_3),
    unary main_call5_v0 main_call5_v2 (broadcastInDim S2x4096x16x128 ![] bcast_S_S2x4096x16x128),
    ternary main_call5_v1 main_v144 main_call5_v2 main_v148 select ]

abbrev W12_W : List (Ref sig .tc) := [main_v145, main_c_27, main_v146, main_v147, main_cst_28, main_call5_v0, main_call5_v1, main_call5_v2, main_v148]

theorem W12_sub : (W12 : List (HloOp τ sig (Elt F))).Forall fun op => op.bufs ⊆ tcRefs τ sig :=
  ⟨unary_bufs_sub .., nullary_bufs_sub .., unary_bufs_sub .., binary_bufs_sub .., nullary_bufs_sub .., unary_bufs_sub .., unary_bufs_sub .., unary_bufs_sub .., ternary_bufs_sub ..⟩

theorem W12_fresh : (W12 : List (HloOp τ sig (Elt F))).Forall fun op => op.fresh = ∅ :=
  ⟨rfl, rfl, rfl, rfl, rfl, rfl, rfl, rfl, rfl⟩

theorem W12_writes : (W12 : List (HloOp τ sig (Elt F))).Forall fun op =>
    op.writes ⊆ (W12_W.map (Proc.devRef (τ := τ) .tc)).toFinset :=
  ⟨writes_mem (by decide), writes_mem (by decide), writes_mem (by decide), writes_mem (by decide), writes_mem (by decide), writes_mem (by decide), writes_mem (by decide), writes_mem (by decide), writes_mem (by decide)⟩

theorem W12_keep (V : Valuation τ sig (Elt F)) (r : Ref sig .tc) (h : r ∉ W12_W) :
    after W12 V (no_index (Proc.devRef .tc r)) = V (Proc.devRef .tc r) :=
  after_of_writes_sub W12 V W12_writes h

theorem W12_v148 (V : Valuation τ sig (Elt F)) :
    after W12 V (no_index (Proc.devRef .tc main_v148))
      = maskFill (V (Proc.devRef .tc main_arg4)) (V (Proc.devRef .tc main_v144)) := by
  simp only [W12]
  after_results_simp
  all_goals rfl

def part2 : List (HloOp τ sig (Elt F)) := W8 ++ (W9 ++ (W10 ++ (W11 ++ (W12))))

theorem part2_sub : (part2 : List (HloOp τ sig (Elt F))).Forall fun op => op.bufs ⊆ tcRefs τ sig :=
  forall_app W8_sub (forall_app W9_sub (forall_app W10_sub (forall_app W11_sub (W12_sub))))

theorem part2_fresh : (part2 : List (HloOp τ sig (Elt F))).Forall fun op => op.fresh = ∅ :=
  forall_app W8_fresh (forall_app W9_fresh (forall_app W10_fresh (forall_app W11_fresh (W12_fresh))))

set_option maxRecDepth 8192 in
set_option maxHeartbeats 4000000 in
theorem main_part2_eq (c : Dev nD) : main_part2 (F := F) c = seq part2 := by
  simp only [main_part2, fn_relu_1.body, fn_var_2.body, fn_where_3.body, fn_where_4.body, seq, bind_assoc, pure_bind]
  rfl

end Cert.ReferenceIdeal.RefRun

end
-- ==== Proof.RefRun.Part3.lean ====
import proofs.«214766_g21345987461187_cont_8to1_720_22_alg».proof.Proof.RefRun.Stages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev W13 : List (HloOp τ sig (Elt F)) :=
  [ nullary main_cst_29 (constant S_ .f32 0xFF800000#32),
    binary main_v148 main_cst_29 main_v149 (fun x v => Host.reduce FloatOps.maximumf x v reducesTo_S2x4096x16x128_S2x4096x128_d2 h_S_),
    nullary main_cst_30 (constant S_ .f32 0xCE6E6B28#32),
    unary main_cst_30 main_v150 (broadcastInDim S2x4096x128 ![] bcast_S_S2x4096x128),
    binary main_v149 main_v150 main_v151 (cmpf .ole),
    nullary main_cst_31 (constant S_ .f32 0x00000000#32),
    unary main_cst_31 main_call6_v0 id,
    unary main_call6_v0 main_call6_v1 (broadcastInDim S2x4096x128 ![] bcast_S_S2x4096x128),
    ternary main_v151 main_call6_v1 main_v149 main_v152 select,
    unary main_v152 main_v153 (transpose S2x128x4096 [0, 2, 1] · transposes_S2x4096x128_S2x128x4096_0_2_1) ]

abbrev W13_W : List (Ref sig .tc) := [main_cst_29, main_v149, main_cst_30, main_v150, main_v151, main_cst_31, main_call6_v0, main_call6_v1, main_v152, main_v153]

theorem W13_sub : (W13 : List (HloOp τ sig (Elt F))).Forall fun op => op.bufs ⊆ tcRefs τ sig :=
  ⟨nullary_bufs_sub .., binary_bufs_sub .., nullary_bufs_sub .., unary_bufs_sub .., binary_bufs_sub .., nullary_bufs_sub .., unary_bufs_sub .., unary_bufs_sub .., ternary_bufs_sub .., unary_bufs_sub ..⟩

theorem W13_fresh : (W13 : List (HloOp τ sig (Elt F))).Forall fun op => op.fresh = ∅ :=
  ⟨rfl, rfl, rfl, rfl, rfl, rfl, rfl, rfl, rfl, rfl⟩

theorem W13_writes : (W13 : List (HloOp τ sig (Elt F))).Forall fun op =>
    op.writes ⊆ (W13_W.map (Proc.devRef (τ := τ) .tc)).toFinset :=
  ⟨writes_mem (by decide), writes_mem (by decide), writes_mem (by decide), writes_mem (by decide), writes_mem (by decide), writes_mem (by decide), writes_mem (by decide), writes_mem (by decide), writes_mem (by decide), writes_mem (by decide)⟩

theorem W13_keep (V : Valuation τ sig (Elt F)) (r : Ref sig .tc) (h : r ∉ W13_W) :
    after W13 V (no_index (Proc.devRef .tc r)) = V (Proc.devRef .tc r) :=
  after_of_writes_sub W13 V W13_writes h

theorem W13_v153 (V : Valuation τ sig (Elt F)) :
    after W13 V (no_index (Proc.devRef .tc main_v153))
      = pool (V (Proc.devRef .tc main_v148)) := by
  simp only [W13]
  after_results_simp
  all_goals rfl

abbrev W14 : List (HloOp τ sig (Elt F)) :=
  [ binary main_v127 main_v153 main_v154 addf,
    nullary main_call7_cst (constant S_ .f32 0x00000000#32),
    unary main_call7_cst main_call7_v0 (broadcastInDim S2x128x4096 ![] bcast_S_S2x128x4096),
    binary main_v154 main_call7_v0 main_v155 maximumf ]

abbrev W14_W : List (Ref sig .tc) := [main_v154, main_call7_cst, main_call7_v0, main_v155]

theorem W14_sub : (W14 : List (HloOp τ sig (Elt F))).Forall fun op => op.bufs ⊆ tcRefs τ sig :=
  ⟨binary_bufs_sub .., nullary_bufs_sub .., unary_bufs_sub .., binary_bufs_sub ..⟩

theorem W14_fresh : (W14 : List (HloOp τ sig (Elt F))).Forall fun op => op.fresh = ∅ :=
  ⟨rfl, rfl, rfl, rfl⟩

theorem W14_writes : (W14 : List (HloOp τ sig (Elt F))).Forall fun op =>
    op.writes ⊆ (W14_W.map (Proc.devRef (τ := τ) .tc)).toFinset :=
  ⟨writes_mem (by decide), writes_mem (by decide), writes_mem (by decide), writes_mem (by decide)⟩

theorem W14_keep (V : Valuation τ sig (Elt F)) (r : Ref sig .tc) (h : r ∉ W14_W) :
    after W14 V (no_index (Proc.devRef .tc r)) = V (Proc.devRef .tc r) :=
  after_of_writes_sub W14 V W14_writes h

theorem W14_v155 (V : Valuation τ sig (Elt F)) :
    after W14 V (no_index (Proc.devRef .tc main_v155))
      = outStage (V (Proc.devRef .tc main_v127)) (V (Proc.devRef .tc main_v153)) := by
  simp only [W14]
  after_results_simp
  all_goals rfl

def part3 : List (HloOp τ sig (Elt F)) := W13 ++ (W14)

theorem part3_sub : (part3 : List (HloOp τ sig (Elt F))).Forall fun op => op.bufs ⊆ tcRefs τ sig :=
  forall_app W13_sub (W14_sub)

theorem part3_fresh : (part3 : List (HloOp τ sig (Elt F))).Forall fun op => op.fresh = ∅ :=
  forall_app W13_fresh (W14_fresh)

set_option maxRecDepth 8192 in
set_option maxHeartbeats 4000000 in
theorem main_part3_eq (c : Dev nD) : main_part3 (F := F) c = seq part3 := by
  simp only [main_part3, fn_where_5.body, fn_relu_6.body, seq, bind_assoc, pure_bind]
  rfl

end Cert.ReferenceIdeal.RefRun

end
-- ==== Proof.RefRun.lean ====
import proofs.«214766_g21345987461187_cont_8to1_720_22_alg».proof.Proof.RefRun.Part0
import proofs.«214766_g21345987461187_cont_8to1_720_22_alg».proof.Proof.RefRun.Part1
import proofs.«214766_g21345987461187_cont_8to1_720_22_alg».proof.Proof.RefRun.Part2
import proofs.«214766_g21345987461187_cont_8to1_720_22_alg».proof.Proof.RefRun.Part3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def ops : List (HloOp τ sig (Elt F)) := part0 ++ (part1 ++ (part2 ++ part3))

theorem main_eq (c : Dev nD) : main (F := F) c = seq ops := by
  simp only [ops, seq_append, ← main_part0_eq c, ← main_part1_eq c, ← main_part2_eq c, ← main_part3_eq c]
  rfl

set_option maxRecDepth 8192 in
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_app part0_sub (forall_app part1_sub (forall_app part2_sub part3_sub))

theorem ops_fresh : ∀ op ∈ (ops : List (HloOp τ sig (Elt F))), op.fresh = ∅ :=
  List.forall_iff_forall_mem.mp (forall_app part0_fresh (forall_app part1_fresh (forall_app part2_fresh part3_fresh)))

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxRecDepth 8192 in
set_option maxHeartbeats 4000000 in
theorem after_ops_out (V : Valuation τ sig (Elt F)) :
    after ops V (Proc.devRef .tc main_v155)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  simp (disch := decide) only [ops, part0, part1, part2, part3, after_app,
    W0_v4, W1_v23, W2_v25, W2_v40, W3_v45, W3_v47, W3_c_9, W4_v55, W5_v79, W6_v85, W7_v97, W7_v98, W8_v104, W9_v109, W10_v127, W11_v144, W12_v148, W13_v153, W14_v155,
    W0_keep, W1_keep, W2_keep, W3_keep, W4_keep, W5_keep, W6_keep, W7_keep, W8_keep, W9_keep, W10_keep, W11_keep, W12_keep, W13_keep, W14_keep]
  rfl

theorem after_ops_keep (V : Valuation τ sig (Elt F)) (r : Ref sig .tc)
    (h0 : r ∉ W0_W) (h1 : r ∉ W1_W) (h2 : r ∉ W2_W) (h3 : r ∉ W3_W) (h4 : r ∉ W4_W) (h5 : r ∉ W5_W) (h6 : r ∉ W6_W) (h7 : r ∉ W7_W) (h8 : r ∉ W8_W) (h9 : r ∉ W9_W) (h10 : r ∉ W10_W) (h11 : r ∉ W11_W) (h12 : r ∉ W12_W) (h13 : r ∉ W13_W) (h14 : r ∉ W14_W) :
    after ops V (Proc.devRef .tc r) = V (Proc.devRef .tc r) := by
  simp only [ops, part0, part1, part2, part3, after_app,
    W14_keep _ r h14, W13_keep _ r h13, W12_keep _ r h12, W11_keep _ r h11, W10_keep _ r h10, W9_keep _ r h9, W8_keep _ r h8, W7_keep _ r h7, W6_keep _ r h6, W5_keep _ r h5, W4_keep _ r h4, W3_keep _ r h3, W2_keep _ r h2, W1_keep _ r h1, W0_keep _ r h0]

theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v155)
          = refOut (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
              (m ((c.tc : Thread nD τ).loc main_arg11))
              (m ((c.tc : Thread nD τ).loc main_arg12))
              (m ((c.tc : Thread nD τ).loc main_arg13))
              (m ((c.tc : Thread nD τ).loc main_arg14))
              (m ((c.tc : Thread nD τ).loc main_arg15))
              (m ((c.tc : Thread nD τ).loc main_arg16))
              (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run (defs (F := F)) _ _).mono (fun _ h c => ⟨(h c main_v155).trans (after_ops_out (launchContents m c)),
      (h c main_arg0).trans (after_ops_keep (launchContents m c) main_arg0 (by decide) (by decide) (by decide) (by decide) (by decide) (by decide) (by decide) (by decide) (by decide) (by decide) (by decide) (by decide) (by decide) (by decide) (by decide)),
      (h c main_arg1).trans (after_ops_keep (launchContents m c) main_arg1 (by decide) (by decide) (by decide) (by decide) (by decide) (by decide) (by decide) (by decide) (by decide) (by decide) (by decide) (by decide) (by decide) (by decide) (by decide)),
      (h c main_arg2).trans (after_ops_keep (launchContents m c) main_arg2 (by decide) (by decide) (by decide) (by decide) (by decide) (by decide) (by decide) (by decide) (by decide) (by decide) (by decide) (by decide) (by decide) (by decide) (by decide)),
      (h c main_arg3).trans (after_ops_keep (launchContents m c) main_arg3 (by decide) (by decide) (by decide) (by decide) (by decide) (by decide) (by decide) (by decide) (by decide) (by decide) (by decide) (by decide) (by decide) (by decide) (by decide)),
      (h c main_arg4).trans (after_ops_keep (launchContents m c) main_arg4 (by decide) (by decide) (by decide) (by decide) (by decide) (by decide) (by decide) (by decide) (by decide) (by decide) (by decide) (by decide) (by decide) (by decide) (by decide)),
      (h c main_arg5).trans (after_ops_keep (launchContents m c) main_arg5 (by decide) (by decide) (by decide) (by decide) (by decide) (by decide) (by decide) (by decide) (by decide) (by decide) (by decide) (by decide) (by decide) (by decide) (by decide)),
      (h c main_arg6).trans (after_ops_keep (launchContents m c) main_arg6 (by decide) (by decide) (by decide) (by decide) (by decide) (by decide) (by decide) (by decide) (by decide) (by decide) (by decide) (by decide) (by decide) (by decide) (by decide)),
      (h c main_arg7).trans (after_ops_keep (launchContents m c) main_arg7 (by decide) (by decide) (by decide) (by decide) (by decide) (by decide) (by decide) (by decide) (by decide) (by decide) (by decide) (by decide) (by decide) (by decide) (by decide)),
      (h c main_arg8).trans (after_ops_keep (launchContents m c) main_arg8 (by decide) (by decide) (by decide) (by decide) (by decide) (by decide) (by decide) (by decide) (by decide) (by decide) (by decide) (by decide) (by decide) (by decide) (by decide)),
      (h c main_arg9).trans (after_ops_keep (launchContents m c) main_arg9 (by decide) (by decide) (by decide) (by decide) (by decide) (by decide) (by decide) (by decide) (by decide) (by decide) (by decide) (by decide) (by decide) (by decide) (by decide)),
      (h c main_arg10).trans (after_ops_keep (launchContents m c) main_arg10 (by decide) (by decide) (by decide) (by decide) (by decide) (by decide) (by decide) (by decide) (by decide) (by decide) (by decide) (by decide) (by decide) (by decide) (by decide)),
      (h c main_arg11).trans (after_ops_keep (launchContents m c) main_arg11 (by decide) (by decide) (by decide) (by decide) (by decide) (by decide) (by decide) (by decide) (by decide) (by decide) (by decide) (by decide) (by decide) (by decide) (by decide)),
      (h c main_arg12).trans (after_ops_keep (launchContents m c) main_arg12 (by decide) (by decide) (by decide) (by decide) (by decide) (by decide) (by decide) (by decide) (by decide) (by decide) (by decide) (by decide) (by decide) (by decide) (by decide)),
      (h c main_arg13).trans (after_ops_keep (launchContents m c) main_arg13 (by decide) (by decide) (by decide) (by decide) (by decide) (by decide) (by decide) (by decide) (by decide) (by decide) (by decide) (by decide) (by decide) (by decide) (by decide)),
      (h c main_arg14).trans (after_ops_keep (launchContents m c) main_arg14 (by decide) (by decide) (by decide) (by decide) (by decide) (by decide) (by decide) (by decide) (by decide) (by decide) (by decide) (by decide) (by decide) (by decide) (by decide)),
      (h c main_arg15).trans (after_ops_keep (launchContents m c) main_arg15 (by decide) (by decide) (by decide) (by decide) (by decide) (by decide) (by decide) (by decide) (by decide) (by decide) (by decide) (by decide) (by decide) (by decide) (by decide)),
      (h c main_arg16).trans (after_ops_keep (launchContents m c) main_arg16 (by decide) (by decide) (by decide) (by decide) (by decide) (by decide) (by decide) (by decide) (by decide) (by decide) (by decide) (by decide) (by decide) (by decide) (by decide)),
      (h c main_arg17).trans (after_ops_keep (launchContents m c) main_arg17 (by decide) (by decide) (by decide) (by decide) (by decide) (by decide) (by decide) (by decide) (by decide) (by decide) (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.RefValue.Basics.lean ====
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.ReferenceIdeal.RefValue

open Idealize.ShloMosaic Idealize.ShloMosaic.ValueIdx

section Broadcasts

variable {α : Type} {C L : Nat}

theorem bcast_vec_keep (h : (⟨1, ![C]⟩ : Shape).BroadcastsInDim ⟨3, ![1, C, 1]⟩ ![1])
    (v : (⟨1, ![C]⟩ : Shape).Idx → α) (u : Fin 1) (o : Fin C) (u' : Fin 1) :
    broadcastInDim ⟨3, ![1, C, 1]⟩ ![1] h v (ix3 u o u') = v (ix1 o) := by
  refine broadcastInDim_apply _ _ _ _ _ (fun a => ?_)
  match a with
  | ⟨0, _⟩ =>
    show o.val = if C = 1 then 0 else o.val
    split
    · have := o.isLt; omega
    · rfl

theorem bcast_keep_full (h : (⟨3, ![1, C, 1]⟩ : Shape).BroadcastsInDim ⟨3, ![2, C, L]⟩ ![0, 1, 2])
    (m : (⟨3, ![1, C, 1]⟩ : Shape).Idx → α) (p : Fin 2) (o : Fin C) (n : Fin L) :
    broadcastInDim ⟨3, ![2, C, L]⟩ ![0, 1, 2] h m (ix3 p o n) = m (ix3 0 o 0) := by
  refine broadcastInDim_apply _ _ _ _ _ (fun a => ?_)
  match a with
  | ⟨0, _⟩ => rfl
  | ⟨1, _⟩ =>
    show o.val = if C = 1 then 0 else o.val
    split
    · have := o.isLt; omega
    · rfl
  | ⟨2, _⟩ => rfl

theorem bcast_vec_full (h1 : (⟨1, ![C]⟩ : Shape).BroadcastsInDim ⟨3, ![1, C, 1]⟩ ![1])
    (h2 : (⟨3, ![1, C, 1]⟩ : Shape).BroadcastsInDim ⟨3, ![2, C, L]⟩ ![0, 1, 2])
    (v : (⟨1, ![C]⟩ : Shape).Idx → α) (p : Fin 2) (o : Fin C) (n : Fin L) :
    broadcastInDim ⟨3, ![2, C, L]⟩ ![0, 1, 2] h2 (broadcastInDim ⟨3, ![1, C, 1]⟩ ![1] h1 v) (ix3 p o n) = v (ix1 o) := by
  rw [bcast_keep_full, bcast_vec_keep]

end Broadcasts

section Sums

variable {C L : Nat}

theorem drop_02_val (h : (⟨3, ![2, C, L]⟩ : Shape).ReducesTo [0, 2] ⟨1, ![C]⟩) (i : (⟨3, ![2, C, L]⟩ : Shape).Idx) :
    (h.drop i ⟨0, Nat.one_pos⟩).val = (i 1).val :=
  Shape.ReducesTo.drop_apply_val_of_eq h i ⟨0, Nat.one_pos⟩ 1 Nat.one_pos rfl

theorem drop_02_eq_iff (h : (⟨3, ![2, C, L]⟩ : Shape).ReducesTo [0, 2] ⟨1, ![C]⟩) (i : (⟨3, ![2, C, L]⟩ : Shape).Idx)
    (o : Fin C) : h.drop i = ix1 o ↔ (i 1).val = o.val := by
  constructor
  · intro e
    rw [← drop_02_val h i, e]
  · intro e
    funext a
    match a with
    | ⟨0, _⟩ => exact Fin.ext ((drop_02_val h i).trans e)

theorem sum_drop_02 {M : Type} [AddCommMonoid M] (h : (⟨3, ![2, C, L]⟩ : Shape).ReducesTo [0, 2] ⟨1, ![C]⟩)
    (x : (⟨3, ![2, C, L]⟩ : Shape).Idx → M) (o : Fin C) :
    ∑ i ∈ Finset.univ.filter (fun i => h.drop i = ix1 o), x i = ∑ b : Fin 2, ∑ n : Fin L, x (ix3 b o n) := by
  rw [← Finset.sum_product' (Finset.univ : Finset (Fin 2)) (Finset.univ : Finset (Fin L)) (fun b n => x (ix3 b o n))]
  have hback : ∀ i : (⟨3, ![2, C, L]⟩ : Shape).Idx, (i 1).val = o.val → ix3 (i 0) o (i 2) = i := by
    intro i e
    funext a
    match a with
    | ⟨0, _⟩ => rfl
    | ⟨1, _⟩ => exact Fin.ext e.symm
    | ⟨2, _⟩ => rfl
  refine Finset.sum_nbij' (fun i => ((i 0 : Fin 2), (i 2 : Fin L))) (fun p => ix3 p.1 o p.2) ?_ ?_ ?_ ?_ ?_
  · intro i _; exact Finset.mem_product.2 ⟨Finset.mem_univ _, Finset.mem_univ _⟩
  · intro p _; exact Finset.mem_filter.2 ⟨Finset.mem_univ _, (drop_02_eq_iff h _ o).2 rfl⟩
  · intro i hi; exact hback i ((drop_02_eq_iff h i o).1 (Finset.mem_filter.1 hi).2)
  · intro p _; rfl
  · intro i hi; exact congrArg x (hback i ((drop_02_eq_iff h i o).1 (Finset.mem_filter.1 hi).2)).symm

theorem reduceAdd_02_apply (h : (⟨3, ![2, C, L]⟩ : Shape).ReducesTo [0, 2] ⟨1, ![C]⟩)
    (hu : 0 < (⟨0, ![]⟩ : Shape).numel) (x : FVec Ideal ⟨3, ![2, C, L]⟩ .f32) (o : Fin C) :
    Host.reduceAdd x (constant (F := Ideal) ⟨0, ![]⟩ .f32 0x00000000#32) h hu (ix1 o)
      = ∑ b : Fin 2, ∑ n : Fin L, x (ix3 b o n) := by
  rw [hostReduceAdd_apply]
  unfold Ideal.hostReduceAdd
  rw [sum_drop_02 h x o, constant_apply, Ideal.ofBits_zero_f32, zero_add]

end Sums

end Cert.ReferenceIdeal.RefValue

end
-- ==== Proof.RefValue.Dots.lean ====
import Idealize.ShloMosaic.PureOps.Ideal.Laws
import Idealize.ShloMosaic.Lib.ValueIdx
import Idealize.ShloMosaic.Lib.TwoAxisContraction

noncomputable section

open scoped BigOperators

namespace Cert.ReferenceIdeal.RefValue

open Idealize.ShloMosaic Idealize.ShloMosaic.ValueIdx

local macro "closed " t:term : tactic => `(tactic| (show $t; decide))

section Position

variable {sl sr so : Shape} (d : DotDims sl sr so)

private theorem out_congr (j : so.Idx) (p q : Nat) (hp : p < so.rank) (hq : q < so.rank) (h : p = q) :
    (j ⟨p, hp⟩).val = (j ⟨q, hq⟩).val := by subst h; rfl

private theorem contr_congr (k : d.contr.Idx) (p q : Nat) (hp : p < d.contr.rank) (hq : q < d.contr.rank) (h : p = q) :
    (k ⟨p, hp⟩).val = (k ⟨q, hq⟩).val := by subst h; rfl

theorem lhs_batch (j : so.Idx) (k : d.contr.Idx) (a : Fin sl.rank) (n : Nat) (hn : n < so.rank) (hb : a ∈ d.lhsBatch)
    (hi : d.lhsBatch.idxOf a = n) : (d.lhsIdx j k a).val = (j ⟨n, hn⟩).val := by
  unfold DotDims.lhsIdx
  rw [dif_pos hb]
  simp only [Fin.val_cast]
  exact out_congr j _ _ _ _ hi

theorem lhs_free (j : so.Idx) (k : d.contr.Idx) (a : Fin sl.rank) (n : Nat) (hn : n < so.rank) (hb : a ∉ d.lhsBatch)
    (hm : a ∈ d.lhsNonContracting) (hi : d.lhsBatch.length + d.lhsNonContracting.idxOf a = n) :
    (d.lhsIdx j k a).val = (j ⟨n, hn⟩).val := by
  unfold DotDims.lhsIdx
  rw [dif_neg hb, dif_pos hm]
  simp only [Fin.val_cast]
  exact out_congr j _ _ _ _ hi

theorem lhs_contr (j : so.Idx) (k : d.contr.Idx) (a : Fin sl.rank) (n : Nat) (hn : n < d.contr.rank) (hb : a ∉ d.lhsBatch)
    (hm : a ∉ d.lhsNonContracting) (hi : d.lhsContracting.idxOf a = n) : (d.lhsIdx j k a).val = (k ⟨n, hn⟩).val := by
  unfold DotDims.lhsIdx
  rw [dif_neg hb, dif_neg hm]
  simp only [Fin.val_cast]
  exact contr_congr d k _ _ _ _ hi

theorem rhs_batch (j : so.Idx) (k : d.contr.Idx) (a : Fin sr.rank) (n : Nat) (hn : n < so.rank) (hb : a ∈ d.rhsBatch)
    (hi : d.rhsBatch.idxOf a = n) : (d.rhsIdx j k a).val = (j ⟨n, hn⟩).val := by
  unfold DotDims.rhsIdx
  rw [dif_pos hb]
  simp only [Fin.val_cast]
  exact out_congr j _ _ _ _ hi

theorem rhs_free (j : so.Idx) (k : d.contr.Idx) (a : Fin sr.rank) (n : Nat) (hn : n < so.rank) (hb : a ∉ d.rhsBatch)
    (hm : a ∈ d.rhsNonContracting)
    (hi : d.lhsBatch.length + d.lhsNonContracting.length + d.rhsNonContracting.idxOf a = n) :
    (d.rhsIdx j k a).val = (j ⟨n, hn⟩).val := by
  unfold DotDims.rhsIdx
  rw [dif_neg hb, dif_pos hm]
  simp only [Fin.val_cast]
  exact out_congr j _ _ _ _ hi

theorem rhs_contr (j : so.Idx) (k : d.contr.Idx) (a : Fin sr.rank) (n : Nat) (hn : n < d.contr.rank) (hb : a ∉ d.rhsBatch)
    (hm : a ∉ d.rhsNonContracting) (hi : d.rhsContracting.idxOf a = n) : (d.rhsIdx j k a).val = (k ⟨n, hn⟩).val := by
  unfold DotDims.rhsIdx
  rw [dif_neg hb, dif_neg hm]
  simp only [Fin.val_cast]
  exact contr_congr d k _ _ _ _ hi

theorem contr_size_of (l : List (Fin sl.rank)) (hl : d.lhsContracting = l) (n : Nat) (hn : n < l.length)
    (hr : n < d.contr.rank) : d.contr.size ⟨n, hr⟩ = sl.size l[n] := by
  subst hl
  exact d.size_contr n hn

end Position

section ChannelDot

variable {C O L : Nat} (D : DotDims ⟨3, ![2, C, L]⟩ ⟨2, ![O, C]⟩ ⟨3, ![2, L, O]⟩)

theorem channelDot_apply (hlc : D.lhsContracting = [1]) (hrc : D.rhsContracting = [1])
    (hln : D.lhsNonContracting = [0, 2]) (hrn : D.rhsNonContracting = [0]) (hlb : D.lhsBatch = []) (hrb : D.rhsBatch = [])
    (x : FVec Ideal ⟨3, ![2, C, L]⟩ .f32) (w : FVec Ideal ⟨2, ![O, C]⟩ .f32) (b : Fin 2) (n : Fin L) (o : Fin O) :
    Host.dotGeneral D none x w (ix3 b n o) = ∑ c : Fin C, x (ix3 b c n) * w (ix2 o c) := by
  have hr : D.contr.rank = 1 := by rw [D.rank_contr, hlc]; rfl
  have hs : D.contr.size ⟨0, by omega⟩ = C := contr_size_of D [1] hlc 0 Nat.one_pos (by omega)
  have nlb : ∀ a, a ∉ D.lhsBatch := fun a => by rw [hlb]; exact List.not_mem_nil
  have nrb : ∀ a, a ∉ D.rhsBatch := fun a => by rw [hrb]; exact List.not_mem_nil
  show FloatOps.dotGeneral D none .single x w (ix3 b n o) = _
  rw [Ideal.dotGeneral_apply, ← Equiv.sum_comp (contrEquiv1 D C hr hs).symm]
  refine Finset.sum_congr rfl (fun c _ => ?_)
  have e1 : D.lhsIdx (ix3 b n o) ((contrEquiv1 D C hr hs).symm c) = ix3 b c n := by
    funext a
    refine Fin.ext ?_
    match a with
    | ⟨0, _⟩ =>
      exact lhs_free D _ _ 0 0 (by closed (0 : ℕ) < 3) (nlb _) (by rw [hln]; exact List.mem_cons_self) (by rw [hlb, hln]; rfl)
    | ⟨1, _⟩ =>
      exact (lhs_contr D _ _ 1 0 (by omega) (nlb _) (by rw [hln]; closed (1 : Fin 3) ∉ ([0, 2] : List (Fin 3))) (by rw [hlc]; rfl)).trans
        (contrEquiv1_symm_val D C hr hs c)
    | ⟨2, _⟩ =>
      exact lhs_free D _ _ 2 1 (by closed (1 : ℕ) < 3) (nlb _) (by rw [hln]; exact List.mem_cons_of_mem _ List.mem_cons_self)
        (by rw [hlb, hln]; rfl)
  have e2 : D.rhsIdx (ix3 b n o) ((contrEquiv1 D C hr hs).symm c) = ix2 o c := by
    funext a
    refine Fin.ext ?_
    match a with
    | ⟨0, _⟩ =>
      exact rhs_free D _ _ 0 2 (by closed (2 : ℕ) < 3) (nrb _) (by rw [hrn]; exact List.mem_cons_self) (by rw [hlb, hln, hrn]; rfl)
    | ⟨1, _⟩ =>
      exact (rhs_contr D _ _ 1 0 (by omega) (nrb _) (by rw [hrn]; closed (1 : Fin 2) ∉ ([0] : List (Fin 2))) (by rw [hrc]; rfl)).trans
        (contrEquiv1_symm_val D C hr hs c)
  rw [e1, e2]

end ChannelDot

section NeighbourDot

variable {S K C P : Nat} (D : DotDims ⟨4, ![2, S, K, C]⟩ ⟨4, ![2, S, K, P]⟩ ⟨4, ![2, S, C, P]⟩)

theorem neighbourDot_apply (hlc : D.lhsContracting = [2]) (hrc : D.rhsContracting = [2])
    (hln : D.lhsNonContracting = [3]) (hrn : D.rhsNonContracting = [3]) (hlb : D.lhsBatch = [0, 1]) (hrb : D.rhsBatch = [0, 1])
    (f : FVec Ideal ⟨4, ![2, S, K, C]⟩ .f32) (w : FVec Ideal ⟨4, ![2, S, K, P]⟩ .f32) (b : Fin 2) (s : Fin S) (c : Fin C) (p : Fin P) :
    Host.dotGeneral D none f w (ix4 b s c p) = ∑ k : Fin K, f (ix4 b s k c) * w (ix4 b s k p) := by
  have hr : D.contr.rank = 1 := by rw [D.rank_contr, hlc]; rfl
  have hs : D.contr.size ⟨0, by omega⟩ = K := contr_size_of D [2] hlc 0 Nat.one_pos (by omega)
  show FloatOps.dotGeneral D none .single f w (ix4 b s c p) = _
  rw [Ideal.dotGeneral_apply, ← Equiv.sum_comp (contrEquiv1 D K hr hs).symm]
  refine Finset.sum_congr rfl (fun k _ => ?_)
  have e1 : D.lhsIdx (ix4 b s c p) ((contrEquiv1 D K hr hs).symm k) = ix4 b s k c := by
    funext a
    refine Fin.ext ?_
    match a with
    | ⟨0, _⟩ => exact lhs_batch D _ _ 0 0 (by closed (0 : ℕ) < 4) (by rw [hlb]; exact List.mem_cons_self) (by rw [hlb]; rfl)
    | ⟨1, _⟩ =>
      exact lhs_batch D _ _ 1 1 (by closed (1 : ℕ) < 4) (by rw [hlb]; exact List.mem_cons_of_mem _ List.mem_cons_self) (by rw [hlb]; rfl)
    | ⟨2, _⟩ =>
      exact (lhs_contr D _ _ 2 0 (by omega) (by rw [hlb]; closed (2 : Fin 4) ∉ ([0, 1] : List (Fin 4))) (by rw [hln]; closed (2 : Fin 4) ∉ ([3] : List (Fin 4))) (by rw [hlc]; rfl)).trans
        (contrEquiv1_symm_val D K hr hs k)
    | ⟨3, _⟩ =>
      exact lhs_free D _ _ 3 2 (by closed (2 : ℕ) < 4) (by rw [hlb]; closed (3 : Fin 4) ∉ ([0, 1] : List (Fin 4))) (by rw [hln]; exact List.mem_cons_self) (by rw [hlb, hln]; rfl)
  have e2 : D.rhsIdx (ix4 b s c p) ((contrEquiv1 D K hr hs).symm k) = ix4 b s k p := by
    funext a
    refine Fin.ext ?_
    match a with
    | ⟨0, _⟩ => exact rhs_batch D _ _ 0 0 (by closed (0 : ℕ) < 4) (by rw [hrb]; exact List.mem_cons_self) (by rw [hrb]; rfl)
    | ⟨1, _⟩ =>
      exact rhs_batch D _ _ 1 1 (by closed (1 : ℕ) < 4) (by rw [hrb]; exact List.mem_cons_of_mem _ List.mem_cons_self) (by rw [hrb]; rfl)
    | ⟨2, _⟩ =>
      exact (rhs_contr D _ _ 2 0 (by omega) (by rw [hrb]; closed (2 : Fin 4) ∉ ([0, 1] : List (Fin 4))) (by rw [hrn]; closed (2 : Fin 4) ∉ ([3] : List (Fin 4))) (by rw [hrc]; rfl)).trans
        (contrEquiv1_symm_val D K hr hs k)
    | ⟨3, _⟩ =>
      exact rhs_free D _ _ 3 3 (by closed (3 : ℕ) < 4) (by rw [hrb]; closed (3 : Fin 4) ∉ ([0, 1] : List (Fin 4))) (by rw [hrn]; exact List.mem_cons_self)
        (by rw [hlb, hln, hrn]; rfl)
  rw [e1, e2]

end NeighbourDot

section PairDot

variable {S C P Dn : Nat} (D : DotDims ⟨4, ![2, S, C, P]⟩ ⟨3, ![P, C, Dn]⟩ ⟨3, ![2, S, Dn]⟩)

theorem pairDot_apply (hlc : D.lhsContracting = [2, 3]) (hrc : D.rhsContracting = [1, 0])
    (hln : D.lhsNonContracting = [0, 1]) (hrn : D.rhsNonContracting = [2]) (hlb : D.lhsBatch = []) (hrb : D.rhsBatch = [])
    (t : FVec Ideal ⟨4, ![2, S, C, P]⟩ .f32) (W : FVec Ideal ⟨3, ![P, C, Dn]⟩ .f32) (b : Fin 2) (s : Fin S) (dd : Fin Dn) :
    Host.dotGeneral D none t W (ix3 b s dd) = ∑ c : Fin C, ∑ p : Fin P, t (ix4 b s c p) * W (ix3 p c dd) := by
  have hr : D.contr.rank = 2 := by rw [D.rank_contr, hlc]; rfl
  have h0 : D.contr.size ⟨0, by omega⟩ = C := contr_size_of D [2, 3] hlc 0 (by closed (0 : ℕ) < 2) (by omega)
  have h1 : D.contr.size ⟨1, by omega⟩ = P := contr_size_of D [2, 3] hlc 1 (by closed (1 : ℕ) < 2) (by omega)
  have nlb : ∀ a, a ∉ D.lhsBatch := fun a => by rw [hlb]; exact List.not_mem_nil
  have nrb : ∀ a, a ∉ D.rhsBatch := fun a => by rw [hrb]; exact List.not_mem_nil
  show FloatOps.dotGeneral D none .single t W (ix3 b s dd) = _
  rw [Ideal.dotGeneral_apply, sum_contr2 D C P hr h0 h1]
  refine Finset.sum_congr rfl (fun c _ => Finset.sum_congr rfl (fun p _ => ?_))
  have e1 : D.lhsIdx (ix3 b s dd) ((contrEquiv2 D C P hr h0 h1).symm (c, p)) = ix4 b s c p := by
    funext a
    refine Fin.ext ?_
    match a with
    | ⟨0, _⟩ => exact lhs_free D _ _ 0 0 (by closed (0 : ℕ) < 3) (nlb _) (by rw [hln]; exact List.mem_cons_self) (by rw [hlb, hln]; rfl)
    | ⟨1, _⟩ =>
      exact lhs_free D _ _ 1 1 (by closed (1 : ℕ) < 3) (nlb _) (by rw [hln]; exact List.mem_cons_of_mem _ List.mem_cons_self)
        (by rw [hlb, hln]; rfl)
    | ⟨2, _⟩ =>
      exact (lhs_contr D _ _ 2 0 (by omega) (nlb _) (by rw [hln]; closed (2 : Fin 4) ∉ ([0, 1] : List (Fin 4))) (by rw [hlc]; rfl)).trans
        (contrEquiv2_symm_val0 D C P hr h0 h1 (c, p))
    | ⟨3, _⟩ =>
      exact (lhs_contr D _ _ 3 1 (by omega) (nlb _) (by rw [hln]; closed (3 : Fin 4) ∉ ([0, 1] : List (Fin 4))) (by rw [hlc]; rfl)).trans
        (contrEquiv2_symm_val1 D C P hr h0 h1 (c, p))
  have e2 : D.rhsIdx (ix3 b s dd) ((contrEquiv2 D C P hr h0 h1).symm (c, p)) = ix3 p c dd := by
    funext a
    refine Fin.ext ?_
    match a with
    | ⟨0, _⟩ =>
      exact (rhs_contr D _ _ 0 1 (by omega) (nrb _) (by rw [hrn]; closed (0 : Fin 3) ∉ ([2] : List (Fin 3))) (by rw [hrc]; rfl)).trans
        (contrEquiv2_symm_val1 D C P hr h0 h1 (c, p))
    | ⟨1, _⟩ =>
      exact (rhs_contr D _ _ 1 0 (by omega) (nrb _) (by rw [hrn]; closed (1 : Fin 3) ∉ ([2] : List (Fin 3))) (by rw [hrc]; rfl)).trans
        (contrEquiv2_symm_val0 D C P hr h0 h1 (c, p))
    | ⟨2, _⟩ =>
      exact rhs_free D _ _ 2 2 (by closed (2 : ℕ) < 3) (nrb _) (by rw [hrn]; exact List.mem_cons_self) (by rw [hlb, hln, hrn]; rfl)
  rw [e1, e2]

end PairDot

end Cert.ReferenceIdeal.RefValue

end
-- ==== Proof.RefValue.Conv.lean ====
import proofs.«214766_g21345987461187_cont_8to1_720_22_alg».proof.Proof.RefRun.Stages
import proofs.«214766_g21345987461187_cont_8to1_720_22_alg».proof.Proof.Spec
import proofs.«214766_g21345987461187_cont_8to1_720_22_alg».proof.Proof.RefValue.Basics
import proofs.«214766_g21345987461187_cont_8to1_720_22_alg».proof.Proof.RefValue.Dots
import Idealize.ShloMosaic.Lib.ValueLayout

noncomputable section

open scoped BigOperators

namespace Cert.ReferenceIdeal.RefValue

open Idealize.ShloMosaic Idealize.ShloMosaic.ValueIdx Cert.ReferenceIdeal Cert.ReferenceIdeal.Gen

theorem conv0_eq (x : FVec Ideal S2x128x16384 .f32) (w : FVec Ideal S64x128 .f32) (b : FVec Ideal S64 .f32) :
    RefRun.conv0 x w b = Cert.Spec.refConv 128 64 16384 x w b := by
  funext i
  obtain ⟨p, o, n, rfl⟩ : ∃ (p : Fin 2) (o : Fin 64) (n : Fin 16384), i = ix3 p o n := ⟨i 0, i 1, i 2, eq_ix3 i⟩
  unfold RefRun.conv0 Cert.Spec.refConv
  rw [addf_apply, transpose_ix3_021_apply, bcast_vec_full,
    channelDot_apply dot_S2x128x16384_S64x128_S2x16384x64_1_1_02_0_n_n rfl rfl rfl rfl rfl rfl]

theorem conv2_eq (f : FVec Ideal S2x64x4096 .f32) (w : FVec Ideal S128x64 .f32) (b : FVec Ideal S128 .f32) :
    RefRun.conv2 f w b = Cert.Spec.refConv 64 128 4096 f w b := by
  funext i
  obtain ⟨p, o, n, rfl⟩ : ∃ (p : Fin 2) (o : Fin 128) (n : Fin 4096), i = ix3 p o n := ⟨i 0, i 1, i 2, eq_ix3 i⟩
  unfold RefRun.conv2 Cert.Spec.refConv
  rw [addf_apply, transpose_ix3_021_apply, bcast_vec_full,
    channelDot_apply dot_S2x64x4096_S128x64_S2x4096x128_1_1_02_0_n_n rfl rfl rfl rfl rfl rfl]

end Cert.ReferenceIdeal.RefValue

end
-- ==== Proof.RefValue.Norm.lean ====
import proofs.«214766_g21345987461187_cont_8to1_720_22_alg».proof.Proof.RefRun.Stages
import proofs.«214766_g21345987461187_cont_8to1_720_22_alg».proof.Proof.Spec
import proofs.«214766_g21345987461187_cont_8to1_720_22_alg».proof.Proof.RefValue.Basics
import Mathlib.Tactic.NormNum

noncomputable section

open scoped BigOperators

namespace Cert.ReferenceIdeal.RefValue

open Idealize.ShloMosaic Idealize.ShloMosaic.ValueIdx Cert.ReferenceIdeal Cert.ReferenceIdeal.Gen

theorem hostSqrt_apply {s : Shape} (a : FVec Ideal s .f32) (i : s.Idx) : Host.sqrt a i = Ideal.sqrt (a i) := rfl

theorem ofBits_f32_32768 : Ideal.ofBits .f32 0x47000000#32 = ((32768 : ℝ) : EReal) := by
  simp [Ideal.ofBits, Ideal.ieee, -EReal.coe_mul] <;> norm_num

theorem ofBits_f32_8192 : Ideal.ofBits .f32 0x46000000#32 = ((8192 : ℝ) : EReal) := by
  simp [Ideal.ofBits, Ideal.ieee, -EReal.coe_mul] <;> norm_num

theorem cnt0_pos : (0 : EReal) < Ideal.ofBits .f32 0x47000000#32 := by
  rw [ofBits_f32_32768]; exact EReal.coe_pos.mpr (by norm_num)

theorem cnt1_pos : (0 : EReal) < Ideal.ofBits .f32 0x46000000#32 := by
  rw [ofBits_f32_8192]; exact EReal.coe_pos.mpr (by norm_num)

section Norm

variable {C L : Nat}
  (hred : (⟨3, ![2, C, L]⟩ : Shape).ReducesTo [0, 2] ⟨1, ![C]⟩)
  (hu : 0 < (⟨0, ![]⟩ : Shape).numel)
  (hv : (⟨1, ![C]⟩ : Shape).BroadcastsInDim ⟨3, ![1, C, 1]⟩ ![1])
  (hs : (⟨0, ![]⟩ : Shape).BroadcastsInDim ⟨3, ![1, C, 1]⟩ ![])
  (hf : (⟨3, ![1, C, 1]⟩ : Shape).BroadcastsInDim ⟨3, ![2, C, L]⟩ ![0, 1, 2])
  (cw : BitVec 32)

def meanT (y : FVec Ideal ⟨3, ![2, C, L]⟩ .f32) : FVec Ideal ⟨3, ![1, C, 1]⟩ .f32 :=
  Host.divf
    (broadcastInDim ⟨3, ![1, C, 1]⟩ ![1] hv
      (Host.reduceAdd y (constant (F := Ideal) ⟨0, ![]⟩ .f32 0x00000000#32) hred hu))
    (broadcastInDim ⟨3, ![1, C, 1]⟩ ![] hs (constant (F := Ideal) ⟨0, ![]⟩ .f32 cw))

def cntT : FVec Ideal ⟨0, ![]⟩ .f32 :=
  subf (constant (F := Ideal) ⟨0, ![]⟩ .f32 cw) (sitofp .f32 (constantI ⟨0, ![]⟩ 32 0#32))

def varT (y : FVec Ideal ⟨3, ![2, C, L]⟩ .f32) : FVec Ideal ⟨3, ![1, C, 1]⟩ .f32 :=
  select
    (broadcastInDim ⟨3, ![1, C, 1]⟩ ![] hs (cmpf .ogt (cntT cw) (constant (F := Ideal) ⟨0, ![]⟩ .f32 0x00000000#32)))
    (Host.divf
      (broadcastInDim ⟨3, ![1, C, 1]⟩ ![1] hv
        (Host.reduceAdd
          (mulf (subf y (broadcastInDim ⟨3, ![2, C, L]⟩ ![0, 1, 2] hf (meanT hred hu hv hs cw y)))
            (subf y (broadcastInDim ⟨3, ![2, C, L]⟩ ![0, 1, 2] hf (meanT hred hu hv hs cw y))))
          (constant (F := Ideal) ⟨0, ![]⟩ .f32 0x00000000#32) hred hu))
      (broadcastInDim ⟨3, ![1, C, 1]⟩ ![] hs (cntT cw)))
    (broadcastInDim ⟨3, ![1, C, 1]⟩ ![] hs (constant (F := Ideal) ⟨0, ![]⟩ .f32 0x7FC00000#32))

def bnT (y : FVec Ideal ⟨3, ![2, C, L]⟩ .f32) (g be : FVec Ideal ⟨1, ![C]⟩ .f32) : FVec Ideal ⟨3, ![2, C, L]⟩ .f32 :=
  addf
    (mulf
      (Host.divf (subf y (broadcastInDim ⟨3, ![2, C, L]⟩ ![0, 1, 2] hf (meanT hred hu hv hs cw y)))
        (broadcastInDim ⟨3, ![2, C, L]⟩ ![0, 1, 2] hf
          (Host.sqrt (addf (varT hred hu hv hs hf cw y)
            (broadcastInDim ⟨3, ![1, C, 1]⟩ ![] hs (constant (F := Ideal) ⟨0, ![]⟩ .f32 0x3727C5AC#32))))))
      (broadcastInDim ⟨3, ![2, C, L]⟩ ![0, 1, 2] hf (broadcastInDim ⟨3, ![1, C, 1]⟩ ![1] hv g)))
    (broadcastInDim ⟨3, ![2, C, L]⟩ ![0, 1, 2] hf (broadcastInDim ⟨3, ![1, C, 1]⟩ ![1] hv be))

theorem meanT_apply (y : FVec Ideal ⟨3, ![2, C, L]⟩ .f32) (u : Fin 1) (o : Fin C) (u' : Fin 1) :
    meanT hred hu hv hs cw y (ix3 u o u') = Cert.Spec.refMean C L (Ideal.ofBits .f32 cw) y o := by
  unfold meanT Cert.Spec.refMean
  rw [hostDivf_apply, bcast_vec_keep, reduceAdd_02_apply, broadcastInDim_scalar_apply, constant_apply]

theorem cntT_apply (i : (⟨0, ![]⟩ : Shape).Idx) : cntT cw i = Ideal.ofBits .f32 cw := by
  show Ideal.ofBits .f32 cw - (((0#32 : BitVec 32).toInt : ℝ) : EReal) = _
  rw [show (0#32 : BitVec 32).toInt = 0 from rfl, Int.cast_zero, EReal.coe_zero, sub_zero]

theorem varT_apply (hpos : (0 : EReal) < Ideal.ofBits .f32 cw) (y : FVec Ideal ⟨3, ![2, C, L]⟩ .f32)
    (u : Fin 1) (o : Fin C) (u' : Fin 1) :
    varT hred hu hv hs hf cw y (ix3 u o u') = Cert.Spec.refVar C L (Ideal.ofBits .f32 cw) y o := by
  have hc : Ideal.cmp .ogt (Ideal.ofBits .f32 cw) (Ideal.ofBits .f32 0x00000000#32) = 1#1 := by
    rw [Ideal.ofBits_zero_f32]
    unfold Ideal.cmp
    simp [hpos]
  unfold varT Cert.Spec.refVar
  rw [select_apply,
    broadcastInDim_scalar_apply hs (cmpf .ogt (cntT cw) (constant (F := Ideal) ⟨0, ![]⟩ .f32 0x00000000#32)),
    cmpf_apply, cntT_apply, constant_apply, Ideal.cmpf_def, hc, select_one,
    hostDivf_apply, bcast_vec_keep, reduceAdd_02_apply, broadcastInDim_scalar_apply, cntT_apply]
  refine congrArg (fun t => Ideal.div t _) ?_
  refine Finset.sum_congr rfl (fun b _ => Finset.sum_congr rfl (fun n _ => ?_))
  rw [mulf_apply, subf_apply, bcast_keep_full, meanT_apply]

theorem bnT_eq (hpos : (0 : EReal) < Ideal.ofBits .f32 cw) (y : FVec Ideal ⟨3, ![2, C, L]⟩ .f32)
    (g be : FVec Ideal ⟨1, ![C]⟩ .f32) :
    bnT hred hu hv hs hf cw y g be = Cert.Spec.refBN C L (Ideal.ofBits .f32 cw) y g be := by
  funext i
  obtain ⟨p, o, n, rfl⟩ : ∃ (p : Fin 2) (o : Fin C) (n : Fin L), i = ix3 p o n := ⟨i 0, i 1, i 2, eq_ix3 i⟩
  unfold bnT Cert.Spec.refBN
  rw [addf_apply, mulf_apply, hostDivf_apply, subf_apply]
  rw [bcast_keep_full, bcast_keep_full, bcast_keep_full, bcast_keep_full]
  rw [meanT_apply, hostSqrt_apply, addf_apply, varT_apply hred hu hv hs hf cw hpos, broadcastInDim_scalar_apply,
    constant_apply, bcast_vec_keep, bcast_vec_keep]
  rfl

end Norm

theorem bn0_eq (y : FVec Ideal S2x64x16384 .f32) (g be : FVec Ideal S64 .f32) :
    RefRun.bn0 y g be = Cert.Spec.refBN 64 16384 Cert.Spec.cnt0W y g be :=
  (show RefRun.bn0 y g be = bnT reducesTo_S2x64x16384_S64_d0_2 h_S_ bcast_S64_S1x64x1_1 bcast_S_S1x64x1
      bcast_S1x64x1_S2x64x16384_0_1_2 0x47000000#32 y g be from rfl).trans
    (bnT_eq _ _ _ _ _ _ cnt0_pos y g be)

theorem bn1_eq (y : FVec Ideal S2x64x4096 .f32) (g be : FVec Ideal S64 .f32) :
    RefRun.bn1 y g be = Cert.Spec.refBN 64 4096 Cert.Spec.cnt1W y g be :=
  (show RefRun.bn1 y g be = bnT reducesTo_S2x64x4096_S64_d0_2 h_S_ bcast_S64_S1x64x1_1 bcast_S_S1x64x1
      bcast_S1x64x1_S2x64x4096_0_1_2 0x46000000#32 y g be from rfl).trans
    (bnT_eq _ _ _ _ _ _ cnt1_pos y g be)

theorem bn2_eq (y : FVec Ideal S2x128x4096 .f32) (g be : FVec Ideal S128 .f32) :
    RefRun.bn2 y g be = Cert.Spec.refBN 128 4096 Cert.Spec.cnt1W y g be :=
  (show RefRun.bn2 y g be = bnT reducesTo_S2x128x4096_S128_d0_2 h_S_ bcast_S128_S1x128x1_1 bcast_S_S1x128x1
      bcast_S1x128x1_S2x128x4096_0_1_2 0x46000000#32 y g be from rfl).trans
    (bnT_eq _ _ _ _ _ _ cnt1_pos y g be)

theorem relu0_eq (z : FVec Ideal S2x64x16384 .f32) : RefRun.relu0 z = Cert.Spec.refRelu 64 16384 z := by
  funext i
  unfold RefRun.relu0 Cert.Spec.refRelu
  rw [maximumf_apply, broadcastInDim_scalar_apply, constant_apply]

theorem relu1_eq (z : FVec Ideal S2x64x4096 .f32) : RefRun.relu1 z = Cert.Spec.refRelu 64 4096 z := by
  funext i
  unfold RefRun.relu1 Cert.Spec.refRelu
  rw [maximumf_apply, broadcastInDim_scalar_apply, constant_apply]

end Cert.ReferenceIdeal.RefValue

end
-- ==== Proof.RefValue.GatherRead.lean ====
import Idealize.ShloMosaic.PureOps.Ideal
import Idealize.ShloMosaic.Lib.ValueIdx

noncomputable section

namespace Cert.ReferenceIdeal.RefValue

open Idealize.ShloMosaic Idealize.ShloMosaic.ValueIdx

local macro "closed " t:term : tactic => `(tactic| (show $t; decide))

section ColumnGather

variable {α : Type}

abbrev colDims (C N S K : Nat)
    (wf : GatherDims.WF ⟨3, ![2, C, N]⟩ ⟨4, ![2, S, K, 2]⟩ ⟨4, ![2, S, K, C]⟩ [3] [0, 2] [] [0, 2] [] 3 ![1, C, 1]) :
    GatherDims ⟨3, ![2, C, N]⟩ ⟨4, ![2, S, K, 2]⟩ ⟨4, ![2, S, K, C]⟩ where
  offsetDims := [3]
  collapsedSliceDims := [0, 2]
  operandBatchingDims := []
  startIndicesBatchingDims := []
  startIndexMap := [0, 2]
  indexVectorDim := 3
  sliceSizes := ![1, C, 1]
  wf := wf

variable {C N S K w : Nat}
  (wf : GatherDims.WF ⟨3, ![2, C, N]⟩ ⟨4, ![2, S, K, 2]⟩ ⟨4, ![2, S, K, C]⟩ [3] [0, 2] [] [0, 2] [] 3 ![1, C, 1])

theorem colDims_siIdx0 (b : Fin 2) (s : Fin S) (k : Fin K) (c : Fin C) (h0 : 0 < (colDims C N S K wf).startIndexMap.length) :
    (colDims C N S K wf).siIdx (ix4 b s k c) ⟨0, h0⟩ = ix4 b s k (0 : Fin 2) := by
  funext a
  refine Fin.ext ?_
  match a with
  | ⟨0, _⟩ => rfl
  | ⟨1, _⟩ => rfl
  | ⟨2, _⟩ => rfl
  | ⟨3, _⟩ => rfl

theorem colDims_siIdx1 (b : Fin 2) (s : Fin S) (k : Fin K) (c : Fin C) (h1 : 1 < (colDims C N S K wf).startIndexMap.length) :
    (colDims C N S K wf).siIdx (ix4 b s k c) ⟨1, h1⟩ = ix4 b s k (1 : Fin 2) := by
  funext a
  refine Fin.ext ?_
  match a with
  | ⟨0, _⟩ => rfl
  | ⟨1, _⟩ => rfl
  | ⟨2, _⟩ => rfl
  | ⟨3, _⟩ => rfl

theorem colDims_coord0 (idx : IVec ⟨4, ![2, S, K, 2]⟩ w) (b : Fin 2) (s : Fin S) (k : Fin K) (c : Fin C) :
    (colDims C N S K wf).start (ix4 b s k c) idx (0 : Fin 3) + (colDims C N S K wf).batchCoord (ix4 b s k c) (0 : Fin 3)
      + (colDims C N S K wf).offCoord (ix4 b s k c) (0 : Fin 3) = min (idx (ix4 b s k (0 : Fin 2))).toInt.toNat 1 := by
  rw [GatherDims.batchCoord_eq_zero _ _ _ List.not_mem_nil,
    GatherDims.offCoord_eq_zero _ _ _ (fun h => ((GatherDims.mem_sKept _ _).mp h).1 List.mem_cons_self)]
  simp only [Nat.add_zero]
  unfold GatherDims.start
  rw [dif_pos (show (0 : Fin 3) ∈ (colDims C N S K wf).startIndexMap from List.mem_cons_self)]
  have e : (colDims C N S K wf).siIdx (ix4 b s k c) ⟨List.idxOf (0 : Fin 3) (colDims C N S K wf).startIndexMap,
      List.idxOf_lt_length_iff.2 List.mem_cons_self⟩ = ix4 b s k (0 : Fin 2) :=
    colDims_siIdx0 wf b s k c _
  rw [e]
  rfl

theorem colDims_coord1 (idx : IVec ⟨4, ![2, S, K, 2]⟩ w) (b : Fin 2) (s : Fin S) (k : Fin K) (c : Fin C) :
    (colDims C N S K wf).start (ix4 b s k c) idx (1 : Fin 3) + (colDims C N S K wf).batchCoord (ix4 b s k c) (1 : Fin 3)
      + (colDims C N S K wf).offCoord (ix4 b s k c) (1 : Fin 3) = c.val := by
  rw [GatherDims.batchCoord_eq_zero _ _ _ List.not_mem_nil]
  have hs : (colDims C N S K wf).start (ix4 b s k c) idx (1 : Fin 3) = 0 := by
    unfold GatherDims.start
    rw [dif_neg (by closed (1 : Fin 3) ∉ ([0, 2] : List (Fin 3)))]
  rw [hs]
  simp only [Nat.add_zero, Nat.zero_add]
  rfl

theorem colDims_coord2 (idx : IVec ⟨4, ![2, S, K, 2]⟩ w) (b : Fin 2) (s : Fin S) (k : Fin K) (c : Fin C) :
    (colDims C N S K wf).start (ix4 b s k c) idx (2 : Fin 3) + (colDims C N S K wf).batchCoord (ix4 b s k c) (2 : Fin 3)
      + (colDims C N S K wf).offCoord (ix4 b s k c) (2 : Fin 3) = min (idx (ix4 b s k (1 : Fin 2))).toInt.toNat (N - 1) := by
  rw [GatherDims.batchCoord_eq_zero _ _ _ List.not_mem_nil,
    GatherDims.offCoord_eq_zero _ _ _
      (fun h => ((GatherDims.mem_sKept _ _).mp h).1 (List.mem_cons_of_mem _ List.mem_cons_self))]
  simp only [Nat.add_zero]
  unfold GatherDims.start
  rw [dif_pos (show (2 : Fin 3) ∈ (colDims C N S K wf).startIndexMap from List.mem_cons_of_mem _ List.mem_cons_self)]
  have e : (colDims C N S K wf).siIdx (ix4 b s k c) ⟨List.idxOf (2 : Fin 3) (colDims C N S K wf).startIndexMap,
      List.idxOf_lt_length_iff.2 (List.mem_cons_of_mem _ List.mem_cons_self)⟩ = ix4 b s k (1 : Fin 2) :=
    colDims_siIdx1 wf b s k c _
  rw [e]
  rfl

theorem colGather_apply (hN : 0 < N) (x : (⟨3, ![2, C, N]⟩ : Shape).Idx → α) (idx : IVec ⟨4, ![2, S, K, 2]⟩ w)
    (b : Fin 2) (s : Fin S) (k : Fin K) (c : Fin C) :
    Host.gather (colDims C N S K wf) x idx (ix4 b s k c)
      = x (ix3 (⟨min (idx (ix4 b s k (0 : Fin 2))).toInt.toNat 1, by omega⟩ : Fin 2) c
          (⟨min (idx (ix4 b s k (1 : Fin 2))).toInt.toNat (N - 1), by omega⟩ : Fin N)) := by
  unfold Host.gather
  refine congrArg x (funext fun a => Fin.ext ?_)
  show (colDims C N S K wf).start (ix4 b s k c) idx a + (colDims C N S K wf).batchCoord (ix4 b s k c) a
    + (colDims C N S K wf).offCoord (ix4 b s k c) a = _
  match a with
  | ⟨0, _⟩ => exact colDims_coord0 wf idx b s k c
  | ⟨1, _⟩ => exact colDims_coord1 wf idx b s k c
  | ⟨2, _⟩ => exact colDims_coord2 wf idx b s k c

end ColumnGather

end Cert.ReferenceIdeal.RefValue

end
-- ==== Proof.RefValue.Gather.lean ====
import proofs.«214766_g21345987461187_cont_8to1_720_22_alg».proof.Proof.RefRun.Stages
import proofs.«214766_g21345987461187_cont_8to1_720_22_alg».proof.Proof.Spec
import proofs.«214766_g21345987461187_cont_8to1_720_22_alg».proof.Proof.RefValue.GatherRead
import Idealize.ShloMosaic.Lib.Pipeline.Value
import Idealize.ShloMosaic.Lib.IdealHost
import Idealize.ShloMosaic.Lib.Affine

noncomputable section

namespace Cert.ReferenceIdeal.RefValue

open Idealize.ShloMosaic Idealize.ShloMosaic.ValueIdx Cert.ReferenceIdeal Cert.ReferenceIdeal.Gen

theorem cmpi_apply {s : Shape} {w : Nat} (p : CmpIPredicate) (x y : IVec s w) (i : s.Idx) :
    cmpi p x y i = IntOp.cmpi p (x i) (y i) := rfl

theorem batchIdx_apply (b : Fin 2) (u u' : Fin 1) : RefRun.batchIdx (ix3 b u u') = BitVec.ofNat 32 b.val := by
  have hi : broadcastInDim S2x1x1 ![0] bcast_S2_S2x1x1_0 (iotaInDim S2 32 0) (ix3 b u u') = BitVec.ofNat 32 b.val :=
    (broadcastInDim_apply _ _ _ _ (ix1 b) (fun a => by match a with | ⟨0, _⟩ => rfl)).trans rfl
  unfold RefRun.batchIdx
  rw [select_apply, cmpi_apply, hi]
  match b with
  | ⟨0, _⟩ => rfl
  | ⟨1, _⟩ => rfl

theorem wrapNbr_apply (nbr : IVec S2x4096x16 32) (i : S2x4096x16.Idx) (h : (nbr i).toNat < 16384) :
    RefRun.wrapNbr nbr i = nbr i := by
  have hz : IntOp.cmpi .slt (nbr i) (0#32 : BitVec 32) = 0#1 := by
    refine eq_zero_of_ne_one (fun h1 => ?_)
    have h2 : (nbr i).toInt < (0#32 : BitVec 32).toInt := IntOp.cmpi_slt.mp h1
    rw [BitVec.toInt_eq_toNat_of_lt (by omega), show (0#32 : BitVec 32).toInt = 0 from rfl] at h2
    omega
  unfold RefRun.wrapNbr
  rw [select_apply, cmpi_apply]
  exact (congrArg (fun c => Scalar.select c _ _) hz).trans (select_zero _ _)

theorem nbrIdx_apply0 (nbr : IVec S2x4096x16 32) (b : Fin 2) (s : Fin 4096) (k : Fin 16) :
    RefRun.nbrIdx nbr (ix4 b s k (0 : Fin 2)) = BitVec.ofNat 32 b.val := by
  unfold RefRun.nbrIdx
  refine (concatenate_pair_apply_left (t := S2x4096x16x2) (s₁ := S2x4096x16x1) (s₂ := S2x4096x16x1) (3 : Fin 4) _ _
    concatenates_S2x4096x16x1_S2x4096x16x1_S2x4096x16x2_d3 (ix4 b s k (0 : Fin 2)) rfl
    (ix4 b s k (0 : Fin 1)) (fun a => by match a with | ⟨0, _⟩ => rfl | ⟨1, _⟩ => rfl | ⟨2, _⟩ => rfl | ⟨3, _⟩ => rfl)).trans ?_
  refine (broadcastInDim_apply _ _ _ _ (ix3 b s k)
    (fun a => by match a with | ⟨0, _⟩ => rfl | ⟨1, _⟩ => rfl | ⟨2, _⟩ => rfl)).trans ?_
  refine (broadcastInDim_apply _ _ _ _ (ix3 b (0 : Fin 1) (0 : Fin 1))
    (fun a => by match a with | ⟨0, _⟩ => rfl | ⟨1, _⟩ => rfl | ⟨2, _⟩ => rfl)).trans ?_
  exact batchIdx_apply b 0 0

theorem nbrIdx_apply1 (nbr : IVec S2x4096x16 32) (b : Fin 2) (s : Fin 4096) (k : Fin 16)
    (h : (nbr (ix3 b s k)).toNat < 16384) : RefRun.nbrIdx nbr (ix4 b s k (1 : Fin 2)) = nbr (ix3 b s k) := by
  unfold RefRun.nbrIdx
  refine (concatenate_pair_apply_right (t := S2x4096x16x2) (s₁ := S2x4096x16x1) (s₂ := S2x4096x16x1) (3 : Fin 4) _ _
    concatenates_S2x4096x16x1_S2x4096x16x1_S2x4096x16x2_d3 (ix4 b s k (1 : Fin 2)) rfl rfl
    (ix4 b s k (0 : Fin 1))
    (fun a => by match a with | ⟨0, _⟩ => exact fun _ => rfl | ⟨1, _⟩ => exact fun _ => rfl | ⟨2, _⟩ => exact fun _ => rfl
                              | ⟨3, _⟩ => exact fun hne => absurd rfl hne)
    rfl).trans ?_
  refine (broadcastInDim_apply _ _ _ _ (ix3 b s k)
    (fun a => by match a with | ⟨0, _⟩ => rfl | ⟨1, _⟩ => rfl | ⟨2, _⟩ => rfl)).trans ?_
  exact wrapNbr_apply nbr _ h

section Columns

variable {C : Nat}
  (wf : GatherDims.WF ⟨3, ![2, C, 16384]⟩ ⟨4, ![2, 4096, 16, 2]⟩ ⟨4, ![2, 4096, 16, C]⟩ [3] [0, 2] [] [0, 2] [] 3 ![1, C, 1])

theorem clamp_batch (b : Fin 2) : min (BitVec.ofNat 32 b.val).toInt.toNat 1 = b.val := by
  match b with
  | ⟨0, _⟩ => rfl
  | ⟨1, _⟩ => rfl

theorem clamp_point (x : BitVec 32) (h : x.toNat < 16384) : min x.toInt.toNat (16384 - 1) = x.toNat % 16384 := by
  rw [BitVec.toInt_eq_toNat_of_lt (by omega), Int.toNat_natCast, Nat.mod_eq_of_lt h]
  omega

theorem colGather_nbr (f : (⟨3, ![2, C, 16384]⟩ : Shape).Idx → EReal) (nbr : IVec S2x4096x16 32)
    (hnbr : ∀ i, (nbr i).toNat < 16384) :
    Host.gather (colDims C 16384 4096 16 wf) f (RefRun.nbrIdx nbr) = Cert.Spec.refGather C f nbr := by
  funext i
  obtain ⟨b, s, k, c, rfl⟩ : ∃ (b : Fin 2) (s : Fin 4096) (k : Fin 16) (c : Fin C), i = ix4 b s k c :=
    ⟨i 0, i 1, i 2, i 3, eq_ix4 i⟩
  rw [colGather_apply wf (by decide) f (RefRun.nbrIdx nbr) b s k c]
  unfold Cert.Spec.refGather
  refine congrArg f (funext fun a => Fin.ext ?_)
  match a with
  | ⟨0, _⟩ =>
    show min (RefRun.nbrIdx nbr (ix4 b s k (0 : Fin 2))).toInt.toNat 1 = b.val
    rw [nbrIdx_apply0]; exact clamp_batch b
  | ⟨1, _⟩ => rfl
  | ⟨2, _⟩ =>
    show min (RefRun.nbrIdx nbr (ix4 b s k (1 : Fin 2))).toInt.toNat (16384 - 1) = (nbr (ix3 b s k)).toNat % 16384
    rw [nbrIdx_apply1 nbr b s k (hnbr _)]; exact clamp_point _ (hnbr _)

end Columns

theorem gatherF_eq (f : FVec Ideal S2x64x16384 .f32) (nbr : IVec S2x4096x16 32) (hnbr : ∀ i, (nbr i).toNat < 16384) :
    RefRun.gatherF f (RefRun.nbrIdx nbr) = Cert.Spec.refGather 64 f nbr :=
  colGather_nbr gather_S2x64x16384_S2x4096x16x2_S2x4096x16x64_3_02_n_n_02_3_1641.wf f nbr hnbr

theorem gatherP_eq (pos : FVec Ideal S2x3x16384 .f32) (nbr : IVec S2x4096x16 32) (hnbr : ∀ i, (nbr i).toNat < 16384) :
    RefRun.gatherP pos (RefRun.nbrIdx nbr) = Cert.Spec.refGather 3 pos nbr :=
  colGather_nbr gather_S2x3x16384_S2x4096x16x2_S2x4096x16x3_3_02_n_n_02_3_131.wf pos nbr hnbr

theorem gatherX_eq (x : FVec Ideal S2x128x16384 .f32) (nbr : IVec S2x4096x16 32) (hnbr : ∀ i, (nbr i).toNat < 16384) :
    RefRun.gatherX x (RefRun.nbrIdx nbr) = Cert.Spec.refGather 128 x nbr :=
  colGather_nbr gather_S2x128x16384_S2x4096x16x2_S2x4096x16x128_3_02_n_n_02_3_11281.wf x nbr hnbr

end Cert.ReferenceIdeal.RefValue

end
-- ==== Proof.RefValue.Weights.lean ====
import proofs.«214766_g21345987461187_cont_8to1_720_22_alg».proof.Proof.RefRun.Stages
import proofs.«214766_g21345987461187_cont_8to1_720_22_alg».proof.Proof.Spec
import proofs.«214766_g21345987461187_cont_8to1_720_22_alg».proof.Proof.RefValue.Norm
import Idealize.ShloMosaic.Lib.Pipeline.Value
import Idealize.ShloMosaic.Lib.ValueLayout
import Idealize.ShloMosaic.Lib.IdealHost

noncomputable section

open scoped BigOperators

namespace Cert.ReferenceIdeal.RefValue

open Idealize.ShloMosaic Idealize.ShloMosaic.ValueIdx Cert.ReferenceIdeal Cert.ReferenceIdeal.Gen

theorem relPos_apply (np : FVec Ideal S2x4096x16x3 .f32) (sp : FVec Ideal S2x3x4096 .f32)
    (b : Fin 2) (s : Fin 4096) (k : Fin 16) (t : Fin 3) :
    RefRun.relPos np sp (ix4 b s k t) = np (ix4 b s k t) - sp (ix3 b t s) := by
  unfold RefRun.relPos
  rw [subf_apply]
  refine congrArg (fun z => np (ix4 b s k t) - z) ?_
  refine (broadcastInDim_apply _ _ _ _ (ix4 b s (0 : Fin 1) t) (fun a => by match a with | ⟨0, _⟩ => rfl | ⟨1, _⟩ => rfl | ⟨2, _⟩ => rfl | ⟨3, _⟩ => rfl)).trans ?_
  refine (broadcastInDim_apply _ _ _ _ (ix3 b s t) (fun a => by match a with | ⟨0, _⟩ => rfl | ⟨1, _⟩ => rfl | ⟨2, _⟩ => rfl)).trans ?_
  exact transpose_ix3_021_apply sp transposes_S2x3x4096_S2x4096x3_0_2_1 b s t

theorem sqDist_apply (rel : FVec Ideal S2x4096x16x3 .f32) (kp : FVec Ideal S16x3 .f32)
    (b : Fin 2) (s : Fin 4096) (k : Fin 16) (p : Fin 16) :
    RefRun.sqDist rel kp (ix4 b s k p)
      = ∑ t : Fin 3, (rel (ix4 b s k t) - kp (ix2 p t)) * (rel (ix4 b s k t) - kp (ix2 p t)) := by
  have hR : S2x4096x16x16x3.Reduces [4] S2x4096x16x16 := by decide
  have hA : ∀ t : Fin 3,
      (broadcastInDim S2x4096x16x16x3 ![0, 1, 2, 3, 4] bcast_S2x4096x16x1x3_S2x4096x16x16x3_0_1_2_3_4
        (broadcastInDim S2x4096x16x1x3 ![0, 1, 2, 4] bcast_S2x4096x16x3_S2x4096x16x1x3_0_1_2_4 rel)) (ix5 b s k p t)
        = rel (ix4 b s k t) := fun t =>
    (broadcastInDim_apply _ _ _ _ (ix5 b s k (0 : Fin 1) t) (fun a => by match a with | ⟨0, _⟩ => rfl | ⟨1, _⟩ => rfl | ⟨2, _⟩ => rfl | ⟨3, _⟩ => rfl | ⟨4, _⟩ => rfl)).trans
      (broadcastInDim_apply _ _ _ _ (ix4 b s k t) (fun a => by match a with | ⟨0, _⟩ => rfl | ⟨1, _⟩ => rfl | ⟨2, _⟩ => rfl | ⟨3, _⟩ => rfl))
  have hB : ∀ t : Fin 3,
      (broadcastInDim S2x4096x16x16x3 ![0, 1, 2, 3, 4] bcast_S1x1x1x16x3_S2x4096x16x16x3_0_1_2_3_4
        (broadcastInDim S1x1x1x16x3 ![3, 4] bcast_S16x3_S1x1x1x16x3_3_4 kp)) (ix5 b s k p t)
        = kp (ix2 p t) := fun t =>
    (broadcastInDim_apply _ _ _ _ (ix5 (0 : Fin 1) (0 : Fin 1) (0 : Fin 1) p t) (fun a => by match a with | ⟨0, _⟩ => rfl | ⟨1, _⟩ => rfl | ⟨2, _⟩ => rfl | ⟨3, _⟩ => rfl | ⟨4, _⟩ => rfl)).trans
      (broadcastInDim_apply _ _ _ _ (ix2 p t) (fun a => by match a with | ⟨0, _⟩ => rfl | ⟨1, _⟩ => rfl))
  unfold RefRun.sqDist
  rw [hostReduceAdd_apply, Ideal.hostReduceAdd_single reducesTo_S2x4096x16x16x3_S2x4096x16x16_d4 hR, constant_apply,
    Ideal.ofBits_zero_f32, zero_add]
  refine Finset.sum_congr rfl (fun (t : Fin 3) _ => ?_)
  have hl : hR.lift (ix4 b s k p) t = ix5 b s k p t := by
    funext a
    refine Fin.ext ?_
    match a with
    | ⟨0, _⟩ => rfl
    | ⟨1, _⟩ => rfl
    | ⟨2, _⟩ => rfl
    | ⟨3, _⟩ => rfl
    | ⟨4, _⟩ => rfl
  rw [hl, mulf_apply, subf_apply, hA t, hB t]

theorem weights_apply (np : FVec Ideal S2x4096x16x3 .f32) (sp : FVec Ideal S2x3x4096 .f32) (kp : FVec Ideal S16x3 .f32)
    (mask : IVec S2x4096x16 32) (b : Fin 2) (s : Fin 4096) (k : Fin 16) (p : Fin 16) :
    RefRun.kpWeights (RefRun.sqDist (RefRun.relPos np sp) kp) mask (ix4 b s k p)
      = Cert.Spec.refW np sp mask kp b s k p := by
  have hm : (broadcastInDim S2x4096x16x16 ![0, 1, 2, 3] bcast_S2x4096x16x1_S2x4096x16x16_0_1_2_3
      (sitofp (F := Ideal) .f32 (broadcastInDim S2x4096x16x1 ![0, 1, 2] bcast_S2x4096x16_S2x4096x16x1_0_1_2 mask)))
      (ix4 b s k p) = Cert.Spec.maskF mask (ix3 b s k) := by
    refine (broadcastInDim_apply _ _ _ _ (ix4 b s k (0 : Fin 1)) (fun a => by match a with | ⟨0, _⟩ => rfl | ⟨1, _⟩ => rfl | ⟨2, _⟩ => rfl | ⟨3, _⟩ => rfl)).trans ?_
    rw [sitofp_apply]
    refine (congrArg (FloatOps.sitofp (F := Ideal) .f32)
      (broadcastInDim_apply _ _ _ _ (ix3 b s k) (fun a => by match a with | ⟨0, _⟩ => rfl | ⟨1, _⟩ => rfl | ⟨2, _⟩ => rfl))).trans ?_
    rfl
  unfold RefRun.kpWeights Cert.Spec.refW
  rw [mulf_apply, hm, maximumf_apply, subf_apply, hostDivf_apply, hostSqrt_apply, addf_apply, sqDist_apply]
  simp only [relPos_apply]
  rw [broadcastInDim_scalar_apply, broadcastInDim_scalar_apply, broadcastInDim_scalar_apply,
    constant_apply, constant_apply, constant_apply]

end Cert.ReferenceIdeal.RefValue

end
-- ==== Proof.RefValue.PointConv.lean ====
import proofs.«214766_g21345987461187_cont_8to1_720_22_alg».proof.Proof.RefRun.Stages
import proofs.«214766_g21345987461187_cont_8to1_720_22_alg».proof.Proof.Spec
import proofs.«214766_g21345987461187_cont_8to1_720_22_alg».proof.Proof.RefValue.Basics
import proofs.«214766_g21345987461187_cont_8to1_720_22_alg».proof.Proof.RefValue.Dots
import proofs.«214766_g21345987461187_cont_8to1_720_22_alg».proof.Proof.RefValue.Gather
import proofs.«214766_g21345987461187_cont_8to1_720_22_alg».proof.Proof.RefValue.Weights
import Idealize.ShloMosaic.Lib.ValueLayout

noncomputable section

open scoped BigOperators

namespace Cert.ReferenceIdeal.RefValue

open Idealize.ShloMosaic Idealize.ShloMosaic.ValueIdx Cert.ReferenceIdeal Cert.ReferenceIdeal.Gen

theorem pointConv_apply (nf : FVec Ideal S2x4096x16x64 .f32) (w : FVec Ideal S2x4096x16x16 .f32)
    (wk : FVec Ideal S16x64x64 .f32) (bk : FVec Ideal S64 .f32) (b : Fin 2) (d : Fin 64) (s : Fin 4096) :
    RefRun.pointConv nf w wk bk (ix3 b d s)
      = (∑ c : Fin 64, ∑ p : Fin 16, (∑ k : Fin 16, nf (ix4 b s k c) * w (ix4 b s k p)) * wk (ix3 p c d)) + bk (ix1 d) := by
  unfold RefRun.pointConv
  rw [addf_apply, transpose_ix3_021_apply, bcast_vec_full,
    pairDot_apply dot_S2x4096x64x16_S16x64x64_S2x4096x64_23_10_01_2_n_n rfl rfl rfl rfl rfl rfl]
  refine congrArg (fun t => t + bk (ix1 d)) ?_
  refine Finset.sum_congr rfl (fun c _ => Finset.sum_congr rfl (fun p _ => ?_))
  rw [neighbourDot_apply dot_S2x4096x16x64_S2x4096x16x16_S2x4096x64x16_2_2_3_3_01_01 rfl rfl rfl rfl rfl rfl]

theorem pointConv_eq (h : FVec Ideal S2x64x16384 .f32) (pos : FVec Ideal S2x3x16384 .f32) (sp : FVec Ideal S2x3x4096 .f32)
    (nbr mask : IVec S2x4096x16 32) (kp : FVec Ideal S16x3 .f32) (wk : FVec Ideal S16x64x64 .f32) (bk : FVec Ideal S64 .f32)
    (hnbr : ∀ i, (nbr i).toNat < 16384) :
    RefRun.pointConv (RefRun.gatherF h (RefRun.nbrIdx nbr))
        (RefRun.kpWeights (RefRun.sqDist (RefRun.relPos (RefRun.gatherP pos (RefRun.nbrIdx nbr)) sp) kp) mask) wk bk
      = Cert.Spec.refPointConv h pos sp nbr mask kp wk bk := by
  rw [gatherF_eq h nbr hnbr, gatherP_eq pos nbr hnbr]
  funext i
  obtain ⟨b, d, s, rfl⟩ : ∃ (b : Fin 2) (d : Fin 64) (s : Fin 4096), i = ix3 b d s := ⟨i 0, i 1, i 2, eq_ix3 i⟩
  rw [pointConv_apply]
  unfold Cert.Spec.refPointConv
  refine congrArg (fun t => t + bk (ix1 d)) ?_
  refine Finset.sum_congr rfl (fun c _ => Finset.sum_congr rfl (fun p _ => ?_))
  refine congrArg (fun t => t * wk (ix3 p c d)) ?_
  refine Finset.sum_congr rfl (fun k _ => ?_)
  rw [weights_apply]

end Cert.ReferenceIdeal.RefValue

end
-- ==== Proof.RefValue.Pool.lean ====
import proofs.«214766_g21345987461187_cont_8to1_720_22_alg».proof.Proof.RefRun.Stages
import proofs.«214766_g21345987461187_cont_8to1_720_22_alg».proof.Proof.SpecAt
import proofs.«214766_g21345987461187_cont_8to1_720_22_alg».proof.Proof.RefValue.Gather
import Idealize.ShloMosaic.Lib.Pipeline.Value
import Idealize.ShloMosaic.Lib.ValueLayout
import Idealize.ShloMosaic.Lib.IdealHost
import Idealize.ShloMosaic.Lib.Affine

noncomputable section

open scoped BigOperators

namespace Cert.ReferenceIdeal.RefValue

open Idealize.ShloMosaic Idealize.ShloMosaic.ValueIdx Cert.ReferenceIdeal Cert.ReferenceIdeal.Gen

theorem cmpi_at {s : Shape} {w : Nat} (p : CmpIPredicate) (x y : IVec s w) (i : s.Idx) :
    cmpi p x y i = IntOp.cmpi p (x i) (y i) := rfl

theorem maskFill_apply (mask : IVec S2x4096x16 32) (nx : FVec Ideal S2x4096x16x128 .f32)
    (b : Fin 2) (s : Fin 4096) (k : Fin 16) (c : Fin 128) :
    RefRun.maskFill mask nx (ix4 b s k c)
      = if 0 < (mask (ix3 b s k)).toInt then nx (ix4 b s k c) else Cert.Spec.negBigW := by
  have hc : (broadcastInDim S2x4096x16x128 ![0, 1, 2, 3] bcast_S2x4096x16x1_S2x4096x16x128_0_1_2_3
      (cmpi .sgt (broadcastInDim S2x4096x16x1 ![0, 1, 2] bcast_S2x4096x16_S2x4096x16x1_0_1_2 mask)
        (broadcastInDim S2x4096x16x1 ![] bcast_S_S2x4096x16x1 (constantI S_ 32 0#32)))) (ix4 b s k c)
      = IntOp.cmpi .sgt (mask (ix3 b s k)) (0#32 : BitVec 32) := by
    refine (broadcastInDim_apply _ _ _ _ (ix4 b s k (0 : Fin 1)) (fun a => by match a with | ⟨0, _⟩ => rfl | ⟨1, _⟩ => rfl | ⟨2, _⟩ => rfl | ⟨3, _⟩ => rfl)).trans ?_
    rw [cmpi_at, broadcastInDim_scalar_apply]
    refine congrArg (fun z => IntOp.cmpi .sgt z (0#32 : BitVec 32)) ?_
    exact broadcastInDim_apply _ _ _ _ (ix3 b s k) (fun a => by match a with | ⟨0, _⟩ => rfl | ⟨1, _⟩ => rfl | ⟨2, _⟩ => rfl)
  unfold RefRun.maskFill
  rw [select_apply, hc, broadcastInDim_scalar_apply, constant_apply]
  by_cases h : 0 < (mask (ix3 b s k)).toInt
  · have h1 : IntOp.cmpi .sgt (mask (ix3 b s k)) (0#32 : BitVec 32) = 1#1 := IntOp.cmpi_sgt.2 h
    rw [h1, select_one, if_pos h]
  · have h0 : IntOp.cmpi .sgt (mask (ix3 b s k)) (0#32 : BitVec 32) = 0#1 :=
      eq_zero_of_ne_one fun h1 => h (IntOp.cmpi_sgt.1 h1)
    rw [h0, select_zero, if_neg h]

theorem maxSlots_apply (mx : FVec Ideal S2x4096x16x128 .f32) (b : Fin 2) (s : Fin 4096) (c : Fin 128) :
    Host.reduce FloatOps.maximumf mx (constant (F := Ideal) S_ .f32 0xFF800000#32)
        reducesTo_S2x4096x16x128_S2x4096x128_d2 h_S_ (ix3 b s c)
      = (Finset.univ : Finset (Fin 16)).fold max Cert.Spec.negInfW (fun k => mx (ix4 b s k c)) := by
  have hR : S2x4096x16x128.Reduces [2] S2x4096x128 := by decide
  rw [Host.reduce_eq_fold_single FloatOps.maximumf mx _ reducesTo_S2x4096x16x128_S2x4096x128_d2 hR h_S_]
  have hf : (mx ∘ hR.lift (ix3 b s c)) = fun k : Fin 16 => mx (ix4 b s k c) := by
    funext k
    refine congrArg mx (funext fun a => Fin.ext ?_)
    match a with
    | ⟨0, _⟩ => rfl
    | ⟨1, _⟩ => rfl
    | ⟨2, _⟩ => rfl
    | ⟨3, _⟩ => rfl
  exact congrArg (fun f => Finset.fold max (Ideal.ofBits .f32 0xFF800000#32) f (Finset.univ : Finset (Fin 16))) hf

theorem pool_apply (mx : FVec Ideal S2x4096x16x128 .f32) (b : Fin 2) (c : Fin 128) (s : Fin 4096) :
    RefRun.pool mx (ix3 b c s)
      = if (Finset.univ : Finset (Fin 16)).fold max Cert.Spec.negInfW (fun k => mx (ix4 b s k c)) ≤ Cert.Spec.negBigW
        then Cert.Spec.zeroW
        else (Finset.univ : Finset (Fin 16)).fold max Cert.Spec.negInfW (fun k => mx (ix4 b s k c)) := by
  unfold RefRun.pool
  rw [transpose_ix3_021_apply, select_apply, cmpf_apply, maxSlots_apply, broadcastInDim_scalar_apply,
    broadcastInDim_scalar_apply, constant_apply, constant_apply, Ideal.cmpf_def]
  by_cases h : (Finset.univ : Finset (Fin 16)).fold max Cert.Spec.negInfW (fun k => mx (ix4 b s k c)) ≤ Cert.Spec.negBigW
  · have h1 : Ideal.cmp .ole ((Finset.univ : Finset (Fin 16)).fold max Cert.Spec.negInfW (fun k => mx (ix4 b s k c)))
        (Ideal.ofBits .f32 0xCE6E6B28#32) = 1#1 := by
      unfold Ideal.cmp; simp [h]
    rw [h1, select_one, if_pos h]
  · have h0 : Ideal.cmp .ole ((Finset.univ : Finset (Fin 16)).fold max Cert.Spec.negInfW (fun k => mx (ix4 b s k c)))
        (Ideal.ofBits .f32 0xCE6E6B28#32) = 0#1 := by
      unfold Ideal.cmp; simp [h]
    rw [h0, select_zero, if_neg h]

theorem pool_maskFill_eq (x : FVec Ideal S2x128x16384 .f32) (nbr mask : IVec S2x4096x16 32) :
    RefRun.pool (F := Ideal) (RefRun.maskFill (F := Ideal) mask (Cert.Spec.refGather 128 x nbr))
      = Cert.Spec.refPool x nbr mask := by
  funext i
  obtain ⟨b, c, s, rfl⟩ : ∃ (b : Fin 2) (c : Fin 128) (s : Fin 4096), i = ix3 b c s := ⟨i 0, i 1, i 2, eq_ix3 i⟩
  rw [pool_apply, Cert.Spec.refPool_at]
  simp only [maskFill_apply]

theorem outStage_eq (z xs : FVec Ideal S2x128x4096 .f32) :
    RefRun.outStage z xs = fun i => max (z i + xs i) Cert.Spec.zeroW := by
  funext i
  unfold RefRun.outStage
  rw [maximumf_apply, addf_apply, broadcastInDim_scalar_apply, constant_apply]

theorem pool_eq (x : FVec Ideal S2x128x16384 .f32) (nbr mask : IVec S2x4096x16 32)
    (hnbr : ∀ i, (nbr i).toNat < 16384) :
    RefRun.pool (RefRun.maskFill mask (RefRun.gatherX x (RefRun.nbrIdx nbr))) = Cert.Spec.refPool x nbr mask := by
  rw [gatherX_eq x nbr hnbr]
  exact pool_maskFill_eq x nbr mask

end Cert.ReferenceIdeal.RefValue

end
-- ==== Proof.RefValue.RefOut.lean ====
import proofs.«214766_g21345987461187_cont_8to1_720_22_alg».proof.Proof.RefRun.Stages
import proofs.«214766_g21345987461187_cont_8to1_720_22_alg».proof.Proof.Spec
import proofs.«214766_g21345987461187_cont_8to1_720_22_alg».proof.Proof.RefValue.Conv
import proofs.«214766_g21345987461187_cont_8to1_720_22_alg».proof.Proof.RefValue.Norm
import proofs.«214766_g21345987461187_cont_8to1_720_22_alg».proof.Proof.RefValue.PointConv
import proofs.«214766_g21345987461187_cont_8to1_720_22_alg».proof.Proof.RefValue.Pool

noncomputable section

namespace Cert.ReferenceIdeal.RefValue

open Idealize.ShloMosaic Cert.ReferenceIdeal Cert.ReferenceIdeal.Gen

theorem refOut_eq (a0 : FVec Ideal S2x128x16384 .f32) (a1 : FVec Ideal S2x3x16384 .f32) (a2 : FVec Ideal S2x3x4096 .f32)
    (a3 a4 : IVec S2x4096x16 32) (a5 : FVec Ideal S64x128 .f32) (a6 a7 a8 : FVec Ideal S64 .f32) (a9 : FVec Ideal S16x3 .f32)
    (a10 : FVec Ideal S16x64x64 .f32) (a11 a12 a13 : FVec Ideal S64 .f32) (a14 : FVec Ideal S128x64 .f32)
    (a15 a16 a17 : FVec Ideal S128 .f32)
    (hnbr : ∀ i, (a3 i).toNat < 16384) :
    RefRun.refOut (F := Ideal) a0 a1 a2 a3 a4 a5 a6 a7 a8 a9 a10 a11 a12 a13 a14 a15 a16 a17
      = Cert.Spec.refOut a0 a1 a2 a3 a4 a5 a6 a7 a8 a9 a10 a11 a12 a13 a14 a15 a16 a17 := by
  unfold RefRun.refOut Cert.Spec.refOut
  rw [conv0_eq, bn0_eq, relu0_eq, pointConv_eq _ _ _ _ _ _ _ _ hnbr, bn1_eq, relu1_eq, conv2_eq, bn2_eq,
    pool_eq a0 a3 a4 hnbr, outStage_eq]

end Cert.ReferenceIdeal.RefValue

end
-- ==== Proof.Math0.lean ====
import proofs.«214766_g21345987461187_cont_8to1_720_22_alg».proof.Proof.MathBase
import proofs.«214766_g21345987461187_cont_8to1_720_22_alg».proof.Proof.MathGather

noncomputable section

open scoped BigOperators

namespace Cert.Spec

open Idealize.ShloMosaic Idealize.ShloMosaic.ValueIdx Cert.Lib

variable (x : A3 2 128 16384) (pos : A3 2 3 16384) (sp : A3 2 3 4096) (nbr mask : I3 2 4096 16)
  (W0 : A2 64 128) (b0 g0 be0 : A1 64) (KP : A2 16 3) (Wk : A3 16 64 64) (bk : A1 64)

def kY0 : A3 2 16384 64 := y0 x W0 (row 64 b0)
def kA0 : A2 1 64 := bnA 64 (colSum 16384 64 (kY0 x W0 b0)) (colSumSq 16384 64 (kY0 x W0 b0)) cnt0W g0
def kC0 : A2 1 64 := bnC 64 (colSum 16384 64 (kY0 x W0 b0)) cnt0W (kA0 x W0 b0 g0) be0
def kGF : A4 2 4096 16 128 := unflat (gatherRows (flatRows (y0t x (post pos) W0 (row 64 b0))) (idxFlat nbr))
def kGX : A4 2 4096 16 128 := unflat (gatherRows (flatRows (xt x)) (idxFlat nbr))
def kY1 : A3 2 4096 64 :=
  pointConv (kGF x pos nbr W0 b0) (sptOf sp) (maskF mask) (kptOf KP) Wk (kA0 x W0 b0 g0) (kC0 x W0 b0 g0 be0) (row 64 bk)

def rY0 : A3 2 64 16384 := refConv 128 64 16384 x W0 b0
def rH0 : A3 2 64 16384 := refRelu 64 16384 (refBN 64 16384 cnt0W (rY0 x W0 b0) g0 be0)
def rY1 : A3 2 64 4096 := refPointConv (rH0 x W0 b0 g0 be0) pos sp nbr mask KP Wk bk

theorem rY0_eq (b : Fin 2) (n : Fin 16384) (o : Fin 64) : rY0 x W0 b0 (ix3 b o n) = kY0 x W0 b0 (ix3 b n o) := rfl

section Finite

variable (hx : ∀ i, IsReal (x i)) (hpos : ∀ i, IsReal (pos i)) (hsp : ∀ i, IsReal (sp i))
  (hW0 : ∀ i, IsReal (W0 i)) (hb0 : ∀ i, IsReal (b0 i)) (hg0 : ∀ i, IsReal (g0 i)) (hbe0 : ∀ i, IsReal (be0 i))
  (hKP : ∀ i, IsReal (KP i)) (hWk : ∀ i, IsReal (Wk i)) (hbk : ∀ i, IsReal (bk i))
  (hnbr : ∀ i, (nbr i).toNat < 16384)

include hx hW0 hb0 in
theorem kY0_real (i : (⟨3, ![2, 16384, 64]⟩ : Shape).Idx) : IsReal (kY0 x W0 b0 i) := by
  unfold kY0 y0
  exact real_add (real_sum _ fun c => real_mul (hx _) (hW0 _)) (hb0 _)

include hnbr in
theorem kGF_lo (b : Fin 2) (s : Fin 4096) (k : Fin 16) (c : Fin 64) :
    kGF x pos nbr W0 b0 (ix4 b s k (⟨c.val, by omega⟩ : Fin 128))
      = kY0 x W0 b0 (ix3 b (colOf (nbr (ix3 b s k))) c) := by
  unfold kGF
  rw [gather_at _ _ _ _ _ _ (hnbr _), y0t_at_lo]
  rfl

include hnbr in
theorem kGF_pos (b : Fin 2) (s : Fin 4096) (k : Fin 16) (t : Fin 3) :
    kGF x pos nbr W0 b0 (ix4 b s k (⟨64 + t.val, by omega⟩ : Fin 128))
      = pos (ix3 b t (colOf (nbr (ix3 b s k)))) := by
  unfold kGF
  rw [gather_at _ _ _ _ _ _ (hnbr _), y0t_at_pos, post_at]

include hnbr in
theorem kGX_at (b : Fin 2) (s : Fin 4096) (k : Fin 16) (c : Fin 128) :
    kGX x nbr (ix4 b s k c) = x (ix3 b c (colOf (nbr (ix3 b s k)))) := by
  unfold kGX
  rw [gather_at _ _ _ _ _ _ (hnbr _), xt_at]

theorem cnt0_card : ((2 : ℕ) : ℝ) * ((16384 : ℕ) : ℝ) = (32768 : ℝ) := by norm_num
theorem cnt1_card : ((2 : ℕ) : ℝ) * ((4096 : ℕ) : ℝ) = (8192 : ℝ) := by norm_num

include hx hW0 hb0 hg0 hbe0 hnbr in
theorem pcF_eq (b : Fin 2) (s : Fin 4096) (k : Fin 16) (c : Fin 64) :
    pcF (kGF x pos nbr W0 b0) (kA0 x W0 b0 g0) (kC0 x W0 b0 g0 be0) b s k c
      = refGather 64 (rH0 x W0 b0 g0 be0) nbr (ix4 b s k c) := by
  unfold pcF
  rw [kGF_lo x pos nbr W0 b0 hnbr, refGather_at]
  unfold rH0
  rw [refRelu_at]
  unfold kC0 kA0
  rw [cnt0W_eq]
  rw [bn_array 16384 64 32768 cnt0_card (by norm_num) (kY0 x W0 b0) (rY0 x W0 b0) (rY0_eq x W0 b0)
    (kY0_real x W0 b0 hx hW0 hb0) g0 be0 hg0 hbe0]

include hx hW0 hb0 hg0 hbe0 hnbr in
theorem pcF_real (b : Fin 2) (s : Fin 4096) (k : Fin 16) (c : Fin 64) :
    IsReal (pcF (kGF x pos nbr W0 b0) (kA0 x W0 b0 g0) (kC0 x W0 b0 g0 be0) b s k c) := by
  unfold pcF
  rw [kGF_lo x pos nbr W0 b0 hnbr]
  unfold kC0 kA0
  rw [cnt0W_eq]
  exact real_max (bn_array_real 16384 64 32768 cnt0_card (by norm_num) (kY0 x W0 b0) (rY0 x W0 b0) (rY0_eq x W0 b0)
    (kY0_real x W0 b0 hx hW0 hb0) g0 be0 hg0 hbe0 _ _ _) zeroW_real

include hnbr in
theorem pcRel_eq (b : Fin 2) (s : Fin 4096) (k : Fin 16) (t : Fin 3) :
    pcRel (kGF x pos nbr W0 b0) (sptOf sp) b s k t
      = refGather 3 pos nbr (ix4 b s k t) - sp (ix3 b t s) := by
  unfold pcRel
  rw [kGF_pos x pos nbr W0 b0 hnbr, sptOf_at, refGather_at]

include hnbr in
theorem pcW_eq (b : Fin 2) (s : Fin 4096) (k : Fin 16) (p : Fin 16) :
    pcW (kGF x pos nbr W0 b0) (sptOf sp) (maskF mask) (kptOf KP) b s k p
      = refW (refGather 3 pos nbr) sp mask KP b s k p := by
  unfold pcW refW
  simp only [pcRel_eq x pos sp nbr W0 b0 hnbr, kptOf_at, Fin.sum_univ_three]

include hpos hsp hKP hnbr in
theorem pcW_real (b : Fin 2) (s : Fin 4096) (k : Fin 16) (p : Fin 16) :
    IsReal (pcW (kGF x pos nbr W0 b0) (sptOf sp) (maskF mask) (kptOf KP) b s k p) := by
  have hrel : ∀ t : Fin 3, IsReal (pcRel (kGF x pos nbr W0 b0) (sptOf sp) b s k t - kptOf KP (ix2 t p)) := fun t => by
    rw [pcRel_eq x pos sp nbr W0 b0 hnbr, refGather_at, kptOf_at]
    exact real_sub (real_sub (hpos _) (hsp _)) (hKP _)
  obtain ⟨dx, hdx⟩ := hrel 0
  obtain ⟨dy, hdy⟩ := hrel 1
  obtain ⟨dz, hdz⟩ := hrel 2
  obtain ⟨τ, hτ, ht⟩ := tinyW_pos
  unfold pcW
  simp only [hdx, hdy, hdz, ht, ← EReal.coe_mul, ← EReal.coe_add]
  have hp : 0 < dx * dx + dy * dy + dz * dz + τ :=
    add_pos_of_nonneg_of_pos (add_nonneg (add_nonneg (mul_self_nonneg _) (mul_self_nonneg _)) (mul_self_nonneg _)) hτ
  rw [sqrt_coe_of_pos hp, div_oneW]
  exact real_mul (real_max (real_sub ⟨1, oneW_eq⟩ ⟨_, rfl⟩) zeroW_real) ⟨_, rfl⟩

include hx hW0 hb0 hg0 hbe0 hnbr in
theorem rY1_eq (b : Fin 2) (s : Fin 4096) (d : Fin 64) :
    rY1 x pos sp nbr mask W0 b0 g0 be0 KP Wk bk (ix3 b d s)
      = kY1 x pos sp nbr mask W0 b0 g0 be0 KP Wk bk (ix3 b s d) := by
  unfold rY1 kY1
  rw [refPointConv_at, pointConv_at, row_at, Finset.sum_comm]
  refine congrArg (· + bk (ix1 d)) ?_
  refine Finset.sum_congr rfl fun p _ => Finset.sum_congr rfl fun c _ => congrArg (· * Wk (ix3 p c d)) ?_
  refine Finset.sum_congr rfl fun k _ => ?_
  rw [pcW_eq x pos sp nbr mask W0 b0 KP hnbr, pcF_eq x pos nbr W0 b0 g0 be0 hx hW0 hb0 hg0 hbe0 hnbr, mul_comm]

include hx hpos hsp hW0 hb0 hg0 hbe0 hKP hWk hbk hnbr in
theorem kY1_real (i : (⟨3, ![2, 4096, 64]⟩ : Shape).Idx) :
    IsReal (kY1 x pos sp nbr mask W0 b0 g0 be0 KP Wk bk i) := by
  unfold kY1 pointConv
  exact real_add (real_sum _ fun p => real_sum _ fun c => real_mul
    (real_sum _ fun k => real_mul (pcW_real x pos sp nbr mask W0 b0 KP hpos hsp hKP hnbr _ _ _ _)
      (pcF_real x pos nbr W0 b0 g0 be0 hx hW0 hb0 hg0 hbe0 hnbr _ _ _ _)) (hWk _)) (hbk _)

end Finite

end Cert.Spec
-- ==== Proof.Math2.lean ====
import proofs.«214766_g21345987461187_cont_8to1_720_22_alg».proof.Proof.Math0

noncomputable section

open scoped BigOperators

namespace Cert.Spec

open Idealize.ShloMosaic Idealize.ShloMosaic.ValueIdx Cert.Lib

variable (x : A3 2 128 16384) (pos : A3 2 3 16384) (sp : A3 2 3 4096) (nbr mask : I3 2 4096 16)
  (W0 : A2 64 128) (b0 g0 be0 : A1 64) (KP : A2 16 3) (Wk : A3 16 64 64) (bk g1 be1 : A1 64)
  (W2 : A2 128 64) (b2 : A1 128)

local notation "Y1" => kY1 x pos sp nbr mask W0 b0 g0 be0 KP Wk bk
local notation "R1" => rY1 x pos sp nbr mask W0 b0 g0 be0 KP Wk bk

def kA1 : A2 1 64 := bnA 64 (colSum 4096 64 Y1) (colSumSq 4096 64 Y1) cnt1W g1
def kC1 : A2 1 64 := bnC 64 (colSum 4096 64 Y1) cnt1W (kA1 x pos sp nbr mask W0 b0 g0 be0 KP Wk bk g1) be1
def kY2 : A3 2 4096 128 :=
  conv2 Y1 (kA1 x pos sp nbr mask W0 b0 g0 be0 KP Wk bk g1) (kC1 x pos sp nbr mask W0 b0 g0 be0 KP Wk bk g1 be1) W2
    (row 128 b2)

def rH1 : A3 2 64 4096 := refRelu 64 4096 (refBN 64 4096 cnt1W R1 g1 be1)
def rY2 : A3 2 128 4096 := refConv 64 128 4096 (rH1 x pos sp nbr mask W0 b0 g0 be0 KP Wk bk g1 be1) W2 b2

section Finite

variable (hx : ∀ i, IsReal (x i)) (hpos : ∀ i, IsReal (pos i)) (hsp : ∀ i, IsReal (sp i))
  (hW0 : ∀ i, IsReal (W0 i)) (hb0 : ∀ i, IsReal (b0 i)) (hg0 : ∀ i, IsReal (g0 i)) (hbe0 : ∀ i, IsReal (be0 i))
  (hKP : ∀ i, IsReal (KP i)) (hWk : ∀ i, IsReal (Wk i)) (hbk : ∀ i, IsReal (bk i))
  (hg1 : ∀ i, IsReal (g1 i)) (hbe1 : ∀ i, IsReal (be1 i)) (hW2 : ∀ i, IsReal (W2 i)) (hb2 : ∀ i, IsReal (b2 i))
  (hnbr : ∀ i, (nbr i).toNat < 16384)

include hx hpos hsp hW0 hb0 hg0 hbe0 hKP hWk hbk hg1 hbe1 hnbr

theorem rH1_eq (b : Fin 2) (s : Fin 4096) (c : Fin 64) :
    rH1 x pos sp nbr mask W0 b0 g0 be0 KP Wk bk g1 be1 (ix3 b c s)
      = max (Y1 (ix3 b s c) * kA1 x pos sp nbr mask W0 b0 g0 be0 KP Wk bk g1 (ix2 0 c)
          + kC1 x pos sp nbr mask W0 b0 g0 be0 KP Wk bk g1 be1 (ix2 0 c)) zeroW := by
  unfold rH1
  rw [refRelu_at]
  unfold kC1 kA1
  rw [cnt1W_eq]
  rw [bn_array 4096 64 8192 cnt1_card (by norm_num) Y1 R1
    (rY1_eq x pos sp nbr mask W0 b0 g0 be0 KP Wk bk hx hW0 hb0 hg0 hbe0 hnbr)
    (kY1_real x pos sp nbr mask W0 b0 g0 be0 KP Wk bk hx hpos hsp hW0 hb0 hg0 hbe0 hKP hWk hbk hnbr) g1 be1 hg1 hbe1]

theorem rH1_real (b : Fin 2) (s : Fin 4096) (c : Fin 64) :
    IsReal (max (Y1 (ix3 b s c) * kA1 x pos sp nbr mask W0 b0 g0 be0 KP Wk bk g1 (ix2 0 c)
          + kC1 x pos sp nbr mask W0 b0 g0 be0 KP Wk bk g1 be1 (ix2 0 c)) zeroW) := by
  unfold kC1 kA1
  rw [cnt1W_eq]
  exact real_max (bn_array_real 4096 64 8192 cnt1_card (by norm_num) Y1 R1
    (rY1_eq x pos sp nbr mask W0 b0 g0 be0 KP Wk bk hx hW0 hb0 hg0 hbe0 hnbr)
    (kY1_real x pos sp nbr mask W0 b0 g0 be0 KP Wk bk hx hpos hsp hW0 hb0 hg0 hbe0 hKP hWk hbk hnbr) g1 be1 hg1 hbe1
    _ _ _) zeroW_real

theorem rY2_eq (b : Fin 2) (s : Fin 4096) (o : Fin 128) :
    rY2 x pos sp nbr mask W0 b0 g0 be0 KP Wk bk g1 be1 W2 b2 (ix3 b o s)
      = kY2 x pos sp nbr mask W0 b0 g0 be0 KP Wk bk g1 be1 W2 b2 (ix3 b s o) := by
  unfold rY2 kY2
  rw [refConv_at, conv2_at, row_at]
  refine congrArg (· + b2 (ix1 o)) (Finset.sum_congr rfl fun c _ => congrArg (· * W2 (ix2 o c)) ?_)
  exact rH1_eq x pos sp nbr mask W0 b0 g0 be0 KP Wk bk g1 be1 hx hpos hsp hW0 hb0 hg0 hbe0 hKP hWk hbk hg1 hbe1 hnbr b s c

include hW2 hb2 in
theorem kY2_real (i : (⟨3, ![2, 4096, 128]⟩ : Shape).Idx) :
    IsReal (kY2 x pos sp nbr mask W0 b0 g0 be0 KP Wk bk g1 be1 W2 b2 i) := by
  unfold kY2 conv2
  exact real_add (real_sum _ fun c => real_mul
    (rH1_real x pos sp nbr mask W0 b0 g0 be0 KP Wk bk g1 be1 hx hpos hsp hW0 hb0 hg0 hbe0 hKP hWk hbk hg1 hbe1 hnbr _ _ _)
    (hW2 _)) (hb2 _)

end Finite

end Cert.Spec
-- ==== Proof.Math3.lean ====
import proofs.«214766_g21345987461187_cont_8to1_720_22_alg».proof.Proof.Math2

noncomputable section

open scoped BigOperators

namespace Cert.Spec

open Idealize.ShloMosaic Idealize.ShloMosaic.ValueIdx Cert.Lib

variable (x : A3 2 128 16384) (pos : A3 2 3 16384) (sp : A3 2 3 4096) (nbr mask : I3 2 4096 16)
  (W0 : A2 64 128) (b0 g0 be0 : A1 64) (KP : A2 16 3) (Wk : A3 16 64 64) (bk g1 be1 : A1 64)
  (W2 : A2 128 64) (b2 g2 be2 : A1 128)

local notation "Y2" => kY2 x pos sp nbr mask W0 b0 g0 be0 KP Wk bk g1 be1 W2 b2
local notation "R2" => rY2 x pos sp nbr mask W0 b0 g0 be0 KP Wk bk g1 be1 W2 b2

def kA2 : A2 1 128 := bnA 128 (colSum 4096 128 Y2) (colSumSq 4096 128 Y2) cnt1W g2
def kC2 : A2 1 128 :=
  bnC 128 (colSum 4096 128 Y2) cnt1W (kA2 x pos sp nbr mask W0 b0 g0 be0 KP Wk bk g1 be1 W2 b2 g2) be2

theorem kerOut_unfold :
    kerOut x pos sp nbr mask W0 b0 g0 be0 KP Wk bk g1 be1 W2 b2 g2 be2
      = finalOut Y2 (pool (kGX x nbr) (maskF mask)) (kA2 x pos sp nbr mask W0 b0 g0 be0 KP Wk bk g1 be1 W2 b2 g2)
          (kC2 x pos sp nbr mask W0 b0 g0 be0 KP Wk bk g1 be1 W2 b2 g2 be2) := rfl

theorem refOut_unfold :
    refOut x pos sp nbr mask W0 b0 g0 be0 KP Wk bk g1 be1 W2 b2 g2 be2
      = fun i => max (refBN 128 4096 cnt1W R2 g2 be2 i + refPool x nbr mask i) zeroW := rfl

theorem zeroW_lt_maskF (i : (⟨3, ![2, 4096, 16]⟩ : Shape).Idx) : zeroW < maskF mask i ↔ 0 < (mask i).toInt := by
  rw [maskF_at, zeroW_eq, ← EReal.coe_zero, EReal.coe_lt_coe_iff]
  exact Int.cast_pos

theorem pool_eq (hnbr : ∀ i, (nbr i).toNat < 16384) (b : Fin 2) (s : Fin 4096) (c : Fin 128) :
    pool (kGX x nbr) (maskF mask) (ix3 b s c) = refPool x nbr mask (ix3 b c s) := by
  have hf : (fun k : Fin 16 => if zeroW < maskF mask (ix3 b s k) then kGX x nbr (ix4 b s k c) else negBigW)
      = (fun k : Fin 16 => if 0 < (mask (ix3 b s k)).toInt then refGather 128 x nbr (ix4 b s k c) else negBigW) := by
    funext k
    rw [kGX_at x nbr hnbr, refGather_at]
    by_cases h : 0 < (mask (ix3 b s k)).toInt
    · rw [if_pos h, if_pos ((zeroW_lt_maskF mask _).mpr h)]
    · rw [if_neg h, if_neg (fun h' => h ((zeroW_lt_maskF mask _).mp h'))]
  rw [pool_at, refPool_at, hf]

theorem kerOut_eq_refOut
    (hx : ∀ i, IsReal (x i)) (hpos : ∀ i, IsReal (pos i)) (hsp : ∀ i, IsReal (sp i))
    (hW0 : ∀ i, IsReal (W0 i)) (hb0 : ∀ i, IsReal (b0 i)) (hg0 : ∀ i, IsReal (g0 i)) (hbe0 : ∀ i, IsReal (be0 i))
    (hKP : ∀ i, IsReal (KP i)) (hWk : ∀ i, IsReal (Wk i)) (hbk : ∀ i, IsReal (bk i))
    (hg1 : ∀ i, IsReal (g1 i)) (hbe1 : ∀ i, IsReal (be1 i)) (hW2 : ∀ i, IsReal (W2 i)) (hb2 : ∀ i, IsReal (b2 i))
    (hg2 : ∀ i, IsReal (g2 i)) (hbe2 : ∀ i, IsReal (be2 i))
    (hnbr : ∀ i, (nbr i).toNat < 16384) :
    kerOut x pos sp nbr mask W0 b0 g0 be0 KP Wk bk g1 be1 W2 b2 g2 be2
      = refOut x pos sp nbr mask W0 b0 g0 be0 KP Wk bk g1 be1 W2 b2 g2 be2 := by
  rw [kerOut_unfold, refOut_unfold]
  funext i
  obtain ⟨b, o, s, rfl⟩ : ∃ (b : Fin 2) (o : Fin 128) (s : Fin 4096), i = ix3 b o s := ⟨i 0, i 1, i 2, eq_ix3 i⟩
  show finalOut _ _ _ _ (ix3 b o s) = max (refBN 128 4096 cnt1W R2 g2 be2 (ix3 b o s) + refPool x nbr mask (ix3 b o s)) zeroW
  rw [finalOut_at, pool_eq x nbr mask hnbr]
  unfold kC2 kA2
  rw [cnt1W_eq]
  rw [bn_array 4096 128 8192 cnt1_card (by norm_num) Y2 R2
    (rY2_eq x pos sp nbr mask W0 b0 g0 be0 KP Wk bk g1 be1 W2 b2 hx hpos hsp hW0 hb0 hg0 hbe0 hKP hWk hbk hg1 hbe1 hnbr)
    (kY2_real x pos sp nbr mask W0 b0 g0 be0 KP Wk bk g1 be1 W2 b2 hx hpos hsp hW0 hb0 hg0 hbe0 hKP hWk hbk hg1 hbe1
      hW2 hb2 hnbr) g2 be2 hg2 hbe2]

end Cert.Spec
-- ==== Proof.PreMath.lean ====
import proofs.«214766_g21345987461187_cont_8to1_720_22_alg».proof.Proof.PreFacts
import proofs.«214766_g21345987461187_cont_8to1_720_22_alg».proof.Proof.Math3

noncomputable section

namespace Cert.KernelIdeal.PreFacts

open Idealize.ShloMosaic Idealize.ShloMosaic.ValueIdx Cert.Pre_input_domain

variable [Facts]

theorem kerOut_eq_refOut_of_pre (a0 : FVec Ideal S2x128x16384 .f32) (a1 : FVec Ideal S2x3x16384 .f32) (a2 : FVec Ideal S2x3x4096 .f32)
    (a3 a4 : IVec S2x4096x16 32) (a5 : FVec Ideal S64x128 .f32) (a6 a7 a8 : FVec Ideal S64 .f32) (a9 : FVec Ideal S16x3 .f32)
    (a10 : FVec Ideal S16x64x64 .f32) (a11 a12 a13 : FVec Ideal S64 .f32) (a14 : FVec Ideal S128x64 .f32)
    (a15 a16 a17 : FVec Ideal S128 .f32)
    (h : fn (F := Ideal) a0 a1 a2 a3 a4 a5 a6 a7 a8 a9 a10 a11 a12 a13 a14 a15 a16 a17 = fun _ => 1#1) :
    Cert.Spec.kerOut a0 a1 a2 a3 a4 a5 a6 a7 a8 a9 a10 a11 a12 a13 a14 a15 a16 a17 = Cert.Spec.refOut a0 a1 a2 a3 a4 a5 a6 a7 a8 a9 a10 a11 a12 a13 a14 a15 a16 a17 := by
  obtain ⟨h0, h1, h2, h5, h6, h7, h8, h9, h10, h11, h12, h13, h14, h15, h16, h17⟩ := finite_of_pre a0 a1 a2 a3 a4 a5 a6 a7 a8 a9 a10 a11 a12 a13 a14 a15 a16 a17 h
  exact Cert.Spec.kerOut_eq_refOut a0 a1 a2 a3 a4 a5 a6 a7 a8 a9 a10 a11 a12 a13 a14 a15 a16 a17 h0 h1 h2 h5 h6 h7 h8 h9 h10 h11 h12 h13 h14 h15 h16 h17
    (nbr_toNat a0 a1 a2 a3 a4 a5 a6 a7 a8 a9 a10 a11 a12 a13 a14 a15 a16 a17 h)

end Cert.KernelIdeal.PreFacts
-- ==== Proof.Claims.lean ====
import proofs.«214766_g21345987461187_cont_8to1_720_22_alg».proof.Defs
import proofs.«214766_g21345987461187_cont_8to1_720_22_alg».proof.Proof.Launch.Frame
import proofs.«214766_g21345987461187_cont_8to1_720_22_alg».proof.Proof.RefRun
import proofs.«214766_g21345987461187_cont_8to1_720_22_alg».proof.Proof.RefValue.RefOut
import proofs.«214766_g21345987461187_cont_8to1_720_22_alg».proof.Proof.PreMath

noncomputable section

namespace Cert.Proof.Claims

open Idealize.ShloMosaic Idealize.SL.Sem

variable [hKernelIdeal : Cert.KernelIdeal.Facts] [hReferenceIdeal : Cert.ReferenceIdeal.Facts] [hPre_input_domain : Cert.Pre_input_domain.Facts]

theorem frame_ri : Cert.frame_ReferenceIdeal := fun m g _ =>
  (θ_run _ _ _).mono (fun _ h c => (h c).2) (Cert.ReferenceIdeal.RefRun.run (F := Ideal) m g)

theorem frame_ki : Cert.frame_KernelIdeal := Cert.KernelIdeal.Launch.frameAt (F := Ideal)

theorem algebraic_of
    (hker : ∀ (m : (ℓ : Loc Cert.KernelIdeal.nD Cert.KernelIdeal.τ Cert.KernelIdeal.sig) → Buf (Elt Ideal) ℓ), Cert.Pre_KernelIdeal m →
      ∀ c : Dev Cert.KernelIdeal.nD,
        Cert.KernelIdeal.Launch.W13 (F := Ideal) m c (Proc.devRef .tc Cert.KernelIdeal.main_v71)
          = Cert.Spec.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) :
    Cert.algebraic_KernelIdeal_ReferenceIdeal := by
  intro m g m' g' hpre hagree
  refine ⟨fun c => Cert.KernelIdeal.Launch.W13 (F := Ideal) m c (Proc.devRef .tc Cert.KernelIdeal.main_v71),
    fun c => m ((c.tc : Thread Cert.KernelIdeal.nD Cert.KernelIdeal.τ).loc Cert.KernelIdeal.main_arg2), fun c => m ((c.tc : Thread Cert.KernelIdeal.nD Cert.KernelIdeal.τ).loc Cert.KernelIdeal.main_arg3), fun c => m ((c.tc : Thread Cert.KernelIdeal.nD Cert.KernelIdeal.τ).loc Cert.KernelIdeal.main_arg4), ?_, ?_⟩
  · exact (θ_run _ _ _).mono
      (fun _ h c => ⟨(h c).1, (h c).2.2.2.1, (h c).2.2.2.2.1, (h c).2.2.2.2.2.1, (h c).2⟩)
      (Cert.KernelIdeal.Launch.run_vals (F := Ideal) m g hpre)
  · refine (θ_run _ _ _).mono (fun _ h c => ?_) (Cert.ReferenceIdeal.RefRun.run (F := Ideal) m' g')
    obtain ⟨e0, e1, e2, e3, e4, e5, e6, e7, e8, e9, e10, e11, e12, e13, e14, e15, e16, e17⟩ := hagree c
    have hp := hpre c
    refine ⟨(h c).1.trans ?_, (h c).2.2.2.1.trans e2, (h c).2.2.2.2.1.trans e3, (h c).2.2.2.2.2.1.trans e4, (h c).2⟩
    rw [e0, e1, e2, e3, e4, e5, e6, e7, e8, e9, e10, e11, e12, e13, e14, e15, e16, e17]
    refine (Cert.ReferenceIdeal.RefValue.refOut_eq _ _ _ _ _ _ _ _ _ _ _ _ _ _ _ _ _ _
      (Cert.KernelIdeal.PreFacts.nbr_toNat _ _ _ _ _ _ _ _ _ _ _ _ _ _ _ _ _ _ hp)).trans ?_
    exact (Cert.KernelIdeal.PreFacts.kerOut_eq_refOut_of_pre _ _ _ _ _ _ _ _ _ _ _ _ _ _ _ _ _ _ hp).symm.trans (hker m hpre c).symm

end Cert.Proof.Claims

end
-- ==== Proof.R5.Out.lean ====
import proofs.«214766_g21345987461187_cont_8to1_720_22_alg».proof.Proof.Gen.KernelIdeal.Skeleton
import Idealize.ShloMosaic.Lib.ValueIdx

noncomputable section

namespace Cert.KernelIdeal.R5

open Idealize.ShloMosaic Idealize.ShloMosaic.ValueIdx
open Cert.KernelIdeal Cert.KernelIdeal.Gen

variable {F : FTy → Type} [FloatOps F]

def rowsBlk (Y : Vec F S2x4096x128 .f32) (b : Fin 2) (q : Fin 8) : Vec F S1x512x128 .f32 := fun x =>
  Y (ix3 b ⟨512 * q.val + (x 1).val, by have h : (x 1).val < 512 := (x 1).isLt; have := q.isLt; omega⟩ (x 2))

def blkOf (s : Fin 4096) : Fin 8 := ⟨s.val / 512, by have := s.isLt; omega⟩
def inBlk (s : Fin 4096) : Fin 512 := ⟨s.val % 512, Nat.mod_lt _ (by decide)⟩

def outArr (Y X : Vec F S2x4096x128 .f32) (A C : Vec F S1x128 .f32) : Vec F S2x128x4096 .f32 := fun i =>
  k5_pay1 (rowsBlk Y (i 0) (blkOf (i 2))) A C (rowsBlk X (i 0) (blkOf (i 2))) (ix3 0 (i 1) (inBlk (i 2)))

theorem pay_eq_outArr (Y X : Vec F S2x4096x128 .f32) (A C : Vec F S1x128 .f32)
    (y x : Vec F S1x512x128 .f32) (a b : Vec F S1x128 .f32) (i : S2x128x4096.Idx) (j : S1x128x512.Idx)
    (hy : y = rowsBlk Y (i 0) (blkOf (i 2))) (hx : x = rowsBlk X (i 0) (blkOf (i 2))) (ha : a = A) (hb : b = C)
    (h1 : (j 1).val = (i 1).val) (h2 : (j 2).val = (i 2).val % 512) :
    k5_pay1 y a b x j = outArr Y X A C i := by
  subst hy hx ha hb
  have hj : j = ix3 0 (i 1) (inBlk (i 2)) := by
    funext d
    match d with
    | ⟨0, _⟩ => exact Fin.ext (by have h : (j 0).val < 1 := (j 0).isLt; show (j 0).val = 0; omega)
    | ⟨1, _⟩ => exact Fin.ext h1
    | ⟨2, _⟩ => exact Fin.ext h2
  exact congrArg (k5_pay1 (rowsBlk Y (i 0) (blkOf (i 2))) a b (rowsBlk X (i 0) (blkOf (i 2)))) hj

end Cert.KernelIdeal.R5

end
-- ==== Proof.R5.Value.lean ====
import proofs.«214766_g21345987461187_cont_8to1_720_22_alg».proof.Proof.R5.Data
import proofs.«214766_g21345987461187_cont_8to1_720_22_alg».proof.Proof.R5.Out
import Idealize.ShloMosaic.Lib.Pipeline.Value

set_option maxRecDepth 16384

noncomputable section

namespace Cert.KernelIdeal.R5

open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window)
open Idealize.ShloMosaic.ValueIdx
open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

theorem idx_facts : ∀ t : Fin cfg5.N,
    win5_0.index t (0 : Fin 3) = win5_4.index t (0 : Fin 3) ∧ win5_0.index t (1 : Fin 3) = win5_4.index t (2 : Fin 3)
    ∧ win5_0.index t (2 : Fin 3) = 0
    ∧ win5_1.index t (0 : Fin 3) = win5_4.index t (0 : Fin 3) ∧ win5_1.index t (1 : Fin 3) = win5_4.index t (2 : Fin 3)
    ∧ win5_1.index t (2 : Fin 3) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 3) ≤ 1 ∧ win5_4.index t (1 : Fin 3) = 0 ∧ win5_4.index t (2 : Fin 3) ≤ 7 :=
  (by decide +kernel : ∀ t : Fin grid5.N, _)

theorem idx_onto : ∀ (q0 : Fin 2) (q2 : Fin 8), ∃ t : Fin cfg5.N, win5_4.index t = ![q0.val, 0, q2.val] :=
  (by decide +kernel : ∀ (q0 : Fin 2) (q2 : Fin 8), ∃ t : Fin grid5.N, win5_4.index t = ![q0.val, 0, q2.val])

theorem mem_blk (t : Fin cfg5.N) (i : S2x128x4096.Idx) :
    i ∈ ((cfg5.win 4).blk t).view.set ↔ ∀ a : Fin 3, win5_4.index t a * S1x128x512.size a ≤ (i a).val
      ∧ (i a).val < win5_4.index t a * S1x128x512.size a + S1x128x512.size a := by
  show i ∈ ((View.whole main_v71).slice (win5_4.rect t)).set ↔ _
  rw [View.set_slice_whole, Rect.mem_set_unit]
  exact Iff.rfl

theorem cover (i : S2x128x4096.Idx) :
    ∃ t : Fin cfg5.N, (cfg5.win 4).flush t = true ∧ i ∈ ((cfg5.win 4).blk t).view.set := by
  have hi0 : (i 0).val < 2 := (i 0).isLt
  have hi1 : (i 1).val < 128 := (i 1).isLt
  have hi2 : (i 2).val < 4096 := (i 2).isLt
  obtain ⟨t, ht⟩ := idx_onto ⟨(i 0).val, hi0⟩ ⟨(i 2).val / 512, by omega⟩
  have q0 : win5_4.index t (0 : Fin 3) = (i 0).val := congrFun ht 0
  have q1 : win5_4.index t (1 : Fin 3) = 0 := congrFun ht 1
  have q2 : win5_4.index t (2 : Fin 3) = (i 2).val / 512 := congrFun ht 2
  refine ⟨t, flush5_4 t, ?_⟩
  rw [mem_blk]
  intro a
  match a with
  | ⟨0, _⟩ => show win5_4.index t (0 : Fin 3) * 1 ≤ (i 0).val ∧ (i 0).val < win5_4.index t (0 : Fin 3) * 1 + 1; omega
  | ⟨1, _⟩ => show win5_4.index t (1 : Fin 3) * 128 ≤ (i 1).val ∧ (i 1).val < win5_4.index t (1 : Fin 3) * 128 + 128; omega
  | ⟨2, _⟩ => show win5_4.index t (2 : Fin 3) * 512 ≤ (i 2).val ∧ (i 2).val < win5_4.index t (2 : Fin 3) * 512 + 512; omega

section Region

variable {Ix : Type} [DecidableEq Ix] {Name : Type} [DecidableEq Name] {U : Type} [URA U] {Lvl : Type} [Preorder Lvl]
variable (V : (c : Dev nD) → (b : Ref sig .tc) → Buf (Elt F) ((c : Thread nD τ).loc b))
variable (Rc : Set (SemLoc sig × Ix))
variable (Ψ : Dev nD → sProp (MT nD τ sig Ix (Elt F) Name U Lvl))

theorem flushed_eq (c : Dev nD) (t : Fin cfg5.N) :
    (dat V Rc Ψ c).flushed 4 t = ((cfg5.win 4).blk t).view.read (Elt F)
      (outArr (V c main_v54_0) (V c main_v54_1) (V c main_v69) (V c main_v70)) := by
  show (cfg5.win 4).cut (grid5.coords t) ((dat V Rc Ψ c).after 4 t) = _
  rw [after_4]
  unfold outBlk
  rw [View.canon_unit_zero hz3]
  simp only [View.ld_unit_zero (S := S1x512x128) hz3, View.ld_unit_zero (S := S1x128) hz2]
  obtain ⟨e00, e01, e02, e10, e11, e12, e20, e21, e30, e31, r0, r1, r2⟩ := idx_facts t
  funext j
  have hj0 : (j 0).val < 1 := (j 0).isLt
  have hj1 : (j 1).val < 128 := (j 1).isLt
  have hj2 : (j 2).val < 512 := (j 2).isLt
  refine pay_eq_outArr (V c main_v54_0) (V c main_v54_1) (V c main_v69) (V c main_v70)
    (iblk V c 0 t) (iblk V c 1 t) (iblk V c 2 t) (iblk V c 3 t) (((cfg5.win 4).blk t).view.emb j) j ?_ ?_ ?_ ?_ ?_ ?_
  · funext x
    have hx0 : (x 0).val < 1 := (x 0).isLt
    have hx1 : (x 1).val < 512 := (x 1).isLt
    show V c main_v54_0 (((cfg5.win 0).blk t).view.emb x) = V c main_v54_0 _
    refine congrArg (V c main_v54_0) (funext fun a => Fin.ext ?_)
    match a with
    | ⟨0, _⟩ => show win5_0.index t (0 : Fin 3) * 1 + 1 * (x 0).val = win5_4.index t (0 : Fin 3) * 1 + 1 * (j 0).val; omega
    | ⟨1, _⟩ => show win5_0.index t (1 : Fin 3) * 512 + 1 * (x 1).val = 512 * ((win5_4.index t (2 : Fin 3) * 512 + 1 * (j 2).val) / 512) + (x 1).val; omega
    | ⟨2, _⟩ => show win5_0.index t (2 : Fin 3) * 128 + 1 * (x 2).val = (x 2).val; omega
  · funext x
    have hx0 : (x 0).val < 1 := (x 0).isLt
    have hx1 : (x 1).val < 512 := (x 1).isLt
    show V c main_v54_1 (((cfg5.win 1).blk t).view.emb x) = V c main_v54_1 _
    refine congrArg (V c main_v54_1) (funext fun a => Fin.ext ?_)
    match a with
    | ⟨0, _⟩ => show win5_1.index t (0 : Fin 3) * 1 + 1 * (x 0).val = win5_4.index t (0 : Fin 3) * 1 + 1 * (j 0).val; omega
    | ⟨1, _⟩ => show win5_1.index t (1 : Fin 3) * 512 + 1 * (x 1).val = 512 * ((win5_4.index t (2 : Fin 3) * 512 + 1 * (j 2).val) / 512) + (x 1).val; omega
    | ⟨2, _⟩ => show win5_1.index t (2 : Fin 3) * 128 + 1 * (x 2).val = (x 2).val; omega
  · funext x
    show V c main_v69 (((cfg5.win 2).blk t).view.emb x) = V c main_v69 x
    refine congrArg (V c main_v69) (funext fun a => Fin.ext ?_)
    match a with
    | ⟨0, _⟩ => show win5_2.index t (0 : Fin 2) * 1 + 1 * (x 0).val = (x 0).val; omega
    | ⟨1, _⟩ => show win5_2.index t (1 : Fin 2) * 128 + 1 * (x 1).val = (x 1).val; omega
  · funext x
    show V c main_v70 (((cfg5.win 3).blk t).view.emb x) = V c main_v70 x
    refine congrArg (V c main_v70) (funext fun a => Fin.ext ?_)
    match a with
    | ⟨0, _⟩ => show win5_3.index t (0 : Fin 2) * 1 + 1 * (x 0).val = (x 0).val; omega
    | ⟨1, _⟩ => show win5_3.index t (1 : Fin 2) * 128 + 1 * (x 1).val = (x 1).val; omega
  · show (j 1).val = win5_4.index t (1 : Fin 3) * 128 + 1 * (j 1).val; omega
  · show (j 2).val = (win5_4.index t (2 : Fin 3) * 512 + 1 * (j 2).val) % 512; omega

theorem arrAt_4 (c : Dev nD) :
    (dat V Rc Ψ c).arrAt 4 cfg5.N = outArr (V c main_v54_0) (V c main_v54_1) (V c main_v69) (V c main_v70) :=
  (dat V Rc Ψ c).arrAt_eq_of_cover 4 _ (fun t _ => flushed_eq V Rc Ψ c t) cover

end Region

end Cert.KernelIdeal.R5

end
-- ==== Proof.R5.Final.lean ====
import proofs.«214766_g21345987461187_cont_8to1_720_22_alg».proof.Proof.R5.Out
import proofs.«214766_g21345987461187_cont_8to1_720_22_alg».proof.Proof.Spec
import Idealize.ShloMosaic.Lib.Pipeline.Value
import Idealize.ShloMosaic.Lib.ValueIdx

set_option maxRecDepth 16384

noncomputable section

namespace Cert.KernelIdeal.R5

open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window)
open Idealize.ShloMosaic.ValueIdx
open Cert.KernelIdeal Cert.KernelIdeal.Gen

variable {F : FTy → Type} [FloatOps F]

theorem pay_apply (y x : Vec Ideal S1x512x128 .f32) (a b : Vec Ideal S1x128 .f32) (o : Fin 128) (r : Fin 512) :
    k5_pay1 y a b x (ix3 0 o r)
      = max ((y (ix3 0 r o) * a (ix2 0 o) + b (ix2 0 o)) + x (ix3 0 r o)) Cert.Spec.zeroW := by
  unfold k5_pay1
  have hT : (S128x512.rowMajor (ix2 o r)).val = (S1x128x512.rowMajor (ix3 0 o r)).val := by
    rw [Shape.rowMajor_val_two, Shape.rowMajor_val_three]
    show o.val * 512 + r.val = ((0 : Nat) * 128 + o.val) * 512 + r.val
    omega
  have hI : (S1x512x128.rowMajor (ix3 0 r o)).val = (S512x128.rowMajor (ix2 r o)).val := by
    rw [Shape.rowMajor_val_two, Shape.rowMajor_val_three]
    show ((0 : Nat) * 512 + r.val) * 128 + o.val = r.val * 128 + o.val
    omega
  have hR : (S1x128.rowMajor (ix2 0 o)).val = (S1x128.rowMajor (ix2 0 o)).val := rfl
  have hB : ∀ d : Fin S1x128.rank, ((ix2 (0 : Fin 1) o : S1x128.Idx) d).val
      = if S1x128.size d = 1 then 0 else ((ix2 r o : S512x128.Idx) ⟨d.val + (S512x128.rank - S1x128.rank), by have := d.isLt; show d.val + (2 - 2) < 2; omega⟩).val := fun d => by
    match d with
    | ⟨0, _⟩ => rfl
    | ⟨1, _⟩ => rfl
  have hP : ∀ d : Fin S128x512.rank, ((ix2 r o : S512x128.Idx) ([1, 0] : List (Fin S512x128.rank))[d.cast transposes_S512x128_p1_0_S128x512.2.1]).val
      = ((ix2 o r : S128x512.Idx) d).val := fun d => by
    match d with
    | ⟨0, _⟩ => rfl
    | ⟨1, _⟩ => rfl
  show shapeCast S1x128x512 _ shapeCasts_S128x512_S1x128x512 (ix3 0 o r) = _
  rw [shapeCast_apply _ shapeCasts_S128x512_S1x128x512 (ix3 0 o r) (ix2 o r) hT,
    transpose_apply _ _ transposes_S512x128_p1_0_S128x512 (ix2 o r) (ix2 r o) hP]
  rw [maximumf_apply, addf_apply, addf_apply, mulf_apply, broadcast_apply,
    shapeCast_apply y shapeCasts_S1x512x128_S512x128 (ix2 r o) (ix3 0 r o) hI,
    shapeCast_apply x shapeCasts_S1x512x128_S512x128 (ix2 r o) (ix3 0 r o) hI,
    broadcastTo_apply _ broadcasts_S1x128_S512x128 (ix2 r o) (ix2 0 o) hB,
    broadcastTo_apply _ broadcasts_S1x128_S512x128 (ix2 r o) (ix2 0 o) hB,
    shapeCast_apply a shapeCasts_S1x128_S1x128 (ix2 0 o) (ix2 0 o) hR,
    shapeCast_apply b shapeCasts_S1x128_S1x128 (ix2 0 o) (ix2 0 o) hR]
  rfl

theorem rowsBlk_at (Z : Vec Ideal S2x4096x128 .f32) (b : Fin 2) (s : Fin 4096) (o : Fin 128) :
    rowsBlk Z b (blkOf s) (ix3 0 (inBlk s) o) = Z (ix3 b s o) := by
  unfold rowsBlk
  refine congrArg Z (funext fun d => ?_)
  match d with
  | ⟨0, _⟩ => rfl
  | ⟨1, _⟩ => exact Fin.ext (by show 512 * (s.val / 512) + s.val % 512 = s.val; omega)
  | ⟨2, _⟩ => rfl

theorem outArr_eq_finalOut (Y X : Vec Ideal S2x4096x128 .f32) (A C : Vec Ideal S1x128 .f32) :
    outArr Y X A C = Cert.Spec.finalOut Y X A C := by
  funext i
  unfold outArr
  refine (pay_apply _ _ _ _ (i 1) (inBlk (i 2))).trans ?_
  rw [rowsBlk_at Y (i 0) (i 2) (i 1), rowsBlk_at X (i 0) (i 2) (i 1)]
  rfl

end Cert.KernelIdeal.R5

end
-- ==== Proof.Launch.KerValue.lean ====
import proofs.«214766_g21345987461187_cont_8to1_720_22_alg».proof.Proof.Launch.Kept
import proofs.«214766_g21345987461187_cont_8to1_720_22_alg».proof.Proof.R5.Value
import proofs.«214766_g21345987461187_cont_8to1_720_22_alg».proof.Proof.R5.Final
import proofs.«214766_g21345987461187_cont_8to1_720_22_alg».proof.Proof.Math3

set_option maxRecDepth 16384

noncomputable section

namespace Cert.KernelIdeal.Launch

open Cert.KernelIdeal Cert.KernelIdeal.Gen Cert.KernelIdeal.Sc Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]

theorem gatherRows_eq (T : Cert.Spec.A2 32768 128) (I : Cert.Spec.I2 1024 128) :
    Sc.gatherRows (F := Ideal) T I = Cert.Spec.gatherRows T I := by
  have e : ∀ {n k : ℕ} (a : Fin n) (b : Fin k), Sc.ix2 a b = ValueIdx.ix2 a b := fun a b => funext fun t => by
    match t with
    | ⟨0, _⟩ => rfl
    | ⟨1, _⟩ => rfl
  funext x
  unfold Sc.gatherRows Cert.Spec.gatherRows Cert.Spec.rowOf
  simp only [e]
  exact congrArg T (e _ _)

section Args
variable (m : (ℓ : Loc nD τ sig) → Buf (Elt F) ℓ) (d : Dev nD) (r : Ref sig .tc)

theorem upto1 (h0 : r ∉ writes0) : W1 m d (Proc.devRef .tc r) = m ((d : Thread nD τ).loc r) := keep1 m d r h0
theorem upto2 (h0 : r ∉ writes0) (hr0 : ∀ w, Pipeline.arrRef spec0 w = r → (cfg0.win w).isOut = false) :
    W2 m d (Proc.devRef .tc r) = m ((d : Thread nD τ).loc r) := (keep2 m d r hr0).trans (upto1 m d r h0)
theorem upto3 (h0 : r ∉ writes0) (hr0 : ∀ w, Pipeline.arrRef spec0 w = r → (cfg0.win w).isOut = false) (h1 : r ∉ writes1) :
    W3 m d (Proc.devRef .tc r) = m ((d : Thread nD τ).loc r) := (keep3 m d r h1).trans (upto2 m d r h0 hr0)
theorem upto6 (h0 : r ∉ writes0) (hr0 : ∀ w, Pipeline.arrRef spec0 w = r → (cfg0.win w).isOut = false) (h1 : r ∉ writes1)
    (hg1 : r ≠ main_v26) (h2 : r ∉ writes2) (hg2 : r ≠ main_v28) :
    W6 m d (Proc.devRef .tc r) = m ((d : Thread nD τ).loc r) :=
  (keep6 m d r hg2).trans ((keep5 m d r h2).trans ((keep4 m d r hg1).trans (upto3 m d r h0 hr0 h1)))
theorem upto7 (h0 : r ∉ writes0) (hr0 : ∀ w, Pipeline.arrRef spec0 w = r → (cfg0.win w).isOut = false) (h1 : r ∉ writes1)
    (hg1 : r ≠ main_v26) (h2 : r ∉ writes2) (hg2 : r ≠ main_v28) (h3 : r ∉ writes3) :
    W7 m d (Proc.devRef .tc r) = m ((d : Thread nD τ).loc r) :=
  (keep7 m d r h3).trans (upto6 m d r h0 hr0 h1 hg1 h2 hg2)
theorem upto8 (h0 : r ∉ writes0) (hr0 : ∀ w, Pipeline.arrRef spec0 w = r → (cfg0.win w).isOut = false) (h1 : r ∉ writes1)
    (hg1 : r ≠ main_v26) (h2 : r ∉ writes2) (hg2 : r ≠ main_v28) (h3 : r ∉ writes3)
    (hr3 : ∀ w, Pipeline.arrRef spec3 w = r → (cfg3.win w).isOut = false) :
    W8 m d (Proc.devRef .tc r) = m ((d : Thread nD τ).loc r) :=
  (keep8 m d r hr3).trans (upto7 m d r h0 hr0 h1 hg1 h2 hg2 h3)
theorem upto9 (h0 : r ∉ writes0) (hr0 : ∀ w, Pipeline.arrRef spec0 w = r → (cfg0.win w).isOut = false) (h1 : r ∉ writes1)
    (hg1 : r ≠ main_v26) (h2 : r ∉ writes2) (hg2 : r ≠ main_v28) (h3 : r ∉ writes3)
    (hr3 : ∀ w, Pipeline.arrRef spec3 w = r → (cfg3.win w).isOut = false) (h4 : r ∉ writes4) :
    W9 m d (Proc.devRef .tc r) = m ((d : Thread nD τ).loc r) :=
  (keep9 m d r h4).trans (upto8 m d r h0 hr0 h1 hg1 h2 hg2 h3 hr3)
theorem upto10 (h0 : r ∉ writes0) (hr0 : ∀ w, Pipeline.arrRef spec0 w = r → (cfg0.win w).isOut = false) (h1 : r ∉ writes1)
    (hg1 : r ≠ main_v26) (h2 : r ∉ writes2) (hg2 : r ≠ main_v28) (h3 : r ∉ writes3)
    (hr3 : ∀ w, Pipeline.arrRef spec3 w = r → (cfg3.win w).isOut = false) (h4 : r ∉ writes4) (h5 : r ∉ writes5) :
    W10 m d (Proc.devRef .tc r) = m ((d : Thread nD τ).loc r) :=
  (keep10 m d r h5).trans (upto9 m d r h0 hr0 h1 hg1 h2 hg2 h3 hr3 h4)
theorem upto11 (h0 : r ∉ writes0) (hr0 : ∀ w, Pipeline.arrRef spec0 w = r → (cfg0.win w).isOut = false) (h1 : r ∉ writes1)
    (hg1 : r ≠ main_v26) (h2 : r ∉ writes2) (hg2 : r ≠ main_v28) (h3 : r ∉ writes3)
    (hr3 : ∀ w, Pipeline.arrRef spec3 w = r → (cfg3.win w).isOut = false) (h4 : r ∉ writes4) (h5 : r ∉ writes5)
    (hr4 : ∀ w, Pipeline.arrRef spec4 w = r → (cfg4.win w).isOut = false) :
    W11 m d (Proc.devRef .tc r) = m ((d : Thread nD τ).loc r) :=
  (keep11 m d r hr4).trans (upto10 m d r h0 hr0 h1 hg1 h2 hg2 h3 hr3 h4 h5)

end Args

section Value
variable (m : (ℓ : Loc nD τ sig) → Buf (Elt Ideal) ℓ) (d : Dev nD)

structure StageFacts : Prop where
  h0_mask : W1 m d (Proc.devRef .tc main_v0) = Cert.Spec.maskF (W0 m d (Proc.devRef .tc main_arg4))
  h0_post : W1 m d (Proc.devRef .tc main_v1) = Cert.Spec.post (W0 m d (Proc.devRef .tc main_arg1))
  h0_b0 : W1 m d (Proc.devRef .tc main_v2) = Cert.Spec.row 64 (W0 m d (Proc.devRef .tc main_arg6))
  r0_y0t : (dat0 m d).arrAt 4 cfg0.N = Cert.Spec.y0t (W1 m d (Proc.devRef .tc main_arg0)) (W1 m d (Proc.devRef .tc main_v1))
      (W1 m d (Proc.devRef .tc main_arg5)) (W1 m d (Proc.devRef .tc main_v2))
  r0_xt : (dat0 m d).arrAt 5 cfg0.N = Cert.Spec.xt (W1 m d (Proc.devRef .tc main_arg0))
  r0_s1 : (dat0 m d).arrAt 6 cfg0.N = Cert.Spec.colSum 16384 64 (Cert.Spec.y0 (W1 m d (Proc.devRef .tc main_arg0))
      (W1 m d (Proc.devRef .tc main_arg5)) (W1 m d (Proc.devRef .tc main_v2)))
  r0_s2 : (dat0 m d).arrAt 7 cfg0.N = Cert.Spec.colSumSq 16384 64 (Cert.Spec.y0 (W1 m d (Proc.devRef .tc main_arg0))
      (W1 m d (Proc.devRef .tc main_arg5)) (W1 m d (Proc.devRef .tc main_v2)))
  h1_a0 : Cert.Spec.row 64 (W3 m d (Proc.devRef .tc main_v15)) = Cert.Spec.bnA 64 (W2 m d (Proc.devRef .tc main_v3_2))
      (W2 m d (Proc.devRef .tc main_v3_3)) Cert.Spec.cnt0W (W2 m d (Proc.devRef .tc main_arg7))
  h1_c0 : Cert.Spec.row 64 (W3 m d (Proc.devRef .tc main_v17)) = Cert.Spec.bnC 64 (W2 m d (Proc.devRef .tc main_v3_2)) Cert.Spec.cnt0W
      (Cert.Spec.bnA 64 (W2 m d (Proc.devRef .tc main_v3_2)) (W2 m d (Proc.devRef .tc main_v3_3)) Cert.Spec.cnt0W
        (W2 m d (Proc.devRef .tc main_arg7))) (W2 m d (Proc.devRef .tc main_arg8))
  h1_idx : W3 m d (Proc.devRef .tc main_v24) = Cert.Spec.idxFlat (W2 m d (Proc.devRef .tc main_arg3))
  h1_T1 : W3 m d (Proc.devRef .tc main_v25) = Cert.Spec.flatRows (W2 m d (Proc.devRef .tc main_v3_1))
  h2_T2 : W5 m d (Proc.devRef .tc main_v27) = Cert.Spec.flatRows (W4 m d (Proc.devRef .tc main_v3_0))
  h3_gf : W7 m d (Proc.devRef .tc main_v29) = Cert.Spec.unflat (W6 m d (Proc.devRef .tc main_v28))
  h3_gx : W7 m d (Proc.devRef .tc main_v30) = Cert.Spec.unflat (W6 m d (Proc.devRef .tc main_v26))
  h3_spt : W7 m d (Proc.devRef .tc main_v31) = Cert.Spec.sptOf (W6 m d (Proc.devRef .tc main_arg2))
  h3_kpt : W7 m d (Proc.devRef .tc main_v32) = Cert.Spec.kptOf (W6 m d (Proc.devRef .tc main_arg9))
  h3_a0 : W7 m d (Proc.devRef .tc main_v33) = Cert.Spec.row 64 (W6 m d (Proc.devRef .tc main_v15))
  h3_c0 : W7 m d (Proc.devRef .tc main_v34) = Cert.Spec.row 64 (W6 m d (Proc.devRef .tc main_v17))
  h3_bk : W7 m d (Proc.devRef .tc main_v35) = Cert.Spec.row 64 (W6 m d (Proc.devRef .tc main_arg11))
  r3_y1 : (dat3 m d).arrAt 8 cfg3.N = Cert.Spec.pointConv (W7 m d (Proc.devRef .tc main_v29)) (W7 m d (Proc.devRef .tc main_v31))
      (W7 m d (Proc.devRef .tc main_v0)) (W7 m d (Proc.devRef .tc main_v32)) (W7 m d (Proc.devRef .tc main_arg10))
      (W7 m d (Proc.devRef .tc main_v33)) (W7 m d (Proc.devRef .tc main_v34)) (W7 m d (Proc.devRef .tc main_v35))
  r3_s1 : (dat3 m d).arrAt 9 cfg3.N = Cert.Spec.colSum 4096 64 (Cert.Spec.pointConv (W7 m d (Proc.devRef .tc main_v29)) (W7 m d (Proc.devRef .tc main_v31))
      (W7 m d (Proc.devRef .tc main_v0)) (W7 m d (Proc.devRef .tc main_v32)) (W7 m d (Proc.devRef .tc main_arg10))
      (W7 m d (Proc.devRef .tc main_v33)) (W7 m d (Proc.devRef .tc main_v34)) (W7 m d (Proc.devRef .tc main_v35)))
  r3_s2 : (dat3 m d).arrAt 10 cfg3.N = Cert.Spec.colSumSq 4096 64 (Cert.Spec.pointConv (W7 m d (Proc.devRef .tc main_v29)) (W7 m d (Proc.devRef .tc main_v31))
      (W7 m d (Proc.devRef .tc main_v0)) (W7 m d (Proc.devRef .tc main_v32)) (W7 m d (Proc.devRef .tc main_arg10))
      (W7 m d (Proc.devRef .tc main_v33)) (W7 m d (Proc.devRef .tc main_v34)) (W7 m d (Proc.devRef .tc main_v35)))
  h4_a1 : W9 m d (Proc.devRef .tc main_v51) = Cert.Spec.bnA 64 (W8 m d (Proc.devRef .tc main_v36_1))
      (W8 m d (Proc.devRef .tc main_v36_2)) Cert.Spec.cnt1W (W8 m d (Proc.devRef .tc main_arg12))
  h4_c1 : W9 m d (Proc.devRef .tc main_v52) = Cert.Spec.bnC 64 (W8 m d (Proc.devRef .tc main_v36_1)) Cert.Spec.cnt1W
      (Cert.Spec.bnA 64 (W8 m d (Proc.devRef .tc main_v36_1)) (W8 m d (Proc.devRef .tc main_v36_2)) Cert.Spec.cnt1W
        (W8 m d (Proc.devRef .tc main_arg12))) (W8 m d (Proc.devRef .tc main_arg13))
  h5_b2 : W10 m d (Proc.devRef .tc main_v53) = Cert.Spec.row 128 (W9 m d (Proc.devRef .tc main_arg15))
  r4_y2 : (dat4 m d).arrAt 7 cfg4.N = Cert.Spec.conv2 (W10 m d (Proc.devRef .tc main_v36_0)) (W10 m d (Proc.devRef .tc main_v51))
      (W10 m d (Proc.devRef .tc main_v52)) (W10 m d (Proc.devRef .tc main_arg14)) (W10 m d (Proc.devRef .tc main_v53))
  r4_xs : (dat4 m d).arrAt 8 cfg4.N = Cert.Spec.pool (W10 m d (Proc.devRef .tc main_v30)) (W10 m d (Proc.devRef .tc main_v0))
  r4_s1 : (dat4 m d).arrAt 9 cfg4.N = Cert.Spec.colSum 4096 128 (Cert.Spec.conv2 (W10 m d (Proc.devRef .tc main_v36_0)) (W10 m d (Proc.devRef .tc main_v51))
      (W10 m d (Proc.devRef .tc main_v52)) (W10 m d (Proc.devRef .tc main_arg14)) (W10 m d (Proc.devRef .tc main_v53)))
  r4_s2 : (dat4 m d).arrAt 10 cfg4.N = Cert.Spec.colSumSq 4096 128 (Cert.Spec.conv2 (W10 m d (Proc.devRef .tc main_v36_0)) (W10 m d (Proc.devRef .tc main_v51))
      (W10 m d (Proc.devRef .tc main_v52)) (W10 m d (Proc.devRef .tc main_arg14)) (W10 m d (Proc.devRef .tc main_v53)))
  h6_a2 : W12 m d (Proc.devRef .tc main_v69) = Cert.Spec.bnA 128 (W11 m d (Proc.devRef .tc main_v54_2))
      (W11 m d (Proc.devRef .tc main_v54_3)) Cert.Spec.cnt1W (W11 m d (Proc.devRef .tc main_arg16))
  h6_c2 : W12 m d (Proc.devRef .tc main_v70) = Cert.Spec.bnC 128 (W11 m d (Proc.devRef .tc main_v54_2)) Cert.Spec.cnt1W
      (Cert.Spec.bnA 128 (W11 m d (Proc.devRef .tc main_v54_2)) (W11 m d (Proc.devRef .tc main_v54_3)) Cert.Spec.cnt1W
        (W11 m d (Proc.devRef .tc main_arg16))) (W11 m d (Proc.devRef .tc main_arg17))

set_option maxHeartbeats 4000000 in
theorem kernel_value (H : StageFacts m d) :
    W13 m d (Proc.devRef .tc main_v71) = Cert.Spec.kerOut (m ((d : Thread nD τ).loc main_arg0)) (m ((d : Thread nD τ).loc main_arg1)) (m ((d : Thread nD τ).loc main_arg2)) (m ((d : Thread nD τ).loc main_arg3)) (m ((d : Thread nD τ).loc main_arg4)) (m ((d : Thread nD τ).loc main_arg5)) (m ((d : Thread nD τ).loc main_arg6)) (m ((d : Thread nD τ).loc main_arg7)) (m ((d : Thread nD τ).loc main_arg8)) (m ((d : Thread nD τ).loc main_arg9)) (m ((d : Thread nD τ).loc main_arg10)) (m ((d : Thread nD τ).loc main_arg11)) (m ((d : Thread nD τ).loc main_arg12)) (m ((d : Thread nD τ).loc main_arg13)) (m ((d : Thread nD τ).loc main_arg14)) (m ((d : Thread nD τ).loc main_arg15)) (m ((d : Thread nD τ).loc main_arg16)) (m ((d : Thread nD τ).loc main_arg17)) := by
  have e_mask1 : W1 m d (Proc.devRef .tc main_v0) = Cert.Spec.maskF (m ((d : Thread nD τ).loc main_arg4)) := H.h0_mask
  have e_post : W1 m d (Proc.devRef .tc main_v1) = Cert.Spec.post (m ((d : Thread nD τ).loc main_arg1)) := H.h0_post
  have e_b0 : W1 m d (Proc.devRef .tc main_v2) = Cert.Spec.row 64 (m ((d : Thread nD τ).loc main_arg6)) := H.h0_b0
  have e_x1 : W1 m d (Proc.devRef .tc main_arg0) = (m ((d : Thread nD τ).loc main_arg0)) := upto1 m d main_arg0 (by decide)
  have e_W01 : W1 m d (Proc.devRef .tc main_arg5) = (m ((d : Thread nD τ).loc main_arg5)) := upto1 m d main_arg5 (by decide)
  have e_y0t : W2 m d (Proc.devRef .tc main_v3_0) = Cert.Spec.y0t (m ((d : Thread nD τ).loc main_arg0)) (Cert.Spec.post (m ((d : Thread nD τ).loc main_arg1))) (m ((d : Thread nD τ).loc main_arg5)) (Cert.Spec.row 64 (m ((d : Thread nD τ).loc main_arg6))) := by
    rw [← e_x1, ← e_post, ← e_W01, ← e_b0]; exact (W2_arr m d 4).trans H.r0_y0t
  have e_xt : W2 m d (Proc.devRef .tc main_v3_1) = Cert.Spec.xt (m ((d : Thread nD τ).loc main_arg0)) := by
    rw [← e_x1]; exact (W2_arr m d 5).trans H.r0_xt
  have e_s1_0 : W2 m d (Proc.devRef .tc main_v3_2) = Cert.Spec.colSum 16384 64 (Cert.Spec.kY0 (m ((d : Thread nD τ).loc main_arg0)) (m ((d : Thread nD τ).loc main_arg5)) (m ((d : Thread nD τ).loc main_arg6))) := by
    unfold Cert.Spec.kY0; rw [← e_x1, ← e_W01, ← e_b0]; exact (W2_arr m d 6).trans H.r0_s1
  have e_s2_0 : W2 m d (Proc.devRef .tc main_v3_3) = Cert.Spec.colSumSq 16384 64 (Cert.Spec.kY0 (m ((d : Thread nD τ).loc main_arg0)) (m ((d : Thread nD τ).loc main_arg5)) (m ((d : Thread nD τ).loc main_arg6))) := by
    unfold Cert.Spec.kY0; rw [← e_x1, ← e_W01, ← e_b0]; exact (W2_arr m d 7).trans H.r0_s2
  have e_g0 : W2 m d (Proc.devRef .tc main_arg7) = (m ((d : Thread nD τ).loc main_arg7)) := upto2 m d main_arg7 (by decide) (by decide)
  have e_be0 : W2 m d (Proc.devRef .tc main_arg8) = (m ((d : Thread nD τ).loc main_arg8)) := upto2 m d main_arg8 (by decide) (by decide)
  have e_nbr : W2 m d (Proc.devRef .tc main_arg3) = (m ((d : Thread nD τ).loc main_arg3)) := upto2 m d main_arg3 (by decide) (by decide)
  have e_a0r : Cert.Spec.row 64 (W3 m d (Proc.devRef .tc main_v15)) = Cert.Spec.kA0 (m ((d : Thread nD τ).loc main_arg0)) (m ((d : Thread nD τ).loc main_arg5)) (m ((d : Thread nD τ).loc main_arg6)) (m ((d : Thread nD τ).loc main_arg7)) := by
    unfold Cert.Spec.kA0; rw [← e_s1_0, ← e_s2_0, ← e_g0]; exact H.h1_a0
  have e_c0r : Cert.Spec.row 64 (W3 m d (Proc.devRef .tc main_v17)) = Cert.Spec.kC0 (m ((d : Thread nD τ).loc main_arg0)) (m ((d : Thread nD τ).loc main_arg5)) (m ((d : Thread nD τ).loc main_arg6)) (m ((d : Thread nD τ).loc main_arg7)) (m ((d : Thread nD τ).loc main_arg8)) := by
    unfold Cert.Spec.kC0 Cert.Spec.kA0; rw [← e_s1_0, ← e_s2_0, ← e_g0, ← e_be0]; exact H.h1_c0
  have e_idx : Ic m d = Cert.Spec.idxFlat (m ((d : Thread nD τ).loc main_arg3)) := by
    rw [← e_nbr]; exact H.h1_idx
  have e_T1 : T1 m d = Cert.Spec.flatRows (Cert.Spec.xt (m ((d : Thread nD τ).loc main_arg0))) := by
    rw [← e_xt]; exact H.h1_T1
  have e_gx : W4 m d (Proc.devRef .tc main_v26) = Cert.Spec.gatherRows (Cert.Spec.flatRows (Cert.Spec.xt (m ((d : Thread nD τ).loc main_arg0)))) (Cert.Spec.idxFlat (m ((d : Thread nD τ).loc main_arg3))) := by
    rw [W4_out, e_T1, e_idx]; exact gatherRows_eq _ _
  have e_y0t4 : W4 m d (Proc.devRef .tc main_v3_0) = W2 m d (Proc.devRef .tc main_v3_0) :=
    (keep4 m d main_v3_0 (by decide)).trans (keep3 m d main_v3_0 (by decide))
  have e_T2 : T2 m d = Cert.Spec.flatRows (Cert.Spec.y0t (m ((d : Thread nD τ).loc main_arg0)) (Cert.Spec.post (m ((d : Thread nD τ).loc main_arg1))) (m ((d : Thread nD τ).loc main_arg5)) (Cert.Spec.row 64 (m ((d : Thread nD τ).loc main_arg6)))) := by
    rw [← e_y0t, ← e_y0t4]; exact H.h2_T2
  have e_gf : W6 m d (Proc.devRef .tc main_v28)
      = Cert.Spec.gatherRows (Cert.Spec.flatRows (Cert.Spec.y0t (m ((d : Thread nD τ).loc main_arg0)) (Cert.Spec.post (m ((d : Thread nD τ).loc main_arg1))) (m ((d : Thread nD τ).loc main_arg5)) (Cert.Spec.row 64 (m ((d : Thread nD τ).loc main_arg6))))) (Cert.Spec.idxFlat (m ((d : Thread nD τ).loc main_arg3))) := by
    rw [W6_out, e_T2, e_idx]; exact gatherRows_eq _ _
  have e_gx6 : W6 m d (Proc.devRef .tc main_v26) = W4 m d (Proc.devRef .tc main_v26) :=
    (keep6 m d main_v26 (by decide)).trans (keep5 m d main_v26 (by decide))
  have e_29 : W7 m d (Proc.devRef .tc main_v29) = Cert.Spec.kGF (m ((d : Thread nD τ).loc main_arg0)) (m ((d : Thread nD τ).loc main_arg1)) (m ((d : Thread nD τ).loc main_arg3)) (m ((d : Thread nD τ).loc main_arg5)) (m ((d : Thread nD τ).loc main_arg6)) := by
    unfold Cert.Spec.kGF; rw [← e_gf]; exact H.h3_gf
  have e_30 : W7 m d (Proc.devRef .tc main_v30) = Cert.Spec.kGX (m ((d : Thread nD τ).loc main_arg0)) (m ((d : Thread nD τ).loc main_arg3)) := by
    unfold Cert.Spec.kGX; rw [← e_gx, ← e_gx6]; exact H.h3_gx
  have e_sp : W6 m d (Proc.devRef .tc main_arg2) = (m ((d : Thread nD τ).loc main_arg2)) :=
    upto6 m d main_arg2 (by decide) (by decide) (by decide) (by decide) (by decide) (by decide)
  have e_KP : W6 m d (Proc.devRef .tc main_arg9) = (m ((d : Thread nD τ).loc main_arg9)) :=
    upto6 m d main_arg9 (by decide) (by decide) (by decide) (by decide) (by decide) (by decide)
  have e_bk : W6 m d (Proc.devRef .tc main_arg11) = (m ((d : Thread nD τ).loc main_arg11)) :=
    upto6 m d main_arg11 (by decide) (by decide) (by decide) (by decide) (by decide) (by decide)
  have e_31 : W7 m d (Proc.devRef .tc main_v31) = Cert.Spec.sptOf (m ((d : Thread nD τ).loc main_arg2)) := by rw [← e_sp]; exact H.h3_spt
  have e_32 : W7 m d (Proc.devRef .tc main_v32) = Cert.Spec.kptOf (m ((d : Thread nD τ).loc main_arg9)) := by rw [← e_KP]; exact H.h3_kpt
  have e_15_6 : W6 m d (Proc.devRef .tc main_v15) = W3 m d (Proc.devRef .tc main_v15) :=
    (keep6 m d main_v15 (by decide)).trans ((keep5 m d main_v15 (by decide)).trans (keep4 m d main_v15 (by decide)))
  have e_17_6 : W6 m d (Proc.devRef .tc main_v17) = W3 m d (Proc.devRef .tc main_v17) :=
    (keep6 m d main_v17 (by decide)).trans ((keep5 m d main_v17 (by decide)).trans (keep4 m d main_v17 (by decide)))
  have e_33 : W7 m d (Proc.devRef .tc main_v33) = Cert.Spec.kA0 (m ((d : Thread nD τ).loc main_arg0)) (m ((d : Thread nD τ).loc main_arg5)) (m ((d : Thread nD τ).loc main_arg6)) (m ((d : Thread nD τ).loc main_arg7)) := by
    rw [H.h3_a0, e_15_6]; exact e_a0r
  have e_34 : W7 m d (Proc.devRef .tc main_v34) = Cert.Spec.kC0 (m ((d : Thread nD τ).loc main_arg0)) (m ((d : Thread nD τ).loc main_arg5)) (m ((d : Thread nD τ).loc main_arg6)) (m ((d : Thread nD τ).loc main_arg7)) (m ((d : Thread nD τ).loc main_arg8)) := by
    rw [H.h3_c0, e_17_6]; exact e_c0r
  have e_35 : W7 m d (Proc.devRef .tc main_v35) = Cert.Spec.row 64 (m ((d : Thread nD τ).loc main_arg11)) := by rw [← e_bk]; exact H.h3_bk
  have e_mask7 : W7 m d (Proc.devRef .tc main_v0) = Cert.Spec.maskF (m ((d : Thread nD τ).loc main_arg4)) :=
    ((keep7 m d main_v0 (by decide)).trans ((keep6 m d main_v0 (by decide)).trans ((keep5 m d main_v0 (by decide)).trans
      ((keep4 m d main_v0 (by decide)).trans ((keep3 m d main_v0 (by decide)).trans (keep2 m d main_v0 (by decide))))))).trans e_mask1
  have e_Wk : W7 m d (Proc.devRef .tc main_arg10) = (m ((d : Thread nD τ).loc main_arg10)) :=
    upto7 m d main_arg10 (by decide) (by decide) (by decide) (by decide) (by decide) (by decide) (by decide)
  have e_y1 : W8 m d (Proc.devRef .tc main_v36_0)
      = Cert.Spec.kY1 (m ((d : Thread nD τ).loc main_arg0)) (m ((d : Thread nD τ).loc main_arg1)) (m ((d : Thread nD τ).loc main_arg2)) (m ((d : Thread nD τ).loc main_arg3)) (m ((d : Thread nD τ).loc main_arg4)) (m ((d : Thread nD τ).loc main_arg5)) (m ((d : Thread nD τ).loc main_arg6)) (m ((d : Thread nD τ).loc main_arg7)) (m ((d : Thread nD τ).loc main_arg8)) (m ((d : Thread nD τ).loc main_arg9)) (m ((d : Thread nD τ).loc main_arg10)) (m ((d : Thread nD τ).loc main_arg11)) := by
    unfold Cert.Spec.kY1
    rw [← e_29, ← e_31, ← e_mask7, ← e_32, ← e_Wk, ← e_33, ← e_34, ← e_35]
    exact (W8_arr m d 8).trans H.r3_y1
  have e_s1_1 : W8 m d (Proc.devRef .tc main_v36_1) = Cert.Spec.colSum 4096 64 (W8 m d (Proc.devRef .tc main_v36_0)) := by
    rw [show W8 m d (Proc.devRef .tc main_v36_0) = _ from (W8_arr m d 8).trans H.r3_y1]
    exact (W8_arr m d 9).trans H.r3_s1
  have e_s2_1 : W8 m d (Proc.devRef .tc main_v36_2) = Cert.Spec.colSumSq 4096 64 (W8 m d (Proc.devRef .tc main_v36_0)) := by
    rw [show W8 m d (Proc.devRef .tc main_v36_0) = _ from (W8_arr m d 8).trans H.r3_y1]
    exact (W8_arr m d 10).trans H.r3_s2
  have e_g1 : W8 m d (Proc.devRef .tc main_arg12) = (m ((d : Thread nD τ).loc main_arg12)) :=
    upto8 m d main_arg12 (by decide) (by decide) (by decide) (by decide) (by decide) (by decide) (by decide) (by decide)
  have e_be1 : W8 m d (Proc.devRef .tc main_arg13) = (m ((d : Thread nD τ).loc main_arg13)) :=
    upto8 m d main_arg13 (by decide) (by decide) (by decide) (by decide) (by decide) (by decide) (by decide) (by decide)
  have e_a1 : W9 m d (Proc.devRef .tc main_v51)
      = Cert.Spec.kA1 (m ((d : Thread nD τ).loc main_arg0)) (m ((d : Thread nD τ).loc main_arg1)) (m ((d : Thread nD τ).loc main_arg2)) (m ((d : Thread nD τ).loc main_arg3)) (m ((d : Thread nD τ).loc main_arg4)) (m ((d : Thread nD τ).loc main_arg5)) (m ((d : Thread nD τ).loc main_arg6)) (m ((d : Thread nD τ).loc main_arg7)) (m ((d : Thread nD τ).loc main_arg8)) (m ((d : Thread nD τ).loc main_arg9)) (m ((d : Thread nD τ).loc main_arg10)) (m ((d : Thread nD τ).loc main_arg11)) (m ((d : Thread nD τ).loc main_arg12)) := by
    unfold Cert.Spec.kA1; rw [← e_y1, ← e_s1_1, ← e_s2_1, ← e_g1]; exact H.h4_a1
  have e_c1 : W9 m d (Proc.devRef .tc main_v52)
      = Cert.Spec.kC1 (m ((d : Thread nD τ).loc main_arg0)) (m ((d : Thread nD τ).loc main_arg1)) (m ((d : Thread nD τ).loc main_arg2)) (m ((d : Thread nD τ).loc main_arg3)) (m ((d : Thread nD τ).loc main_arg4)) (m ((d : Thread nD τ).loc main_arg5)) (m ((d : Thread nD τ).loc main_arg6)) (m ((d : Thread nD τ).loc main_arg7)) (m ((d : Thread nD τ).loc main_arg8)) (m ((d : Thread nD τ).loc main_arg9)) (m ((d : Thread nD τ).loc main_arg10)) (m ((d : Thread nD τ).loc main_arg11)) (m ((d : Thread nD τ).loc main_arg12)) (m ((d : Thread nD τ).loc main_arg13)) := by
    unfold Cert.Spec.kC1 Cert.Spec.kA1; rw [← e_y1, ← e_s1_1, ← e_s2_1, ← e_g1, ← e_be1]; exact H.h4_c1
  have e_b2 : W9 m d (Proc.devRef .tc main_arg15) = (m ((d : Thread nD τ).loc main_arg15)) :=
    upto9 m d main_arg15 (by decide) (by decide) (by decide) (by decide) (by decide) (by decide) (by decide) (by decide) (by decide)
  have e_53 : W10 m d (Proc.devRef .tc main_v53) = Cert.Spec.row 128 (m ((d : Thread nD τ).loc main_arg15)) := by rw [← e_b2]; exact H.h5_b2
  have e_y1_10 : W10 m d (Proc.devRef .tc main_v36_0) = W8 m d (Proc.devRef .tc main_v36_0) :=
    (keep10 m d main_v36_0 (by decide)).trans (keep9 m d main_v36_0 (by decide))
  have e_a1_10 : W10 m d (Proc.devRef .tc main_v51) = W9 m d (Proc.devRef .tc main_v51) := keep10 m d main_v51 (by decide)
  have e_c1_10 : W10 m d (Proc.devRef .tc main_v52) = W9 m d (Proc.devRef .tc main_v52) := keep10 m d main_v52 (by decide)
  have e_W2_10 : W10 m d (Proc.devRef .tc main_arg14) = (m ((d : Thread nD τ).loc main_arg14)) :=
    upto10 m d main_arg14 (by decide) (by decide) (by decide) (by decide) (by decide) (by decide) (by decide) (by decide) (by decide) (by decide)
  have e_gx10 : W10 m d (Proc.devRef .tc main_v30) = W7 m d (Proc.devRef .tc main_v30) :=
    (keep10 m d main_v30 (by decide)).trans ((keep9 m d main_v30 (by decide)).trans (keep8 m d main_v30 (by decide)))
  have e_mask10 : W10 m d (Proc.devRef .tc main_v0) = W7 m d (Proc.devRef .tc main_v0) :=
    (keep10 m d main_v0 (by decide)).trans ((keep9 m d main_v0 (by decide)).trans (keep8 m d main_v0 (by decide)))
  have e_y2 : W11 m d (Proc.devRef .tc main_v54_0)
      = Cert.Spec.kY2 (m ((d : Thread nD τ).loc main_arg0)) (m ((d : Thread nD τ).loc main_arg1)) (m ((d : Thread nD τ).loc main_arg2)) (m ((d : Thread nD τ).loc main_arg3)) (m ((d : Thread nD τ).loc main_arg4)) (m ((d : Thread nD τ).loc main_arg5)) (m ((d : Thread nD τ).loc main_arg6)) (m ((d : Thread nD τ).loc main_arg7)) (m ((d : Thread nD τ).loc main_arg8)) (m ((d : Thread nD τ).loc main_arg9)) (m ((d : Thread nD τ).loc main_arg10)) (m ((d : Thread nD τ).loc main_arg11)) (m ((d : Thread nD τ).loc main_arg12)) (m ((d : Thread nD τ).loc main_arg13)) (m ((d : Thread nD τ).loc main_arg14)) (m ((d : Thread nD τ).loc main_arg15)) := by
    unfold Cert.Spec.kY2
    rw [← e_y1, ← e_a1, ← e_c1, ← e_W2_10, ← e_53, ← e_y1_10, ← e_a1_10, ← e_c1_10]
    exact (W11_arr m d 7).trans H.r4_y2
  have e_xs : W11 m d (Proc.devRef .tc main_v54_1) = Cert.Spec.pool (Cert.Spec.kGX (m ((d : Thread nD τ).loc main_arg0)) (m ((d : Thread nD τ).loc main_arg3))) (Cert.Spec.maskF (m ((d : Thread nD τ).loc main_arg4))) := by
    rw [← e_30, ← e_mask7, ← e_gx10, ← e_mask10]
    exact (W11_arr m d 8).trans H.r4_xs
  have e_s1_2 : W11 m d (Proc.devRef .tc main_v54_2) = Cert.Spec.colSum 4096 128 (W11 m d (Proc.devRef .tc main_v54_0)) := by
    rw [show W11 m d (Proc.devRef .tc main_v54_0) = _ from (W11_arr m d 7).trans H.r4_y2]
    exact (W11_arr m d 9).trans H.r4_s1
  have e_s2_2 : W11 m d (Proc.devRef .tc main_v54_3) = Cert.Spec.colSumSq 4096 128 (W11 m d (Proc.devRef .tc main_v54_0)) := by
    rw [show W11 m d (Proc.devRef .tc main_v54_0) = _ from (W11_arr m d 7).trans H.r4_y2]
    exact (W11_arr m d 10).trans H.r4_s2
  have e_g2 : W11 m d (Proc.devRef .tc main_arg16) = (m ((d : Thread nD τ).loc main_arg16)) :=
    upto11 m d main_arg16 (by decide) (by decide) (by decide) (by decide) (by decide) (by decide) (by decide) (by decide) (by decide) (by decide) (by decide)
  have e_be2 : W11 m d (Proc.devRef .tc main_arg17) = (m ((d : Thread nD τ).loc main_arg17)) :=
    upto11 m d main_arg17 (by decide) (by decide) (by decide) (by decide) (by decide) (by decide) (by decide) (by decide) (by decide) (by decide) (by decide)
  have e_a2 : W12 m d (Proc.devRef .tc main_v69)
      = Cert.Spec.kA2 (m ((d : Thread nD τ).loc main_arg0)) (m ((d : Thread nD τ).loc main_arg1)) (m ((d : Thread nD τ).loc main_arg2)) (m ((d : Thread nD τ).loc main_arg3)) (m ((d : Thread nD τ).loc main_arg4)) (m ((d : Thread nD τ).loc main_arg5)) (m ((d : Thread nD τ).loc main_arg6)) (m ((d : Thread nD τ).loc main_arg7)) (m ((d : Thread nD τ).loc main_arg8)) (m ((d : Thread nD τ).loc main_arg9)) (m ((d : Thread nD τ).loc main_arg10)) (m ((d : Thread nD τ).loc main_arg11)) (m ((d : Thread nD τ).loc main_arg12)) (m ((d : Thread nD τ).loc main_arg13)) (m ((d : Thread nD τ).loc main_arg14)) (m ((d : Thread nD τ).loc main_arg15)) (m ((d : Thread nD τ).loc main_arg16)) := by
    unfold Cert.Spec.kA2; rw [← e_y2, ← e_s1_2, ← e_s2_2, ← e_g2]; exact H.h6_a2
  have e_c2 : W12 m d (Proc.devRef .tc main_v70)
      = Cert.Spec.kC2 (m ((d : Thread nD τ).loc main_arg0)) (m ((d : Thread nD τ).loc main_arg1)) (m ((d : Thread nD τ).loc main_arg2)) (m ((d : Thread nD τ).loc main_arg3)) (m ((d : Thread nD τ).loc main_arg4)) (m ((d : Thread nD τ).loc main_arg5)) (m ((d : Thread nD τ).loc main_arg6)) (m ((d : Thread nD τ).loc main_arg7)) (m ((d : Thread nD τ).loc main_arg8)) (m ((d : Thread nD τ).loc main_arg9)) (m ((d : Thread nD τ).loc main_arg10)) (m ((d : Thread nD τ).loc main_arg11)) (m ((d : Thread nD τ).loc main_arg12)) (m ((d : Thread nD τ).loc main_arg13)) (m ((d : Thread nD τ).loc main_arg14)) (m ((d : Thread nD τ).loc main_arg15)) (m ((d : Thread nD τ).loc main_arg16)) (m ((d : Thread nD τ).loc main_arg17)) := by
    unfold Cert.Spec.kC2 Cert.Spec.kA2; rw [← e_y2, ← e_s1_2, ← e_s2_2, ← e_g2, ← e_be2]; exact H.h6_c2
  have e_y2_12 : W12 m d (Proc.devRef .tc main_v54_0) = W11 m d (Proc.devRef .tc main_v54_0) := keep12 m d main_v54_0 (by decide)
  have e_xs_12 : W12 m d (Proc.devRef .tc main_v54_1) = W11 m d (Proc.devRef .tc main_v54_1) := keep12 m d main_v54_1 (by decide)
  rw [Cert.Spec.kerOut_unfold, ← e_y2, ← e_xs, ← e_a2, ← e_c2, ← e_y2_12, ← e_xs_12]
  exact ((W13_arr m d 4).trans (R5.arrAt_4 (Vof (W12 m)) _ Ψ5 d)).trans (R5.outArr_eq_finalOut _ _ _ _)

end Value

end Cert.KernelIdeal.Launch

end
-- ==== Proof.Glue0.lean ====
import proofs.«214766_g21345987461187_cont_8to1_720_22_alg».proof.Proof.MainChain
import proofs.«214766_g21345987461187_cont_8to1_720_22_alg».proof.Proof.Spec
import proofs.«214766_g21345987461187_cont_8to1_720_22_alg».proof.Proof.SpecAt
import Idealize.ShloMosaic.Lib.ValueLayout
import Idealize.ShloMosaic.Lib.IdealHost

set_option maxRecDepth 16384

noncomputable section

namespace Cert.KernelIdeal.Glue

open Idealize.ShloMosaic Idealize.ShloMosaic.TcCoe Idealize.ShloMosaic.ValueIdx
open Cert.KernelIdeal Cert.KernelIdeal.Hand Cert.KernelIdeal.Facts₀ Cert.KernelIdeal.Facts

theorem ops0_v0 (V : Valuation τ sig (Elt Ideal)) :
    StableHlo.after (hostOps0 (F := Ideal)) V (Proc.devRef .tc main_v0) = Cert.Spec.maskF (V (Proc.devRef .tc main_arg4)) := by
  have e : StableHlo.after (hostOps0 (F := Ideal)) V (Proc.devRef .tc main_v0)
      = (sitofp .f32 (V (Proc.devRef .tc main_arg4)) : FVec Ideal S2x4096x16 .f32) := by
    after_results <;> rfl
  rw [e]; rfl

theorem ops0_v1 (V : Valuation τ sig (Elt Ideal)) :
    StableHlo.after (hostOps0 (F := Ideal)) V (Proc.devRef .tc main_v1) = Cert.Spec.post (V (Proc.devRef .tc main_arg1)) := by
  have e : StableHlo.after (hostOps0 (F := Ideal)) V (Proc.devRef .tc main_v1)
      = transpose S2x16384x3 [0, 2, 1] (V (Proc.devRef .tc main_arg1)) transposes_S2x3x16384_S2x16384x3_0_2_1 := by
    after_results <;> rfl
  rw [e]; funext i
  rw [eq_ix3 i]
  exact transpose_ix3_021_apply _ _ (i 0) (i 1) (i 2)

theorem ops0_v2 (V : Valuation τ sig (Elt Ideal)) :
    StableHlo.after (hostOps0 (F := Ideal)) V (Proc.devRef .tc main_v2) = Cert.Spec.row 64 (V (Proc.devRef .tc main_arg6)) := by
  have e : StableHlo.after (hostOps0 (F := Ideal)) V (Proc.devRef .tc main_v2)
      = shapeCast S1x64 (V (Proc.devRef .tc main_arg6)) shapeCasts_S64_S1x64 := by
    after_results <;> rfl
  rw [e]; funext i
  rw [eq_ix2 i]
  exact shapeCast_a_1a_apply _ _ (i 0) (i 1)

end Cert.KernelIdeal.Glue

end
-- ==== Proof.Glue1.lean ====
import proofs.«214766_g21345987461187_cont_8to1_720_22_alg».proof.Proof.MainChain
import proofs.«214766_g21345987461187_cont_8to1_720_22_alg».proof.Proof.Spec
import proofs.«214766_g21345987461187_cont_8to1_720_22_alg».proof.Proof.SpecAt
import Idealize.ShloMosaic.Lib.ValueLayout
import Idealize.ShloMosaic.Lib.IdealHost

set_option maxRecDepth 16384

noncomputable section

namespace Cert.KernelIdeal.Glue

open Idealize.ShloMosaic Idealize.ShloMosaic.TcCoe Idealize.ShloMosaic.ValueIdx
open Cert.KernelIdeal Cert.KernelIdeal.Hand Cert.KernelIdeal.Facts₀ Cert.KernelIdeal.Facts

theorem ops1_v15_at (V : Valuation τ sig (Elt Ideal)) (o : Fin 64) :
    StableHlo.after (hostOps1 (F := Ideal)) V (Proc.devRef .tc main_v15) (ix1 o)
      = Cert.Spec.scaleOf (V (Proc.devRef .tc main_v3_2) (ix2 0 o)) (V (Proc.devRef .tc main_v3_3) (ix2 0 o)) Cert.Spec.cnt0W
          (V (Proc.devRef .tc main_arg7) (ix1 o)) := by
  after_results_simp
  have h1 : shapeCast S64 (V (Proc.devRef .tc main_v3_2)) shapeCasts_S1x64_S64 (ix1 o) = V (Proc.devRef .tc main_v3_2) (ix2 0 o) :=
    shapeCast_1a_a_apply _ _ o
  have h2 : shapeCast S64 (V (Proc.devRef .tc main_v3_3)) shapeCasts_S1x64_S64 (ix1 o) = V (Proc.devRef .tc main_v3_3) (ix2 0 o) :=
    shapeCast_1a_a_apply _ _ o
  show Cert.Spec.scaleOf (shapeCast S64 (V (Proc.devRef .tc main_v3_2)) shapeCasts_S1x64_S64 (ix1 o))
      (shapeCast S64 (V (Proc.devRef .tc main_v3_3)) shapeCasts_S1x64_S64 (ix1 o)) Cert.Spec.cnt0W (V (Proc.devRef .tc main_arg7) (ix1 o)) = _
  rw [h1, h2]

theorem ops1_v17_at (V : Valuation τ sig (Elt Ideal)) (o : Fin 64) :
    StableHlo.after (hostOps1 (F := Ideal)) V (Proc.devRef .tc main_v17) (ix1 o)
      = Cert.Spec.shiftOf (V (Proc.devRef .tc main_v3_2) (ix2 0 o)) Cert.Spec.cnt0W
          (Cert.Spec.scaleOf (V (Proc.devRef .tc main_v3_2) (ix2 0 o)) (V (Proc.devRef .tc main_v3_3) (ix2 0 o)) Cert.Spec.cnt0W
            (V (Proc.devRef .tc main_arg7) (ix1 o)))
          (V (Proc.devRef .tc main_arg8) (ix1 o)) := by
  after_results_simp
  have h1 : shapeCast S64 (V (Proc.devRef .tc main_v3_2)) shapeCasts_S1x64_S64 (ix1 o) = V (Proc.devRef .tc main_v3_2) (ix2 0 o) :=
    shapeCast_1a_a_apply _ _ o
  have h2 : shapeCast S64 (V (Proc.devRef .tc main_v3_3)) shapeCasts_S1x64_S64 (ix1 o) = V (Proc.devRef .tc main_v3_3) (ix2 0 o) :=
    shapeCast_1a_a_apply _ _ o
  show Cert.Spec.shiftOf (shapeCast S64 (V (Proc.devRef .tc main_v3_2)) shapeCasts_S1x64_S64 (ix1 o)) Cert.Spec.cnt0W
      (Cert.Spec.scaleOf (shapeCast S64 (V (Proc.devRef .tc main_v3_2)) shapeCasts_S1x64_S64 (ix1 o))
      (shapeCast S64 (V (Proc.devRef .tc main_v3_3)) shapeCasts_S1x64_S64 (ix1 o)) Cert.Spec.cnt0W (V (Proc.devRef .tc main_arg7) (ix1 o)))
      (V (Proc.devRef .tc main_arg8) (ix1 o)) = _
  rw [h1, h2]

theorem ops1_v15 (V : Valuation τ sig (Elt Ideal)) :
    Cert.Spec.row 64 (StableHlo.after (hostOps1 (F := Ideal)) V (Proc.devRef .tc main_v15))
      = Cert.Spec.bnA 64 (V (Proc.devRef .tc main_v3_2)) (V (Proc.devRef .tc main_v3_3)) Cert.Spec.cnt0W (V (Proc.devRef .tc main_arg7)) := by
  funext i; rw [eq_ix2 i]; exact ops1_v15_at V (i 1)

theorem ops1_v17 (V : Valuation τ sig (Elt Ideal)) :
    Cert.Spec.row 64 (StableHlo.after (hostOps1 (F := Ideal)) V (Proc.devRef .tc main_v17))
      = Cert.Spec.bnC 64 (V (Proc.devRef .tc main_v3_2)) Cert.Spec.cnt0W
          (Cert.Spec.bnA 64 (V (Proc.devRef .tc main_v3_2)) (V (Proc.devRef .tc main_v3_3)) Cert.Spec.cnt0W (V (Proc.devRef .tc main_arg7)))
          (V (Proc.devRef .tc main_arg8)) := by
  funext i; rw [eq_ix2 i]; exact ops1_v17_at V (i 1)

section AnyInstance
variable {F : FTy → Type} [FloatOps F]

theorem ops1_v24_at (V : Valuation τ sig (Elt F)) (q : Fin 1024) (l : Fin 128) :
    StableHlo.after (hostOps1 (F := F)) V (Proc.devRef .tc main_v24) (ix2 q l)
      = Cert.Spec.idxFlat (V (Proc.devRef .tc main_arg3)) (ix2 q l) := by
  have e : StableHlo.after (hostOps1 (F := F)) V (Proc.devRef .tc main_v24)
      = shapeCast S1024x128 (addi (V (Proc.devRef .tc main_arg3))
          (broadcastInDim S2x4096x16 ![0, 1, 2] bcast_S2x1x1_S2x4096x16_0_1_2
            (broadcastInDim S2x1x1 ![0] bcast_S2_S2x1x1_0
              (muli (iotaInDim S2 32 0) (broadcastInDim S2 ![] bcast_S_S2 (constantI S_ 32 16384#32))))))
          shapeCasts_S2x4096x16_S1024x128 := by
    after_results_simp <;> rfl
  rw [e]
  refine (shapeCast_apply _ _ (ix2 q l)
    (ix3 (⟨(q.val * 128 + l.val) / 65536, by omega⟩ : Fin 2) (⟨((q.val * 128 + l.val) / 16) % 4096, by omega⟩ : Fin 4096)
      (⟨(q.val * 128 + l.val) % 16, by omega⟩ : Fin 16)) ?_).trans ?_
  · rw [Shape.rowMajor_val_three, Shape.rowMajor_val_two]
    show (((q.val * 128 + l.val) / 65536) * 4096 + ((q.val * 128 + l.val) / 16) % 4096) * 16 + (q.val * 128 + l.val) % 16
      = q.val * 128 + l.val
    omega
  · rfl

theorem ops1_v24 (V : Valuation τ sig (Elt F)) :
    StableHlo.after (hostOps1 (F := F)) V (Proc.devRef .tc main_v24) = Cert.Spec.idxFlat (V (Proc.devRef .tc main_arg3)) := by
  funext i; rw [eq_ix2 i]; exact ops1_v24_at V (i 0) (i 1)

private theorem flat_cast_at {α : Type} (T : S2x16384x128.Idx → α) (r : Fin 32768) (j : Fin 128) :
    shapeCast S32768x128 T shapeCasts_S2x16384x128_S32768x128 (ix2 r j)
      = T (ix3 (⟨r.val / 16384, by omega⟩ : Fin 2) (⟨r.val % 16384, by omega⟩ : Fin 16384) j) := by
  refine shapeCast_apply _ _ (ix2 r j) _ ?_
  rw [Shape.rowMajor_val_three, Shape.rowMajor_val_two]
  show ((r.val / 16384) * 16384 + r.val % 16384) * 128 + j.val = r.val * 128 + j.val
  omega

theorem ops1_v25_at (V : Valuation τ sig (Elt F)) (r : Fin 32768) (j : Fin 128) :
    StableHlo.after (hostOps1 (F := F)) V (Proc.devRef .tc main_v25) (ix2 r j)
      = V (Proc.devRef .tc main_v3_1) (ix3 (⟨r.val / 16384, by omega⟩ : Fin 2) (⟨r.val % 16384, by omega⟩ : Fin 16384) j) := by
  have e : StableHlo.after (hostOps1 (F := F)) V (Proc.devRef .tc main_v25)
      = shapeCast S32768x128 (V (Proc.devRef .tc main_v3_1) : S2x16384x128.Idx → Elt F .f32) shapeCasts_S2x16384x128_S32768x128 := by
    after_results_simp <;> rfl
  rw [e]; exact flat_cast_at _ r j

end AnyInstance

theorem ops1_v25 (V : Valuation τ sig (Elt Ideal)) :
    StableHlo.after (hostOps1 (F := Ideal)) V (Proc.devRef .tc main_v25) = Cert.Spec.flatRows (V (Proc.devRef .tc main_v3_1)) := by
  funext i; rw [eq_ix2 i]; exact ops1_v25_at V (i 0) (i 1)

end Cert.KernelIdeal.Glue

end
-- ==== Proof.Glue2.lean ====
import proofs.«214766_g21345987461187_cont_8to1_720_22_alg».proof.Proof.MainChain
import proofs.«214766_g21345987461187_cont_8to1_720_22_alg».proof.Proof.Spec
import proofs.«214766_g21345987461187_cont_8to1_720_22_alg».proof.Proof.SpecAt
import Idealize.ShloMosaic.Lib.ValueLayout
import Idealize.ShloMosaic.Lib.IdealHost

set_option maxRecDepth 16384

noncomputable section

namespace Cert.KernelIdeal.Glue

open Idealize.ShloMosaic Idealize.ShloMosaic.TcCoe Idealize.ShloMosaic.ValueIdx
open Cert.KernelIdeal Cert.KernelIdeal.Hand Cert.KernelIdeal.Facts₀ Cert.KernelIdeal.Facts

private theorem flat_cast_at {α : Type} (T : S2x16384x128.Idx → α) (r : Fin 32768) (j : Fin 128) :
    shapeCast S32768x128 T shapeCasts_S2x16384x128_S32768x128 (ix2 r j)
      = T (ix3 (⟨r.val / 16384, by omega⟩ : Fin 2) (⟨r.val % 16384, by omega⟩ : Fin 16384) j) := by
  refine shapeCast_apply _ _ (ix2 r j) _ ?_
  rw [Shape.rowMajor_val_three, Shape.rowMajor_val_two]
  show ((r.val / 16384) * 16384 + r.val % 16384) * 128 + j.val = r.val * 128 + j.val
  omega

theorem ops2_v27_at {F : FTy → Type} [FloatOps F] (V : Valuation τ sig (Elt F)) (r : Fin 32768) (j : Fin 128) :
    StableHlo.after (hostOps2 (F := F)) V (Proc.devRef .tc main_v27) (ix2 r j)
      = V (Proc.devRef .tc main_v3_0) (ix3 (⟨r.val / 16384, by omega⟩ : Fin 2) (⟨r.val % 16384, by omega⟩ : Fin 16384) j) := by
  have e : StableHlo.after (hostOps2 (F := F)) V (Proc.devRef .tc main_v27)
      = shapeCast S32768x128 (V (Proc.devRef .tc main_v3_0) : S2x16384x128.Idx → Elt F .f32) shapeCasts_S2x16384x128_S32768x128 := by
    after_results <;> rfl
  rw [e]; exact flat_cast_at _ r j

theorem ops2_v27 (V : Valuation τ sig (Elt Ideal)) :
    StableHlo.after (hostOps2 (F := Ideal)) V (Proc.devRef .tc main_v27) = Cert.Spec.flatRows (V (Proc.devRef .tc main_v3_0)) := by
  funext i; rw [eq_ix2 i]; exact ops2_v27_at V (i 0) (i 1)

end Cert.KernelIdeal.Glue

end
-- ==== Proof.Glue3.lean ====
import proofs.«214766_g21345987461187_cont_8to1_720_22_alg».proof.Proof.MainChain
import proofs.«214766_g21345987461187_cont_8to1_720_22_alg».proof.Proof.Spec
import proofs.«214766_g21345987461187_cont_8to1_720_22_alg».proof.Proof.SpecAt
import Idealize.ShloMosaic.Lib.ValueLayout
import Idealize.ShloMosaic.Lib.IdealHost

set_option maxRecDepth 16384

noncomputable section

namespace Cert.KernelIdeal.Glue

open Idealize.ShloMosaic Idealize.ShloMosaic.TcCoe Idealize.ShloMosaic.ValueIdx
open Cert.KernelIdeal Cert.KernelIdeal.Hand Cert.KernelIdeal.Facts₀ Cert.KernelIdeal.Facts

section AnyInstance
variable {F : FTy → Type} [FloatOps F]

theorem unflat_cast_at (G : S131072x128.Idx → Elt F .f32) (b : Fin 2) (s : Fin 4096) (k : Fin 16) (j : Fin 128) :
    shapeCast S2x4096x16x128 G shapeCasts_S131072x128_S2x4096x16x128 (ix4 b s k j)
      = G (ix2 (⟨(b.val * 4096 + s.val) * 16 + k.val, by omega⟩ : Fin 131072) j) := by
  refine shapeCast_apply _ _ (ix4 b s k j) _ ?_
  rw [Shape.rowMajor_val_four, Shape.rowMajor_val_two]
  rfl

theorem ops3_v29_at (V : Valuation τ sig (Elt F)) (b : Fin 2) (s : Fin 4096) (k : Fin 16) (j : Fin 128) :
    StableHlo.after (hostOps3 (F := F)) V (Proc.devRef .tc main_v29) (ix4 b s k j)
      = V (Proc.devRef .tc main_v28) (ix2 (⟨(b.val * 4096 + s.val) * 16 + k.val, by omega⟩ : Fin 131072) j) := by
  have e : StableHlo.after (hostOps3 (F := F)) V (Proc.devRef .tc main_v29)
      = shapeCast S2x4096x16x128 (V (Proc.devRef .tc main_v28) : S131072x128.Idx → Elt F .f32)
          shapeCasts_S131072x128_S2x4096x16x128 := by
    after_results <;> rfl
  rw [e]; exact unflat_cast_at _ b s k j

theorem ops3_v30_at (V : Valuation τ sig (Elt F)) (b : Fin 2) (s : Fin 4096) (k : Fin 16) (j : Fin 128) :
    StableHlo.after (hostOps3 (F := F)) V (Proc.devRef .tc main_v30) (ix4 b s k j)
      = V (Proc.devRef .tc main_v26) (ix2 (⟨(b.val * 4096 + s.val) * 16 + k.val, by omega⟩ : Fin 131072) j) := by
  have e : StableHlo.after (hostOps3 (F := F)) V (Proc.devRef .tc main_v30)
      = shapeCast S2x4096x16x128 (V (Proc.devRef .tc main_v26) : S131072x128.Idx → Elt F .f32)
          shapeCasts_S131072x128_S2x4096x16x128 := by
    after_results <;> rfl
  rw [e]; exact unflat_cast_at _ b s k j

end AnyInstance

theorem ops3_v29 (V : Valuation τ sig (Elt Ideal)) :
    StableHlo.after (hostOps3 (F := Ideal)) V (Proc.devRef .tc main_v29) = Cert.Spec.unflat (V (Proc.devRef .tc main_v28)) := by
  funext i; rw [eq_ix4 i]; exact ops3_v29_at V (i 0) (i 1) (i 2) (i 3)

theorem ops3_v30 (V : Valuation τ sig (Elt Ideal)) :
    StableHlo.after (hostOps3 (F := Ideal)) V (Proc.devRef .tc main_v30) = Cert.Spec.unflat (V (Proc.devRef .tc main_v26)) := by
  funext i; rw [eq_ix4 i]; exact ops3_v30_at V (i 0) (i 1) (i 2) (i 3)

theorem ops3_v31 (V : Valuation τ sig (Elt Ideal)) :
    StableHlo.after (hostOps3 (F := Ideal)) V (Proc.devRef .tc main_v31) = Cert.Spec.sptOf (V (Proc.devRef .tc main_arg2)) := by
  have e : StableHlo.after (hostOps3 (F := Ideal)) V (Proc.devRef .tc main_v31)
      = transpose S2x4096x3 [0, 2, 1] (V (Proc.devRef .tc main_arg2) : S2x3x4096.Idx → EReal) transposes_S2x3x4096_S2x4096x3_0_2_1 := by
    after_results <;> rfl
  rw [e]; funext i
  rw [eq_ix3 i]
  exact transpose_ix3_021_apply _ _ (i 0) (i 1) (i 2)

theorem ops3_v32 (V : Valuation τ sig (Elt Ideal)) :
    StableHlo.after (hostOps3 (F := Ideal)) V (Proc.devRef .tc main_v32) = Cert.Spec.kptOf (V (Proc.devRef .tc main_arg9)) := by
  have e : StableHlo.after (hostOps3 (F := Ideal)) V (Proc.devRef .tc main_v32)
      = transpose S3x16 [1, 0] (V (Proc.devRef .tc main_arg9) : S16x3.Idx → EReal) transposes_S16x3_S3x16_1_0 := by
    after_results <;> rfl
  rw [e]; funext i
  rw [eq_ix2 i]
  exact transpose_ix2_apply _ _ (i 0) (i 1)

theorem ops3_v33 (V : Valuation τ sig (Elt Ideal)) :
    StableHlo.after (hostOps3 (F := Ideal)) V (Proc.devRef .tc main_v33) = Cert.Spec.row 64 (V (Proc.devRef .tc main_v15)) := by
  have e : StableHlo.after (hostOps3 (F := Ideal)) V (Proc.devRef .tc main_v33)
      = shapeCast S1x64 (V (Proc.devRef .tc main_v15) : S64.Idx → EReal) shapeCasts_S64_S1x64 := by
    after_results <;> rfl
  rw [e]; funext i
  rw [eq_ix2 i]
  exact shapeCast_a_1a_apply _ _ (i 0) (i 1)

theorem ops3_v34 (V : Valuation τ sig (Elt Ideal)) :
    StableHlo.after (hostOps3 (F := Ideal)) V (Proc.devRef .tc main_v34) = Cert.Spec.row 64 (V (Proc.devRef .tc main_v17)) := by
  have e : StableHlo.after (hostOps3 (F := Ideal)) V (Proc.devRef .tc main_v34)
      = shapeCast S1x64 (V (Proc.devRef .tc main_v17) : S64.Idx → EReal) shapeCasts_S64_S1x64 := by
    after_results <;> rfl
  rw [e]; funext i
  rw [eq_ix2 i]
  exact shapeCast_a_1a_apply _ _ (i 0) (i 1)

theorem ops3_v35 (V : Valuation τ sig (Elt Ideal)) :
    StableHlo.after (hostOps3 (F := Ideal)) V (Proc.devRef .tc main_v35) = Cert.Spec.row 64 (V (Proc.devRef .tc main_arg11)) := by
  have e : StableHlo.after (hostOps3 (F := Ideal)) V (Proc.devRef .tc main_v35)
      = shapeCast S1x64 (V (Proc.devRef .tc main_arg11) : S64.Idx → EReal) shapeCasts_S64_S1x64 := by
    after_results <;> rfl
  rw [e]; funext i
  rw [eq_ix2 i]
  exact shapeCast_a_1a_apply _ _ (i 0) (i 1)

end Cert.KernelIdeal.Glue

end
-- ==== Proof.Glue4.lean ====
import proofs.«214766_g21345987461187_cont_8to1_720_22_alg».proof.Proof.MainChain
import proofs.«214766_g21345987461187_cont_8to1_720_22_alg».proof.Proof.Spec
import proofs.«214766_g21345987461187_cont_8to1_720_22_alg».proof.Proof.SpecAt
import Idealize.ShloMosaic.Lib.ValueLayout
import Idealize.ShloMosaic.Lib.IdealHost

set_option maxRecDepth 16384

noncomputable section

namespace Cert.KernelIdeal.Glue

open Idealize.ShloMosaic Idealize.ShloMosaic.TcCoe Idealize.ShloMosaic.ValueIdx
open Cert.KernelIdeal Cert.KernelIdeal.Hand Cert.KernelIdeal.Facts₀ Cert.KernelIdeal.Facts

theorem ops4_v48_at (V : Valuation τ sig (Elt Ideal)) (o : Fin 64) :
    StableHlo.after (hostOps4 (F := Ideal)) V (Proc.devRef .tc main_v48) (ix1 o)
      = Cert.Spec.scaleOf (V (Proc.devRef .tc main_v36_1) (ix2 0 o)) (V (Proc.devRef .tc main_v36_2) (ix2 0 o)) Cert.Spec.cnt1W
          (V (Proc.devRef .tc main_arg12) (ix1 o)) := by
  after_results_simp
  have h1 : shapeCast S64 (V (Proc.devRef .tc main_v36_1)) shapeCasts_S1x64_S64 (ix1 o) = V (Proc.devRef .tc main_v36_1) (ix2 0 o) :=
    shapeCast_1a_a_apply _ _ o
  have h2 : shapeCast S64 (V (Proc.devRef .tc main_v36_2)) shapeCasts_S1x64_S64 (ix1 o) = V (Proc.devRef .tc main_v36_2) (ix2 0 o) :=
    shapeCast_1a_a_apply _ _ o
  show Cert.Spec.scaleOf (shapeCast S64 (V (Proc.devRef .tc main_v36_1)) shapeCasts_S1x64_S64 (ix1 o))
      (shapeCast S64 (V (Proc.devRef .tc main_v36_2)) shapeCasts_S1x64_S64 (ix1 o)) Cert.Spec.cnt1W
      (V (Proc.devRef .tc main_arg12) (ix1 o)) = _
  rw [h1, h2]

theorem ops4_v50_at (V : Valuation τ sig (Elt Ideal)) (o : Fin 64) :
    StableHlo.after (hostOps4 (F := Ideal)) V (Proc.devRef .tc main_v50) (ix1 o)
      = Cert.Spec.shiftOf (V (Proc.devRef .tc main_v36_1) (ix2 0 o)) Cert.Spec.cnt1W
          (Cert.Spec.scaleOf (V (Proc.devRef .tc main_v36_1) (ix2 0 o)) (V (Proc.devRef .tc main_v36_2) (ix2 0 o)) Cert.Spec.cnt1W
            (V (Proc.devRef .tc main_arg12) (ix1 o)))
          (V (Proc.devRef .tc main_arg13) (ix1 o)) := by
  after_results_simp
  have h1 : shapeCast S64 (V (Proc.devRef .tc main_v36_1)) shapeCasts_S1x64_S64 (ix1 o) = V (Proc.devRef .tc main_v36_1) (ix2 0 o) :=
    shapeCast_1a_a_apply _ _ o
  have h2 : shapeCast S64 (V (Proc.devRef .tc main_v36_2)) shapeCasts_S1x64_S64 (ix1 o) = V (Proc.devRef .tc main_v36_2) (ix2 0 o) :=
    shapeCast_1a_a_apply _ _ o
  show Cert.Spec.shiftOf (shapeCast S64 (V (Proc.devRef .tc main_v36_1)) shapeCasts_S1x64_S64 (ix1 o)) Cert.Spec.cnt1W
      (Cert.Spec.scaleOf (shapeCast S64 (V (Proc.devRef .tc main_v36_1)) shapeCasts_S1x64_S64 (ix1 o))
        (shapeCast S64 (V (Proc.devRef .tc main_v36_2)) shapeCasts_S1x64_S64 (ix1 o)) Cert.Spec.cnt1W
        (V (Proc.devRef .tc main_arg12) (ix1 o)))
      (V (Proc.devRef .tc main_arg13) (ix1 o)) = _
  rw [h1, h2]

theorem ops4_v51 (V : Valuation τ sig (Elt Ideal)) :
    StableHlo.after (hostOps4 (F := Ideal)) V (Proc.devRef .tc main_v51)
      = Cert.Spec.bnA 64 (V (Proc.devRef .tc main_v36_1)) (V (Proc.devRef .tc main_v36_2)) Cert.Spec.cnt1W
          (V (Proc.devRef .tc main_arg12)) := by
  have e : StableHlo.after (hostOps4 (F := Ideal)) V (Proc.devRef .tc main_v51)
      = shapeCast S1x64 (StableHlo.after (hostOps4 (F := Ideal)) V (Proc.devRef .tc main_v48)) shapeCasts_S64_S1x64 := by
    after_results_simp <;> rfl
  rw [e]; funext i; rw [eq_ix2 i]
  exact (shapeCast_a_1a_apply _ _ (i 0) (i 1)).trans (ops4_v48_at V (i 1))

theorem ops4_v52 (V : Valuation τ sig (Elt Ideal)) :
    StableHlo.after (hostOps4 (F := Ideal)) V (Proc.devRef .tc main_v52)
      = Cert.Spec.bnC 64 (V (Proc.devRef .tc main_v36_1)) Cert.Spec.cnt1W
          (Cert.Spec.bnA 64 (V (Proc.devRef .tc main_v36_1)) (V (Proc.devRef .tc main_v36_2)) Cert.Spec.cnt1W
            (V (Proc.devRef .tc main_arg12)))
          (V (Proc.devRef .tc main_arg13)) := by
  have e : StableHlo.after (hostOps4 (F := Ideal)) V (Proc.devRef .tc main_v52)
      = shapeCast S1x64 (StableHlo.after (hostOps4 (F := Ideal)) V (Proc.devRef .tc main_v50)) shapeCasts_S64_S1x64 := by
    after_results_simp <;> rfl
  rw [e]; funext i; rw [eq_ix2 i]
  exact (shapeCast_a_1a_apply _ _ (i 0) (i 1)).trans (ops4_v50_at V (i 1))

end Cert.KernelIdeal.Glue

end
-- ==== Proof.Glue5.lean ====
import proofs.«214766_g21345987461187_cont_8to1_720_22_alg».proof.Proof.MainChain
import proofs.«214766_g21345987461187_cont_8to1_720_22_alg».proof.Proof.Spec
import proofs.«214766_g21345987461187_cont_8to1_720_22_alg».proof.Proof.SpecAt
import Idealize.ShloMosaic.Lib.ValueLayout
import Idealize.ShloMosaic.Lib.IdealHost

set_option maxRecDepth 16384

noncomputable section

namespace Cert.KernelIdeal.Glue

open Idealize.ShloMosaic Idealize.ShloMosaic.TcCoe Idealize.ShloMosaic.ValueIdx
open Cert.KernelIdeal Cert.KernelIdeal.Hand Cert.KernelIdeal.Facts₀ Cert.KernelIdeal.Facts

theorem ops5_v53 (V : Valuation τ sig (Elt Ideal)) :
    StableHlo.after (hostOps5 (F := Ideal)) V (Proc.devRef .tc main_v53) = Cert.Spec.row 128 (V (Proc.devRef .tc main_arg15)) := by
  have e : StableHlo.after (hostOps5 (F := Ideal)) V (Proc.devRef .tc main_v53)
      = shapeCast S1x128 (V (Proc.devRef .tc main_arg15)) shapeCasts_S128_S1x128 := by
    after_results <;> rfl
  rw [e]; funext i
  rw [eq_ix2 i]
  exact shapeCast_a_1a_apply _ _ (i 0) (i 1)

end Cert.KernelIdeal.Glue

end
-- ==== Proof.Glue6.lean ====
import proofs.«214766_g21345987461187_cont_8to1_720_22_alg».proof.Proof.MainChain
import proofs.«214766_g21345987461187_cont_8to1_720_22_alg».proof.Proof.Spec
import proofs.«214766_g21345987461187_cont_8to1_720_22_alg».proof.Proof.SpecAt
import Idealize.ShloMosaic.Lib.ValueLayout
import Idealize.ShloMosaic.Lib.IdealHost

set_option maxRecDepth 16384

noncomputable section

namespace Cert.KernelIdeal.Glue

open Idealize.ShloMosaic Idealize.ShloMosaic.TcCoe Idealize.ShloMosaic.ValueIdx
open Cert.KernelIdeal Cert.KernelIdeal.Hand Cert.KernelIdeal.Facts₀ Cert.KernelIdeal.Facts

theorem ops6_v66_at (V : Valuation τ sig (Elt Ideal)) (o : Fin 128) :
    StableHlo.after (hostOps6 (F := Ideal)) V (Proc.devRef .tc main_v66) (ix1 o)
      = Cert.Spec.scaleOf (V (Proc.devRef .tc main_v54_2) (ix2 0 o)) (V (Proc.devRef .tc main_v54_3) (ix2 0 o)) Cert.Spec.cnt1W
          (V (Proc.devRef .tc main_arg16) (ix1 o)) := by
  after_results_simp
  have h1 : shapeCast S128 (V (Proc.devRef .tc main_v54_2)) shapeCasts_S1x128_S128 (ix1 o) = V (Proc.devRef .tc main_v54_2) (ix2 0 o) :=
    shapeCast_1a_a_apply _ _ o
  have h2 : shapeCast S128 (V (Proc.devRef .tc main_v54_3)) shapeCasts_S1x128_S128 (ix1 o) = V (Proc.devRef .tc main_v54_3) (ix2 0 o) :=
    shapeCast_1a_a_apply _ _ o
  show Cert.Spec.scaleOf (shapeCast S128 (V (Proc.devRef .tc main_v54_2)) shapeCasts_S1x128_S128 (ix1 o))
      (shapeCast S128 (V (Proc.devRef .tc main_v54_3)) shapeCasts_S1x128_S128 (ix1 o)) Cert.Spec.cnt1W
      (V (Proc.devRef .tc main_arg16) (ix1 o)) = _
  rw [h1, h2]

theorem ops6_v68_at (V : Valuation τ sig (Elt Ideal)) (o : Fin 128) :
    StableHlo.after (hostOps6 (F := Ideal)) V (Proc.devRef .tc main_v68) (ix1 o)
      = Cert.Spec.shiftOf (V (Proc.devRef .tc main_v54_2) (ix2 0 o)) Cert.Spec.cnt1W
          (Cert.Spec.scaleOf (V (Proc.devRef .tc main_v54_2) (ix2 0 o)) (V (Proc.devRef .tc main_v54_3) (ix2 0 o)) Cert.Spec.cnt1W
            (V (Proc.devRef .tc main_arg16) (ix1 o)))
          (V (Proc.devRef .tc main_arg17) (ix1 o)) := by
  after_results_simp
  have h1 : shapeCast S128 (V (Proc.devRef .tc main_v54_2)) shapeCasts_S1x128_S128 (ix1 o) = V (Proc.devRef .tc main_v54_2) (ix2 0 o) :=
    shapeCast_1a_a_apply _ _ o
  have h2 : shapeCast S128 (V (Proc.devRef .tc main_v54_3)) shapeCasts_S1x128_S128 (ix1 o) = V (Proc.devRef .tc main_v54_3) (ix2 0 o) :=
    shapeCast_1a_a_apply _ _ o
  show Cert.Spec.shiftOf (shapeCast S128 (V (Proc.devRef .tc main_v54_2)) shapeCasts_S1x128_S128 (ix1 o)) Cert.Spec.cnt1W
      (Cert.Spec.scaleOf (shapeCast S128 (V (Proc.devRef .tc main_v54_2)) shapeCasts_S1x128_S128 (ix1 o))
        (shapeCast S128 (V (Proc.devRef .tc main_v54_3)) shapeCasts_S1x128_S128 (ix1 o)) Cert.Spec.cnt1W
        (V (Proc.devRef .tc main_arg16) (ix1 o)))
      (V (Proc.devRef .tc main_arg17) (ix1 o)) = _
  rw [h1, h2]

theorem ops6_v69 (V : Valuation τ sig (Elt Ideal)) :
    StableHlo.after (hostOps6 (F := Ideal)) V (Proc.devRef .tc main_v69)
      = Cert.Spec.bnA 128 (V (Proc.devRef .tc main_v54_2)) (V (Proc.devRef .tc main_v54_3)) Cert.Spec.cnt1W
          (V (Proc.devRef .tc main_arg16)) := by
  have e : StableHlo.after (hostOps6 (F := Ideal)) V (Proc.devRef .tc main_v69)
      = shapeCast S1x128 (StableHlo.after (hostOps6 (F := Ideal)) V (Proc.devRef .tc main_v66)) shapeCasts_S128_S1x128 := by
    after_results_simp <;> rfl
  rw [e]; funext i; rw [eq_ix2 i]
  exact (shapeCast_a_1a_apply _ _ (i 0) (i 1)).trans (ops6_v66_at V (i 1))

theorem ops6_v70 (V : Valuation τ sig (Elt Ideal)) :
    StableHlo.after (hostOps6 (F := Ideal)) V (Proc.devRef .tc main_v70)
      = Cert.Spec.bnC 128 (V (Proc.devRef .tc main_v54_2)) Cert.Spec.cnt1W
          (Cert.Spec.bnA 128 (V (Proc.devRef .tc main_v54_2)) (V (Proc.devRef .tc main_v54_3)) Cert.Spec.cnt1W
            (V (Proc.devRef .tc main_arg16)))
          (V (Proc.devRef .tc main_arg17)) := by
  have e : StableHlo.after (hostOps6 (F := Ideal)) V (Proc.devRef .tc main_v70)
      = shapeCast S1x128 (StableHlo.after (hostOps6 (F := Ideal)) V (Proc.devRef .tc main_v68)) shapeCasts_S128_S1x128 := by
    after_results_simp <;> rfl
  rw [e]; funext i; rw [eq_ix2 i]
  exact (shapeCast_a_1a_apply _ _ (i 0) (i 1)).trans (ops6_v68_at V (i 1))

end Cert.KernelIdeal.Glue

end
-- ==== Proof.Launch.Stages.lean ====
import proofs.«214766_g21345987461187_cont_8to1_720_22_alg».proof.Proof.Launch.KerValue
import proofs.«214766_g21345987461187_cont_8to1_720_22_alg».proof.Proof.Glue0
import proofs.«214766_g21345987461187_cont_8to1_720_22_alg».proof.Proof.Glue1
import proofs.«214766_g21345987461187_cont_8to1_720_22_alg».proof.Proof.Glue2
import proofs.«214766_g21345987461187_cont_8to1_720_22_alg».proof.Proof.Glue3
import proofs.«214766_g21345987461187_cont_8to1_720_22_alg».proof.Proof.Glue4
import proofs.«214766_g21345987461187_cont_8to1_720_22_alg».proof.Proof.Glue5
import proofs.«214766_g21345987461187_cont_8to1_720_22_alg».proof.Proof.Glue6

set_option maxRecDepth 16384

noncomputable section

namespace Cert.KernelIdeal.Launch

open Cert.KernelIdeal Cert.KernelIdeal.Gen Cert.KernelIdeal.Sc Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]

section Stages
variable (m : (ℓ : Loc nD τ sig) → Buf (Elt Ideal) ℓ) (d : Dev nD)

theorem stageFacts
    (r0_y0t : (dat0 m d).arrAt 4 cfg0.N = Cert.Spec.y0t (W1 m d (Proc.devRef .tc main_arg0)) (W1 m d (Proc.devRef .tc main_v1))
      (W1 m d (Proc.devRef .tc main_arg5)) (W1 m d (Proc.devRef .tc main_v2)))
    (r0_xt : (dat0 m d).arrAt 5 cfg0.N = Cert.Spec.xt (W1 m d (Proc.devRef .tc main_arg0)))
    (r0_s1 : (dat0 m d).arrAt 6 cfg0.N = Cert.Spec.colSum 16384 64 (Cert.Spec.y0 (W1 m d (Proc.devRef .tc main_arg0))
      (W1 m d (Proc.devRef .tc main_arg5)) (W1 m d (Proc.devRef .tc main_v2))))
    (r0_s2 : (dat0 m d).arrAt 7 cfg0.N = Cert.Spec.colSumSq 16384 64 (Cert.Spec.y0 (W1 m d (Proc.devRef .tc main_arg0))
      (W1 m d (Proc.devRef .tc main_arg5)) (W1 m d (Proc.devRef .tc main_v2))))
    (r3_y1 : (dat3 m d).arrAt 8 cfg3.N = Cert.Spec.pointConv (W7 m d (Proc.devRef .tc main_v29)) (W7 m d (Proc.devRef .tc main_v31))
      (W7 m d (Proc.devRef .tc main_v0)) (W7 m d (Proc.devRef .tc main_v32)) (W7 m d (Proc.devRef .tc main_arg10))
      (W7 m d (Proc.devRef .tc main_v33)) (W7 m d (Proc.devRef .tc main_v34)) (W7 m d (Proc.devRef .tc main_v35)))
    (r3_s1 : (dat3 m d).arrAt 9 cfg3.N = Cert.Spec.colSum 4096 64 (Cert.Spec.pointConv (W7 m d (Proc.devRef .tc main_v29)) (W7 m d (Proc.devRef .tc main_v31))
      (W7 m d (Proc.devRef .tc main_v0)) (W7 m d (Proc.devRef .tc main_v32)) (W7 m d (Proc.devRef .tc main_arg10))
      (W7 m d (Proc.devRef .tc main_v33)) (W7 m d (Proc.devRef .tc main_v34)) (W7 m d (Proc.devRef .tc main_v35))))
    (r3_s2 : (dat3 m d).arrAt 10 cfg3.N = Cert.Spec.colSumSq 4096 64 (Cert.Spec.pointConv (W7 m d (Proc.devRef .tc main_v29)) (W7 m d (Proc.devRef .tc main_v31))
      (W7 m d (Proc.devRef .tc main_v0)) (W7 m d (Proc.devRef .tc main_v32)) (W7 m d (Proc.devRef .tc main_arg10))
      (W7 m d (Proc.devRef .tc main_v33)) (W7 m d (Proc.devRef .tc main_v34)) (W7 m d (Proc.devRef .tc main_v35))))
    (r4_y2 : (dat4 m d).arrAt 7 cfg4.N = Cert.Spec.conv2 (W10 m d (Proc.devRef .tc main_v36_0)) (W10 m d (Proc.devRef .tc main_v51))
      (W10 m d (Proc.devRef .tc main_v52)) (W10 m d (Proc.devRef .tc main_arg14)) (W10 m d (Proc.devRef .tc main_v53)))
    (r4_xs : (dat4 m d).arrAt 8 cfg4.N = Cert.Spec.pool (W10 m d (Proc.devRef .tc main_v30)) (W10 m d (Proc.devRef .tc main_v0)))
    (r4_s1 : (dat4 m d).arrAt 9 cfg4.N = Cert.Spec.colSum 4096 128 (Cert.Spec.conv2 (W10 m d (Proc.devRef .tc main_v36_0)) (W10 m d (Proc.devRef .tc main_v51))
      (W10 m d (Proc.devRef .tc main_v52)) (W10 m d (Proc.devRef .tc main_arg14)) (W10 m d (Proc.devRef .tc main_v53))))
    (r4_s2 : (dat4 m d).arrAt 10 cfg4.N = Cert.Spec.colSumSq 4096 128 (Cert.Spec.conv2 (W10 m d (Proc.devRef .tc main_v36_0)) (W10 m d (Proc.devRef .tc main_v51))
      (W10 m d (Proc.devRef .tc main_v52)) (W10 m d (Proc.devRef .tc main_arg14)) (W10 m d (Proc.devRef .tc main_v53)))) :
    StageFacts m d where
  h0_mask := Cert.KernelIdeal.Glue.ops0_v0 (W0 m d)
  h0_post := Cert.KernelIdeal.Glue.ops0_v1 (W0 m d)
  h0_b0 := Cert.KernelIdeal.Glue.ops0_v2 (W0 m d)
  r0_y0t := r0_y0t
  r0_xt := r0_xt
  r0_s1 := r0_s1
  r0_s2 := r0_s2
  h1_a0 := Cert.KernelIdeal.Glue.ops1_v15 (W2 m d)
  h1_c0 := Cert.KernelIdeal.Glue.ops1_v17 (W2 m d)
  h1_idx := Cert.KernelIdeal.Glue.ops1_v24 (W2 m d)
  h1_T1 := Cert.KernelIdeal.Glue.ops1_v25 (W2 m d)
  h2_T2 := Cert.KernelIdeal.Glue.ops2_v27 (W4 m d)
  h3_gf := Cert.KernelIdeal.Glue.ops3_v29 (W6 m d)
  h3_gx := Cert.KernelIdeal.Glue.ops3_v30 (W6 m d)
  h3_spt := Cert.KernelIdeal.Glue.ops3_v31 (W6 m d)
  h3_kpt := Cert.KernelIdeal.Glue.ops3_v32 (W6 m d)
  h3_a0 := Cert.KernelIdeal.Glue.ops3_v33 (W6 m d)
  h3_c0 := Cert.KernelIdeal.Glue.ops3_v34 (W6 m d)
  h3_bk := Cert.KernelIdeal.Glue.ops3_v35 (W6 m d)
  r3_y1 := r3_y1
  r3_s1 := r3_s1
  r3_s2 := r3_s2
  h4_a1 := Cert.KernelIdeal.Glue.ops4_v51 (W8 m d)
  h4_c1 := Cert.KernelIdeal.Glue.ops4_v52 (W8 m d)
  h5_b2 := Cert.KernelIdeal.Glue.ops5_v53 (W9 m d)
  r4_y2 := r4_y2
  r4_xs := r4_xs
  r4_s1 := r4_s1
  r4_s2 := r4_s2
  h6_a2 := Cert.KernelIdeal.Glue.ops6_v69 (W11 m d)
  h6_c2 := Cert.KernelIdeal.Glue.ops6_v70 (W11 m d)

theorem kernel_value_of_regions
    (r0_y0t : (dat0 m d).arrAt 4 cfg0.N = Cert.Spec.y0t (W1 m d (Proc.devRef .tc main_arg0)) (W1 m d (Proc.devRef .tc main_v1))
      (W1 m d (Proc.devRef .tc main_arg5)) (W1 m d (Proc.devRef .tc main_v2)))
    (r0_xt : (dat0 m d).arrAt 5 cfg0.N = Cert.Spec.xt (W1 m d (Proc.devRef .tc main_arg0)))
    (r0_s1 : (dat0 m d).arrAt 6 cfg0.N = Cert.Spec.colSum 16384 64 (Cert.Spec.y0 (W1 m d (Proc.devRef .tc main_arg0))
      (W1 m d (Proc.devRef .tc main_arg5)) (W1 m d (Proc.devRef .tc main_v2))))
    (r0_s2 : (dat0 m d).arrAt 7 cfg0.N = Cert.Spec.colSumSq 16384 64 (Cert.Spec.y0 (W1 m d (Proc.devRef .tc main_arg0))
      (W1 m d (Proc.devRef .tc main_arg5)) (W1 m d (Proc.devRef .tc main_v2))))
    (r3_y1 : (dat3 m d).arrAt 8 cfg3.N = Cert.Spec.pointConv (W7 m d (Proc.devRef .tc main_v29)) (W7 m d (Proc.devRef .tc main_v31))
      (W7 m d (Proc.devRef .tc main_v0)) (W7 m d (Proc.devRef .tc main_v32)) (W7 m d (Proc.devRef .tc main_arg10))
      (W7 m d (Proc.devRef .tc main_v33)) (W7 m d (Proc.devRef .tc main_v34)) (W7 m d (Proc.devRef .tc main_v35)))
    (r3_s1 : (dat3 m d).arrAt 9 cfg3.N = Cert.Spec.colSum 4096 64 (Cert.Spec.pointConv (W7 m d (Proc.devRef .tc main_v29)) (W7 m d (Proc.devRef .tc main_v31))
      (W7 m d (Proc.devRef .tc main_v0)) (W7 m d (Proc.devRef .tc main_v32)) (W7 m d (Proc.devRef .tc main_arg10))
      (W7 m d (Proc.devRef .tc main_v33)) (W7 m d (Proc.devRef .tc main_v34)) (W7 m d (Proc.devRef .tc main_v35))))
    (r3_s2 : (dat3 m d).arrAt 10 cfg3.N = Cert.Spec.colSumSq 4096 64 (Cert.Spec.pointConv (W7 m d (Proc.devRef .tc main_v29)) (W7 m d (Proc.devRef .tc main_v31))
      (W7 m d (Proc.devRef .tc main_v0)) (W7 m d (Proc.devRef .tc main_v32)) (W7 m d (Proc.devRef .tc main_arg10))
      (W7 m d (Proc.devRef .tc main_v33)) (W7 m d (Proc.devRef .tc main_v34)) (W7 m d (Proc.devRef .tc main_v35))))
    (r4_y2 : (dat4 m d).arrAt 7 cfg4.N = Cert.Spec.conv2 (W10 m d (Proc.devRef .tc main_v36_0)) (W10 m d (Proc.devRef .tc main_v51))
      (W10 m d (Proc.devRef .tc main_v52)) (W10 m d (Proc.devRef .tc main_arg14)) (W10 m d (Proc.devRef .tc main_v53)))
    (r4_xs : (dat4 m d).arrAt 8 cfg4.N = Cert.Spec.pool (W10 m d (Proc.devRef .tc main_v30)) (W10 m d (Proc.devRef .tc main_v0)))
    (r4_s1 : (dat4 m d).arrAt 9 cfg4.N = Cert.Spec.colSum 4096 128 (Cert.Spec.conv2 (W10 m d (Proc.devRef .tc main_v36_0)) (W10 m d (Proc.devRef .tc main_v51))
      (W10 m d (Proc.devRef .tc main_v52)) (W10 m d (Proc.devRef .tc main_arg14)) (W10 m d (Proc.devRef .tc main_v53))))
    (r4_s2 : (dat4 m d).arrAt 10 cfg4.N = Cert.Spec.colSumSq 4096 128 (Cert.Spec.conv2 (W10 m d (Proc.devRef .tc main_v36_0)) (W10 m d (Proc.devRef .tc main_v51))
      (W10 m d (Proc.devRef .tc main_v52)) (W10 m d (Proc.devRef .tc main_arg14)) (W10 m d (Proc.devRef .tc main_v53)))) :
    W13 m d (Proc.devRef .tc main_v71) = Cert.Spec.kerOut (m ((d : Thread nD τ).loc main_arg0)) (m ((d : Thread nD τ).loc main_arg1)) (m ((d : Thread nD τ).loc main_arg2)) (m ((d : Thread nD τ).loc main_arg3)) (m ((d : Thread nD τ).loc main_arg4)) (m ((d : Thread nD τ).loc main_arg5)) (m ((d : Thread nD τ).loc main_arg6)) (m ((d : Thread nD τ).loc main_arg7)) (m ((d : Thread nD τ).loc main_arg8)) (m ((d : Thread nD τ).loc main_arg9)) (m ((d : Thread nD τ).loc main_arg10)) (m ((d : Thread nD τ).loc main_arg11)) (m ((d : Thread nD τ).loc main_arg12)) (m ((d : Thread nD τ).loc main_arg13)) (m ((d : Thread nD τ).loc main_arg14)) (m ((d : Thread nD τ).loc main_arg15)) (m ((d : Thread nD τ).loc main_arg16)) (m ((d : Thread nD τ).loc main_arg17)) :=
  kernel_value m d (stageFacts m d r0_y0t r0_xt r0_s1 r0_s2 r3_y1 r3_s1 r3_s2 r4_y2 r4_xs r4_s1 r4_s2)

end Stages

end Cert.KernelIdeal.Launch

end
-- ==== Proof.R0.Out.lean ====
import proofs.«214766_g21345987461187_cont_8to1_720_22_alg».proof.Proof.R0.Data
import Idealize.ShloMosaic.Lib.Pipeline.Value
import Idealize.ShloMosaic.Lib.ValueIdx

set_option maxRecDepth 16384

noncomputable section

namespace Cert.KernelIdeal.R0

open Idealize.ShloMosaic Idealize.ShloMosaic.TcCoe Idealize.ShloMosaic.ValueIdx
open Idealize.SL Idealize.SL.RA Idealize.SL.BI
open scoped Idealize.SL.BI
open Idealize.SL.BI.BIBase Idealize.SL.Sem
open Idealize.ShloMosaic.Pipeline (Dat Cfg Window)
open Cert.KernelIdeal.Gen

variable {F : FTy → Type} [FloatOps F] {Ix : Type} [DecidableEq Ix] {Name : Type} [DecidableEq Name]
  {U : Type} [URA U] {Lvl : Type} [Preorder Lvl]

def ptB (p : ℕ) : Fin 2 := ⟨p / 16 % 2, Nat.mod_lt _ (by decide)⟩
def ptJ (p : ℕ) : Fin 16 := ⟨p % 16, Nat.mod_lt _ (by decide)⟩
def blkOf (n : Fin 16384) : Fin 16 := ⟨n.val / 1024, by have := n.isLt; omega⟩
def rowOf (n : Fin 16384) : Fin 1024 := ⟨n.val % 1024, Nat.mod_lt _ (by decide)⟩
def atRow (j : Fin 16) (r : Fin 1024) : Fin 16384 := ⟨j.val * 1024 + r.val, by have := j.isLt; have := r.isLt; omega⟩

def xBlk (X : Vec F S2x128x16384 .f32) (b : Fin 2) (j : Fin 16) : Vec F S1x128x1024 .f32 :=
  fun y => X (ix3 b (y 1) (atRow j (y 2)))
def ptBlk (PT : Vec F S2x16384x3 .f32) (b : Fin 2) (j : Fin 16) : Vec F S1x1024x3 .f32 :=
  fun y => PT (ix3 b (atRow j (y 1)) (y 2))

def y0tOut (X : Vec F S2x128x16384 .f32) (PT : Vec F S2x16384x3 .f32) (W0 : Vec F S64x128 .f32) (B0 : Vec F S1x64 .f32) :
    Vec F S2x16384x128 .f32 :=
  fun i => y0tTile (xBlk X (i 0) (blkOf (i 1))) (ptBlk PT (i 0) (blkOf (i 1))) W0 B0 (ix3 (0 : Fin 1) (rowOf (i 1)) (i 2))

def xtOut (X : Vec F S2x128x16384 .f32) : Vec F S2x16384x128 .f32 :=
  fun i => xtTile (xBlk X (i 0) (blkOf (i 1))) (ix3 (0 : Fin 1) (rowOf (i 1)) (i 2))

def s1Fold (X : Vec F S2x128x16384 .f32) (W0 : Vec F S64x128 .f32) (B0 : Vec F S1x64 .f32) : ℕ → Vec F S1x64 .f32
  | 0 => s1Step (xBlk X (ptB 0) (ptJ 0)) W0 B0 sZero1
  | n + 1 => s1Step (xBlk X (ptB (n + 1)) (ptJ (n + 1))) W0 B0 (s1Fold X W0 B0 n)
def s2Fold (X : Vec F S2x128x16384 .f32) (W0 : Vec F S64x128 .f32) (B0 : Vec F S1x64 .f32) : ℕ → Vec F S1x64 .f32
  | 0 => s2Step (xBlk X (ptB 0) (ptJ 0)) W0 B0 sZero2
  | n + 1 => s2Step (xBlk X (ptB (n + 1)) (ptJ (n + 1))) W0 B0 (s2Fold X W0 B0 n)

def s1Out (X : Vec F S2x128x16384 .f32) (W0 : Vec F S64x128 .f32) (B0 : Vec F S1x64 .f32) : Vec F S1x64 .f32 := s1Fold X W0 B0 31
def s2Out (X : Vec F S2x128x16384 .f32) (W0 : Vec F S64x128 .f32) (B0 : Vec F S1x64 .f32) : Vec F S1x64 .f32 := s2Fold X W0 B0 31

theorem y0tOut_at (X : Vec F S2x128x16384 .f32) (PT : Vec F S2x16384x3 .f32) (W0 : Vec F S64x128 .f32) (B0 : Vec F S1x64 .f32)
    (b : Fin 2) (j : Fin 16) (y : S1x1024x128.Idx) (i : S2x16384x128.Idx)
    (h0 : (i 0).val = b.val) (h1 : (i 1).val = j.val * 1024 + (y 1).val) (h2 : (i 2).val = (y 2).val) :
    y0tOut X PT W0 B0 i = y0tTile (xBlk X b j) (ptBlk PT b j) W0 B0 y := by
  have hy0 : (y 0).val < 1 := (y 0).isLt
  have hy1 : (y 1).val < 1024 := (y 1).isLt
  have eb : i 0 = b := Fin.ext h0
  have ej : blkOf (i 1) = j := Fin.ext (by show (i 1).val / 1024 = j.val; omega)
  have ey : ix3 (0 : Fin 1) (rowOf (i 1)) (i 2) = y := by
    funext a; apply Fin.ext
    match a with
    | ⟨0, _⟩ => show 0 = (y 0).val; omega
    | ⟨1, _⟩ => show (i 1).val % 1024 = (y 1).val; omega
    | ⟨2, _⟩ => exact h2
  unfold y0tOut
  rw [eb, ej]
  exact congrArg (y0tTile (xBlk X b j) (ptBlk PT b j) W0 B0) ey

theorem xtOut_at (X : Vec F S2x128x16384 .f32) (b : Fin 2) (j : Fin 16) (y : S1x1024x128.Idx) (i : S2x16384x128.Idx)
    (h0 : (i 0).val = b.val) (h1 : (i 1).val = j.val * 1024 + (y 1).val) (h2 : (i 2).val = (y 2).val) :
    xtOut X i = xtTile (xBlk X b j) y := by
  have hy0 : (y 0).val < 1 := (y 0).isLt
  have hy1 : (y 1).val < 1024 := (y 1).isLt
  have eb : i 0 = b := Fin.ext h0
  have ej : blkOf (i 1) = j := Fin.ext (by show (i 1).val / 1024 = j.val; omega)
  have ey : ix3 (0 : Fin 1) (rowOf (i 1)) (i 2) = y := by
    funext a; apply Fin.ext
    match a with
    | ⟨0, _⟩ => show 0 = (y 0).val; omega
    | ⟨1, _⟩ => show (i 1).val % 1024 = (y 1).val; omega
    | ⟨2, _⟩ => exact h2
  unfold xtOut
  rw [eb, ej]
  exact congrArg (xtTile (xBlk X b j)) ey

theorem idx_facts : ∀ t : Fin cfg0.N,
    win0_0.index t (0 : Fin 3) = t.val / 16 % 2 ∧ win0_0.index t (1 : Fin 3) = 0 ∧ win0_0.index t (2 : Fin 3) = t.val % 16
    ∧ win0_1.index t (0 : Fin 3) = t.val / 16 % 2 ∧ win0_1.index t (1 : Fin 3) = t.val % 16 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 16 % 2 ∧ win0_4.index t (1 : Fin 3) = t.val % 16 ∧ win0_4.index t (2 : Fin 3) = 0
    ∧ win0_5.index t (0 : Fin 3) = t.val / 16 % 2 ∧ win0_5.index t (1 : Fin 3) = t.val % 16 ∧ win0_5.index t (2 : Fin 3) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem idx_onto : ∀ (q0 : Fin 2) (q1 : Fin 16), ∃ t : Fin cfg0.N, t.val / 16 % 2 = q0.val ∧ t.val % 16 = q1.val :=
  (by decide +kernel : ∀ (q0 : Fin 2) (q1 : Fin 16), ∃ t : Fin grid0.N, t.val / 16 % 2 = q0.val ∧ t.val % 16 = q1.val)

variable (V : (c : Dev nD) → (b : Ref sig .tc) → Buf (Elt F) ((c : Thread nD τ).loc b))

theorem iblk_0 (c : Dev nD) (t : Fin cfg0.N) : iblk V c 0 t = xBlk (V c (Pipeline.arrRef spec0 0)) (ptB t.val) (ptJ t.val) := by
  obtain ⟨e0, e1, e2, -⟩ := idx_facts t
  funext y
  show (V c (Pipeline.arrRef spec0 0)) (((cfg0.win 0).blk t).view.emb y) = (V c (Pipeline.arrRef spec0 0)) (ix3 (ptB t.val) (y 1) (atRow (ptJ t.val) (y 2)))
  refine congrArg _ ?_
  funext a; apply Fin.ext
  match a with
  | ⟨0, _⟩ => show win0_0.index t (0 : Fin 3) * 1 + 1 * (y 0).val = t.val / 16 % 2; have hy : (y 0).val < 1 := (y 0).isLt; omega
  | ⟨1, _⟩ => show win0_0.index t (1 : Fin 3) * 128 + 1 * (y 1).val = (y 1).val; omega
  | ⟨2, _⟩ => show win0_0.index t (2 : Fin 3) * 1024 + 1 * (y 2).val = t.val % 16 * 1024 + (y 2).val; omega

theorem iblk_1 (c : Dev nD) (t : Fin cfg0.N) : iblk V c 1 t = ptBlk (V c (Pipeline.arrRef spec0 1)) (ptB t.val) (ptJ t.val) := by
  obtain ⟨-, -, -, e0, e1, e2, -⟩ := idx_facts t
  funext y
  show (V c (Pipeline.arrRef spec0 1)) (((cfg0.win 1).blk t).view.emb y) = (V c (Pipeline.arrRef spec0 1)) (ix3 (ptB t.val) (atRow (ptJ t.val) (y 1)) (y 2))
  refine congrArg _ ?_
  funext a; apply Fin.ext
  match a with
  | ⟨0, _⟩ => show win0_1.index t (0 : Fin 3) * 1 + 1 * (y 0).val = t.val / 16 % 2; have hy : (y 0).val < 1 := (y 0).isLt; omega
  | ⟨1, _⟩ => show win0_1.index t (1 : Fin 3) * 1024 + 1 * (y 1).val = t.val % 16 * 1024 + (y 1).val; omega
  | ⟨2, _⟩ => show win0_1.index t (2 : Fin 3) * 3 + 1 * (y 2).val = (y 2).val; omega

theorem iblk_2 (c : Dev nD) (t : Fin cfg0.N) : iblk V c 2 t = (V c (Pipeline.arrRef spec0 2)) := by
  obtain ⟨-, -, -, -, -, -, e0, e1, -⟩ := idx_facts t
  funext y
  show (V c (Pipeline.arrRef spec0 2)) (((cfg0.win 2).blk t).view.emb y) = (V c (Pipeline.arrRef spec0 2)) y
  refine congrArg _ ?_
  funext a; apply Fin.ext
  match a with
  | ⟨0, _⟩ => show win0_2.index t (0 : Fin 2) * 64 + 1 * (y 0).val = (y 0).val; omega
  | ⟨1, _⟩ => show win0_2.index t (1 : Fin 2) * 128 + 1 * (y 1).val = (y 1).val; omega

theorem iblk_3 (c : Dev nD) (t : Fin cfg0.N) : iblk V c 3 t = (V c (Pipeline.arrRef spec0 3)) := by
  obtain ⟨-, -, -, -, -, -, -, -, e0, e1, -⟩ := idx_facts t
  funext y
  show (V c (Pipeline.arrRef spec0 3)) (((cfg0.win 3).blk t).view.emb y) = (V c (Pipeline.arrRef spec0 3)) y
  refine congrArg _ ?_
  funext a; apply Fin.ext
  match a with
  | ⟨0, _⟩ => show win0_3.index t (0 : Fin 2) * 1 + 1 * (y 0).val = (y 0).val; omega
  | ⟨1, _⟩ => show win0_3.index t (1 : Fin 2) * 64 + 1 * (y 1).val = (y 1).val; omega

theorem s1At_eq (c : Dev nD) : ∀ (n : ℕ) (hn : n < cfg0.N), s1At V c n hn = s1Fold (V c (Pipeline.arrRef spec0 0)) (V c (Pipeline.arrRef spec0 2)) (V c (Pipeline.arrRef spec0 3)) n
  | 0, hn => by
    show s1Step (iblk V c 0 ⟨0, hn⟩) (iblk V c 2 ⟨0, hn⟩) (iblk V c 3 ⟨0, hn⟩) sZero1 = _
    rw [iblk_0, iblk_2, iblk_3]; rfl
  | n + 1, hn => by
    show s1Step (iblk V c 0 ⟨n + 1, hn⟩) (iblk V c 2 ⟨n + 1, hn⟩) (iblk V c 3 ⟨n + 1, hn⟩) (s1At V c n (Nat.lt_of_succ_lt hn)) = _
    rw [iblk_0, iblk_2, iblk_3, s1At_eq c n (Nat.lt_of_succ_lt hn)]; rfl

theorem s2At_eq (c : Dev nD) : ∀ (n : ℕ) (hn : n < cfg0.N), s2At V c n hn = s2Fold (V c (Pipeline.arrRef spec0 0)) (V c (Pipeline.arrRef spec0 2)) (V c (Pipeline.arrRef spec0 3)) n
  | 0, hn => by
    show s2Step (iblk V c 0 ⟨0, hn⟩) (iblk V c 2 ⟨0, hn⟩) (iblk V c 3 ⟨0, hn⟩) sZero2 = _
    rw [iblk_0, iblk_2, iblk_3]; rfl
  | n + 1, hn => by
    show s2Step (iblk V c 0 ⟨n + 1, hn⟩) (iblk V c 2 ⟨n + 1, hn⟩) (iblk V c 3 ⟨n + 1, hn⟩) (s2At V c n (Nat.lt_of_succ_lt hn)) = _
    rw [iblk_0, iblk_2, iblk_3, s2At_eq c n (Nat.lt_of_succ_lt hn)]; rfl

variable (O : CellTallies nD τ sig Ix) (Rc : Set (SemLoc sig × Ix))
  (Ψ : Dev nD → sProp (MT nD τ sig Ix (Elt F) Name U Lvl))

theorem flushed_4 (c : Dev nD) (t : Fin cfg0.N) :
    (dat V O Rc Ψ c).flushed 4 t = ((cfg0.win 4).blk t).view.read (Elt F) (y0tOut (V c (Pipeline.arrRef spec0 0)) (V c (Pipeline.arrRef spec0 1)) (V c (Pipeline.arrRef spec0 2)) (V c (Pipeline.arrRef spec0 3))) := by
  show (cfg0.win 4).cut (grid0.coords t) ((dat V O Rc Ψ c).after 4 t) = _
  rw [after_4, iblk_0, iblk_1, iblk_2, iblk_3]
  obtain ⟨-, -, -, -, -, -, -, -, -, -, e0, e1, e2, -⟩ := idx_facts t
  funext y
  show y0tTile (xBlk (V c (Pipeline.arrRef spec0 0)) (ptB t.val) (ptJ t.val)) (ptBlk (V c (Pipeline.arrRef spec0 1)) (ptB t.val) (ptJ t.val)) (V c (Pipeline.arrRef spec0 2)) (V c (Pipeline.arrRef spec0 3)) y = (y0tOut (V c (Pipeline.arrRef spec0 0)) (V c (Pipeline.arrRef spec0 1)) (V c (Pipeline.arrRef spec0 2)) (V c (Pipeline.arrRef spec0 3))) (((cfg0.win 4).blk t).view.emb y)
  refine (y0tOut_at (V c (Pipeline.arrRef spec0 0)) (V c (Pipeline.arrRef spec0 1)) (V c (Pipeline.arrRef spec0 2)) (V c (Pipeline.arrRef spec0 3)) (ptB t.val) (ptJ t.val) y _ ?_ ?_ ?_).symm
  · show win0_4.index t (0 : Fin 3) * 1 + 1 * (y 0).val = t.val / 16 % 2
    have hy : (y 0).val < 1 := (y 0).isLt
    omega
  · show win0_4.index t (1 : Fin 3) * 1024 + 1 * (y 1).val = t.val % 16 * 1024 + (y 1).val
    omega
  · show win0_4.index t (2 : Fin 3) * 128 + 1 * (y 2).val = (y 2).val
    omega

theorem mem_blk_4 (t : Fin cfg0.N) (i : S2x16384x128.Idx) :
    i ∈ ((cfg0.win 4).blk t).view.set ↔ ∀ a : Fin 3, win0_4.index t a * S1x1024x128.size a ≤ (i a).val
      ∧ (i a).val < win0_4.index t a * S1x1024x128.size a + S1x1024x128.size a := by
  show i ∈ ((View.whole main_v3_0).slice (win0_4.rect t)).set ↔ _
  rw [View.set_slice_whole, Rect.mem_set_unit]
  exact Iff.rfl

theorem cover_4 (i : S2x16384x128.Idx) :
    ∃ t : Fin cfg0.N, (cfg0.win 4).flush t = true ∧ i ∈ ((cfg0.win 4).blk t).view.set := by
  have hi0 : (i 0).val < 2 := (i 0).isLt
  have hi1 : (i 1).val < 16384 := (i 1).isLt
  have hi2 : (i 2).val < 128 := (i 2).isLt
  obtain ⟨t, ht0, ht1⟩ := idx_onto ⟨(i 0).val, hi0⟩ ⟨(i 1).val / 1024, by omega⟩
  have ht0' : t.val / 16 % 2 = (i 0).val := ht0
  have ht1' : t.val % 16 = (i 1).val / 1024 := ht1
  obtain ⟨-, -, -, -, -, -, -, -, -, -, e0, e1, e2, -⟩ := idx_facts t
  refine ⟨t, flush0_4 t, ?_⟩
  rw [mem_blk_4]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 1024 ≤ (i 1).val ∧ (i 1).val < win0_4.index t (1 : Fin 3) * 1024 + 1024
    omega
  | ⟨2, _⟩ =>
    show win0_4.index t (2 : Fin 3) * 128 ≤ (i 2).val ∧ (i 2).val < win0_4.index t (2 : Fin 3) * 128 + 128
    omega

theorem arrAt_4 (c : Dev nD) : (dat V O Rc Ψ c).arrAt 4 cfg0.N = y0tOut (V c (Pipeline.arrRef spec0 0)) (V c (Pipeline.arrRef spec0 1)) (V c (Pipeline.arrRef spec0 2)) (V c (Pipeline.arrRef spec0 3)) :=
  (dat V O Rc Ψ c).arrAt_eq_of_cover 4 _ (fun t _ => flushed_4 V O Rc Ψ c t) cover_4

theorem flushed_5 (c : Dev nD) (t : Fin cfg0.N) :
    (dat V O Rc Ψ c).flushed 5 t = ((cfg0.win 5).blk t).view.read (Elt F) (xtOut (V c (Pipeline.arrRef spec0 0))) := by
  show (cfg0.win 5).cut (grid0.coords t) ((dat V O Rc Ψ c).after 5 t) = _
  rw [after_5, iblk_0]
  obtain ⟨-, -, -, -, -, -, -, -, -, -, -, -, -, e0, e1, e2, -⟩ := idx_facts t
  funext y
  show xtTile (xBlk (V c (Pipeline.arrRef spec0 0)) (ptB t.val) (ptJ t.val)) y = (xtOut (V c (Pipeline.arrRef spec0 0))) (((cfg0.win 5).blk t).view.emb y)
  refine (xtOut_at (V c (Pipeline.arrRef spec0 0)) (ptB t.val) (ptJ t.val) y _ ?_ ?_ ?_).symm
  · show win0_5.index t (0 : Fin 3) * 1 + 1 * (y 0).val = t.val / 16 % 2
    have hy : (y 0).val < 1 := (y 0).isLt
    omega
  · show win0_5.index t (1 : Fin 3) * 1024 + 1 * (y 1).val = t.val % 16 * 1024 + (y 1).val
    omega
  · show win0_5.index t (2 : Fin 3) * 128 + 1 * (y 2).val = (y 2).val
    omega

theorem mem_blk_5 (t : Fin cfg0.N) (i : S2x16384x128.Idx) :
    i ∈ ((cfg0.win 5).blk t).view.set ↔ ∀ a : Fin 3, win0_5.index t a * S1x1024x128.size a ≤ (i a).val
      ∧ (i a).val < win0_5.index t a * S1x1024x128.size a + S1x1024x128.size a := by
  show i ∈ ((View.whole main_v3_1).slice (win0_5.rect t)).set ↔ _
  rw [View.set_slice_whole, Rect.mem_set_unit]
  exact Iff.rfl

theorem cover_5 (i : S2x16384x128.Idx) :
    ∃ t : Fin cfg0.N, (cfg0.win 5).flush t = true ∧ i ∈ ((cfg0.win 5).blk t).view.set := by
  have hi0 : (i 0).val < 2 := (i 0).isLt
  have hi1 : (i 1).val < 16384 := (i 1).isLt
  have hi2 : (i 2).val < 128 := (i 2).isLt
  obtain ⟨t, ht0, ht1⟩ := idx_onto ⟨(i 0).val, hi0⟩ ⟨(i 1).val / 1024, by omega⟩
  have ht0' : t.val / 16 % 2 = (i 0).val := ht0
  have ht1' : t.val % 16 = (i 1).val / 1024 := ht1
  obtain ⟨-, -, -, -, -, -, -, -, -, -, -, -, -, e0, e1, e2, -⟩ := idx_facts t
  refine ⟨t, flush0_5 t, ?_⟩
  rw [mem_blk_5]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 1024 ≤ (i 1).val ∧ (i 1).val < win0_5.index t (1 : Fin 3) * 1024 + 1024
    omega
  | ⟨2, _⟩ =>
    show win0_5.index t (2 : Fin 3) * 128 ≤ (i 2).val ∧ (i 2).val < win0_5.index t (2 : Fin 3) * 128 + 128
    omega

theorem arrAt_5 (c : Dev nD) : (dat V O Rc Ψ c).arrAt 5 cfg0.N = xtOut (V c (Pipeline.arrRef spec0 0)) :=
  (dat V O Rc Ψ c).arrAt_eq_of_cover 5 _ (fun t _ => flushed_5 V O Rc Ψ c t) cover_5

theorem flush_6_last (t : Fin cfg0.N) (h : (cfg0.win 6).flush t = true) : t.val = 31 := by
  have h1 := (flush0_6 t).mp h
  have h2 : t.val < 32 := lt_of_lt_of_eq t.isLt (show cfg0.N = 32 from N_0)
  omega

theorem emb_6 (t : Fin cfg0.N) (y : S1x64.Idx) : ((cfg0.win 6).blk t).view.emb y = y := by
  obtain ⟨-, -, -, -, -, -, -, -, -, -, -, -, -, -, -, -, e0, e1, -⟩ := idx_facts t
  funext a; apply Fin.ext
  match a with
  | ⟨0, _⟩ => show win0_6.index t (0 : Fin 2) * 1 + 1 * (y 0).val = (y 0).val; omega
  | ⟨1, _⟩ => show win0_6.index t (1 : Fin 2) * 64 + 1 * (y 1).val = (y 1).val; omega

theorem flushed_6 (c : Dev nD) (t : Fin cfg0.N) (h : (cfg0.win 6).flush t = true) :
    (dat V O Rc Ψ c).flushed 6 t = ((cfg0.win 6).blk t).view.read (Elt F) (s1Out (V c (Pipeline.arrRef spec0 0)) (V c (Pipeline.arrRef spec0 2)) (V c (Pipeline.arrRef spec0 3))) := by
  have ht : t.val = 31 := flush_6_last t h
  show (cfg0.win 6).cut (grid0.coords t) ((dat V O Rc Ψ c).after 6 t) = _
  rw [after_6, s1At_eq]
  funext y
  show s1Fold (V c (Pipeline.arrRef spec0 0)) (V c (Pipeline.arrRef spec0 2)) (V c (Pipeline.arrRef spec0 3)) t.val y = (s1Out (V c (Pipeline.arrRef spec0 0)) (V c (Pipeline.arrRef spec0 2)) (V c (Pipeline.arrRef spec0 3))) (((cfg0.win 6).blk t).view.emb y)
  rw [emb_6 t y, ht]
  rfl

theorem mem_blk_6 (t : Fin cfg0.N) (i : S1x64.Idx) :
    i ∈ ((cfg0.win 6).blk t).view.set ↔ ∀ a : Fin 2, win0_6.index t a * S1x64.size a ≤ (i a).val
      ∧ (i a).val < win0_6.index t a * S1x64.size a + S1x64.size a := by
  show i ∈ ((View.whole main_v3_2).slice (win0_6.rect t)).set ↔ _
  rw [View.set_slice_whole, Rect.mem_set_unit]
  exact Iff.rfl

theorem cover_6 (i : S1x64.Idx) :
    ∃ t : Fin cfg0.N, (cfg0.win 6).flush t = true ∧ i ∈ ((cfg0.win 6).blk t).view.set := by
  have hi0 : (i 0).val < 1 := (i 0).isLt
  have hi1 : (i 1).val < 64 := (i 1).isLt
  have h31 : 31 < cfg0.N := lt_of_lt_of_eq (by decide : 31 < 32) (show cfg0.N = 32 from N_0).symm
  refine ⟨⟨31, h31⟩, (flush0_6 _).mpr rfl, ?_⟩
  rw [mem_blk_6]
  obtain ⟨-, -, -, -, -, -, -, -, -, -, -, -, -, -, -, -, e0, e1, -⟩ := idx_facts ⟨31, h31⟩
  intro a
  match a with
  | ⟨0, _⟩ =>
    show win0_6.index ⟨31, h31⟩ (0 : Fin 2) * 1 ≤ (i 0).val ∧ (i 0).val < win0_6.index ⟨31, h31⟩ (0 : Fin 2) * 1 + 1
    omega
  | ⟨1, _⟩ =>
    show win0_6.index ⟨31, h31⟩ (1 : Fin 2) * 64 ≤ (i 1).val ∧ (i 1).val < win0_6.index ⟨31, h31⟩ (1 : Fin 2) * 64 + 64
    omega

theorem arrAt_6 (c : Dev nD) : (dat V O Rc Ψ c).arrAt 6 cfg0.N = s1Out (V c (Pipeline.arrRef spec0 0)) (V c (Pipeline.arrRef spec0 2)) (V c (Pipeline.arrRef spec0 3)) :=
  (dat V O Rc Ψ c).arrAt_eq_of_cover 6 _ (fun t h => flushed_6 V O Rc Ψ c t h) cover_6

theorem flush_7_last (t : Fin cfg0.N) (h : (cfg0.win 7).flush t = true) : t.val = 31 := by
  have h1 := (flush0_7 t).mp h
  have h2 : t.val < 32 := lt_of_lt_of_eq t.isLt (show cfg0.N = 32 from N_0)
  omega

theorem emb_7 (t : Fin cfg0.N) (y : S1x64.Idx) : ((cfg0.win 7).blk t).view.emb y = y := by
  obtain ⟨-, -, -, -, -, -, -, -, -, -, -, -, -, -, -, -, -, -, e0, e1⟩ := idx_facts t
  funext a; apply Fin.ext
  match a with
  | ⟨0, _⟩ => show win0_7.index t (0 : Fin 2) * 1 + 1 * (y 0).val = (y 0).val; omega
  | ⟨1, _⟩ => show win0_7.index t (1 : Fin 2) * 64 + 1 * (y 1).val = (y 1).val; omega

theorem flushed_7 (c : Dev nD) (t : Fin cfg0.N) (h : (cfg0.win 7).flush t = true) :
    (dat V O Rc Ψ c).flushed 7 t = ((cfg0.win 7).blk t).view.read (Elt F) (s2Out (V c (Pipeline.arrRef spec0 0)) (V c (Pipeline.arrRef spec0 2)) (V c (Pipeline.arrRef spec0 3))) := by
  have ht : t.val = 31 := flush_7_last t h
  show (cfg0.win 7).cut (grid0.coords t) ((dat V O Rc Ψ c).after 7 t) = _
  rw [after_7, s2At_eq]
  funext y
  show s2Fold (V c (Pipeline.arrRef spec0 0)) (V c (Pipeline.arrRef spec0 2)) (V c (Pipeline.arrRef spec0 3)) t.val y = (s2Out (V c (Pipeline.arrRef spec0 0)) (V c (Pipeline.arrRef spec0 2)) (V c (Pipeline.arrRef spec0 3))) (((cfg0.win 7).blk t).view.emb y)
  rw [emb_7 t y, ht]
  rfl

theorem mem_blk_7 (t : Fin cfg0.N) (i : S1x64.Idx) :
    i ∈ ((cfg0.win 7).blk t).view.set ↔ ∀ a : Fin 2, win0_7.index t a * S1x64.size a ≤ (i a).val
      ∧ (i a).val < win0_7.index t a * S1x64.size a + S1x64.size a := by
  show i ∈ ((View.whole main_v3_3).slice (win0_7.rect t)).set ↔ _
  rw [View.set_slice_whole, Rect.mem_set_unit]
  exact Iff.rfl

theorem cover_7 (i : S1x64.Idx) :
    ∃ t : Fin cfg0.N, (cfg0.win 7).flush t = true ∧ i ∈ ((cfg0.win 7).blk t).view.set := by
  have hi0 : (i 0).val < 1 := (i 0).isLt
  have hi1 : (i 1).val < 64 := (i 1).isLt
  have h31 : 31 < cfg0.N := lt_of_lt_of_eq (by decide : 31 < 32) (show cfg0.N = 32 from N_0).symm
  refine ⟨⟨31, h31⟩, (flush0_7 _).mpr rfl, ?_⟩
  rw [mem_blk_7]
  obtain ⟨-, -, -, -, -, -, -, -, -, -, -, -, -, -, -, -, -, -, e0, e1⟩ := idx_facts ⟨31, h31⟩
  intro a
  match a with
  | ⟨0, _⟩ =>
    show win0_7.index ⟨31, h31⟩ (0 : Fin 2) * 1 ≤ (i 0).val ∧ (i 0).val < win0_7.index ⟨31, h31⟩ (0 : Fin 2) * 1 + 1
    omega
  | ⟨1, _⟩ =>
    show win0_7.index ⟨31, h31⟩ (1 : Fin 2) * 64 ≤ (i 1).val ∧ (i 1).val < win0_7.index ⟨31, h31⟩ (1 : Fin 2) * 64 + 64
    omega

theorem arrAt_7 (c : Dev nD) : (dat V O Rc Ψ c).arrAt 7 cfg0.N = s2Out (V c (Pipeline.arrRef spec0 0)) (V c (Pipeline.arrRef spec0 2)) (V c (Pipeline.arrRef spec0 3)) :=
  (dat V O Rc Ψ c).arrAt_eq_of_cover 7 _ (fun t h => flushed_7 V O Rc Ψ c t h) cover_7

end Cert.KernelIdeal.R0

end
-- ==== Proof.R0.Tile.lean ====
import proofs.«214766_g21345987461187_cont_8to1_720_22_alg».proof.Proof.R0.Data
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.R0

open Idealize.ShloMosaic Idealize.ShloMosaic.ValueIdx
open Cert.KernelIdeal.Gen

theorem shapeCast_1x64_self (v : Vec Ideal S1x64 .f32) : shapeCast S1x64 v shapeCasts_S1x64_S1x64 = v := by
  funext j
  exact shapeCast_apply v _ j j rfl

theorem yTile_apply (x : Vec Ideal S1x128x1024 .f32) (w0 : Vec Ideal S64x128 .f32) (b0 : Vec Ideal S1x64 .f32)
    (r : Fin 1024) (o : Fin 64) :
    yTile x w0 b0 (ix2 r o) = (∑ k : Fin 128, x (ix3 (0 : Fin 1) k r) * w0 (ix2 o k)) + b0 (ix2 (0 : Fin 1) o) := by
  dsimp only [yTile, k0_pay3, k0_pay2]
  refine (addf_apply _ _ _).trans ?_
  simp only [matmul]
  refine (congrArg₂ (· + ·) (Ideal.matmul_constant_zero_apply dot_S128x1024_S64x128_S1024x64_0_1_1_0_n_n none _ w0 (ix2 r o))
    ((broadcastTo_1b_ab_apply _ broadcasts_S1x64_S1024x64 r o).trans (congrFun (shapeCast_1x64_self b0) _))).trans ?_
  rw [← Equiv.sum_comp (contrEquiv1 dot_S128x1024_S64x128_S1024x64_0_1_1_0_n_n 128 rfl rfl).symm]
  congr 1
  refine Finset.sum_congr rfl fun k _ => ?_
  have ck := contrEquiv1_symm_val dot_S128x1024_S64x128_S1024x64_0_1_1_0_n_n 128 rfl rfl k
  have hl : dot_S128x1024_S64x128_S1024x64_0_1_1_0_n_n.lhsIdx (ix2 r o) ((contrEquiv1 dot_S128x1024_S64x128_S1024x64_0_1_1_0_n_n 128 rfl rfl).symm k) = ix2 k r := by
    funext ax; apply Fin.ext
    match ax with
    | ⟨0, _⟩ => simp [DotDims.lhsIdx, dot_S128x1024_S64x128_S1024x64_0_1_1_0_n_n]; exact ck
    | ⟨1, _⟩ => simp [DotDims.lhsIdx, dot_S128x1024_S64x128_S1024x64_0_1_1_0_n_n]; rfl
  have hr : dot_S128x1024_S64x128_S1024x64_0_1_1_0_n_n.rhsIdx (ix2 r o) ((contrEquiv1 dot_S128x1024_S64x128_S1024x64_0_1_1_0_n_n 128 rfl rfl).symm k) = ix2 o k := by
    funext ax; apply Fin.ext
    match ax with
    | ⟨0, _⟩ => simp [DotDims.rhsIdx, dot_S128x1024_S64x128_S1024x64_0_1_1_0_n_n]; rfl
    | ⟨1, _⟩ => simp [DotDims.rhsIdx, dot_S128x1024_S64x128_S1024x64_0_1_1_0_n_n]; exact ck
  rw [hl, hr, shapeCast_1ab_ab_apply]

theorem xtTile_apply (x : Vec Ideal S1x128x1024 .f32) (u : Fin 1) (r : Fin 1024) (col : Fin 128) :
    xtTile x (ix3 u r col) = x (ix3 (0 : Fin 1) col r) := by
  dsimp only [xtTile, k0_pay5, k0_pay2]
  rw [shapeCast_ab_1ab_apply, transpose_ix2_apply, shapeCast_1ab_ab_apply]

theorem colSum_tile (Y : FVec Ideal S1024x64 .f32) (o : Fin 64) :
    multiReduction .add [0] S64 Y 0x00000000#32 reduces_S1024x64_S64 (.inl rfl) rfl (ix1 o)
      = ∑ r : Fin 1024, Y (ix2 r o) := by
  refine (Ideal.multiReduction_add_single Y _ reduces_S1024x64_S64 _ _ (ix1 o)).trans ?_
  refine Finset.sum_congr rfl fun k _ => congrArg Y ?_
  funext a
  match a with
  | ⟨0, _⟩ => rfl
  | ⟨1, _⟩ => rfl

theorem s1Step_apply (x : Vec Ideal S1x128x1024 .f32) (w0 : Vec Ideal S64x128 .f32) (b0 : Vec Ideal S1x64 .f32)
    (acc : Vec Ideal S1x64 .f32) (u : Fin 1) (o : Fin 64) :
    s1Step x w0 b0 acc (ix2 u o) = acc (ix2 u o) + ∑ r : Fin 1024, yTile x w0 b0 (ix2 r o) := by
  dsimp only [s1Step, k0_pay8]
  show shapeCast S1x64 acc shapeCasts_S1x64_S1x64 (ix2 u o)
    + shapeCast S1x64 (multiReduction .add [0] S64 (k0_pay3 x w0 b0) 0x00000000#32 reduces_S1024x64_S64 (.inl rfl) rfl)
        shapeCasts_S64_S1x64 (ix2 u o) = _
  rw [shapeCast_1x64_self, shapeCast_a_1a_apply]
  exact congrArg (acc (ix2 u o) + ·) (colSum_tile (k0_pay3 x w0 b0) o)

theorem s2Step_apply (x : Vec Ideal S1x128x1024 .f32) (w0 : Vec Ideal S64x128 .f32) (b0 : Vec Ideal S1x64 .f32)
    (acc : Vec Ideal S1x64 .f32) (u : Fin 1) (o : Fin 64) :
    s2Step x w0 b0 acc (ix2 u o)
      = acc (ix2 u o) + ∑ r : Fin 1024, yTile x w0 b0 (ix2 r o) * yTile x w0 b0 (ix2 r o) := by
  dsimp only [s2Step, k0_pay1]
  show shapeCast S1x64 acc shapeCasts_S1x64_S1x64 (ix2 u o)
    + shapeCast S1x64 (multiReduction .add [0] S64 (mulf (k0_pay3 x w0 b0) (k0_pay3 x w0 b0)) 0x00000000#32
        reduces_S1024x64_S64 (.inl rfl) rfl) shapeCasts_S64_S1x64 (ix2 u o) = _
  rw [shapeCast_1x64_self, shapeCast_a_1a_apply]
  exact congrArg (acc (ix2 u o) + ·) (colSum_tile (mulf (k0_pay3 x w0 b0) (k0_pay3 x w0 b0)) o)

theorem sZero1_apply (j : S1x64.Idx) : (sZero1 (F := Ideal)) j = 0 := by
  show Ideal.ofBits .f32 0x00000000#32 = 0
  exact Ideal.ofBits_zero_f32
theorem sZero2_apply (j : S1x64.Idx) : (sZero2 (F := Ideal)) j = 0 := by
  show Ideal.ofBits .f32 0x00000000#32 = 0
  exact Ideal.ofBits_zero_f32

abbrev y0tPieces (x : Vec Ideal S1x128x1024 .f32) (pt : Vec Ideal S1x1024x3 .f32) (w0 : Vec Ideal S64x128 .f32)
    (b0 : Vec Ideal S1x64 .f32) : List ((s : Shape) × (s.Idx → Elt Ideal .f32)) :=
  [⟨S1024x64, k0_pay3 x w0 b0⟩, ⟨S1024x3, shapeCast S1024x3 pt shapeCasts_S1x1024x3_S1024x3⟩,
    ⟨S1024x61, broadcast S1024x61 (Scalar.ofBits (F := Ideal) .f32 0x00000000#32)⟩]

theorem y0tTile_apply_lo (x : Vec Ideal S1x128x1024 .f32) (pt : Vec Ideal S1x1024x3 .f32) (w0 : Vec Ideal S64x128 .f32)
    (b0 : Vec Ideal S1x64 .f32) (u : Fin 1) (r : Fin 1024) (col : Fin 128) (h : col.val < 64) :
    y0tTile x pt w0 b0 (ix3 u r col) = yTile x w0 b0 (ix2 r ⟨col.val, h⟩) := by
  dsimp only [y0tTile, k0_pay4]
  refine (shapeCast_ab_1ab_apply _ shapeCasts_S1024x128_S1x1024x128 u r col).trans ?_
  exact concatenate_apply_piece (t := S1024x128) (1 : Fin 2) (y0tPieces x pt w0 b0)
    (show Shape.Concatenates ((y0tPieces x pt w0 b0).map (·.1)) S1024x128 1 from concatenates_S1024x64_S1024x3_S1024x61_S1024x128_d1) (ix2 r col) 0 (show (0 : ℕ) < 3 by decide) S1024x64
    (k0_pay3 x w0 b0) rfl rfl 0 rfl (ix2 r ⟨col.val, h⟩)
    (fun b hb => match b with | ⟨0, _⟩ => rfl | ⟨1, _⟩ => absurd rfl hb) (Nat.zero_add _)

theorem y0tTile_apply_mid (x : Vec Ideal S1x128x1024 .f32) (pt : Vec Ideal S1x1024x3 .f32) (w0 : Vec Ideal S64x128 .f32)
    (b0 : Vec Ideal S1x64 .f32) (u : Fin 1) (r : Fin 1024) (col : Fin 128) (h1 : 64 ≤ col.val) (h2 : col.val < 67) :
    y0tTile x pt w0 b0 (ix3 u r col) = pt (ix3 (0 : Fin 1) r ⟨col.val - 64, by omega⟩) := by
  dsimp only [y0tTile, k0_pay4]
  refine (shapeCast_ab_1ab_apply _ shapeCasts_S1024x128_S1x1024x128 u r col).trans ?_
  refine (concatenate_apply_piece (t := S1024x128) (1 : Fin 2) (y0tPieces x pt w0 b0)
    (show Shape.Concatenates ((y0tPieces x pt w0 b0).map (·.1)) S1024x128 1 from concatenates_S1024x64_S1024x3_S1024x61_S1024x128_d1) (ix2 r col) 1 (show (1 : ℕ) < 3 by decide) S1024x3
    (shapeCast S1024x3 pt shapeCasts_S1x1024x3_S1024x3) rfl rfl 64 rfl (ix2 r ⟨col.val - 64, by omega⟩)
    (fun b hb => match b with | ⟨0, _⟩ => rfl | ⟨1, _⟩ => absurd rfl hb) (by show 64 + (col.val - 64) = col.val; omega)).trans ?_
  exact shapeCast_1ab_ab_apply pt shapeCasts_S1x1024x3_S1024x3 r _

theorem y0tTile_apply_hi (x : Vec Ideal S1x128x1024 .f32) (pt : Vec Ideal S1x1024x3 .f32) (w0 : Vec Ideal S64x128 .f32)
    (b0 : Vec Ideal S1x64 .f32) (u : Fin 1) (r : Fin 1024) (col : Fin 128) (h : 67 ≤ col.val) :
    y0tTile x pt w0 b0 (ix3 u r col) = Ideal.ofBits .f32 0x00000000#32 := by
  dsimp only [y0tTile, k0_pay4]
  refine (shapeCast_ab_1ab_apply _ shapeCasts_S1024x128_S1x1024x128 u r col).trans ?_
  have hc : col.val < 128 := col.isLt
  exact concatenate_apply_piece (t := S1024x128) (1 : Fin 2) (y0tPieces x pt w0 b0)
    (show Shape.Concatenates ((y0tPieces x pt w0 b0).map (·.1)) S1024x128 1 from concatenates_S1024x64_S1024x3_S1024x61_S1024x128_d1) (ix2 r col) 2 (show (2 : ℕ) < 3 by decide) S1024x61
    (broadcast S1024x61 (Scalar.ofBits (F := Ideal) .f32 0x00000000#32)) rfl rfl 67 rfl (ix2 r ⟨col.val - 67, by omega⟩)
    (fun b hb => match b with | ⟨0, _⟩ => rfl | ⟨1, _⟩ => absurd rfl hb) (by show 67 + (col.val - 67) = col.val; omega)

end Cert.KernelIdeal.R0

end
-- ==== Proof.LibGridSum.lean ====
import Mathlib.Algebra.BigOperators.Fin

open scoped BigOperators
open Finset

namespace Cert.GridSum

variable {M : Type*} [AddCommMonoid M]

theorem sum_range_mul (h : ℕ → M) (B J : ℕ) :
    ∑ p ∈ range (B * J), h p = ∑ b ∈ range B, ∑ j ∈ range J, h (b * J + j) := by
  induction B with
  | zero => simp
  | succ B ih => rw [Nat.add_mul, Nat.one_mul, sum_range_add, ih, sum_range_succ]

theorem sum_grid_rows_nat (B J R : ℕ) (g : ℕ → ℕ → M) :
    ∑ p ∈ range (B * J), ∑ r ∈ range R, g (p / J % B) (p % J * R + r) = ∑ b ∈ range B, ∑ n ∈ range (J * R), g b n := by
  rw [sum_range_mul]
  refine sum_congr rfl fun b hb => ?_
  rw [sum_range_mul (fun n => g b n) J R]
  refine sum_congr rfl fun j hj => ?_
  have hb' : b < B := mem_range.mp hb
  have hj' : j < J := mem_range.mp hj
  have e1 : (b * J + j) / J % B = b := by
    rw [Nat.add_comm, Nat.add_mul_div_right _ _ (Nat.zero_lt_of_lt hj'), Nat.div_eq_of_lt hj', Nat.zero_add,
      Nat.mod_eq_of_lt hb']
  have e2 : (b * J + j) % J = j := by
    rw [Nat.add_comm, Nat.add_mul_mod_self_right, Nat.mod_eq_of_lt hj']
  rw [e1, e2]

theorem row_lt {J R N : ℕ} (hJ : 0 < J) (hN : J * R = N) (p : ℕ) (r : Fin R) : p % J * R + r.val < N := by
  have h1 : p % J < J := Nat.mod_lt _ hJ
  calc p % J * R + r.val < p % J * R + R := Nat.add_lt_add_left r.isLt _
    _ = (p % J + 1) * R := by rw [Nat.add_mul, Nat.one_mul]
    _ ≤ J * R := Nat.mul_le_mul_right _ h1
    _ = N := hN

theorem sum_grid_rows (B J R : ℕ) {N : ℕ} (hB : 0 < B) (hJ : 0 < J) (hN : J * R = N) (f : Fin B → Fin N → M) :
    ∑ p ∈ range (B * J), ∑ r : Fin R, f ⟨p / J % B, Nat.mod_lt _ hB⟩ ⟨p % J * R + r.val, row_lt hJ hN p r⟩
      = ∑ b : Fin B, ∑ n : Fin N, f b n := by
  subst hN
  let g : ℕ → ℕ → M := fun b n => if hb : b < B then if hn : n < J * R then f ⟨b, hb⟩ ⟨n, hn⟩ else 0 else 0
  have hg : ∀ (b n : ℕ) (hb : b < B) (hn : n < J * R), g b n = f ⟨b, hb⟩ ⟨n, hn⟩ := fun b n hb hn => by
    simp only [g, dif_pos hb, dif_pos hn]
  calc ∑ p ∈ range (B * J), ∑ r : Fin R, f ⟨p / J % B, Nat.mod_lt _ hB⟩ ⟨p % J * R + r.val, row_lt hJ rfl p r⟩
      = ∑ p ∈ range (B * J), ∑ r ∈ range R, g (p / J % B) (p % J * R + r) := by
        refine sum_congr rfl fun p _ => ?_
        rw [← Fin.sum_univ_eq_sum_range (fun r => g (p / J % B) (p % J * R + r)) R]
        exact sum_congr rfl fun r _ => (hg _ _ (Nat.mod_lt _ hB) (row_lt hJ rfl p r)).symm
    _ = ∑ b ∈ range B, ∑ n ∈ range (J * R), g b n := sum_grid_rows_nat B J R g
    _ = ∑ b : Fin B, ∑ n : Fin (J * R), f b n := by
        rw [← Fin.sum_univ_eq_sum_range (fun b => ∑ n ∈ range (J * R), g b n) B]
        refine sum_congr rfl fun b _ => ?_
        rw [← Fin.sum_univ_eq_sum_range (fun n => g b.val n) (J * R)]
        exact sum_congr rfl fun n _ => hg _ _ b.isLt n.isLt

example (f : Fin 2 → Fin 16384 → M) :
    ∑ p ∈ range 32, ∑ r : Fin 1024, f ⟨p / 16 % 2, Nat.mod_lt _ (by decide)⟩ ⟨p % 16 * 1024 + r.val, row_lt (by decide) rfl p r⟩
      = ∑ b : Fin 2, ∑ n : Fin 16384, f b n :=
  sum_grid_rows 2 16 1024 (by decide) (by decide) rfl f

end Cert.GridSum
-- ==== Proof.R0.Value.lean ====
import proofs.«214766_g21345987461187_cont_8to1_720_22_alg».proof.Proof.R0.Out
import proofs.«214766_g21345987461187_cont_8to1_720_22_alg».proof.Proof.R0.Tile
import proofs.«214766_g21345987461187_cont_8to1_720_22_alg».proof.Proof.Spec
import proofs.«214766_g21345987461187_cont_8to1_720_22_alg».proof.Proof.LibGridSum

set_option maxRecDepth 16384

noncomputable section

open scoped BigOperators

namespace Cert.KernelIdeal.R0

open Idealize.ShloMosaic Idealize.ShloMosaic.ValueIdx
open Cert.KernelIdeal.Gen

theorem atRow_blkOf_rowOf (n : Fin 16384) : atRow (blkOf n) (rowOf n) = n := by
  apply Fin.ext
  show n.val / 1024 * 1024 + n.val % 1024 = n.val
  omega

theorem yTile_xBlk (X : Vec Ideal S2x128x16384 .f32) (W0 : Vec Ideal S64x128 .f32) (B0 : Vec Ideal S1x64 .f32)
    (b : Fin 2) (j : Fin 16) (r : Fin 1024) (o : Fin 64) :
    yTile (xBlk X b j) W0 B0 (ix2 r o) = Cert.Spec.y0 X W0 B0 (ix3 b (atRow j r) o) := by
  rw [yTile_apply]
  rfl

theorem y0tOut_eq (X : Vec Ideal S2x128x16384 .f32) (PT : Vec Ideal S2x16384x3 .f32) (W0 : Vec Ideal S64x128 .f32)
    (B0 : Vec Ideal S1x64 .f32) : y0tOut X PT W0 B0 = Cert.Spec.y0t X PT W0 B0 := by
  funext i
  obtain ⟨b, n, col, rfl⟩ : ∃ (b : Fin 2) (n : Fin 16384) (col : Fin 128), i = ix3 b n col := ⟨i 0, i 1, i 2, eq_ix3 i⟩
  show y0tTile (xBlk X b (blkOf n)) (ptBlk PT b (blkOf n)) W0 B0 (ix3 (0 : Fin 1) (rowOf n) col)
    = if h : col.val < 64 then Cert.Spec.y0 X W0 B0 (ix3 b n ⟨col.val, h⟩)
      else if h2 : col.val < 67 then PT (ix3 b n ⟨col.val - 64, by omega⟩) else Cert.Spec.zeroW
  by_cases h : col.val < 64
  · rw [dif_pos h, y0tTile_apply_lo _ _ _ _ _ _ _ h, yTile_xBlk, atRow_blkOf_rowOf]
  · rw [dif_neg h]
    by_cases h2 : col.val < 67
    · rw [dif_pos h2, y0tTile_apply_mid _ _ _ _ _ _ _ (by omega) h2]
      show PT (ix3 b (atRow (blkOf n) (rowOf n)) _) = _
      rw [atRow_blkOf_rowOf]
    · rw [dif_neg h2, y0tTile_apply_hi _ _ _ _ _ _ _ (by omega)]

theorem xtOut_eq (X : Vec Ideal S2x128x16384 .f32) : xtOut X = Cert.Spec.xt X := by
  funext i
  obtain ⟨b, n, col, rfl⟩ : ∃ (b : Fin 2) (n : Fin 16384) (col : Fin 128), i = ix3 b n col := ⟨i 0, i 1, i 2, eq_ix3 i⟩
  show xtTile (xBlk X b (blkOf n)) (ix3 (0 : Fin 1) (rowOf n) col) = X (ix3 b col n)
  rw [xtTile_apply]
  show X (ix3 b col (atRow (blkOf n) (rowOf n))) = _
  rw [atRow_blkOf_rowOf]

theorem s1Fold_apply (X : Vec Ideal S2x128x16384 .f32) (W0 : Vec Ideal S64x128 .f32) (B0 : Vec Ideal S1x64 .f32)
    (u : Fin 1) (o : Fin 64) : ∀ n : ℕ, s1Fold X W0 B0 n (ix2 u o)
      = ∑ p ∈ Finset.range (n + 1), ∑ r : Fin 1024, Cert.Spec.y0 X W0 B0 (ix3 (ptB p) (atRow (ptJ p) r) o)
  | 0 => by
    show s1Step (xBlk X (ptB 0) (ptJ 0)) W0 B0 sZero1 (ix2 u o) = _
    rw [s1Step_apply, sZero1_apply, zero_add, Finset.sum_range_one]
    exact Finset.sum_congr rfl fun r _ => yTile_xBlk X W0 B0 _ _ r o
  | n + 1 => by
    show s1Step (xBlk X (ptB (n + 1)) (ptJ (n + 1))) W0 B0 (s1Fold X W0 B0 n) (ix2 u o) = _
    rw [s1Step_apply, s1Fold_apply X W0 B0 u o n, Finset.sum_range_succ _ (n + 1)]
    exact congrArg _ (Finset.sum_congr rfl fun r _ => yTile_xBlk X W0 B0 _ _ r o)

theorem s2Fold_apply (X : Vec Ideal S2x128x16384 .f32) (W0 : Vec Ideal S64x128 .f32) (B0 : Vec Ideal S1x64 .f32)
    (u : Fin 1) (o : Fin 64) : ∀ n : ℕ, s2Fold X W0 B0 n (ix2 u o)
      = ∑ p ∈ Finset.range (n + 1), ∑ r : Fin 1024,
          Cert.Spec.y0 X W0 B0 (ix3 (ptB p) (atRow (ptJ p) r) o) * Cert.Spec.y0 X W0 B0 (ix3 (ptB p) (atRow (ptJ p) r) o)
  | 0 => by
    show s2Step (xBlk X (ptB 0) (ptJ 0)) W0 B0 sZero2 (ix2 u o) = _
    rw [s2Step_apply, sZero2_apply, zero_add, Finset.sum_range_one]
    exact Finset.sum_congr rfl fun r _ => by rw [yTile_xBlk]
  | n + 1 => by
    show s2Step (xBlk X (ptB (n + 1)) (ptJ (n + 1))) W0 B0 (s2Fold X W0 B0 n) (ix2 u o) = _
    rw [s2Step_apply, s2Fold_apply X W0 B0 u o n, Finset.sum_range_succ _ (n + 1)]
    exact congrArg _ (Finset.sum_congr rfl fun r _ => by rw [yTile_xBlk])

theorem s1Out_eq (X : Vec Ideal S2x128x16384 .f32) (W0 : Vec Ideal S64x128 .f32) (B0 : Vec Ideal S1x64 .f32) :
    s1Out X W0 B0 = Cert.Spec.colSum 16384 64 (Cert.Spec.y0 X W0 B0) := by
  funext i
  obtain ⟨u, o, rfl⟩ : ∃ (u : Fin 1) (o : Fin 64), i = ix2 u o := ⟨i 0, i 1, eq_ix2 i⟩
  show s1Fold X W0 B0 31 (ix2 u o) = ∑ b : Fin 2, ∑ n : Fin 16384, Cert.Spec.y0 X W0 B0 (ix3 b n o)
  rw [s1Fold_apply]
  exact Cert.GridSum.sum_grid_rows 2 16 1024 (by decide) (by decide) rfl
    (fun b n => Cert.Spec.y0 X W0 B0 (ix3 b n o))

theorem s2Out_eq (X : Vec Ideal S2x128x16384 .f32) (W0 : Vec Ideal S64x128 .f32) (B0 : Vec Ideal S1x64 .f32) :
    s2Out X W0 B0 = Cert.Spec.colSumSq 16384 64 (Cert.Spec.y0 X W0 B0) := by
  funext i
  obtain ⟨u, o, rfl⟩ : ∃ (u : Fin 1) (o : Fin 64), i = ix2 u o := ⟨i 0, i 1, eq_ix2 i⟩
  show s2Fold X W0 B0 31 (ix2 u o)
    = ∑ b : Fin 2, ∑ n : Fin 16384, Cert.Spec.y0 X W0 B0 (ix3 b n o) * Cert.Spec.y0 X W0 B0 (ix3 b n o)
  rw [s2Fold_apply]
  exact Cert.GridSum.sum_grid_rows 2 16 1024 (by decide) (by decide) rfl
    (fun b n => Cert.Spec.y0 X W0 B0 (ix3 b n o) * Cert.Spec.y0 X W0 B0 (ix3 b n o))

section Final

open Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {Ix : Type} [DecidableEq Ix] {Name : Type} [DecidableEq Name] {U : Type} [URA U] {Lvl : Type} [Preorder Lvl]
variable (V : (c : Dev nD) → (b : Ref sig .tc) → Buf (Elt Ideal) ((c : Thread nD τ).loc b))
  (O : CellTallies nD τ sig Ix) (Rc : Set (SemLoc sig × Ix))
  (Ψ : Dev nD → sProp (MT nD τ sig Ix (Elt Ideal) Name U Lvl))

theorem final_4 (c : Dev nD) : (dat V O Rc Ψ c).arrAt 4 cfg0.N
    = Cert.Spec.y0t (V c (Pipeline.arrRef spec0 0)) (V c (Pipeline.arrRef spec0 1)) (V c (Pipeline.arrRef spec0 2)) (V c (Pipeline.arrRef spec0 3)) :=
  (arrAt_4 V O Rc Ψ c).trans (y0tOut_eq _ _ _ _)

theorem final_5 (c : Dev nD) : (dat V O Rc Ψ c).arrAt 5 cfg0.N = Cert.Spec.xt (V c (Pipeline.arrRef spec0 0)) :=
  (arrAt_5 V O Rc Ψ c).trans (xtOut_eq _)

theorem final_6 (c : Dev nD) : (dat V O Rc Ψ c).arrAt 6 cfg0.N
    = Cert.Spec.colSum 16384 64 (Cert.Spec.y0 (V c (Pipeline.arrRef spec0 0)) (V c (Pipeline.arrRef spec0 2)) (V c (Pipeline.arrRef spec0 3))) :=
  (arrAt_6 V O Rc Ψ c).trans (s1Out_eq _ _ _)

theorem final_7 (c : Dev nD) : (dat V O Rc Ψ c).arrAt 7 cfg0.N
    = Cert.Spec.colSumSq 16384 64 (Cert.Spec.y0 (V c (Pipeline.arrRef spec0 0)) (V c (Pipeline.arrRef spec0 2)) (V c (Pipeline.arrRef spec0 3))) :=
  (arrAt_7 V O Rc Ψ c).trans (s2Out_eq _ _ _)

end Final

end Cert.KernelIdeal.R0

end
-- ==== Proof.R3.Pieces.lean ====
import proofs.«214766_g21345987461187_cont_8to1_720_22_alg».proof.Proof.R3.Data
import Idealize.ShloMosaic.Lib.Pipeline.Value

set_option maxRecDepth 16384

noncomputable section

namespace Cert.KernelIdeal.R3

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

def G69 (x0 : Vec F S1x512x16x128 .f32) (x1 : Vec F S1x512x3 .f32) (x2 : Vec F S1x512x16 .f32) (x3 : Vec F S3x16 .f32) (x4 : Vec F S16x64x64 .f32) (x5 x6 x7 : Vec F S1x64 .f32) : FVec F S512x16x64 .f32 :=
  k3_pay12 (k3_pay3 x0 x5 x6) (k3_pay4 (View.ld x3 (Rect.unit (s := S3x16) ![0, 0] S1x16.size inb_S3x16_S1x16_0_0))) (k3_pay5 (View.ld x3 (Rect.unit (s := S3x16) ![1, 0] S1x16.size inb_S3x16_S1x16_1_0))) (k3_pay6 (View.ld x3 (Rect.unit (s := S3x16) ![2, 0] S1x16.size inb_S3x16_S1x16_2_0))) (k3_pay8 x0 x1) (k3_pay9 x0 x1) (k3_pay10 x0) (k3_pay11 x1) x2

def A82 (x0 : Vec F S1x512x16x128 .f32) (x1 : Vec F S1x512x3 .f32) (x2 : Vec F S1x512x16 .f32) (x3 : Vec F S3x16 .f32) (x4 : Vec F S16x64x64 .f32) (x5 x6 x7 : Vec F S1x64 .f32) : FVec F S512x64 .f32 :=
  k3_pay13 (k3_pay3 x0 x5 x6) (k3_pay4 (View.ld x3 (Rect.unit (s := S3x16) ![0, 0] S1x16.size inb_S3x16_S1x16_0_0))) (k3_pay5 (View.ld x3 (Rect.unit (s := S3x16) ![1, 0] S1x16.size inb_S3x16_S1x16_1_0))) (k3_pay6 (View.ld x3 (Rect.unit (s := S3x16) ![2, 0] S1x16.size inb_S3x16_S1x16_2_0))) (k3_pay8 x0 x1) (k3_pay9 x0 x1) (k3_pay10 x0) (k3_pay11 x1) x2 (View.ld x4 (Rect.unit (s := S16x64x64) ![0, 0, 0] S1x64x64.size inb_S16x64x64_S1x64x64_0_0_0)) (View.ld x4 (Rect.unit (s := S16x64x64) ![1, 0, 0] S1x64x64.size inb_S16x64x64_S1x64x64_1_0_0))

def A118 (x0 : Vec F S1x512x16x128 .f32) (x1 : Vec F S1x512x3 .f32) (x2 : Vec F S1x512x16 .f32) (x3 : Vec F S3x16 .f32) (x4 : Vec F S16x64x64 .f32) (x5 x6 x7 : Vec F S1x64 .f32) : FVec F S512x64 .f32 :=
  k3_pay14 (G69 x0 x1 x2 x3 x4 x5 x6 x7) (A82 x0 x1 x2 x3 x4 x5 x6 x7) (View.ld x4 (Rect.unit (s := S16x64x64) ![2, 0, 0] S1x64x64.size inb_S16x64x64_S1x64x64_2_0_0)) (View.ld x4 (Rect.unit (s := S16x64x64) ![3, 0, 0] S1x64x64.size inb_S16x64x64_S1x64x64_3_0_0)) (View.ld x4 (Rect.unit (s := S16x64x64) ![4, 0, 0] S1x64x64.size inb_S16x64x64_S1x64x64_4_0_0)) (View.ld x4 (Rect.unit (s := S16x64x64) ![5, 0, 0] S1x64x64.size inb_S16x64x64_S1x64x64_5_0_0)) (View.ld x4 (Rect.unit (s := S16x64x64) ![6, 0, 0] S1x64x64.size inb_S16x64x64_S1x64x64_6_0_0)) (View.ld x4 (Rect.unit (s := S16x64x64) ![7, 0, 0] S1x64x64.size inb_S16x64x64_S1x64x64_7_0_0))

def A154 (x0 : Vec F S1x512x16x128 .f32) (x1 : Vec F S1x512x3 .f32) (x2 : Vec F S1x512x16 .f32) (x3 : Vec F S3x16 .f32) (x4 : Vec F S16x64x64 .f32) (x5 x6 x7 : Vec F S1x64 .f32) : FVec F S512x64 .f32 :=
  k3_pay15 (G69 x0 x1 x2 x3 x4 x5 x6 x7) (A118 x0 x1 x2 x3 x4 x5 x6 x7) (View.ld x4 (Rect.unit (s := S16x64x64) ![8, 0, 0] S1x64x64.size inb_S16x64x64_S1x64x64_8_0_0)) (View.ld x4 (Rect.unit (s := S16x64x64) ![9, 0, 0] S1x64x64.size inb_S16x64x64_S1x64x64_9_0_0)) (View.ld x4 (Rect.unit (s := S16x64x64) ![10, 0, 0] S1x64x64.size inb_S16x64x64_S1x64x64_10_0_0)) (View.ld x4 (Rect.unit (s := S16x64x64) ![11, 0, 0] S1x64x64.size inb_S16x64x64_S1x64x64_11_0_0)) (View.ld x4 (Rect.unit (s := S16x64x64) ![12, 0, 0] S1x64x64.size inb_S16x64x64_S1x64x64_12_0_0)) (View.ld x4 (Rect.unit (s := S16x64x64) ![13, 0, 0] S1x64x64.size inb_S16x64x64_S1x64x64_13_0_0))

def Y1 (x0 : Vec F S1x512x16x128 .f32) (x1 : Vec F S1x512x3 .f32) (x2 : Vec F S1x512x16 .f32) (x3 : Vec F S3x16 .f32) (x4 : Vec F S16x64x64 .f32) (x5 x6 x7 : Vec F S1x64 .f32) : Vec F S1x512x64 .f32 :=
  k3_pay17 (G69 x0 x1 x2 x3 x4 x5 x6 x7) (A154 x0 x1 x2 x3 x4 x5 x6 x7) (View.ld x4 (Rect.unit (s := S16x64x64) ![14, 0, 0] S1x64x64.size inb_S16x64x64_S1x64x64_14_0_0)) (View.ld x4 (Rect.unit (s := S16x64x64) ![15, 0, 0] S1x64x64.size inb_S16x64x64_S1x64x64_15_0_0)) x7

def Y170 (x0 : Vec F S1x512x16x128 .f32) (x1 : Vec F S1x512x3 .f32) (x2 : Vec F S1x512x16 .f32) (x3 : Vec F S3x16 .f32) (x4 : Vec F S16x64x64 .f32) (x5 x6 x7 : Vec F S1x64 .f32) : FVec F S512x64 .f32 :=
  k3_pay16 (G69 x0 x1 x2 x3 x4 x5 x6 x7) (A154 x0 x1 x2 x3 x4 x5 x6 x7) (View.ld x4 (Rect.unit (s := S16x64x64) ![14, 0, 0] S1x64x64.size inb_S16x64x64_S1x64x64_14_0_0)) (View.ld x4 (Rect.unit (s := S16x64x64) ![15, 0, 0] S1x64x64.size inb_S16x64x64_S1x64x64_15_0_0)) x7

def S1step (x0 : Vec F S1x512x16x128 .f32) (x1 : Vec F S1x512x3 .f32) (x2 : Vec F S1x512x16 .f32) (x3 : Vec F S3x16 .f32) (x4 : Vec F S16x64x64 .f32) (x5 x6 x7 : Vec F S1x64 .f32) (s : Vec F S1x64 .f32) : Vec F S1x64 .f32 :=
  k3_pay20 (G69 x0 x1 x2 x3 x4 x5 x6 x7) (A154 x0 x1 x2 x3 x4 x5 x6 x7) (View.ld x4 (Rect.unit (s := S16x64x64) ![14, 0, 0] S1x64x64.size inb_S16x64x64_S1x64x64_14_0_0)) (View.ld x4 (Rect.unit (s := S16x64x64) ![15, 0, 0] S1x64x64.size inb_S16x64x64_S1x64x64_15_0_0)) x7 s

def S2step (x0 : Vec F S1x512x16x128 .f32) (x1 : Vec F S1x512x3 .f32) (x2 : Vec F S1x512x16 .f32) (x3 : Vec F S3x16 .f32) (x4 : Vec F S16x64x64 .f32) (x5 x6 x7 : Vec F S1x64 .f32) (s : Vec F S1x64 .f32) : Vec F S1x64 .f32 :=
  k3_pay1 (k3_pay21 s) (k3_pay22 (G69 x0 x1 x2 x3 x4 x5 x6 x7) (A154 x0 x1 x2 x3 x4 x5 x6 x7) (View.ld x4 (Rect.unit (s := S16x64x64) ![14, 0, 0] S1x64x64.size inb_S16x64x64_S1x64x64_14_0_0)) (View.ld x4 (Rect.unit (s := S16x64x64) ![15, 0, 0] S1x64x64.size inb_S16x64x64_S1x64x64_15_0_0)) x7)

section
variable (c : Dev nD) (i : grid3.Coords) (arg2 : Memref sig .tc .vmem S1x512x16x128 .f32) (harg2 : arg2.IsWhole) (arg3 : Memref sig .tc .vmem S1x512x3 .f32) (harg3 : arg3.IsWhole) (arg4 : Memref sig .tc .vmem S1x512x16 .f32) (harg4 : arg4.IsWhole) (arg5 : Memref sig .tc .vmem S3x16 .f32) (harg5 : arg5.IsWhole) (arg6 : Memref sig .tc .vmem S16x64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x512x64 .f32) (harg10 : arg10.IsWhole) (arg11 : Memref sig .tc .vmem S1x64 .f32) (harg11 : arg11.IsWhole) (arg12 : Memref sig .tc .vmem S1x64 .f32) (harg12 : arg12.IsWhole)

theorem outA8_eq (hc0 : cond i)
    (x0 : Vec F S1x512x16x128 .f32) (x1 : Vec F S1x512x3 .f32) (x2 : Vec F S1x512x16 .f32) (x3 : Vec F S3x16 .f32) (x4 : Vec F S16x64x64 .f32) (x5 x6 x7 : Vec F S1x64 .f32) :
    outA8 c i arg2 harg2 arg3 harg3 arg4 harg4 arg5 harg5 arg6 harg6 arg7 harg7 arg8 harg8 arg9 harg9 arg10 harg10 arg11 harg11 arg12 harg12 hc0 x0 x1 x2 x3 x4 x5 x6 x7 = Y1 x0 x1 x2 x3 x4 x5 x6 x7 := by
  unfold outA8
  rw [View.read_writes_eq_canon _ _ _ (coverA8 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun_A
  dsimp only
  sl_unfold_words
  rw [View.canon_unit_zero hz3]
  unfold Y1 A154 A118 A82 G69
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S1x512x16x128) hz4, View.ld_unit_zero (S := S1x512x3) hz3, View.ld_unit_zero (S := S1x512x16) hz3,
    View.ld_unit_zero (S := S1x64) hz2, View.readCov_unit_zero (S := S1x64) _ hz2]

theorem outB8_eq (hc0 : ¬cond i)
    (x0 : Vec F S1x512x16x128 .f32) (x1 : Vec F S1x512x3 .f32) (x2 : Vec F S1x512x16 .f32) (x3 : Vec F S3x16 .f32) (x4 : Vec F S16x64x64 .f32) (x5 x6 x7 : Vec F S1x64 .f32) (xo9 xo10 : Vec F S1x64 .f32) :
    outB8 c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10 = Y1 x0 x1 x2 x3 x4 x5 x6 x7 := by
  unfold outB8
  rw [View.read_writes_eq_canon _ _ _ (coverB8 c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10)]
  unfold kernelRun_B
  dsimp only
  sl_unfold_words
  rw [View.canon_unit_zero hz3]
  unfold Y1 A154 A118 A82 G69
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S1x512x16x128) hz4, View.ld_unit_zero (S := S1x512x3) hz3, View.ld_unit_zero (S := S1x512x16) hz3,
    View.ld_unit_zero (S := S1x64) hz2, View.readCov_unit_zero (S := S1x64) _ hz2]

theorem outA9_eq (hc0 : cond i)
    (x0 : Vec F S1x512x16x128 .f32) (x1 : Vec F S1x512x3 .f32) (x2 : Vec F S1x512x16 .f32) (x3 : Vec F S3x16 .f32) (x4 : Vec F S16x64x64 .f32) (x5 x6 x7 : Vec F S1x64 .f32) :
    outA9 c i arg2 harg2 arg3 harg3 arg4 harg4 arg5 harg5 arg6 harg6 arg7 harg7 arg8 harg8 arg9 harg9 arg10 harg10 arg11 harg11 arg12 harg12 hc0 x0 x1 x2 x3 x4 x5 x6 x7 = S1step x0 x1 x2 x3 x4 x5 x6 x7 (k3_pay18 (F := F)) := by
  unfold outA9
  rw [View.read_writes_eq_canon _ _ _ (coverA9 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun_A
  dsimp only
  sl_unfold_words
  rw [View.canon_cons_unit_zero (S := S1x64) hz2]
  unfold S1step A154 A118 A82 G69
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S1x512x16x128) hz4, View.ld_unit_zero (S := S1x512x3) hz3, View.ld_unit_zero (S := S1x512x16) hz3,
    View.ld_unit_zero (S := S1x64) hz2, View.readCov_unit_zero (S := S1x64) _ hz2]

theorem outB9_eq (hc0 : ¬cond i)
    (x0 : Vec F S1x512x16x128 .f32) (x1 : Vec F S1x512x3 .f32) (x2 : Vec F S1x512x16 .f32) (x3 : Vec F S3x16 .f32) (x4 : Vec F S16x64x64 .f32) (x5 x6 x7 : Vec F S1x64 .f32) (xo9 xo10 : Vec F S1x64 .f32) :
    outB9 c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10 = S1step x0 x1 x2 x3 x4 x5 x6 x7 xo9 := by
  unfold outB9
  rw [View.read_writes_eq_canon _ _ _ (coverB9 c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10)]
  unfold kernelRun_B
  dsimp only
  sl_unfold_words
  rw [View.canon_unit_zero hz2]
  unfold S1step A154 A118 A82 G69
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S1x512x16x128) hz4, View.ld_unit_zero (S := S1x512x3) hz3, View.ld_unit_zero (S := S1x512x16) hz3,
    View.ld_unit_zero (S := S1x64) hz2, View.readCov_unit_zero (S := S1x64) _ hz2]

theorem outA10_eq (hc0 : cond i)
    (x0 : Vec F S1x512x16x128 .f32) (x1 : Vec F S1x512x3 .f32) (x2 : Vec F S1x512x16 .f32) (x3 : Vec F S3x16 .f32) (x4 : Vec F S16x64x64 .f32) (x5 x6 x7 : Vec F S1x64 .f32) :
    outA10 c i arg2 harg2 arg3 harg3 arg4 harg4 arg5 harg5 arg6 harg6 arg7 harg7 arg8 harg8 arg9 harg9 arg10 harg10 arg11 harg11 arg12 harg12 hc0 x0 x1 x2 x3 x4 x5 x6 x7 = S2step x0 x1 x2 x3 x4 x5 x6 x7 (k3_pay19 (F := F)) := by
  unfold outA10
  rw [View.read_writes_eq_canon _ _ _ (coverA10 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun_A
  dsimp only
  sl_unfold_words
  rw [View.canon_cons_unit_zero (S := S1x64) hz2]
  unfold S2step A154 A118 A82 G69
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S1x512x16x128) hz4, View.ld_unit_zero (S := S1x512x3) hz3, View.ld_unit_zero (S := S1x512x16) hz3,
    View.ld_unit_zero (S := S1x64) hz2, View.readCov_unit_zero (S := S1x64) _ hz2]

theorem outB10_eq (hc0 : ¬cond i)
    (x0 : Vec F S1x512x16x128 .f32) (x1 : Vec F S1x512x3 .f32) (x2 : Vec F S1x512x16 .f32) (x3 : Vec F S3x16 .f32) (x4 : Vec F S16x64x64 .f32) (x5 x6 x7 : Vec F S1x64 .f32) (xo9 xo10 : Vec F S1x64 .f32) :
    outB10 c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10 = S2step x0 x1 x2 x3 x4 x5 x6 x7 xo10 := by
  unfold outB10
  rw [View.read_writes_eq_canon _ _ _ (coverB10 c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10)]
  unfold kernelRun_B
  dsimp only
  sl_unfold_words
  rw [View.canon_unit_zero hz2]
  unfold S2step A154 A118 A82 G69
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S1x512x16x128) hz4, View.ld_unit_zero (S := S1x512x3) hz3, View.ld_unit_zero (S := S1x512x16) hz3,
    View.ld_unit_zero (S := S1x64) hz2, View.readCov_unit_zero (S := S1x64) _ hz2]

end

end Cert.KernelIdeal.R3

end
-- ==== Proof.R3.Chain.lean ====
import proofs.«214766_g21345987461187_cont_8to1_720_22_alg».proof.Proof.R3.Pieces

set_option maxRecDepth 16384

noncomputable section

namespace Cert.KernelIdeal.R3

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

section
variable (V : (c : Dev nD) → (b : Ref sig .tc) → Buf (Elt F) ((c : Thread nD τ).loc b))

abbrev xb0 (c : Dev nD) (t : Fin cfg3.N) : Vec F S1x512x16x128 .f32 := iblk V c 0 t
abbrev xb1 (c : Dev nD) (t : Fin cfg3.N) : Vec F S1x512x3 .f32 := iblk V c 1 t
abbrev xb2 (c : Dev nD) (t : Fin cfg3.N) : Vec F S1x512x16 .f32 := iblk V c 2 t
abbrev xb3 (c : Dev nD) (t : Fin cfg3.N) : Vec F S3x16 .f32 := iblk V c 3 t
abbrev xb4 (c : Dev nD) (t : Fin cfg3.N) : Vec F S16x64x64 .f32 := iblk V c 4 t
abbrev xb5 (c : Dev nD) (t : Fin cfg3.N) : Vec F S1x64 .f32 := iblk V c 5 t
abbrev xb6 (c : Dev nD) (t : Fin cfg3.N) : Vec F S1x64 .f32 := iblk V c 6 t
abbrev xb7 (c : Dev nD) (t : Fin cfg3.N) : Vec F S1x64 .f32 := iblk V c 7 t

def sums (c : Dev nD) : (n : ℕ) → n < cfg3.N → Vec F S1x64 .f32 × Vec F S1x64 .f32
  | 0, h => (S1step (xb0 V c ⟨0, h⟩) (xb1 V c ⟨0, h⟩) (xb2 V c ⟨0, h⟩) (xb3 V c ⟨0, h⟩) (xb4 V c ⟨0, h⟩) (xb5 V c ⟨0, h⟩) (xb6 V c ⟨0, h⟩) (xb7 V c ⟨0, h⟩) (k3_pay18 (F := F)), S2step (xb0 V c ⟨0, h⟩) (xb1 V c ⟨0, h⟩) (xb2 V c ⟨0, h⟩) (xb3 V c ⟨0, h⟩) (xb4 V c ⟨0, h⟩) (xb5 V c ⟨0, h⟩) (xb6 V c ⟨0, h⟩) (xb7 V c ⟨0, h⟩) (k3_pay19 (F := F)))
  | n + 1, h => (S1step (xb0 V c ⟨n + 1, h⟩) (xb1 V c ⟨n + 1, h⟩) (xb2 V c ⟨n + 1, h⟩) (xb3 V c ⟨n + 1, h⟩) (xb4 V c ⟨n + 1, h⟩) (xb5 V c ⟨n + 1, h⟩) (xb6 V c ⟨n + 1, h⟩) (xb7 V c ⟨n + 1, h⟩) (sums c n (Nat.lt_of_succ_lt h)).1,
      S2step (xb0 V c ⟨n + 1, h⟩) (xb1 V c ⟨n + 1, h⟩) (xb2 V c ⟨n + 1, h⟩) (xb3 V c ⟨n + 1, h⟩) (xb4 V c ⟨n + 1, h⟩) (xb5 V c ⟨n + 1, h⟩) (xb6 V c ⟨n + 1, h⟩) (xb7 V c ⟨n + 1, h⟩) (sums c n (Nat.lt_of_succ_lt h)).2)

theorem outsAt_succ (c : Dev nD) (n : ℕ) (h : n + 1 < cfg3.N) (h0 : ¬(n + 1) % 16 = 0) :
    outsAt V c (n + 1) h = (outB8 c (grid3.coords ⟨n + 1, h⟩) (ms0 ⟨n + 1, h⟩) (hs0 ⟨n + 1, h⟩) (ms1 ⟨n + 1, h⟩) (hs1 ⟨n + 1, h⟩) (ms2 ⟨n + 1, h⟩) (hs2 ⟨n + 1, h⟩) (ms3 ⟨n + 1, h⟩) (hs3 ⟨n + 1, h⟩) (ms4 ⟨n + 1, h⟩) (hs4 ⟨n + 1, h⟩) (ms5 ⟨n + 1, h⟩) (hs5 ⟨n + 1, h⟩) (ms6 ⟨n + 1, h⟩) (hs6 ⟨n + 1, h⟩) (ms7 ⟨n + 1, h⟩) (hs7 ⟨n + 1, h⟩) (ms8 ⟨n + 1, h⟩) (hs8 ⟨n + 1, h⟩) (ms9 ⟨n + 1, h⟩) (hs9 ⟨n + 1, h⟩) (ms10 ⟨n + 1, h⟩) (hs10 ⟨n + 1, h⟩) (fun h' => h0 ((hcond ⟨n + 1, h⟩).mp h')) (iblk V c 0 ⟨n + 1, h⟩) (iblk V c 1 ⟨n + 1, h⟩) (iblk V c 2 ⟨n + 1, h⟩) (iblk V c 3 ⟨n + 1, h⟩) (iblk V c 4 ⟨n + 1, h⟩) (iblk V c 5 ⟨n + 1, h⟩) (iblk V c 6 ⟨n + 1, h⟩) (iblk V c 7 ⟨n + 1, h⟩) (outsAt V c n (Nat.lt_of_succ_lt h)).2.1 (outsAt V c n (Nat.lt_of_succ_lt h)).2.2,
        outB9 c (grid3.coords ⟨n + 1, h⟩) (ms0 ⟨n + 1, h⟩) (hs0 ⟨n + 1, h⟩) (ms1 ⟨n + 1, h⟩) (hs1 ⟨n + 1, h⟩) (ms2 ⟨n + 1, h⟩) (hs2 ⟨n + 1, h⟩) (ms3 ⟨n + 1, h⟩) (hs3 ⟨n + 1, h⟩) (ms4 ⟨n + 1, h⟩) (hs4 ⟨n + 1, h⟩) (ms5 ⟨n + 1, h⟩) (hs5 ⟨n + 1, h⟩) (ms6 ⟨n + 1, h⟩) (hs6 ⟨n + 1, h⟩) (ms7 ⟨n + 1, h⟩) (hs7 ⟨n + 1, h⟩) (ms8 ⟨n + 1, h⟩) (hs8 ⟨n + 1, h⟩) (ms9 ⟨n + 1, h⟩) (hs9 ⟨n + 1, h⟩) (ms10 ⟨n + 1, h⟩) (hs10 ⟨n + 1, h⟩) (fun h' => h0 ((hcond ⟨n + 1, h⟩).mp h')) (iblk V c 0 ⟨n + 1, h⟩) (iblk V c 1 ⟨n + 1, h⟩) (iblk V c 2 ⟨n + 1, h⟩) (iblk V c 3 ⟨n + 1, h⟩) (iblk V c 4 ⟨n + 1, h⟩) (iblk V c 5 ⟨n + 1, h⟩) (iblk V c 6 ⟨n + 1, h⟩) (iblk V c 7 ⟨n + 1, h⟩) (outsAt V c n (Nat.lt_of_succ_lt h)).2.1 (outsAt V c n (Nat.lt_of_succ_lt h)).2.2,
        outB10 c (grid3.coords ⟨n + 1, h⟩) (ms0 ⟨n + 1, h⟩) (hs0 ⟨n + 1, h⟩) (ms1 ⟨n + 1, h⟩) (hs1 ⟨n + 1, h⟩) (ms2 ⟨n + 1, h⟩) (hs2 ⟨n + 1, h⟩) (ms3 ⟨n + 1, h⟩) (hs3 ⟨n + 1, h⟩) (ms4 ⟨n + 1, h⟩) (hs4 ⟨n + 1, h⟩) (ms5 ⟨n + 1, h⟩) (hs5 ⟨n + 1, h⟩) (ms6 ⟨n + 1, h⟩) (hs6 ⟨n + 1, h⟩) (ms7 ⟨n + 1, h⟩) (hs7 ⟨n + 1, h⟩) (ms8 ⟨n + 1, h⟩) (hs8 ⟨n + 1, h⟩) (ms9 ⟨n + 1, h⟩) (hs9 ⟨n + 1, h⟩) (ms10 ⟨n + 1, h⟩) (hs10 ⟨n + 1, h⟩) (fun h' => h0 ((hcond ⟨n + 1, h⟩).mp h')) (iblk V c 0 ⟨n + 1, h⟩) (iblk V c 1 ⟨n + 1, h⟩) (iblk V c 2 ⟨n + 1, h⟩) (iblk V c 3 ⟨n + 1, h⟩) (iblk V c 4 ⟨n + 1, h⟩) (iblk V c 5 ⟨n + 1, h⟩) (iblk V c 6 ⟨n + 1, h⟩) (iblk V c 7 ⟨n + 1, h⟩) (outsAt V c n (Nat.lt_of_succ_lt h)).2.1 (outsAt V c n (Nat.lt_of_succ_lt h)).2.2) :=
  (dif_neg h0).trans rfl

set_option maxHeartbeats 1000000 in
theorem outsAt_eq (c : Dev nD) : ∀ (n : ℕ) (h : n < cfg3.N),
    outsAt V c n h = (Y1 (xb0 V c ⟨n, h⟩) (xb1 V c ⟨n, h⟩) (xb2 V c ⟨n, h⟩) (xb3 V c ⟨n, h⟩) (xb4 V c ⟨n, h⟩) (xb5 V c ⟨n, h⟩) (xb6 V c ⟨n, h⟩) (xb7 V c ⟨n, h⟩), (sums V c n h).1, (sums V c n h).2)
  | 0, h => by
    rw [outsAt_A V c ⟨0, h⟩ (Nat.zero_mod _)]
    rw [outA8_eq c (grid3.coords ⟨0, h⟩) (ms0 ⟨0, h⟩) (hs0 ⟨0, h⟩) (ms1 ⟨0, h⟩) (hs1 ⟨0, h⟩) (ms2 ⟨0, h⟩) (hs2 ⟨0, h⟩) (ms3 ⟨0, h⟩) (hs3 ⟨0, h⟩) (ms4 ⟨0, h⟩) (hs4 ⟨0, h⟩) (ms5 ⟨0, h⟩) (hs5 ⟨0, h⟩) (ms6 ⟨0, h⟩) (hs6 ⟨0, h⟩) (ms7 ⟨0, h⟩) (hs7 ⟨0, h⟩) (ms8 ⟨0, h⟩) (hs8 ⟨0, h⟩) (ms9 ⟨0, h⟩) (hs9 ⟨0, h⟩) (ms10 ⟨0, h⟩) (hs10 ⟨0, h⟩) ((hcond ⟨0, h⟩).mpr (Nat.zero_mod _)) (iblk V c 0 ⟨0, h⟩) (iblk V c 1 ⟨0, h⟩) (iblk V c 2 ⟨0, h⟩) (iblk V c 3 ⟨0, h⟩) (iblk V c 4 ⟨0, h⟩) (iblk V c 5 ⟨0, h⟩) (iblk V c 6 ⟨0, h⟩) (iblk V c 7 ⟨0, h⟩),
      outA9_eq c (grid3.coords ⟨0, h⟩) (ms0 ⟨0, h⟩) (hs0 ⟨0, h⟩) (ms1 ⟨0, h⟩) (hs1 ⟨0, h⟩) (ms2 ⟨0, h⟩) (hs2 ⟨0, h⟩) (ms3 ⟨0, h⟩) (hs3 ⟨0, h⟩) (ms4 ⟨0, h⟩) (hs4 ⟨0, h⟩) (ms5 ⟨0, h⟩) (hs5 ⟨0, h⟩) (ms6 ⟨0, h⟩) (hs6 ⟨0, h⟩) (ms7 ⟨0, h⟩) (hs7 ⟨0, h⟩) (ms8 ⟨0, h⟩) (hs8 ⟨0, h⟩) (ms9 ⟨0, h⟩) (hs9 ⟨0, h⟩) (ms10 ⟨0, h⟩) (hs10 ⟨0, h⟩) ((hcond ⟨0, h⟩).mpr (Nat.zero_mod _)) (iblk V c 0 ⟨0, h⟩) (iblk V c 1 ⟨0, h⟩) (iblk V c 2 ⟨0, h⟩) (iblk V c 3 ⟨0, h⟩) (iblk V c 4 ⟨0, h⟩) (iblk V c 5 ⟨0, h⟩) (iblk V c 6 ⟨0, h⟩) (iblk V c 7 ⟨0, h⟩),
      outA10_eq c (grid3.coords ⟨0, h⟩) (ms0 ⟨0, h⟩) (hs0 ⟨0, h⟩) (ms1 ⟨0, h⟩) (hs1 ⟨0, h⟩) (ms2 ⟨0, h⟩) (hs2 ⟨0, h⟩) (ms3 ⟨0, h⟩) (hs3 ⟨0, h⟩) (ms4 ⟨0, h⟩) (hs4 ⟨0, h⟩) (ms5 ⟨0, h⟩) (hs5 ⟨0, h⟩) (ms6 ⟨0, h⟩) (hs6 ⟨0, h⟩) (ms7 ⟨0, h⟩) (hs7 ⟨0, h⟩) (ms8 ⟨0, h⟩) (hs8 ⟨0, h⟩) (ms9 ⟨0, h⟩) (hs9 ⟨0, h⟩) (ms10 ⟨0, h⟩) (hs10 ⟨0, h⟩) ((hcond ⟨0, h⟩).mpr (Nat.zero_mod _)) (iblk V c 0 ⟨0, h⟩) (iblk V c 1 ⟨0, h⟩) (iblk V c 2 ⟨0, h⟩) (iblk V c 3 ⟨0, h⟩) (iblk V c 4 ⟨0, h⟩) (iblk V c 5 ⟨0, h⟩) (iblk V c 6 ⟨0, h⟩) (iblk V c 7 ⟨0, h⟩)]
    rfl
  | n + 1, h => by
    have hN : cfg3.N = 16 := N_3
    have h0 : ¬(n + 1) % 16 = 0 := by omega
    rw [outsAt_succ V c n h h0, outsAt_eq c n (Nat.lt_of_succ_lt h)]
    dsimp only
    rw [outB8_eq c (grid3.coords ⟨n + 1, h⟩) (ms0 ⟨n + 1, h⟩) (hs0 ⟨n + 1, h⟩) (ms1 ⟨n + 1, h⟩) (hs1 ⟨n + 1, h⟩) (ms2 ⟨n + 1, h⟩) (hs2 ⟨n + 1, h⟩) (ms3 ⟨n + 1, h⟩) (hs3 ⟨n + 1, h⟩) (ms4 ⟨n + 1, h⟩) (hs4 ⟨n + 1, h⟩) (ms5 ⟨n + 1, h⟩) (hs5 ⟨n + 1, h⟩) (ms6 ⟨n + 1, h⟩) (hs6 ⟨n + 1, h⟩) (ms7 ⟨n + 1, h⟩) (hs7 ⟨n + 1, h⟩) (ms8 ⟨n + 1, h⟩) (hs8 ⟨n + 1, h⟩) (ms9 ⟨n + 1, h⟩) (hs9 ⟨n + 1, h⟩) (ms10 ⟨n + 1, h⟩) (hs10 ⟨n + 1, h⟩) (fun h' => h0 ((hcond ⟨n + 1, h⟩).mp h')) (iblk V c 0 ⟨n + 1, h⟩) (iblk V c 1 ⟨n + 1, h⟩) (iblk V c 2 ⟨n + 1, h⟩) (iblk V c 3 ⟨n + 1, h⟩) (iblk V c 4 ⟨n + 1, h⟩) (iblk V c 5 ⟨n + 1, h⟩) (iblk V c 6 ⟨n + 1, h⟩) (iblk V c 7 ⟨n + 1, h⟩) (sums V c n (Nat.lt_of_succ_lt h)).1 (sums V c n (Nat.lt_of_succ_lt h)).2,
      outB9_eq c (grid3.coords ⟨n + 1, h⟩) (ms0 ⟨n + 1, h⟩) (hs0 ⟨n + 1, h⟩) (ms1 ⟨n + 1, h⟩) (hs1 ⟨n + 1, h⟩) (ms2 ⟨n + 1, h⟩) (hs2 ⟨n + 1, h⟩) (ms3 ⟨n + 1, h⟩) (hs3 ⟨n + 1, h⟩) (ms4 ⟨n + 1, h⟩) (hs4 ⟨n + 1, h⟩) (ms5 ⟨n + 1, h⟩) (hs5 ⟨n + 1, h⟩) (ms6 ⟨n + 1, h⟩) (hs6 ⟨n + 1, h⟩) (ms7 ⟨n + 1, h⟩) (hs7 ⟨n + 1, h⟩) (ms8 ⟨n + 1, h⟩) (hs8 ⟨n + 1, h⟩) (ms9 ⟨n + 1, h⟩) (hs9 ⟨n + 1, h⟩) (ms10 ⟨n + 1, h⟩) (hs10 ⟨n + 1, h⟩) (fun h' => h0 ((hcond ⟨n + 1, h⟩).mp h')) (iblk V c 0 ⟨n + 1, h⟩) (iblk V c 1 ⟨n + 1, h⟩) (iblk V c 2 ⟨n + 1, h⟩) (iblk V c 3 ⟨n + 1, h⟩) (iblk V c 4 ⟨n + 1, h⟩) (iblk V c 5 ⟨n + 1, h⟩) (iblk V c 6 ⟨n + 1, h⟩) (iblk V c 7 ⟨n + 1, h⟩) (sums V c n (Nat.lt_of_succ_lt h)).1 (sums V c n (Nat.lt_of_succ_lt h)).2,
      outB10_eq c (grid3.coords ⟨n + 1, h⟩) (ms0 ⟨n + 1, h⟩) (hs0 ⟨n + 1, h⟩) (ms1 ⟨n + 1, h⟩) (hs1 ⟨n + 1, h⟩) (ms2 ⟨n + 1, h⟩) (hs2 ⟨n + 1, h⟩) (ms3 ⟨n + 1, h⟩) (hs3 ⟨n + 1, h⟩) (ms4 ⟨n + 1, h⟩) (hs4 ⟨n + 1, h⟩) (ms5 ⟨n + 1, h⟩) (hs5 ⟨n + 1, h⟩) (ms6 ⟨n + 1, h⟩) (hs6 ⟨n + 1, h⟩) (ms7 ⟨n + 1, h⟩) (hs7 ⟨n + 1, h⟩) (ms8 ⟨n + 1, h⟩) (hs8 ⟨n + 1, h⟩) (ms9 ⟨n + 1, h⟩) (hs9 ⟨n + 1, h⟩) (ms10 ⟨n + 1, h⟩) (hs10 ⟨n + 1, h⟩) (fun h' => h0 ((hcond ⟨n + 1, h⟩).mp h')) (iblk V c 0 ⟨n + 1, h⟩) (iblk V c 1 ⟨n + 1, h⟩) (iblk V c 2 ⟨n + 1, h⟩) (iblk V c 3 ⟨n + 1, h⟩) (iblk V c 4 ⟨n + 1, h⟩) (iblk V c 5 ⟨n + 1, h⟩) (iblk V c 6 ⟨n + 1, h⟩) (iblk V c 7 ⟨n + 1, h⟩) (sums V c n (Nat.lt_of_succ_lt h)).1 (sums V c n (Nat.lt_of_succ_lt h)).2]
    rfl

end

end Cert.KernelIdeal.R3

end
-- ==== Proof.R3.Arr.lean ====
import proofs.«214766_g21345987461187_cont_8to1_720_22_alg».proof.Proof.R3.Chain
import Idealize.ShloMosaic.Lib.ValueIdx

set_option maxRecDepth 16384

noncomputable section

namespace Cert.KernelIdeal.R3

open Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

theorem idx_facts : ∀ t : Fin cfg3.N,
    win3_0.index t (0 : Fin 4) = t.val / 8
    ∧ win3_0.index t (1 : Fin 4) = t.val % 8
    ∧ win3_0.index t (2 : Fin 4) = 0
    ∧ win3_0.index t (3 : Fin 4) = 0
    ∧ win3_1.index t (0 : Fin 3) = t.val / 8
    ∧ win3_1.index t (1 : Fin 3) = t.val % 8
    ∧ win3_1.index t (2 : Fin 3) = 0
    ∧ win3_2.index t (0 : Fin 3) = t.val / 8
    ∧ win3_2.index t (1 : Fin 3) = t.val % 8
    ∧ win3_2.index t (2 : Fin 3) = 0
    ∧ win3_3.index t (0 : Fin 2) = 0
    ∧ win3_3.index t (1 : Fin 2) = 0
    ∧ win3_4.index t (0 : Fin 3) = 0
    ∧ win3_4.index t (1 : Fin 3) = 0
    ∧ win3_4.index t (2 : Fin 3) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 3) = t.val / 8
    ∧ win3_8.index t (1 : Fin 3) = t.val % 8
    ∧ win3_8.index t (2 : Fin 3) = 0
    ∧ win3_9.index t (0 : Fin 2) = 0
    ∧ win3_9.index t (1 : Fin 2) = 0
    ∧ win3_10.index t (0 : Fin 2) = 0
    ∧ win3_10.index t (1 : Fin 2) = 0 :=
  (by decide +kernel : ∀ t : Fin grid3.N, _)

def ablk0 (a0 : Vec F S2x4096x16x128 .f32) (t : ℕ) : Vec F S1x512x16x128 .f32 :=
  fun y => a0 (ix4 ⟨t / 8 % 2, Nat.mod_lt _ (by decide)⟩ ⟨(t % 8 * 512 + (y 1).val) % 4096, Nat.mod_lt _ (by decide)⟩ (y 2) (y 3))
def ablk1 (a1 : Vec F S2x4096x3 .f32) (t : ℕ) : Vec F S1x512x3 .f32 :=
  fun y => a1 (ix3 ⟨t / 8 % 2, Nat.mod_lt _ (by decide)⟩ ⟨(t % 8 * 512 + (y 1).val) % 4096, Nat.mod_lt _ (by decide)⟩ (y 2))
def ablk2 (a2 : Vec F S2x4096x16 .f32) (t : ℕ) : Vec F S1x512x16 .f32 :=
  fun y => a2 (ix3 ⟨t / 8 % 2, Nat.mod_lt _ (by decide)⟩ ⟨(t % 8 * 512 + (y 1).val) % 4096, Nat.mod_lt _ (by decide)⟩ (y 2))

section
variable (V : (c : Dev nD) → (b : Ref sig .tc) → Buf (Elt F) ((c : Thread nD τ).loc b))

theorem iblk_eq_0 (c : Dev nD) (t : Fin cfg3.N) : iblk V c 0 t = ablk0 (V c main_v29) t.val := by
  have hN : t.val < 16 := lt_of_lt_of_eq t.isLt (show cfg3.N = 16 from N_3)
  obtain ⟨e0, e1, e2, e3, e4, e5, e6, e7, e8, e9, e10, e11, e12, e13, e14, e15, e16, e17, e18, e19, e20, e21, e22, e23, e24, e25, e26, e27⟩ := idx_facts t
  funext y
  show V c main_v29 (((cfg3.win 0).blk t).view.emb y) = V c main_v29 (ix4 ⟨t.val / 8 % 2, Nat.mod_lt _ (by decide)⟩ ⟨(t.val % 8 * 512 + (y 1).val) % 4096, Nat.mod_lt _ (by decide)⟩ (y 2) (y 3))
  refine congrArg (V c main_v29) (funext fun a => Fin.ext ?_)
  match a with
  | ⟨0, _⟩ => show win3_0.index t (0 : Fin 4) * 1 + 1 * (y 0).val = t.val / 8 % 2; have hy : (y 0).val < 1 := (y 0).isLt; omega
  | ⟨1, _⟩ => show win3_0.index t (1 : Fin 4) * 512 + 1 * (y 1).val = (t.val % 8 * 512 + (y 1).val) % 4096; have hy : (y 1).val < 512 := (y 1).isLt; omega
  | ⟨2, _⟩ => show win3_0.index t (2 : Fin 4) * 16 + 1 * (y 2).val = (y 2).val; have hy : (y 2).val < 16 := (y 2).isLt; omega
  | ⟨3, _⟩ => show win3_0.index t (3 : Fin 4) * 128 + 1 * (y 3).val = (y 3).val; have hy : (y 3).val < 128 := (y 3).isLt; omega

theorem iblk_eq_1 (c : Dev nD) (t : Fin cfg3.N) : iblk V c 1 t = ablk1 (V c main_v31) t.val := by
  have hN : t.val < 16 := lt_of_lt_of_eq t.isLt (show cfg3.N = 16 from N_3)
  obtain ⟨e0, e1, e2, e3, e4, e5, e6, e7, e8, e9, e10, e11, e12, e13, e14, e15, e16, e17, e18, e19, e20, e21, e22, e23, e24, e25, e26, e27⟩ := idx_facts t
  funext y
  show V c main_v31 (((cfg3.win 1).blk t).view.emb y) = V c main_v31 (ix3 ⟨t.val / 8 % 2, Nat.mod_lt _ (by decide)⟩ ⟨(t.val % 8 * 512 + (y 1).val) % 4096, Nat.mod_lt _ (by decide)⟩ (y 2))
  refine congrArg (V c main_v31) (funext fun a => Fin.ext ?_)
  match a with
  | ⟨0, _⟩ => show win3_1.index t (0 : Fin 3) * 1 + 1 * (y 0).val = t.val / 8 % 2; have hy : (y 0).val < 1 := (y 0).isLt; omega
  | ⟨1, _⟩ => show win3_1.index t (1 : Fin 3) * 512 + 1 * (y 1).val = (t.val % 8 * 512 + (y 1).val) % 4096; have hy : (y 1).val < 512 := (y 1).isLt; omega
  | ⟨2, _⟩ => show win3_1.index t (2 : Fin 3) * 3 + 1 * (y 2).val = (y 2).val; have hy : (y 2).val < 3 := (y 2).isLt; omega

theorem iblk_eq_2 (c : Dev nD) (t : Fin cfg3.N) : iblk V c 2 t = ablk2 (V c main_v0) t.val := by
  have hN : t.val < 16 := lt_of_lt_of_eq t.isLt (show cfg3.N = 16 from N_3)
  obtain ⟨e0, e1, e2, e3, e4, e5, e6, e7, e8, e9, e10, e11, e12, e13, e14, e15, e16, e17, e18, e19, e20, e21, e22, e23, e24, e25, e26, e27⟩ := idx_facts t
  funext y
  show V c main_v0 (((cfg3.win 2).blk t).view.emb y) = V c main_v0 (ix3 ⟨t.val / 8 % 2, Nat.mod_lt _ (by decide)⟩ ⟨(t.val % 8 * 512 + (y 1).val) % 4096, Nat.mod_lt _ (by decide)⟩ (y 2))
  refine congrArg (V c main_v0) (funext fun a => Fin.ext ?_)
  match a with
  | ⟨0, _⟩ => show win3_2.index t (0 : Fin 3) * 1 + 1 * (y 0).val = t.val / 8 % 2; have hy : (y 0).val < 1 := (y 0).isLt; omega
  | ⟨1, _⟩ => show win3_2.index t (1 : Fin 3) * 512 + 1 * (y 1).val = (t.val % 8 * 512 + (y 1).val) % 4096; have hy : (y 1).val < 512 := (y 1).isLt; omega
  | ⟨2, _⟩ => show win3_2.index t (2 : Fin 3) * 16 + 1 * (y 2).val = (y 2).val; have hy : (y 2).val < 16 := (y 2).isLt; omega

theorem iblk_eq_3 (c : Dev nD) (t : Fin cfg3.N) : iblk V c 3 t = V c main_v32 := by
  obtain ⟨e0, e1, e2, e3, e4, e5, e6, e7, e8, e9, e10, e11, e12, e13, e14, e15, e16, e17, e18, e19, e20, e21, e22, e23, e24, e25, e26, e27⟩ := idx_facts t
  funext y
  show V c main_v32 (((cfg3.win 3).blk t).view.emb y) = V c main_v32 y
  refine congrArg (V c main_v32) (funext fun a => Fin.ext ?_)
  match a with
  | ⟨0, _⟩ => show win3_3.index t (0 : Fin 2) * 3 + 1 * (y 0).val = (y 0).val; omega
  | ⟨1, _⟩ => show win3_3.index t (1 : Fin 2) * 16 + 1 * (y 1).val = (y 1).val; omega

theorem iblk_eq_4 (c : Dev nD) (t : Fin cfg3.N) : iblk V c 4 t = V c main_arg10 := by
  obtain ⟨e0, e1, e2, e3, e4, e5, e6, e7, e8, e9, e10, e11, e12, e13, e14, e15, e16, e17, e18, e19, e20, e21, e22, e23, e24, e25, e26, e27⟩ := idx_facts t
  funext y
  show V c main_arg10 (((cfg3.win 4).blk t).view.emb y) = V c main_arg10 y
  refine congrArg (V c main_arg10) (funext fun a => Fin.ext ?_)
  match a with
  | ⟨0, _⟩ => show win3_4.index t (0 : Fin 3) * 16 + 1 * (y 0).val = (y 0).val; omega
  | ⟨1, _⟩ => show win3_4.index t (1 : Fin 3) * 64 + 1 * (y 1).val = (y 1).val; omega
  | ⟨2, _⟩ => show win3_4.index t (2 : Fin 3) * 64 + 1 * (y 2).val = (y 2).val; omega

theorem iblk_eq_5 (c : Dev nD) (t : Fin cfg3.N) : iblk V c 5 t = V c main_v33 := by
  obtain ⟨e0, e1, e2, e3, e4, e5, e6, e7, e8, e9, e10, e11, e12, e13, e14, e15, e16, e17, e18, e19, e20, e21, e22, e23, e24, e25, e26, e27⟩ := idx_facts t
  funext y
  show V c main_v33 (((cfg3.win 5).blk t).view.emb y) = V c main_v33 y
  refine congrArg (V c main_v33) (funext fun a => Fin.ext ?_)
  match a with
  | ⟨0, _⟩ => show win3_5.index t (0 : Fin 2) * 1 + 1 * (y 0).val = (y 0).val; omega
  | ⟨1, _⟩ => show win3_5.index t (1 : Fin 2) * 64 + 1 * (y 1).val = (y 1).val; omega

theorem iblk_eq_6 (c : Dev nD) (t : Fin cfg3.N) : iblk V c 6 t = V c main_v34 := by
  obtain ⟨e0, e1, e2, e3, e4, e5, e6, e7, e8, e9, e10, e11, e12, e13, e14, e15, e16, e17, e18, e19, e20, e21, e22, e23, e24, e25, e26, e27⟩ := idx_facts t
  funext y
  show V c main_v34 (((cfg3.win 6).blk t).view.emb y) = V c main_v34 y
  refine congrArg (V c main_v34) (funext fun a => Fin.ext ?_)
  match a with
  | ⟨0, _⟩ => show win3_6.index t (0 : Fin 2) * 1 + 1 * (y 0).val = (y 0).val; omega
  | ⟨1, _⟩ => show win3_6.index t (1 : Fin 2) * 64 + 1 * (y 1).val = (y 1).val; omega

theorem iblk_eq_7 (c : Dev nD) (t : Fin cfg3.N) : iblk V c 7 t = V c main_v35 := by
  obtain ⟨e0, e1, e2, e3, e4, e5, e6, e7, e8, e9, e10, e11, e12, e13, e14, e15, e16, e17, e18, e19, e20, e21, e22, e23, e24, e25, e26, e27⟩ := idx_facts t
  funext y
  show V c main_v35 (((cfg3.win 7).blk t).view.emb y) = V c main_v35 y
  refine congrArg (V c main_v35) (funext fun a => Fin.ext ?_)
  match a with
  | ⟨0, _⟩ => show win3_7.index t (0 : Fin 2) * 1 + 1 * (y 0).val = (y 0).val; omega
  | ⟨1, _⟩ => show win3_7.index t (1 : Fin 2) * 64 + 1 * (y 1).val = (y 1).val; omega

end

abbrev ptOf (i : S2x4096x64.Idx) : ℕ := (i 0).val * 8 + (i 1).val / 512

def out8 (a0 : Vec F S2x4096x16x128 .f32) (a1 : Vec F S2x4096x3 .f32) (a2 : Vec F S2x4096x16 .f32) (a3 : Vec F S3x16 .f32) (a4 : Vec F S16x64x64 .f32) (a5 : Vec F S1x64 .f32) (a6 : Vec F S1x64 .f32) (a7 : Vec F S1x64 .f32) : Vec F S2x4096x64 .f32 := fun i =>
  Y1 (ablk0 a0 (ptOf i)) (ablk1 a1 (ptOf i)) (ablk2 a2 (ptOf i)) a3 a4 a5 a6 a7 (ix3 0 ⟨(i 1).val % 512, Nat.mod_lt _ (by decide)⟩ (i 2))

def asums (a0 : Vec F S2x4096x16x128 .f32) (a1 : Vec F S2x4096x3 .f32) (a2 : Vec F S2x4096x16 .f32) (a3 : Vec F S3x16 .f32) (a4 : Vec F S16x64x64 .f32) (a5 : Vec F S1x64 .f32) (a6 : Vec F S1x64 .f32) (a7 : Vec F S1x64 .f32) : ℕ → Vec F S1x64 .f32 × Vec F S1x64 .f32
  | 0 => (S1step (ablk0 a0 0) (ablk1 a1 0) (ablk2 a2 0) a3 a4 a5 a6 a7 (k3_pay18 (F := F)), S2step (ablk0 a0 0) (ablk1 a1 0) (ablk2 a2 0) a3 a4 a5 a6 a7 (k3_pay19 (F := F)))
  | n + 1 => (S1step (ablk0 a0 (n + 1)) (ablk1 a1 (n + 1)) (ablk2 a2 (n + 1)) a3 a4 a5 a6 a7 (asums a0 a1 a2 a3 a4 a5 a6 a7 n).1, S2step (ablk0 a0 (n + 1)) (ablk1 a1 (n + 1)) (ablk2 a2 (n + 1)) a3 a4 a5 a6 a7 (asums a0 a1 a2 a3 a4 a5 a6 a7 n).2)

def out9 (a0 : Vec F S2x4096x16x128 .f32) (a1 : Vec F S2x4096x3 .f32) (a2 : Vec F S2x4096x16 .f32) (a3 : Vec F S3x16 .f32) (a4 : Vec F S16x64x64 .f32) (a5 : Vec F S1x64 .f32) (a6 : Vec F S1x64 .f32) (a7 : Vec F S1x64 .f32) : Vec F S1x64 .f32 := (asums a0 a1 a2 a3 a4 a5 a6 a7 15).1
def out10 (a0 : Vec F S2x4096x16x128 .f32) (a1 : Vec F S2x4096x3 .f32) (a2 : Vec F S2x4096x16 .f32) (a3 : Vec F S3x16 .f32) (a4 : Vec F S16x64x64 .f32) (a5 : Vec F S1x64 .f32) (a6 : Vec F S1x64 .f32) (a7 : Vec F S1x64 .f32) : Vec F S1x64 .f32 := (asums a0 a1 a2 a3 a4 a5 a6 a7 15).2

section
variable (V : (c : Dev nD) → (b : Ref sig .tc) → Buf (Elt F) ((c : Thread nD τ).loc b))

theorem sums_eq (c : Dev nD) : ∀ (n : ℕ) (h : n < cfg3.N), sums V c n h = asums (V c main_v29) (V c main_v31) (V c main_v0) (V c main_v32) (V c main_arg10) (V c main_v33) (V c main_v34) (V c main_v35) n
  | 0, h => by
    show (S1step (xb0 V c ⟨0, h⟩) (xb1 V c ⟨0, h⟩) (xb2 V c ⟨0, h⟩) (xb3 V c ⟨0, h⟩) (xb4 V c ⟨0, h⟩) (xb5 V c ⟨0, h⟩) (xb6 V c ⟨0, h⟩) (xb7 V c ⟨0, h⟩) (k3_pay18 (F := F)), S2step (xb0 V c ⟨0, h⟩) (xb1 V c ⟨0, h⟩) (xb2 V c ⟨0, h⟩) (xb3 V c ⟨0, h⟩) (xb4 V c ⟨0, h⟩) (xb5 V c ⟨0, h⟩) (xb6 V c ⟨0, h⟩) (xb7 V c ⟨0, h⟩) (k3_pay19 (F := F))) = _
    unfold xb0 xb1 xb2 xb3 xb4 xb5 xb6 xb7
    rw [iblk_eq_0, iblk_eq_1, iblk_eq_2, iblk_eq_3, iblk_eq_4, iblk_eq_5, iblk_eq_6, iblk_eq_7]
    rfl
  | n + 1, h => by
    show (S1step (xb0 V c ⟨n + 1, h⟩) (xb1 V c ⟨n + 1, h⟩) (xb2 V c ⟨n + 1, h⟩) (xb3 V c ⟨n + 1, h⟩) (xb4 V c ⟨n + 1, h⟩) (xb5 V c ⟨n + 1, h⟩) (xb6 V c ⟨n + 1, h⟩) (xb7 V c ⟨n + 1, h⟩) (sums V c n (Nat.lt_of_succ_lt h)).1, S2step (xb0 V c ⟨n + 1, h⟩) (xb1 V c ⟨n + 1, h⟩) (xb2 V c ⟨n + 1, h⟩) (xb3 V c ⟨n + 1, h⟩) (xb4 V c ⟨n + 1, h⟩) (xb5 V c ⟨n + 1, h⟩) (xb6 V c ⟨n + 1, h⟩) (xb7 V c ⟨n + 1, h⟩) (sums V c n (Nat.lt_of_succ_lt h)).2) = _
    unfold xb0 xb1 xb2 xb3 xb4 xb5 xb6 xb7
    rw [sums_eq c n (Nat.lt_of_succ_lt h), iblk_eq_0, iblk_eq_1, iblk_eq_2, iblk_eq_3, iblk_eq_4, iblk_eq_5, iblk_eq_6, iblk_eq_7]
    rfl

theorem Y1_blk (c : Dev nD) (t : Fin cfg3.N) :
    Y1 (xb0 V c t) (xb1 V c t) (xb2 V c t) (xb3 V c t) (xb4 V c t) (xb5 V c t) (xb6 V c t) (xb7 V c t) = ((cfg3.win 8).blk t).view.read (Elt F) (out8 (V c main_v29) (V c main_v31) (V c main_v0) (V c main_v32) (V c main_arg10) (V c main_v33) (V c main_v34) (V c main_v35)) := by
  have hN : t.val < 16 := lt_of_lt_of_eq t.isLt (show cfg3.N = 16 from N_3)
  obtain ⟨-, -, -, -, -, -, -, -, -, -, -, -, -, -, -, -, -, -, -, -, -, e0, e1, e2, -⟩ := idx_facts t
  unfold xb0 xb1 xb2 xb3 xb4 xb5 xb6 xb7
  rw [iblk_eq_0, iblk_eq_1, iblk_eq_2, iblk_eq_3, iblk_eq_4, iblk_eq_5, iblk_eq_6, iblk_eq_7]
  funext y
  have hy0 : (y 0).val < 1 := (y 0).isLt
  have hy1 : (y 1).val < 512 := (y 1).isLt
  have hemb : ((cfg3.win 8).blk t).view.emb y = ix3 ⟨t.val / 8, by omega⟩ ⟨t.val % 8 * 512 + (y 1).val, by omega⟩ (y 2) := by
    funext a; apply Fin.ext
    match a with
    | ⟨0, _⟩ => show win3_8.index t (0 : Fin 3) * 1 + 1 * (y 0).val = t.val / 8; omega
    | ⟨1, _⟩ => show win3_8.index t (1 : Fin 3) * 512 + 1 * (y 1).val = t.val % 8 * 512 + (y 1).val; omega
    | ⟨2, _⟩ => show win3_8.index t (2 : Fin 3) * 64 + 1 * (y 2).val = (y 2).val; omega
  show _ = out8 (V c main_v29) (V c main_v31) (V c main_v0) (V c main_v32) (V c main_arg10) (V c main_v33) (V c main_v34) (V c main_v35) (((cfg3.win 8).blk t).view.emb y)
  rw [hemb]
  unfold out8
  have hp : ptOf (ix3 (⟨t.val / 8, by omega⟩ : Fin 2) (⟨t.val % 8 * 512 + (y 1).val, by omega⟩ : Fin 4096) (y 2)) = t.val := by
    show t.val / 8 * 8 + (t.val % 8 * 512 + (y 1).val) / 512 = t.val
    omega
  rw [hp]
  refine congrArg _ (funext fun a => Fin.ext ?_)
  match a with
  | ⟨0, _⟩ => show (y 0).val = 0; omega
  | ⟨1, _⟩ => show (y 1).val = (t.val % 8 * 512 + (y 1).val) % 512; omega
  | ⟨2, _⟩ => rfl

variable (Rc : Set (SemLoc sig × Ix))

theorem flushed_8 (Ψ : Dev nD → sProp 𝕄) (c : Dev nD) (t : Fin cfg3.N) :
    (dat V Rc Ψ c).flushed 8 t = ((cfg3.win 8).blk t).view.read (Elt F) (out8 (V c main_v29) (V c main_v31) (V c main_v0) (V c main_v32) (V c main_arg10) (V c main_v33) (V c main_v34) (V c main_v35)) := by
  show (cfg3.win 8).cut (grid3.coords t) ((dat V Rc Ψ c).after 8 t) = _
  rw [after_8, outsAt_eq]
  exact Y1_blk V c t

theorem cover_8 (i : S2x4096x64.Idx) :
    ∃ t : Fin cfg3.N, (cfg3.win 8).flush t = true ∧ i ∈ ((cfg3.win 8).blk t).view.set := by
  have h0 : (i 0 : ℕ) < 2 := (i 0).isLt
  have h1 : (i 1 : ℕ) < 4096 := (i 1).isLt
  have h2 : (i 2 : ℕ) < 64 := (i 2).isLt
  have hN : cfg3.N = 16 := N_3
  have ht : (i 0).val * 8 + (i 1).val / 512 < cfg3.N := by omega
  refine ⟨⟨(i 0).val * 8 + (i 1).val / 512, ht⟩, flush3_8 _, ?_⟩
  obtain ⟨-, -, -, -, -, -, -, -, -, -, -, -, -, -, -, -, -, -, -, -, -, e0, e1, e2, -⟩ := idx_facts ⟨(i 0).val * 8 + (i 1).val / 512, ht⟩
  dsimp only at e0 e1 e2
  show i ∈ ((View.whole main_v36_0).slice (win3_8.rect ⟨(i 0).val * 8 + (i 1).val / 512, ht⟩)).set
  rw [View.set_slice_whole, Rect.mem_set_unit]
  intro a
  match a with
  | ⟨0, _⟩ => show win3_8.index ⟨_, ht⟩ (0 : Fin 3) * 1 ≤ (i 0 : ℕ) ∧ (i 0 : ℕ) < win3_8.index ⟨_, ht⟩ (0 : Fin 3) * 1 + 1
              rw [e0]; omega
  | ⟨1, _⟩ => show win3_8.index ⟨_, ht⟩ (1 : Fin 3) * 512 ≤ (i 1 : ℕ) ∧ (i 1 : ℕ) < win3_8.index ⟨_, ht⟩ (1 : Fin 3) * 512 + 512
              rw [e1]; omega
  | ⟨2, _⟩ => show win3_8.index ⟨_, ht⟩ (2 : Fin 3) * 64 ≤ (i 2 : ℕ) ∧ (i 2 : ℕ) < win3_8.index ⟨_, ht⟩ (2 : Fin 3) * 64 + 64
              rw [e2]; omega

theorem arrAt_8 (Ψ : Dev nD → sProp 𝕄) (c : Dev nD) :
    (dat V Rc Ψ c).arrAt 8 cfg3.N = out8 (V c main_v29) (V c main_v31) (V c main_v0) (V c main_v32) (V c main_arg10) (V c main_v33) (V c main_v34) (V c main_v35) :=
  (dat V Rc Ψ c).arrAt_eq_of_cover 8 (out8 (V c main_v29) (V c main_v31) (V c main_v0) (V c main_v32) (V c main_arg10) (V c main_v33) (V c main_v34) (V c main_v35)) (fun t _ => flushed_8 V Rc Ψ c t) cover_8

end

section
variable (V : (c : Dev nD) → (b : Ref sig .tc) → Buf (Elt F) ((c : Thread nD τ).loc b))
variable (Rc : Set (SemLoc sig × Ix))

theorem flushed_9 (Ψ : Dev nD → sProp 𝕄) (c : Dev nD) (t : Fin cfg3.N) (hf : (cfg3.win 9).flush t = true) :
    (dat V Rc Ψ c).flushed 9 t = ((cfg3.win 9).blk t).view.read (Elt F) (out9 (V c main_v29) (V c main_v31) (V c main_v0) (V c main_v32) (V c main_arg10) (V c main_v33) (V c main_v34) (V c main_v35)) := by
  have hN : cfg3.N = 16 := N_3
  have h15 : t.val = 15 := by have := (flush3_9 t).mp hf; have := t.isLt; omega
  obtain ⟨-, -, -, -, -, -, -, -, -, -, -, -, -, -, -, -, -, -, -, -, -, -, -, -, e0, e1, -⟩ := idx_facts t
  show (cfg3.win 9).cut (grid3.coords t) ((dat V Rc Ψ c).after 9 t) = _
  rw [after_9, outsAt_eq, sums_eq]
  funext y
  show (asums (V c main_v29) (V c main_v31) (V c main_v0) (V c main_v32) (V c main_arg10) (V c main_v33) (V c main_v34) (V c main_v35) t.val).1 y = out9 (V c main_v29) (V c main_v31) (V c main_v0) (V c main_v32) (V c main_arg10) (V c main_v33) (V c main_v34) (V c main_v35) (((cfg3.win 9).blk t).view.emb y)
  rw [h15]
  refine congrArg (out9 (V c main_v29) (V c main_v31) (V c main_v0) (V c main_v32) (V c main_arg10) (V c main_v33) (V c main_v34) (V c main_v35)) (funext fun a => Fin.ext ?_)
  match a with
  | ⟨0, _⟩ => show (y 0).val = win3_9.index t (0 : Fin 2) * 1 + 1 * (y 0).val; omega
  | ⟨1, _⟩ => show (y 1).val = win3_9.index t (1 : Fin 2) * 64 + 1 * (y 1).val; omega

theorem cover_9 (i : S1x64.Idx) :
    ∃ t : Fin cfg3.N, (cfg3.win 9).flush t = true ∧ i ∈ ((cfg3.win 9).blk t).view.set := by
  have h0 : (i 0 : ℕ) < 1 := (i 0).isLt
  have h1 : (i 1 : ℕ) < 64 := (i 1).isLt
  refine ⟨t3_15, (flush3_9 t3_15).mpr rfl, ?_⟩
  obtain ⟨-, -, -, -, -, -, -, -, -, -, -, -, -, -, -, -, -, -, -, -, -, -, -, -, e0, e1, -⟩ := idx_facts t3_15
  show i ∈ ((View.whole main_v36_1).slice (win3_9.rect t3_15)).set
  rw [View.set_slice_whole, Rect.mem_set_unit]
  intro a
  match a with
  | ⟨0, _⟩ => show win3_9.index t3_15 (0 : Fin 2) * 1 ≤ (i 0 : ℕ) ∧ (i 0 : ℕ) < win3_9.index t3_15 (0 : Fin 2) * 1 + 1
              rw [e0]; omega
  | ⟨1, _⟩ => show win3_9.index t3_15 (1 : Fin 2) * 64 ≤ (i 1 : ℕ) ∧ (i 1 : ℕ) < win3_9.index t3_15 (1 : Fin 2) * 64 + 64
              rw [e1]; omega

theorem arrAt_9 (Ψ : Dev nD → sProp 𝕄) (c : Dev nD) :
    (dat V Rc Ψ c).arrAt 9 cfg3.N = out9 (V c main_v29) (V c main_v31) (V c main_v0) (V c main_v32) (V c main_arg10) (V c main_v33) (V c main_v34) (V c main_v35) :=
  (dat V Rc Ψ c).arrAt_eq_of_cover 9 (out9 (V c main_v29) (V c main_v31) (V c main_v0) (V c main_v32) (V c main_arg10) (V c main_v33) (V c main_v34) (V c main_v35)) (flushed_9 V Rc Ψ c) cover_9

theorem flushed_10 (Ψ : Dev nD → sProp 𝕄) (c : Dev nD) (t : Fin cfg3.N) (hf : (cfg3.win 10).flush t = true) :
    (dat V Rc Ψ c).flushed 10 t = ((cfg3.win 10).blk t).view.read (Elt F) (out10 (V c main_v29) (V c main_v31) (V c main_v0) (V c main_v32) (V c main_arg10) (V c main_v33) (V c main_v34) (V c main_v35)) := by
  have hN : cfg3.N = 16 := N_3
  have h15 : t.val = 15 := by have := (flush3_10 t).mp hf; have := t.isLt; omega
  obtain ⟨-, -, -, -, -, -, -, -, -, -, -, -, -, -, -, -, -, -, -, -, -, -, -, -, -, -, e0, e1⟩ := idx_facts t
  show (cfg3.win 10).cut (grid3.coords t) ((dat V Rc Ψ c).after 10 t) = _
  rw [after_10, outsAt_eq, sums_eq]
  funext y
  show (asums (V c main_v29) (V c main_v31) (V c main_v0) (V c main_v32) (V c main_arg10) (V c main_v33) (V c main_v34) (V c main_v35) t.val).2 y = out10 (V c main_v29) (V c main_v31) (V c main_v0) (V c main_v32) (V c main_arg10) (V c main_v33) (V c main_v34) (V c main_v35) (((cfg3.win 10).blk t).view.emb y)
  rw [h15]
  refine congrArg (out10 (V c main_v29) (V c main_v31) (V c main_v0) (V c main_v32) (V c main_arg10) (V c main_v33) (V c main_v34) (V c main_v35)) (funext fun a => Fin.ext ?_)
  match a with
  | ⟨0, _⟩ => show (y 0).val = win3_10.index t (0 : Fin 2) * 1 + 1 * (y 0).val; omega
  | ⟨1, _⟩ => show (y 1).val = win3_10.index t (1 : Fin 2) * 64 + 1 * (y 1).val; omega

theorem cover_10 (i : S1x64.Idx) :
    ∃ t : Fin cfg3.N, (cfg3.win 10).flush t = true ∧ i ∈ ((cfg3.win 10).blk t).view.set := by
  have h0 : (i 0 : ℕ) < 1 := (i 0).isLt
  have h1 : (i 1 : ℕ) < 64 := (i 1).isLt
  refine ⟨t3_15, (flush3_10 t3_15).mpr rfl, ?_⟩
  obtain ⟨-, -, -, -, -, -, -, -, -, -, -, -, -, -, -, -, -, -, -, -, -, -, -, -, -, -, e0, e1⟩ := idx_facts t3_15
  show i ∈ ((View.whole main_v36_2).slice (win3_10.rect t3_15)).set
  rw [View.set_slice_whole, Rect.mem_set_unit]
  intro a
  match a with
  | ⟨0, _⟩ => show win3_10.index t3_15 (0 : Fin 2) * 1 ≤ (i 0 : ℕ) ∧ (i 0 : ℕ) < win3_10.index t3_15 (0 : Fin 2) * 1 + 1
              rw [e0]; omega
  | ⟨1, _⟩ => show win3_10.index t3_15 (1 : Fin 2) * 64 ≤ (i 1 : ℕ) ∧ (i 1 : ℕ) < win3_10.index t3_15 (1 : Fin 2) * 64 + 64
              rw [e1]; omega

theorem arrAt_10 (Ψ : Dev nD → sProp 𝕄) (c : Dev nD) :
    (dat V Rc Ψ c).arrAt 10 cfg3.N = out10 (V c main_v29) (V c main_v31) (V c main_v0) (V c main_v32) (V c main_arg10) (V c main_v33) (V c main_v34) (V c main_v35) :=
  (dat V Rc Ψ c).arrAt_eq_of_cover 10 (out10 (V c main_v29) (V c main_v31) (V c main_v0) (V c main_v32) (V c main_arg10) (V c main_v33) (V c main_v34) (V c main_v35)) (flushed_10 V Rc Ψ c) cover_10

end

end Cert.KernelIdeal.R3

end
-- ==== Proof.R3.ReadLib.lean ====
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import proofs.«214766_g21345987461187_cont_8to1_720_22_alg».proof.Proof.RefValue.Dots

noncomputable section

open scoped BigOperators

namespace Cert.KernelIdeal.R3

open Idealize.ShloMosaic Idealize.ShloMosaic.ValueIdx
open Cert.ReferenceIdeal.RefValue (lhs_batch lhs_free lhs_contr rhs_batch rhs_free rhs_contr contr_size_of)

local macro "closed " t:term : tactic => `(tactic| (show $t; decide))

variable {α : Type}

section Plain

variable {M K N : Nat} (D : DotDims ⟨2, ![M, K]⟩ ⟨2, ![K, N]⟩ ⟨2, ![M, N]⟩)

theorem plainMatmul_apply (hlc : D.lhsContracting = [1]) (hrc : D.rhsContracting = [0])
    (hln : D.lhsNonContracting = [0]) (hrn : D.rhsNonContracting = [1]) (hlb : D.lhsBatch = []) (hrb : D.rhsBatch = [])
    (l : FVec Ideal ⟨2, ![M, K]⟩ .f32) (r : FVec Ideal ⟨2, ![K, N]⟩ .f32) (i : Fin M) (j : Fin N) :
    matmul D none l r (constant (F := Ideal) ⟨2, ![M, N]⟩ .f32 0x00000000#32) (ix2 i j)
      = ∑ k : Fin K, l (ix2 i k) * r (ix2 k j) := by
  have hr : D.contr.rank = 1 := by rw [D.rank_contr, hlc]; rfl
  have hs : D.contr.size ⟨0, by omega⟩ = K := contr_size_of D [1] hlc 0 Nat.one_pos (by omega)
  have nlb : ∀ a, a ∉ D.lhsBatch := fun a => by rw [hlb]; exact List.not_mem_nil
  have nrb : ∀ a, a ∉ D.rhsBatch := fun a => by rw [hrb]; exact List.not_mem_nil
  show FloatOps.matmul D none l r (constant (F := Ideal) ⟨2, ![M, N]⟩ .f32 0x00000000#32) (ix2 i j) = _
  rw [Ideal.matmul_constant_zero_apply, ← Equiv.sum_comp (contrEquiv1 D K hr hs).symm]
  refine Finset.sum_congr rfl (fun k _ => ?_)
  have e1 : D.lhsIdx (ix2 i j) ((contrEquiv1 D K hr hs).symm k) = ix2 i k := by
    funext a
    refine Fin.ext ?_
    match a with
    | ⟨0, _⟩ =>
      exact lhs_free D _ _ 0 0 (by closed (0 : ℕ) < 2) (nlb _) (by rw [hln]; exact List.mem_cons_self) (by rw [hlb, hln]; rfl)
    | ⟨1, _⟩ =>
      exact (lhs_contr D _ _ 1 0 (by omega) (nlb _) (by rw [hln]; closed (1 : Fin 2) ∉ ([0] : List (Fin 2)))
        (by rw [hlc]; rfl)).trans (contrEquiv1_symm_val D K hr hs k)
  have e2 : D.rhsIdx (ix2 i j) ((contrEquiv1 D K hr hs).symm k) = ix2 k j := by
    funext a
    refine Fin.ext ?_
    match a with
    | ⟨0, _⟩ =>
      exact (rhs_contr D _ _ 0 0 (by omega) (nrb _) (by rw [hrn]; closed (0 : Fin 2) ∉ ([1] : List (Fin 2)))
        (by rw [hrc]; rfl)).trans (contrEquiv1_symm_val D K hr hs k)
    | ⟨1, _⟩ =>
      exact rhs_free D _ _ 1 1 (by closed (1 : ℕ) < 2) (nrb _) (by rw [hrn]; exact List.mem_cons_self)
        (by rw [hlb, hln, hrn]; rfl)
  rw [e1, e2]

end Plain

section PerRow

variable {S K P C : Nat} (D : DotDims ⟨3, ![S, K, P]⟩ ⟨3, ![S, K, C]⟩ ⟨3, ![S, P, C]⟩)

theorem rowMatmul_apply (hlc : D.lhsContracting = [1]) (hrc : D.rhsContracting = [1])
    (hln : D.lhsNonContracting = [2]) (hrn : D.rhsNonContracting = [2]) (hlb : D.lhsBatch = [0]) (hrb : D.rhsBatch = [0])
    (w : FVec Ideal ⟨3, ![S, K, P]⟩ .f32) (f : FVec Ideal ⟨3, ![S, K, C]⟩ .f32) (s : Fin S) (p : Fin P) (c : Fin C) :
    matmul D none w f (constant (F := Ideal) ⟨3, ![S, P, C]⟩ .f32 0x00000000#32) (ix3 s p c)
      = ∑ k : Fin K, w (ix3 s k p) * f (ix3 s k c) := by
  have hr : D.contr.rank = 1 := by rw [D.rank_contr, hlc]; rfl
  have hs : D.contr.size ⟨0, by omega⟩ = K := contr_size_of D [1] hlc 0 Nat.one_pos (by omega)
  show FloatOps.matmul D none w f (constant (F := Ideal) ⟨3, ![S, P, C]⟩ .f32 0x00000000#32) (ix3 s p c) = _
  rw [Ideal.matmul_constant_zero_apply, ← Equiv.sum_comp (contrEquiv1 D K hr hs).symm]
  refine Finset.sum_congr rfl (fun k _ => ?_)
  have e1 : D.lhsIdx (ix3 s p c) ((contrEquiv1 D K hr hs).symm k) = ix3 s k p := by
    funext a
    refine Fin.ext ?_
    match a with
    | ⟨0, _⟩ => exact lhs_batch D _ _ 0 0 (by closed (0 : ℕ) < 3) (by rw [hlb]; exact List.mem_cons_self) (by rw [hlb]; rfl)
    | ⟨1, _⟩ =>
      exact (lhs_contr D _ _ 1 0 (by omega) (by rw [hlb]; closed (1 : Fin 3) ∉ ([0] : List (Fin 3)))
        (by rw [hln]; closed (1 : Fin 3) ∉ ([2] : List (Fin 3))) (by rw [hlc]; rfl)).trans
        (contrEquiv1_symm_val D K hr hs k)
    | ⟨2, _⟩ =>
      exact lhs_free D _ _ 2 1 (by closed (1 : ℕ) < 3) (by rw [hlb]; closed (2 : Fin 3) ∉ ([0] : List (Fin 3)))
        (by rw [hln]; exact List.mem_cons_self) (by rw [hlb, hln]; rfl)
  have e2 : D.rhsIdx (ix3 s p c) ((contrEquiv1 D K hr hs).symm k) = ix3 s k c := by
    funext a
    refine Fin.ext ?_
    match a with
    | ⟨0, _⟩ => exact rhs_batch D _ _ 0 0 (by closed (0 : ℕ) < 3) (by rw [hrb]; exact List.mem_cons_self) (by rw [hrb]; rfl)
    | ⟨1, _⟩ =>
      exact (rhs_contr D _ _ 1 0 (by omega) (by rw [hrb]; closed (1 : Fin 3) ∉ ([0] : List (Fin 3)))
        (by rw [hrn]; closed (1 : Fin 3) ∉ ([2] : List (Fin 3))) (by rw [hrc]; rfl)).trans
        (contrEquiv1_symm_val D K hr hs k)
    | ⟨2, _⟩ =>
      exact rhs_free D _ _ 2 2 (by closed (2 : ℕ) < 3) (by rw [hrb]; closed (2 : Fin 3) ∉ ([0] : List (Fin 3)))
        (by rw [hrn]; exact List.mem_cons_self) (by rw [hlb, hln, hrn]; rfl)
  rw [e1, e2]

end PerRow

theorem slice_feat_apply (y : (⟨3, ![512, 16, 128]⟩ : Shape).Idx → α)
    (h : (⟨3, ![512, 16, 128]⟩ : Shape).Slices ![0, 0, 0] ⟨3, ![512, 16, 64]⟩) (s : Fin 512) (k : Fin 16) (c : Fin 64) :
    extractStridedSlice ⟨3, ![512, 16, 64]⟩ ![0, 0, 0] y h (ix3 s k c) = y (ix3 s k (⟨c.val, by omega⟩ : Fin 128)) :=
  extractStridedSlice_apply _ _ _ _ (ix3 s k (⟨c.val, by omega⟩ : Fin 128))
    (fun a => by match a with | ⟨0, _⟩ => exact (Nat.zero_add _).symm | ⟨1, _⟩ => exact (Nat.zero_add _).symm
                              | ⟨2, _⟩ => exact (Nat.zero_add _).symm)

theorem slice_col_apply (o : Nat) (ho : o < 128) (y : (⟨3, ![512, 16, 128]⟩ : Shape).Idx → α)
    (h : (⟨3, ![512, 16, 128]⟩ : Shape).Slices ![0, 0, o] ⟨3, ![512, 16, 1]⟩) (s : Fin 512) (k : Fin 16) (u : Fin 1) :
    extractStridedSlice ⟨3, ![512, 16, 1]⟩ ![0, 0, o] y h (ix3 s k u) = y (ix3 s k (⟨o, ho⟩ : Fin 128)) :=
  extractStridedSlice_apply _ _ _ _ (ix3 s k (⟨o, ho⟩ : Fin 128))
    (fun a => by match a with | ⟨0, _⟩ => exact (Nat.zero_add _).symm | ⟨1, _⟩ => exact (Nat.zero_add _).symm
                              | ⟨2, _⟩ => show o = o + u.val; omega)

theorem slice_coord_apply (t : Nat) (ht : t < 3) (y : (⟨2, ![512, 3]⟩ : Shape).Idx → α)
    (h : (⟨2, ![512, 3]⟩ : Shape).Slices ![0, t] ⟨2, ![512, 1]⟩) (s : Fin 512) (u : Fin 1) :
    extractStridedSlice ⟨2, ![512, 1]⟩ ![0, t] y h (ix2 s u) = y (ix2 s (⟨t, ht⟩ : Fin 3)) :=
  extractStridedSlice_apply _ _ _ _ (ix2 s (⟨t, ht⟩ : Fin 3))
    (fun a => by match a with | ⟨0, _⟩ => exact (Nat.zero_add _).symm | ⟨1, _⟩ => show t = t + u.val; omega)

theorem slice_slab_apply (p : Nat) (hp : p < 16) (g : (⟨3, ![512, 16, 64]⟩ : Shape).Idx → α)
    (h : (⟨3, ![512, 16, 64]⟩ : Shape).Slices ![0, p, 0] ⟨3, ![512, 1, 64]⟩) (s : Fin 512) (u : Fin 1) (c : Fin 64) :
    extractStridedSlice ⟨3, ![512, 1, 64]⟩ ![0, p, 0] g h (ix3 s u c) = g (ix3 s (⟨p, hp⟩ : Fin 16) c) :=
  extractStridedSlice_apply _ _ _ _ (ix3 s (⟨p, hp⟩ : Fin 16) c)
    (fun a => by match a with | ⟨0, _⟩ => exact (Nat.zero_add _).symm | ⟨1, _⟩ => show p = p + u.val; omega
                              | ⟨2, _⟩ => exact (Nat.zero_add _).symm)

theorem cast_16_1x1x16_apply (v : (⟨1, ![16]⟩ : Shape).Idx → α) (h : (⟨1, ![16]⟩ : Shape).ShapeCasts ⟨3, ![1, 1, 16]⟩)
    (u u' : Fin 1) (p : Fin 16) : shapeCast ⟨3, ![1, 1, 16]⟩ v h (ix3 u u' p) = v (ix1 p) :=
  shapeCast_apply v h _ _ (by
    rw [Shape.rowMajor_val_one, Shape.rowMajor_val_three]
    show p.val = (u.val * 1 + u'.val) * 16 + p.val
    omega)

theorem cast_512x1_512x1x1_apply (v : (⟨2, ![512, 1]⟩ : Shape).Idx → α)
    (h : (⟨2, ![512, 1]⟩ : Shape).ShapeCasts ⟨3, ![512, 1, 1]⟩) (s : Fin 512) (u u' : Fin 1) :
    shapeCast ⟨3, ![512, 1, 1]⟩ v h (ix3 s u u') = v (ix2 s (0 : Fin 1)) :=
  shapeCast_apply v h _ _ (by
    rw [Shape.rowMajor_val_two, Shape.rowMajor_val_three]
    show s.val * 1 + 0 = (s.val * 1 + u.val) * 1 + u'.val
    omega)

theorem cast_512x16_512x16x1_apply (v : (⟨2, ![512, 16]⟩ : Shape).Idx → α)
    (h : (⟨2, ![512, 16]⟩ : Shape).ShapeCasts ⟨3, ![512, 16, 1]⟩) (s : Fin 512) (k : Fin 16) (u : Fin 1) :
    shapeCast ⟨3, ![512, 16, 1]⟩ v h (ix3 s k u) = v (ix2 s k) :=
  shapeCast_apply v h _ _ (by
    rw [Shape.rowMajor_val_two, Shape.rowMajor_val_three]
    show s.val * 16 + k.val = (s.val * 16 + k.val) * 1 + u.val
    omega)

theorem cast_512x1x64_512x64_apply (v : (⟨3, ![512, 1, 64]⟩ : Shape).Idx → α)
    (h : (⟨3, ![512, 1, 64]⟩ : Shape).ShapeCasts ⟨2, ![512, 64]⟩) (s : Fin 512) (c : Fin 64) :
    shapeCast ⟨2, ![512, 64]⟩ v h (ix2 s c) = v (ix3 s (0 : Fin 1) c) :=
  shapeCast_apply v h _ _ (by
    rw [Shape.rowMajor_val_three, Shape.rowMajor_val_two]
    show (s.val * 1 + 0) * 64 + c.val = s.val * 64 + c.val
    omega)

theorem bcast_1x1x64_apply (v : (⟨3, ![1, 1, 64]⟩ : Shape).Idx → α)
    (h : (⟨3, ![1, 1, 64]⟩ : Shape).Broadcasts ⟨3, ![512, 16, 64]⟩) (s : Fin 512) (k : Fin 16) (c : Fin 64) :
    broadcastTo ⟨3, ![512, 16, 64]⟩ v h (ix3 s k c) = v (ix3 (0 : Fin 1) (0 : Fin 1) c) :=
  broadcastTo_apply v h _ _ (fun a => by match a with | ⟨0, _⟩ => rfl | ⟨1, _⟩ => rfl | ⟨2, _⟩ => rfl)

theorem bcast_1x1x16_apply (v : (⟨3, ![1, 1, 16]⟩ : Shape).Idx → α)
    (h : (⟨3, ![1, 1, 16]⟩ : Shape).Broadcasts ⟨3, ![512, 16, 16]⟩) (s : Fin 512) (k : Fin 16) (p : Fin 16) :
    broadcastTo ⟨3, ![512, 16, 16]⟩ v h (ix3 s k p) = v (ix3 (0 : Fin 1) (0 : Fin 1) p) :=
  broadcastTo_apply v h _ _ (fun a => by match a with | ⟨0, _⟩ => rfl | ⟨1, _⟩ => rfl | ⟨2, _⟩ => rfl)

theorem bcast_512x1x1_apply (v : (⟨3, ![512, 1, 1]⟩ : Shape).Idx → α)
    (h : (⟨3, ![512, 1, 1]⟩ : Shape).Broadcasts ⟨3, ![512, 16, 1]⟩) (s : Fin 512) (k : Fin 16) (u : Fin 1) :
    broadcastTo ⟨3, ![512, 16, 1]⟩ v h (ix3 s k u) = v (ix3 s (0 : Fin 1) (0 : Fin 1)) :=
  broadcastTo_apply v h _ _ (fun a => by match a with | ⟨0, _⟩ => rfl | ⟨1, _⟩ => rfl | ⟨2, _⟩ => rfl)

theorem bcast_512x16x1_apply (v : (⟨3, ![512, 16, 1]⟩ : Shape).Idx → α)
    (h : (⟨3, ![512, 16, 1]⟩ : Shape).Broadcasts ⟨3, ![512, 16, 16]⟩) (s : Fin 512) (k : Fin 16) (p : Fin 16) :
    broadcastTo ⟨3, ![512, 16, 16]⟩ v h (ix3 s k p) = v (ix3 s k (0 : Fin 1)) :=
  broadcastTo_apply v h _ _ (fun a => by match a with | ⟨0, _⟩ => rfl | ⟨1, _⟩ => rfl | ⟨2, _⟩ => rfl)

theorem ld_row_apply {Val : EltTy → Type} {e : EltTy} (x : (⟨2, ![3, 16]⟩ : Shape).Idx → Val e) (t : Nat) (ht : t < 3)
    (inb : ∀ a, (![t, 0] : Fin 2 → Nat) a + (![1, 16] : Fin 2 → Nat) a ≤ (⟨2, ![3, 16]⟩ : Shape).size a)
    (u : Fin 1) (p : Fin 16) :
    View.ld x (Rect.unit (s := ⟨2, ![3, 16]⟩) ![t, 0] ![1, 16] inb) (ix2 u p) = x (ix2 (⟨t, ht⟩ : Fin 3) p) := by
  show x _ = x _
  refine congrArg x (funext fun a => Fin.ext ?_)
  match a with
  | ⟨0, _⟩ => show t + 1 * u.val = t; omega
  | ⟨1, _⟩ => show 0 + 1 * p.val = p.val; omega

theorem ld_slab_apply {Val : EltTy → Type} {e : EltTy} (x : (⟨3, ![16, 64, 64]⟩ : Shape).Idx → Val e) (p : Nat) (hp : p < 16)
    (inb : ∀ a, (![p, 0, 0] : Fin 3 → Nat) a + (![1, 64, 64] : Fin 3 → Nat) a ≤ (⟨3, ![16, 64, 64]⟩ : Shape).size a)
    (u : Fin 1) (c d : Fin 64) :
    View.ld x (Rect.unit (s := ⟨3, ![16, 64, 64]⟩) ![p, 0, 0] ![1, 64, 64] inb) (ix3 u c d)
      = x (ix3 (⟨p, hp⟩ : Fin 16) c d) := by
  show x _ = x _
  refine congrArg x (funext fun a => Fin.ext ?_)
  match a with
  | ⟨0, _⟩ => show p + 1 * u.val = p; omega
  | ⟨1, _⟩ => show 0 + 1 * c.val = c.val; omega
  | ⟨2, _⟩ => show 0 + 1 * d.val = d.val; omega

theorem sqrt_apply {s : Shape} (a : FVec Ideal s .f32) (i : s.Idx) : sqrt a i = Ideal.sqrt (a i) := rfl

theorem sum_univ_sixteen {M : Type} [AddCommMonoid M] (f : Fin 16 → M) :
    ∑ i, f i = f 0 + f 1 + f 2 + f 3 + f 4 + f 5 + f 6 + f 7 + f 8 + f 9 + f 10 + f 11 + f 12 + f 13 + f 14 + f 15 := by
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_eight]
  rfl

theorem colReduce_apply (y : FVec Ideal ⟨2, ![512, 64]⟩ .f32) (h : (⟨2, ![512, 64]⟩ : Shape).Reduces [0] ⟨1, ![64]⟩)
    (hφ : FKind.Formats .f32) (hacc : (0x00000000#32 : BitVec 32) = FKind.add.neutral .f32 hφ) (d : Fin 64) :
    multiReduction .add [0] ⟨1, ![64]⟩ y 0x00000000#32 h hφ hacc (ix1 d) = ∑ r : Fin 512, y (ix2 r d) := by
  rw [Ideal.multiReduction_add_single]
  refine Finset.sum_congr rfl (fun (r : Fin 512) _ => congrArg y ?_)
  funext a
  refine Fin.ext ?_
  match a with
  | ⟨0, _⟩ => rfl
  | ⟨1, _⟩ => rfl

end Cert.KernelIdeal.R3

end
-- ==== Proof.R3.Read.lean ====
import proofs.«214766_g21345987461187_cont_8to1_720_22_alg».proof.Proof.R3.Pieces
import proofs.«214766_g21345987461187_cont_8to1_720_22_alg».proof.Proof.R3.ReadLib
import proofs.«214766_g21345987461187_cont_8to1_720_22_alg».proof.Proof.Spec
import proofs.«214766_g21345987461187_cont_8to1_720_22_alg».proof.Proof.SpecAt

set_option maxRecDepth 16384

noncomputable section

open scoped BigOperators

namespace Cert.KernelIdeal.R3

open Cert.KernelIdeal.Gen
open Idealize.ShloMosaic Idealize.ShloMosaic.ValueIdx
open Cert.Spec (zeroW oneW tinyW)

def blkF (x0 : FVec Ideal S1x512x16x128 .f32) (x5 x6 : FVec Ideal S1x64 .f32) (s : Fin 512) (k : Fin 16) (c : Fin 64) : EReal :=
  max (x0 (ix4 (0 : Fin 1) s k (⟨c.val, by omega⟩ : Fin 128)) * x5 (ix2 (0 : Fin 1) c) + x6 (ix2 (0 : Fin 1) c)) zeroW

def blkRel (x0 : FVec Ideal S1x512x16x128 .f32) (x1 : FVec Ideal S1x512x3 .f32) (s : Fin 512) (k : Fin 16) (t : Fin 3) : EReal :=
  x0 (ix4 (0 : Fin 1) s k (⟨64 + t.val, by omega⟩ : Fin 128)) - x1 (ix3 (0 : Fin 1) s t)

def blkW (x0 : FVec Ideal S1x512x16x128 .f32) (x1 : FVec Ideal S1x512x3 .f32) (x2 : FVec Ideal S1x512x16 .f32)
    (x3 : FVec Ideal S3x16 .f32) (s : Fin 512) (k : Fin 16) (p : Fin 16) : EReal :=
  max (oneW - Ideal.div (Ideal.sqrt
      ((((blkRel x0 x1 s k 0 - x3 (ix2 (0 : Fin 3) p)) * (blkRel x0 x1 s k 0 - x3 (ix2 (0 : Fin 3) p))
        + (blkRel x0 x1 s k 1 - x3 (ix2 (1 : Fin 3) p)) * (blkRel x0 x1 s k 1 - x3 (ix2 (1 : Fin 3) p)))
        + (blkRel x0 x1 s k 2 - x3 (ix2 (2 : Fin 3) p)) * (blkRel x0 x1 s k 2 - x3 (ix2 (2 : Fin 3) p))) + tinyW)) oneW) zeroW
    * x2 (ix3 (0 : Fin 1) s k)

def slabSum (g : FVec Ideal S512x16x64 .f32) (W : FVec Ideal S1x64x64 .f32) (p : Fin 16) (s : Fin 512) (d : Fin 64) : EReal :=
  ∑ c : Fin 64, g (ix3 s p c) * W (ix3 (0 : Fin 1) c d)

section Small

variable (x0 : FVec Ideal S1x512x16x128 .f32) (x1 : FVec Ideal S1x512x3 .f32) (x5 x6 : FVec Ideal S1x64 .f32)

theorem pay2_apply (s : Fin 512) (k : Fin 16) (j : Fin 128) :
    k3_pay2 (F := Ideal) x0 (ix3 s k j) = x0 (ix4 (0 : Fin 1) s k j) :=
  shapeCast_1abc_abc_apply x0 shapeCasts_S1x512x16x128_S512x16x128 s k j

theorem pay7_apply (s : Fin 512) (t : Fin 3) : k3_pay7 (F := Ideal) x1 (ix2 s t) = x1 (ix3 (0 : Fin 1) s t) :=
  shapeCast_1ab_ab_apply x1 shapeCasts_S1x512x3_S512x3 s t

theorem pay3_apply (s : Fin 512) (k : Fin 16) (c : Fin 64) :
    k3_pay3 (F := Ideal) x0 x5 x6 (ix3 s k c) = blkF x0 x5 x6 s k c := by
  unfold k3_pay3 blkF
  refine (maximumf_apply _ _ _).trans (congrArg₂ max ?_ rfl)
  refine (addf_apply _ _ _).trans (congrArg₂ (· + ·) ?_ ?_)
  · refine (mulf_apply _ _ _).trans (congrArg₂ (· * ·) ?_ ?_)
    · exact (slice_feat_apply _ _ s k c).trans (pay2_apply x0 s k _)
    · exact (bcast_1x1x64_apply _ _ s k c).trans
        ((shapeCast_ab_1ab_apply _ _ 0 0 c).trans (congrFun (shapeCast_self x5 _) _))
  · exact (bcast_1x1x64_apply _ _ s k c).trans
      ((shapeCast_ab_1ab_apply _ _ 0 0 c).trans (congrFun (shapeCast_self x6 _) _))

theorem pay4_apply (v : FVec Ideal S1x16 .f32) (u u' : Fin 1) (p : Fin 16) :
    k3_pay4 (F := Ideal) v (ix3 u u' p) = v (ix2 (0 : Fin 1) p) :=
  (cast_16_1x1x16_apply _ _ u u' p).trans (shapeCast_1a_a_apply v _ p)
theorem pay5_apply (v : FVec Ideal S1x16 .f32) (u u' : Fin 1) (p : Fin 16) :
    k3_pay5 (F := Ideal) v (ix3 u u' p) = v (ix2 (0 : Fin 1) p) :=
  (cast_16_1x1x16_apply _ _ u u' p).trans (shapeCast_1a_a_apply v _ p)
theorem pay6_apply (v : FVec Ideal S1x16 .f32) (u u' : Fin 1) (p : Fin 16) :
    k3_pay6 (F := Ideal) v (ix3 u u' p) = v (ix2 (0 : Fin 1) p) :=
  (cast_16_1x1x16_apply _ _ u u' p).trans (shapeCast_1a_a_apply v _ p)

theorem spCoord_apply (t : Nat) (ht : t < 3) (hsl : S512x3.Slices ![0, t] S512x1) (s : Fin 512) (k : Fin 16) (u : Fin 1) :
    broadcastTo S512x16x1
        (shapeCast S512x1x1 (extractStridedSlice S512x1 ![0, t] (k3_pay7 (F := Ideal) x1) hsl) shapeCasts_S512x1_S512x1x1)
        broadcasts_S512x1x1_S512x16x1 (ix3 s k u)
      = x1 (ix3 (0 : Fin 1) s (⟨t, ht⟩ : Fin 3)) :=
  (bcast_512x1x1_apply _ _ s k u).trans
    ((cast_512x1_512x1x1_apply _ _ s 0 0).trans ((slice_coord_apply t ht _ hsl s 0).trans (pay7_apply x1 s _)))

theorem pay8_apply (s : Fin 512) (k : Fin 16) (u : Fin 1) : k3_pay8 (F := Ideal) x0 x1 (ix3 s k u) = blkRel x0 x1 s k 0 := by
  unfold k3_pay8 blkRel
  refine (subf_apply _ _ _).trans (congrArg₂ (· - ·) ?_ ?_)
  · exact (slice_col_apply 64 (by omega) _ _ s k u).trans (pay2_apply x0 s k _)
  · exact spCoord_apply x1 0 (by omega) _ s k u

theorem pay9_apply (s : Fin 512) (k : Fin 16) (u : Fin 1) : k3_pay9 (F := Ideal) x0 x1 (ix3 s k u) = blkRel x0 x1 s k 1 := by
  unfold k3_pay9 blkRel
  refine (subf_apply _ _ _).trans (congrArg₂ (· - ·) ?_ ?_)
  · exact (slice_col_apply 65 (by omega) _ _ s k u).trans (pay2_apply x0 s k _)
  · exact spCoord_apply x1 1 (by omega) _ s k u

theorem pay10_11_apply (s : Fin 512) (k : Fin 16) (u u' : Fin 1) :
    k3_pay10 (F := Ideal) x0 (ix3 s k u) - k3_pay11 (F := Ideal) x1 (ix3 s k u') = blkRel x0 x1 s k 2 := by
  unfold k3_pay10 k3_pay11 blkRel
  refine congrArg₂ (· - ·) ?_ ?_
  · exact (slice_col_apply 66 (by omega) _ _ s k u).trans (pay2_apply x0 s k _)
  · exact spCoord_apply x1 2 (by omega) _ s k u'

end Small

theorem pay12_apply (v14 : FVec Ideal S512x16x64 .f32) (v17 v20 v23 : FVec Ideal S1x1x16 .f32)
    (v30 v35 v36 v39 : FVec Ideal S512x16x1 .f32) (v64 : FVec Ideal S1x512x16 .f32) (s : Fin 512) (p : Fin 16) (c : Fin 64) :
    k3_pay12 (F := Ideal) v14 v17 v20 v23 v30 v35 v36 v39 v64 (ix3 s p c)
      = ∑ k : Fin 16,
          (max (oneW - Ideal.div (Ideal.sqrt
              ((((v30 (ix3 s k (0 : Fin 1)) - v17 (ix3 (0 : Fin 1) (0 : Fin 1) p)) * (v30 (ix3 s k (0 : Fin 1)) - v17 (ix3 (0 : Fin 1) (0 : Fin 1) p))
                + (v35 (ix3 s k (0 : Fin 1)) - v20 (ix3 (0 : Fin 1) (0 : Fin 1) p)) * (v35 (ix3 s k (0 : Fin 1)) - v20 (ix3 (0 : Fin 1) (0 : Fin 1) p)))
                + ((v36 (ix3 s k (0 : Fin 1)) - v39 (ix3 s k (0 : Fin 1))) - v23 (ix3 (0 : Fin 1) (0 : Fin 1) p))
                    * ((v36 (ix3 s k (0 : Fin 1)) - v39 (ix3 s k (0 : Fin 1))) - v23 (ix3 (0 : Fin 1) (0 : Fin 1) p)))
                + tinyW)) oneW) zeroW
            * v64 (ix3 (0 : Fin 1) s k)) * v14 (ix3 s k c) := by
  have hsub : ∀ (a : FVec Ideal S512x16x1 .f32) (b : FVec Ideal S1x1x16 .f32) (h1 : S512x16x1.Broadcasts S512x16x16)
      (h2 : S1x1x16.Broadcasts S512x16x16) (k : Fin 16),
      subf (broadcastTo S512x16x16 a h1) (broadcastTo S512x16x16 b h2) (ix3 s k p)
        = a (ix3 s k (0 : Fin 1)) - b (ix3 (0 : Fin 1) (0 : Fin 1) p) := fun a b h1 h2 k =>
    (subf_apply _ _ _).trans (congrArg₂ (· - ·) (bcast_512x16x1_apply a h1 s k p) (bcast_1x1x16_apply b h2 s k p))
  have hsq : ∀ (a : FVec Ideal S512x16x1 .f32) (b : FVec Ideal S1x1x16 .f32) (h1 : S512x16x1.Broadcasts S512x16x16)
      (h2 : S1x1x16.Broadcasts S512x16x16) (k : Fin 16),
      mulf (subf (broadcastTo S512x16x16 a h1) (broadcastTo S512x16x16 b h2))
          (subf (broadcastTo S512x16x16 a h1) (broadcastTo S512x16x16 b h2)) (ix3 s k p)
        = (a (ix3 s k (0 : Fin 1)) - b (ix3 (0 : Fin 1) (0 : Fin 1) p)) * (a (ix3 s k (0 : Fin 1)) - b (ix3 (0 : Fin 1) (0 : Fin 1) p)) :=
    fun a b h1 h2 k => (mulf_apply _ _ _).trans (congrArg₂ (· * ·) (hsub a b h1 h2 k) (hsub a b h1 h2 k))
  unfold k3_pay12
  refine (rowMatmul_apply dot_S512x16x16_S512x16x64_S512x16x64_1_1_2_2_0_0 rfl rfl rfl rfl rfl rfl _ v14 s p c).trans ?_
  refine Finset.sum_congr rfl (fun k _ => congrArg (fun t => t * v14 (ix3 s k c)) ?_)
  refine (mulf_apply _ _ _).trans (congrArg₂ (· * ·) ?_ ?_)
  · refine (maximumf_apply _ _ _).trans (congrArg₂ max ?_ rfl)
    refine (subf_apply _ _ _).trans (congrArg₂ (· - ·) rfl ?_)
    refine (divf_apply _ _ _).trans (congrArg₂ Ideal.div ?_ rfl)
    refine (sqrt_apply _ _).trans (congrArg Ideal.sqrt ?_)
    refine (addf_apply _ _ _).trans (congrArg₂ (· + ·) ?_ rfl)
    refine (addf_apply _ _ _).trans (congrArg₂ (· + ·) ?_ ?_)
    · refine (addf_apply _ _ _).trans (congrArg₂ (· + ·) ?_ ?_)
      · exact hsq v30 v17 _ _ k
      · exact hsq v35 v20 _ _ k
    · have hz : subf (broadcastTo S512x16x16 (subf v36 v39) broadcasts_S512x16x1_S512x16x16)
          (broadcastTo S512x16x16 v23 broadcasts_S1x1x16_S512x16x16) (ix3 s k p)
            = (v36 (ix3 s k (0 : Fin 1)) - v39 (ix3 s k (0 : Fin 1))) - v23 (ix3 (0 : Fin 1) (0 : Fin 1) p) :=
        (hsub (subf v36 v39) v23 _ _ k).trans
          (congrArg (fun t => t - v23 (ix3 (0 : Fin 1) (0 : Fin 1) p)) (subf_apply v36 v39 _))
      exact (mulf_apply _ _ _).trans (congrArg₂ (· * ·) hz hz)
  · exact (bcast_512x16x1_apply _ _ s k p).trans
      ((cast_512x16_512x16x1_apply _ _ s k 0).trans (shapeCast_1ab_ab_apply v64 _ s k))

theorem slabTerm_apply (g : FVec Ideal S512x16x64 .f32) (W : FVec Ideal S1x64x64 .f32) (p : Nat) (hp : p < 16)
    (hsl : S512x16x64.Slices ![0, p, 0] S512x1x64) (s : Fin 512) (d : Fin 64) :
    matmul dot_S512x64_S64x64_S512x64_1_0_0_1_n_n none
        (shapeCast S512x64 (extractStridedSlice S512x1x64 ![0, p, 0] g hsl) shapeCasts_S512x1x64_S512x64)
        (shapeCast S64x64 W shapeCasts_S1x64x64_S64x64) (constant (F := Ideal) S512x64 .f32 0x00000000#32) (ix2 s d)
      = slabSum g W ⟨p, hp⟩ s d :=
  (plainMatmul_apply dot_S512x64_S64x64_S512x64_1_0_0_1_n_n rfl rfl rfl rfl rfl rfl _ _ s d).trans
    (Finset.sum_congr rfl fun c _ => congrArg₂ (· * ·)
      ((cast_512x1x64_512x64_apply _ _ s c).trans (slice_slab_apply p hp g hsl s 0 c))
      (shapeCast_1ab_ab_apply W _ c d))

theorem pay13_apply (v14 : FVec Ideal S512x16x64 .f32) (v17 v20 v23 : FVec Ideal S1x1x16 .f32)
    (v30 v35 v36 v39 : FVec Ideal S512x16x1 .f32) (v64 : FVec Ideal S1x512x16 .f32) (v73 v79 : FVec Ideal S1x64x64 .f32)
    (s : Fin 512) (d : Fin 64) :
    k3_pay13 (F := Ideal) v14 v17 v20 v23 v30 v35 v36 v39 v64 v73 v79 (ix2 s d)
      = (zeroW + slabSum (k3_pay12 (F := Ideal) v14 v17 v20 v23 v30 v35 v36 v39 v64) v73 0 s d)
          + slabSum (k3_pay12 (F := Ideal) v14 v17 v20 v23 v30 v35 v36 v39 v64) v79 1 s d := by
  unfold k3_pay13
  refine (addf_apply _ _ _).trans (congrArg₂ (· + ·) ?_ ?_)
  · exact (addf_apply _ _ _).trans (congrArg₂ (· + ·) rfl (slabTerm_apply _ v73 0 (by omega) _ s d))
  · exact slabTerm_apply _ v79 1 (by omega) _ s d

theorem pay14_apply (v69 : FVec Ideal S512x16x64 .f32) (v82 : FVec Ideal S512x64 .f32)
    (v85 v91 v97 v103 v109 v115 : FVec Ideal S1x64x64 .f32) (s : Fin 512) (d : Fin 64) :
    k3_pay14 (F := Ideal) v69 v82 v85 v91 v97 v103 v109 v115 (ix2 s d)
      = v82 (ix2 s d) + slabSum v69 v85 2 s d + slabSum v69 v91 3 s d + slabSum v69 v97 4 s d + slabSum v69 v103 5 s d
          + slabSum v69 v109 6 s d + slabSum v69 v115 7 s d := by
  unfold k3_pay14
  refine (addf_apply _ _ _).trans (congrArg₂ (· + ·) ?_ (slabTerm_apply v69 v115 7 (by omega) _ s d))
  refine (addf_apply _ _ _).trans (congrArg₂ (· + ·) ?_ (slabTerm_apply v69 v109 6 (by omega) _ s d))
  refine (addf_apply _ _ _).trans (congrArg₂ (· + ·) ?_ (slabTerm_apply v69 v103 5 (by omega) _ s d))
  refine (addf_apply _ _ _).trans (congrArg₂ (· + ·) ?_ (slabTerm_apply v69 v97 4 (by omega) _ s d))
  refine (addf_apply _ _ _).trans (congrArg₂ (· + ·) ?_ (slabTerm_apply v69 v91 3 (by omega) _ s d))
  exact (addf_apply _ _ _).trans (congrArg₂ (· + ·) rfl (slabTerm_apply v69 v85 2 (by omega) _ s d))

theorem pay15_apply (v69 : FVec Ideal S512x16x64 .f32) (v118 : FVec Ideal S512x64 .f32)
    (v121 v127 v133 v139 v145 v151 : FVec Ideal S1x64x64 .f32) (s : Fin 512) (d : Fin 64) :
    k3_pay15 (F := Ideal) v69 v118 v121 v127 v133 v139 v145 v151 (ix2 s d)
      = v118 (ix2 s d) + slabSum v69 v121 8 s d + slabSum v69 v127 9 s d + slabSum v69 v133 10 s d + slabSum v69 v139 11 s d
          + slabSum v69 v145 12 s d + slabSum v69 v151 13 s d := by
  unfold k3_pay15
  refine (addf_apply _ _ _).trans (congrArg₂ (· + ·) ?_ (slabTerm_apply v69 v151 13 (by omega) _ s d))
  refine (addf_apply _ _ _).trans (congrArg₂ (· + ·) ?_ (slabTerm_apply v69 v145 12 (by omega) _ s d))
  refine (addf_apply _ _ _).trans (congrArg₂ (· + ·) ?_ (slabTerm_apply v69 v139 11 (by omega) _ s d))
  refine (addf_apply _ _ _).trans (congrArg₂ (· + ·) ?_ (slabTerm_apply v69 v133 10 (by omega) _ s d))
  refine (addf_apply _ _ _).trans (congrArg₂ (· + ·) ?_ (slabTerm_apply v69 v127 9 (by omega) _ s d))
  exact (addf_apply _ _ _).trans (congrArg₂ (· + ·) rfl (slabTerm_apply v69 v121 8 (by omega) _ s d))

theorem pay16_apply (v69 : FVec Ideal S512x16x64 .f32) (v154 : FVec Ideal S512x64 .f32) (v157 v163 : FVec Ideal S1x64x64 .f32)
    (v167 : FVec Ideal S1x64 .f32) (s : Fin 512) (d : Fin 64) :
    k3_pay16 (F := Ideal) v69 v154 v157 v163 v167 (ix2 s d)
      = v154 (ix2 s d) + slabSum v69 v157 14 s d + slabSum v69 v163 15 s d + v167 (ix2 (0 : Fin 1) d) := by
  unfold k3_pay16
  refine (addf_apply _ _ _).trans (congrArg₂ (· + ·) ?_ ?_)
  · refine (addf_apply _ _ _).trans (congrArg₂ (· + ·) ?_ (slabTerm_apply v69 v163 15 (by omega) _ s d))
    exact (addf_apply _ _ _).trans (congrArg₂ (· + ·) rfl (slabTerm_apply v69 v157 14 (by omega) _ s d))
  · exact (broadcastTo_1b_ab_apply _ _ s d).trans (congrFun (shapeCast_self v167 _) _)

section Block

variable (x0 : FVec Ideal S1x512x16x128 .f32) (x1 : FVec Ideal S1x512x3 .f32) (x2 : FVec Ideal S1x512x16 .f32)
  (x3 : Vec Ideal S3x16 .f32) (x4 : Vec Ideal S16x64x64 .f32) (x5 x6 x7 : FVec Ideal S1x64 .f32)

theorem G69_apply (s : Fin 512) (p : Fin 16) (c : Fin 64) :
    G69 (F := Ideal) x0 x1 x2 x3 x4 x5 x6 x7 (ix3 s p c) = ∑ k : Fin 16, blkW x0 x1 x2 x3 s k p * blkF x0 x5 x6 s k c := by
  have h17 : ∀ (inb : ∀ a, (![0, 0] : Fin 2 → Nat) a + S1x16.size a ≤ S3x16.size a),
      k3_pay4 (F := Ideal) (View.ld x3 (Rect.unit (s := S3x16) ![0, 0] S1x16.size inb)) (ix3 (0 : Fin 1) (0 : Fin 1) p)
        = x3 (ix2 (0 : Fin 3) p) := fun inb => (pay4_apply _ 0 0 p).trans (ld_row_apply x3 0 (by omega) inb 0 p)
  have h20 : ∀ (inb : ∀ a, (![1, 0] : Fin 2 → Nat) a + S1x16.size a ≤ S3x16.size a),
      k3_pay5 (F := Ideal) (View.ld x3 (Rect.unit (s := S3x16) ![1, 0] S1x16.size inb)) (ix3 (0 : Fin 1) (0 : Fin 1) p)
        = x3 (ix2 (1 : Fin 3) p) := fun inb => (pay5_apply _ 0 0 p).trans (ld_row_apply x3 1 (by omega) inb 0 p)
  have h23 : ∀ (inb : ∀ a, (![2, 0] : Fin 2 → Nat) a + S1x16.size a ≤ S3x16.size a),
      k3_pay6 (F := Ideal) (View.ld x3 (Rect.unit (s := S3x16) ![2, 0] S1x16.size inb)) (ix3 (0 : Fin 1) (0 : Fin 1) p)
        = x3 (ix2 (2 : Fin 3) p) := fun inb => (pay6_apply _ 0 0 p).trans (ld_row_apply x3 2 (by omega) inb 0 p)
  unfold G69
  refine (pay12_apply _ _ _ _ _ _ _ _ _ s p c).trans ?_
  refine Finset.sum_congr rfl (fun k _ => congrArg₂ (· * ·) ?_ (pay3_apply x0 x5 x6 s k c))
  unfold blkW
  rw [h17, h20, h23, pay8_apply x0 x1 s k 0, pay9_apply x0 x1 s k 0, pay10_11_apply x0 x1 s k 0 0]

theorem Y170_apply (s : Fin 512) (d : Fin 64) :
    Y170 (F := Ideal) x0 x1 x2 x3 x4 x5 x6 x7 (ix2 s d)
      = (∑ p : Fin 16, ∑ c : Fin 64, (∑ k : Fin 16, blkW x0 x1 x2 x3 s k p * blkF x0 x5 x6 s k c) * x4 (ix3 p c d))
        + x7 (ix2 (0 : Fin 1) d) := by
  have hT : ∀ (p : Nat) (hp : p < 16) (inb : ∀ a, (![p, 0, 0] : Fin 3 → Nat) a + S1x64x64.size a ≤ S16x64x64.size a),
      slabSum (G69 (F := Ideal) x0 x1 x2 x3 x4 x5 x6 x7) (View.ld x4 (Rect.unit (s := S16x64x64) ![p, 0, 0] S1x64x64.size inb)) ⟨p, hp⟩ s d
        = ∑ c : Fin 64, (∑ k : Fin 16, blkW x0 x1 x2 x3 s k ⟨p, hp⟩ * blkF x0 x5 x6 s k c) * x4 (ix3 (⟨p, hp⟩ : Fin 16) c d) := by
    intro p hp inb
    unfold slabSum
    exact Finset.sum_congr rfl fun c _ =>
      congrArg₂ (· * ·) (G69_apply x0 x1 x2 x3 x4 x5 x6 x7 s ⟨p, hp⟩ c) (ld_slab_apply x4 p hp inb 0 c d)
  rw [sum_univ_sixteen]
  refine (pay16_apply _ _ _ _ _ s d).trans ?_
  refine congrArg₂ (· + ·) (congrArg₂ (· + ·) (congrArg₂ (· + ·) ?_ (hT 14 (by omega) _)) (hT 15 (by omega) _)) rfl
  refine (pay15_apply _ _ _ _ _ _ _ _ s d).trans ?_
  refine congrArg₂ (· + ·) (congrArg₂ (· + ·) (congrArg₂ (· + ·) (congrArg₂ (· + ·) (congrArg₂ (· + ·) (congrArg₂ (· + ·) (?_) (hT 8 (by omega) _)) (hT 9 (by omega) _)) (hT 10 (by omega) _)) (hT 11 (by omega) _)) (hT 12 (by omega) _)) (hT 13 (by omega) _)
  refine (pay14_apply _ _ _ _ _ _ _ _ s d).trans ?_
  refine congrArg₂ (· + ·) (congrArg₂ (· + ·) (congrArg₂ (· + ·) (congrArg₂ (· + ·) (congrArg₂ (· + ·) (congrArg₂ (· + ·) (?_) (hT 2 (by omega) _)) (hT 3 (by omega) _)) (hT 4 (by omega) _)) (hT 5 (by omega) _)) (hT 6 (by omega) _)) (hT 7 (by omega) _)
  refine (pay13_apply _ _ _ _ _ _ _ _ _ _ _ s d).trans ?_
  refine congrArg₂ (· + ·) ?_ (hT 1 (by omega) _)
  exact (congrArg (fun t => t + _) Ideal.ofBits_zero_f32).trans ((zero_add _).trans (hT 0 (by omega) _))

end Block

theorem Y170_at (a0 : Vec Ideal S2x4096x16x128 .f32) (a1 : Vec Ideal S2x4096x3 .f32) (a2 : Vec Ideal S2x4096x16 .f32)
    (a3 : Vec Ideal S3x16 .f32) (a4 : Vec Ideal S16x64x64 .f32) (a5 a6 a7 : Vec Ideal S1x64 .f32)
    (x0 : Vec Ideal S1x512x16x128 .f32) (x1 : Vec Ideal S1x512x3 .f32) (x2 : Vec Ideal S1x512x16 .f32)
    (b : Fin 2) (r0 : ℕ) (hr : r0 + 512 ≤ 4096)
    (h0 : ∀ (s : Fin 512) (k : Fin 16) (j : Fin 128), x0 (ix4 0 s k j) = a0 (ix4 b ⟨r0 + s.val, by omega⟩ k j))
    (h1 : ∀ (s : Fin 512) (t : Fin 3), x1 (ix3 0 s t) = a1 (ix3 b ⟨r0 + s.val, by omega⟩ t))
    (h2 : ∀ (s : Fin 512) (k : Fin 16), x2 (ix3 0 s k) = a2 (ix3 b ⟨r0 + s.val, by omega⟩ k))
    (s : Fin 512) (d : Fin 64) :
    Y170 x0 x1 x2 a3 a4 a5 a6 a7 (ix2 s d)
      = Cert.Spec.pointConv a0 a1 a2 a3 a4 a5 a6 a7 (ix3 b ⟨r0 + s.val, by omega⟩ d) := by
  rw [Cert.Spec.pointConv_at]
  refine (Y170_apply x0 x1 x2 a3 a4 a5 a6 a7 s d).trans ?_
  refine congrArg (fun t => t + a7 (ix2 (0 : Fin 1) d)) ?_
  refine Finset.sum_congr rfl fun p _ => Finset.sum_congr rfl fun c _ => congrArg (fun t => t * a4 (ix3 p c d)) ?_
  refine Finset.sum_congr rfl fun k _ => congrArg₂ (· * ·) ?_ ?_
  · unfold blkW blkRel Cert.Spec.pcW Cert.Spec.pcRel
    rw [h0, h0, h0, h1, h1, h1, h2]
  · unfold blkF Cert.Spec.pcF
    rw [h0]

theorem Y1_at (a0 : Vec Ideal S2x4096x16x128 .f32) (a1 : Vec Ideal S2x4096x3 .f32) (a2 : Vec Ideal S2x4096x16 .f32)
    (a3 : Vec Ideal S3x16 .f32) (a4 : Vec Ideal S16x64x64 .f32) (a5 a6 a7 : Vec Ideal S1x64 .f32)
    (x0 : Vec Ideal S1x512x16x128 .f32) (x1 : Vec Ideal S1x512x3 .f32) (x2 : Vec Ideal S1x512x16 .f32)
    (b : Fin 2) (r0 : ℕ) (hr : r0 + 512 ≤ 4096)
    (h0 : ∀ (s : Fin 512) (k : Fin 16) (j : Fin 128), x0 (ix4 0 s k j) = a0 (ix4 b ⟨r0 + s.val, by omega⟩ k j))
    (h1 : ∀ (s : Fin 512) (t : Fin 3), x1 (ix3 0 s t) = a1 (ix3 b ⟨r0 + s.val, by omega⟩ t))
    (h2 : ∀ (s : Fin 512) (k : Fin 16), x2 (ix3 0 s k) = a2 (ix3 b ⟨r0 + s.val, by omega⟩ k))
    (s : Fin 512) (d : Fin 64) :
    Y1 x0 x1 x2 a3 a4 a5 a6 a7 (ix3 0 s d)
      = Cert.Spec.pointConv a0 a1 a2 a3 a4 a5 a6 a7 (ix3 b ⟨r0 + s.val, by omega⟩ d) :=
  (shapeCast_ab_1ab_apply (Y170 x0 x1 x2 a3 a4 a5 a6 a7) shapeCasts_S512x64_S1x512x64 0 s d).trans
    (Y170_at a0 a1 a2 a3 a4 a5 a6 a7 x0 x1 x2 b r0 hr h0 h1 h2 s d)

theorem S1step_at (x0 : Vec Ideal S1x512x16x128 .f32) (x1 : Vec Ideal S1x512x3 .f32) (x2 : Vec Ideal S1x512x16 .f32)
    (x3 : Vec Ideal S3x16 .f32) (x4 : Vec Ideal S16x64x64 .f32) (x5 x6 x7 : Vec Ideal S1x64 .f32)
    (s : Vec Ideal S1x64 .f32) (d : Fin 64) :
    S1step x0 x1 x2 x3 x4 x5 x6 x7 s (ix2 0 d) = s (ix2 0 d) + ∑ r : Fin 512, Y170 x0 x1 x2 x3 x4 x5 x6 x7 (ix2 r d) := by
  unfold S1step k3_pay20
  refine (addf_apply _ _ _).trans (congrArg₂ (· + ·) ?_ ?_)
  · exact congrFun (shapeCast_self s _) _
  · exact (shapeCast_a_1a_apply _ _ 0 d).trans (colReduce_apply _ _ _ _ d)

theorem S2step_at (x0 : Vec Ideal S1x512x16x128 .f32) (x1 : Vec Ideal S1x512x3 .f32) (x2 : Vec Ideal S1x512x16 .f32)
    (x3 : Vec Ideal S3x16 .f32) (x4 : Vec Ideal S16x64x64 .f32) (x5 x6 x7 : Vec Ideal S1x64 .f32)
    (s : Vec Ideal S1x64 .f32) (d : Fin 64) :
    S2step x0 x1 x2 x3 x4 x5 x6 x7 s (ix2 0 d) = s (ix2 0 d) + ∑ r : Fin 512, Y170 x0 x1 x2 x3 x4 x5 x6 x7 (ix2 r d) * Y170 x0 x1 x2 x3 x4 x5 x6 x7 (ix2 r d) := by
  unfold S2step k3_pay1
  refine (addf_apply _ _ _).trans (congrArg₂ (· + ·) ?_ ?_)
  · exact congrFun (shapeCast_self s _) _
  · refine (shapeCast_a_1a_apply _ _ 0 d).trans ((colReduce_apply _ _ _ _ d).trans ?_)
    exact Finset.sum_congr rfl fun r _ => mulf_apply _ _ _

theorem pay18_at (d : Fin 64) : (k3_pay18 (F := Ideal)) (ix2 0 d) = 0 :=
  (show (k3_pay18 (F := Ideal)) (ix2 0 d) = Ideal.ofBits .f32 0x00000000#32 from rfl).trans Ideal.ofBits_zero_f32
theorem pay19_at (d : Fin 64) : (k3_pay19 (F := Ideal)) (ix2 0 d) = 0 :=
  (show (k3_pay19 (F := Ideal)) (ix2 0 d) = Ideal.ofBits .f32 0x00000000#32 from rfl).trans Ideal.ofBits_zero_f32

end Cert.KernelIdeal.R3

end
-- ==== Proof.R3.Final.lean ====
import proofs.«214766_g21345987461187_cont_8to1_720_22_alg».proof.Proof.R3.Arr
import proofs.«214766_g21345987461187_cont_8to1_720_22_alg».proof.Proof.R3.Read
import proofs.«214766_g21345987461187_cont_8to1_720_22_alg».proof.Proof.Spec
import Mathlib.Algebra.BigOperators.Fin

set_option maxRecDepth 16384

noncomputable section

namespace Cert.KernelIdeal.R3

open Cert.KernelIdeal.Gen
open Idealize.ShloMosaic.ValueIdx
open scoped BigOperators
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

theorem sum_range_mul' {M : Type} [AddCommMonoid M] (f : ℕ → M) (a b : ℕ) :
    ∑ n ∈ Finset.range (a * b), f n = ∑ q ∈ Finset.range a, ∑ r ∈ Finset.range b, f (q * b + r) := by
  induction a with
  | zero => simp
  | succ a ih => rw [Nat.succ_mul, Finset.sum_range_add, ih, Finset.sum_range_succ]

theorem sum_blocks {M : Type} [AddCommMonoid M] (G : ℕ → ℕ → M) :
    ∑ m ∈ Finset.range 16, ∑ r : Fin 512, G (m / 8) (m % 8 * 512 + r.val) = ∑ b : Fin 2, ∑ n : Fin 4096, G b.val n.val := by
  rw [Fin.sum_univ_eq_sum_range (fun b => ∑ n : Fin 4096, G b n.val) 2]
  rw [sum_range_mul' (fun m => ∑ r : Fin 512, G (m / 8) (m % 8 * 512 + r.val)) 2 8]
  refine Finset.sum_congr rfl fun b _ => ?_
  rw [Fin.sum_univ_eq_sum_range (fun n => G b n) 4096, sum_range_mul' (fun n => G b n) 8 512]
  refine Finset.sum_congr rfl fun q hq => ?_
  have hq8 : q < 8 := Finset.mem_range.mp hq
  rw [Fin.sum_univ_eq_sum_range (fun r => G ((b * 8 + q) / 8) ((b * 8 + q) % 8 * 512 + r)) 512]
  refine Finset.sum_congr rfl fun r _ => ?_
  rw [show (b * 8 + q) / 8 = b by omega, show (b * 8 + q) % 8 = q by omega]

theorem ix3_mod {n2 : ℕ} (b : Fin 2) (n : Fin 4096) (d : Fin n2) :
    ix3 (⟨b.val % 2, Nat.mod_lt _ (by decide)⟩ : Fin 2) (⟨n.val % 4096, Nat.mod_lt _ (by decide)⟩ : Fin 4096) d = ix3 b n d := by
  rw [show (⟨b.val % 2, Nat.mod_lt _ (by decide)⟩ : Fin 2) = b from Fin.ext (Nat.mod_eq_of_lt b.isLt),
    show (⟨n.val % 4096, Nat.mod_lt _ (by decide)⟩ : Fin 4096) = n from Fin.ext (Nat.mod_eq_of_lt n.isLt)]

theorem ablk0_at (a0 : Vec Ideal S2x4096x16x128 .f32) (n : ℕ) (b : Fin 2) (q : ℕ) (hq : q < 8) (hn : n = b.val * 8 + q)
    (s : Fin 512) (k : Fin 16) (j : Fin 128) (h : q * 512 + s.val < 4096) :
    ablk0 a0 n (ix4 0 s k j) = a0 (ix4 b ⟨q * 512 + s.val, h⟩ k j) := by
  have hb := b.isLt; have hs := s.isLt
  show a0 (ix4 (⟨n / 8 % 2, Nat.mod_lt _ (by decide)⟩ : Fin 2) (⟨(n % 8 * 512 + s.val) % 4096, Nat.mod_lt _ (by decide)⟩ : Fin 4096) k j) = _
  rw [show (⟨n / 8 % 2, Nat.mod_lt _ (by decide)⟩ : Fin 2) = b from Fin.ext (by show n / 8 % 2 = b.val; omega),
    show (⟨(n % 8 * 512 + s.val) % 4096, Nat.mod_lt _ (by decide)⟩ : Fin 4096) = ⟨q * 512 + s.val, h⟩ from Fin.ext (by show (n % 8 * 512 + s.val) % 4096 = q * 512 + s.val; omega)]

theorem ablk1_at (a1 : Vec Ideal S2x4096x3 .f32) (n : ℕ) (b : Fin 2) (q : ℕ) (hq : q < 8) (hn : n = b.val * 8 + q)
    (s : Fin 512) (t : Fin 3) (h : q * 512 + s.val < 4096) :
    ablk1 a1 n (ix3 0 s t) = a1 (ix3 b ⟨q * 512 + s.val, h⟩ t) := by
  have hb := b.isLt; have hs := s.isLt
  show a1 (ix3 (⟨n / 8 % 2, Nat.mod_lt _ (by decide)⟩ : Fin 2) (⟨(n % 8 * 512 + s.val) % 4096, Nat.mod_lt _ (by decide)⟩ : Fin 4096) t) = _
  rw [show (⟨n / 8 % 2, Nat.mod_lt _ (by decide)⟩ : Fin 2) = b from Fin.ext (by show n / 8 % 2 = b.val; omega),
    show (⟨(n % 8 * 512 + s.val) % 4096, Nat.mod_lt _ (by decide)⟩ : Fin 4096) = ⟨q * 512 + s.val, h⟩ from Fin.ext (by show (n % 8 * 512 + s.val) % 4096 = q * 512 + s.val; omega)]

theorem ablk2_at (a2 : Vec Ideal S2x4096x16 .f32) (n : ℕ) (b : Fin 2) (q : ℕ) (hq : q < 8) (hn : n = b.val * 8 + q)
    (s : Fin 512) (k : Fin 16) (h : q * 512 + s.val < 4096) :
    ablk2 a2 n (ix3 0 s k) = a2 (ix3 b ⟨q * 512 + s.val, h⟩ k) := by
  have hb := b.isLt; have hs := s.isLt
  show a2 (ix3 (⟨n / 8 % 2, Nat.mod_lt _ (by decide)⟩ : Fin 2) (⟨(n % 8 * 512 + s.val) % 4096, Nat.mod_lt _ (by decide)⟩ : Fin 4096) k) = _
  rw [show (⟨n / 8 % 2, Nat.mod_lt _ (by decide)⟩ : Fin 2) = b from Fin.ext (by show n / 8 % 2 = b.val; omega),
    show (⟨(n % 8 * 512 + s.val) % 4096, Nat.mod_lt _ (by decide)⟩ : Fin 4096) = ⟨q * 512 + s.val, h⟩ from Fin.ext (by show (n % 8 * 512 + s.val) % 4096 = q * 512 + s.val; omega)]

theorem out8_spec (a0 : Vec Ideal S2x4096x16x128 .f32) (a1 : Vec Ideal S2x4096x3 .f32) (a2 : Vec Ideal S2x4096x16 .f32) (a3 : Vec Ideal S3x16 .f32) (a4 : Vec Ideal S16x64x64 .f32) (a5 a6 a7 : Vec Ideal S1x64 .f32) :
    out8 a0 a1 a2 a3 a4 a5 a6 a7 = (Cert.Spec.pointConv a0 a1 a2 a3 a4 a5 a6 a7) := by
  funext i
  have h0 : (i 0).val < 2 := (i 0).isLt
  have h1 : (i 1).val < 4096 := (i 1).isLt
  have key := Y1_at a0 a1 a2 a3 a4 a5 a6 a7 (ablk0 a0 (ptOf i)) (ablk1 a1 (ptOf i)) (ablk2 a2 (ptOf i)) (i 0) ((i 1).val / 512 * 512) (by omega)
    (fun s k j => ablk0_at a0 (ptOf i) (i 0) ((i 1).val / 512) (by omega) rfl s k j _)
    (fun s t => ablk1_at a1 (ptOf i) (i 0) ((i 1).val / 512) (by omega) rfl s t _)
    (fun s k => ablk2_at a2 (ptOf i) (i 0) ((i 1).val / 512) (by omega) rfl s k _)
    ⟨(i 1).val % 512, Nat.mod_lt _ (by decide)⟩ (i 2)
  refine Eq.trans (show out8 a0 a1 a2 a3 a4 a5 a6 a7 i = Y1 (ablk0 a0 (ptOf i)) (ablk1 a1 (ptOf i)) (ablk2 a2 (ptOf i)) a3 a4 a5 a6 a7 (ix3 0 ⟨(i 1).val % 512, Nat.mod_lt _ (by decide)⟩ (i 2)) from rfl) (key.trans ?_)
  refine congrArg (Cert.Spec.pointConv a0 a1 a2 a3 a4 a5 a6 a7) (funext fun a => ?_)
  match a with
  | ⟨0, _⟩ => rfl
  | ⟨1, _⟩ => exact Fin.ext (by show (i 1).val / 512 * 512 + (i 1).val % 512 = (i 1).val; omega)
  | ⟨2, _⟩ => rfl

theorem Y170_blk (a0 : Vec Ideal S2x4096x16x128 .f32) (a1 : Vec Ideal S2x4096x3 .f32) (a2 : Vec Ideal S2x4096x16 .f32) (a3 : Vec Ideal S3x16 .f32) (a4 : Vec Ideal S16x64x64 .f32) (a5 a6 a7 : Vec Ideal S1x64 .f32) (m : ℕ) (hm : m < 16) (r : Fin 512) (d : Fin 64) :
    Y170 (ablk0 a0 m) (ablk1 a1 m) (ablk2 a2 m) a3 a4 a5 a6 a7 (ix2 r d)
      = (Cert.Spec.pointConv a0 a1 a2 a3 a4 a5 a6 a7) (ix3 (⟨m / 8 % 2, Nat.mod_lt _ (by decide)⟩ : Fin 2) (⟨(m % 8 * 512 + r.val) % 4096, Nat.mod_lt _ (by decide)⟩ : Fin 4096) d) := by
  have hr := r.isLt
  have key := Y170_at a0 a1 a2 a3 a4 a5 a6 a7 (ablk0 a0 m) (ablk1 a1 m) (ablk2 a2 m) (⟨m / 8, by omega⟩ : Fin 2) (m % 8 * 512) (by omega)
    (fun s k j => ablk0_at a0 m ⟨m / 8, by omega⟩ (m % 8) (by omega) (by show m = m / 8 * 8 + m % 8; omega) s k j _)
    (fun s t => ablk1_at a1 m ⟨m / 8, by omega⟩ (m % 8) (by omega) (by show m = m / 8 * 8 + m % 8; omega) s t _)
    (fun s k => ablk2_at a2 m ⟨m / 8, by omega⟩ (m % 8) (by omega) (by show m = m / 8 * 8 + m % 8; omega) s k _)
    r d
  refine key.trans (congrArg (Cert.Spec.pointConv a0 a1 a2 a3 a4 a5 a6 a7) ?_)
  rw [show (⟨m / 8 % 2, Nat.mod_lt _ (by decide)⟩ : Fin 2) = ⟨m / 8, by omega⟩ from Fin.ext (by show m / 8 % 2 = m / 8; omega),
    show (⟨(m % 8 * 512 + r.val) % 4096, Nat.mod_lt _ (by decide)⟩ : Fin 4096) = ⟨m % 8 * 512 + r.val, by omega⟩ from Fin.ext (by show (m % 8 * 512 + r.val) % 4096 = m % 8 * 512 + r.val; omega)]

theorem asums_1_at (a0 : Vec Ideal S2x4096x16x128 .f32) (a1 : Vec Ideal S2x4096x3 .f32) (a2 : Vec Ideal S2x4096x16 .f32) (a3 : Vec Ideal S3x16 .f32) (a4 : Vec Ideal S16x64x64 .f32) (a5 a6 a7 : Vec Ideal S1x64 .f32) (d : Fin 64) : ∀ n : ℕ,
    (asums a0 a1 a2 a3 a4 a5 a6 a7 n).1 (ix2 0 d) = ∑ m ∈ Finset.range (n + 1), ∑ r : Fin 512, Y170 (ablk0 a0 m) (ablk1 a1 m) (ablk2 a2 m) a3 a4 a5 a6 a7 (ix2 r d)
  | 0 => by
    show S1step (ablk0 a0 0) (ablk1 a1 0) (ablk2 a2 0) a3 a4 a5 a6 a7 (k3_pay18 (F := Ideal)) (ix2 0 d) = _
    rw [S1step_at, pay18_at, zero_add, Finset.sum_range_one]
  | n + 1 => by
    show S1step (ablk0 a0 (n + 1)) (ablk1 a1 (n + 1)) (ablk2 a2 (n + 1)) a3 a4 a5 a6 a7 (asums a0 a1 a2 a3 a4 a5 a6 a7 n).1 (ix2 0 d) = _
    rw [S1step_at, asums_1_at a0 a1 a2 a3 a4 a5 a6 a7 d n, Finset.sum_range_succ _ (n + 1)]

theorem asums_2_at (a0 : Vec Ideal S2x4096x16x128 .f32) (a1 : Vec Ideal S2x4096x3 .f32) (a2 : Vec Ideal S2x4096x16 .f32) (a3 : Vec Ideal S3x16 .f32) (a4 : Vec Ideal S16x64x64 .f32) (a5 a6 a7 : Vec Ideal S1x64 .f32) (d : Fin 64) : ∀ n : ℕ,
    (asums a0 a1 a2 a3 a4 a5 a6 a7 n).2 (ix2 0 d) = ∑ m ∈ Finset.range (n + 1), ∑ r : Fin 512, Y170 (ablk0 a0 m) (ablk1 a1 m) (ablk2 a2 m) a3 a4 a5 a6 a7 (ix2 r d) * Y170 (ablk0 a0 m) (ablk1 a1 m) (ablk2 a2 m) a3 a4 a5 a6 a7 (ix2 r d)
  | 0 => by
    show S2step (ablk0 a0 0) (ablk1 a1 0) (ablk2 a2 0) a3 a4 a5 a6 a7 (k3_pay19 (F := Ideal)) (ix2 0 d) = _
    rw [S2step_at, pay19_at, zero_add, Finset.sum_range_one]
  | n + 1 => by
    show S2step (ablk0 a0 (n + 1)) (ablk1 a1 (n + 1)) (ablk2 a2 (n + 1)) a3 a4 a5 a6 a7 (asums a0 a1 a2 a3 a4 a5 a6 a7 n).2 (ix2 0 d) = _
    rw [S2step_at, asums_2_at a0 a1 a2 a3 a4 a5 a6 a7 d n, Finset.sum_range_succ _ (n + 1)]

theorem out9_spec (a0 : Vec Ideal S2x4096x16x128 .f32) (a1 : Vec Ideal S2x4096x3 .f32) (a2 : Vec Ideal S2x4096x16 .f32) (a3 : Vec Ideal S3x16 .f32) (a4 : Vec Ideal S16x64x64 .f32) (a5 a6 a7 : Vec Ideal S1x64 .f32) :
    out9 a0 a1 a2 a3 a4 a5 a6 a7 = Cert.Spec.colSum 4096 64 (Cert.Spec.pointConv a0 a1 a2 a3 a4 a5 a6 a7) := by
  funext i
  obtain ⟨d, rfl⟩ : ∃ d : Fin 64, i = ix2 0 d := ⟨i 1, funext fun a => by
    match a with
    | ⟨0, _⟩ => exact Fin.ext (by have h : (i 0).val < 1 := (i 0).isLt; show (i 0).val = 0; omega)
    | ⟨1, _⟩ => rfl⟩
  show (asums a0 a1 a2 a3 a4 a5 a6 a7 15).1 (ix2 0 d) = ∑ b : Fin 2, ∑ n : Fin 4096, (Cert.Spec.pointConv a0 a1 a2 a3 a4 a5 a6 a7) (ix3 b n d)
  rw [asums_1_at a0 a1 a2 a3 a4 a5 a6 a7 d 15]
  refine Eq.trans (Finset.sum_congr rfl fun m hm => Finset.sum_congr rfl fun r _ => ?_) ((sum_blocks (fun b n => (Cert.Spec.pointConv a0 a1 a2 a3 a4 a5 a6 a7) (ix3 (⟨b % 2, Nat.mod_lt _ (by decide)⟩ : Fin 2) (⟨n % 4096, Nat.mod_lt _ (by decide)⟩ : Fin 4096) d))).trans ?_)
  · have hm16 : m < 16 := Finset.mem_range.mp hm
    exact Y170_blk a0 a1 a2 a3 a4 a5 a6 a7 m hm16 r d
  · refine Finset.sum_congr rfl fun b _ => Finset.sum_congr rfl fun n _ => ?_
    show (Cert.Spec.pointConv a0 a1 a2 a3 a4 a5 a6 a7) (ix3 ⟨b.val % 2, _⟩ ⟨n.val % 4096, _⟩ d) = _
    rw [ix3_mod b n d]

theorem out10_spec (a0 : Vec Ideal S2x4096x16x128 .f32) (a1 : Vec Ideal S2x4096x3 .f32) (a2 : Vec Ideal S2x4096x16 .f32) (a3 : Vec Ideal S3x16 .f32) (a4 : Vec Ideal S16x64x64 .f32) (a5 a6 a7 : Vec Ideal S1x64 .f32) :
    out10 a0 a1 a2 a3 a4 a5 a6 a7 = Cert.Spec.colSumSq 4096 64 (Cert.Spec.pointConv a0 a1 a2 a3 a4 a5 a6 a7) := by
  funext i
  obtain ⟨d, rfl⟩ : ∃ d : Fin 64, i = ix2 0 d := ⟨i 1, funext fun a => by
    match a with
    | ⟨0, _⟩ => exact Fin.ext (by have h : (i 0).val < 1 := (i 0).isLt; show (i 0).val = 0; omega)
    | ⟨1, _⟩ => rfl⟩
  show (asums a0 a1 a2 a3 a4 a5 a6 a7 15).2 (ix2 0 d) = ∑ b : Fin 2, ∑ n : Fin 4096, (Cert.Spec.pointConv a0 a1 a2 a3 a4 a5 a6 a7) (ix3 b n d) * (Cert.Spec.pointConv a0 a1 a2 a3 a4 a5 a6 a7) (ix3 b n d)
  rw [asums_2_at a0 a1 a2 a3 a4 a5 a6 a7 d 15]
  refine Eq.trans (Finset.sum_congr rfl fun m hm => Finset.sum_congr rfl fun r _ => ?_) ((sum_blocks (fun b n => (Cert.Spec.pointConv a0 a1 a2 a3 a4 a5 a6 a7) (ix3 (⟨b % 2, Nat.mod_lt _ (by decide)⟩ : Fin 2) (⟨n % 4096, Nat.mod_lt _ (by decide)⟩ : Fin 4096) d) * (Cert.Spec.pointConv a0 a1 a2 a3 a4 a5 a6 a7) (ix3 (⟨b % 2, Nat.mod_lt _ (by decide)⟩ : Fin 2) (⟨n % 4096, Nat.mod_lt _ (by decide)⟩ : Fin 4096) d))).trans ?_)
  · have hm16 : m < 16 := Finset.mem_range.mp hm
    rw [Y170_blk a0 a1 a2 a3 a4 a5 a6 a7 m hm16 r d]
  · refine Finset.sum_congr rfl fun b _ => Finset.sum_congr rfl fun n _ => ?_
    show (Cert.Spec.pointConv a0 a1 a2 a3 a4 a5 a6 a7) (ix3 ⟨b.val % 2, _⟩ ⟨n.val % 4096, _⟩ d) * (Cert.Spec.pointConv a0 a1 a2 a3 a4 a5 a6 a7) (ix3 ⟨b.val % 2, _⟩ ⟨n.val % 4096, _⟩ d) = _
    rw [ix3_mod b n d]

end Cert.KernelIdeal.R3

end
-- ==== Proof.R4.Arrays.lean ====
import proofs.«214766_g21345987461187_cont_8to1_720_22_alg».proof.Proof.R4.Data
import Idealize.ShloMosaic.Lib.ValueIdx
import Idealize.ShloMosaic.Lib.Pipeline.Value

set_option maxRecDepth 16384

noncomputable section

namespace Cert.KernelIdeal.R4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

open Idealize.ShloMosaic.ValueIdx

variable (V : (c : Dev nD) → (b : Ref sig .tc) → Buf (Elt F) ((c : Thread nD τ).loc b))

abbrev X0 (c : Dev nD) : Vec F S2x4096x64 .f32 := V c main_v36_0
abbrev X1 (c : Dev nD) : Vec F S2x4096x16x128 .f32 := V c main_v30
abbrev X2 (c : Dev nD) : Vec F S2x4096x16 .f32 := V c main_v0
abbrev X3 (c : Dev nD) : Vec F S128x64 .f32 := V c main_arg14
abbrev X4 (c : Dev nD) : Vec F S1x64 .f32 := V c main_v51
abbrev X5 (c : Dev nD) : Vec F S1x64 .f32 := V c main_v52
abbrev X6 (c : Dev nD) : Vec F S1x128 .f32 := V c main_v53

def rd0 (t : Fin cfg4.N) (X : Vec F S2x4096x64 .f32) : Vec F S1x256x64 .f32 := ((cfg4.win 0).blk t).view.read (Elt F) X
def rd1 (t : Fin cfg4.N) (X : Vec F S2x4096x16x128 .f32) : Vec F S1x256x16x128 .f32 := ((cfg4.win 1).blk t).view.read (Elt F) X
def rd2 (t : Fin cfg4.N) (X : Vec F S2x4096x16 .f32) : Vec F S1x256x16 .f32 := ((cfg4.win 2).blk t).view.read (Elt F) X
def rd3 (t : Fin cfg4.N) (X : Vec F S128x64 .f32) : Vec F S128x64 .f32 := ((cfg4.win 3).blk t).view.read (Elt F) X
def rd4 (t : Fin cfg4.N) (X : Vec F S1x64 .f32) : Vec F S1x64 .f32 := ((cfg4.win 4).blk t).view.read (Elt F) X
def rd5 (t : Fin cfg4.N) (X : Vec F S1x64 .f32) : Vec F S1x64 .f32 := ((cfg4.win 5).blk t).view.read (Elt F) X
def rd6 (t : Fin cfg4.N) (X : Vec F S1x128 .f32) : Vec F S1x128 .f32 := ((cfg4.win 6).blk t).view.read (Elt F) X

theorem index_0 : ∀ t : Fin cfg4.N, win4_0.index t = ![t.val / 16, t.val % 16, 0] :=
  (by decide +kernel : ∀ t : Fin grid4.N, win4_0.index t = ![t.val / 16, t.val % 16, 0])
theorem index_1 : ∀ t : Fin cfg4.N, win4_1.index t = ![t.val / 16, t.val % 16, 0, 0] :=
  (by decide +kernel : ∀ t : Fin grid4.N, win4_1.index t = ![t.val / 16, t.val % 16, 0, 0])
theorem index_2 : ∀ t : Fin cfg4.N, win4_2.index t = ![t.val / 16, t.val % 16, 0] :=
  (by decide +kernel : ∀ t : Fin grid4.N, win4_2.index t = ![t.val / 16, t.val % 16, 0])
theorem index_3 : ∀ t : Fin cfg4.N, win4_3.index t = ![0, 0] :=
  (by decide +kernel : ∀ t : Fin grid4.N, win4_3.index t = ![0, 0])
theorem index_4 : ∀ t : Fin cfg4.N, win4_4.index t = ![0, 0] :=
  (by decide +kernel : ∀ t : Fin grid4.N, win4_4.index t = ![0, 0])
theorem index_5 : ∀ t : Fin cfg4.N, win4_5.index t = ![0, 0] :=
  (by decide +kernel : ∀ t : Fin grid4.N, win4_5.index t = ![0, 0])
theorem index_6 : ∀ t : Fin cfg4.N, win4_6.index t = ![0, 0] :=
  (by decide +kernel : ∀ t : Fin grid4.N, win4_6.index t = ![0, 0])
theorem index_7 : ∀ t : Fin cfg4.N, win4_7.index t = ![t.val / 16, t.val % 16, 0] :=
  (by decide +kernel : ∀ t : Fin grid4.N, win4_7.index t = ![t.val / 16, t.val % 16, 0])
theorem index_8 : ∀ t : Fin cfg4.N, win4_8.index t = ![t.val / 16, t.val % 16, 0] :=
  (by decide +kernel : ∀ t : Fin grid4.N, win4_8.index t = ![t.val / 16, t.val % 16, 0])
theorem index_9 : ∀ t : Fin cfg4.N, win4_9.index t = ![0, 0] :=
  (by decide +kernel : ∀ t : Fin grid4.N, win4_9.index t = ![0, 0])
theorem index_10 : ∀ t : Fin cfg4.N, win4_10.index t = ![0, 0] :=
  (by decide +kernel : ∀ t : Fin grid4.N, win4_10.index t = ![0, 0])

theorem rd0_apply (t : Fin cfg4.N) (X : Vec F S2x4096x64 .f32) (y : S1x256x64.Idx) (i : S2x4096x64.Idx)
    (h0 : (i 0).val = t.val / 16) (h1 : (i 1).val = t.val % 16 * 256 + (y 1).val) (h2 : (i 2).val = (y 2).val) :
    rd0 t X y = X i := by
  unfold rd0
  rw [View.read_apply]
  show X _ = X i
  congr 1
  funext a
  apply Fin.ext
  have hi := index_0 t
  have hy : (y 0).val < 1 := (y 0).isLt
  match a with
  | ⟨0, _⟩ =>
    show win4_0.index t 0 * 1 + 1 * (y 0).val = (i 0).val
    rw [hi]; show t.val / 16 * 1 + 1 * (y 0).val = (i 0).val; omega
  | ⟨1, _⟩ =>
    show win4_0.index t 1 * 256 + 1 * (y 1).val = (i 1).val
    rw [hi]; show t.val % 16 * 256 + 1 * (y 1).val = (i 1).val; omega
  | ⟨2, _⟩ =>
    show win4_0.index t 2 * 64 + 1 * (y 2).val = (i 2).val
    rw [hi]; show 0 * 64 + 1 * (y 2).val = (i 2).val; omega

theorem rd1_apply (t : Fin cfg4.N) (X : Vec F S2x4096x16x128 .f32) (y : S1x256x16x128.Idx) (i : S2x4096x16x128.Idx)
    (h0 : (i 0).val = t.val / 16) (h1 : (i 1).val = t.val % 16 * 256 + (y 1).val) (h2 : (i 2).val = (y 2).val)
    (h3 : (i 3).val = (y 3).val) : rd1 t X y = X i := by
  unfold rd1
  rw [View.read_apply]
  show X _ = X i
  congr 1
  funext a
  apply Fin.ext
  have hi := index_1 t
  have hy : (y 0).val < 1 := (y 0).isLt
  match a with
  | ⟨0, _⟩ =>
    show win4_1.index t 0 * 1 + 1 * (y 0).val = (i 0).val
    rw [hi]; show t.val / 16 * 1 + 1 * (y 0).val = (i 0).val; omega
  | ⟨1, _⟩ =>
    show win4_1.index t 1 * 256 + 1 * (y 1).val = (i 1).val
    rw [hi]; show t.val % 16 * 256 + 1 * (y 1).val = (i 1).val; omega
  | ⟨2, _⟩ =>
    show win4_1.index t 2 * 16 + 1 * (y 2).val = (i 2).val
    rw [hi]; show 0 * 16 + 1 * (y 2).val = (i 2).val; omega
  | ⟨3, _⟩ =>
    show win4_1.index t 3 * 128 + 1 * (y 3).val = (i 3).val
    rw [hi]; show 0 * 128 + 1 * (y 3).val = (i 3).val; omega

theorem rd2_apply (t : Fin cfg4.N) (X : Vec F S2x4096x16 .f32) (y : S1x256x16.Idx) (i : S2x4096x16.Idx)
    (h0 : (i 0).val = t.val / 16) (h1 : (i 1).val = t.val % 16 * 256 + (y 1).val) (h2 : (i 2).val = (y 2).val) :
    rd2 t X y = X i := by
  unfold rd2
  rw [View.read_apply]
  show X _ = X i
  congr 1
  funext a
  apply Fin.ext
  have hi := index_2 t
  have hy : (y 0).val < 1 := (y 0).isLt
  match a with
  | ⟨0, _⟩ =>
    show win4_2.index t 0 * 1 + 1 * (y 0).val = (i 0).val
    rw [hi]; show t.val / 16 * 1 + 1 * (y 0).val = (i 0).val; omega
  | ⟨1, _⟩ =>
    show win4_2.index t 1 * 256 + 1 * (y 1).val = (i 1).val
    rw [hi]; show t.val % 16 * 256 + 1 * (y 1).val = (i 1).val; omega
  | ⟨2, _⟩ =>
    show win4_2.index t 2 * 16 + 1 * (y 2).val = (i 2).val
    rw [hi]; show 0 * 16 + 1 * (y 2).val = (i 2).val; omega

theorem rd3_eq (t : Fin cfg4.N) (X : Vec F S128x64 .f32) : rd3 t X = X :=
  Memref.read_access_unit_zero (Elt F) main_arg14
    (funext fun a => by rw [index_3 t]; match a with | ⟨0, _⟩ => rfl | ⟨1, _⟩ => rfl) _ X
theorem rd4_eq (t : Fin cfg4.N) (X : Vec F S1x64 .f32) : rd4 t X = X :=
  Memref.read_access_unit_zero (Elt F) main_v51
    (funext fun a => by rw [index_4 t]; match a with | ⟨0, _⟩ => rfl | ⟨1, _⟩ => rfl) _ X
theorem rd5_eq (t : Fin cfg4.N) (X : Vec F S1x64 .f32) : rd5 t X = X :=
  Memref.read_access_unit_zero (Elt F) main_v52
    (funext fun a => by rw [index_5 t]; match a with | ⟨0, _⟩ => rfl | ⟨1, _⟩ => rfl) _ X
theorem rd6_eq (t : Fin cfg4.N) (X : Vec F S1x128 .f32) : rd6 t X = X :=
  Memref.read_access_unit_zero (Elt F) main_v53
    (funext fun a => by rw [index_6 t]; match a with | ⟨0, _⟩ => rfl | ⟨1, _⟩ => rfl) _ X

variable (Rc : Set (SemLoc sig × Ix)) (Ψ : Dev nD → sProp (MT nD τ sig Ix (Elt F) Name U Lvl))

def ptOf (b : Fin 2) (n : Fin 4096) : Fin cfg4.N :=
  ⟨b.val * 16 + n.val / 256, by rw [show cfg4.N = 32 from N_4]; have := b.isLt; have := n.isLt; omega⟩

theorem mem_blk7 (t : Fin cfg4.N) (i : S2x4096x128.Idx) (h0 : (i 0).val = t.val / 16)
    (hlo : t.val % 16 * 256 ≤ (i 1).val) (hhi : (i 1).val < t.val % 16 * 256 + 256) :
    i ∈ ((cfg4.win 7).blk t).view.set := by
  show i ∈ ((View.whole main_v54_0).slice (win4_7.rect t)).set
  rw [View.set_slice_whole, Rect.mem_set_unit]
  have hi := index_7 t
  have h2 : (i 2).val < 128 := (i 2).isLt
  intro a
  match a with
  | ⟨0, _⟩ =>
    show win4_7.index t 0 * 1 ≤ (i 0).val ∧ (i 0).val < win4_7.index t 0 * 1 + 1
    rw [hi]; show t.val / 16 * 1 ≤ (i 0).val ∧ (i 0).val < t.val / 16 * 1 + 1; omega
  | ⟨1, _⟩ =>
    show win4_7.index t 1 * 256 ≤ (i 1).val ∧ (i 1).val < win4_7.index t 1 * 256 + 256
    rw [hi]; show t.val % 16 * 256 ≤ (i 1).val ∧ (i 1).val < t.val % 16 * 256 + 256; exact ⟨hlo, hhi⟩
  | ⟨2, _⟩ =>
    show win4_7.index t 2 * 128 ≤ (i 2).val ∧ (i 2).val < win4_7.index t 2 * 128 + 128
    rw [hi]; show 0 * 128 ≤ (i 2).val ∧ (i 2).val < 0 * 128 + 128; omega

theorem mem_blk8 (t : Fin cfg4.N) (i : S2x4096x128.Idx) (h0 : (i 0).val = t.val / 16)
    (hlo : t.val % 16 * 256 ≤ (i 1).val) (hhi : (i 1).val < t.val % 16 * 256 + 256) :
    i ∈ ((cfg4.win 8).blk t).view.set := by
  show i ∈ ((View.whole main_v54_1).slice (win4_8.rect t)).set
  rw [View.set_slice_whole, Rect.mem_set_unit]
  have hi := index_8 t
  have h2 : (i 2).val < 128 := (i 2).isLt
  intro a
  match a with
  | ⟨0, _⟩ =>
    show win4_8.index t 0 * 1 ≤ (i 0).val ∧ (i 0).val < win4_8.index t 0 * 1 + 1
    rw [hi]; show t.val / 16 * 1 ≤ (i 0).val ∧ (i 0).val < t.val / 16 * 1 + 1; omega
  | ⟨1, _⟩ =>
    show win4_8.index t 1 * 256 ≤ (i 1).val ∧ (i 1).val < win4_8.index t 1 * 256 + 256
    rw [hi]; show t.val % 16 * 256 ≤ (i 1).val ∧ (i 1).val < t.val % 16 * 256 + 256; exact ⟨hlo, hhi⟩
  | ⟨2, _⟩ =>
    show win4_8.index t 2 * 128 ≤ (i 2).val ∧ (i 2).val < win4_8.index t 2 * 128 + 128
    rw [hi]; show 0 * 128 ≤ (i 2).val ∧ (i 2).val < 0 * 128 + 128; omega

theorem arrAt_7_of (c : Dev nD) (G : Vec F S2x4096x128 .f32)
    (hG : ∀ (t : Fin cfg4.N) (y : S1x256x128.Idx) (i : S2x4096x128.Idx), (i 0).val = t.val / 16 →
      (i 1).val = t.val % 16 * 256 + (y 1).val → (i 2).val = (y 2).val →
      out7 (rd0 t (X0 V c)) (rd3 t (X3 V c)) (rd4 t (X4 V c)) (rd5 t (X5 V c)) (rd6 t (X6 V c)) y = G i) :
    (dat V Rc Ψ c).arrAt 7 cfg4.N = G := by
  refine (dat V Rc Ψ c).arrAt_eq_of_cover 7 G (fun t _ => ?_) (fun i => ?_)
  · show (cfg4.win 7).cut (grid4.coords t) ((dat V Rc Ψ c).after 7 t) = _
    rw [after_7]
    funext y
    show _ = ((cfg4.win 7).blk t).view.read (Elt F) G y
    rw [View.read_apply]
    have hi := index_7 t
    have hy : (y 0).val < 1 := (y 0).isLt
    refine hG t y _ ?_ ?_ ?_
    · show win4_7.index t 0 * 1 + 1 * (y 0).val = t.val / 16
      rw [hi]; show t.val / 16 * 1 + 1 * (y 0).val = t.val / 16; omega
    · show win4_7.index t 1 * 256 + 1 * (y 1).val = t.val % 16 * 256 + (y 1).val
      rw [hi]; show t.val % 16 * 256 + 1 * (y 1).val = t.val % 16 * 256 + (y 1).val; omega
    · show win4_7.index t 2 * 128 + 1 * (y 2).val = (y 2).val
      rw [hi]; show 0 * 128 + 1 * (y 2).val = (y 2).val; omega
  · have h0 : (i 0).val < 2 := (i 0).isLt
    have h1 : (i 1).val < 4096 := (i 1).isLt
    have hp : (ptOf (i 0) (i 1)).val = (i 0).val * 16 + (i 1).val / 256 := rfl
    exact ⟨ptOf (i 0) (i 1), flush4_7 _, mem_blk7 (ptOf (i 0) (i 1)) i (by rw [hp]; omega) (by rw [hp]; omega) (by rw [hp]; omega)⟩

theorem arrAt_8_of (c : Dev nD) (G : Vec F S2x4096x128 .f32)
    (hG : ∀ (t : Fin cfg4.N) (y : S1x256x128.Idx) (i : S2x4096x128.Idx), (i 0).val = t.val / 16 →
      (i 1).val = t.val % 16 * 256 + (y 1).val → (i 2).val = (y 2).val →
      out8 (rd1 t (X1 V c)) (rd2 t (X2 V c)) y = G i) :
    (dat V Rc Ψ c).arrAt 8 cfg4.N = G := by
  refine (dat V Rc Ψ c).arrAt_eq_of_cover 8 G (fun t _ => ?_) (fun i => ?_)
  · show (cfg4.win 8).cut (grid4.coords t) ((dat V Rc Ψ c).after 8 t) = _
    rw [after_8]
    funext y
    show _ = ((cfg4.win 8).blk t).view.read (Elt F) G y
    rw [View.read_apply]
    have hi := index_8 t
    have hy : (y 0).val < 1 := (y 0).isLt
    refine hG t y _ ?_ ?_ ?_
    · show win4_8.index t 0 * 1 + 1 * (y 0).val = t.val / 16
      rw [hi]; show t.val / 16 * 1 + 1 * (y 0).val = t.val / 16; omega
    · show win4_8.index t 1 * 256 + 1 * (y 1).val = t.val % 16 * 256 + (y 1).val
      rw [hi]; show t.val % 16 * 256 + 1 * (y 1).val = t.val % 16 * 256 + (y 1).val; omega
    · show win4_8.index t 2 * 128 + 1 * (y 2).val = (y 2).val
      rw [hi]; show 0 * 128 + 1 * (y 2).val = (y 2).val; omega
  · have h0 : (i 0).val < 2 := (i 0).isLt
    have h1 : (i 1).val < 4096 := (i 1).isLt
    have hp : (ptOf (i 0) (i 1)).val = (i 0).val * 16 + (i 1).val / 256 := rfl
    exact ⟨ptOf (i 0) (i 1), flush4_8 _, mem_blk8 (ptOf (i 0) (i 1)) i (by rw [hp]; omega) (by rw [hp]; omega) (by rw [hp]; omega)⟩

def tLast : Fin cfg4.N := ⟨31, by rw [show cfg4.N = 32 from N_4]; decide⟩

theorem arrAt_9 (c : Dev nD) : (dat V Rc Ψ c).arrAt 9 cfg4.N = sum1At V c tLast.val tLast.isLt := by
  refine (dat V Rc Ψ c).arrAt_eq_of_cover 9 (sum1At V c tLast.val tLast.isLt) (fun t hf => ?_) (fun i => ?_)
  · have hN : t.val < 32 := lt_of_lt_of_eq t.isLt (show cfg4.N = 32 from N_4)
    have h31 : t.val = 31 := by have := (flush4_9 t).mp hf; omega
    obtain rfl : t = tLast := Fin.ext h31
    show (cfg4.win 9).cut (grid4.coords tLast) ((dat V Rc Ψ c).after 9 tLast) = _
    rw [after_9]
    exact (Memref.read_access_unit_zero (Elt F) main_v54_2
      (funext fun a => by rw [index_9 tLast]; match a with | ⟨0, _⟩ => rfl | ⟨1, _⟩ => rfl) _ (sum1At V c tLast.val tLast.isLt)).symm
  · refine ⟨tLast, (flush4_9 tLast).mpr rfl, ?_⟩
    show i ∈ ((View.whole main_v54_2).slice (win4_9.rect tLast)).set
    rw [View.set_slice_whole, Rect.mem_set_unit]
    have hi := index_9 tLast
    have h0 : (i 0).val < 1 := (i 0).isLt
    have h1 : (i 1).val < 128 := (i 1).isLt
    intro a
    match a with
    | ⟨0, _⟩ =>
      show win4_9.index tLast 0 * 1 ≤ (i 0).val ∧ (i 0).val < win4_9.index tLast 0 * 1 + 1
      rw [hi]; show 0 * 1 ≤ (i 0).val ∧ (i 0).val < 0 * 1 + 1; omega
    | ⟨1, _⟩ =>
      show win4_9.index tLast 1 * 128 ≤ (i 1).val ∧ (i 1).val < win4_9.index tLast 1 * 128 + 128
      rw [hi]; show 0 * 128 ≤ (i 1).val ∧ (i 1).val < 0 * 128 + 128; omega

theorem arrAt_10 (c : Dev nD) : (dat V Rc Ψ c).arrAt 10 cfg4.N = sum2At V c tLast.val tLast.isLt := by
  refine (dat V Rc Ψ c).arrAt_eq_of_cover 10 (sum2At V c tLast.val tLast.isLt) (fun t hf => ?_) (fun i => ?_)
  · have hN : t.val < 32 := lt_of_lt_of_eq t.isLt (show cfg4.N = 32 from N_4)
    have h31 : t.val = 31 := by have := (flush4_10 t).mp hf; omega
    obtain rfl : t = tLast := Fin.ext h31
    show (cfg4.win 10).cut (grid4.coords tLast) ((dat V Rc Ψ c).after 10 tLast) = _
    rw [after_10]
    exact (Memref.read_access_unit_zero (Elt F) main_v54_3
      (funext fun a => by rw [index_10 tLast]; match a with | ⟨0, _⟩ => rfl | ⟨1, _⟩ => rfl) _ (sum2At V c tLast.val tLast.isLt)).symm
  · refine ⟨tLast, (flush4_10 tLast).mpr rfl, ?_⟩
    show i ∈ ((View.whole main_v54_3).slice (win4_10.rect tLast)).set
    rw [View.set_slice_whole, Rect.mem_set_unit]
    have hi := index_10 tLast
    have h0 : (i 0).val < 1 := (i 0).isLt
    have h1 : (i 1).val < 128 := (i 1).isLt
    intro a
    match a with
    | ⟨0, _⟩ =>
      show win4_10.index tLast 0 * 1 ≤ (i 0).val ∧ (i 0).val < win4_10.index tLast 0 * 1 + 1
      rw [hi]; show 0 * 1 ≤ (i 0).val ∧ (i 0).val < 0 * 1 + 1; omega
    | ⟨1, _⟩ =>
      show win4_10.index tLast 1 * 128 ≤ (i 1).val ∧ (i 1).val < win4_10.index tLast 1 * 128 + 128
      rw [hi]; show 0 * 128 ≤ (i 1).val ∧ (i 1).val < 0 * 128 + 128; omega

end Cert.KernelIdeal.R4

end
-- ==== Proof.R4.Tile.lean ====
import proofs.«214766_g21345987461187_cont_8to1_720_22_alg».proof.Proof.R4.Data
import proofs.«214766_g21345987461187_cont_8to1_720_22_alg».proof.Proof.Spec
import proofs.«214766_g21345987461187_cont_8to1_720_22_alg».proof.Proof.SpecAt
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.R4

open Idealize.ShloMosaic Idealize.ShloMosaic.ValueIdx
open Cert.KernelIdeal.Gen

theorem shapeCast_1x64_self (v : Vec Ideal S1x64 .f32) : shapeCast S1x64 v shapeCasts_S1x64_S1x64 = v := by
  funext j
  exact shapeCast_apply v _ j j rfl

theorem shapeCast_1x128_self (v : Vec Ideal S1x128 .f32) : shapeCast S1x128 v shapeCasts_S1x128_S1x128 = v := by
  funext j
  exact shapeCast_apply v _ j j rfl

theorem conv_apply (x0 : Vec Ideal S1x256x64 .f32) (x3 : Vec Ideal S128x64 .f32) (x4 x5 : Vec Ideal S1x64 .f32)
    (x6 : Vec Ideal S1x128 .f32) (r : Fin 256) (o : Fin 128) :
    conv x0 x3 x4 x5 x6 (ix2 r o)
      = (∑ k : Fin 64, max (x0 (ix3 (0 : Fin 1) r k) * x4 (ix2 (0 : Fin 1) k) + x5 (ix2 (0 : Fin 1) k)) Cert.Spec.zeroW
          * x3 (ix2 o k)) + x6 (ix2 (0 : Fin 1) o) := by
  dsimp only [conv, k4_pay6]
  refine (addf_apply _ _ _).trans ?_
  simp only [matmul]
  refine (congrArg₂ (· + ·)
    (Ideal.matmul_constant_zero_apply dot_S256x64_S128x64_S256x128_1_1_0_0_n_n none _ x3 (ix2 r o))
    ((broadcastTo_1b_ab_apply _ broadcasts_S1x128_S256x128 r o).trans (congrFun (shapeCast_1x128_self x6) _))).trans ?_
  rw [← Equiv.sum_comp (contrEquiv1 dot_S256x64_S128x64_S256x128_1_1_0_0_n_n 64 rfl rfl).symm]
  congr 1
  refine Finset.sum_congr rfl fun k _ => ?_
  have ck := contrEquiv1_symm_val dot_S256x64_S128x64_S256x128_1_1_0_0_n_n 64 rfl rfl k
  have hl : dot_S256x64_S128x64_S256x128_1_1_0_0_n_n.lhsIdx (ix2 r o)
      ((contrEquiv1 dot_S256x64_S128x64_S256x128_1_1_0_0_n_n 64 rfl rfl).symm k) = ix2 r k := by
    funext ax; apply Fin.ext
    match ax with
    | ⟨0, _⟩ => simp [DotDims.lhsIdx, dot_S256x64_S128x64_S256x128_1_1_0_0_n_n]; rfl
    | ⟨1, _⟩ => simp [DotDims.lhsIdx, dot_S256x64_S128x64_S256x128_1_1_0_0_n_n]; exact ck
  have hr : dot_S256x64_S128x64_S256x128_1_1_0_0_n_n.rhsIdx (ix2 r o)
      ((contrEquiv1 dot_S256x64_S128x64_S256x128_1_1_0_0_n_n 64 rfl rfl).symm k) = ix2 o k := by
    funext ax; apply Fin.ext
    match ax with
    | ⟨0, _⟩ => simp [DotDims.rhsIdx, dot_S256x64_S128x64_S256x128_1_1_0_0_n_n]; rfl
    | ⟨1, _⟩ => simp [DotDims.rhsIdx, dot_S256x64_S128x64_S256x128_1_1_0_0_n_n]; exact ck
  rw [hl, hr, maximumf_apply, addf_apply, mulf_apply, broadcast_apply, shapeCast_1ab_ab_apply,
    broadcastTo_1b_ab_apply, broadcastTo_1b_ab_apply, shapeCast_1x64_self, shapeCast_1x64_self]
  rfl

theorem out7_apply (x0 : Vec Ideal S1x256x64 .f32) (x3 : Vec Ideal S128x64 .f32) (x4 x5 : Vec Ideal S1x64 .f32)
    (x6 : Vec Ideal S1x128 .f32) (r : Fin 256) (o : Fin 128) :
    out7 x0 x3 x4 x5 x6 (ix3 (0 : Fin 1) r o)
      = (∑ k : Fin 64, max (x0 (ix3 (0 : Fin 1) r k) * x4 (ix2 (0 : Fin 1) k) + x5 (ix2 (0 : Fin 1) k)) Cert.Spec.zeroW
          * x3 (ix2 o k)) + x6 (ix2 (0 : Fin 1) o) := by
  dsimp only [out7, k4_pay7]
  rw [shapeCast_ab_1ab_apply]
  exact conv_apply x0 x3 x4 x5 x6 r o

theorem masked_apply (x1 : Vec Ideal S1x256x16x128 .f32) (x2 : Vec Ideal S1x256x16 .f32) (r : Fin 256) (k : Fin 16)
    (o : Fin 128) :
    k4_pay8 x1 x2 (ix3 r k o)
      = if Cert.Spec.zeroW < x2 (ix3 (0 : Fin 1) r k) then x1 (ix4 (0 : Fin 1) r k o) else Cert.Spec.negBigW := by
  dsimp only [k4_pay8]
  have hb : ∀ a : Fin S256x16x1.rank, ((ix3 r k (0 : Fin 1) : S256x16x1.Idx) a).val
      = if S256x16x1.size a = 1 then 0
        else ((ix3 r k o : S256x16x128.Idx) ⟨a.val + (S256x16x128.rank - S256x16x1.rank), by
          have := a.isLt; show a.val + (3 - 3) < 3; omega⟩).val := fun a => by
    match a with
    | ⟨0, _⟩ => rfl
    | ⟨1, _⟩ => rfl
    | ⟨2, _⟩ => rfl
  have hc : (S256x16.rowMajor (ix2 r k)).val = (S256x16x1.rowMajor (ix3 r k (0 : Fin 1))).val := by
    rw [Shape.rowMajor_val_two, Shape.rowMajor_val_three]
    show r.val * 16 + k.val = (r.val * 16 + k.val) * 1 + 0
    omega
  rw [select_apply, broadcast_apply, shapeCast_1abc_abc_apply,
    broadcastTo_apply _ broadcasts_S256x16x1_S256x16x128 (ix3 r k o) (ix3 r k (0 : Fin 1)) hb,
    shapeCast_apply _ shapeCasts_S256x16x1_S256x16x1 (ix3 r k (0 : Fin 1)) (ix3 r k (0 : Fin 1)) rfl,
    cmpf_apply, broadcast_apply,
    shapeCast_apply _ shapeCasts_S256x16_S256x16x1 (ix3 r k (0 : Fin 1)) (ix2 r k) hc,
    shapeCast_1ab_ab_apply, Ideal.cmpf_def]
  by_cases h : Cert.Spec.zeroW < x2 (ix3 (0 : Fin 1) r k)
  · have h1 : Ideal.cmp .ogt (x2 (ix3 (0 : Fin 1) r k)) (Scalar.ofBits (F := Ideal) .f32 0x00000000#32) = 1#1 := by
      unfold Ideal.cmp
      show BitVec.ofBool (decide (Cert.Spec.zeroW < x2 (ix3 (0 : Fin 1) r k))) = 1#1
      rw [decide_eq_true h]; rfl
    rw [h1, select_one, if_pos h]
  · have h0 : Ideal.cmp .ogt (x2 (ix3 (0 : Fin 1) r k)) (Scalar.ofBits (F := Ideal) .f32 0x00000000#32) = 0#1 := by
      unfold Ideal.cmp
      show BitVec.ofBool (decide (Cert.Spec.zeroW < x2 (ix3 (0 : Fin 1) r k))) = 0#1
      rw [decide_eq_false h]; rfl
    rw [h0, select_zero, if_neg h]
    rfl

theorem maxRed_apply (v : FVec Ideal S256x16x128 .f32) (r : Fin 256) (o : Fin 128) :
    multiReduction .maximumf [1] S256x128 v 0xFF800000#32 reduces_S256x16x128_S256x128 (.inl rfl) rfl (ix2 r o)
      = (Finset.univ : Finset (Fin 16)).fold max Cert.Spec.negInfW (fun k => v (ix3 r k o)) := by
  refine (Ideal.multiReduction_maximumf_single v _ reduces_S256x16x128_S256x128 _ _ (ix2 r o)).trans ?_
  have hf : (v ∘ reduces_S256x16x128_S256x128.lift (ix2 r o)) = fun k : Fin 16 => v (ix3 r k o) := by
    funext k
    refine congrArg v (funext fun a => Fin.ext ?_)
    match a with
    | ⟨0, _⟩ => rfl
    | ⟨1, _⟩ => rfl
    | ⟨2, _⟩ => rfl
  exact congrArg (fun f => Finset.fold max (Ideal.ofBits .f32 0xFF800000#32) f (Finset.univ : Finset (Fin 16))) hf

theorem out8_apply (x1 : Vec Ideal S1x256x16x128 .f32) (x2 : Vec Ideal S1x256x16 .f32) (r : Fin 256) (o : Fin 128) :
    out8 x1 x2 (ix3 (0 : Fin 1) r o)
      = (let m : EReal := (Finset.univ : Finset (Fin 16)).fold max Cert.Spec.negInfW
            (fun k => if Cert.Spec.zeroW < x2 (ix3 (0 : Fin 1) r k) then x1 (ix4 (0 : Fin 1) r k o) else Cert.Spec.negBigW)
         if m ≤ Cert.Spec.negBigW then Cert.Spec.zeroW else m) := by
  dsimp only [out8, k4_pay1]
  rw [shapeCast_ab_1ab_apply, select_apply, cmpf_apply, broadcast_apply, broadcast_apply, maxRed_apply,
    show (fun k : Fin 16 => k4_pay8 x1 x2 (ix3 r k o))
      = (fun k : Fin 16 => if Cert.Spec.zeroW < x2 (ix3 (0 : Fin 1) r k) then x1 (ix4 (0 : Fin 1) r k o) else Cert.Spec.negBigW)
      from funext fun k => masked_apply x1 x2 r k o,
    Ideal.cmpf_def]
  by_cases h : (Finset.univ : Finset (Fin 16)).fold max Cert.Spec.negInfW
      (fun k => if Cert.Spec.zeroW < x2 (ix3 (0 : Fin 1) r k) then x1 (ix4 (0 : Fin 1) r k o) else Cert.Spec.negBigW) ≤ Cert.Spec.negBigW
  · have h1 : Ideal.cmp .ole ((Finset.univ : Finset (Fin 16)).fold max Cert.Spec.negInfW
        (fun k => if Cert.Spec.zeroW < x2 (ix3 (0 : Fin 1) r k) then x1 (ix4 (0 : Fin 1) r k o) else Cert.Spec.negBigW))
        (Scalar.ofBits (F := Ideal) .f32 0xCE6E6B28#32) = 1#1 := by
      unfold Ideal.cmp
      show BitVec.ofBool (decide ((Finset.univ : Finset (Fin 16)).fold max Cert.Spec.negInfW
        (fun k => if Cert.Spec.zeroW < x2 (ix3 (0 : Fin 1) r k) then x1 (ix4 (0 : Fin 1) r k o) else Cert.Spec.negBigW) ≤ Cert.Spec.negBigW)) = 1#1
      rw [decide_eq_true h]; rfl
    rw [h1, select_one]
    exact (if_pos h).symm
  · have h0 : Ideal.cmp .ole ((Finset.univ : Finset (Fin 16)).fold max Cert.Spec.negInfW
        (fun k => if Cert.Spec.zeroW < x2 (ix3 (0 : Fin 1) r k) then x1 (ix4 (0 : Fin 1) r k o) else Cert.Spec.negBigW))
        (Scalar.ofBits (F := Ideal) .f32 0xCE6E6B28#32) = 0#1 := by
      unfold Ideal.cmp
      show BitVec.ofBool (decide ((Finset.univ : Finset (Fin 16)).fold max Cert.Spec.negInfW
        (fun k => if Cert.Spec.zeroW < x2 (ix3 (0 : Fin 1) r k) then x1 (ix4 (0 : Fin 1) r k o) else Cert.Spec.negBigW) ≤ Cert.Spec.negBigW)) = 0#1
      rw [decide_eq_false h]; rfl
    rw [h0, select_zero]
    exact (if_neg h).symm

theorem colSum_apply (y : FVec Ideal S256x128 .f32) (o : Fin 128) :
    multiReduction .add [0] S128 y 0x00000000#32 reduces_S256x128_S128 (.inl rfl) rfl (ix1 o) = ∑ r : Fin 256, y (ix2 r o) := by
  refine (Ideal.multiReduction_add_single y _ reduces_S256x128_S128 _ _ (ix1 o)).trans ?_
  refine Finset.sum_congr rfl fun k _ => congrArg y ?_
  funext a
  match a with
  | ⟨0, _⟩ => rfl
  | ⟨1, _⟩ => rfl

theorem sum1Next_apply (y : FVec Ideal S256x128 .f32) (xo : Vec Ideal S1x128 .f32) (o : Fin 128) :
    sum1Next y xo (ix2 (0 : Fin 1) o) = xo (ix2 (0 : Fin 1) o) + ∑ r : Fin 256, y (ix2 r o) := by
  dsimp only [sum1Next, k4_pay4]
  rw [addf_apply, shapeCast_1x128_self, shapeCast_a_1a_apply, colSum_apply]

theorem sum1First_apply (y : FVec Ideal S256x128 .f32) (o : Fin 128) :
    sum1First y (ix2 (0 : Fin 1) o) = ∑ r : Fin 256, y (ix2 r o) := by
  dsimp only [sum1First, k4_pay4, k4_pay2]
  rw [addf_apply, shapeCast_1x128_self, shapeCast_a_1a_apply, colSum_apply, broadcast_apply]
  show Ideal.ofBits .f32 0x00000000#32 + _ = _
  rw [Ideal.ofBits_zero_f32, zero_add]

theorem sum2Next_apply (y : FVec Ideal S256x128 .f32) (xo : Vec Ideal S1x128 .f32) (o : Fin 128) :
    sum2Next y xo (ix2 (0 : Fin 1) o) = xo (ix2 (0 : Fin 1) o) + ∑ r : Fin 256, y (ix2 r o) * y (ix2 r o) := by
  dsimp only [sum2Next, k4_pay5]
  rw [addf_apply, shapeCast_1x128_self, shapeCast_a_1a_apply, colSum_apply]
  rfl

theorem sum2First_apply (y : FVec Ideal S256x128 .f32) (o : Fin 128) :
    sum2First y (ix2 (0 : Fin 1) o) = ∑ r : Fin 256, y (ix2 r o) * y (ix2 r o) := by
  dsimp only [sum2First, k4_pay5, k4_pay3]
  rw [addf_apply, shapeCast_1x128_self, shapeCast_a_1a_apply, colSum_apply, broadcast_apply]
  show Ideal.ofBits .f32 0x00000000#32 + _ = _
  rw [Ideal.ofBits_zero_f32, zero_add]
  rfl

end Cert.KernelIdeal.R4

end
-- ==== Proof.R4.Value.lean ====
import proofs.«214766_g21345987461187_cont_8to1_720_22_alg».proof.Proof.R4.Arrays
import proofs.«214766_g21345987461187_cont_8to1_720_22_alg».proof.Proof.R4.Tile
import proofs.«214766_g21345987461187_cont_8to1_720_22_alg».proof.Proof.Spec
import proofs.«214766_g21345987461187_cont_8to1_720_22_alg».proof.Proof.LibGridSum

set_option maxRecDepth 16384

noncomputable section

namespace Cert.KernelIdeal.R4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

open Idealize.ShloMosaic.ValueIdx

variable (V : (c : Dev nD) → (b : Ref sig .tc) → Buf (Elt Ideal) ((c : Thread nD τ).loc b))
variable (Rc : Set (SemLoc sig × Ix)) (Ψ : Dev nD → sProp (MT nD τ sig Ix (Elt Ideal) Name U Lvl))

theorem idx_block (y : S1x256x128.Idx) : ∃ (r : Fin 256) (o : Fin 128), y = ix3 (0 : Fin 1) r o :=
  ⟨y 1, y 2, funext fun a => match a with
    | ⟨0, _⟩ => Fin.ext (by have h : (y 0).val < 1 := (y 0).isLt; show (y 0).val = 0; omega)
    | ⟨1, _⟩ => rfl
    | ⟨2, _⟩ => rfl⟩

theorem idx_row (j : S1x128.Idx) : ∃ o : Fin 128, j = ix2 (0 : Fin 1) o :=
  ⟨j 1, funext fun a => match a with
    | ⟨0, _⟩ => Fin.ext (by have h : (j 0).val < 1 := (j 0).isLt; show (j 0).val = 0; omega)
    | ⟨1, _⟩ => rfl⟩

theorem arrAt_7_spec (c : Dev nD) :
    (dat V Rc Ψ c).arrAt 7 cfg4.N = Cert.Spec.conv2 (X0 V c) (X4 V c) (X5 V c) (X3 V c) (X6 V c) := by
  refine arrAt_7_of V Rc Ψ c _ fun t y i h0 h1 h2 => ?_
  obtain ⟨r, o, rfl⟩ := idx_block y
  have h1' : (i 1).val = t.val % 16 * 256 + r.val := h1
  have hi2 : i 2 = o := Fin.ext h2
  rw [rd3_eq, rd4_eq, rd5_eq, rd6_eq, out7_apply]
  unfold Cert.Spec.conv2
  rw [hi2]
  refine congrArg (· + (X6 V c) (ix2 0 o)) (Finset.sum_congr rfl fun k _ => ?_)
  rw [rd0_apply t (X0 V c) (ix3 0 r k) (ix3 (i 0) (i 1) k) h0 h1' rfl]

theorem arrAt_8_spec (c : Dev nD) :
    (dat V Rc Ψ c).arrAt 8 cfg4.N = Cert.Spec.pool (X1 V c) (X2 V c) := by
  refine arrAt_8_of V Rc Ψ c _ fun t y i h0 h1 h2 => ?_
  obtain ⟨r, o, rfl⟩ := idx_block y
  have h1' : (i 1).val = t.val % 16 * 256 + r.val := h1
  have h2' : (i 2).val = o.val := h2
  rw [out8_apply]
  unfold Cert.Spec.pool
  have e : (fun k : Fin 16 => if Cert.Spec.zeroW < rd2 t (X2 V c) (ix3 0 r k) then rd1 t (X1 V c) (ix4 0 r k o) else Cert.Spec.negBigW)
      = fun k : Fin 16 => if Cert.Spec.zeroW < (X2 V c) (ix3 (i 0) (i 1) k) then (X1 V c) (ix4 (i 0) (i 1) k (i 2)) else Cert.Spec.negBigW :=
    funext fun k => by
      rw [rd2_apply t (X2 V c) (ix3 0 r k) (ix3 (i 0) (i 1) k) h0 h1' rfl,
        rd1_apply t (X1 V c) (ix4 0 r k o) (ix4 (i 0) (i 1) k (i 2)) h0 h1' rfl h2']
  rw [e]

def convCol (c : Dev nD) (o : Fin 128) (b : Fin 2) (n : Fin 4096) : EReal :=
  Cert.Spec.conv2 (X0 V c) (X4 V c) (X5 V c) (X3 V c) (X6 V c) (ix3 b n o)

theorem convAt_apply (c : Dev nD) (t : Fin cfg4.N) (r : Fin 256) (o : Fin 128) :
    convAt V c t (ix2 r o)
      = convCol V c o ⟨t.val / 16 % 2, Nat.mod_lt _ (by decide)⟩ ⟨t.val % 16 * 256 + r.val, Cert.GridSum.row_lt (by decide) rfl t.val r⟩ := by
  have hN : t.val < 32 := lt_of_lt_of_eq t.isLt (show cfg4.N = 32 from N_4)
  show conv (rd0 t (X0 V c)) (rd3 t (X3 V c)) (rd4 t (X4 V c)) (rd5 t (X5 V c)) (rd6 t (X6 V c)) (ix2 r o) = _
  rw [rd3_eq, rd4_eq, rd5_eq, rd6_eq, conv_apply]
  unfold convCol Cert.Spec.conv2
  refine congrArg (· + (X6 V c) (ix2 0 o)) (Finset.sum_congr rfl fun k _ => ?_)
  rw [rd0_apply t (X0 V c) (ix3 0 r k) (ix3 ⟨t.val / 16 % 2, Nat.mod_lt _ (by decide)⟩ ⟨t.val % 16 * 256 + r.val, Cert.GridSum.row_lt (by decide) rfl t.val r⟩ k)
    (by show t.val / 16 % 2 = t.val / 16; omega) rfl rfl]

theorem sum1At_apply (c : Dev nD) (o : Fin 128) : ∀ (n : ℕ) (h : n < cfg4.N),
    sum1At V c n h (ix2 0 o) = ∑ p ∈ Finset.range (n + 1), ∑ r : Fin 256,
      convCol V c o ⟨p / 16 % 2, Nat.mod_lt _ (by decide)⟩ ⟨p % 16 * 256 + r.val, Cert.GridSum.row_lt (by decide) rfl p r⟩
  | 0, h => by
    show sum1First (convAt V c ⟨0, h⟩) (ix2 0 o) = _
    rw [sum1First_apply, Finset.sum_range_one]
    exact Finset.sum_congr rfl fun r _ => convAt_apply V c ⟨0, h⟩ r o
  | n + 1, h => by
    show sum1Next (convAt V c ⟨n + 1, h⟩) (sum1At V c n (Nat.lt_of_succ_lt h)) (ix2 0 o) = _
    rw [sum1Next_apply, sum1At_apply c o n (Nat.lt_of_succ_lt h), Finset.sum_range_succ _ (n + 1)]
    exact congrArg (_ + ·) (Finset.sum_congr rfl fun r _ => convAt_apply V c ⟨n + 1, h⟩ r o)

theorem sum2At_apply (c : Dev nD) (o : Fin 128) : ∀ (n : ℕ) (h : n < cfg4.N),
    sum2At V c n h (ix2 0 o) = ∑ p ∈ Finset.range (n + 1), ∑ r : Fin 256,
      convCol V c o ⟨p / 16 % 2, Nat.mod_lt _ (by decide)⟩ ⟨p % 16 * 256 + r.val, Cert.GridSum.row_lt (by decide) rfl p r⟩
        * convCol V c o ⟨p / 16 % 2, Nat.mod_lt _ (by decide)⟩ ⟨p % 16 * 256 + r.val, Cert.GridSum.row_lt (by decide) rfl p r⟩
  | 0, h => by
    show sum2First (convAt V c ⟨0, h⟩) (ix2 0 o) = _
    rw [sum2First_apply, Finset.sum_range_one]
    exact Finset.sum_congr rfl fun r _ => by rw [convAt_apply V c ⟨0, h⟩ r o]
  | n + 1, h => by
    show sum2Next (convAt V c ⟨n + 1, h⟩) (sum2At V c n (Nat.lt_of_succ_lt h)) (ix2 0 o) = _
    rw [sum2Next_apply, sum2At_apply c o n (Nat.lt_of_succ_lt h), Finset.sum_range_succ _ (n + 1)]
    exact congrArg (_ + ·) (Finset.sum_congr rfl fun r _ => by rw [convAt_apply V c ⟨n + 1, h⟩ r o])

theorem arrAt_9_spec (c : Dev nD) :
    (dat V Rc Ψ c).arrAt 9 cfg4.N
      = Cert.Spec.colSum 4096 128 (Cert.Spec.conv2 (X0 V c) (X4 V c) (X5 V c) (X3 V c) (X6 V c)) := by
  rw [arrAt_9]
  funext j
  obtain ⟨o, rfl⟩ := idx_row j
  rw [sum1At_apply V c o tLast.val tLast.isLt]
  exact Cert.GridSum.sum_grid_rows 2 16 256 (by decide) (by decide) rfl (convCol V c o)

theorem arrAt_10_spec (c : Dev nD) :
    (dat V Rc Ψ c).arrAt 10 cfg4.N
      = Cert.Spec.colSumSq 4096 128 (Cert.Spec.conv2 (X0 V c) (X4 V c) (X5 V c) (X3 V c) (X6 V c)) := by
  rw [arrAt_10]
  funext j
  obtain ⟨o, rfl⟩ := idx_row j
  rw [sum2At_apply V c o tLast.val tLast.isLt]
  exact Cert.GridSum.sum_grid_rows 2 16 256 (by decide) (by decide) rfl (fun b n => convCol V c o b n * convCol V c o b n)

end Cert.KernelIdeal.R4

end
-- ==== Proof.Launch.KerFinal.lean ====
import proofs.«214766_g21345987461187_cont_8to1_720_22_alg».proof.Proof.Launch.Stages
import proofs.«214766_g21345987461187_cont_8to1_720_22_alg».proof.Proof.R0.Value
import proofs.«214766_g21345987461187_cont_8to1_720_22_alg».proof.Proof.R3.Final
import proofs.«214766_g21345987461187_cont_8to1_720_22_alg».proof.Proof.R4.Value

set_option maxRecDepth 16384

noncomputable section

namespace Cert.KernelIdeal.Launch

open Cert.KernelIdeal Cert.KernelIdeal.Gen Cert.KernelIdeal.Sc Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

section KerFinal
variable (m : (ℓ : Loc nD τ sig) → Buf (Elt Ideal) ℓ) (d : Dev nD)

theorem r0_y0t : (dat0 m d).arrAt 4 cfg0.N = Cert.Spec.y0t (W1 m d (Proc.devRef .tc main_arg0)) (W1 m d (Proc.devRef .tc main_v1)) (W1 m d (Proc.devRef .tc main_arg5)) (W1 m d (Proc.devRef .tc main_v2)) := by
  unfold dat0
  exact R0.final_4 (Vof (W1 m)) _ _ _ d

theorem r0_xt : (dat0 m d).arrAt 5 cfg0.N = Cert.Spec.xt (W1 m d (Proc.devRef .tc main_arg0)) := by
  unfold dat0
  exact R0.final_5 (Vof (W1 m)) _ _ _ d

theorem r0_s1 : (dat0 m d).arrAt 6 cfg0.N = Cert.Spec.colSum 16384 64 (Cert.Spec.y0 (W1 m d (Proc.devRef .tc main_arg0)) (W1 m d (Proc.devRef .tc main_arg5)) (W1 m d (Proc.devRef .tc main_v2))) := by
  unfold dat0
  exact R0.final_6 (Vof (W1 m)) _ _ _ d

theorem r0_s2 : (dat0 m d).arrAt 7 cfg0.N = Cert.Spec.colSumSq 16384 64 (Cert.Spec.y0 (W1 m d (Proc.devRef .tc main_arg0)) (W1 m d (Proc.devRef .tc main_arg5)) (W1 m d (Proc.devRef .tc main_v2))) := by
  unfold dat0
  exact R0.final_7 (Vof (W1 m)) _ _ _ d

theorem r3_y1 : (dat3 m d).arrAt 8 cfg3.N = Cert.Spec.pointConv (W7 m d (Proc.devRef .tc main_v29)) (W7 m d (Proc.devRef .tc main_v31)) (W7 m d (Proc.devRef .tc main_v0)) (W7 m d (Proc.devRef .tc main_v32)) (W7 m d (Proc.devRef .tc main_arg10)) (W7 m d (Proc.devRef .tc main_v33)) (W7 m d (Proc.devRef .tc main_v34)) (W7 m d (Proc.devRef .tc main_v35)) := by
  unfold dat3
  exact (R3.arrAt_8 (Vof (W7 m)) _ _ d).trans (R3.out8_spec _ _ _ _ _ _ _ _)

theorem r3_s1 : (dat3 m d).arrAt 9 cfg3.N = Cert.Spec.colSum 4096 64 (Cert.Spec.pointConv (W7 m d (Proc.devRef .tc main_v29)) (W7 m d (Proc.devRef .tc main_v31)) (W7 m d (Proc.devRef .tc main_v0)) (W7 m d (Proc.devRef .tc main_v32)) (W7 m d (Proc.devRef .tc main_arg10)) (W7 m d (Proc.devRef .tc main_v33)) (W7 m d (Proc.devRef .tc main_v34)) (W7 m d (Proc.devRef .tc main_v35))) := by
  unfold dat3
  exact (R3.arrAt_9 (Vof (W7 m)) _ _ d).trans (R3.out9_spec _ _ _ _ _ _ _ _)

theorem r3_s2 : (dat3 m d).arrAt 10 cfg3.N = Cert.Spec.colSumSq 4096 64 (Cert.Spec.pointConv (W7 m d (Proc.devRef .tc main_v29)) (W7 m d (Proc.devRef .tc main_v31)) (W7 m d (Proc.devRef .tc main_v0)) (W7 m d (Proc.devRef .tc main_v32)) (W7 m d (Proc.devRef .tc main_arg10)) (W7 m d (Proc.devRef .tc main_v33)) (W7 m d (Proc.devRef .tc main_v34)) (W7 m d (Proc.devRef .tc main_v35))) := by
  unfold dat3
  exact (R3.arrAt_10 (Vof (W7 m)) _ _ d).trans (R3.out10_spec _ _ _ _ _ _ _ _)

theorem kernel_value_of_r4
    (r4_y2 : (dat4 m d).arrAt 7 cfg4.N = Cert.Spec.conv2 (W10 m d (Proc.devRef .tc main_v36_0)) (W10 m d (Proc.devRef .tc main_v51)) (W10 m d (Proc.devRef .tc main_v52)) (W10 m d (Proc.devRef .tc main_arg14)) (W10 m d (Proc.devRef .tc main_v53)))
    (r4_xs : (dat4 m d).arrAt 8 cfg4.N = Cert.Spec.pool (W10 m d (Proc.devRef .tc main_v30)) (W10 m d (Proc.devRef .tc main_v0)))
    (r4_s1 : (dat4 m d).arrAt 9 cfg4.N = Cert.Spec.colSum 4096 128 (Cert.Spec.conv2 (W10 m d (Proc.devRef .tc main_v36_0)) (W10 m d (Proc.devRef .tc main_v51)) (W10 m d (Proc.devRef .tc main_v52)) (W10 m d (Proc.devRef .tc main_arg14)) (W10 m d (Proc.devRef .tc main_v53))))
    (r4_s2 : (dat4 m d).arrAt 10 cfg4.N = Cert.Spec.colSumSq 4096 128 (Cert.Spec.conv2 (W10 m d (Proc.devRef .tc main_v36_0)) (W10 m d (Proc.devRef .tc main_v51)) (W10 m d (Proc.devRef .tc main_v52)) (W10 m d (Proc.devRef .tc main_arg14)) (W10 m d (Proc.devRef .tc main_v53)))) :
    W13 m d (Proc.devRef .tc main_v71) = Cert.Spec.kerOut (m ((d : Thread nD τ).loc main_arg0)) (m ((d : Thread nD τ).loc main_arg1)) (m ((d : Thread nD τ).loc main_arg2)) (m ((d : Thread nD τ).loc main_arg3)) (m ((d : Thread nD τ).loc main_arg4)) (m ((d : Thread nD τ).loc main_arg5)) (m ((d : Thread nD τ).loc main_arg6)) (m ((d : Thread nD τ).loc main_arg7)) (m ((d : Thread nD τ).loc main_arg8)) (m ((d : Thread nD τ).loc main_arg9)) (m ((d : Thread nD τ).loc main_arg10)) (m ((d : Thread nD τ).loc main_arg11)) (m ((d : Thread nD τ).loc main_arg12)) (m ((d : Thread nD τ).loc main_arg13)) (m ((d : Thread nD τ).loc main_arg14)) (m ((d : Thread nD τ).loc main_arg15)) (m ((d : Thread nD τ).loc main_arg16)) (m ((d : Thread nD τ).loc main_arg17)) :=
  kernel_value_of_regions m d (r0_y0t m d) (r0_xt m d) (r0_s1 m d) (r0_s2 m d) (r3_y1 m d) (r3_s1 m d) (r3_s2 m d) r4_y2 r4_xs r4_s1 r4_s2

theorem r4_y2 : (dat4 m d).arrAt 7 cfg4.N = Cert.Spec.conv2 (W10 m d (Proc.devRef .tc main_v36_0)) (W10 m d (Proc.devRef .tc main_v51)) (W10 m d (Proc.devRef .tc main_v52)) (W10 m d (Proc.devRef .tc main_arg14)) (W10 m d (Proc.devRef .tc main_v53)) := by
  unfold dat4
  exact R4.arrAt_7_spec (Vof (W10 m)) _ _ d

theorem r4_xs : (dat4 m d).arrAt 8 cfg4.N = Cert.Spec.pool (W10 m d (Proc.devRef .tc main_v30)) (W10 m d (Proc.devRef .tc main_v0)) := by
  unfold dat4
  exact R4.arrAt_8_spec (Vof (W10 m)) _ _ d

theorem r4_s1 : (dat4 m d).arrAt 9 cfg4.N = Cert.Spec.colSum 4096 128 (Cert.Spec.conv2 (W10 m d (Proc.devRef .tc main_v36_0)) (W10 m d (Proc.devRef .tc main_v51)) (W10 m d (Proc.devRef .tc main_v52)) (W10 m d (Proc.devRef .tc main_arg14)) (W10 m d (Proc.devRef .tc main_v53))) := by
  unfold dat4
  exact R4.arrAt_9_spec (Vof (W10 m)) _ _ d

theorem r4_s2 : (dat4 m d).arrAt 10 cfg4.N = Cert.Spec.colSumSq 4096 128 (Cert.Spec.conv2 (W10 m d (Proc.devRef .tc main_v36_0)) (W10 m d (Proc.devRef .tc main_v51)) (W10 m d (Proc.devRef .tc main_v52)) (W10 m d (Proc.devRef .tc main_arg14)) (W10 m d (Proc.devRef .tc main_v53))) := by
  unfold dat4
  exact R4.arrAt_10_spec (Vof (W10 m)) _ _ d

theorem kernel_value_final :
    W13 m d (Proc.devRef .tc main_v71) = Cert.Spec.kerOut (m ((d : Thread nD τ).loc main_arg0)) (m ((d : Thread nD τ).loc main_arg1)) (m ((d : Thread nD τ).loc main_arg2)) (m ((d : Thread nD τ).loc main_arg3)) (m ((d : Thread nD τ).loc main_arg4)) (m ((d : Thread nD τ).loc main_arg5)) (m ((d : Thread nD τ).loc main_arg6)) (m ((d : Thread nD τ).loc main_arg7)) (m ((d : Thread nD τ).loc main_arg8)) (m ((d : Thread nD τ).loc main_arg9)) (m ((d : Thread nD τ).loc main_arg10)) (m ((d : Thread nD τ).loc main_arg11)) (m ((d : Thread nD τ).loc main_arg12)) (m ((d : Thread nD τ).loc main_arg13)) (m ((d : Thread nD τ).loc main_arg14)) (m ((d : Thread nD τ).loc main_arg15)) (m ((d : Thread nD τ).loc main_arg16)) (m ((d : Thread nD τ).loc main_arg17)) :=
  kernel_value_of_r4 m d (r4_y2 m d) (r4_xs m d) (r4_s1 m d) (r4_s2 m d)

end KerFinal

end Cert.KernelIdeal.Launch

end
-- ==== Proof.lean ====
/-
  The claim's five conjuncts. The two kernel programs are one text read at two float instances, so one run theorem,
  generic in the instance, gives both frames; the reference's frame is its run with the value dropped; the algebraic
  conjunct pairs the two runs and equates the results, index by index, on the precondition's domain.
-/
import proofs.«214766_g21345987461187_cont_8to1_720_22_alg».proof.Defs
import proofs.«214766_g21345987461187_cont_8to1_720_22_alg».proof.Proof.Gen.Kernel
import proofs.«214766_g21345987461187_cont_8to1_720_22_alg».proof.Proof.Gen.KernelIdeal
import proofs.«214766_g21345987461187_cont_8to1_720_22_alg».proof.Proof.Gen.ReferenceIdeal
import proofs.«214766_g21345987461187_cont_8to1_720_22_alg».proof.Proof.Gen.Pre_input_domain
import proofs.«214766_g21345987461187_cont_8to1_720_22_alg».proof.Proof.Claims
import proofs.«214766_g21345987461187_cont_8to1_720_22_alg».proof.Proof.Launch.KerFinal

noncomputable section

namespace Cert.Proof

open Idealize.ShloMosaic Idealize.SL.Sem Idealize.ShloMosaic.Tactic

-- the first program is the idealized program's text under other names, so its frame is the generic frame at its own float instance
theorem frame_k : Cert.frame_Kernel (hKernel := Cert.Kernel.Gen.facts) (hPre_input_domain := Cert.Pre_input_domain.Gen.facts) :=
  cast (by sl_kernel_rfl) (Cert.KernelIdeal.Launch.frameAt (F := Bits))

theorem claim : Cert.Claim :=
  ⟨Cert.Kernel.Gen.facts, Cert.KernelIdeal.Gen.facts, Cert.ReferenceIdeal.Gen.facts, Cert.Pre_input_domain.Gen.facts,
    frame_k, Claims.frame_ki, Claims.frame_ri, trivial,
    Claims.algebraic_of fun m _ c => Cert.KernelIdeal.Launch.kernel_value_final m c⟩

end Cert.Proof

end
